-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![2, 1024, 1024]⟩ (Layout.meshBlock [2, 2, 4] ![[1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 512]⟩ ⟨2, ![1024, 1024]⟩ (Layout.meshBlock [2, 2, 4] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x1024x1024 : Shape := ⟨3, ![1, 1024, 1024]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel

variable [Facts]

def fn {F : FTy → Type} [FloatOps F] (main_arg0 : FVec F S1x1024x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  main_v3
-- ==== Pre_finite_inputs_ReferenceIdeal.lean ====
abbrev S2x1024x1024 : Shape := ⟨3, ![2, 1024, 1024]⟩
abbrev S_ : Shape := ⟨0, ![]⟩

class Facts : Prop where
  bcast_S_S2x1024x1024 : S_.BroadcastsInDim S2x1024x1024 (![] : Fin 0 → Fin S2x1024x1024.rank)
  reducesTo_S2x1024x1024_S_d0_1_2 : S2x1024x1024.ReducesTo [0, 1, 2] S_
  h_S_ : 0 < S_.numel

variable [Facts]

def fn {F : FTy → Type} [FloatOps F] (main_arg0 : FVec F S2x1024x1024 .f32) : IVec S_ 1 :=
  let main_v0 : FVec F S2x1024x1024 .f32 := Host.absf main_arg0
  let main_cst : FVec F S_ .f32 := constant S_ .f32 0x7F800000#32
  let main_v1 : FVec F S2x1024x1024 .f32 := broadcastInDim S2x1024x1024 ![] bcast_S_S2x1024x1024 main_cst
  let main_v2 : IVec S2x1024x1024 1 := cmpf .olt main_v0 main_v1
  let main_c : IVec S_ 1 := constantI S_ 1 1#1
  let main_v3 : IVec S_ 1 := (fun x v => Host.reduce IntOp.andi x v reducesTo_S2x1024x1024_S_d0_1_2 h_S_) main_v2 main_c
  main_v3
-- ==== Kernel.lean ====
abbrev S1x1024x1024 : Shape := ⟨3, ![1, 1024, 1024]⟩
abbrev S1024x512 : Shape := ⟨2, ![1024, 512]⟩
abbrev S256x512 : Shape := ⟨2, ![256, 512]⟩
abbrev S8 : Shape := ⟨1, ![8]⟩
abbrev S3 : Shape := ⟨1, ![3]⟩
abbrev S2 : Shape := ⟨1, ![2]⟩
abbrev S_ : Shape := ⟨0, ![]⟩
abbrev S1 : Shape := ⟨1, ![1]⟩
abbrev S32x512 : Shape := ⟨2, ![32, 512]⟩
abbrev S1x32x512 : Shape := ⟨3, ![1, 32, 512]⟩

abbrev nBuf : Space → Nat
  | .hbm => 2
  | .vmem => 6
  | .smem => 0
  | _ => 0

abbrev bufTy : (tb : Table) → Fin (tcTables nBuf tb) → BufTy
  | .hbm, ⟨0, _⟩ => ⟨S1x1024x1024, .f32⟩
  | .hbm, ⟨1, _⟩ => ⟨S1024x512, .f32⟩
  | .local _ .vmem, ⟨0, _⟩ => ⟨S1x1024x1024, .f32⟩
  | .local _ .vmem, ⟨1, _⟩ => ⟨S1024x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_23 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_22 : BitVec 32 := 8#32
  let v40 : BitVec 32 := Scalar.muli v2 c8_i32_22
  let v41 : BitVec 32 := Scalar.addi c0_i32_23 v40
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_24 : BitVec 32 := 4#32
  let v42 : BitVec 32 := Scalar.muli v19 c4_i32_24
  let v43 : BitVec 32 := Scalar.addi v41 v42
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v44 : BitVec 32 := Scalar.muli v8 c1_i32_25
  let v45 : BitVec 32 := Scalar.addi v43 v44
  v45.toNat
def k0_dev2 (d0 : Dev nD) : Nat :=
  let c0_i32_28 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_27 : BitVec 32 := 8#32
  let v46 : BitVec 32 := Scalar.muli v20 c8_i32_27
  let v47 : BitVec 32 := Scalar.addi c0_i32_28 v46
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_29 : BitVec 32 := 4#32
  let v48 : BitVec 32 := Scalar.muli v5 c4_i32_29
  let v49 : BitVec 32 := Scalar.addi v47 v48
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v50 : BitVec 32 := Scalar.muli v8 c1_i32_30
  let v51 : BitVec 32 := Scalar.addi v49 v50
  v51.toNat
def k0_dev3 (d0 : Dev nD) : Nat :=
  let c0_i32_33 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_32 : BitVec 32 := 8#32
  let v52 : BitVec 32 := Scalar.muli v2 c8_i32_32
  let v53 : BitVec 32 := Scalar.addi c0_i32_33 v52
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_34 : BitVec 32 := 4#32
  let v54 : BitVec 32 := Scalar.muli v5 c4_i32_34
  let v55 : BitVec 32 := Scalar.addi v53 v54
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_35 : BitVec 32 := 1#32
  let v56 : BitVec 32 := Scalar.muli v23 c1_i32_35
  let v57 : BitVec 32 := Scalar.addi v55 v56
  v57.toNat
def k0_off1 (d0 : Dev nD) (c0_i32_36 : BitVec 32) : Fin 3 → Nat :=
  let c0_i32_37 : BitVec 32 := 0#32
  let c2_i32_11 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v24 : BitVec 32 := Scalar.muli c2_i32_11 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c256_i32 : BitVec 32 := 256#32
  let v58 : BitVec 32 := Scalar.muli v25 c256_i32
  let v59 : BitVec 32 := Scalar.addi v58 c0_i32_36
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_19 v5
  let c512_i32_20 : BitVec 32 := 512#32
  let v38 : BitVec 32 := Scalar.muli v37 c512_i32_20
  ![0, v59.toNat, v38.toNat]
def k0_dev4 (d0 : Dev nD) : Nat :=
  let c0_i32_41 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_40 : BitVec 32 := 8#32
  let v60 : BitVec 32 := Scalar.muli v2 c8_i32_40
  let v61 : BitVec 32 := Scalar.addi c0_i32_41 v60
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_42 : BitVec 32 := 4#32
  let v62 : BitVec 32 := Scalar.muli v19 c4_i32_42
  let v63 : BitVec 32 := Scalar.addi v61 v62
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_43 : BitVec 32 := 1#32
  let v64 : BitVec 32 := Scalar.muli v8 c1_i32_43
  let v65 : BitVec 32 := Scalar.addi v63 v64
  v65.toNat
def k0_dev5 (d0 : Dev nD) : Nat :=
  let c0_i32_51 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_50 : BitVec 32 := 8#32
  let v75 : BitVec 32 := Scalar.muli v2 c8_i32_50
  let v76 : BitVec 32 := Scalar.addi c0_i32_51 v75
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_52 : BitVec 32 := 4#32
  let v77 : BitVec 32 := Scalar.muli v19 c4_i32_52
  let v78 : BitVec 32 := Scalar.addi v76 v77
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v79 : BitVec 32 := Scalar.muli v8 c1_i32_53
  let v80 : BitVec 32 := Scalar.addi v78 v79
  v80.toNat
def k0_dev6 (d0 : Dev nD) : Nat :=
  let c0_i32_61 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_60 : BitVec 32 := 8#32
  let v90 : BitVec 32 := Scalar.muli v2 c8_i32_60
  let v91 : BitVec 32 := Scalar.addi c0_i32_61 v90
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_62 : BitVec 32 := 4#32
  let v92 : BitVec 32 := Scalar.muli v19 c4_i32_62
  let v93 : BitVec 32 := Scalar.addi v91 v92
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_63 : BitVec 32 := 1#32
  let v94 : BitVec 32 := Scalar.muli v8 c1_i32_63
  let v95 : BitVec 32 := Scalar.addi v93 v94
  v95.toNat
def k0_dev7 (d0 : Dev nD) : Nat :=
  let c0_i32_71 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_70 : BitVec 32 := 8#32
  let v105 : BitVec 32 := Scalar.muli v2 c8_i32_70
  let v106 : BitVec 32 := Scalar.addi c0_i32_71 v105
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_72 : BitVec 32 := 4#32
  let v107 : BitVec 32 := Scalar.muli v19 c4_i32_72
  let v108 : BitVec 32 := Scalar.addi v106 v107
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_73 : BitVec 32 := 1#32
  let v109 : BitVec 32 := Scalar.muli v8 c1_i32_73
  let v110 : BitVec 32 := Scalar.addi v108 v109
  v110.toNat
def k0_dev8 (d0 : Dev nD) : Nat :=
  let c0_i32_81 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_80 : BitVec 32 := 8#32
  let v120 : BitVec 32 := Scalar.muli v2 c8_i32_80
  let v121 : BitVec 32 := Scalar.addi c0_i32_81 v120
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_82 : BitVec 32 := 4#32
  let v122 : BitVec 32 := Scalar.muli v19 c4_i32_82
  let v123 : BitVec 32 := Scalar.addi v121 v122
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_83 : BitVec 32 := 1#32
  let v124 : BitVec 32 := Scalar.muli v8 c1_i32_83
  let v125 : BitVec 32 := Scalar.addi v123 v124
  v125.toNat
def k0_dev9 (d0 : Dev nD) : Nat :=
  let c0_i32_90 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_89 : BitVec 32 := 8#32
  let v135 : BitVec 32 := Scalar.muli v2 c8_i32_89
  let v136 : BitVec 32 := Scalar.addi c0_i32_90 v135
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_91 : BitVec 32 := 4#32
  let v137 : BitVec 32 := Scalar.muli v19 c4_i32_91
  let v138 : BitVec 32 := Scalar.addi v136 v137
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_92 : BitVec 32 := 1#32
  let v139 : BitVec 32 := Scalar.muli v8 c1_i32_92
  let v140 : BitVec 32 := Scalar.addi v138 v139
  v140.toNat
def k0_dev10 (d0 : Dev nD) : Nat :=
  let c0_i32_99 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_98 : BitVec 32 := 8#32
  let v150 : BitVec 32 := Scalar.muli v2 c8_i32_98
  let v151 : BitVec 32 := Scalar.addi c0_i32_99 v150
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_100 : BitVec 32 := 4#32
  let v152 : BitVec 32 := Scalar.muli v19 c4_i32_100
  let v153 : BitVec 32 := Scalar.addi v151 v152
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_101 : BitVec 32 := 1#32
  let v154 : BitVec 32 := Scalar.muli v8 c1_i32_101
  let v155 : BitVec 32 := Scalar.addi v153 v154
  v155.toNat
def k0_dev11 (d0 : Dev nD) : Nat :=
  let c0_i32_108 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_107 : BitVec 32 := 8#32
  let v165 : BitVec 32 := Scalar.muli v2 c8_i32_107
  let v166 : BitVec 32 := Scalar.addi c0_i32_108 v165
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_109 : BitVec 32 := 4#32
  let v167 : BitVec 32 := Scalar.muli v19 c4_i32_109
  let v168 : BitVec 32 := Scalar.addi v166 v167
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_110 : BitVec 32 := 1#32
  let v169 : BitVec 32 := Scalar.muli v8 c1_i32_110
  let v170 : BitVec 32 := Scalar.addi v168 v169
  v170.toNat
def k0_off2 (d0 : Dev nD) (c0_i32_114 : BitVec 32) : Fin 3 → Nat :=
  let c0_i32_115 : BitVec 32 := 0#32
  let c2_i32_17 : BitVec 32 := 2#32
  let c1_i32_16 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.subi c1_i32_16 v2
  let v33 : BitVec 32 := Scalar.muli c2_i32_17 v32
  let c1_i32_18 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v34 : BitVec 32 := Scalar.subi c1_i32_18 v18
  let v35 : BitVec 32 := Scalar.addi v33 v34
  let c256_i32_113 : BitVec 32 := 256#32
  let v178 : BitVec 32 := Scalar.muli v35 c256_i32_113
  let v179 : BitVec 32 := Scalar.addi v178 c0_i32_114
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v37 : BitVec 32 := Scalar.subi c1_i32_19 v5
  let c512_i32_20 : BitVec 32 := 512#32
  let v38 : BitVec 32 := Scalar.muli v37 c512_i32_20
  ![0, v179.toNat, v38.toNat]
def k0_dev12 (d0 : Dev nD) : Nat :=
  let c0_i32_119 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_118 : BitVec 32 := 8#32
  let v180 : BitVec 32 := Scalar.muli v2 c8_i32_118
  let v181 : BitVec 32 := Scalar.addi c0_i32_119 v180
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_120 : BitVec 32 := 4#32
  let v182 : BitVec 32 := Scalar.muli v19 c4_i32_120
  let v183 : BitVec 32 := Scalar.addi v181 v182
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_121 : BitVec 32 := 1#32
  let v184 : BitVec 32 := Scalar.muli v8 c1_i32_121
  let v185 : BitVec 32 := Scalar.addi v183 v184
  v185.toNat
def k0_dev13 (d0 : Dev nD) : Nat :=
  let c0_i32_130 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_129 : BitVec 32 := 8#32
  let v195 : BitVec 32 := Scalar.muli v2 c8_i32_129
  let v196 : BitVec 32 := Scalar.addi c0_i32_130 v195
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_131 : BitVec 32 := 4#32
  let v197 : BitVec 32 := Scalar.muli v19 c4_i32_131
  let v198 : BitVec 32 := Scalar.addi v196 v197
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_132 : BitVec 32 := 1#32
  let v199 : BitVec 32 := Scalar.muli v8 c1_i32_132
  let v200 : BitVec 32 := Scalar.addi v198 v199
  v200.toNat
def k0_dev14 (d0 : Dev nD) : Nat :=
  let c0_i32_141 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_140 : BitVec 32 := 8#32
  let v210 : BitVec 32 := Scalar.muli v2 c8_i32_140
  let v211 : BitVec 32 := Scalar.addi c0_i32_141 v210
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_142 : BitVec 32 := 4#32
  let v212 : BitVec 32 := Scalar.muli v19 c4_i32_142
  let v213 : BitVec 32 := Scalar.addi v211 v212
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_143 : BitVec 32 := 1#32
  let v214 : BitVec 32 := Scalar.muli v8 c1_i32_143
  let v215 : BitVec 32 := Scalar.addi v213 v214
  v215.toNat
def k0_dev15 (d0 : Dev nD) : Nat :=
  let c0_i32_158 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_157 : BitVec 32 := 8#32
  let v234 : BitVec 32 := Scalar.muli v20 c8_i32_157
  let v235 : BitVec 32 := Scalar.addi c0_i32_158 v234
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_159 : BitVec 32 := 4#32
  let v236 : BitVec 32 := Scalar.muli v5 c4_i32_159
  let v237 : BitVec 32 := Scalar.addi v235 v236
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_160 : BitVec 32 := 1#32
  let v238 : BitVec 32 := Scalar.muli v8 c1_i32_160
  let v239 : BitVec 32 := Scalar.addi v237 v238
  v239.toNat
def k0_dev16 (d0 : Dev nD) : Nat :=
  let c0_i32_168 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_167 : BitVec 32 := 8#32
  let v246 : BitVec 32 := Scalar.muli v2 c8_i32_167
  let v247 : BitVec 32 := Scalar.addi c0_i32_168 v246
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_169 : BitVec 32 := 4#32
  let v248 : BitVec 32 := Scalar.muli v5 c4_i32_169
  let v249 : BitVec 32 := Scalar.addi v247 v248
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_170 : BitVec 32 := 1#32
  let v250 : BitVec 32 := Scalar.muli v23 c1_i32_170
  let v251 : BitVec 32 := Scalar.addi v249 v250
  v251.toNat
def k0_off3 (d0 : Dev nD) (c0_i32_176 : BitVec 32) : Fin 3 → Nat :=
  let c0 : Index := 0#32
  let c2_i32_11 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v24 : BitVec 32 := Scalar.muli c2_i32_11 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c256_i32_175 : BitVec 32 := 256#32
  let v258 : BitVec 32 := Scalar.muli v25 c256_i32_175
  let v259 : BitVec 32 := Scalar.addi v258 c0_i32_176
  let v260 : Index := Scalar.indexCast v259
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v36 : BitVec 32 := Scalar.muli v5 c512_i32
  let v261 : Index := Scalar.indexCast v36
  ![0, v260.toNat, v261.toNat]
def k0_off4 (d0 : Dev nD) (c0_i32_180 : BitVec 32) : Fin 2 → Nat :=
  let c2_i32_11 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v24 : BitVec 32 := Scalar.muli c2_i32_11 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c256_i32_179 : BitVec 32 := 256#32
  let v266 : BitVec 32 := Scalar.muli v25 c256_i32_179
  let v267 : BitVec 32 := Scalar.addi v266 c0_i32_180
  let v268 : Index := Scalar.indexCast v267
  let c0_181 : Index := 0#32
  ![v268.toNat, 0]
def k0_dev17 (d0 : Dev nD) : Nat :=
  let c0_i32_194 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_193 : BitVec 32 := 8#32
  let v281 : BitVec 32 := Scalar.muli v20 c8_i32_193
  let v282 : BitVec 32 := Scalar.addi c0_i32_194 v281
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_195 : BitVec 32 := 4#32
  let v283 : BitVec 32 := Scalar.muli v5 c4_i32_195
  let v284 : BitVec 32 := Scalar.addi v282 v283
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_196 : BitVec 32 := 1#32
  let v285 : BitVec 32 := Scalar.muli v8 c1_i32_196
  let v286 : BitVec 32 := Scalar.addi v284 v285
  v286.toNat
def k0_dev18 (d0 : Dev nD) : Nat :=
  let c0_i32_204 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_203 : BitVec 32 := 8#32
  let v293 : BitVec 32 := Scalar.muli v2 c8_i32_203
  let v294 : BitVec 32 := Scalar.addi c0_i32_204 v293
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_205 : BitVec 32 := 4#32
  let v295 : BitVec 32 := Scalar.muli v5 c4_i32_205
  let v296 : BitVec 32 := Scalar.addi v294 v295
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_206 : BitVec 32 := 1#32
  let v297 : BitVec 32 := Scalar.muli v23 c1_i32_206
  let v298 : BitVec 32 := Scalar.addi v296 v297
  v298.toNat
def k0_dev19 (d0 : Dev nD) : Nat :=
  let c0_i32_230 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_229 : BitVec 32 := 8#32
  let v328 : BitVec 32 := Scalar.muli v20 c8_i32_229
  let v329 : BitVec 32 := Scalar.addi c0_i32_230 v328
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_231 : BitVec 32 := 4#32
  let v330 : BitVec 32 := Scalar.muli v5 c4_i32_231
  let v331 : BitVec 32 := Scalar.addi v329 v330
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_232 : BitVec 32 := 1#32
  let v332 : BitVec 32 := Scalar.muli v8 c1_i32_232
  let v333 : BitVec 32 := Scalar.addi v331 v332
  v333.toNat
def k0_dev20 (d0 : Dev nD) : Nat :=
  let c0_i32_240 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_239 : BitVec 32 := 8#32
  let v340 : BitVec 32 := Scalar.muli v2 c8_i32_239
  let v341 : BitVec 32 := Scalar.addi c0_i32_240 v340
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_241 : BitVec 32 := 4#32
  let v342 : BitVec 32 := Scalar.muli v5 c4_i32_241
  let v343 : BitVec 32 := Scalar.addi v341 v342
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_242 : BitVec 32 := 1#32
  let v344 : BitVec 32 := Scalar.muli v23 c1_i32_242
  let v345 : BitVec 32 := Scalar.addi v343 v344
  v345.toNat
def k0_dev21 (d0 : Dev nD) : Nat :=
  let c0_i32_266 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_265 : BitVec 32 := 8#32
  let v375 : BitVec 32 := Scalar.muli v20 c8_i32_265
  let v376 : BitVec 32 := Scalar.addi c0_i32_266 v375
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_267 : BitVec 32 := 4#32
  let v377 : BitVec 32 := Scalar.muli v5 c4_i32_267
  let v378 : BitVec 32 := Scalar.addi v376 v377
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_268 : BitVec 32 := 1#32
  let v379 : BitVec 32 := Scalar.muli v8 c1_i32_268
  let v380 : BitVec 32 := Scalar.addi v378 v379
  v380.toNat
def k0_dev22 (d0 : Dev nD) : Nat :=
  let c0_i32_276 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_275 : BitVec 32 := 8#32
  let v387 : BitVec 32 := Scalar.muli v2 c8_i32_275
  let v388 : BitVec 32 := Scalar.addi c0_i32_276 v387
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_277 : BitVec 32 := 4#32
  let v389 : BitVec 32 := Scalar.muli v5 c4_i32_277
  let v390 : BitVec 32 := Scalar.addi v388 v389
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_278 : BitVec 32 := 1#32
  let v391 : BitVec 32 := Scalar.muli v23 c1_i32_278
  let v392 : BitVec 32 := Scalar.addi v390 v391
  v392.toNat
def k0_dev23 (d0 : Dev nD) : Nat :=
  let c0_i32_302 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_301 : BitVec 32 := 8#32
  let v422 : BitVec 32 := Scalar.muli v20 c8_i32_301
  let v423 : BitVec 32 := Scalar.addi c0_i32_302 v422
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_303 : BitVec 32 := 4#32
  let v424 : BitVec 32 := Scalar.muli v5 c4_i32_303
  let v425 : BitVec 32 := Scalar.addi v423 v424
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_304 : BitVec 32 := 1#32
  let v426 : BitVec 32 := Scalar.muli v8 c1_i32_304
  let v427 : BitVec 32 := Scalar.addi v425 v426
  v427.toNat
def k0_dev24 (d0 : Dev nD) : Nat :=
  let c0_i32_312 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_311 : BitVec 32 := 8#32
  let v434 : BitVec 32 := Scalar.muli v2 c8_i32_311
  let v435 : BitVec 32 := Scalar.addi c0_i32_312 v434
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_313 : BitVec 32 := 4#32
  let v436 : BitVec 32 := Scalar.muli v5 c4_i32_313
  let v437 : BitVec 32 := Scalar.addi v435 v436
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_314 : BitVec 32 := 1#32
  let v438 : BitVec 32 := Scalar.muli v23 c1_i32_314
  let v439 : BitVec 32 := Scalar.addi v437 v438
  v439.toNat
def k0_dev25 (d0 : Dev nD) : Nat :=
  let c0_i32_338 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_337 : BitVec 32 := 8#32
  let v469 : BitVec 32 := Scalar.muli v20 c8_i32_337
  let v470 : BitVec 32 := Scalar.addi c0_i32_338 v469
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_339 : BitVec 32 := 4#32
  let v471 : BitVec 32 := Scalar.muli v5 c4_i32_339
  let v472 : BitVec 32 := Scalar.addi v470 v471
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_340 : BitVec 32 := 1#32
  let v473 : BitVec 32 := Scalar.muli v8 c1_i32_340
  let v474 : BitVec 32 := Scalar.addi v472 v473
  v474.toNat
def k0_dev26 (d0 : Dev nD) : Nat :=
  let c0_i32_348 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_347 : BitVec 32 := 8#32
  let v481 : BitVec 32 := Scalar.muli v2 c8_i32_347
  let v482 : BitVec 32 := Scalar.addi c0_i32_348 v481
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_349 : BitVec 32 := 4#32
  let v483 : BitVec 32 := Scalar.muli v5 c4_i32_349
  let v484 : BitVec 32 := Scalar.addi v482 v483
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_350 : BitVec 32 := 1#32
  let v485 : BitVec 32 := Scalar.muli v23 c1_i32_350
  let v486 : BitVec 32 := Scalar.addi v484 v485
  v486.toNat
def k0_dev27 (d0 : Dev nD) : Nat :=
  let c0_i32_374 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_373 : BitVec 32 := 8#32
  let v516 : BitVec 32 := Scalar.muli v20 c8_i32_373
  let v517 : BitVec 32 := Scalar.addi c0_i32_374 v516
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_375 : BitVec 32 := 4#32
  let v518 : BitVec 32 := Scalar.muli v5 c4_i32_375
  let v519 : BitVec 32 := Scalar.addi v517 v518
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_376 : BitVec 32 := 1#32
  let v520 : BitVec 32 := Scalar.muli v8 c1_i32_376
  let v521 : BitVec 32 := Scalar.addi v519 v520
  v521.toNat
def k0_dev28 (d0 : Dev nD) : Nat :=
  let c0_i32_384 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_383 : BitVec 32 := 8#32
  let v528 : BitVec 32 := Scalar.muli v2 c8_i32_383
  let v529 : BitVec 32 := Scalar.addi c0_i32_384 v528
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_385 : BitVec 32 := 4#32
  let v530 : BitVec 32 := Scalar.muli v5 c4_i32_385
  let v531 : BitVec 32 := Scalar.addi v529 v530
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_386 : BitVec 32 := 1#32
  let v532 : BitVec 32 := Scalar.muli v23 c1_i32_386
  let v533 : BitVec 32 := Scalar.addi v531 v532
  v533.toNat
def k0_dev29 (d0 : Dev nD) : Nat :=
  let c0_i32_410 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_409 : BitVec 32 := 8#32
  let v563 : BitVec 32 := Scalar.muli v20 c8_i32_409
  let v564 : BitVec 32 := Scalar.addi c0_i32_410 v563
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_411 : BitVec 32 := 4#32
  let v565 : BitVec 32 := Scalar.muli v5 c4_i32_411
  let v566 : BitVec 32 := Scalar.addi v564 v565
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_412 : BitVec 32 := 1#32
  let v567 : BitVec 32 := Scalar.muli v8 c1_i32_412
  let v568 : BitVec 32 := Scalar.addi v566 v567
  v568.toNat
def k0_dev30 (d0 : Dev nD) : Nat :=
  let c0_i32_420 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_419 : BitVec 32 := 8#32
  let v575 : BitVec 32 := Scalar.muli v2 c8_i32_419
  let v576 : BitVec 32 := Scalar.addi c0_i32_420 v575
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_421 : BitVec 32 := 4#32
  let v577 : BitVec 32 := Scalar.muli v5 c4_i32_421
  let v578 : BitVec 32 := Scalar.addi v576 v577
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_422 : BitVec 32 := 1#32
  let v579 : BitVec 32 := Scalar.muli v23 c1_i32_422
  let v580 : BitVec 32 := Scalar.addi v578 v579
  v580.toNat
def k0_off5 (d0 : Dev nD) (c0_i32_445 : BitVec 32) : Fin 3 → Nat :=
  let c0_446 : Index := 0#32
  let c2_i32_14 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v29 : BitVec 32 := Scalar.muli c2_i32_14 v2
  let c1_i32_15 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v30 : BitVec 32 := Scalar.subi c1_i32_15 v18
  let v31 : BitVec 32 := Scalar.addi v29 v30
  let c256_i32_444 : BitVec 32 := 256#32
  let v609 : BitVec 32 := Scalar.muli v31 c256_i32_444
  let v610 : BitVec 32 := Scalar.addi v609 c0_i32_445
  let v611 : Index := Scalar.indexCast v610
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v36 : BitVec 32 := Scalar.muli v5 c512_i32
  let v612 : Index := Scalar.indexCast v36
  ![0, v611.toNat, v612.toNat]
def k0_off6 (d0 : Dev nD) (c0_i32_450 : BitVec 32) : Fin 2 → Nat :=
  let c2_i32_14 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v29 : BitVec 32 := Scalar.muli c2_i32_14 v2
  let c1_i32_15 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v30 : BitVec 32 := Scalar.subi c1_i32_15 v18
  let v31 : BitVec 32 := Scalar.addi v29 v30
  let c256_i32_449 : BitVec 32 := 256#32
  let v617 : BitVec 32 := Scalar.muli v31 c256_i32_449
  let v618 : BitVec 32 := Scalar.addi v617 c0_i32_450
  let v619 : Index := Scalar.indexCast v618
  let c0_451 : Index := 0#32
  ![v619.toNat, 0]
def k0_off7 (d0 : Dev nD) (c0_i32_463 : BitVec 32) : Fin 3 → Nat :=
  let c0_464 : Index := 0#32
  let c2_i32_13 : BitVec 32 := 2#32
  let c1_i32_12 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v26 : BitVec 32 := Scalar.subi c1_i32_12 v2
  let v27 : BitVec 32 := Scalar.muli c2_i32_13 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.addi v27 v18
  let c256_i32_462 : BitVec 32 := 256#32
  let v631 : BitVec 32 := Scalar.muli v28 c256_i32_462
  let v632 : BitVec 32 := Scalar.addi v631 c0_i32_463
  let v633 : Index := Scalar.indexCast v632
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v36 : BitVec 32 := Scalar.muli v5 c512_i32
  let v634 : Index := Scalar.indexCast v36
  ![0, v633.toNat, v634.toNat]
def k0_off8 (d0 : Dev nD) (c0_i32_468 : BitVec 32) : Fin 2 → Nat :=
  let c2_i32_13 : BitVec 32 := 2#32
  let c1_i32_12 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v26 : BitVec 32 := Scalar.subi c1_i32_12 v2
  let v27 : BitVec 32 := Scalar.muli c2_i32_13 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.addi v27 v18
  let c256_i32_467 : BitVec 32 := 256#32
  let v639 : BitVec 32 := Scalar.muli v28 c256_i32_467
  let v640 : BitVec 32 := Scalar.addi v639 c0_i32_468
  let v641 : Index := Scalar.indexCast v640
  let c0_469 : Index := 0#32
  ![v641.toNat, 0]
def k0_dev31 (d0 : Dev nD) : Nat :=
  let c0_i32_555 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_554 : BitVec 32 := 8#32
  let v741 : BitVec 32 := Scalar.muli v20 c8_i32_554
  let v742 : BitVec 32 := Scalar.addi c0_i32_555 v741
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_556 : BitVec 32 := 4#32
  let v743 : BitVec 32 := Scalar.muli v5 c4_i32_556
  let v744 : BitVec 32 := Scalar.addi v742 v743
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_557 : BitVec 32 := 1#32
  let v745 : BitVec 32 := Scalar.muli v8 c1_i32_557
  let v746 : BitVec 32 := Scalar.addi v744 v745
  v746.toNat
def k0_dev32 (d0 : Dev nD) : Nat :=
  let c0_i32_601 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_600 : BitVec 32 := 8#32
  let v797 : BitVec 32 := Scalar.muli v20 c8_i32_600
  let v798 : BitVec 32 := Scalar.addi c0_i32_601 v797
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_602 : BitVec 32 := 4#32
  let v799 : BitVec 32 := Scalar.muli v5 c4_i32_602
  let v800 : BitVec 32 := Scalar.addi v798 v799
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_603 : BitVec 32 := 1#32
  let v801 : BitVec 32 := Scalar.muli v8 c1_i32_603
  let v802 : BitVec 32 := Scalar.addi v800 v801
  v802.toNat
def k0_dev33 (d0 : Dev nD) : Nat :=
  let c0_i32_647 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_646 : BitVec 32 := 8#32
  let v853 : BitVec 32 := Scalar.muli v20 c8_i32_646
  let v854 : BitVec 32 := Scalar.addi c0_i32_647 v853
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_648 : BitVec 32 := 4#32
  let v855 : BitVec 32 := Scalar.muli v5 c4_i32_648
  let v856 : BitVec 32 := Scalar.addi v854 v855
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_649 : BitVec 32 := 1#32
  let v857 : BitVec 32 := Scalar.muli v8 c1_i32_649
  let v858 : BitVec 32 := Scalar.addi v856 v857
  v858.toNat
def k0_dev34 (d0 : Dev nD) : Nat :=
  let c0_i32_711 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_710 : BitVec 32 := 8#32
  let v931 : BitVec 32 := Scalar.muli v2 c8_i32_710
  let v932 : BitVec 32 := Scalar.addi c0_i32_711 v931
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_712 : BitVec 32 := 4#32
  let v933 : BitVec 32 := Scalar.muli v5 c4_i32_712
  let v934 : BitVec 32 := Scalar.addi v932 v933
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_713 : BitVec 32 := 1#32
  let v935 : BitVec 32 := Scalar.muli v23 c1_i32_713
  let v936 : BitVec 32 := Scalar.addi v934 v935
  v936.toNat
def k0_dev35 (d0 : Dev nD) : Nat :=
  let c0_i32_757 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_756 : BitVec 32 := 8#32
  let v987 : BitVec 32 := Scalar.muli v2 c8_i32_756
  let v988 : BitVec 32 := Scalar.addi c0_i32_757 v987
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_758 : BitVec 32 := 4#32
  let v989 : BitVec 32 := Scalar.muli v5 c4_i32_758
  let v990 : BitVec 32 := Scalar.addi v988 v989
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_759 : BitVec 32 := 1#32
  let v991 : BitVec 32 := Scalar.muli v23 c1_i32_759
  let v992 : BitVec 32 := Scalar.addi v990 v991
  v992.toNat
def k0_off9 (d0 : Dev nD) (c0_i32_782 : BitVec 32) : Fin 3 → Nat :=
  let c0_783 : Index := 0#32
  let c2_i32_17 : BitVec 32 := 2#32
  let c1_i32_16 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.subi c1_i32_16 v2
  let v33 : BitVec 32 := Scalar.muli c2_i32_17 v32
  let c1_i32_18 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v34 : BitVec 32 := Scalar.subi c1_i32_18 v18
  let v35 : BitVec 32 := Scalar.addi v33 v34
  let c256_i32_781 : BitVec 32 := 256#32
  let v1022 : BitVec 32 := Scalar.muli v35 c256_i32_781
  let v1023 : BitVec 32 := Scalar.addi v1022 c0_i32_782
  let v1024 : Index := Scalar.indexCast v1023
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v36 : BitVec 32 := Scalar.muli v5 c512_i32
  let v1025 : Index := Scalar.indexCast v36
  ![0, v1024.toNat, v1025.toNat]
def k0_off10 (d0 : Dev nD) (c0_i32_787 : BitVec 32) : Fin 2 → Nat :=
  let c2_i32_17 : BitVec 32 := 2#32
  let c1_i32_16 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.subi c1_i32_16 v2
  let v33 : BitVec 32 := Scalar.muli c2_i32_17 v32
  let c1_i32_18 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v34 : BitVec 32 := Scalar.subi c1_i32_18 v18
  let v35 : BitVec 32 := Scalar.addi v33 v34
  let c256_i32_786 : BitVec 32 := 256#32
  let v1030 : BitVec 32 := Scalar.muli v35 c256_i32_786
  let v1031 : BitVec 32 := Scalar.addi v1030 c0_i32_787
  let v1032 : Index := Scalar.indexCast v1031
  let c0_788 : Index := 0#32
  ![v1032.toNat, 0]
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_3 : (3#32 : BitVec 32).msb = false
  inb_S8_S1_0 : ∀ a, (![0] : Fin 1 → Nat) a + S1.size a ≤ S8.size a
  squeezes_S1_S_ : S1.Squeezes S_
  inb_S256x512_S32x512_0_0 : ∀ a, (![0, 0] : Fin 2 → Nat) a + S32x512.size a ≤ S256x512.size a
  squeezes_S1x32x512_S32x512 : S1x32x512.Squeezes S32x512
  inb_S8_S1_1 : ∀ a, (![1] : Fin 1 → Nat) a + S1.size a ≤ S8.size a
  inb_S256x512_S32x512_32_0 : ∀ a, (![32, 0] : Fin 2 → Nat) a + S32x512.size a ≤ S256x512.size a
  inb_S8_S1_2 : ∀ a, (![2] : Fin 1 → Nat) a + S1.size a ≤ S8.size a
  inb_S256x512_S32x512_64_0 : ∀ a, (![64, 0] : Fin 2 → Nat) a + S32x512.size a ≤ S256x512.size a
  inb_S8_S1_3 : ∀ a, (![3] : Fin 1 → Nat) a + S1.size a ≤ S8.size a
  inb_S256x512_S32x512_96_0 : ∀ a, (![96, 0] : Fin 2 → Nat) a + S32x512.size a ≤ S256x512.size a
  inb_S8_S1_4 : ∀ a, (![4] : Fin 1 → Nat) a + S1.size a ≤ S8.size a
  inb_S256x512_S32x512_128_0 : ∀ a, (![128, 0] : Fin 2 → Nat) a + S32x512.size a ≤ S256x512.size a
  inb_S8_S1_5 : ∀ a, (![5] : Fin 1 → Nat) a + S1.size a ≤ S8.size a
  inb_S256x512_S32x512_160_0 : ∀ a, (![160, 0] : Fin 2 → Nat) a + S32x512.size a ≤ S256x512.size a
  inb_S8_S1_6 : ∀ a, (![6] : Fin 1 → Nat) a + S1.size a ≤ S8.size a
  inb_S256x512_S32x512_192_0 : ∀ a, (![192, 0] : Fin 2 → Nat) a + S32x512.size a ≤ S256x512.size a
  inb_S8_S1_7 : ∀ a, (![7] : Fin 1 → Nat) a + S1.size a ≤ S8.size a
  inb_S256x512_S32x512_224_0 : ∀ a, (![224, 0] : Fin 2 → Nat) a + S32x512.size a ≤ S256x512.size a
  inb_S3_S1_0 : ∀ a, (![0] : Fin 1 → Nat) a + S1.size a ≤ S3.size a
  inb_S3_S1_1 : ∀ a, (![1] : Fin 1 → Nat) a + S1.size a ≤ S3.size a
  inb_S3_S1_2 : ∀ a, (![2] : Fin 1 → Nat) a + S1.size a ≤ S3.size a
  h_S1x32x512 : 0 < S1x32x512.numel
  shapeCasts_S1x32x512_S32x512 : S1x32x512.ShapeCasts S32x512
  h_S32x512 : 0 < S32x512.numel
  inb_S2_S1_0 : ∀ a, (![0] : Fin 1 → Nat) a + S1.size a ≤ S2.size a
  inb_S2_S1_1 : ∀ a, (![1] : Fin 1 → Nat) a + S1.size a ≤ S2.size a
  hcc0_scratch4 : 2 + S8.numel ≤ 66
  hcc0_scratch5 : 10 + S8.numel ≤ 66
  hcc0_scratch6 : 18 + S8.numel ≤ 66
  hcc0_scratch7 : 26 + S8.numel ≤ 66
  hcc0_scratch8 : 34 + S8.numel ≤ 66
  hcc0_scratch9 : 42 + S8.numel ≤ 66
  hcc0_scratch10 : 50 + S3.numel ≤ 66
  hcc0_scratch11 : 53 + S2.numel ≤ 66
  hcc0_scratch12 : 55 + S3.numel ≤ 66
  hcc0_scratch13 : 58 + S2.numel ≤ 66
  hcc0_scratch14 : 60 + S3.numel ≤ 66
  hcc0_scratch15 : 63 + S3.numel ≤ 66
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ (r : Fin 8), ∀ a, (k0_off1 d0 (BitVec.ofNat 32 (32 * r.val))) a + S1x32x512.size a ≤ S1x1024x1024.size a
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_off2_inb : ∀ d0 : Dev nD, ∀ (r : Fin 3), ∀ a, (k0_off2 d0 (BitVec.ofNat 32 (32 * r.val))) a + S1x32x512.size a ≤ S1x1024x1024.size a
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_off3_inb : ∀ d0 : Dev nD, ∀ (r : Fin 8), ∀ a, (k0_off3 d0 (BitVec.ofNat 32 (32 * r.val))) a + S1x32x512.size a ≤ S1x1024x1024.size a
  k0_off4_inb : ∀ d0 : Dev nD, ∀ (r : Fin 8), ∀ a, (k0_off4 d0 (BitVec.ofNat 32 (32 * r.val))) a + S32x512.size a ≤ S1024x512.size a
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_off5_inb : ∀ d0 : Dev nD, ∀ (r : Fin 8), ∀ a, (k0_off5 d0 (BitVec.ofNat 32 (32 * r.val))) a + S1x32x512.size a ≤ S1x1024x1024.size a
  k0_off6_inb : ∀ d0 : Dev nD, ∀ (r : Fin 8), ∀ a, (k0_off6 d0 (BitVec.ofNat 32 (32 * r.val))) a + S32x512.size a ≤ S1024x512.size a
  k0_off7_inb : ∀ d0 : Dev nD, ∀ (r : Fin 8), ∀ a, (k0_off7 d0 (BitVec.ofNat 32 (32 * r.val))) a + S1x32x512.size a ≤ S1x1024x1024.size a
  k0_off8_inb : ∀ d0 : Dev nD, ∀ (r : Fin 8), ∀ a, (k0_off8 d0 (BitVec.ofNat 32 (32 * r.val))) a + S32x512.size a ≤ S1024x512.size a
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_off9_inb : ∀ d0 : Dev nD, ∀ (r : Fin 8), ∀ a, (k0_off9 d0 (BitVec.ofNat 32 (32 * r.val))) a + S1x32x512.size a ≤ S1x1024x1024.size a
  k0_off10_inb : ∀ d0 : Dev nD, ∀ (r : Fin 8), ∀ a, (k0_off10 d0 (BitVec.ofNat 32 (32 * r.val))) a + S32x512.size a ≤ S1024x512.size a
  hstage0_0 : ∀ j, (stage0_0 j).IsWhole
  hstage0_1 : ∀ j, (stage0_1 j).IsWhole

variable [Facts₀]

abbrev cc0_scratch4 : DmaSems sig S8 := SemArray.consecutive 2 S8 hcc0_scratch4
abbrev cc0_scratch5 : DmaSems sig S8 := SemArray.consecutive 10 S8 hcc0_scratch5
abbrev cc0_scratch6 : DmaSems sig S8 := SemArray.consecutive 18 S8 hcc0_scratch6
abbrev cc0_scratch7 : DmaSems sig S8 := SemArray.consecutive 26 S8 hcc0_scratch7
abbrev cc0_scratch8 : DmaSems sig S8 := SemArray.consecutive 34 S8 hcc0_scratch8
abbrev cc0_scratch9 : DmaSems sig S8 := SemArray.consecutive 42 S8 hcc0_scratch9
abbrev cc0_scratch10 : DmaSems sig S3 := SemArray.consecutive 50 S3 hcc0_scratch10
abbrev cc0_scratch11 : DmaSems sig S2 := SemArray.consecutive 53 S2 hcc0_scratch11
abbrev cc0_scratch12 : DmaSems sig S3 := SemArray.consecutive 55 S3 hcc0_scratch12
abbrev cc0_scratch13 : DmaSems sig S2 := SemArray.consecutive 58 S2 hcc0_scratch13
abbrev cc0_scratch14 : DmaSems sig S3 := SemArray.consecutive 60 S3 hcc0_scratch14
abbrev cc0_scratch15 : DmaSems sig S3 := SemArray.consecutive 63 S3 hcc0_scratch15

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2x1024x1024 : Shape := ⟨3, ![2, 1024, 1024]⟩
abbrev S_ : Shape := ⟨0, ![]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S_, .f32⟩
  | .hbm, ⟨2, _⟩ => ⟨S1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reducesTo_S2x1024x1024_S1024x1024_d0 : S2x1024x1024.ReducesTo [0] S1024x1024
  h_S_ : 0 < S_.numel

variable [Facts₀]

class Facts : Prop extends Facts₀ where

variable [Facts]
-- ==== Proof.RefSide.lean ====
import proofs.«901037_g7700000000001038_dist_rs_v7x_xyz2x2x4_y_m1024_n512_f32_1_alg».proof.Defs
import proofs.«901037_g7700000000001038_dist_rs_v7x_xyz2x2x4_y_m1024_n512_f32_1_alg».proof.Proof.Gen.ReferenceIdeal
import proofs.«901037_g7700000000001038_dist_rs_v7x_xyz2x2x4_y_m1024_n512_f32_1_alg».proof.Proof.Gen.ReferenceIdeal.Run
import proofs.«901037_g7700000000001038_dist_rs_v7x_xyz2x2x4_y_m1024_n512_f32_1_alg».proof.Proof.Gen.ReferenceIdeal.Read
import proofs.«901037_g7700000000001038_dist_rs_v7x_xyz2x2x4_y_m1024_n512_f32_1_alg».proof.Proof.Gen.Pre_finite_inputs_ReferenceIdeal
import Idealize.ShloMosaic.Lib.Layout
import Idealize.ShloMosaic.Lib.ValueIdx
import Idealize.ShloMosaic.PureOps.Ideal.Laws

noncomputable section

namespace Cert.RefSide

open Idealize.ShloMosaic Idealize.SL.Sem Idealize.ShloMosaic.ValueIdx

def refOut (X : Cert.ReferenceIdeal.S2x1024x1024.Idx → EReal) : Cert.ReferenceIdeal.S1024x1024.Idx → EReal :=
  Cert.ReferenceIdeal.Read.val_main_v0 (F := Ideal) X

theorem refOut_apply (X : Cert.ReferenceIdeal.S2x1024x1024.Idx → EReal) (r j : Fin 1024) :
    refOut X (ix2 r j) = X (ix3 (0 : Fin 2) r j) + X (ix3 (1 : Fin 2) r j) := by
  show Cert.ReferenceIdeal.Read.val_main_v0 (F := Ideal) X (ix2 r j) = _
  rw [Cert.ReferenceIdeal.Read.val_main_v0_apply, Fin.sum_univ_two]
  show Ideal.ofBits .f32 0x00000000#32 + (_ + _) = _
  rw [Ideal.ofBits_zero_f32, zero_add]
  have h0 : Cert.ReferenceIdeal.Read.idx_main_v0 (ix2 r j) 0 = ix3 (0 : Fin 2) r j := by
    funext a; match a with | ⟨0, _⟩ => rfl | ⟨1, _⟩ => rfl | ⟨2, _⟩ => rfl
  have h1 : Cert.ReferenceIdeal.Read.idx_main_v0 (ix2 r j) 1 = ix3 (1 : Fin 2) r j := by
    funext a; match a with | ⟨0, _⟩ => rfl | ⟨1, _⟩ => rfl | ⟨2, _⟩ => rfl
  rw [h0, h1]

-- The reference adds the two slabs.
theorem ref_run
    (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = refOut (m' (((0 : Dev Cert.ReferenceIdeal.nD).tc : Thread Cert.ReferenceIdeal.nD Cert.ReferenceIdeal.τ).loc Cert.ReferenceIdeal.main_arg0))
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)) :=
  (θ_run Cert.ReferenceIdeal.defs _ _).mono
    (fun _ h => ⟨(h 0).1.trans (Cert.ReferenceIdeal.Read.val_main_v0_eq (F := Ideal) _), (h 0).2⟩)
    (Cert.ReferenceIdeal.Value.run (F := Ideal) m' g')

theorem frame_ref : Cert.frame_ReferenceIdeal :=
  fun m ρ _ => (θ_run Cert.ReferenceIdeal.defs _ _).mono (fun _ h c => (h c).2)
    (Cert.ReferenceIdeal.Value.run (F := Ideal) m ρ)

def yOf (c : Dev 16) : Fin 2 := ⟨(c.val / 4) % 2, Nat.mod_lt _ (by decide)⟩

@[simp] theorem yOf_val (c : Dev 16) : (yOf c).val = (c.val / 4) % 2 := rfl

theorem meshLin_y (c : Dev 16) : Layout.meshLin [2, 2, 4] c.val [1] = (c.val / 4) % 2 := by
  revert c; decide

def colOf (c : Dev 16) (l : Fin 512) : Fin 1024 :=
  ⟨512 * ((c.val / 4) % 2) + l.val, by have := l.isLt; omega⟩

@[simp] theorem colOf_val (c : Dev 16) (l : Fin 512) : (colOf c l).val = 512 * ((c.val / 4) % 2) + l.val := rfl

theorem arg_block {α : Type} (X : (⟨3, ![2, 1024, 1024]⟩ : Shape).Idx → α) (c : Dev 16)
    (i : (⟨3, ![1, 1024, 1024]⟩ : Shape).Idx) :
    (Layout.blockN ⟨3, ![1, 1024, 1024]⟩ ⟨3, ![2, 1024, 1024]⟩ (Layout.meshBlock [2, 2, 4] ![[1], [], []] c) X) i
      = X (ix3 (n0 := 2) (n1 := 1024) (n2 := 1024) (yOf c) (i 1) (i 2)) := by
  rw [Layout.blockN_apply]
  refine congrArg X (funext fun b => Fin.ext ?_)
  match b with
  | ⟨0, _⟩ =>
    show Layout.meshLin [2, 2, 4] c.val [1] * 1 + (i 0).val = (c.val / 4) % 2
    have h0 : (i 0).val < 1 := (i 0).isLt
    rw [meshLin_y]; omega
  | ⟨1, _⟩ =>
    show 0 * 1024 + (i 1).val = (i 1).val
    omega
  | ⟨2, _⟩ =>
    show 0 * 1024 + (i 2).val = (i 2).val
    omega

theorem arg_block_at {α : Type} (X : (⟨3, ![2, 1024, 1024]⟩ : Shape).Idx → α) (c : Dev 16)
    (j : (⟨3, ![1, 1024, 1024]⟩ : Shape).Idx) (r col : Fin 1024)
    (h1 : (j 1).val = r.val) (h2 : (j 2).val = col.val) :
    (Layout.blockN ⟨3, ![1, 1024, 1024]⟩ ⟨3, ![2, 1024, 1024]⟩ (Layout.meshBlock [2, 2, 4] ![[1], [], []] c) X) j
      = X (ix3 (n0 := 2) (n1 := 1024) (n2 := 1024) (yOf c) r col) := by
  refine (arg_block X c j).trans (congrArg X (funext fun b => ?_))
  match b with
  | ⟨0, _⟩ => rfl
  | ⟨1, _⟩ => exact Fin.ext h1
  | ⟨2, _⟩ => exact Fin.ext h2

theorem out_block {α : Type} (V : (⟨2, ![1024, 1024]⟩ : Shape).Idx → α) (c : Dev 16)
    (i : (⟨2, ![1024, 512]⟩ : Shape).Idx) :
    (Layout.blockN ⟨2, ![1024, 512]⟩ ⟨2, ![1024, 1024]⟩ (Layout.meshBlock [2, 2, 4] ![[], [1]] c) V) i
      = V (ix2 (n0 := 1024) (n1 := 1024) (i 0) (colOf c (i 1))) := by
  rw [Layout.blockN_apply]
  refine congrArg V (funext fun b => Fin.ext ?_)
  match b with
  | ⟨0, _⟩ =>
    show 0 * 1024 + (i 0).val = (i 0).val
    omega
  | ⟨1, _⟩ =>
    show Layout.meshLin [2, 2, 4] c.val [1] * 512 + (i 1).val = 512 * ((c.val / 4) % 2) + (i 1).val
    rw [meshLin_y]; omega

theorem sum_slabs (X : (⟨3, ![2, 1024, 1024]⟩ : Shape).Idx → EReal) (y y' : Fin 2) (hy : y'.val = 1 - y.val)
    (r col : Fin 1024) :
    X (ix3 y r col) + X (ix3 y' r col) = X (ix3 (0 : Fin 2) r col) + X (ix3 (1 : Fin 2) r col) := by
  have hlt := y.isLt
  rcases (by omega : y.val = 0 ∨ y.val = 1) with h | h
  · obtain rfl : y = 0 := Fin.ext h
    obtain rfl : y' = 1 := Fin.ext (by show y'.val = 1; omega)
    rfl
  · obtain rfl : y = 1 := Fin.ext h
    obtain rfl : y' = 0 := Fin.ext (by show y'.val = 0; omega)
    exact add_comm (G := EReal) _ _

-- A device's half-width block of the sum is its own slab plus the other slab on those columns.
theorem glue_of (X : (⟨3, ![2, 1024, 1024]⟩ : Shape).Idx → EReal) (c c' : Dev 16)
    (hy : (c'.val / 4) % 2 = 1 - (c.val / 4) % 2)
    (A B : (⟨3, ![1, 1024, 1024]⟩ : Shape).Idx → EReal)
    (hA : A = Layout.blockN ⟨3, ![1, 1024, 1024]⟩ ⟨3, ![2, 1024, 1024]⟩ (Layout.meshBlock [2, 2, 4] ![[1], [], []] c) X)
    (hB : B = Layout.blockN ⟨3, ![1, 1024, 1024]⟩ ⟨3, ![2, 1024, 1024]⟩ (Layout.meshBlock [2, 2, 4] ![[1], [], []] c') X)
    (i : (⟨2, ![1024, 512]⟩ : Shape).Idx) (jA jB : (⟨3, ![1, 1024, 1024]⟩ : Shape).Idx)
    (hA1 : (jA 1).val = (i 0).val) (hA2 : (jA 2).val = 512 * ((c.val / 4) % 2) + (i 1).val)
    (hB1 : (jB 1).val = (i 0).val) (hB2 : (jB 2).val = 512 * ((c.val / 4) % 2) + (i 1).val) :
    A jA + B jB
      = (Layout.blockN ⟨2, ![1024, 512]⟩ ⟨2, ![1024, 1024]⟩ (Layout.meshBlock [2, 2, 4] ![[], [1]] c) (refOut X)) i := by
  subst hA hB
  have hL := arg_block_at X c jA (i 0) (colOf c (i 1)) hA1 hA2
  have hR := arg_block_at X c' jB (i 0) (colOf c (i 1)) hB1 hB2
  have hO : (Layout.blockN ⟨2, ![1024, 512]⟩ ⟨2, ![1024, 1024]⟩ (Layout.meshBlock [2, 2, 4] ![[], [1]] c) (refOut X)) i
      = X (ix3 (0 : Fin 2) (i 0) (colOf c (i 1))) + X (ix3 (1 : Fin 2) (i 0) (colOf c (i 1))) :=
    (out_block (refOut X) c i).trans (refOut_apply X (i 0) (colOf c (i 1)))
  rw [hL, hR, hO]
  exact sum_slabs X (yOf c) (yOf c') hy _ _

end Cert.RefSide

end
-- ==== Proof.Mesh.lean ====
import proofs.«901037_g7700000000001038_dist_rs_v7x_xyz2x2x4_y_m1024_n512_f32_1_alg».proof.Proof.Gen.KernelIdeal
import Mathlib.Logic.Equiv.Defs

set_option Elab.async false
set_option maxRecDepth 16384

namespace Cert.KernelIdeal.Mesh

open Idealize.ShloMosaic Idealize.SL.Sem Cert.KernelIdeal Cert.KernelIdeal.Gen

def cx (c : Dev nD) : Nat := c.val / 8

def cy (c : Dev nD) : Nat := (c.val / 4) % 2

def cp (c : Dev nD) : Nat := c.val % 2

theorem cx_lt (c : Dev nD) : cx c < 2 := by revert c; decide +kernel
theorem cy_lt (c : Dev nD) : cy c < 2 := by revert c; decide +kernel
theorem cp_lt (c : Dev nD) : cp c < 2 := by revert c; decide +kernel
def py (c : Dev nD) : Dev nD :=
  ⟨(8 * (c.val / 8) + (c.val % 4) + 4) - 4 * ((c.val / 4) % 2), by revert c; decide +kernel⟩

def px (c : Dev nD) : Dev nD :=
  ⟨(4 * ((c.val / 4) % 2) + (c.val % 4) + 8) - 8 * (c.val / 8), by revert c; decide +kernel⟩

def pz (c : Dev nD) : Dev nD :=
  ⟨c.val + 1 - 2 * (c.val % 2), by revert c; decide +kernel⟩

-- Flipping one coordinate twice is the identity: each partner map is an involution.
theorem py_py (c : Dev nD) : py (py c) = c := by revert c; decide +kernel
theorem px_px (c : Dev nD) : px (px c) = c := by revert c; decide +kernel
theorem pz_pz (c : Dev nD) : pz (pz c) = c := by revert c; decide +kernel

def yEquiv : Dev nD ≃ Dev nD := ⟨py, py, py_py, py_py⟩
def xEquiv : Dev nD ≃ Dev nD := ⟨px, px, px_px, px_px⟩
def zEquiv : Dev nD ≃ Dev nD := ⟨pz, pz, pz_pz, pz_pz⟩

@[simp] theorem yEquiv_apply (c : Dev nD) : yEquiv c = py c := rfl
@[simp] theorem xEquiv_apply (c : Dev nD) : xEquiv c = px c := rfl
@[simp] theorem zEquiv_apply (c : Dev nD) : zEquiv c = pz c := rfl
@[simp] theorem yEquiv_symm_apply (c : Dev nD) : yEquiv.symm c = py c := rfl
@[simp] theorem xEquiv_symm_apply (c : Dev nD) : xEquiv.symm c = px c := rfl
@[simp] theorem zEquiv_symm_apply (c : Dev nD) : zEquiv.symm c = pz c := rfl

def qme (c : Dev nD) : Nat := 2 * cx c + cp c

def qxn (c : Dev nD) : Nat := 2 * (1 - cx c) + cp c

def qzn (c : Dev nD) : Nat := 2 * cx c + (1 - cp c)

def qdg (c : Dev nD) : Nat := 2 * (1 - cx c) + (1 - cp c)

theorem cy_py (c : Dev nD) : cy (py c) = 1 - cy c := by revert c; decide +kernel
theorem cy_px (c : Dev nD) : cy (px c) = cy c := by revert c; decide +kernel
theorem cy_pz (c : Dev nD) : cy (pz c) = cy c := by revert c; decide +kernel
theorem qme_py (c : Dev nD) : qme (py c) = qme c := by revert c; decide +kernel
theorem qme_px (c : Dev nD) : qme (px c) = qxn c := by revert c; decide +kernel
theorem qme_pz (c : Dev nD) : qme (pz c) = qzn c := by revert c; decide +kernel
theorem qme_pz_px (c : Dev nD) : qme (pz (px c)) = qdg c := by revert c; decide +kernel
theorem qme_px_pz (c : Dev nD) : qme (px (pz c)) = qdg c := by revert c; decide +kernel
theorem qdg_py (c : Dev nD) : qdg (py c) = qdg c := by revert c; decide +kernel
end Cert.KernelIdeal.Mesh
-- ==== Proof.Contents.lean ====
import proofs.«901037_g7700000000001038_dist_rs_v7x_xyz2x2x4_y_m1024_n512_f32_1_alg».proof.Proof.Gen.KernelIdeal
import proofs.«901037_g7700000000001038_dist_rs_v7x_xyz2x2x4_y_m1024_n512_f32_1_alg».proof.Proof.Gen.KernelIdeal.Skeleton
import proofs.«901037_g7700000000001038_dist_rs_v7x_xyz2x2x4_y_m1024_n512_f32_1_alg».proof.Proof.Gen.KernelIdeal.Launch
import proofs.«901037_g7700000000001038_dist_rs_v7x_xyz2x2x4_y_m1024_n512_f32_1_alg».proof.Proof.Mesh
import Idealize.ShloMosaic.Lib.Pipeline.Value

noncomputable section

namespace Cert.KernelIdeal.RS

open Cert.KernelIdeal Cert.KernelIdeal.Gen Cert.KernelIdeal.Mesh
open Idealize.ShloMosaic Idealize.ShloMosaic.TcCoe Idealize.SL.Sem
open Idealize.SL Idealize.SL.RA

variable {F : FTy → Type} [FloatOps F]

abbrev xM : Memref sig .tc .vmem S1x1024x1024 .f32 := Memref.whole cc0_stg0_0
abbrev oM : Memref sig .tc .vmem S1024x512 .f32 := Memref.whole cc0_stg1_0

abbrev yB : Memref sig .tc .vmem S256x512 .f32 := Memref.whole cc0_scratch0
abbrev xB : Memref sig .tc .vmem S256x512 .f32 := Memref.whole cc0_scratch1
abbrev zB : Memref sig .tc .vmem S256x512 .f32 := Memref.whole cc0_scratch2
abbrev dB : Memref sig .tc .vmem S256x512 .f32 := Memref.whole cc0_scratch3

theorem rk_inb (k : Fin 8) : ∀ a, (![32 * k.val, 0] : Fin 2 → Nat) a + S32x512.size a ≤ S256x512.size a := by
  revert k; decide

abbrev rk (k : Fin 8) : Rect S256x512 := Rect.unit (s := S256x512) ![32 * k.val, 0] S32x512.size (rk_inb k)
abbrev chk (B : Memref sig .tc .vmem S256x512 .f32) (k : Fin 8) : Memref sig .tc .vmem S32x512 .f32 := B.slice (rk k) (fun _ => rfl)

abbrev wk (k : Nat) : BitVec 32 := BitVec.ofNat 32 (32 * k)

abbrev srcY (c : Dev nD) (k : Fin 8) : Memref sig .tc .vmem S32x512 .f32 :=
  (xM.slice (Rect.unit (s := S1x1024x1024) (k0_off1 c (wk k.val)) S1x32x512.size (Gen.k0_off1_inb c k)) (fun _ => rfl)).squeeze S32x512 Gen.squeezes_S1x32x512_S32x512

abbrev srcD (c : Dev nD) (k : Fin 3) : Memref sig .tc .vmem S32x512 .f32 :=
  (xM.slice (Rect.unit (s := S1x1024x1024) (k0_off2 c (wk k.val)) S1x32x512.size (Gen.k0_off2_inb c k)) (fun _ => rfl)).squeeze S32x512 Gen.squeezes_S1x32x512_S32x512

variable (m : (ℓ : Loc nD τ sig) → Buf (Elt F) ℓ)

def xstg (c : Dev nD) : (cc0_stg0_0 : Ref sig .tc).ty.Contents (Elt F) :=
  (win0_0.blk (0 : Fin 1)).view.read (Elt F) (m ((c : Thread nD τ).loc main_arg0))

def Ych (c : Dev nD) (k : Fin 8) : (chk yB k).view.ty.Contents (Elt F) :=
  (chk yB k).view.write (Elt F) (m ((c : Thread nD τ).loc cc0_scratch0)) ((srcY (py c) k).view.read (Elt F) (xstg m (py c))) Finset.univ

def Xch (c : Dev nD) (k : Fin 8) : (chk xB k).view.ty.Contents (Elt F) :=
  (chk xB k).view.write (Elt F) (m ((c : Thread nD τ).loc cc0_scratch1)) ((chk yB k).view.read (Elt F) (Ych m (px c) k)) Finset.univ

def Zch (c : Dev nD) (k : Fin 8) : (chk zB k).view.ty.Contents (Elt F) :=
  (chk zB k).view.write (Elt F) (m ((c : Thread nD τ).loc cc0_scratch2)) ((chk yB k).view.read (Elt F) (Ych m (pz c) k)) Finset.univ

def Dch (c : Dev nD) (k : Fin 8) : (chk dB k).view.ty.Contents (Elt F) :=
  if h : k.val < 3 then
    (chk dB k).view.write (Elt F) (m ((c : Thread nD τ).loc cc0_scratch3)) ((srcD (py c) ⟨k.val, h⟩).view.read (Elt F) (xstg m (py c))) Finset.univ
  else if k.val < 6 then
    (chk dB k).view.write (Elt F) (m ((c : Thread nD τ).loc cc0_scratch3)) ((chk zB k).view.read (Elt F) (Zch m (px c) k)) Finset.univ
  else
    (chk dB k).view.write (Elt F) (m ((c : Thread nD τ).loc cc0_scratch3)) ((chk xB k).view.read (Elt F) (Xch m (pz c) k)) Finset.univ

def sumv (a : Vec F S1x32x512 .f32) (b : Vec F S32x512 .f32) : FVec F S32x512 .f32 :=
  addf (shapeCast S32x512 a Gen.shapeCasts_S1x32x512_S32x512) b

def rsh : Nat → PosShare TreeShare
  | 0 => fullShare
  | n + 1 => (rsh n).right

abbrev psh (n : Nat) : PosShare TreeShare := (rsh n).left

abbrev xqL : PosShare TreeShare := rsh 11

abbrev qA : PosShare TreeShare := psh 0
abbrev qB : PosShare TreeShare := psh 1
abbrev qC : PosShare TreeShare := rsh 2

theorem write_univ_congr {sig : RefSig} {κ : Kind} {sp : Space} {S : Shape} {e : EltTy} {Val : EltTy → Type}
    (v : View sig κ sp S e) (f f' : v.ty.Contents Val) (w : S.Idx → Val e) :
    ∀ i ∈ v.set, v.write Val f w Finset.univ i = v.write Val f' w Finset.univ i := by
  intro i hi
  obtain ⟨x, rfl⟩ := View.exists_emb_of_mem_set v hi
  rw [View.write_emb_of_mem _ _ (Finset.mem_univ x), View.write_emb_of_mem _ _ (Finset.mem_univ x)]

end Cert.KernelIdeal.RS

end
-- ==== Proof.Sched.lean ====
import proofs.«901037_g7700000000001038_dist_rs_v7x_xyz2x2x4_y_m1024_n512_f32_1_alg».proof.Proof.Contents
import Idealize.ShloMosaic.Lib.Pipeline.Launch
import Idealize.ShloMosaic.Lib.Pipeline.Kit
import Idealize.ShloMosaic.Lib.Tactic

noncomputable section

namespace Cert.KernelIdeal.RS

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

abbrev barS : Sem sig := (SemArray.scalar (sig.barrier 0 rfl) : Sems sig S_).sem
abbrev barCell (c : Dev nD) : GSem nD τ sig := ((c : Thread nD τ), .reg barS)
abbrev dcell (c : Dev nD) (j : DmaSem sig) : GSem nD τ sig := ((c : Thread nD τ), .dma j)

abbrev N : ℕ := (chk yB 0).view.dmaCredit
theorem N_pos : 0 < N := View.dmaCredit_pos _ (by decide)

abbrev blk (B : Memref sig .tc .vmem S256x512 .f32) (k : Fin 8) (c : Dev nD) (q : PosShare TreeShare) (f : (chk B k).view.ty.Contents (Elt F)) : sProp 𝕄 :=
  (chk B k).view.loc (c : Thread nD τ) ↦[(chk B k).view.set]{q} f

abbrev lentY (c : Dev nD) (k : Fin 8) (q : PosShare TreeShare) : sProp 𝕄 :=
  (srcY c k).view.loc (c : Thread nD τ) ↦[(srcY c k).view.set]{q} xstg m c
abbrev lentD (c : Dev nD) (k : Fin 3) (q : PosShare TreeShare) : sProp 𝕄 :=
  (srcD c k).view.loc (c : Thread nD τ) ↦[(srcD c k).view.set]{q} xstg m c

abbrev someBlk (B : Memref sig .tc .vmem S256x512 .f32) (k : Fin 8) (c : Dev nD) : sProp 𝕄 := iprop(∃ f, blk (F := F) B k c fullShare f)

def barPay (c : Dev nD) (d : Fin 3) : sProp 𝕄 :=
  if d = 0 then iprop(someBlk (F := F) yB 0 (py c) ∗ someBlk (F := F) yB 1 (py c) ∗ someBlk (F := F) yB 2 (py c) ∗ someBlk (F := F) yB 3 (py c) ∗ someBlk (F := F) yB 4 (py c) ∗ someBlk (F := F) yB 5 (py c) ∗ someBlk (F := F) yB 6 (py c) ∗ someBlk (F := F) yB 7 (py c) ∗ someBlk (F := F) dB 0 (py c) ∗ someBlk (F := F) dB 1 (py c) ∗ someBlk (F := F) dB 2 (py c))
  else if d = 1 then iprop(someBlk (F := F) xB 0 (px c) ∗ someBlk (F := F) xB 1 (px c) ∗ someBlk (F := F) xB 2 (px c) ∗ someBlk (F := F) xB 3 (px c) ∗ someBlk (F := F) xB 4 (px c) ∗ someBlk (F := F) xB 5 (px c) ∗ someBlk (F := F) xB 6 (px c) ∗ someBlk (F := F) xB 7 (px c) ∗ someBlk (F := F) dB 3 (px c) ∗ someBlk (F := F) dB 4 (px c) ∗ someBlk (F := F) dB 5 (px c))
  else iprop(someBlk (F := F) zB 0 (pz c) ∗ someBlk (F := F) zB 1 (pz c) ∗ someBlk (F := F) zB 2 (pz c) ∗ someBlk (F := F) zB 3 (pz c) ∗ someBlk (F := F) zB 4 (pz c) ∗ someBlk (F := F) zB 5 (pz c) ∗ someBlk (F := F) zB 6 (pz c) ∗ someBlk (F := F) zB 7 (pz c) ∗ someBlk (F := F) dB 6 (pz c) ∗ someBlk (F := F) dB 7 (pz c))

abbrev kOf (j base : Nat) : Fin 8 := ⟨(j - base) % 8, Nat.mod_lt _ (by decide)⟩
abbrev kOf3 (j base : Nat) : Fin 3 := ⟨(j - base) % 3, Nat.mod_lt _ (by decide)⟩

def pay (c : Dev nD) (j : Nat) : sProp 𝕄 :=
  if j < 2 then iprop(emp)
  else if j < 10 then lentY m c (kOf j 2) (psh (j - 2))
  else if j < 18 then blk yB (kOf j 10) c fullShare (Ych m c (kOf j 10))
  else if j < 26 then blk yB (kOf j 18) c qA (Ych m c (kOf j 18))
  else if j < 34 then blk xB (kOf j 26) c fullShare (Xch m c (kOf j 26))
  else if j < 42 then blk yB (kOf j 34) c qB (Ych m c (kOf j 34))
  else if j < 50 then blk zB (kOf j 42) c fullShare (Zch m c (kOf j 42))
  else if j < 53 then blk zB (kOf (j + 3) 50) c qA (Zch m c (kOf (j + 3) 50))
  else if j < 55 then blk xB (kOf (j + 6) 53) c qA (Xch m c (kOf (j + 6) 53))
  else if j < 58 then blk dB (kOf (j + 3) 55) c fullShare (Dch m c (kOf (j + 3) 55))
  else if j < 60 then blk dB (kOf (j + 6) 58) c fullShare (Dch m c (kOf (j + 6) 58))
  else if j < 63 then lentD m c (kOf3 j 60) (psh (j - 60 + 8))
  else blk dB (kOf j 63) c fullShare (Dch m c (kOf j 63))

-- The exchange as duties on cells: a barrier cell with one unit duty per partner, and one duty on every transfer cell.
def Rd : Rounds.Schedule (GSem nD τ sig) (Fin 3) 𝕄 where
  duties g r :=
    if r = 0 ∧ g.1.2 = .tc then
      (match g.2 with
        | .reg s => if s = barS then Finset.univ else ∅
        | .dma j => if 2 ≤ j.val then {0} else ∅)
    else ∅
  unitless _ := False
  amount g _ _ := match g.2 with
    | .reg _ => 1
    | .dma _ => N
  payload g _ d := match g.2 with
    | .reg _ => barPay (F := F) g.1.1 d
    | .dma j => pay m g.1.1 j.val
  amount_pos g _ _ _ := by
    cases g.2 with
    | reg _ => exact Nat.one_pos
    | dma _ => exact N_pos

section Tables
variable (c : Dev nD)

omit [FloatOps F] in
theorem duties_bar : (Rd (F := F) m).duties (barCell c) 0 = Finset.univ := by
  dsimp only [Rd]; rw [if_pos ⟨rfl, rfl⟩]; exact if_pos rfl
omit [FloatOps F] in
theorem duties_dma (j : DmaSem sig) (hj : 2 ≤ j.val) : (Rd (F := F) m).duties (dcell c j) 0 = {0} := by
  dsimp only [Rd]; rw [if_pos ⟨rfl, rfl⟩]; exact if_pos hj
omit [FloatOps F] in
theorem duties_later (g : GSem nD τ sig) : ∀ r, 1 ≤ r → (Rd (F := F) m).duties g r = ∅ :=
  fun r hr => by dsimp only [Rd]; rw [if_neg fun h => by omega]

omit [FloatOps F] in
theorem amount_bar (d : Fin 3) : (Rd (F := F) m).amount (barCell c) 0 d = 1 := rfl
omit [FloatOps F] in
theorem amount_dma (j : DmaSem sig) (d : Fin 3) : (Rd (F := F) m).amount (dcell c j) 0 d = N := rfl

omit [FloatOps F] in
theorem expect_bar : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
omit [FloatOps F] in
theorem expect_dma (j : DmaSem sig) (hj : 2 ≤ j.val) : (Rd (F := F) m).expect (dcell c j) 0 = N := by
  unfold Schedule.expect Schedule.amountOf; rw [duties_dma m c j hj, Finset.sum_singleton, amount_dma]

omit [FloatOps F] in
theorem payload_bar (d : Fin 3) : (Rd (F := F) m).payload (barCell c) 0 d = barPay (F := F) c d := rfl
omit [FloatOps F] in
theorem payload_dma (j : DmaSem sig) (d : Fin 3) : (Rd (F := F) m).payload (dcell c j) 0 d = pay m c j.val := rfl

omit [FloatOps F] in

theorem payload_bar_y : (Rd (F := F) m).payload (barCell (py c)) 0 0
    = iprop(someBlk (F := F) yB 0 c ∗ someBlk (F := F) yB 1 c ∗ someBlk (F := F) yB 2 c ∗ someBlk (F := F) yB 3 c ∗ someBlk (F := F) yB 4 c ∗ someBlk (F := F) yB 5 c ∗ someBlk (F := F) yB 6 c ∗ someBlk (F := F) yB 7 c ∗ someBlk (F := F) dB 0 c ∗ someBlk (F := F) dB 1 c ∗ someBlk (F := F) dB 2 c) := by
  rw [payload_bar]; unfold barPay; rw [if_pos rfl, py_py]
omit [FloatOps F] in
theorem payload_bar_x : (Rd (F := F) m).payload (barCell (px c)) 0 1
    = iprop(someBlk (F := F) xB 0 c ∗ someBlk (F := F) xB 1 c ∗ someBlk (F := F) xB 2 c ∗ someBlk (F := F) xB 3 c ∗ someBlk (F := F) xB 4 c ∗ someBlk (F := F) xB 5 c ∗ someBlk (F := F) xB 6 c ∗ someBlk (F := F) xB 7 c ∗ someBlk (F := F) dB 3 c ∗ someBlk (F := F) dB 4 c ∗ someBlk (F := F) dB 5 c) := by
  rw [payload_bar]; unfold barPay; rw [if_neg (by decide), if_pos rfl, px_px]
omit [FloatOps F] in
theorem payload_bar_z : (Rd (F := F) m).payload (barCell (pz c)) 0 2
    = iprop(someBlk (F := F) zB 0 c ∗ someBlk (F := F) zB 1 c ∗ someBlk (F := F) zB 2 c ∗ someBlk (F := F) zB 3 c ∗ someBlk (F := F) zB 4 c ∗ someBlk (F := F) zB 5 c ∗ someBlk (F := F) zB 6 c ∗ someBlk (F := F) zB 7 c ∗ someBlk (F := F) dB 6 c ∗ someBlk (F := F) dB 7 c) := by
  rw [payload_bar]; unfold barPay; rw [if_neg (by decide), if_neg (by decide), pz_pz]

end Tables

section Names
variable (c : Dev nD) (k : Fin 8)

abbrev sIx (b : Nat) (k : Nat) (h : b + k < 66 := by omega) : DmaSem sig := ⟨b + k, h⟩

theorem kOf_add (b : Nat) : kOf (b + k.val) b = k := Fin.ext (by simp only [kOf]; omega)

omit [FloatOps F] in
theorem pay_ys : pay m c (2 + k.val) = lentY m c k (psh k.val) := by
  unfold pay; rw [if_neg (by omega), if_pos (by omega), kOf_add, Nat.add_sub_cancel_left]
omit [FloatOps F] in
theorem pay_yr : pay m c (10 + k.val) = blk yB k c fullShare (Ych m c k) := by
  unfold pay; rw [if_neg (by omega), if_neg (by omega), if_pos (by omega), kOf_add]
omit [FloatOps F] in
theorem pay_xs : pay m c (18 + k.val) = blk yB k c qA (Ych m c k) := by
  unfold pay; rw [if_neg (by omega), if_neg (by omega), if_neg (by omega), if_pos (by omega), kOf_add]
omit [FloatOps F] in
theorem pay_xr : pay m c (26 + k.val) = blk xB k c fullShare (Xch m c k) := by
  unfold pay; rw [if_neg (by omega), if_neg (by omega), if_neg (by omega), if_neg (by omega), if_pos (by omega), kOf_add]
omit [FloatOps F] in
theorem pay_zs : pay m c (34 + k.val) = blk yB k c qB (Ych m c k) := by
  unfold pay; rw [if_neg (by omega), if_neg (by omega), if_neg (by omega), if_neg (by omega), if_neg (by omega), if_pos (by omega), kOf_add]
omit [FloatOps F] in
theorem pay_zr : pay m c (42 + k.val) = blk zB k c fullShare (Zch m c k) := by
  unfold pay; rw [if_neg (by omega), if_neg (by omega), if_neg (by omega), if_neg (by omega), if_neg (by omega), if_neg (by omega), if_pos (by omega), kOf_add]

end Names

end Cert.KernelIdeal.RS

end
-- ==== Proof.Ghost.lean ====
import proofs.«901037_g7700000000001038_dist_rs_v7x_xyz2x2x4_y_m1024_n512_f32_1_alg».proof.Proof.Sched

noncomputable section

namespace Cert.KernelIdeal.RS

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev osem : Fin 64 → SemLoc sig := fun j => .dma ⟨j.val + 2, (by omega : j.val + 2 < 66)⟩

def csem (j : Fin 65) : SemLoc sig := if h : j.val < 64 then .dma ⟨j.val + 2, (by omega : j.val + 2 < 66)⟩ else .reg barS
abbrev kcell (ck : Dev nD × Fin 65) : GSem nD τ sig := ((ck.1 : Thread nD τ), csem ck.2)

theorem csem_castSucc (j : Fin 64) : csem j.castSucc = osem j := dif_pos j.isLt
theorem csem_last : csem (Fin.last 64) = .reg barS := dif_neg (Nat.lt_irrefl 64)
theorem kcell_castSucc (c : Dev nD) (j : Fin 64) : kcell (c, j.castSucc) = dcell c ⟨j.val + 2, (by omega : j.val + 2 < 66)⟩ := by
  unfold kcell; rw [csem_castSucc]
theorem kcell_last (c : Dev nD) : kcell (c, Fin.last 64) = barCell c := by unfold kcell; rw [csem_last]

theorem csem_injective : Function.Injective csem := by
  intro a b h
  unfold csem at h
  by_cases ha : a.val < 64 <;> by_cases hb : b.val < 64
  · rw [dif_pos ha, dif_pos hb] at h
    exact Fin.ext (by have := congrArg Fin.val (SemLoc.dma.inj h); simp only at this; omega)
  · rw [dif_pos ha, dif_neg hb] at h; cases h
  · rw [dif_neg ha, dif_pos hb] at h; cases h
  · exact Fin.ext (by have := a.isLt; have := b.isLt; omega)

theorem kcell_injective : Function.Injective (kcell : Dev nD × Fin 65 → GSem nD τ sig) := by
  rintro ⟨c, k⟩ ⟨c', k'⟩ h
  have h1 : c = c' := congrArg (fun g : GSem nD τ sig => g.1.1) h
  subst h1
  have h2 : k = k' := csem_injective (congrArg Prod.snd h)
  subst h2; rfl

def ringCells : Finset (GSem nD τ sig) := Finset.univ.map ⟨kcell, kcell_injective⟩

def tokOf (cj : Dev nD × (Fin 64 ⊕ Fin 3)) : GSem nD τ sig × ℕ × Fin 3 :=
  match cj.2 with
  | .inl j => (kcell (cj.1, j.castSucc), 0, 0)
  | .inr d => (barCell cj.1, 0, d)

theorem tokOf_injective : Function.Injective (tokOf : Dev nD × (Fin 64 ⊕ Fin 3) → GSem nD τ sig × ℕ × Fin 3) := by
  rintro ⟨c, j | d⟩ ⟨c', j' | d'⟩ h
  · have h1 := kcell_injective (congrArg (fun x : GSem nD τ sig × ℕ × Fin 3 => x.1) h)
    have h2 : c = c' := congrArg Prod.fst h1
    have h3 : j = j' := Fin.castSucc_injective _ (congrArg Prod.snd h1)
    subst h2; subst h3; rfl
  · have h2 := congrArg (fun x : GSem nD τ sig × ℕ × Fin 3 => x.1.2) h
    simp only [tokOf, csem_castSucc] at h2
    cases h2
  · have h2 := congrArg (fun x : GSem nD τ sig × ℕ × Fin 3 => x.1.2) h
    simp only [tokOf, csem_castSucc] at h2
    cases h2
  · have h1 : c = c' := congrArg (fun x : GSem nD τ sig × ℕ × Fin 3 => x.1.1.1) h
    have h3 : d = d' := congrArg (fun x : GSem nD τ sig × ℕ × Fin 3 => x.2.2) h
    subst h1; subst h3; rfl

def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

def payKind (j : Fin 64) : Fin 4 :=
  if (8 ≤ j.val ∧ j.val < 16) ∨ 61 ≤ j.val then 1
  else if (24 ≤ j.val ∧ j.val < 32) ∨ (53 ≤ j.val ∧ j.val < 56) then 2
  else if (40 ≤ j.val ∧ j.val < 48) ∨ (56 ≤ j.val ∧ j.val < 58) then 3
  else 0

def payer (c : Dev nD) (j : Fin 64) : Dev nD :=
  match payKind j with
  | 0 => c
  | 1 => py c
  | 2 => px c
  | 3 => pz c

-- On each cell index the payer's payer is the device itself: partners are involutions.
theorem payer_payer (j : Fin 64) (c : Dev nD) : payer (payer c j) j = c := by
  unfold payer
  generalize payKind j = k
  match k with
  | 0 => rfl
  | 1 => exact py_py c
  | 2 => exact px_px c
  | 3 => exact pz_pz c

def payerEquiv (j : Fin 64) : Dev nD ≃ Dev nD := ⟨fun c => payer c j, fun c => payer c j, payer_payer j, payer_payer j⟩
@[simp] theorem payerEquiv_apply (j : Fin 64) (c : Dev nD) : payerEquiv j c = payer c j := rfl

def recvSet : Finset (Fin 64) := Finset.univ.filter fun j => payKind j ≠ 0

def owedList (c : Dev nD) : List (GSem nD τ sig × ℕ) :=
  [
    (barCell (py c), 1), (barCell (px c), 1), (barCell (pz c), 1), (dcell (py c) (sIx 10 0), N),
    (dcell (py c) (sIx 10 1), N), (dcell (py c) (sIx 10 2), N), (dcell (py c) (sIx 10 3), N), (dcell (py c) (sIx 10 4), N),
    (dcell (py c) (sIx 10 5), N), (dcell (py c) (sIx 10 6), N), (dcell (py c) (sIx 10 7), N), (dcell (py c) (sIx 63 0), N),
    (dcell (py c) (sIx 63 1), N), (dcell (py c) (sIx 63 2), N), (dcell (px c) (sIx 26 0), N), (dcell (pz c) (sIx 42 0), N),
    (dcell (px c) (sIx 26 1), N), (dcell (pz c) (sIx 42 1), N), (dcell (px c) (sIx 26 2), N), (dcell (pz c) (sIx 42 2), N),
    (dcell (px c) (sIx 26 3), N), (dcell (pz c) (sIx 42 3), N), (dcell (px c) (sIx 26 4), N), (dcell (pz c) (sIx 42 4), N),
    (dcell (px c) (sIx 26 5), N), (dcell (pz c) (sIx 42 5), N), (dcell (px c) (sIx 26 6), N), (dcell (pz c) (sIx 42 6), N),
    (dcell (px c) (sIx 26 7), N), (dcell (pz c) (sIx 42 7), N), (dcell (px c) (sIx 55 0), N), (dcell (px c) (sIx 55 1), N),
    (dcell (px c) (sIx 55 2), N), (dcell (pz c) (sIx 58 0), N), (dcell (pz c) (sIx 58 1), N) ]

def Ow (l : List (GSem nD τ sig × ℕ)) : CellTallies nD τ sig Unit :=
  l.foldr (fun p acc => acc + tallyAt p.1 () p.2) 0

theorem Ow_cons (p : GSem nD τ sig × ℕ) (l : List (GSem nD τ sig × ℕ)) : Ow (p :: l) = Ow l + tallyAt p.1 () p.2 := rfl

def O₀ (c : Dev nD) : CellTallies nD τ sig Unit := Ow (owedList c)

def owedSkel : List (Fin 3 × SemLoc sig) :=
  [
    (0, .reg barS), (1, .reg barS), (2, .reg barS), (0, .dma (sIx 10 0)),
    (0, .dma (sIx 10 1)), (0, .dma (sIx 10 2)), (0, .dma (sIx 10 3)), (0, .dma (sIx 10 4)),
    (0, .dma (sIx 10 5)), (0, .dma (sIx 10 6)), (0, .dma (sIx 10 7)), (0, .dma (sIx 63 0)),
    (0, .dma (sIx 63 1)), (0, .dma (sIx 63 2)), (1, .dma (sIx 26 0)), (2, .dma (sIx 42 0)),
    (1, .dma (sIx 26 1)), (2, .dma (sIx 42 1)), (1, .dma (sIx 26 2)), (2, .dma (sIx 42 2)),
    (1, .dma (sIx 26 3)), (2, .dma (sIx 42 3)), (1, .dma (sIx 26 4)), (2, .dma (sIx 42 4)),
    (1, .dma (sIx 26 5)), (2, .dma (sIx 42 5)), (1, .dma (sIx 26 6)), (2, .dma (sIx 42 6)),
    (1, .dma (sIx 26 7)), (2, .dma (sIx 42 7)), (1, .dma (sIx 55 0)), (1, .dma (sIx 55 1)),
    (1, .dma (sIx 55 2)), (2, .dma (sIx 58 0)), (2, .dma (sIx 58 1)) ]

def partner (c : Dev nD) : Fin 3 → Dev nD
  | 0 => py c
  | 1 => px c
  | 2 => pz c

def amt : SemLoc sig → ℕ
  | .reg _ => 1
  | .dma _ => N

theorem owedList_eq (c : Dev nD) :
    owedList c = owedSkel.map fun e => ((((partner c e.1 : Dev nD) : Thread nD τ), e.2), amt e.2) := rfl

def L (g : GSem nD τ sig) : Finset Unit := if g.1.2 = .tc then {()} else ∅

def lvS : SemLoc sig → ℕ
  | .reg s => if s = barS then 1 else 0
  | .dma j =>
    if (10 ≤ j.val ∧ j.val < 18) ∨ 63 ≤ j.val then 2
    else if (26 ≤ j.val ∧ j.val < 34) ∨ (42 ≤ j.val ∧ j.val < 50) then 3
    else if 55 ≤ j.val ∧ j.val < 60 then 4
    else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

def records (K : Dev nD × Fin 65 → ℕ) : sProp 𝕄 :=
  iprop((bigSep Finset.univ fun ck : Dev nD × Fin 65 => cellInv ER (Rd m) (K ck) (kcell ck))
    ∗ bigSep Finset.univ fun ck : Dev nD × Fin 65 => reached ER (kcell ck) 0)

def payToks (c : Dev nD) : sProp 𝕄 :=
  iprop((bigSep Finset.univ fun j : Fin 64 => dutyTok ER (kcell (payer c j, j.castSucc)) 0 0)
    ∗ dutyTok ER (barCell (py c)) 0 0 ∗ dutyTok ER (barCell (px c)) 0 1 ∗ dutyTok ER (barCell (pz c)) 0 2)

def linear (c : Dev nD) : sProp 𝕄 :=
  iprop((bigSep Finset.univ fun j : Fin 65 => atPos ER (kcell (c, j)) 0 ∅ 0) ∗ payToks (F := F) c)

def ghost (K : Dev nD × Fin 65 → ℕ) (c : Dev nD) : sProp 𝕄 := iprop(records m K ∗ linear (F := F) c)

def start (c : Dev nD) : sProp 𝕄 :=
  iprop((∃ K, ghost m K c) ∗ cred (tallyAt (barCell c) () 3)
    ∗ (bigSep recvSet fun j => cred (tallyAt (kcell (c, j.castSucc)) () N)) ∗ levAts L lv)

instance records_persistent (K : Dev nD × Fin 65 → ℕ) : BI.Persistent (records m K) := by unfold records; infer_instance

end Cert.KernelIdeal.RS

end
-- ==== Proof.Levels.lean ====
import proofs.«901037_g7700000000001038_dist_rs_v7x_xyz2x2x4_y_m1024_n512_f32_1_alg».proof.Proof.Ghost

noncomputable section

namespace Cert.KernelIdeal.RS

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem storable_ite (p : Prop) [Decidable p] (P Q : sProp 𝕄) (hP : BI.Storable (upEmb : UEmb _ 𝕄) P)
    (hQ : BI.Storable (upEmb : UEmb _ 𝕄) Q) : BI.Storable (upEmb : UEmb _ 𝕄) (if p then P else Q) := by
  split <;> assumption

omit [FloatOps F] in
theorem storable_sep (P Q : sProp 𝕄) (hP : BI.Storable (upEmb : UEmb _ 𝕄) P)
    (hQ : BI.Storable (upEmb : UEmb _ 𝕄) Q) : BI.Storable (upEmb : UEmb _ 𝕄) iprop(P ∗ Q) := inferInstance

omit [FloatOps F] in
theorem someBlk_storable (B : Memref sig .tc .vmem S256x512 .f32) (k : Fin 8) (c : Dev nD) :
    BI.Storable (upEmb : UEmb _ 𝕄) (someBlk (F := F) B k c) := inferInstance

omit [FloatOps F] in
instance Rd_payload_storable (g : GSem nD τ sig) (r : ℕ) (d : Fin 3) :
    BI.Storable (upEmb : UEmb _ 𝕄) ((Rd (F := F) m).payload g r d) := by
  obtain ⟨t, sm⟩ := g
  cases sm with
  | reg s =>
    show BI.Storable upEmb (barPay (F := F) t.1 d)
    unfold barPay
    repeat' (first | exact someBlk_storable _ _ _ | apply storable_ite | apply storable_sep)
  | dma j =>
    show BI.Storable upEmb (pay m t.1 j.val)
    unfold pay
    repeat' (first | apply storable_ite | infer_instance)

omit [FloatOps F] in
theorem Ow_pos {l : List (GSem nD τ sig × ℕ)} {g : GSem nD τ sig} {u : Unit} (h : 0 < Ow l g u) : ∃ p ∈ l, p.1 = g := by
  induction l with
  | nil => exact absurd h (Nat.lt_irrefl 0)
  | cons p l ih =>
    rw [Ow_cons, Pi.add_apply, Finsupp.add_apply, tallyAt_apply] at h
    by_cases hp : g = p.1 ∧ u = ()
    · exact ⟨p, List.mem_cons_self .., hp.1.symm⟩
    · rw [if_neg hp, Nat.add_zero] at h
      obtain ⟨q, hq, e⟩ := ih h
      exact ⟨q, List.mem_cons_of_mem _ hq, e⟩

omit [FloatOps F] in

theorem mayWait_cut (c : Dev nD) (sm : SemLoc sig) (l : List (GSem nD τ sig × ℕ))
    (hl : ∀ p ∈ l, p.1.1.2 = .tc ∧ lvS sm < lvS p.1.2) :
    (levAts L lv : sProp 𝕄) ⊢ MayWait (c : Thread nD τ) sm () (Ow l) :=
  MayOwe.of_cut (L := L) (lev := lv) (lvS sm)
    (fun p hp => by rw [Finset.mem_singleton.mp hp, L_tc]; exact Finset.mem_singleton_self _)
    (fun g u hg => by
      obtain ⟨p, hp, rfl⟩ := Ow_pos hg
      unfold L; rw [if_pos (hl p hp).1]; exact Finset.mem_singleton_self _)
    (fun p hp => by rw [Finset.mem_singleton.mp hp]; exact le_refl _)
    (fun g u hg => by
      obtain ⟨p, hp, rfl⟩ := Ow_pos hg
      exact (hl p hp).2)

omit [FloatOps F] in

theorem owed_drop_levels (c : Dev nD) (n k : ℕ) (h : ∀ e ∈ owedSkel.drop n, k < lvS e.2) :
    ∀ p ∈ (owedList c).drop n, p.1.1.2 = .tc ∧ k < lvS p.1.2 := by
  intro p hp
  rw [owedList_eq, ← List.map_drop, List.mem_map] at hp
  obtain ⟨e, he, rfl⟩ := hp
  exact ⟨rfl, h e he⟩

omit [FloatOps F] in

theorem mayWait_drop (c : Dev nD) (sm : SemLoc sig) (n : ℕ) (h : ∀ e ∈ owedSkel.drop n, lvS sm < lvS e.2) :
    (levAts L lv : sProp 𝕄) ⊢ MayWait (c : Thread nD τ) sm () (Ow ((owedList c).drop n)) :=
  mayWait_cut c sm _ (owed_drop_levels c n (lvS sm) h)

theorem lvS_stage (q : DmaSem sig) (hq : q.val < 2) : lvS (.dma q) = 0 := by
  show (if (10 ≤ q.val ∧ q.val < 18) ∨ 63 ≤ q.val then 2
    else if (26 ≤ q.val ∧ q.val < 34) ∨ (42 ≤ q.val ∧ q.val < 50) then 3
    else if 55 ≤ q.val ∧ q.val < 60 then 4 else 0) = 0
  rw [if_neg (by omega), if_neg (by omega), if_neg (by omega)]

theorem owedSkel_pos : ∀ e ∈ owedSkel, 0 < lvS e.2 := by decide
-- Waiting on either of the device's first two transfer cells is allowed both when it owes all its duties and when it owes none.
omit [FloatOps F] in

theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · exact mayWait_drop c (.dma q) 0 (by rw [lvS_stage q hq]; exact owedSkel_pos)
  · rw [MayWait_zero]; iintro -; iempintro

end Cert.KernelIdeal.RS

end
-- ==== Proof.Out.lean ====
import proofs.«901037_g7700000000001038_dist_rs_v7x_xyz2x2x4_y_m1024_n512_f32_1_alg».proof.Proof.Contents

noncomputable section

namespace Cert.KernelIdeal.RS

open Cert.KernelIdeal Cert.KernelIdeal.Gen Cert.KernelIdeal.Mesh
open Idealize.ShloMosaic Idealize.ShloMosaic.TcCoe Idealize.SL.Sem
open Idealize.SL Idealize.SL.RA

variable {F : FTy → Type} [FloatOps F]
variable (m : (ℓ : Loc nD τ sig) → Buf (Elt F) ℓ)

def ldx (c : Dev nD) (off : Fin 3 → Nat) (h : ∀ a, off a + S1x32x512.size a ≤ S1x1024x1024.size a) : Vec F S1x32x512 .f32 :=
  xM.view.readAt (Elt F) (Rect.unit (s := S1x1024x1024) off S1x32x512.size h).toLoadRect (xstg m c)

def ldb (B : Memref sig .tc .vmem S256x512 .f32) (k : Fin 8) (f : B.view.ty.Contents (Elt F)) : Vec F S32x512 .f32 :=
  B.view.readAt (Elt F) (rk k).toLoadRect f

def st (off : Fin 2 → Nat) (h : ∀ a, off a + S32x512.size a ≤ S1024x512.size a) (o : oM.view.ty.Contents (Elt F)) (w : FVec F S32x512 .f32) : oM.view.ty.Contents (Elt F) :=
  (oM.access (Rect.unit (s := S1024x512) off S32x512.size h) : View sig .tc .vmem _ _).write (Elt F) o w Finset.univ

def stC (c : Dev nD) (k : Fin 8) (o : oM.view.ty.Contents (Elt F)) : oM.view.ty.Contents (Elt F) :=
  st (k0_off4 c (wk k.val)) (Gen.k0_off4_inb c k) o (sumv (ldx m c (k0_off3 c (wk k.val)) (Gen.k0_off3_inb c k)) (ldb yB k (Ych m c k)))

def stZ (c : Dev nD) (k : Fin 8) (o : oM.view.ty.Contents (Elt F)) : oM.view.ty.Contents (Elt F) :=
  st (k0_off6 c (wk k.val)) (Gen.k0_off6_inb c k) o (sumv (ldx m c (k0_off5 c (wk k.val)) (Gen.k0_off5_inb c k)) (ldb zB k (Zch m c k)))

def stX (c : Dev nD) (k : Fin 8) (o : oM.view.ty.Contents (Elt F)) : oM.view.ty.Contents (Elt F) :=
  st (k0_off8 c (wk k.val)) (Gen.k0_off8_inb c k) o (sumv (ldx m c (k0_off7 c (wk k.val)) (Gen.k0_off7_inb c k)) (ldb xB k (Xch m c k)))

def stD (c : Dev nD) (k : Fin 8) (o : oM.view.ty.Contents (Elt F)) : oM.view.ty.Contents (Elt F) :=
  st (k0_off10 c (wk k.val)) (Gen.k0_off10_inb c k) o (sumv (ldx m c (k0_off9 c (wk k.val)) (Gen.k0_off9_inb c k)) (ldb dB k (Dch m c k)))

def phC (c : Dev nD) (g : oM.view.ty.Contents (Elt F)) : oM.view.ty.Contents (Elt F) :=
  (List.finRange 8).foldl (fun o k => stC m c k o) g
def phD (c : Dev nD) (g : oM.view.ty.Contents (Elt F)) : oM.view.ty.Contents (Elt F) :=
  (List.finRange 8).foldl (fun o k => stX m c k (stZ m c k o)) g
def phE (c : Dev nD) (g : oM.view.ty.Contents (Elt F)) : oM.view.ty.Contents (Elt F) :=
  (List.finRange 8).foldl (fun o k => stD m c k o) g
-- The result block after the 32 stores, each of an own block plus a received block.
def outOf (c : Dev nD) (g : oM.view.ty.Contents (Elt F)) : oM.view.ty.Contents (Elt F) :=
  phE m c (phD m c (phC m c g))

end Cert.KernelIdeal.RS

end
-- ==== Proof.MeshTab.lean ====
/- The device ids and the offsets the program computes, over the mesh of Mesh.lean: every device id is one of the
   three partners of the device that computes it, and every offsets chain, at row block r, is an expression of the
   device's coordinates. One statement per id and per chain; each ranges over the 16 devices (and the row blocks)
   and is decided by evaluation, or is the generated closed form of the id read as a device. -/
import proofs.«901037_g7700000000001038_dist_rs_v7x_xyz2x2x4_y_m1024_n512_f32_1_alg».proof.Proof.Mesh

set_option Elab.async false
set_option maxRecDepth 16384

namespace Cert.KernelIdeal.Mesh

open Idealize.ShloMosaic Idealize.SL.Sem Cert.KernelIdeal Cert.KernelIdeal.Gen

/-! ## The device ids the program computes -/

theorem dev3_val : ∀ d0 : Dev nD, k0_dev3 d0 = d0.val + 1 - 2 * (d0.val % 2) := by decide +kernel
theorem dev16_val : ∀ d0 : Dev nD, k0_dev16 d0 = d0.val + 1 - 2 * (d0.val % 2) := by decide +kernel
theorem dev18_val : ∀ d0 : Dev nD, k0_dev18 d0 = d0.val + 1 - 2 * (d0.val % 2) := by decide +kernel
theorem dev20_val : ∀ d0 : Dev nD, k0_dev20 d0 = d0.val + 1 - 2 * (d0.val % 2) := by decide +kernel
theorem dev22_val : ∀ d0 : Dev nD, k0_dev22 d0 = d0.val + 1 - 2 * (d0.val % 2) := by decide +kernel
theorem dev24_val : ∀ d0 : Dev nD, k0_dev24 d0 = d0.val + 1 - 2 * (d0.val % 2) := by decide +kernel
theorem dev26_val : ∀ d0 : Dev nD, k0_dev26 d0 = d0.val + 1 - 2 * (d0.val % 2) := by decide +kernel
theorem dev28_val : ∀ d0 : Dev nD, k0_dev28 d0 = d0.val + 1 - 2 * (d0.val % 2) := by decide +kernel
theorem dev30_val : ∀ d0 : Dev nD, k0_dev30 d0 = d0.val + 1 - 2 * (d0.val % 2) := by decide +kernel
theorem dev34_val : ∀ d0 : Dev nD, k0_dev34 d0 = d0.val + 1 - 2 * (d0.val % 2) := by decide +kernel
theorem dev35_val : ∀ d0 : Dev nD, k0_dev35 d0 = d0.val + 1 - 2 * (d0.val % 2) := by decide +kernel

theorem dev1_eq (c : Dev nD) : (⟨k0_dev1 c, k0_dev1_lt c⟩ : Dev nD) = py c := Fin.ext (k0_dev1_eq c)
theorem dev2_eq (c : Dev nD) : (⟨k0_dev2 c, k0_dev2_lt c⟩ : Dev nD) = px c := Fin.ext (k0_dev2_eq c)
theorem dev3_eq (c : Dev nD) : (⟨k0_dev3 c, k0_dev3_lt c⟩ : Dev nD) = pz c := Fin.ext (dev3_val c)
theorem dev4_eq (c : Dev nD) : (⟨k0_dev4 c, k0_dev4_lt c⟩ : Dev nD) = py c := Fin.ext (k0_dev4_eq c)
theorem dev5_eq (c : Dev nD) : (⟨k0_dev5 c, k0_dev5_lt c⟩ : Dev nD) = py c := Fin.ext (k0_dev5_eq c)
theorem dev6_eq (c : Dev nD) : (⟨k0_dev6 c, k0_dev6_lt c⟩ : Dev nD) = py c := Fin.ext (k0_dev6_eq c)
theorem dev7_eq (c : Dev nD) : (⟨k0_dev7 c, k0_dev7_lt c⟩ : Dev nD) = py c := Fin.ext (k0_dev7_eq c)
theorem dev8_eq (c : Dev nD) : (⟨k0_dev8 c, k0_dev8_lt c⟩ : Dev nD) = py c := Fin.ext (k0_dev8_eq c)
theorem dev9_eq (c : Dev nD) : (⟨k0_dev9 c, k0_dev9_lt c⟩ : Dev nD) = py c := Fin.ext (k0_dev9_eq c)
theorem dev10_eq (c : Dev nD) : (⟨k0_dev10 c, k0_dev10_lt c⟩ : Dev nD) = py c := Fin.ext (k0_dev10_eq c)
theorem dev11_eq (c : Dev nD) : (⟨k0_dev11 c, k0_dev11_lt c⟩ : Dev nD) = py c := Fin.ext (k0_dev11_eq c)
theorem dev12_eq (c : Dev nD) : (⟨k0_dev12 c, k0_dev12_lt c⟩ : Dev nD) = py c := Fin.ext (k0_dev12_eq c)
theorem dev13_eq (c : Dev nD) : (⟨k0_dev13 c, k0_dev13_lt c⟩ : Dev nD) = py c := Fin.ext (k0_dev13_eq c)
theorem dev14_eq (c : Dev nD) : (⟨k0_dev14 c, k0_dev14_lt c⟩ : Dev nD) = py c := Fin.ext (k0_dev14_eq c)
theorem dev15_eq (c : Dev nD) : (⟨k0_dev15 c, k0_dev15_lt c⟩ : Dev nD) = px c := Fin.ext (k0_dev15_eq c)
theorem dev16_eq (c : Dev nD) : (⟨k0_dev16 c, k0_dev16_lt c⟩ : Dev nD) = pz c := Fin.ext (dev16_val c)
theorem dev17_eq (c : Dev nD) : (⟨k0_dev17 c, k0_dev17_lt c⟩ : Dev nD) = px c := Fin.ext (k0_dev17_eq c)
theorem dev18_eq (c : Dev nD) : (⟨k0_dev18 c, k0_dev18_lt c⟩ : Dev nD) = pz c := Fin.ext (dev18_val c)
theorem dev19_eq (c : Dev nD) : (⟨k0_dev19 c, k0_dev19_lt c⟩ : Dev nD) = px c := Fin.ext (k0_dev19_eq c)
theorem dev20_eq (c : Dev nD) : (⟨k0_dev20 c, k0_dev20_lt c⟩ : Dev nD) = pz c := Fin.ext (dev20_val c)
theorem dev21_eq (c : Dev nD) : (⟨k0_dev21 c, k0_dev21_lt c⟩ : Dev nD) = px c := Fin.ext (k0_dev21_eq c)
theorem dev22_eq (c : Dev nD) : (⟨k0_dev22 c, k0_dev22_lt c⟩ : Dev nD) = pz c := Fin.ext (dev22_val c)
theorem dev23_eq (c : Dev nD) : (⟨k0_dev23 c, k0_dev23_lt c⟩ : Dev nD) = px c := Fin.ext (k0_dev23_eq c)
theorem dev24_eq (c : Dev nD) : (⟨k0_dev24 c, k0_dev24_lt c⟩ : Dev nD) = pz c := Fin.ext (dev24_val c)
theorem dev25_eq (c : Dev nD) : (⟨k0_dev25 c, k0_dev25_lt c⟩ : Dev nD) = px c := Fin.ext (k0_dev25_eq c)
theorem dev26_eq (c : Dev nD) : (⟨k0_dev26 c, k0_dev26_lt c⟩ : Dev nD) = pz c := Fin.ext (dev26_val c)
theorem dev27_eq (c : Dev nD) : (⟨k0_dev27 c, k0_dev27_lt c⟩ : Dev nD) = px c := Fin.ext (k0_dev27_eq c)
theorem dev28_eq (c : Dev nD) : (⟨k0_dev28 c, k0_dev28_lt c⟩ : Dev nD) = pz c := Fin.ext (dev28_val c)
theorem dev29_eq (c : Dev nD) : (⟨k0_dev29 c, k0_dev29_lt c⟩ : Dev nD) = px c := Fin.ext (k0_dev29_eq c)
theorem dev30_eq (c : Dev nD) : (⟨k0_dev30 c, k0_dev30_lt c⟩ : Dev nD) = pz c := Fin.ext (dev30_val c)
theorem dev31_eq (c : Dev nD) : (⟨k0_dev31 c, k0_dev31_lt c⟩ : Dev nD) = px c := Fin.ext (k0_dev31_eq c)
theorem dev32_eq (c : Dev nD) : (⟨k0_dev32 c, k0_dev32_lt c⟩ : Dev nD) = px c := Fin.ext (k0_dev32_eq c)
theorem dev33_eq (c : Dev nD) : (⟨k0_dev33 c, k0_dev33_lt c⟩ : Dev nD) = px c := Fin.ext (k0_dev33_eq c)
theorem dev34_eq (c : Dev nD) : (⟨k0_dev34 c, k0_dev34_lt c⟩ : Dev nD) = pz c := Fin.ext (dev34_val c)
theorem dev35_eq (c : Dev nD) : (⟨k0_dev35 c, k0_dev35_lt c⟩ : Dev nD) = pz c := Fin.ext (dev35_val c)

/-! ## The offsets the program computes -/

theorem off1_eq : ∀ d0 : Dev nD, ∀ r : Fin 8, ∀ a,
    k0_off1 d0 (BitVec.ofNat 32 (32 * r.val)) a = (![0, 256 * qme d0 + 32 * r.val, 512 * (1 - cy d0)] : Fin 3 → Nat) a := by decide +kernel
theorem off1_fun (d0 : Dev nD) (r : Fin 8) :
    k0_off1 d0 (BitVec.ofNat 32 (32 * r.val)) = (![0, 256 * qme d0 + 32 * r.val, 512 * (1 - cy d0)] : Fin 3 → Nat) := funext (off1_eq d0 r)
theorem off2_eq : ∀ d0 : Dev nD, ∀ r : Fin 3, ∀ a,
    k0_off2 d0 (BitVec.ofNat 32 (32 * r.val)) a = (![0, 256 * qdg d0 + 32 * r.val, 512 * (1 - cy d0)] : Fin 3 → Nat) a := by decide +kernel
theorem off2_fun (d0 : Dev nD) (r : Fin 3) :
    k0_off2 d0 (BitVec.ofNat 32 (32 * r.val)) = (![0, 256 * qdg d0 + 32 * r.val, 512 * (1 - cy d0)] : Fin 3 → Nat) := funext (off2_eq d0 r)
theorem off3_eq : ∀ d0 : Dev nD, ∀ r : Fin 8, ∀ a,
    k0_off3 d0 (BitVec.ofNat 32 (32 * r.val)) a = (![0, 256 * qme d0 + 32 * r.val, 512 * cy d0] : Fin 3 → Nat) a := by decide +kernel
theorem off3_fun (d0 : Dev nD) (r : Fin 8) :
    k0_off3 d0 (BitVec.ofNat 32 (32 * r.val)) = (![0, 256 * qme d0 + 32 * r.val, 512 * cy d0] : Fin 3 → Nat) := funext (off3_eq d0 r)
theorem off4_eq : ∀ d0 : Dev nD, ∀ r : Fin 8, ∀ a,
    k0_off4 d0 (BitVec.ofNat 32 (32 * r.val)) a = (![256 * qme d0 + 32 * r.val, 0] : Fin 2 → Nat) a := by decide +kernel
theorem off4_fun (d0 : Dev nD) (r : Fin 8) :
    k0_off4 d0 (BitVec.ofNat 32 (32 * r.val)) = (![256 * qme d0 + 32 * r.val, 0] : Fin 2 → Nat) := funext (off4_eq d0 r)
theorem off5_eq : ∀ d0 : Dev nD, ∀ r : Fin 8, ∀ a,
    k0_off5 d0 (BitVec.ofNat 32 (32 * r.val)) a = (![0, 256 * qzn d0 + 32 * r.val, 512 * cy d0] : Fin 3 → Nat) a := by decide +kernel
theorem off5_fun (d0 : Dev nD) (r : Fin 8) :
    k0_off5 d0 (BitVec.ofNat 32 (32 * r.val)) = (![0, 256 * qzn d0 + 32 * r.val, 512 * cy d0] : Fin 3 → Nat) := funext (off5_eq d0 r)
theorem off6_eq : ∀ d0 : Dev nD, ∀ r : Fin 8, ∀ a,
    k0_off6 d0 (BitVec.ofNat 32 (32 * r.val)) a = (![256 * qzn d0 + 32 * r.val, 0] : Fin 2 → Nat) a := by decide +kernel
theorem off6_fun (d0 : Dev nD) (r : Fin 8) :
    k0_off6 d0 (BitVec.ofNat 32 (32 * r.val)) = (![256 * qzn d0 + 32 * r.val, 0] : Fin 2 → Nat) := funext (off6_eq d0 r)
theorem off7_eq : ∀ d0 : Dev nD, ∀ r : Fin 8, ∀ a,
    k0_off7 d0 (BitVec.ofNat 32 (32 * r.val)) a = (![0, 256 * qxn d0 + 32 * r.val, 512 * cy d0] : Fin 3 → Nat) a := by decide +kernel
theorem off7_fun (d0 : Dev nD) (r : Fin 8) :
    k0_off7 d0 (BitVec.ofNat 32 (32 * r.val)) = (![0, 256 * qxn d0 + 32 * r.val, 512 * cy d0] : Fin 3 → Nat) := funext (off7_eq d0 r)
theorem off8_eq : ∀ d0 : Dev nD, ∀ r : Fin 8, ∀ a,
    k0_off8 d0 (BitVec.ofNat 32 (32 * r.val)) a = (![256 * qxn d0 + 32 * r.val, 0] : Fin 2 → Nat) a := by decide +kernel
theorem off8_fun (d0 : Dev nD) (r : Fin 8) :
    k0_off8 d0 (BitVec.ofNat 32 (32 * r.val)) = (![256 * qxn d0 + 32 * r.val, 0] : Fin 2 → Nat) := funext (off8_eq d0 r)
theorem off9_eq : ∀ d0 : Dev nD, ∀ r : Fin 8, ∀ a,
    k0_off9 d0 (BitVec.ofNat 32 (32 * r.val)) a = (![0, 256 * qdg d0 + 32 * r.val, 512 * cy d0] : Fin 3 → Nat) a := by decide +kernel
theorem off9_fun (d0 : Dev nD) (r : Fin 8) :
    k0_off9 d0 (BitVec.ofNat 32 (32 * r.val)) = (![0, 256 * qdg d0 + 32 * r.val, 512 * cy d0] : Fin 3 → Nat) := funext (off9_eq d0 r)
theorem off10_eq : ∀ d0 : Dev nD, ∀ r : Fin 8, ∀ a,
    k0_off10 d0 (BitVec.ofNat 32 (32 * r.val)) a = (![256 * qdg d0 + 32 * r.val, 0] : Fin 2 → Nat) a := by decide +kernel
theorem off10_fun (d0 : Dev nD) (r : Fin 8) :
    k0_off10 d0 (BitVec.ofNat 32 (32 * r.val)) = (![256 * qdg d0 + 32 * r.val, 0] : Fin 2 → Nat) := funext (off10_eq d0 r)

end Cert.KernelIdeal.Mesh
-- ==== Proof.OutVal.lean ====
import proofs.«901037_g7700000000001038_dist_rs_v7x_xyz2x2x4_y_m1024_n512_f32_1_alg».proof.Proof.Out
import proofs.«901037_g7700000000001038_dist_rs_v7x_xyz2x2x4_y_m1024_n512_f32_1_alg».proof.Proof.MeshTab

noncomputable section

namespace Cert.KernelIdeal.RS

open Cert.KernelIdeal Cert.KernelIdeal.Gen Cert.KernelIdeal.Mesh
open Idealize.ShloMosaic Idealize.ShloMosaic.TcCoe Idealize.SL.Sem
open Idealize.SL Idealize.SL.RA

variable {F : FTy → Type} [FloatOps F]
variable (m : (ℓ : Loc nD τ sig) → Buf (Elt F) ℓ)

theorem foldl_cover {α β ι : Type} (E : ι → β → β → Prop) (step : α → β → β) (Q : α → ι → Prop)
    (hstep : ∀ k (P : ι → Prop) o o', (∀ i, P i → E i o o') → ∀ i, (P i ∨ Q k i) → E i (step k o) (step k o'))
    (l : List α) : ∀ (P : ι → Prop) (o o' : β), (∀ i, P i → E i o o') →
    ∀ i, (P i ∨ ∃ k ∈ l, Q k i) → E i (l.foldl (fun o k => step k o) o) (l.foldl (fun o k => step k o) o') := by
  induction l with
  | nil =>
    intro P o o' h i hi
    rcases hi with hi | ⟨k, hk, _⟩
    · exact h i hi
    · exact absurd hk (List.not_mem_nil)
  | cons a l ih =>
    intro P o o' h i hi
    rw [List.foldl_cons, List.foldl_cons]
    refine ih (fun i => P i ∨ Q a i) (step a o) (step a o') (hstep a P o o' h) i ?_
    rcases hi with hi | ⟨k, hk, hq⟩
    · exact .inl (.inl hi)
    · rcases List.mem_cons.mp hk with rfl | hk
      · exact .inl (.inr hq)
      · exact .inr ⟨k, hk, hq⟩

abbrev oR (off : Fin 2 → Nat) (h : ∀ a, off a + S32x512.size a ≤ S1024x512.size a) : View sig .tc .vmem S32x512 .f32 :=
  oM.access (Rect.unit (s := S1024x512) off S32x512.size h)

theorem mem_oR_iff (q : Nat) (k : Fin 8) (off : Fin 2 → Nat) (h : ∀ a, off a + S32x512.size a ≤ S1024x512.size a)
    (hoff : off = ![256 * q + 32 * k.val, 0]) (i : S1024x512.Idx) :
    i ∈ (oR off h).set ↔ 256 * q + 32 * k.val ≤ (i 0).val ∧ (i 0).val < 256 * q + 32 * k.val + 32 := by
  subst hoff
  rw [View.set_slice_whole, Rect.mem_set_unit]
  have h1 : (i 1).val < 512 := (i 1).isLt
  constructor
  · intro hh; exact hh (0 : Fin 2)
  · intro h0; exact Fin.forall_fin_two.mpr ⟨h0, Nat.zero_le _, by show (i 1).val < 0 + 512; omega⟩

theorem st_congr (off : Fin 2 → Nat) (h : ∀ a, off a + S32x512.size a ≤ S1024x512.size a) (w : FVec F S32x512 .f32)
    (P : S1024x512.Idx → Prop) (o o' : oM.view.ty.Contents (Elt F)) (hP : ∀ i, P i → o i = o' i)
    (i : S1024x512.Idx) (hi : P i ∨ i ∈ (oR off h).set) : st off h o w i = st off h o' w i := by
  unfold st
  refine View.write_congr (fun _ _ _ => rfl) fun hn => ?_
  rcases hi with hi | hi
  · exact hP i hi
  · exact absurd hi hn

abbrev wC (c : Dev nD) (k : Fin 8) : View sig .tc .vmem S32x512 .f32 := oR (k0_off4 c (wk k.val)) (Gen.k0_off4_inb c k)
abbrev wZ (c : Dev nD) (k : Fin 8) : View sig .tc .vmem S32x512 .f32 := oR (k0_off6 c (wk k.val)) (Gen.k0_off6_inb c k)
abbrev wX (c : Dev nD) (k : Fin 8) : View sig .tc .vmem S32x512 .f32 := oR (k0_off8 c (wk k.val)) (Gen.k0_off8_inb c k)
abbrev wD (c : Dev nD) (k : Fin 8) : View sig .tc .vmem S32x512 .f32 := oR (k0_off10 c (wk k.val)) (Gen.k0_off10_inb c k)

theorem cover (c : Dev nD) (i : S1024x512.Idx) :
    (∃ k : Fin 8, i ∈ (wC c k).set) ∨ (∃ k : Fin 8, i ∈ (wZ c k).set ∨ i ∈ (wX c k).set) ∨ (∃ k : Fin 8, i ∈ (wD c k).set) := by
  have hr : (i 0).val < 1024 := (i 0).isLt
  have hx := cx_lt c
  have hp := cp_lt c
  obtain ⟨k, hk⟩ : ∃ k : Fin 8, k.val = (i 0).val % 256 / 32 := ⟨⟨(i 0).val % 256 / 32, by omega⟩, rfl⟩
  have hq : (i 0).val / 256 = qme c ∨ (i 0).val / 256 = qzn c ∨ (i 0).val / 256 = qxn c ∨ (i 0).val / 256 = qdg c := by
    unfold qme qzn qxn qdg; omega
  rcases hq with hq | hq | hq | hq
  · exact .inl ⟨k, (mem_oR_iff (qme c) k _ _ (off4_fun c k) i).mpr (by omega)⟩
  · exact .inr (.inl ⟨k, .inl ((mem_oR_iff (qzn c) k _ _ (off6_fun c k) i).mpr (by omega))⟩)
  · exact .inr (.inl ⟨k, .inr ((mem_oR_iff (qxn c) k _ _ (off8_fun c k) i).mpr (by omega))⟩)
  · exact .inr (.inr ⟨k, (mem_oR_iff (qdg c) k _ _ (off10_fun c k) i).mpr (by omega)⟩)

theorem stC_congr (c : Dev nD) (k : Fin 8) (P : S1024x512.Idx → Prop) (o o' : oM.view.ty.Contents (Elt F))
    (hP : ∀ i, P i → o i = o' i) (i : S1024x512.Idx) (hi : P i ∨ i ∈ (wC c k).set) : stC m c k o i = stC m c k o' i :=
  st_congr _ _ _ P o o' hP i hi
theorem stZ_congr (c : Dev nD) (k : Fin 8) (P : S1024x512.Idx → Prop) (o o' : oM.view.ty.Contents (Elt F))
    (hP : ∀ i, P i → o i = o' i) (i : S1024x512.Idx) (hi : P i ∨ i ∈ (wZ c k).set) : stZ m c k o i = stZ m c k o' i :=
  st_congr _ _ _ P o o' hP i hi
theorem stX_congr (c : Dev nD) (k : Fin 8) (P : S1024x512.Idx → Prop) (o o' : oM.view.ty.Contents (Elt F))
    (hP : ∀ i, P i → o i = o' i) (i : S1024x512.Idx) (hi : P i ∨ i ∈ (wX c k).set) : stX m c k o i = stX m c k o' i :=
  st_congr _ _ _ P o o' hP i hi
theorem stD_congr (c : Dev nD) (k : Fin 8) (P : S1024x512.Idx → Prop) (o o' : oM.view.ty.Contents (Elt F))
    (hP : ∀ i, P i → o i = o' i) (i : S1024x512.Idx) (hi : P i ∨ i ∈ (wD c k).set) : stD m c k o i = stD m c k o' i :=
  st_congr _ _ _ P o o' hP i hi

theorem phC_congr (c : Dev nD) (P : S1024x512.Idx → Prop) (o o' : oM.view.ty.Contents (Elt F)) (hP : ∀ i, P i → o i = o' i) :
    ∀ i : S1024x512.Idx, (P i ∨ ∃ k ∈ List.finRange 8, i ∈ (wC c k).set) → phC m c o i = phC m c o' i :=
  foldl_cover (fun (i : S1024x512.Idx) (o o' : oM.view.ty.Contents (Elt F)) => o i = o' i)
    (fun k o => stC m c k o) (fun k i => i ∈ (wC c k).set) (fun k P o o' h i hi => stC_congr m c k P o o' h i hi)
    (List.finRange 8) P o o' hP
theorem phD_congr (c : Dev nD) (P : S1024x512.Idx → Prop) (o o' : oM.view.ty.Contents (Elt F)) (hP : ∀ i, P i → o i = o' i) :
    ∀ i : S1024x512.Idx, (P i ∨ ∃ k ∈ List.finRange 8, i ∈ (wZ c k).set ∨ i ∈ (wX c k).set) → phD m c o i = phD m c o' i :=
  foldl_cover (fun (i : S1024x512.Idx) (o o' : oM.view.ty.Contents (Elt F)) => o i = o' i)
    (fun k o => stX m c k (stZ m c k o)) (fun k i => i ∈ (wZ c k).set ∨ i ∈ (wX c k).set)
    (fun k P o o' h i hi => stX_congr m c k (fun i => P i ∨ i ∈ (wZ c k).set) _ _
      (fun i hi => stZ_congr m c k P o o' h i hi) i (by rcases hi with hi | hi | hi; exacts [.inl (.inl hi), .inl (.inr hi), .inr hi]))
    (List.finRange 8) P o o' hP
theorem phE_congr (c : Dev nD) (P : S1024x512.Idx → Prop) (o o' : oM.view.ty.Contents (Elt F)) (hP : ∀ i, P i → o i = o' i) :
    ∀ i : S1024x512.Idx, (P i ∨ ∃ k ∈ List.finRange 8, i ∈ (wD c k).set) → phE m c o i = phE m c o' i :=
  foldl_cover (fun (i : S1024x512.Idx) (o o' : oM.view.ty.Contents (Elt F)) => o i = o' i)
    (fun k o => stD m c k o) (fun k i => i ∈ (wD c k).set) (fun k P o o' h i hi => stD_congr m c k P o o' h i hi)
    (List.finRange 8) P o o' hP

-- The 32 stored blocks cover every row, so the result does not depend on what the buffer held before.
theorem outOf_indep (c : Dev nD) (g g' : oM.view.ty.Contents (Elt F)) : outOf m c g = outOf m c g' := by
  funext i
  refine phE_congr m c _ _ _ (phD_congr m c _ _ _ (phC_congr m c (fun _ => False) g g' (fun _ h => h.elim))) i ?_
  rcases cover c i with ⟨k, hk⟩ | ⟨k, hk⟩ | ⟨k, hk⟩
  · exact .inl (.inl (.inr ⟨k, List.mem_finRange k, hk⟩))
  · exact .inl (.inr ⟨k, List.mem_finRange k, hk⟩)
  · exact .inr ⟨k, List.mem_finRange k, hk⟩

end Cert.KernelIdeal.RS

end
-- ==== Proof.Dats.lean ====
import proofs.«901037_g7700000000001038_dist_rs_v7x_xyz2x2x4_y_m1024_n512_f32_1_alg».proof.Proof.Ghost
import proofs.«901037_g7700000000001038_dist_rs_v7x_xyz2x2x4_y_m1024_n512_f32_1_alg».proof.Proof.OutVal

noncomputable section

namespace Cert.KernelIdeal.RS

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def outAt (c : Dev nD) : (cc0_stg1_0 : Ref sig .tc).ty.Contents (Elt F) :=
  outOf m c (m ((c : Thread nD τ).loc cc0_stg1_0))

def scr4 (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

def Φ₀ (c : Dev nD) : sProp 𝕄 := iprop(start m c ∗ scr4 (F := F) c)

def Φ₁ (c : Dev nD) : sProp 𝕄 :=
  iprop(scr4 (F := F) c ∗ Pipeline.ownSems0 (Ix := Unit) (Name := ℕ) (U := UU) (Lvl := ℕ) (Val := Elt F) (τ := τ) osem c)

-- Proof data of each device: the argument block stays as it came, the result block ends as the 32 stores leave it.
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

theorem share_eq (c : Dev nD) (w : Fin cfg0.W) : (dats m 0 c).share w = fullShare := by unfold Dat.share; split <;> rfl

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

end Cert.KernelIdeal.RS

end
-- ==== Proof.Launch.lean ====
import proofs.«901037_g7700000000001038_dist_rs_v7x_xyz2x2x4_y_m1024_n512_f32_1_alg».proof.Proof.Levels
import proofs.«901037_g7700000000001038_dist_rs_v7x_xyz2x2x4_y_m1024_n512_f32_1_alg».proof.Proof.Dats

noncomputable section

namespace Cert.KernelIdeal.RS

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

theorem stage_sem_lt : ∀ (w : Fin cfg0.W) (s : Fin (cfg0.spec w).nbuf), ((cfg0.spec w).sem s).val < 2 := by decide

theorem ownSemFacts : Pipeline.OwnSemFacts cfg0.spec osem where
  isScoped := by decide
  inj := fun a b h => Fin.ext (by have := congrArg Fin.val (SemLoc.dma.inj h); simp only at this; omega)
  disj := fun k w s h => by
    have h1 := congrArg Fin.val (SemLoc.dma.inj h)
    have h2 := stage_sem_lt w s
    simp only at h1; omega

def toks (c : Dev nD) : sProp 𝕄 :=
  iprop((bigSep Finset.univ fun j : Fin 64 => dutyTok ER (kcell (c, j.castSucc)) 0 0)
    ∗ dutyTok ER (barCell c) 0 0 ∗ dutyTok ER (barCell c) 0 1 ∗ dutyTok ER (barCell c) 0 2)

def G (c : Dev nD) : sProp 𝕄 :=
  iprop((bigSep Finset.univ fun k : Fin 65 => roundState ER (Rd m) (kcell (c, k)) 0)
    ∗ (bigSep Finset.univ fun k : Fin 65 => iprop(atPos ER (kcell (c, k)) 0 ∅ 0 ∗ reached ER (kcell (c, k)) 0)) ∗ toks (F := F) c)

def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

omit [FloatOps F] in

theorem bigSep_fin65 (Φ : Fin 65 → sProp 𝕄) :
    bigSep Finset.univ Φ = iprop(Φ (Fin.last 64) ∗ bigSep Finset.univ fun j : Fin 64 => Φ j.castSucc) := by
  rw [Fin.univ_castSuccEmb, Finset.cons_eq_insert, bigSep_insert (fun h => by
    obtain ⟨j, _, hj⟩ := Finset.mem_map.mp h
    have h1 : j.val = 64 := congrArg Fin.val hj
    have := j.isLt; omega), bigSep_map]; rfl

omit [FloatOps F] in
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 65 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_fin3]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in

theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 65 => semVal (kcell (c, k)) 0 : sProp 𝕄) := by
  rw [unscopedSems0_eq, bigSep_fin65, kcell_last]
  unfold Pipeline.ownSems0
  iintro ⟨HS, HB⟩
  isplitl [HB]; · iexact HB
  iapply (Entails.of_eq (bigSep_congr fun (j : Fin 64) _ => by rw [kcell_castSucc]))
  iexact HS

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k : Fin 65 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 65 => semVal (kcell (c, k)) 0) ∗ bigSep Finset.univ fun k : Fin 65 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in

theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv yEquiv (fun c : Dev nD => (dutyTok ER (barCell c) 0 0 : sProp 𝕄)),
    bigSep_univ_equiv xEquiv (fun c : Dev nD => (dutyTok ER (barCell c) 0 1 : sProp 𝕄)),
    bigSep_univ_equiv zEquiv (fun c : Dev nD => (dutyTok ER (barCell c) 0 2 : sProp 𝕄)),
    bigSep_univ_comm (fun (c : Dev nD) (j : Fin 64) => (dutyTok ER (kcell (c, j.castSucc)) 0 0 : sProp 𝕄)),
    bigSep_univ_comm (fun (c : Dev nD) (j : Fin 64) => (dutyTok ER (kcell (payer c j, j.castSucc)) 0 0 : sProp 𝕄)),
    bigSep_congr (s := Finset.univ) (fun (j : Fin 64) _ =>
      bigSep_univ_equiv (payerEquiv j) (fun c : Dev nD => (dutyTok ER (kcell (c, j.castSucc)) 0 0 : sProp 𝕄)))]
  exact Entails.refl _

omit [FloatOps F] in
theorem regroup :
    (bigSep Finset.univ fun c : Dev nD => iprop((bigSep Finset.univ fun k => iprop(∃ κ : ℕ, cellInv ER (Rd m) κ (kcell (c, k))))
          ∗ (bigSep Finset.univ fun k : Fin 65 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 65 => iprop(∃ κ : ℕ, cellInv ER (Rd m) κ (kcell ck))),
    bigSep_congr (s := Finset.univ) (fun (c : Dev nD) _ => bigSep_sep' Finset.univ (fun k : Fin 65 => (atPos ER (kcell (c, k)) 0 ∅ 0 : sProp 𝕄)) (fun k => reached ER (kcell (c, k)) 0)),
    bigSep_sep', ← bigSep_univ_prod (fun ck : Dev nD × Fin 65 => (reached ER (kcell ck) 0 : sProp 𝕄))]
  iintro ⟨HI, ⟨Hat, #HR⟩, Htok⟩
  ihave HK := (BI.bigSep_exists_pi Finset.univ (fun (ck : Dev nD × Fin 65) (κ : ℕ) => (cellInv ER (Rd m) κ (kcell ck) : sProp 𝕄))) $$ HI
  icases HK with ⟨%K, #HI⟩
  ihave Htk := (toks_around (F := F)) $$ Htok
  iapply (bigSep_with_persistent (R := records m K) fun c _ => show iprop(records m K ∗ linear c) ⊢ G' m c from by
    unfold G' ghost; iintro H; iexists K; iexact H)
  isplitr
  · unfold records; isplitl; · iexact HI
    iexact HR
  · iapply ((Entails.of_eq (bigSep_sep' Finset.univ (fun c : Dev nD => bigSep Finset.univ fun k : Fin 65 => (atPos ER (kcell (c, k)) 0 ∅ 0 : sProp 𝕄)) payToks).symm).trans
      (bigSep_mono fun c _ => show _ ⊢ linear c from Entails.of_eq (by unfold linear; rfl)))
    isplitl [Hat]; · iexact Hat
    iexact Htk

omit [FloatOps F] in

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem partner_partner (c : Dev nD) (k : Fin 3) : partner (partner c k) k = c := by
  match k with
  | 0 => exact py_py c
  | 1 => exact px_px c
  | 2 => exact pz_pz c

omit [FloatOps F] in

theorem sum_tally_entry (c : Dev nD) (sm : SemLoc sig) (e : Fin 3 × SemLoc sig) :
    ∑ d : Dev nD, tallyAt ((((partner d e.1 : Dev nD) : Thread nD τ), e.2) : GSem nD τ sig) () (amt e.2) ((c : Thread nD τ), sm) ()
      = if e.2 = sm then amt sm else 0 := by
  have key : ∀ d : Dev nD, tallyAt ((((partner d e.1 : Dev nD) : Thread nD τ), e.2) : GSem nD τ sig) () (amt e.2) ((c : Thread nD τ), sm) ()
      = if d = partner c e.1 then (if e.2 = sm then amt sm else 0) else 0 := by
    intro d
    rw [tallyAt_apply]
    by_cases hd : d = partner c e.1
    · subst hd; rw [partner_partner, if_pos rfl]
      by_cases hs : e.2 = sm
      · rw [if_pos hs, if_pos ⟨by rw [hs], rfl⟩, hs]
      · rw [if_neg hs, if_neg (fun h => hs (congrArg Prod.snd h.1).symm)]
    · rw [if_neg hd, if_neg (fun h => hd (by
        have hc : c = partner d e.1 := congrArg (fun g : GSem nD τ sig => g.1.1) h.1
        rw [hc, partner_partner]))]
  rw [Finset.sum_congr rfl fun d _ => key d, Finset.sum_ite_eq' Finset.univ (partner c e.1), if_pos (Finset.mem_univ _)]

omit [FloatOps F] in
theorem sum_Ow_skel (c : Dev nD) (sm : SemLoc sig) (sk : List (Fin 3 × SemLoc sig)) :
    ∑ d : Dev nD, Ow (sk.map fun e => ((((partner d e.1 : Dev nD) : Thread nD τ), e.2), amt e.2)) ((c : Thread nD τ), sm) ()
      = sk.countP (fun e => decide (e.2 = sm)) * amt sm := by
  induction sk with
  | nil =>
    rw [List.countP_nil, Nat.zero_mul]
    exact Finset.sum_eq_zero fun d _ => rfl
  | cons e sk ih =>
    have hstep : ∀ d : Dev nD, Ow ((e :: sk).map fun e => ((((partner d e.1 : Dev nD) : Thread nD τ), e.2), amt e.2)) ((c : Thread nD τ), sm) ()
        = Ow (sk.map fun e => ((((partner d e.1 : Dev nD) : Thread nD τ), e.2), amt e.2)) ((c : Thread nD τ), sm) ()
          + tallyAt ((((partner d e.1 : Dev nD) : Thread nD τ), e.2) : GSem nD τ sig) () (amt e.2) ((c : Thread nD τ), sm) () := fun d => by
      rw [List.map_cons, Ow_cons, Pi.add_apply, Finsupp.add_apply]
    rw [Finset.sum_congr rfl fun d _ => hstep d, Finset.sum_add_distrib, ih, sum_tally_entry, List.countP_cons]
    by_cases h : e.2 = sm
    · rw [if_pos h, if_pos (decide_eq_true h), Nat.add_mul, Nat.one_mul]
    · rw [if_neg h, if_neg (fun hh => h (of_decide_eq_true hh)), Nat.add_zero, Nat.add_zero]

omit [FloatOps F] in

theorem owed_sum (c : Dev nD) (sm : SemLoc sig) :
    ∑ d : Dev nD, O₀ d ((c : Thread nD τ), sm) () = owedSkel.countP (fun e => decide (e.2 = sm)) * amt sm := by
  unfold O₀; simp only [owedList_eq]; exact sum_Ow_skel c sm owedSkel

theorem count_bar : owedSkel.countP (fun e => decide (e.2 = (.reg barS : SemLoc sig))) = 3 := by decide +kernel
theorem count_recv : ∀ j : Fin 64, owedSkel.countP (fun e => decide (e.2 = osem j)) = if payKind j = 0 then 0 else 1 := by decide +kernel

omit [FloatOps F] in
theorem launch_tally (c : Dev nD) (sm : SemLoc sig) (n : ℕ) (h : ∑ d : Dev nD, O₀ d ((c : Thread nD τ), sm) () = n) :
    tallyOn ((c : Thread nD τ), sm) (launchCredit (Pipeline.owing O₀) 0 ((c : Thread nD τ), sm))
      = (tallyAt ((c : Thread nD τ), sm) () n : CellTallies nD τ sig Unit) := by
  unfold tallyAt; refine congrArg _ (Finsupp.ext fun u => ?_); cases u
  rw [Pipeline.launchCredit_owing, Finsupp.single_eq_same, h]

omit [FloatOps F] in
theorem launch_bar (c : Dev nD) :
    tallyOn (barCell c) (launchCredit (Pipeline.owing O₀) 0 (barCell c)) = (tallyAt (barCell c) () 3 : CellTallies nD τ sig Unit) :=
  launch_tally c (.reg barS) 3 (by rw [owed_sum, count_bar]; rfl)

omit [FloatOps F] in
theorem launch_recv (c : Dev nD) (j : Fin 64) (hj : j ∈ recvSet) :
    tallyOn ((c : Thread nD τ), osem j) (launchCredit (Pipeline.owing O₀) 0 ((c : Thread nD τ), osem j))
      = (tallyAt ((c : Thread nD τ), osem j) () N : CellTallies nD τ sig Unit) :=
  launch_tally c (osem j) N (by
    rw [owed_sum, count_recv, if_neg (Finset.mem_filter.mp hj).2]; exact Nat.one_mul _)

omit [FloatOps F] in

theorem creds (c : Dev nD) :
    (Pipeline.launchCred O₀ c : sProp 𝕄)
      ⊢ iprop(cred (tallyAt (barCell c) () 3) ∗ bigSep recvSet fun j => cred (tallyAt (kcell (c, j.castSucc)) () N)) := by
  unfold Pipeline.launchCred
  refine (bigSep_subset (Finset.subset_univ ((insert (Fin.last 64) (recvSet.map Fin.castSuccEmb)).map ⟨csem, csem_injective⟩))).trans ?_
  rw [bigSep_map, bigSep_insert (fun h => by
    obtain ⟨j, _, hj⟩ := Finset.mem_map.mp h
    have h1 : j.val = 64 := congrArg Fin.val hj
    have := j.isLt; omega), bigSep_map]
  show iprop(cred (tallyOn ((c : Thread nD τ), csem (Fin.last 64)) (launchCredit (Pipeline.owing O₀) 0 ((c : Thread nD τ), csem (Fin.last 64))))
      ∗ bigSep recvSet fun j : Fin 64 => cred (tallyOn ((c : Thread nD τ), csem j.castSucc) (launchCredit (Pipeline.owing O₀) 0 ((c : Thread nD τ), csem j.castSucc)))) ⊢ _
  have hR : ∀ j ∈ recvSet, (cred (tallyOn ((c : Thread nD τ), csem j.castSucc) (launchCredit (Pipeline.owing O₀) 0 ((c : Thread nD τ), csem j.castSucc))) : sProp 𝕄)
      = cred (tallyAt (kcell (c, j.castSucc)) () N) := fun j hj => by
    unfold kcell; rw [csem_castSucc]; exact congrArg cred (launch_recv c j hj)
  rw [csem_last, launch_bar, bigSep_congr hR]

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr4
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ (F := F) c from rfl, scopedRest0_eq]
  unfold Φ₁ scr4
  iintro ⟨Hr, Hz⟩
  isplitr; · iempintro
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

-- From every device's body obligation the whole mesh runs to the end, each array ending at its proof data's value.
theorem run_main (hbody : ∀ c, BodyObligation (dats (F := F) m 0 c) (defs₀ (F := F)) 𝒱₀ () Set.univ) :
    θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

end Cert.KernelIdeal.RS

end
-- ==== Proof.Final.lean ====
import proofs.«901037_g7700000000001038_dist_rs_v7x_xyz2x2x4_y_m1024_n512_f32_1_alg».proof.Proof.Launch
import proofs.«901037_g7700000000001038_dist_rs_v7x_xyz2x2x4_y_m1024_n512_f32_1_alg».proof.Proof.Gen.KernelIdeal.Points

noncomputable section

namespace Cert.KernelIdeal.RS

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

theorem finalA_x (c : Dev nD) : finalA m c (0 : Fin 2) = m ((c : Thread nD τ).loc main_arg0) :=
  (dats (F := F) m 0 c).arrAt_in (0 : Fin 2) rfl _

theorem read_arr1 {c : Dev nD} (dat : Dat τ (Elt F) Unit ℕ UU ℕ cfg0 c) :
    ((cfg0.win (1 : Fin 2)).blk (0 : Fin 1)).view.read (Elt F) (dat.arrAt (1 : Fin 2) cfg0.N) = dat.flushed (1 : Fin 2) (0 : Fin 1) := by
  rw [show cfg0.N = ((0 : Fin 1) : Fin cfg0.N).val + 1 from rfl, dat.arrAt_succ (1 : Fin 2) (0 : Fin 1)]
  rw [show (cfg0.win (1 : Fin 2)).flush (0 : Fin 1) = true from flush0_1 _, if_pos rfl]
  exact View.read_write_univ _ _

theorem flushed1_eq {c : Dev nD} (dat : Dat τ (Elt F) Unit ℕ UU ℕ cfg0 c) :
    dat.flushed (1 : Fin 2) (0 : Fin 1) = dat.after (1 : Fin 2) (0 : Fin 1) :=
  funext fun j => congrArg (dat.after (1 : Fin 2) (0 : Fin 1)) (funext fun a => Fin.ext rfl)

omit [FloatOps F] in

theorem read_blk1 (X : (main_v1 : Ref sig .tc).ty.Contents (Elt F)) :
    ((cfg0.win (1 : Fin 2)).blk (0 : Fin 1)).view.read (Elt F) X = X :=
  Memref.read_access_unit_zero (Elt F) main_v1 (funext fun a => by fin_cases a <;> rfl) _ X

theorem arr1_eq {c : Dev nD} (dat : Dat τ (Elt F) Unit ℕ UU ℕ cfg0 c) :
    dat.arrAt (1 : Fin 2) cfg0.N = dat.after (1 : Fin 2) (0 : Fin 1) :=
  (read_blk1 (F := F) (dat.arrAt (1 : Fin 2) cfg0.N)).symm.trans ((read_arr1 dat).trans (flushed1_eq dat))

section

attribute [local irreducible] outAt

theorem after1_eq (c : Dev nD) : (dats m 0 c).after (1 : Fin 2) (0 : Fin 1) = outAt m c := rfl

theorem finalA_out (c : Dev nD) : finalA m c (1 : Fin 2) = outAt m c := by
  unfold finalA
  exact (arr1_eq (dats m 0 c)).trans (after1_eq m c)

-- The run with the values dropped.
theorem frame_of_body (hbody : ∀ c, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c (0 : Fin 2)).trans (finalA_x m c)) (run_main m ρ hbody)

-- After the run each device's result array holds what its 32 stores wrote, and its argument array what it held.
theorem value_of_body (hbody : ∀ c, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)) :=
  (θ_run defs _ _).mono (fun _ h c => ⟨(h c (1 : Fin 2)).trans (finalA_out m c), (h c (0 : Fin 2)).trans (finalA_x m c)⟩)
    (run_main m ρ hbody)

end

end Cert.KernelIdeal.RS

end
-- ==== Proof.OutValIdeal.lean ====
import proofs.«901037_g7700000000001038_dist_rs_v7x_xyz2x2x4_y_m1024_n512_f32_1_alg».proof.Proof.OutVal
import proofs.«901037_g7700000000001038_dist_rs_v7x_xyz2x2x4_y_m1024_n512_f32_1_alg».proof.Proof.MeshTab
import Idealize.ShloMosaic.Lib.ValueIdx

noncomputable section

namespace Cert.KernelIdeal.RS

open Cert.KernelIdeal Cert.KernelIdeal.Gen Cert.KernelIdeal.Mesh
open Idealize.ShloMosaic Idealize.ShloMosaic.TcCoe Idealize.SL.Sem
open Idealize.SL Idealize.SL.RA

variable {F : FTy → Type} [FloatOps F]
variable (m : (ℓ : Loc nD τ sig) → Buf (Elt F) ℓ)

open Idealize.ShloMosaic.ValueIdx

def xi (r j : Nat) : S1x1024x1024.Idx :=
  ix3 (⟨0, Nat.one_pos⟩ : Fin 1) (⟨r % 1024, Nat.mod_lt _ (by decide)⟩ : Fin 1024) (⟨j % 1024, Nat.mod_lt _ (by decide)⟩ : Fin 1024)

theorem rdx_apply (f : (cc0_stg0_0 : Ref sig .tc).ty.Contents (Elt F)) (off : Fin 3 → Nat)
    (h : ∀ a, off a + S1x32x512.size a ≤ S1x1024x1024.size a) (x : S32x512.Idx) (r j : Nat)
    (h1 : off 1 + (x 0).val = r) (h2 : off 2 + (x 1).val = j) :
    shapeCast S32x512 (xM.view.readAt (Elt F) (Rect.unit (s := S1x1024x1024) off S1x32x512.size h).toLoadRect f)
      Gen.shapeCasts_S1x32x512_S32x512 x = f (xi r j) := by
  have hk : (S1x32x512.rowMajor (ix3 (⟨0, Nat.one_pos⟩ : Fin 1) (x 0) (x 1))).val = (S32x512.rowMajor x).val := by
    rw [Shape.rowMajor_val_three, Shape.rowMajor_val_two]
    show ((0 * 32 + (x 0).val) * 512 + (x 1).val) = (x 0).val * 512 + (x 1).val
    omega
  rw [shapeCast_apply _ _ x _ hk]
  show f _ = f (xi r j)
  congr 1
  have hx0 : (x 0).val < 32 := (x 0).isLt
  have hx1 : (x 1).val < 512 := (x 1).isLt
  have hb1 : off 1 + 32 ≤ 1024 := h 1
  have hb2 : off 2 + 512 ≤ 1024 := h 2
  have hb0 : off 0 + 1 ≤ 1 := h 0
  funext a
  apply Fin.ext
  match a with
  | ⟨0, _⟩ => show off 0 + 1 * 0 = 0; omega
  | ⟨1, _⟩ => show off 1 + 1 * (x 0).val = r % 1024; omega
  | ⟨2, _⟩ => show off 2 + 1 * (x 1).val = j % 1024; omega

theorem rdx_apply' (f : (cc0_stg0_0 : Ref sig .tc).ty.Contents (Elt F)) (off : Fin 3 → Nat)
    (h : ∀ a, off a + S1x32x512.size a ≤ S1x1024x1024.size a) (R C : Nat) (hoff : off = ![0, R, C]) (x : S32x512.Idx) :
    shapeCast S32x512 (xM.view.readAt (Elt F) (Rect.unit (s := S1x1024x1024) off S1x32x512.size h).toLoadRect f)
      Gen.shapeCasts_S1x32x512_S32x512 x = f (xi (R + (x 0).val) (C + (x 1).val)) :=
  rdx_apply f off h x _ _ (by subst hoff; rfl) (by subst hoff; rfl)

theorem Ych_emb (d : Dev nD) (k : Fin 8) (x : S32x512.Idx) :
    Ych m d k ((chk yB k).view.emb x) = xstg m (py d) (xi (256 * qme d + 32 * k.val + (x 0).val) (512 * cy d + (x 1).val)) := by
  have hc : 1 - (1 - cy d) = cy d := by have := cy_lt d; omega
  have hoff : k0_off1 (py d) (wk k.val) = ![0, 256 * qme d + 32 * k.val, 512 * cy d] := by
    rw [off1_fun (py d) k, qme_py, cy_py, hc]
  unfold Ych
  rw [View.write_emb_of_mem _ _ (Finset.mem_univ x)]
  exact rdx_apply' (xstg m (py d)) _ (Gen.k0_off1_inb (py d) k) _ _ hoff x

theorem Xch_emb (d : Dev nD) (k : Fin 8) (x : S32x512.Idx) :
    Xch m d k ((chk xB k).view.emb x) = xstg m (py (px d)) (xi (256 * qxn d + 32 * k.val + (x 0).val) (512 * cy d + (x 1).val)) := by
  unfold Xch
  rw [View.write_emb_of_mem _ _ (Finset.mem_univ x)]
  show Ych m (px d) k ((chk yB k).view.emb x) = _
  rw [Ych_emb, qme_px, cy_px]

theorem Zch_emb (d : Dev nD) (k : Fin 8) (x : S32x512.Idx) :
    Zch m d k ((chk zB k).view.emb x) = xstg m (py (pz d)) (xi (256 * qzn d + 32 * k.val + (x 0).val) (512 * cy d + (x 1).val)) := by
  unfold Zch
  rw [View.write_emb_of_mem _ _ (Finset.mem_univ x)]
  show Ych m (pz d) k ((chk yB k).view.emb x) = _
  rw [Ych_emb, qme_pz, cy_pz]

theorem Dch_emb_lo (d : Dev nD) (k : Fin 8) (hk : k.val < 3) (x : S32x512.Idx) :
    Dch m d k ((chk dB k).view.emb x) = xstg m (py d) (xi (256 * qdg d + 32 * k.val + (x 0).val) (512 * cy d + (x 1).val)) := by
  have hc : 1 - (1 - cy d) = cy d := by have := cy_lt d; omega
  have hoff : k0_off2 (py d) (wk k.val) = ![0, 256 * qdg d + 32 * k.val, 512 * cy d] := by
    rw [off2_fun (py d) ⟨k.val, hk⟩, qdg_py, cy_py, hc]
  unfold Dch
  rw [dif_pos hk, View.write_emb_of_mem _ _ (Finset.mem_univ x)]
  exact rdx_apply' (xstg m (py d)) _ (Gen.k0_off2_inb (py d) ⟨k.val, hk⟩) _ _ hoff x

theorem Dch_emb_mid (d : Dev nD) (k : Fin 8) (hk : ¬ k.val < 3) (hk' : k.val < 6) (x : S32x512.Idx) :
    Dch m d k ((chk dB k).view.emb x) = xstg m (py (pz (px d))) (xi (256 * qdg d + 32 * k.val + (x 0).val) (512 * cy d + (x 1).val)) := by
  unfold Dch
  rw [dif_neg hk, if_pos hk', View.write_emb_of_mem _ _ (Finset.mem_univ x)]
  show Zch m (px d) k ((chk zB k).view.emb x) = _
  rw [Zch_emb, cy_px]
  have hq : qzn (px d) = qdg d := by rw [← qme_pz, qme_pz_px]
  rw [hq]

theorem Dch_emb_hi (d : Dev nD) (k : Fin 8) (hk : ¬ k.val < 3) (hk' : ¬ k.val < 6) (x : S32x512.Idx) :
    Dch m d k ((chk dB k).view.emb x) = xstg m (py (px (pz d))) (xi (256 * qdg d + 32 * k.val + (x 0).val) (512 * cy d + (x 1).val)) := by
  unfold Dch
  rw [dif_neg hk, if_neg hk', View.write_emb_of_mem _ _ (Finset.mem_univ x)]
  show Xch m (pz d) k ((chk xB k).view.emb x) = _
  rw [Xch_emb, cy_pz]
  have hq : qxn (pz d) = qdg d := by rw [← qme_px, qme_px_pz]
  rw [hq]

theorem oR_emb0 (q : Nat) (k : Fin 8) (off : Fin 2 → Nat) (h : ∀ a, off a + S32x512.size a ≤ S1024x512.size a)
    (hoff : off = ![256 * q + 32 * k.val, 0]) (x : S32x512.Idx) :
    ((oR off h).emb x 0).val = 256 * q + 32 * k.val + (x 0).val := by
  subst hoff; show 256 * q + 32 * k.val + 1 * (x 0).val = _; omega
theorem oR_emb1 (q : Nat) (k : Fin 8) (off : Fin 2 → Nat) (h : ∀ a, off a + S32x512.size a ≤ S1024x512.size a)
    (hoff : off = ![256 * q + 32 * k.val, 0]) (x : S32x512.Idx) :
    ((oR off h).emb x 1).val = (x 1).val := by
  subst hoff; show 0 + 1 * (x 1).val = _; omega

theorem st_good (off : Fin 2 → Nat) (h : ∀ a, off a + S32x512.size a ≤ S1024x512.size a) (w : FVec F S32x512 .f32)
    (T : S1024x512.Idx → Elt F .f32) (hw : ∀ x, w x = T ((oR off h).emb x))
    (P : S1024x512.Idx → Prop) (o : oM.view.ty.Contents (Elt F)) (hP : ∀ i, P i → o i = T i)
    (i : S1024x512.Idx) (hi : P i ∨ i ∈ (oR off h).set) : st off h o w i = T i := by
  unfold st
  by_cases hm : i ∈ (oR off h).set
  · obtain ⟨x, rfl⟩ := View.exists_emb_of_mem_set _ hm
    rw [View.write_emb_of_mem _ _ (Finset.mem_univ x)]
    exact hw x
  · rw [View.write_of_not_mem _ _ _ hm]
    exact hP i (hi.resolve_right hm)

section AtIdeal

variable (m : (ℓ : Loc nD τ sig) → Buf (Elt Ideal) ℓ)

abbrev er (v : Elt Ideal .f32) : EReal := v

theorem sumv_apply (c : Dev nD) (off : Fin 3 → Nat) (h : ∀ a, off a + S1x32x512.size a ≤ S1x1024x1024.size a)
    (R C : Nat) (hoff : off = ![0, R, C]) (b : Vec Ideal S32x512 .f32) (x : S32x512.Idx) :
    er (sumv (F := Ideal) (ldx m c off h) b x) = er (xstg m c (xi (R + (x 0).val) (C + (x 1).val))) + er (b x) :=
  congrArg (fun t : EReal => t + er (b x)) (rdx_apply' (F := Ideal) (xstg m c) off h R C hoff x)

def tgt (c : Dev nD) (i : S1024x512.Idx) : EReal :=
  er (xstg m c (xi (i 0).val (512 * cy c + (i 1).val))) + er (xstg m (py c) (xi (i 0).val (512 * cy c + (i 1).val)))

variable (hx : ∀ c c' : Dev nD, cy c = cy c' → xstg (F := Ideal) m c = xstg m c')
include hx

theorem xstg_py_px (c : Dev nD) : xstg m (py (px c)) = xstg m (py c) := hx _ _ (by rw [cy_py, cy_py, cy_px])
theorem xstg_py_pz (c : Dev nD) : xstg m (py (pz c)) = xstg m (py c) := hx _ _ (by rw [cy_py, cy_py, cy_pz])
theorem xstg_py_pz_px (c : Dev nD) : xstg m (py (pz (px c))) = xstg m (py c) := hx _ _ (by rw [cy_py, cy_py, cy_pz, cy_px])
theorem xstg_py_px_pz (c : Dev nD) : xstg m (py (px (pz c))) = xstg m (py c) := hx _ _ (by rw [cy_py, cy_py, cy_px, cy_pz])

theorem Dch_emb (c : Dev nD) (k : Fin 8) (x : S32x512.Idx) :
    Dch m c k ((chk dB k).view.emb x) = xstg m (py c) (xi (256 * qdg c + 32 * k.val + (x 0).val) (512 * cy c + (x 1).val)) := by
  by_cases hk : k.val < 3
  · exact Dch_emb_lo m c k hk x
  · by_cases hk' : k.val < 6
    · rw [Dch_emb_mid m c k hk hk' x, xstg_py_pz_px m hx]
    · rw [Dch_emb_hi m c k hk hk' x, xstg_py_px_pz m hx]

theorem stC_good (c : Dev nD) (k : Fin 8) (P : S1024x512.Idx → Prop) (o : oM.view.ty.Contents (Elt Ideal))
    (hP : ∀ i, P i → o i = tgt m c i) (i : S1024x512.Idx) (hi : P i ∨ i ∈ (wC c k).set) : stC m c k o i = tgt m c i := by
  unfold stC
  refine st_good _ _ _ (tgt m c) (fun x => ?_) P o hP i hi
  have e : er (ldb yB k (Ych m c k) x)
      = er (xstg m (py c) (xi (256 * qme c + 32 * k.val + (x 0).val) (512 * cy c + (x 1).val))) := Ych_emb m c k x
  refine (sumv_apply m c _ _ _ _ (off3_fun c k) _ x).trans ?_
  rw [e]
  unfold tgt
  rw [oR_emb0 (qme c) k _ _ (off4_fun c k) x, oR_emb1 (qme c) k _ _ (off4_fun c k) x]
theorem stZ_good (c : Dev nD) (k : Fin 8) (P : S1024x512.Idx → Prop) (o : oM.view.ty.Contents (Elt Ideal))
    (hP : ∀ i, P i → o i = tgt m c i) (i : S1024x512.Idx) (hi : P i ∨ i ∈ (wZ c k).set) : stZ m c k o i = tgt m c i := by
  unfold stZ
  refine st_good _ _ _ (tgt m c) (fun x => ?_) P o hP i hi
  have e : er (ldb zB k (Zch m c k) x)
      = er (xstg m (py c) (xi (256 * qzn c + 32 * k.val + (x 0).val) (512 * cy c + (x 1).val))) :=
    (Zch_emb m c k x).trans (by rw [xstg_py_pz m hx])
  refine (sumv_apply m c _ _ _ _ (off5_fun c k) _ x).trans ?_
  rw [e]
  unfold tgt
  rw [oR_emb0 (qzn c) k _ _ (off6_fun c k) x, oR_emb1 (qzn c) k _ _ (off6_fun c k) x]
theorem stX_good (c : Dev nD) (k : Fin 8) (P : S1024x512.Idx → Prop) (o : oM.view.ty.Contents (Elt Ideal))
    (hP : ∀ i, P i → o i = tgt m c i) (i : S1024x512.Idx) (hi : P i ∨ i ∈ (wX c k).set) : stX m c k o i = tgt m c i := by
  unfold stX
  refine st_good _ _ _ (tgt m c) (fun x => ?_) P o hP i hi
  have e : er (ldb xB k (Xch m c k) x)
      = er (xstg m (py c) (xi (256 * qxn c + 32 * k.val + (x 0).val) (512 * cy c + (x 1).val))) :=
    (Xch_emb m c k x).trans (by rw [xstg_py_px m hx])
  refine (sumv_apply m c _ _ _ _ (off7_fun c k) _ x).trans ?_
  rw [e]
  unfold tgt
  rw [oR_emb0 (qxn c) k _ _ (off8_fun c k) x, oR_emb1 (qxn c) k _ _ (off8_fun c k) x]
theorem stD_good (c : Dev nD) (k : Fin 8) (P : S1024x512.Idx → Prop) (o : oM.view.ty.Contents (Elt Ideal))
    (hP : ∀ i, P i → o i = tgt m c i) (i : S1024x512.Idx) (hi : P i ∨ i ∈ (wD c k).set) : stD m c k o i = tgt m c i := by
  unfold stD
  refine st_good _ _ _ (tgt m c) (fun x => ?_) P o hP i hi
  have e : er (ldb dB k (Dch m c k) x)
      = er (xstg m (py c) (xi (256 * qdg c + 32 * k.val + (x 0).val) (512 * cy c + (x 1).val))) := Dch_emb m hx c k x
  refine (sumv_apply m c _ _ _ _ (off9_fun c k) _ x).trans ?_
  rw [e]
  unfold tgt
  rw [oR_emb0 (qdg c) k _ _ (off10_fun c k) x, oR_emb1 (qdg c) k _ _ (off10_fun c k) x]

theorem phC_good (c : Dev nD) (P : S1024x512.Idx → Prop) (o : oM.view.ty.Contents (Elt Ideal)) (hP : ∀ i, P i → o i = tgt m c i) :
    ∀ i : S1024x512.Idx, (P i ∨ ∃ k ∈ List.finRange 8, i ∈ (wC c k).set) → phC m c o i = tgt m c i :=
  foldl_cover (fun (i : S1024x512.Idx) (o _ : oM.view.ty.Contents (Elt Ideal)) => o i = tgt m c i)
    (fun k o => stC m c k o) (fun k i => i ∈ (wC c k).set) (fun k P o _ h i hi => stC_good m hx c k P o h i hi)
    (List.finRange 8) P o o hP
theorem phD_good (c : Dev nD) (P : S1024x512.Idx → Prop) (o : oM.view.ty.Contents (Elt Ideal)) (hP : ∀ i, P i → o i = tgt m c i) :
    ∀ i : S1024x512.Idx, (P i ∨ ∃ k ∈ List.finRange 8, i ∈ (wZ c k).set ∨ i ∈ (wX c k).set) → phD m c o i = tgt m c i :=
  foldl_cover (fun (i : S1024x512.Idx) (o _ : oM.view.ty.Contents (Elt Ideal)) => o i = tgt m c i)
    (fun k o => stX m c k (stZ m c k o)) (fun k i => i ∈ (wZ c k).set ∨ i ∈ (wX c k).set)
    (fun k P o _ h i hi => stX_good m hx c k (fun i => P i ∨ i ∈ (wZ c k).set) _
      (fun i hi => stZ_good m hx c k P o h i hi) i (by rcases hi with hi | hi | hi; exacts [.inl (.inl hi), .inl (.inr hi), .inr hi]))
    (List.finRange 8) P o o hP
theorem phE_good (c : Dev nD) (P : S1024x512.Idx → Prop) (o : oM.view.ty.Contents (Elt Ideal)) (hP : ∀ i, P i → o i = tgt m c i) :
    ∀ i : S1024x512.Idx, (P i ∨ ∃ k ∈ List.finRange 8, i ∈ (wD c k).set) → phE m c o i = tgt m c i :=
  foldl_cover (fun (i : S1024x512.Idx) (o _ : oM.view.ty.Contents (Elt Ideal)) => o i = tgt m c i)
    (fun k o => stD m c k o) (fun k i => i ∈ (wD c k).set) (fun k P o _ h i hi => stD_good m hx c k P o h i hi)
    (List.finRange 8) P o o hP

-- Element by element the stored array is the device's slab plus its y-partner's, on the columns of the device's half.
theorem outOf_tgt (c : Dev nD) (g : oM.view.ty.Contents (Elt Ideal)) (i : S1024x512.Idx) : outOf m c g i = tgt m c i := by
  refine phE_good m hx c _ _ (phD_good m hx c _ _ (phC_good m hx c (fun _ => False) g (fun _ h => h.elim))) i ?_
  rcases cover c i with ⟨k, hk⟩ | ⟨k, hk⟩ | ⟨k, hk⟩
  · exact .inl (.inl (.inr ⟨k, List.mem_finRange k, hk⟩))
  · exact .inl (.inr ⟨k, List.mem_finRange k, hk⟩)
  · exact .inr ⟨k, List.mem_finRange k, hk⟩

omit hx in

theorem xi_eq (r : Fin 1024) (j : Nat) (hj : j < 1024) :
    xi r.val j = ix3 (⟨0, Nat.one_pos⟩ : Fin 1) r (⟨j, hj⟩ : Fin 1024) := by
  have hr : r.val < 1024 := r.isLt
  funext a
  apply Fin.ext
  match a with
  | ⟨0, _⟩ => rfl
  | ⟨1, _⟩ => show r.val % 1024 = r.val; omega
  | ⟨2, _⟩ => show j % 1024 = j; omega

omit hx in

theorem col_lt (c : Dev nD) (i : S1024x512.Idx) : 512 * cy c + (i 1).val < 1024 := by
  have := cy_lt c
  have : (i 1).val < 512 := (i 1).isLt
  omega

theorem outOf_val (c : Dev nD) (g : oM.view.ty.Contents (Elt Ideal)) (i : S1024x512.Idx) :
    (show EReal from outOf m c g i)
      = (show EReal from xstg m c (ix3 (⟨0, Nat.one_pos⟩ : Fin 1) (i 0) (⟨512 * cy c + (i 1).val, col_lt c i⟩ : Fin 1024)))
        + (show EReal from xstg m (py c) (ix3 (⟨0, Nat.one_pos⟩ : Fin 1) (i 0) (⟨512 * cy c + (i 1).val, col_lt c i⟩ : Fin 1024))) := by
  rw [← xi_eq (i 0) _ (col_lt c i)]
  exact outOf_tgt m hx c g i

end AtIdeal

end Cert.KernelIdeal.RS

end
-- ==== Proof.FinalIdeal.lean ====
import proofs.«901037_g7700000000001038_dist_rs_v7x_xyz2x2x4_y_m1024_n512_f32_1_alg».proof.Proof.Final
import proofs.«901037_g7700000000001038_dist_rs_v7x_xyz2x2x4_y_m1024_n512_f32_1_alg».proof.Proof.OutValIdeal
import proofs.«901037_g7700000000001038_dist_rs_v7x_xyz2x2x4_y_m1024_n512_f32_1_alg».proof.Proof.RefSide
import proofs.«901037_g7700000000001038_dist_rs_v7x_xyz2x2x4_y_m1024_n512_f32_1_alg».proof.Proof.Gen.Pre_finite_inputs_Kernel

noncomputable section

namespace Cert.KernelIdeal.RS

open Cert.KernelIdeal Cert.KernelIdeal.Gen Cert.KernelIdeal.Mesh
open Idealize.ShloMosaic Idealize.ShloMosaic.TcCoe
open Idealize.SL Idealize.SL.Sem
open Idealize.ShloMosaic.Pipeline (Dat Cfg Window BodyObligation cellOf)
open Idealize.ShloMosaic.ValueIdx

theorem read_blk0 (X : (main_arg0 : Ref sig .tc).ty.Contents (Elt Ideal)) :
    (win0_0.blk (0 : Fin 1)).view.read (Elt Ideal) X = X :=
  Memref.read_access_unit_zero (Elt Ideal) main_arg0 (funext fun a => by fin_cases a <;> rfl) _ X

theorem xstg_eq (m : (ℓ : Loc nD τ sig) → Buf (Elt Ideal) ℓ) (c : Dev nD) :
    xstg m c = m ((c : Thread nD τ).loc main_arg0) := read_blk0 _

theorem arg_block_congr {α : Type} (X : (⟨3, ![2, 1024, 1024]⟩ : Shape).Idx → α) (c c' : Dev nD) (h : cy c = cy c') :
    Layout.blockN ⟨3, ![1, 1024, 1024]⟩ ⟨3, ![2, 1024, 1024]⟩ (Layout.meshBlock [2, 2, 4] ![[1], [], []] c) X
      = Layout.blockN ⟨3, ![1, 1024, 1024]⟩ ⟨3, ![2, 1024, 1024]⟩ (Layout.meshBlock [2, 2, 4] ![[1], [], []] c') X := by
  funext j
  rw [Cert.RefSide.arg_block X c j, Cert.RefSide.arg_block X c' j]
  have e : Cert.RefSide.yOf c = Cert.RefSide.yOf c' := Fin.ext h
  rw [e]

theorem frameI_of_body
    (hbody : ∀ (m : (ℓ : Loc nD τ sig) → Buf (Elt Ideal) ℓ) (c : Dev nD), BodyObligation (dats (F := Ideal) m 0 c) (defs₀ (F := Ideal)) 𝒱₀ () Set.univ) :
    Cert.frame_KernelIdeal :=
  fun m ρ _ => frame_of_body m ρ (hbody m)

-- Devices with equal y hold the same slab, so every received block is the other slab's; own plus other slab is the reference's block.
theorem algebraic_of_body
    (hbody : ∀ (m : (ℓ : Loc nD τ sig) → Buf (Elt Ideal) ℓ) (c : Dev nD), BodyObligation (dats (F := Ideal) m 0 c) (defs₀ (F := Ideal)) 𝒱₀ () Set.univ) :
    Cert.algebraic_KernelIdeal_ReferenceIdeal := by
  intro m g m' g' _ hagree
  refine ⟨Cert.RefSide.refOut (m' (((0 : Dev Cert.ReferenceIdeal.nD).tc : Thread Cert.ReferenceIdeal.nD Cert.ReferenceIdeal.τ).loc Cert.ReferenceIdeal.main_arg0)), ?_, Cert.RefSide.ref_run m' g'⟩
  have hstg : ∀ c : Dev nD, xstg m c
      = Layout.blockN ⟨3, ![1, 1024, 1024]⟩ ⟨3, ![2, 1024, 1024]⟩ (Layout.meshBlock [2, 2, 4] ![[1], [], []] c)
          (m' (((0 : Dev Cert.ReferenceIdeal.nD).tc : Thread Cert.ReferenceIdeal.nD Cert.ReferenceIdeal.τ).loc Cert.ReferenceIdeal.main_arg0)) :=
    fun c => (xstg_eq m c).trans (hagree c)
  have hx : ∀ c c' : Dev nD, cy c = cy c' → xstg (F := Ideal) m c = xstg m c' := fun c c' h =>
    (hstg c).trans ((arg_block_congr _ c c' h).trans (hstg c').symm)
  refine (θ_run _ _ _).mono (fun r h c => ⟨(h c).1.trans (funext fun i => ?_), (h c).2⟩) (value_of_body m g (hbody m))
  exact (outOf_val m hx c _ i).trans
    (Cert.RefSide.glue_of _ c (py c) (cy_py c) (xstg m c) (xstg m (py c)) (hstg c) (hstg (py c)) i _ _ rfl rfl rfl rfl)

end Cert.KernelIdeal.RS

end
-- ==== Proof.FlatTab.lean ====
import proofs.«901037_g7700000000001038_dist_rs_v7x_xyz2x2x4_y_m1024_n512_f32_1_alg».proof.Proof.Ghost

set_option maxRecDepth 65536

noncomputable section

namespace Cert.KernelIdeal.RS

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

omit [FloatOps F] in

theorem sep_assoc_eq (P Q R : sProp 𝕄) : iprop((P ∗ Q) ∗ R) = iprop(P ∗ Q ∗ R) :=
  BI.equiv_iff.mp ⟨(sep_assoc (PROP := sProp 𝕄) (P := P) (Q := Q) (R := R)).1,
    (sep_assoc (PROP := sProp 𝕄) (P := P) (Q := Q) (R := R)).2⟩

def flatInv (K : Dev nD × Fin 65 → ℕ) (c : Dev nD) : sProp 𝕄 := iprop(
    cellInv ER (Rd m) (K (c, ⟨64, by decide⟩)) (barCell c)
    ∗ cellInv ER (Rd m) (K (py c, ⟨64, by decide⟩)) (barCell (py c))
    ∗ cellInv ER (Rd m) (K (px c, ⟨64, by decide⟩)) (barCell (px c))
    ∗ cellInv ER (Rd m) (K (pz c, ⟨64, by decide⟩)) (barCell (pz c))
    ∗ cellInv ER (Rd m) (K (c, ⟨0, by decide⟩)) (dcell c ⟨2, by decide⟩)
    ∗ cellInv ER (Rd m) (K (c, ⟨1, by decide⟩)) (dcell c ⟨3, by decide⟩)
    ∗ cellInv ER (Rd m) (K (c, ⟨2, by decide⟩)) (dcell c ⟨4, by decide⟩)
    ∗ cellInv ER (Rd m) (K (c, ⟨3, by decide⟩)) (dcell c ⟨5, by decide⟩)
    ∗ cellInv ER (Rd m) (K (c, ⟨4, by decide⟩)) (dcell c ⟨6, by decide⟩)
    ∗ cellInv ER (Rd m) (K (c, ⟨5, by decide⟩)) (dcell c ⟨7, by decide⟩)
    ∗ cellInv ER (Rd m) (K (c, ⟨6, by decide⟩)) (dcell c ⟨8, by decide⟩)
    ∗ cellInv ER (Rd m) (K (c, ⟨7, by decide⟩)) (dcell c ⟨9, by decide⟩)
    ∗ cellInv ER (Rd m) (K (c, ⟨8, by decide⟩)) (dcell c ⟨10, by decide⟩)
    ∗ cellInv ER (Rd m) (K (c, ⟨9, by decide⟩)) (dcell c ⟨11, by decide⟩)
    ∗ cellInv ER (Rd m) (K (c, ⟨10, by decide⟩)) (dcell c ⟨12, by decide⟩)
    ∗ cellInv ER (Rd m) (K (c, ⟨11, by decide⟩)) (dcell c ⟨13, by decide⟩)
    ∗ cellInv ER (Rd m) (K (c, ⟨12, by decide⟩)) (dcell c ⟨14, by decide⟩)
    ∗ cellInv ER (Rd m) (K (c, ⟨13, by decide⟩)) (dcell c ⟨15, by decide⟩)
    ∗ cellInv ER (Rd m) (K (c, ⟨14, by decide⟩)) (dcell c ⟨16, by decide⟩)
    ∗ cellInv ER (Rd m) (K (c, ⟨15, by decide⟩)) (dcell c ⟨17, by decide⟩)
    ∗ cellInv ER (Rd m) (K (c, ⟨16, by decide⟩)) (dcell c ⟨18, by decide⟩)
    ∗ cellInv ER (Rd m) (K (c, ⟨17, by decide⟩)) (dcell c ⟨19, by decide⟩)
    ∗ cellInv ER (Rd m) (K (c, ⟨18, by decide⟩)) (dcell c ⟨20, by decide⟩)
    ∗ cellInv ER (Rd m) (K (c, ⟨19, by decide⟩)) (dcell c ⟨21, by decide⟩)
    ∗ cellInv ER (Rd m) (K (c, ⟨20, by decide⟩)) (dcell c ⟨22, by decide⟩)
    ∗ cellInv ER (Rd m) (K (c, ⟨21, by decide⟩)) (dcell c ⟨23, by decide⟩)
    ∗ cellInv ER (Rd m) (K (c, ⟨22, by decide⟩)) (dcell c ⟨24, by decide⟩)
    ∗ cellInv ER (Rd m) (K (c, ⟨23, by decide⟩)) (dcell c ⟨25, by decide⟩)
    ∗ cellInv ER (Rd m) (K (c, ⟨24, by decide⟩)) (dcell c ⟨26, by decide⟩)
    ∗ cellInv ER (Rd m) (K (c, ⟨25, by decide⟩)) (dcell c ⟨27, by decide⟩)
    ∗ cellInv ER (Rd m) (K (c, ⟨26, by decide⟩)) (dcell c ⟨28, by decide⟩)
    ∗ cellInv ER (Rd m) (K (c, ⟨27, by decide⟩)) (dcell c ⟨29, by decide⟩)
    ∗ cellInv ER (Rd m) (K (c, ⟨28, by decide⟩)) (dcell c ⟨30, by decide⟩)
    ∗ cellInv ER (Rd m) (K (c, ⟨29, by decide⟩)) (dcell c ⟨31, by decide⟩)
    ∗ cellInv ER (Rd m) (K (c, ⟨30, by decide⟩)) (dcell c ⟨32, by decide⟩)
    ∗ cellInv ER (Rd m) (K (c, ⟨31, by decide⟩)) (dcell c ⟨33, by decide⟩)
    ∗ cellInv ER (Rd m) (K (c, ⟨32, by decide⟩)) (dcell c ⟨34, by decide⟩)
    ∗ cellInv ER (Rd m) (K (c, ⟨33, by decide⟩)) (dcell c ⟨35, by decide⟩)
    ∗ cellInv ER (Rd m) (K (c, ⟨34, by decide⟩)) (dcell c ⟨36, by decide⟩)
    ∗ cellInv ER (Rd m) (K (c, ⟨35, by decide⟩)) (dcell c ⟨37, by decide⟩)
    ∗ cellInv ER (Rd m) (K (c, ⟨36, by decide⟩)) (dcell c ⟨38, by decide⟩)
    ∗ cellInv ER (Rd m) (K (c, ⟨37, by decide⟩)) (dcell c ⟨39, by decide⟩)
    ∗ cellInv ER (Rd m) (K (c, ⟨38, by decide⟩)) (dcell c ⟨40, by decide⟩)
    ∗ cellInv ER (Rd m) (K (c, ⟨39, by decide⟩)) (dcell c ⟨41, by decide⟩)
    ∗ cellInv ER (Rd m) (K (c, ⟨40, by decide⟩)) (dcell c ⟨42, by decide⟩)
    ∗ cellInv ER (Rd m) (K (c, ⟨41, by decide⟩)) (dcell c ⟨43, by decide⟩)
    ∗ cellInv ER (Rd m) (K (c, ⟨42, by decide⟩)) (dcell c ⟨44, by decide⟩)
    ∗ cellInv ER (Rd m) (K (c, ⟨43, by decide⟩)) (dcell c ⟨45, by decide⟩)
    ∗ cellInv ER (Rd m) (K (c, ⟨44, by decide⟩)) (dcell c ⟨46, by decide⟩)
    ∗ cellInv ER (Rd m) (K (c, ⟨45, by decide⟩)) (dcell c ⟨47, by decide⟩)
    ∗ cellInv ER (Rd m) (K (c, ⟨46, by decide⟩)) (dcell c ⟨48, by decide⟩)
    ∗ cellInv ER (Rd m) (K (c, ⟨47, by decide⟩)) (dcell c ⟨49, by decide⟩)
    ∗ cellInv ER (Rd m) (K (c, ⟨48, by decide⟩)) (dcell c ⟨50, by decide⟩)
    ∗ cellInv ER (Rd m) (K (c, ⟨49, by decide⟩)) (dcell c ⟨51, by decide⟩)
    ∗ cellInv ER (Rd m) (K (c, ⟨50, by decide⟩)) (dcell c ⟨52, by decide⟩)
    ∗ cellInv ER (Rd m) (K (c, ⟨51, by decide⟩)) (dcell c ⟨53, by decide⟩)
    ∗ cellInv ER (Rd m) (K (c, ⟨52, by decide⟩)) (dcell c ⟨54, by decide⟩)
    ∗ cellInv ER (Rd m) (K (c, ⟨53, by decide⟩)) (dcell c ⟨55, by decide⟩)
    ∗ cellInv ER (Rd m) (K (c, ⟨54, by decide⟩)) (dcell c ⟨56, by decide⟩)
    ∗ cellInv ER (Rd m) (K (c, ⟨55, by decide⟩)) (dcell c ⟨57, by decide⟩)
    ∗ cellInv ER (Rd m) (K (c, ⟨56, by decide⟩)) (dcell c ⟨58, by decide⟩)
    ∗ cellInv ER (Rd m) (K (c, ⟨57, by decide⟩)) (dcell c ⟨59, by decide⟩)
    ∗ cellInv ER (Rd m) (K (c, ⟨58, by decide⟩)) (dcell c ⟨60, by decide⟩)
    ∗ cellInv ER (Rd m) (K (c, ⟨59, by decide⟩)) (dcell c ⟨61, by decide⟩)
    ∗ cellInv ER (Rd m) (K (c, ⟨60, by decide⟩)) (dcell c ⟨62, by decide⟩)
    ∗ cellInv ER (Rd m) (K (c, ⟨61, by decide⟩)) (dcell c ⟨63, by decide⟩)
    ∗ cellInv ER (Rd m) (K (c, ⟨62, by decide⟩)) (dcell c ⟨64, by decide⟩)
    ∗ cellInv ER (Rd m) (K (c, ⟨63, by decide⟩)) (dcell c ⟨65, by decide⟩)
    ∗ cellInv ER (Rd m) (K (py c, ⟨8, by decide⟩)) (dcell (py c) ⟨10, by decide⟩)
    ∗ cellInv ER (Rd m) (K (py c, ⟨9, by decide⟩)) (dcell (py c) ⟨11, by decide⟩)
    ∗ cellInv ER (Rd m) (K (py c, ⟨10, by decide⟩)) (dcell (py c) ⟨12, by decide⟩)
    ∗ cellInv ER (Rd m) (K (py c, ⟨11, by decide⟩)) (dcell (py c) ⟨13, by decide⟩)
    ∗ cellInv ER (Rd m) (K (py c, ⟨12, by decide⟩)) (dcell (py c) ⟨14, by decide⟩)
    ∗ cellInv ER (Rd m) (K (py c, ⟨13, by decide⟩)) (dcell (py c) ⟨15, by decide⟩)
    ∗ cellInv ER (Rd m) (K (py c, ⟨14, by decide⟩)) (dcell (py c) ⟨16, by decide⟩)
    ∗ cellInv ER (Rd m) (K (py c, ⟨15, by decide⟩)) (dcell (py c) ⟨17, by decide⟩)
    ∗ cellInv ER (Rd m) (K (py c, ⟨61, by decide⟩)) (dcell (py c) ⟨63, by decide⟩)
    ∗ cellInv ER (Rd m) (K (py c, ⟨62, by decide⟩)) (dcell (py c) ⟨64, by decide⟩)
    ∗ cellInv ER (Rd m) (K (py c, ⟨63, by decide⟩)) (dcell (py c) ⟨65, by decide⟩)
    ∗ cellInv ER (Rd m) (K (px c, ⟨24, by decide⟩)) (dcell (px c) ⟨26, by decide⟩)
    ∗ cellInv ER (Rd m) (K (px c, ⟨25, by decide⟩)) (dcell (px c) ⟨27, by decide⟩)
    ∗ cellInv ER (Rd m) (K (px c, ⟨26, by decide⟩)) (dcell (px c) ⟨28, by decide⟩)
    ∗ cellInv ER (Rd m) (K (px c, ⟨27, by decide⟩)) (dcell (px c) ⟨29, by decide⟩)
    ∗ cellInv ER (Rd m) (K (px c, ⟨28, by decide⟩)) (dcell (px c) ⟨30, by decide⟩)
    ∗ cellInv ER (Rd m) (K (px c, ⟨29, by decide⟩)) (dcell (px c) ⟨31, by decide⟩)
    ∗ cellInv ER (Rd m) (K (px c, ⟨30, by decide⟩)) (dcell (px c) ⟨32, by decide⟩)
    ∗ cellInv ER (Rd m) (K (px c, ⟨31, by decide⟩)) (dcell (px c) ⟨33, by decide⟩)
    ∗ cellInv ER (Rd m) (K (px c, ⟨53, by decide⟩)) (dcell (px c) ⟨55, by decide⟩)
    ∗ cellInv ER (Rd m) (K (px c, ⟨54, by decide⟩)) (dcell (px c) ⟨56, by decide⟩)
    ∗ cellInv ER (Rd m) (K (px c, ⟨55, by decide⟩)) (dcell (px c) ⟨57, by decide⟩)
    ∗ cellInv ER (Rd m) (K (pz c, ⟨40, by decide⟩)) (dcell (pz c) ⟨42, by decide⟩)
    ∗ cellInv ER (Rd m) (K (pz c, ⟨41, by decide⟩)) (dcell (pz c) ⟨43, by decide⟩)
    ∗ cellInv ER (Rd m) (K (pz c, ⟨42, by decide⟩)) (dcell (pz c) ⟨44, by decide⟩)
    ∗ cellInv ER (Rd m) (K (pz c, ⟨43, by decide⟩)) (dcell (pz c) ⟨45, by decide⟩)
    ∗ cellInv ER (Rd m) (K (pz c, ⟨44, by decide⟩)) (dcell (pz c) ⟨46, by decide⟩)
    ∗ cellInv ER (Rd m) (K (pz c, ⟨45, by decide⟩)) (dcell (pz c) ⟨47, by decide⟩)
    ∗ cellInv ER (Rd m) (K (pz c, ⟨46, by decide⟩)) (dcell (pz c) ⟨48, by decide⟩)
    ∗ cellInv ER (Rd m) (K (pz c, ⟨47, by decide⟩)) (dcell (pz c) ⟨49, by decide⟩)
    ∗ cellInv ER (Rd m) (K (pz c, ⟨56, by decide⟩)) (dcell (pz c) ⟨58, by decide⟩)
    ∗ cellInv ER (Rd m) (K (pz c, ⟨57, by decide⟩)) (dcell (pz c) ⟨59, by decide⟩))

def idxInv (c : Dev nD) : List (Dev nD × Fin 65) :=
   [(c, ⟨64, by decide⟩),
    (py c, ⟨64, by decide⟩),
    (px c, ⟨64, by decide⟩),
    (pz c, ⟨64, by decide⟩),
    (c, ⟨0, by decide⟩),
    (c, ⟨1, by decide⟩),
    (c, ⟨2, by decide⟩),
    (c, ⟨3, by decide⟩),
    (c, ⟨4, by decide⟩),
    (c, ⟨5, by decide⟩),
    (c, ⟨6, by decide⟩),
    (c, ⟨7, by decide⟩),
    (c, ⟨8, by decide⟩),
    (c, ⟨9, by decide⟩),
    (c, ⟨10, by decide⟩),
    (c, ⟨11, by decide⟩),
    (c, ⟨12, by decide⟩),
    (c, ⟨13, by decide⟩),
    (c, ⟨14, by decide⟩),
    (c, ⟨15, by decide⟩),
    (c, ⟨16, by decide⟩),
    (c, ⟨17, by decide⟩),
    (c, ⟨18, by decide⟩),
    (c, ⟨19, by decide⟩),
    (c, ⟨20, by decide⟩),
    (c, ⟨21, by decide⟩),
    (c, ⟨22, by decide⟩),
    (c, ⟨23, by decide⟩),
    (c, ⟨24, by decide⟩),
    (c, ⟨25, by decide⟩),
    (c, ⟨26, by decide⟩),
    (c, ⟨27, by decide⟩),
    (c, ⟨28, by decide⟩),
    (c, ⟨29, by decide⟩),
    (c, ⟨30, by decide⟩),
    (c, ⟨31, by decide⟩),
    (c, ⟨32, by decide⟩),
    (c, ⟨33, by decide⟩),
    (c, ⟨34, by decide⟩),
    (c, ⟨35, by decide⟩),
    (c, ⟨36, by decide⟩),
    (c, ⟨37, by decide⟩),
    (c, ⟨38, by decide⟩),
    (c, ⟨39, by decide⟩),
    (c, ⟨40, by decide⟩),
    (c, ⟨41, by decide⟩),
    (c, ⟨42, by decide⟩),
    (c, ⟨43, by decide⟩),
    (c, ⟨44, by decide⟩),
    (c, ⟨45, by decide⟩),
    (c, ⟨46, by decide⟩),
    (c, ⟨47, by decide⟩),
    (c, ⟨48, by decide⟩),
    (c, ⟨49, by decide⟩),
    (c, ⟨50, by decide⟩),
    (c, ⟨51, by decide⟩),
    (c, ⟨52, by decide⟩),
    (c, ⟨53, by decide⟩),
    (c, ⟨54, by decide⟩),
    (c, ⟨55, by decide⟩),
    (c, ⟨56, by decide⟩),
    (c, ⟨57, by decide⟩),
    (c, ⟨58, by decide⟩),
    (c, ⟨59, by decide⟩),
    (c, ⟨60, by decide⟩),
    (c, ⟨61, by decide⟩),
    (c, ⟨62, by decide⟩),
    (c, ⟨63, by decide⟩),
    (py c, ⟨8, by decide⟩),
    (py c, ⟨9, by decide⟩),
    (py c, ⟨10, by decide⟩),
    (py c, ⟨11, by decide⟩),
    (py c, ⟨12, by decide⟩),
    (py c, ⟨13, by decide⟩),
    (py c, ⟨14, by decide⟩),
    (py c, ⟨15, by decide⟩),
    (py c, ⟨61, by decide⟩),
    (py c, ⟨62, by decide⟩),
    (py c, ⟨63, by decide⟩),
    (px c, ⟨24, by decide⟩),
    (px c, ⟨25, by decide⟩),
    (px c, ⟨26, by decide⟩),
    (px c, ⟨27, by decide⟩),
    (px c, ⟨28, by decide⟩),
    (px c, ⟨29, by decide⟩),
    (px c, ⟨30, by decide⟩),
    (px c, ⟨31, by decide⟩),
    (px c, ⟨53, by decide⟩),
    (px c, ⟨54, by decide⟩),
    (px c, ⟨55, by decide⟩),
    (pz c, ⟨40, by decide⟩),
    (pz c, ⟨41, by decide⟩),
    (pz c, ⟨42, by decide⟩),
    (pz c, ⟨43, by decide⟩),
    (pz c, ⟨44, by decide⟩),
    (pz c, ⟨45, by decide⟩),
    (pz c, ⟨46, by decide⟩),
    (pz c, ⟨47, by decide⟩),
    (pz c, ⟨56, by decide⟩),
    (pz c, ⟨57, by decide⟩)]
omit [FloatOps F] in
theorem flatInv_eq (K : Dev nD × Fin 65 → ℕ) (c : Dev nD) :
    flatInv m K c = bigSepL (idxInv c) fun ck => cellInv ER (Rd m) (K ck) (kcell ck) := rfl

def flatReached (c : Dev nD) : sProp 𝕄 := iprop(
    reached ER (barCell (py c)) 0
    ∗ reached ER (barCell (px c)) 0
    ∗ reached ER (barCell (pz c)) 0
    ∗ reached ER (dcell c ⟨2, by decide⟩) 0
    ∗ reached ER (dcell c ⟨3, by decide⟩) 0
    ∗ reached ER (dcell c ⟨4, by decide⟩) 0
    ∗ reached ER (dcell c ⟨5, by decide⟩) 0
    ∗ reached ER (dcell c ⟨6, by decide⟩) 0
    ∗ reached ER (dcell c ⟨7, by decide⟩) 0
    ∗ reached ER (dcell c ⟨8, by decide⟩) 0
    ∗ reached ER (dcell c ⟨9, by decide⟩) 0
    ∗ reached ER (dcell c ⟨10, by decide⟩) 0
    ∗ reached ER (dcell c ⟨11, by decide⟩) 0
    ∗ reached ER (dcell c ⟨12, by decide⟩) 0
    ∗ reached ER (dcell c ⟨13, by decide⟩) 0
    ∗ reached ER (dcell c ⟨14, by decide⟩) 0
    ∗ reached ER (dcell c ⟨15, by decide⟩) 0
    ∗ reached ER (dcell c ⟨16, by decide⟩) 0
    ∗ reached ER (dcell c ⟨17, by decide⟩) 0
    ∗ reached ER (dcell c ⟨18, by decide⟩) 0
    ∗ reached ER (dcell c ⟨19, by decide⟩) 0
    ∗ reached ER (dcell c ⟨20, by decide⟩) 0
    ∗ reached ER (dcell c ⟨21, by decide⟩) 0
    ∗ reached ER (dcell c ⟨22, by decide⟩) 0
    ∗ reached ER (dcell c ⟨23, by decide⟩) 0
    ∗ reached ER (dcell c ⟨24, by decide⟩) 0
    ∗ reached ER (dcell c ⟨25, by decide⟩) 0
    ∗ reached ER (dcell c ⟨26, by decide⟩) 0
    ∗ reached ER (dcell c ⟨27, by decide⟩) 0
    ∗ reached ER (dcell c ⟨28, by decide⟩) 0
    ∗ reached ER (dcell c ⟨29, by decide⟩) 0
    ∗ reached ER (dcell c ⟨30, by decide⟩) 0
    ∗ reached ER (dcell c ⟨31, by decide⟩) 0
    ∗ reached ER (dcell c ⟨32, by decide⟩) 0
    ∗ reached ER (dcell c ⟨33, by decide⟩) 0
    ∗ reached ER (dcell c ⟨34, by decide⟩) 0
    ∗ reached ER (dcell c ⟨35, by decide⟩) 0
    ∗ reached ER (dcell c ⟨36, by decide⟩) 0
    ∗ reached ER (dcell c ⟨37, by decide⟩) 0
    ∗ reached ER (dcell c ⟨38, by decide⟩) 0
    ∗ reached ER (dcell c ⟨39, by decide⟩) 0
    ∗ reached ER (dcell c ⟨40, by decide⟩) 0
    ∗ reached ER (dcell c ⟨41, by decide⟩) 0
    ∗ reached ER (dcell c ⟨42, by decide⟩) 0
    ∗ reached ER (dcell c ⟨43, by decide⟩) 0
    ∗ reached ER (dcell c ⟨44, by decide⟩) 0
    ∗ reached ER (dcell c ⟨45, by decide⟩) 0
    ∗ reached ER (dcell c ⟨46, by decide⟩) 0
    ∗ reached ER (dcell c ⟨47, by decide⟩) 0
    ∗ reached ER (dcell c ⟨48, by decide⟩) 0
    ∗ reached ER (dcell c ⟨49, by decide⟩) 0
    ∗ reached ER (dcell c ⟨50, by decide⟩) 0
    ∗ reached ER (dcell c ⟨51, by decide⟩) 0
    ∗ reached ER (dcell c ⟨52, by decide⟩) 0
    ∗ reached ER (dcell c ⟨53, by decide⟩) 0
    ∗ reached ER (dcell c ⟨54, by decide⟩) 0
    ∗ reached ER (dcell c ⟨55, by decide⟩) 0
    ∗ reached ER (dcell c ⟨56, by decide⟩) 0
    ∗ reached ER (dcell c ⟨57, by decide⟩) 0
    ∗ reached ER (dcell c ⟨58, by decide⟩) 0
    ∗ reached ER (dcell c ⟨59, by decide⟩) 0
    ∗ reached ER (dcell c ⟨60, by decide⟩) 0
    ∗ reached ER (dcell c ⟨61, by decide⟩) 0
    ∗ reached ER (dcell c ⟨62, by decide⟩) 0
    ∗ reached ER (dcell c ⟨63, by decide⟩) 0
    ∗ reached ER (dcell c ⟨64, by decide⟩) 0
    ∗ reached ER (dcell c ⟨65, by decide⟩) 0
    ∗ reached ER (dcell (py c) ⟨10, by decide⟩) 0
    ∗ reached ER (dcell (py c) ⟨11, by decide⟩) 0
    ∗ reached ER (dcell (py c) ⟨12, by decide⟩) 0
    ∗ reached ER (dcell (py c) ⟨13, by decide⟩) 0
    ∗ reached ER (dcell (py c) ⟨14, by decide⟩) 0
    ∗ reached ER (dcell (py c) ⟨15, by decide⟩) 0
    ∗ reached ER (dcell (py c) ⟨16, by decide⟩) 0
    ∗ reached ER (dcell (py c) ⟨17, by decide⟩) 0
    ∗ reached ER (dcell (py c) ⟨63, by decide⟩) 0
    ∗ reached ER (dcell (py c) ⟨64, by decide⟩) 0
    ∗ reached ER (dcell (py c) ⟨65, by decide⟩) 0
    ∗ reached ER (dcell (px c) ⟨26, by decide⟩) 0
    ∗ reached ER (dcell (px c) ⟨27, by decide⟩) 0
    ∗ reached ER (dcell (px c) ⟨28, by decide⟩) 0
    ∗ reached ER (dcell (px c) ⟨29, by decide⟩) 0
    ∗ reached ER (dcell (px c) ⟨30, by decide⟩) 0
    ∗ reached ER (dcell (px c) ⟨31, by decide⟩) 0
    ∗ reached ER (dcell (px c) ⟨32, by decide⟩) 0
    ∗ reached ER (dcell (px c) ⟨33, by decide⟩) 0
    ∗ reached ER (dcell (px c) ⟨55, by decide⟩) 0
    ∗ reached ER (dcell (px c) ⟨56, by decide⟩) 0
    ∗ reached ER (dcell (px c) ⟨57, by decide⟩) 0
    ∗ reached ER (dcell (pz c) ⟨42, by decide⟩) 0
    ∗ reached ER (dcell (pz c) ⟨43, by decide⟩) 0
    ∗ reached ER (dcell (pz c) ⟨44, by decide⟩) 0
    ∗ reached ER (dcell (pz c) ⟨45, by decide⟩) 0
    ∗ reached ER (dcell (pz c) ⟨46, by decide⟩) 0
    ∗ reached ER (dcell (pz c) ⟨47, by decide⟩) 0
    ∗ reached ER (dcell (pz c) ⟨48, by decide⟩) 0
    ∗ reached ER (dcell (pz c) ⟨49, by decide⟩) 0
    ∗ reached ER (dcell (pz c) ⟨58, by decide⟩) 0
    ∗ reached ER (dcell (pz c) ⟨59, by decide⟩) 0)
def idxReached (c : Dev nD) : List (Dev nD × Fin 65) :=
   [(py c, ⟨64, by decide⟩),
    (px c, ⟨64, by decide⟩),
    (pz c, ⟨64, by decide⟩),
    (c, ⟨0, by decide⟩),
    (c, ⟨1, by decide⟩),
    (c, ⟨2, by decide⟩),
    (c, ⟨3, by decide⟩),
    (c, ⟨4, by decide⟩),
    (c, ⟨5, by decide⟩),
    (c, ⟨6, by decide⟩),
    (c, ⟨7, by decide⟩),
    (c, ⟨8, by decide⟩),
    (c, ⟨9, by decide⟩),
    (c, ⟨10, by decide⟩),
    (c, ⟨11, by decide⟩),
    (c, ⟨12, by decide⟩),
    (c, ⟨13, by decide⟩),
    (c, ⟨14, by decide⟩),
    (c, ⟨15, by decide⟩),
    (c, ⟨16, by decide⟩),
    (c, ⟨17, by decide⟩),
    (c, ⟨18, by decide⟩),
    (c, ⟨19, by decide⟩),
    (c, ⟨20, by decide⟩),
    (c, ⟨21, by decide⟩),
    (c, ⟨22, by decide⟩),
    (c, ⟨23, by decide⟩),
    (c, ⟨24, by decide⟩),
    (c, ⟨25, by decide⟩),
    (c, ⟨26, by decide⟩),
    (c, ⟨27, by decide⟩),
    (c, ⟨28, by decide⟩),
    (c, ⟨29, by decide⟩),
    (c, ⟨30, by decide⟩),
    (c, ⟨31, by decide⟩),
    (c, ⟨32, by decide⟩),
    (c, ⟨33, by decide⟩),
    (c, ⟨34, by decide⟩),
    (c, ⟨35, by decide⟩),
    (c, ⟨36, by decide⟩),
    (c, ⟨37, by decide⟩),
    (c, ⟨38, by decide⟩),
    (c, ⟨39, by decide⟩),
    (c, ⟨40, by decide⟩),
    (c, ⟨41, by decide⟩),
    (c, ⟨42, by decide⟩),
    (c, ⟨43, by decide⟩),
    (c, ⟨44, by decide⟩),
    (c, ⟨45, by decide⟩),
    (c, ⟨46, by decide⟩),
    (c, ⟨47, by decide⟩),
    (c, ⟨48, by decide⟩),
    (c, ⟨49, by decide⟩),
    (c, ⟨50, by decide⟩),
    (c, ⟨51, by decide⟩),
    (c, ⟨52, by decide⟩),
    (c, ⟨53, by decide⟩),
    (c, ⟨54, by decide⟩),
    (c, ⟨55, by decide⟩),
    (c, ⟨56, by decide⟩),
    (c, ⟨57, by decide⟩),
    (c, ⟨58, by decide⟩),
    (c, ⟨59, by decide⟩),
    (c, ⟨60, by decide⟩),
    (c, ⟨61, by decide⟩),
    (c, ⟨62, by decide⟩),
    (c, ⟨63, by decide⟩),
    (py c, ⟨8, by decide⟩),
    (py c, ⟨9, by decide⟩),
    (py c, ⟨10, by decide⟩),
    (py c, ⟨11, by decide⟩),
    (py c, ⟨12, by decide⟩),
    (py c, ⟨13, by decide⟩),
    (py c, ⟨14, by decide⟩),
    (py c, ⟨15, by decide⟩),
    (py c, ⟨61, by decide⟩),
    (py c, ⟨62, by decide⟩),
    (py c, ⟨63, by decide⟩),
    (px c, ⟨24, by decide⟩),
    (px c, ⟨25, by decide⟩),
    (px c, ⟨26, by decide⟩),
    (px c, ⟨27, by decide⟩),
    (px c, ⟨28, by decide⟩),
    (px c, ⟨29, by decide⟩),
    (px c, ⟨30, by decide⟩),
    (px c, ⟨31, by decide⟩),
    (px c, ⟨53, by decide⟩),
    (px c, ⟨54, by decide⟩),
    (px c, ⟨55, by decide⟩),
    (pz c, ⟨40, by decide⟩),
    (pz c, ⟨41, by decide⟩),
    (pz c, ⟨42, by decide⟩),
    (pz c, ⟨43, by decide⟩),
    (pz c, ⟨44, by decide⟩),
    (pz c, ⟨45, by decide⟩),
    (pz c, ⟨46, by decide⟩),
    (pz c, ⟨47, by decide⟩),
    (pz c, ⟨56, by decide⟩),
    (pz c, ⟨57, by decide⟩)]
omit [FloatOps F] in
theorem flatReached_eq (c : Dev nD) :
    flatReached (F := F) c = bigSepL (idxReached c) fun ck => reached ER (kcell ck) 0 := rfl

def flatPos (c : Dev nD) : sProp 𝕄 := iprop(
    atPos ER (dcell c ⟨2, by decide⟩) 0 ∅ 0
    ∗ atPos ER (dcell c ⟨3, by decide⟩) 0 ∅ 0
    ∗ atPos ER (dcell c ⟨4, by decide⟩) 0 ∅ 0
    ∗ atPos ER (dcell c ⟨5, by decide⟩) 0 ∅ 0
    ∗ atPos ER (dcell c ⟨6, by decide⟩) 0 ∅ 0
    ∗ atPos ER (dcell c ⟨7, by decide⟩) 0 ∅ 0
    ∗ atPos ER (dcell c ⟨8, by decide⟩) 0 ∅ 0
    ∗ atPos ER (dcell c ⟨9, by decide⟩) 0 ∅ 0
    ∗ atPos ER (dcell c ⟨10, by decide⟩) 0 ∅ 0
    ∗ atPos ER (dcell c ⟨11, by decide⟩) 0 ∅ 0
    ∗ atPos ER (dcell c ⟨12, by decide⟩) 0 ∅ 0
    ∗ atPos ER (dcell c ⟨13, by decide⟩) 0 ∅ 0
    ∗ atPos ER (dcell c ⟨14, by decide⟩) 0 ∅ 0
    ∗ atPos ER (dcell c ⟨15, by decide⟩) 0 ∅ 0
    ∗ atPos ER (dcell c ⟨16, by decide⟩) 0 ∅ 0
    ∗ atPos ER (dcell c ⟨17, by decide⟩) 0 ∅ 0
    ∗ atPos ER (dcell c ⟨18, by decide⟩) 0 ∅ 0
    ∗ atPos ER (dcell c ⟨19, by decide⟩) 0 ∅ 0
    ∗ atPos ER (dcell c ⟨20, by decide⟩) 0 ∅ 0
    ∗ atPos ER (dcell c ⟨21, by decide⟩) 0 ∅ 0
    ∗ atPos ER (dcell c ⟨22, by decide⟩) 0 ∅ 0
    ∗ atPos ER (dcell c ⟨23, by decide⟩) 0 ∅ 0
    ∗ atPos ER (dcell c ⟨24, by decide⟩) 0 ∅ 0
    ∗ atPos ER (dcell c ⟨25, by decide⟩) 0 ∅ 0
    ∗ atPos ER (dcell c ⟨26, by decide⟩) 0 ∅ 0
    ∗ atPos ER (dcell c ⟨27, by decide⟩) 0 ∅ 0
    ∗ atPos ER (dcell c ⟨28, by decide⟩) 0 ∅ 0
    ∗ atPos ER (dcell c ⟨29, by decide⟩) 0 ∅ 0
    ∗ atPos ER (dcell c ⟨30, by decide⟩) 0 ∅ 0
    ∗ atPos ER (dcell c ⟨31, by decide⟩) 0 ∅ 0
    ∗ atPos ER (dcell c ⟨32, by decide⟩) 0 ∅ 0
    ∗ atPos ER (dcell c ⟨33, by decide⟩) 0 ∅ 0
    ∗ atPos ER (dcell c ⟨34, by decide⟩) 0 ∅ 0
    ∗ atPos ER (dcell c ⟨35, by decide⟩) 0 ∅ 0
    ∗ atPos ER (dcell c ⟨36, by decide⟩) 0 ∅ 0
    ∗ atPos ER (dcell c ⟨37, by decide⟩) 0 ∅ 0
    ∗ atPos ER (dcell c ⟨38, by decide⟩) 0 ∅ 0
    ∗ atPos ER (dcell c ⟨39, by decide⟩) 0 ∅ 0
    ∗ atPos ER (dcell c ⟨40, by decide⟩) 0 ∅ 0
    ∗ atPos ER (dcell c ⟨41, by decide⟩) 0 ∅ 0
    ∗ atPos ER (dcell c ⟨42, by decide⟩) 0 ∅ 0
    ∗ atPos ER (dcell c ⟨43, by decide⟩) 0 ∅ 0
    ∗ atPos ER (dcell c ⟨44, by decide⟩) 0 ∅ 0
    ∗ atPos ER (dcell c ⟨45, by decide⟩) 0 ∅ 0
    ∗ atPos ER (dcell c ⟨46, by decide⟩) 0 ∅ 0
    ∗ atPos ER (dcell c ⟨47, by decide⟩) 0 ∅ 0
    ∗ atPos ER (dcell c ⟨48, by decide⟩) 0 ∅ 0
    ∗ atPos ER (dcell c ⟨49, by decide⟩) 0 ∅ 0
    ∗ atPos ER (dcell c ⟨50, by decide⟩) 0 ∅ 0
    ∗ atPos ER (dcell c ⟨51, by decide⟩) 0 ∅ 0
    ∗ atPos ER (dcell c ⟨52, by decide⟩) 0 ∅ 0
    ∗ atPos ER (dcell c ⟨53, by decide⟩) 0 ∅ 0
    ∗ atPos ER (dcell c ⟨54, by decide⟩) 0 ∅ 0
    ∗ atPos ER (dcell c ⟨55, by decide⟩) 0 ∅ 0
    ∗ atPos ER (dcell c ⟨56, by decide⟩) 0 ∅ 0
    ∗ atPos ER (dcell c ⟨57, by decide⟩) 0 ∅ 0
    ∗ atPos ER (dcell c ⟨58, by decide⟩) 0 ∅ 0
    ∗ atPos ER (dcell c ⟨59, by decide⟩) 0 ∅ 0
    ∗ atPos ER (dcell c ⟨60, by decide⟩) 0 ∅ 0
    ∗ atPos ER (dcell c ⟨61, by decide⟩) 0 ∅ 0
    ∗ atPos ER (dcell c ⟨62, by decide⟩) 0 ∅ 0
    ∗ atPos ER (dcell c ⟨63, by decide⟩) 0 ∅ 0
    ∗ atPos ER (dcell c ⟨64, by decide⟩) 0 ∅ 0
    ∗ atPos ER (dcell c ⟨65, by decide⟩) 0 ∅ 0)

def flatTokS (c : Dev nD) : sProp 𝕄 := iprop(
    dutyTok ER (dcell c ⟨2, by decide⟩) 0 0
    ∗ dutyTok ER (dcell c ⟨3, by decide⟩) 0 0
    ∗ dutyTok ER (dcell c ⟨4, by decide⟩) 0 0
    ∗ dutyTok ER (dcell c ⟨5, by decide⟩) 0 0
    ∗ dutyTok ER (dcell c ⟨6, by decide⟩) 0 0
    ∗ dutyTok ER (dcell c ⟨7, by decide⟩) 0 0
    ∗ dutyTok ER (dcell c ⟨8, by decide⟩) 0 0
    ∗ dutyTok ER (dcell c ⟨9, by decide⟩) 0 0
    ∗ dutyTok ER (dcell c ⟨18, by decide⟩) 0 0
    ∗ dutyTok ER (dcell c ⟨19, by decide⟩) 0 0
    ∗ dutyTok ER (dcell c ⟨20, by decide⟩) 0 0
    ∗ dutyTok ER (dcell c ⟨21, by decide⟩) 0 0
    ∗ dutyTok ER (dcell c ⟨22, by decide⟩) 0 0
    ∗ dutyTok ER (dcell c ⟨23, by decide⟩) 0 0
    ∗ dutyTok ER (dcell c ⟨24, by decide⟩) 0 0
    ∗ dutyTok ER (dcell c ⟨25, by decide⟩) 0 0
    ∗ dutyTok ER (dcell c ⟨34, by decide⟩) 0 0
    ∗ dutyTok ER (dcell c ⟨35, by decide⟩) 0 0
    ∗ dutyTok ER (dcell c ⟨36, by decide⟩) 0 0
    ∗ dutyTok ER (dcell c ⟨37, by decide⟩) 0 0
    ∗ dutyTok ER (dcell c ⟨38, by decide⟩) 0 0
    ∗ dutyTok ER (dcell c ⟨39, by decide⟩) 0 0
    ∗ dutyTok ER (dcell c ⟨40, by decide⟩) 0 0
    ∗ dutyTok ER (dcell c ⟨41, by decide⟩) 0 0
    ∗ dutyTok ER (dcell c ⟨50, by decide⟩) 0 0
    ∗ dutyTok ER (dcell c ⟨51, by decide⟩) 0 0
    ∗ dutyTok ER (dcell c ⟨52, by decide⟩) 0 0
    ∗ dutyTok ER (dcell c ⟨53, by decide⟩) 0 0
    ∗ dutyTok ER (dcell c ⟨54, by decide⟩) 0 0
    ∗ dutyTok ER (dcell c ⟨60, by decide⟩) 0 0
    ∗ dutyTok ER (dcell c ⟨61, by decide⟩) 0 0
    ∗ dutyTok ER (dcell c ⟨62, by decide⟩) 0 0)

def flatCredR (c : Dev nD) : sProp 𝕄 := iprop(
    cred (tallyAt (dcell c ⟨10, by decide⟩) () N)
    ∗ cred (tallyAt (dcell c ⟨11, by decide⟩) () N)
    ∗ cred (tallyAt (dcell c ⟨12, by decide⟩) () N)
    ∗ cred (tallyAt (dcell c ⟨13, by decide⟩) () N)
    ∗ cred (tallyAt (dcell c ⟨14, by decide⟩) () N)
    ∗ cred (tallyAt (dcell c ⟨15, by decide⟩) () N)
    ∗ cred (tallyAt (dcell c ⟨16, by decide⟩) () N)
    ∗ cred (tallyAt (dcell c ⟨17, by decide⟩) () N)
    ∗ cred (tallyAt (dcell c ⟨26, by decide⟩) () N)
    ∗ cred (tallyAt (dcell c ⟨27, by decide⟩) () N)
    ∗ cred (tallyAt (dcell c ⟨28, by decide⟩) () N)
    ∗ cred (tallyAt (dcell c ⟨29, by decide⟩) () N)
    ∗ cred (tallyAt (dcell c ⟨30, by decide⟩) () N)
    ∗ cred (tallyAt (dcell c ⟨31, by decide⟩) () N)
    ∗ cred (tallyAt (dcell c ⟨32, by decide⟩) () N)
    ∗ cred (tallyAt (dcell c ⟨33, by decide⟩) () N)
    ∗ cred (tallyAt (dcell c ⟨42, by decide⟩) () N)
    ∗ cred (tallyAt (dcell c ⟨43, by decide⟩) () N)
    ∗ cred (tallyAt (dcell c ⟨44, by decide⟩) () N)
    ∗ cred (tallyAt (dcell c ⟨45, by decide⟩) () N)
    ∗ cred (tallyAt (dcell c ⟨46, by decide⟩) () N)
    ∗ cred (tallyAt (dcell c ⟨47, by decide⟩) () N)
    ∗ cred (tallyAt (dcell c ⟨48, by decide⟩) () N)
    ∗ cred (tallyAt (dcell c ⟨49, by decide⟩) () N)
    ∗ cred (tallyAt (dcell c ⟨55, by decide⟩) () N)
    ∗ cred (tallyAt (dcell c ⟨56, by decide⟩) () N)
    ∗ cred (tallyAt (dcell c ⟨57, by decide⟩) () N)
    ∗ cred (tallyAt (dcell c ⟨58, by decide⟩) () N)
    ∗ cred (tallyAt (dcell c ⟨59, by decide⟩) () N)
    ∗ cred (tallyAt (dcell c ⟨63, by decide⟩) () N)
    ∗ cred (tallyAt (dcell c ⟨64, by decide⟩) () N)
    ∗ cred (tallyAt (dcell c ⟨65, by decide⟩) () N))

def flatTokY (c : Dev nD) : sProp 𝕄 := iprop(
    dutyTok ER (dcell (py c) ⟨10, by decide⟩) 0 0
    ∗ dutyTok ER (dcell (py c) ⟨11, by decide⟩) 0 0
    ∗ dutyTok ER (dcell (py c) ⟨12, by decide⟩) 0 0
    ∗ dutyTok ER (dcell (py c) ⟨13, by decide⟩) 0 0
    ∗ dutyTok ER (dcell (py c) ⟨14, by decide⟩) 0 0
    ∗ dutyTok ER (dcell (py c) ⟨15, by decide⟩) 0 0
    ∗ dutyTok ER (dcell (py c) ⟨16, by decide⟩) 0 0
    ∗ dutyTok ER (dcell (py c) ⟨17, by decide⟩) 0 0
    ∗ dutyTok ER (dcell (py c) ⟨63, by decide⟩) 0 0
    ∗ dutyTok ER (dcell (py c) ⟨64, by decide⟩) 0 0
    ∗ dutyTok ER (dcell (py c) ⟨65, by decide⟩) 0 0)
def flatTokX (c : Dev nD) : sProp 𝕄 := iprop(
    dutyTok ER (dcell (px c) ⟨26, by decide⟩) 0 0
    ∗ dutyTok ER (dcell (px c) ⟨27, by decide⟩) 0 0
    ∗ dutyTok ER (dcell (px c) ⟨28, by decide⟩) 0 0
    ∗ dutyTok ER (dcell (px c) ⟨29, by decide⟩) 0 0
    ∗ dutyTok ER (dcell (px c) ⟨30, by decide⟩) 0 0
    ∗ dutyTok ER (dcell (px c) ⟨31, by decide⟩) 0 0
    ∗ dutyTok ER (dcell (px c) ⟨32, by decide⟩) 0 0
    ∗ dutyTok ER (dcell (px c) ⟨33, by decide⟩) 0 0
    ∗ dutyTok ER (dcell (px c) ⟨55, by decide⟩) 0 0
    ∗ dutyTok ER (dcell (px c) ⟨56, by decide⟩) 0 0
    ∗ dutyTok ER (dcell (px c) ⟨57, by decide⟩) 0 0)
def flatTokZ (c : Dev nD) : sProp 𝕄 := iprop(
    dutyTok ER (dcell (pz c) ⟨42, by decide⟩) 0 0
    ∗ dutyTok ER (dcell (pz c) ⟨43, by decide⟩) 0 0
    ∗ dutyTok ER (dcell (pz c) ⟨44, by decide⟩) 0 0
    ∗ dutyTok ER (dcell (pz c) ⟨45, by decide⟩) 0 0
    ∗ dutyTok ER (dcell (pz c) ⟨46, by decide⟩) 0 0
    ∗ dutyTok ER (dcell (pz c) ⟨47, by decide⟩) 0 0
    ∗ dutyTok ER (dcell (pz c) ⟨48, by decide⟩) 0 0
    ∗ dutyTok ER (dcell (pz c) ⟨49, by decide⟩) 0 0
    ∗ dutyTok ER (dcell (pz c) ⟨58, by decide⟩) 0 0
    ∗ dutyTok ER (dcell (pz c) ⟨59, by decide⟩) 0 0)

def flatLin (c : Dev nD) : sProp 𝕄 := iprop(
    dutyTok ER (barCell (py c)) 0 0
    ∗ dutyTok ER (barCell (px c)) 0 1
    ∗ dutyTok ER (barCell (pz c)) 0 2
    ∗ atPos ER (barCell c) 0 ∅ 0
    ∗ cred (tallyAt (barCell c) () 3)
    ∗ atPos ER (dcell c ⟨2, by decide⟩) 0 ∅ 0
    ∗ atPos ER (dcell c ⟨3, by decide⟩) 0 ∅ 0
    ∗ atPos ER (dcell c ⟨4, by decide⟩) 0 ∅ 0
    ∗ atPos ER (dcell c ⟨5, by decide⟩) 0 ∅ 0
    ∗ atPos ER (dcell c ⟨6, by decide⟩) 0 ∅ 0
    ∗ atPos ER (dcell c ⟨7, by decide⟩) 0 ∅ 0
    ∗ atPos ER (dcell c ⟨8, by decide⟩) 0 ∅ 0
    ∗ atPos ER (dcell c ⟨9, by decide⟩) 0 ∅ 0
    ∗ atPos ER (dcell c ⟨10, by decide⟩) 0 ∅ 0
    ∗ atPos ER (dcell c ⟨11, by decide⟩) 0 ∅ 0
    ∗ atPos ER (dcell c ⟨12, by decide⟩) 0 ∅ 0
    ∗ atPos ER (dcell c ⟨13, by decide⟩) 0 ∅ 0
    ∗ atPos ER (dcell c ⟨14, by decide⟩) 0 ∅ 0
    ∗ atPos ER (dcell c ⟨15, by decide⟩) 0 ∅ 0
    ∗ atPos ER (dcell c ⟨16, by decide⟩) 0 ∅ 0
    ∗ atPos ER (dcell c ⟨17, by decide⟩) 0 ∅ 0
    ∗ atPos ER (dcell c ⟨18, by decide⟩) 0 ∅ 0
    ∗ atPos ER (dcell c ⟨19, by decide⟩) 0 ∅ 0
    ∗ atPos ER (dcell c ⟨20, by decide⟩) 0 ∅ 0
    ∗ atPos ER (dcell c ⟨21, by decide⟩) 0 ∅ 0
    ∗ atPos ER (dcell c ⟨22, by decide⟩) 0 ∅ 0
    ∗ atPos ER (dcell c ⟨23, by decide⟩) 0 ∅ 0
    ∗ atPos ER (dcell c ⟨24, by decide⟩) 0 ∅ 0
    ∗ atPos ER (dcell c ⟨25, by decide⟩) 0 ∅ 0
    ∗ atPos ER (dcell c ⟨26, by decide⟩) 0 ∅ 0
    ∗ atPos ER (dcell c ⟨27, by decide⟩) 0 ∅ 0
    ∗ atPos ER (dcell c ⟨28, by decide⟩) 0 ∅ 0
    ∗ atPos ER (dcell c ⟨29, by decide⟩) 0 ∅ 0
    ∗ atPos ER (dcell c ⟨30, by decide⟩) 0 ∅ 0
    ∗ atPos ER (dcell c ⟨31, by decide⟩) 0 ∅ 0
    ∗ atPos ER (dcell c ⟨32, by decide⟩) 0 ∅ 0
    ∗ atPos ER (dcell c ⟨33, by decide⟩) 0 ∅ 0
    ∗ atPos ER (dcell c ⟨34, by decide⟩) 0 ∅ 0
    ∗ atPos ER (dcell c ⟨35, by decide⟩) 0 ∅ 0
    ∗ atPos ER (dcell c ⟨36, by decide⟩) 0 ∅ 0
    ∗ atPos ER (dcell c ⟨37, by decide⟩) 0 ∅ 0
    ∗ atPos ER (dcell c ⟨38, by decide⟩) 0 ∅ 0
    ∗ atPos ER (dcell c ⟨39, by decide⟩) 0 ∅ 0
    ∗ atPos ER (dcell c ⟨40, by decide⟩) 0 ∅ 0
    ∗ atPos ER (dcell c ⟨41, by decide⟩) 0 ∅ 0
    ∗ atPos ER (dcell c ⟨42, by decide⟩) 0 ∅ 0
    ∗ atPos ER (dcell c ⟨43, by decide⟩) 0 ∅ 0
    ∗ atPos ER (dcell c ⟨44, by decide⟩) 0 ∅ 0
    ∗ atPos ER (dcell c ⟨45, by decide⟩) 0 ∅ 0
    ∗ atPos ER (dcell c ⟨46, by decide⟩) 0 ∅ 0
    ∗ atPos ER (dcell c ⟨47, by decide⟩) 0 ∅ 0
    ∗ atPos ER (dcell c ⟨48, by decide⟩) 0 ∅ 0
    ∗ atPos ER (dcell c ⟨49, by decide⟩) 0 ∅ 0
    ∗ atPos ER (dcell c ⟨50, by decide⟩) 0 ∅ 0
    ∗ atPos ER (dcell c ⟨51, by decide⟩) 0 ∅ 0
    ∗ atPos ER (dcell c ⟨52, by decide⟩) 0 ∅ 0
    ∗ atPos ER (dcell c ⟨53, by decide⟩) 0 ∅ 0
    ∗ atPos ER (dcell c ⟨54, by decide⟩) 0 ∅ 0
    ∗ atPos ER (dcell c ⟨55, by decide⟩) 0 ∅ 0
    ∗ atPos ER (dcell c ⟨56, by decide⟩) 0 ∅ 0
    ∗ atPos ER (dcell c ⟨57, by decide⟩) 0 ∅ 0
    ∗ atPos ER (dcell c ⟨58, by decide⟩) 0 ∅ 0
    ∗ atPos ER (dcell c ⟨59, by decide⟩) 0 ∅ 0
    ∗ atPos ER (dcell c ⟨60, by decide⟩) 0 ∅ 0
    ∗ atPos ER (dcell c ⟨61, by decide⟩) 0 ∅ 0
    ∗ atPos ER (dcell c ⟨62, by decide⟩) 0 ∅ 0
    ∗ atPos ER (dcell c ⟨63, by decide⟩) 0 ∅ 0
    ∗ atPos ER (dcell c ⟨64, by decide⟩) 0 ∅ 0
    ∗ atPos ER (dcell c ⟨65, by decide⟩) 0 ∅ 0
    ∗ dutyTok ER (dcell c ⟨2, by decide⟩) 0 0
    ∗ dutyTok ER (dcell c ⟨3, by decide⟩) 0 0
    ∗ dutyTok ER (dcell c ⟨4, by decide⟩) 0 0
    ∗ dutyTok ER (dcell c ⟨5, by decide⟩) 0 0
    ∗ dutyTok ER (dcell c ⟨6, by decide⟩) 0 0
    ∗ dutyTok ER (dcell c ⟨7, by decide⟩) 0 0
    ∗ dutyTok ER (dcell c ⟨8, by decide⟩) 0 0
    ∗ dutyTok ER (dcell c ⟨9, by decide⟩) 0 0
    ∗ dutyTok ER (dcell c ⟨18, by decide⟩) 0 0
    ∗ dutyTok ER (dcell c ⟨19, by decide⟩) 0 0
    ∗ dutyTok ER (dcell c ⟨20, by decide⟩) 0 0
    ∗ dutyTok ER (dcell c ⟨21, by decide⟩) 0 0
    ∗ dutyTok ER (dcell c ⟨22, by decide⟩) 0 0
    ∗ dutyTok ER (dcell c ⟨23, by decide⟩) 0 0
    ∗ dutyTok ER (dcell c ⟨24, by decide⟩) 0 0
    ∗ dutyTok ER (dcell c ⟨25, by decide⟩) 0 0
    ∗ dutyTok ER (dcell c ⟨34, by decide⟩) 0 0
    ∗ dutyTok ER (dcell c ⟨35, by decide⟩) 0 0
    ∗ dutyTok ER (dcell c ⟨36, by decide⟩) 0 0
    ∗ dutyTok ER (dcell c ⟨37, by decide⟩) 0 0
    ∗ dutyTok ER (dcell c ⟨38, by decide⟩) 0 0
    ∗ dutyTok ER (dcell c ⟨39, by decide⟩) 0 0
    ∗ dutyTok ER (dcell c ⟨40, by decide⟩) 0 0
    ∗ dutyTok ER (dcell c ⟨41, by decide⟩) 0 0
    ∗ dutyTok ER (dcell c ⟨50, by decide⟩) 0 0
    ∗ dutyTok ER (dcell c ⟨51, by decide⟩) 0 0
    ∗ dutyTok ER (dcell c ⟨52, by decide⟩) 0 0
    ∗ dutyTok ER (dcell c ⟨53, by decide⟩) 0 0
    ∗ dutyTok ER (dcell c ⟨54, by decide⟩) 0 0
    ∗ dutyTok ER (dcell c ⟨60, by decide⟩) 0 0
    ∗ dutyTok ER (dcell c ⟨61, by decide⟩) 0 0
    ∗ dutyTok ER (dcell c ⟨62, by decide⟩) 0 0
    ∗ cred (tallyAt (dcell c ⟨10, by decide⟩) () N)
    ∗ cred (tallyAt (dcell c ⟨11, by decide⟩) () N)
    ∗ cred (tallyAt (dcell c ⟨12, by decide⟩) () N)
    ∗ cred (tallyAt (dcell c ⟨13, by decide⟩) () N)
    ∗ cred (tallyAt (dcell c ⟨14, by decide⟩) () N)
    ∗ cred (tallyAt (dcell c ⟨15, by decide⟩) () N)
    ∗ cred (tallyAt (dcell c ⟨16, by decide⟩) () N)
    ∗ cred (tallyAt (dcell c ⟨17, by decide⟩) () N)
    ∗ cred (tallyAt (dcell c ⟨26, by decide⟩) () N)
    ∗ cred (tallyAt (dcell c ⟨27, by decide⟩) () N)
    ∗ cred (tallyAt (dcell c ⟨28, by decide⟩) () N)
    ∗ cred (tallyAt (dcell c ⟨29, by decide⟩) () N)
    ∗ cred (tallyAt (dcell c ⟨30, by decide⟩) () N)
    ∗ cred (tallyAt (dcell c ⟨31, by decide⟩) () N)
    ∗ cred (tallyAt (dcell c ⟨32, by decide⟩) () N)
    ∗ cred (tallyAt (dcell c ⟨33, by decide⟩) () N)
    ∗ cred (tallyAt (dcell c ⟨42, by decide⟩) () N)
    ∗ cred (tallyAt (dcell c ⟨43, by decide⟩) () N)
    ∗ cred (tallyAt (dcell c ⟨44, by decide⟩) () N)
    ∗ cred (tallyAt (dcell c ⟨45, by decide⟩) () N)
    ∗ cred (tallyAt (dcell c ⟨46, by decide⟩) () N)
    ∗ cred (tallyAt (dcell c ⟨47, by decide⟩) () N)
    ∗ cred (tallyAt (dcell c ⟨48, by decide⟩) () N)
    ∗ cred (tallyAt (dcell c ⟨49, by decide⟩) () N)
    ∗ cred (tallyAt (dcell c ⟨55, by decide⟩) () N)
    ∗ cred (tallyAt (dcell c ⟨56, by decide⟩) () N)
    ∗ cred (tallyAt (dcell c ⟨57, by decide⟩) () N)
    ∗ cred (tallyAt (dcell c ⟨58, by decide⟩) () N)
    ∗ cred (tallyAt (dcell c ⟨59, by decide⟩) () N)
    ∗ cred (tallyAt (dcell c ⟨63, by decide⟩) () N)
    ∗ cred (tallyAt (dcell c ⟨64, by decide⟩) () N)
    ∗ cred (tallyAt (dcell c ⟨65, by decide⟩) () N)
    ∗ dutyTok ER (dcell (py c) ⟨10, by decide⟩) 0 0
    ∗ dutyTok ER (dcell (py c) ⟨11, by decide⟩) 0 0
    ∗ dutyTok ER (dcell (py c) ⟨12, by decide⟩) 0 0
    ∗ dutyTok ER (dcell (py c) ⟨13, by decide⟩) 0 0
    ∗ dutyTok ER (dcell (py c) ⟨14, by decide⟩) 0 0
    ∗ dutyTok ER (dcell (py c) ⟨15, by decide⟩) 0 0
    ∗ dutyTok ER (dcell (py c) ⟨16, by decide⟩) 0 0
    ∗ dutyTok ER (dcell (py c) ⟨17, by decide⟩) 0 0
    ∗ dutyTok ER (dcell (py c) ⟨63, by decide⟩) 0 0
    ∗ dutyTok ER (dcell (py c) ⟨64, by decide⟩) 0 0
    ∗ dutyTok ER (dcell (py c) ⟨65, by decide⟩) 0 0
    ∗ dutyTok ER (dcell (px c) ⟨26, by decide⟩) 0 0
    ∗ dutyTok ER (dcell (px c) ⟨27, by decide⟩) 0 0
    ∗ dutyTok ER (dcell (px c) ⟨28, by decide⟩) 0 0
    ∗ dutyTok ER (dcell (px c) ⟨29, by decide⟩) 0 0
    ∗ dutyTok ER (dcell (px c) ⟨30, by decide⟩) 0 0
    ∗ dutyTok ER (dcell (px c) ⟨31, by decide⟩) 0 0
    ∗ dutyTok ER (dcell (px c) ⟨32, by decide⟩) 0 0
    ∗ dutyTok ER (dcell (px c) ⟨33, by decide⟩) 0 0
    ∗ dutyTok ER (dcell (px c) ⟨55, by decide⟩) 0 0
    ∗ dutyTok ER (dcell (px c) ⟨56, by decide⟩) 0 0
    ∗ dutyTok ER (dcell (px c) ⟨57, by decide⟩) 0 0
    ∗ dutyTok ER (dcell (pz c) ⟨42, by decide⟩) 0 0
    ∗ dutyTok ER (dcell (pz c) ⟨43, by decide⟩) 0 0
    ∗ dutyTok ER (dcell (pz c) ⟨44, by decide⟩) 0 0
    ∗ dutyTok ER (dcell (pz c) ⟨45, by decide⟩) 0 0
    ∗ dutyTok ER (dcell (pz c) ⟨46, by decide⟩) 0 0
    ∗ dutyTok ER (dcell (pz c) ⟨47, by decide⟩) 0 0
    ∗ dutyTok ER (dcell (pz c) ⟨48, by decide⟩) 0 0
    ∗ dutyTok ER (dcell (pz c) ⟨49, by decide⟩) 0 0
    ∗ dutyTok ER (dcell (pz c) ⟨58, by decide⟩) 0 0
    ∗ dutyTok ER (dcell (pz c) ⟨59, by decide⟩) 0 0)
omit [FloatOps F] in

theorem flatLin_eq (c : Dev nD) :
    flatLin (F := F) c = iprop(dutyTok ER (barCell (py c)) 0 0 ∗ dutyTok ER (barCell (px c)) 0 1 ∗ dutyTok ER (barCell (pz c)) 0 2
      ∗ atPos ER (barCell c) 0 ∅ 0 ∗ cred (tallyAt (barCell c) () 3)
      ∗ flatPos (F := F) c ∗ flatTokS (F := F) c ∗ flatCredR (F := F) c ∗ flatTokY (F := F) c ∗ flatTokX (F := F) c ∗ flatTokZ (F := F) c) := by
  unfold flatLin flatPos flatTokS flatCredR flatTokY flatTokX flatTokZ
  simp only [sep_assoc_eq]

def flatOwes (c : Dev nD) (W : Waits sig Unit) : sProp 𝕄 :=
  owes (c : Thread nD τ) (0
    + tallyAt (dcell (pz c) ⟨59, by decide⟩) () N
    + tallyAt (dcell (pz c) ⟨58, by decide⟩) () N
    + tallyAt (dcell (px c) ⟨57, by decide⟩) () N
    + tallyAt (dcell (px c) ⟨56, by decide⟩) () N
    + tallyAt (dcell (px c) ⟨55, by decide⟩) () N
    + tallyAt (dcell (pz c) ⟨49, by decide⟩) () N
    + tallyAt (dcell (px c) ⟨33, by decide⟩) () N
    + tallyAt (dcell (pz c) ⟨48, by decide⟩) () N
    + tallyAt (dcell (px c) ⟨32, by decide⟩) () N
    + tallyAt (dcell (pz c) ⟨47, by decide⟩) () N
    + tallyAt (dcell (px c) ⟨31, by decide⟩) () N
    + tallyAt (dcell (pz c) ⟨46, by decide⟩) () N
    + tallyAt (dcell (px c) ⟨30, by decide⟩) () N
    + tallyAt (dcell (pz c) ⟨45, by decide⟩) () N
    + tallyAt (dcell (px c) ⟨29, by decide⟩) () N
    + tallyAt (dcell (pz c) ⟨44, by decide⟩) () N
    + tallyAt (dcell (px c) ⟨28, by decide⟩) () N
    + tallyAt (dcell (pz c) ⟨43, by decide⟩) () N
    + tallyAt (dcell (px c) ⟨27, by decide⟩) () N
    + tallyAt (dcell (pz c) ⟨42, by decide⟩) () N
    + tallyAt (dcell (px c) ⟨26, by decide⟩) () N
    + tallyAt (dcell (py c) ⟨65, by decide⟩) () N
    + tallyAt (dcell (py c) ⟨64, by decide⟩) () N
    + tallyAt (dcell (py c) ⟨63, by decide⟩) () N
    + tallyAt (dcell (py c) ⟨17, by decide⟩) () N
    + tallyAt (dcell (py c) ⟨16, by decide⟩) () N
    + tallyAt (dcell (py c) ⟨15, by decide⟩) () N
    + tallyAt (dcell (py c) ⟨14, by decide⟩) () N
    + tallyAt (dcell (py c) ⟨13, by decide⟩) () N
    + tallyAt (dcell (py c) ⟨12, by decide⟩) () N
    + tallyAt (dcell (py c) ⟨11, by decide⟩) () N
    + tallyAt (dcell (py c) ⟨10, by decide⟩) () N
    + tallyAt (barCell (pz c)) () 1
    + tallyAt (barCell (px c)) () 1
    + tallyAt (barCell (py c)) () 1
    ) W
def flatZero (c : Dev nD) : sProp 𝕄 := iprop(
    semVal (dcell c ⟨2, by decide⟩) 0
    ∗ semVal (dcell c ⟨3, by decide⟩) 0
    ∗ semVal (dcell c ⟨4, by decide⟩) 0
    ∗ semVal (dcell c ⟨5, by decide⟩) 0
    ∗ semVal (dcell c ⟨6, by decide⟩) 0
    ∗ semVal (dcell c ⟨7, by decide⟩) 0
    ∗ semVal (dcell c ⟨8, by decide⟩) 0
    ∗ semVal (dcell c ⟨9, by decide⟩) 0
    ∗ semVal (dcell c ⟨10, by decide⟩) 0
    ∗ semVal (dcell c ⟨11, by decide⟩) 0
    ∗ semVal (dcell c ⟨12, by decide⟩) 0
    ∗ semVal (dcell c ⟨13, by decide⟩) 0
    ∗ semVal (dcell c ⟨14, by decide⟩) 0
    ∗ semVal (dcell c ⟨15, by decide⟩) 0
    ∗ semVal (dcell c ⟨16, by decide⟩) 0
    ∗ semVal (dcell c ⟨17, by decide⟩) 0
    ∗ semVal (dcell c ⟨18, by decide⟩) 0
    ∗ semVal (dcell c ⟨19, by decide⟩) 0
    ∗ semVal (dcell c ⟨20, by decide⟩) 0
    ∗ semVal (dcell c ⟨21, by decide⟩) 0
    ∗ semVal (dcell c ⟨22, by decide⟩) 0
    ∗ semVal (dcell c ⟨23, by decide⟩) 0
    ∗ semVal (dcell c ⟨24, by decide⟩) 0
    ∗ semVal (dcell c ⟨25, by decide⟩) 0
    ∗ semVal (dcell c ⟨26, by decide⟩) 0
    ∗ semVal (dcell c ⟨27, by decide⟩) 0
    ∗ semVal (dcell c ⟨28, by decide⟩) 0
    ∗ semVal (dcell c ⟨29, by decide⟩) 0
    ∗ semVal (dcell c ⟨30, by decide⟩) 0
    ∗ semVal (dcell c ⟨31, by decide⟩) 0
    ∗ semVal (dcell c ⟨32, by decide⟩) 0
    ∗ semVal (dcell c ⟨33, by decide⟩) 0
    ∗ semVal (dcell c ⟨34, by decide⟩) 0
    ∗ semVal (dcell c ⟨35, by decide⟩) 0
    ∗ semVal (dcell c ⟨36, by decide⟩) 0
    ∗ semVal (dcell c ⟨37, by decide⟩) 0
    ∗ semVal (dcell c ⟨38, by decide⟩) 0
    ∗ semVal (dcell c ⟨39, by decide⟩) 0
    ∗ semVal (dcell c ⟨40, by decide⟩) 0
    ∗ semVal (dcell c ⟨41, by decide⟩) 0
    ∗ semVal (dcell c ⟨42, by decide⟩) 0
    ∗ semVal (dcell c ⟨43, by decide⟩) 0
    ∗ semVal (dcell c ⟨44, by decide⟩) 0
    ∗ semVal (dcell c ⟨45, by decide⟩) 0
    ∗ semVal (dcell c ⟨46, by decide⟩) 0
    ∗ semVal (dcell c ⟨47, by decide⟩) 0
    ∗ semVal (dcell c ⟨48, by decide⟩) 0
    ∗ semVal (dcell c ⟨49, by decide⟩) 0
    ∗ semVal (dcell c ⟨50, by decide⟩) 0
    ∗ semVal (dcell c ⟨51, by decide⟩) 0
    ∗ semVal (dcell c ⟨52, by decide⟩) 0
    ∗ semVal (dcell c ⟨53, by decide⟩) 0
    ∗ semVal (dcell c ⟨54, by decide⟩) 0
    ∗ semVal (dcell c ⟨55, by decide⟩) 0
    ∗ semVal (dcell c ⟨56, by decide⟩) 0
    ∗ semVal (dcell c ⟨57, by decide⟩) 0
    ∗ semVal (dcell c ⟨58, by decide⟩) 0
    ∗ semVal (dcell c ⟨59, by decide⟩) 0
    ∗ semVal (dcell c ⟨60, by decide⟩) 0
    ∗ semVal (dcell c ⟨61, by decide⟩) 0
    ∗ semVal (dcell c ⟨62, by decide⟩) 0
    ∗ semVal (dcell c ⟨63, by decide⟩) 0
    ∗ semVal (dcell c ⟨64, by decide⟩) 0
    ∗ semVal (dcell c ⟨65, by decide⟩) 0)

end Cert.KernelIdeal.RS

end
-- ==== Proof.PartsTab.lean ====
import proofs.«901037_g7700000000001038_dist_rs_v7x_xyz2x2x4_y_m1024_n512_f32_1_alg».proof.Proof.Dats
import proofs.«901037_g7700000000001038_dist_rs_v7x_xyz2x2x4_y_m1024_n512_f32_1_alg».proof.Proof.FlatTab

noncomputable section

namespace Cert.KernelIdeal.RS

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def pre_1 (c : Dev nD) (W : Waits sig Unit) (o : oM.view.ty.Contents (Elt F)) : sProp 𝕄 :=
  iprop(emp)

def post_1 (c : Dev nD) (W : Waits sig Unit) (o : oM.view.ty.Contents (Elt F)) : sProp 𝕄 :=
  iprop(emp)

def ret_1 (c : Dev nD) (r : (Σ' (d0 : Dev nD) (v2 : BitVec 32) (v5 : BitVec 32) (v8 : BitVec 32) (v19 : BitVec 32) (v20 : BitVec 32) (v23 : BitVec 32) (v25 : BitVec 32) (v28 : BitVec 32) (v31 : BitVec 32) (v33 : BitVec 32), BitVec 32)) : Prop := r.1 = c

def Spec_1 : Prop := ∀ (K : Dev nD × Fin 65 → ℕ) (c : Dev nD) (W : Waits sig Unit) (o : oM.view.ty.Contents (Elt F)),
  iprop(□ (flatInv m K c ∗ flatReached (F := F) c) ∗ levAts L lv ∗ pre_1 (F := F) c W o)
    ⊢ wp frame (wpE (defs₀ (F := F)) 𝒱₀ (c : Thread nD τ) none) Set.univ
        (k0_part1 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15)
        (fun r => iprop(post_1 (F := F) c W o ∗ ⌜ret_1 c r⌝))

def pre_2 (c : Dev nD) (W : Waits sig Unit) (o : oM.view.ty.Contents (Elt F)) : sProp 𝕄 :=
  iprop(dutyTok ER (barCell (py c)) 0 0
    ∗ (∃ f : (chk yB 0).view.ty.Contents (Elt F), ((chk yB 0).view.loc (c : Thread nD τ) ↦[(chk yB 0).view.set]{fullShare} f))
    ∗ (∃ f : (chk yB 1).view.ty.Contents (Elt F), ((chk yB 1).view.loc (c : Thread nD τ) ↦[(chk yB 1).view.set]{fullShare} f))
    ∗ (∃ f : (chk yB 2).view.ty.Contents (Elt F), ((chk yB 2).view.loc (c : Thread nD τ) ↦[(chk yB 2).view.set]{fullShare} f))
    ∗ (∃ f : (chk yB 3).view.ty.Contents (Elt F), ((chk yB 3).view.loc (c : Thread nD τ) ↦[(chk yB 3).view.set]{fullShare} f))
    ∗ (∃ f : (chk yB 4).view.ty.Contents (Elt F), ((chk yB 4).view.loc (c : Thread nD τ) ↦[(chk yB 4).view.set]{fullShare} f))
    ∗ (∃ f : (chk yB 5).view.ty.Contents (Elt F), ((chk yB 5).view.loc (c : Thread nD τ) ↦[(chk yB 5).view.set]{fullShare} f))
    ∗ (∃ f : (chk yB 6).view.ty.Contents (Elt F), ((chk yB 6).view.loc (c : Thread nD τ) ↦[(chk yB 6).view.set]{fullShare} f))
    ∗ (∃ f : (chk yB 7).view.ty.Contents (Elt F), ((chk yB 7).view.loc (c : Thread nD τ) ↦[(chk yB 7).view.set]{fullShare} f))
    ∗ (∃ f : (chk dB 0).view.ty.Contents (Elt F), ((chk dB 0).view.loc (c : Thread nD τ) ↦[(chk dB 0).view.set]{fullShare} f))
    ∗ (∃ f : (chk dB 1).view.ty.Contents (Elt F), ((chk dB 1).view.loc (c : Thread nD τ) ↦[(chk dB 1).view.set]{fullShare} f))
    ∗ (∃ f : (chk dB 2).view.ty.Contents (Elt F), ((chk dB 2).view.loc (c : Thread nD τ) ↦[(chk dB 2).view.set]{fullShare} f))
    ∗ dutyTok ER (barCell (px c)) 0 1
    ∗ (∃ f : (chk xB 0).view.ty.Contents (Elt F), ((chk xB 0).view.loc (c : Thread nD τ) ↦[(chk xB 0).view.set]{fullShare} f))
    ∗ (∃ f : (chk xB 1).view.ty.Contents (Elt F), ((chk xB 1).view.loc (c : Thread nD τ) ↦[(chk xB 1).view.set]{fullShare} f))
    ∗ (∃ f : (chk xB 2).view.ty.Contents (Elt F), ((chk xB 2).view.loc (c : Thread nD τ) ↦[(chk xB 2).view.set]{fullShare} f))
    ∗ (∃ f : (chk xB 3).view.ty.Contents (Elt F), ((chk xB 3).view.loc (c : Thread nD τ) ↦[(chk xB 3).view.set]{fullShare} f))
    ∗ (∃ f : (chk xB 4).view.ty.Contents (Elt F), ((chk xB 4).view.loc (c : Thread nD τ) ↦[(chk xB 4).view.set]{fullShare} f))
    ∗ (∃ f : (chk xB 5).view.ty.Contents (Elt F), ((chk xB 5).view.loc (c : Thread nD τ) ↦[(chk xB 5).view.set]{fullShare} f))
    ∗ (∃ f : (chk xB 6).view.ty.Contents (Elt F), ((chk xB 6).view.loc (c : Thread nD τ) ↦[(chk xB 6).view.set]{fullShare} f))
    ∗ (∃ f : (chk xB 7).view.ty.Contents (Elt F), ((chk xB 7).view.loc (c : Thread nD τ) ↦[(chk xB 7).view.set]{fullShare} f))
    ∗ (∃ f : (chk dB 3).view.ty.Contents (Elt F), ((chk dB 3).view.loc (c : Thread nD τ) ↦[(chk dB 3).view.set]{fullShare} f))
    ∗ (∃ f : (chk dB 4).view.ty.Contents (Elt F), ((chk dB 4).view.loc (c : Thread nD τ) ↦[(chk dB 4).view.set]{fullShare} f))
    ∗ (∃ f : (chk dB 5).view.ty.Contents (Elt F), ((chk dB 5).view.loc (c : Thread nD τ) ↦[(chk dB 5).view.set]{fullShare} f))
    ∗ dutyTok ER (barCell (pz c)) 0 2
    ∗ (∃ f : (chk zB 0).view.ty.Contents (Elt F), ((chk zB 0).view.loc (c : Thread nD τ) ↦[(chk zB 0).view.set]{fullShare} f))
    ∗ (∃ f : (chk zB 1).view.ty.Contents (Elt F), ((chk zB 1).view.loc (c : Thread nD τ) ↦[(chk zB 1).view.set]{fullShare} f))
    ∗ (∃ f : (chk zB 2).view.ty.Contents (Elt F), ((chk zB 2).view.loc (c : Thread nD τ) ↦[(chk zB 2).view.set]{fullShare} f))
    ∗ (∃ f : (chk zB 3).view.ty.Contents (Elt F), ((chk zB 3).view.loc (c : Thread nD τ) ↦[(chk zB 3).view.set]{fullShare} f))
    ∗ (∃ f : (chk zB 4).view.ty.Contents (Elt F), ((chk zB 4).view.loc (c : Thread nD τ) ↦[(chk zB 4).view.set]{fullShare} f))
    ∗ (∃ f : (chk zB 5).view.ty.Contents (Elt F), ((chk zB 5).view.loc (c : Thread nD τ) ↦[(chk zB 5).view.set]{fullShare} f))
    ∗ (∃ f : (chk zB 6).view.ty.Contents (Elt F), ((chk zB 6).view.loc (c : Thread nD τ) ↦[(chk zB 6).view.set]{fullShare} f))
    ∗ (∃ f : (chk zB 7).view.ty.Contents (Elt F), ((chk zB 7).view.loc (c : Thread nD τ) ↦[(chk zB 7).view.set]{fullShare} f))
    ∗ (∃ f : (chk dB 6).view.ty.Contents (Elt F), ((chk dB 6).view.loc (c : Thread nD τ) ↦[(chk dB 6).view.set]{fullShare} f))
    ∗ (∃ f : (chk dB 7).view.ty.Contents (Elt F), ((chk dB 7).view.loc (c : Thread nD τ) ↦[(chk dB 7).view.set]{fullShare} f))
    ∗ atPos ER (barCell c) 0 ∅ 0
    ∗ cred (tallyAt (barCell c) () 3)
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N + tallyAt (dcell (pz c) ⟨49, by decide⟩) () N + tallyAt (dcell (px c) ⟨33, by decide⟩) () N + tallyAt (dcell (pz c) ⟨48, by decide⟩) () N + tallyAt (dcell (px c) ⟨32, by decide⟩) () N + tallyAt (dcell (pz c) ⟨47, by decide⟩) () N + tallyAt (dcell (px c) ⟨31, by decide⟩) () N + tallyAt (dcell (pz c) ⟨46, by decide⟩) () N + tallyAt (dcell (px c) ⟨30, by decide⟩) () N + tallyAt (dcell (pz c) ⟨45, by decide⟩) () N + tallyAt (dcell (px c) ⟨29, by decide⟩) () N + tallyAt (dcell (pz c) ⟨44, by decide⟩) () N + tallyAt (dcell (px c) ⟨28, by decide⟩) () N + tallyAt (dcell (pz c) ⟨43, by decide⟩) () N + tallyAt (dcell (px c) ⟨27, by decide⟩) () N + tallyAt (dcell (pz c) ⟨42, by decide⟩) () N + tallyAt (dcell (px c) ⟨26, by decide⟩) () N + tallyAt (dcell (py c) ⟨65, by decide⟩) () N + tallyAt (dcell (py c) ⟨64, by decide⟩) () N + tallyAt (dcell (py c) ⟨63, by decide⟩) () N + tallyAt (dcell (py c) ⟨17, by decide⟩) () N + tallyAt (dcell (py c) ⟨16, by decide⟩) () N + tallyAt (dcell (py c) ⟨15, by decide⟩) () N + tallyAt (dcell (py c) ⟨14, by decide⟩) () N + tallyAt (dcell (py c) ⟨13, by decide⟩) () N + tallyAt (dcell (py c) ⟨12, by decide⟩) () N + tallyAt (dcell (py c) ⟨11, by decide⟩) () N + tallyAt (dcell (py c) ⟨10, by decide⟩) () N + tallyAt (barCell (pz c)) () 1 + tallyAt (barCell (px c)) () 1 + tallyAt (barCell (py c)) () 1) W)

def post_2 (c : Dev nD) (W : Waits sig Unit) (o : oM.view.ty.Contents (Elt F)) : sProp 𝕄 :=
  iprop(atPos ER (barCell c) 1 ∅ 0
    ∗ (∃ f : (chk yB 0).view.ty.Contents (Elt F), ((chk yB 0).view.loc (py c : Thread nD τ) ↦[(chk yB 0).view.set]{fullShare} f))
    ∗ (∃ f : (chk yB 1).view.ty.Contents (Elt F), ((chk yB 1).view.loc (py c : Thread nD τ) ↦[(chk yB 1).view.set]{fullShare} f))
    ∗ (∃ f : (chk yB 2).view.ty.Contents (Elt F), ((chk yB 2).view.loc (py c : Thread nD τ) ↦[(chk yB 2).view.set]{fullShare} f))
    ∗ (∃ f : (chk yB 3).view.ty.Contents (Elt F), ((chk yB 3).view.loc (py c : Thread nD τ) ↦[(chk yB 3).view.set]{fullShare} f))
    ∗ (∃ f : (chk yB 4).view.ty.Contents (Elt F), ((chk yB 4).view.loc (py c : Thread nD τ) ↦[(chk yB 4).view.set]{fullShare} f))
    ∗ (∃ f : (chk yB 5).view.ty.Contents (Elt F), ((chk yB 5).view.loc (py c : Thread nD τ) ↦[(chk yB 5).view.set]{fullShare} f))
    ∗ (∃ f : (chk yB 6).view.ty.Contents (Elt F), ((chk yB 6).view.loc (py c : Thread nD τ) ↦[(chk yB 6).view.set]{fullShare} f))
    ∗ (∃ f : (chk yB 7).view.ty.Contents (Elt F), ((chk yB 7).view.loc (py c : Thread nD τ) ↦[(chk yB 7).view.set]{fullShare} f))
    ∗ (∃ f : (chk dB 0).view.ty.Contents (Elt F), ((chk dB 0).view.loc (py c : Thread nD τ) ↦[(chk dB 0).view.set]{fullShare} f))
    ∗ (∃ f : (chk dB 1).view.ty.Contents (Elt F), ((chk dB 1).view.loc (py c : Thread nD τ) ↦[(chk dB 1).view.set]{fullShare} f))
    ∗ (∃ f : (chk dB 2).view.ty.Contents (Elt F), ((chk dB 2).view.loc (py c : Thread nD τ) ↦[(chk dB 2).view.set]{fullShare} f))
    ∗ (∃ f : (chk xB 0).view.ty.Contents (Elt F), ((chk xB 0).view.loc (px c : Thread nD τ) ↦[(chk xB 0).view.set]{fullShare} f))
    ∗ (∃ f : (chk xB 1).view.ty.Contents (Elt F), ((chk xB 1).view.loc (px c : Thread nD τ) ↦[(chk xB 1).view.set]{fullShare} f))
    ∗ (∃ f : (chk xB 2).view.ty.Contents (Elt F), ((chk xB 2).view.loc (px c : Thread nD τ) ↦[(chk xB 2).view.set]{fullShare} f))
    ∗ (∃ f : (chk xB 3).view.ty.Contents (Elt F), ((chk xB 3).view.loc (px c : Thread nD τ) ↦[(chk xB 3).view.set]{fullShare} f))
    ∗ (∃ f : (chk xB 4).view.ty.Contents (Elt F), ((chk xB 4).view.loc (px c : Thread nD τ) ↦[(chk xB 4).view.set]{fullShare} f))
    ∗ (∃ f : (chk xB 5).view.ty.Contents (Elt F), ((chk xB 5).view.loc (px c : Thread nD τ) ↦[(chk xB 5).view.set]{fullShare} f))
    ∗ (∃ f : (chk xB 6).view.ty.Contents (Elt F), ((chk xB 6).view.loc (px c : Thread nD τ) ↦[(chk xB 6).view.set]{fullShare} f))
    ∗ (∃ f : (chk xB 7).view.ty.Contents (Elt F), ((chk xB 7).view.loc (px c : Thread nD τ) ↦[(chk xB 7).view.set]{fullShare} f))
    ∗ (∃ f : (chk dB 3).view.ty.Contents (Elt F), ((chk dB 3).view.loc (px c : Thread nD τ) ↦[(chk dB 3).view.set]{fullShare} f))
    ∗ (∃ f : (chk dB 4).view.ty.Contents (Elt F), ((chk dB 4).view.loc (px c : Thread nD τ) ↦[(chk dB 4).view.set]{fullShare} f))
    ∗ (∃ f : (chk dB 5).view.ty.Contents (Elt F), ((chk dB 5).view.loc (px c : Thread nD τ) ↦[(chk dB 5).view.set]{fullShare} f))
    ∗ (∃ f : (chk zB 0).view.ty.Contents (Elt F), ((chk zB 0).view.loc (pz c : Thread nD τ) ↦[(chk zB 0).view.set]{fullShare} f))
    ∗ (∃ f : (chk zB 1).view.ty.Contents (Elt F), ((chk zB 1).view.loc (pz c : Thread nD τ) ↦[(chk zB 1).view.set]{fullShare} f))
    ∗ (∃ f : (chk zB 2).view.ty.Contents (Elt F), ((chk zB 2).view.loc (pz c : Thread nD τ) ↦[(chk zB 2).view.set]{fullShare} f))
    ∗ (∃ f : (chk zB 3).view.ty.Contents (Elt F), ((chk zB 3).view.loc (pz c : Thread nD τ) ↦[(chk zB 3).view.set]{fullShare} f))
    ∗ (∃ f : (chk zB 4).view.ty.Contents (Elt F), ((chk zB 4).view.loc (pz c : Thread nD τ) ↦[(chk zB 4).view.set]{fullShare} f))
    ∗ (∃ f : (chk zB 5).view.ty.Contents (Elt F), ((chk zB 5).view.loc (pz c : Thread nD τ) ↦[(chk zB 5).view.set]{fullShare} f))
    ∗ (∃ f : (chk zB 6).view.ty.Contents (Elt F), ((chk zB 6).view.loc (pz c : Thread nD τ) ↦[(chk zB 6).view.set]{fullShare} f))
    ∗ (∃ f : (chk zB 7).view.ty.Contents (Elt F), ((chk zB 7).view.loc (pz c : Thread nD τ) ↦[(chk zB 7).view.set]{fullShare} f))
    ∗ (∃ f : (chk dB 6).view.ty.Contents (Elt F), ((chk dB 6).view.loc (pz c : Thread nD τ) ↦[(chk dB 6).view.set]{fullShare} f))
    ∗ (∃ f : (chk dB 7).view.ty.Contents (Elt F), ((chk dB 7).view.loc (pz c : Thread nD τ) ↦[(chk dB 7).view.set]{fullShare} f))
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N + tallyAt (dcell (pz c) ⟨49, by decide⟩) () N + tallyAt (dcell (px c) ⟨33, by decide⟩) () N + tallyAt (dcell (pz c) ⟨48, by decide⟩) () N + tallyAt (dcell (px c) ⟨32, by decide⟩) () N + tallyAt (dcell (pz c) ⟨47, by decide⟩) () N + tallyAt (dcell (px c) ⟨31, by decide⟩) () N + tallyAt (dcell (pz c) ⟨46, by decide⟩) () N + tallyAt (dcell (px c) ⟨30, by decide⟩) () N + tallyAt (dcell (pz c) ⟨45, by decide⟩) () N + tallyAt (dcell (px c) ⟨29, by decide⟩) () N + tallyAt (dcell (pz c) ⟨44, by decide⟩) () N + tallyAt (dcell (px c) ⟨28, by decide⟩) () N + tallyAt (dcell (pz c) ⟨43, by decide⟩) () N + tallyAt (dcell (px c) ⟨27, by decide⟩) () N + tallyAt (dcell (pz c) ⟨42, by decide⟩) () N + tallyAt (dcell (px c) ⟨26, by decide⟩) () N + tallyAt (dcell (py c) ⟨65, by decide⟩) () N + tallyAt (dcell (py c) ⟨64, by decide⟩) () N + tallyAt (dcell (py c) ⟨63, by decide⟩) () N + tallyAt (dcell (py c) ⟨17, by decide⟩) () N + tallyAt (dcell (py c) ⟨16, by decide⟩) () N + tallyAt (dcell (py c) ⟨15, by decide⟩) () N + tallyAt (dcell (py c) ⟨14, by decide⟩) () N + tallyAt (dcell (py c) ⟨13, by decide⟩) () N + tallyAt (dcell (py c) ⟨12, by decide⟩) () N + tallyAt (dcell (py c) ⟨11, by decide⟩) () N + tallyAt (dcell (py c) ⟨10, by decide⟩) () N) (insert (SemLoc.reg barS, ()) W))

def ret_2 (c : Dev nD) (r : (Σ' (v35 : BitVec 32) (v36 : BitVec 32) (v61 : BitVec 32), BitVec 32)) : Prop := True

def Spec_2 : Prop := ∀ (K : Dev nD × Fin 65 → ℕ) (c : Dev nD) (W : Waits sig Unit) (o : oM.view.ty.Contents (Elt F)) (v2 : BitVec 32) (v5 : BitVec 32) (v8 : BitVec 32) (v19 : BitVec 32) (v20 : BitVec 32) (v23 : BitVec 32) (v25 : BitVec 32) (v33 : BitVec 32) (v34 : BitVec 32),
  iprop(□ (flatInv m K c ∗ flatReached (F := F) c) ∗ levAts L lv ∗ pre_2 (F := F) c W o)
    ⊢ wp frame (wpE (defs₀ (F := F)) 𝒱₀ (c : Thread nD τ) none) Set.univ
        (k0_part2 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v5 v8 v19 v20 v23 v25 v33 v34)
        (fun r => iprop(post_2 (F := F) c W o ∗ ⌜ret_2 c r⌝))

def pre_3 (c : Dev nD) (W : Waits sig Unit) (o : oM.view.ty.Contents (Elt F)) : sProp 𝕄 :=
  iprop(((srcY c 0).view.loc (c : Thread nD τ) ↦[(srcY c 0).view.set]{psh 0} xstg m c)
    ∗ dutyTok ER (dcell c ⟨2, by decide⟩) 0 0
    ∗ dutyTok ER (dcell (py c) ⟨10, by decide⟩) 0 0
    ∗ (∃ f : (chk yB 0).view.ty.Contents (Elt F), ((chk yB 0).view.loc (py c : Thread nD τ) ↦[(chk yB 0).view.set]{fullShare} f))
    ∗ ((srcY c 1).view.loc (c : Thread nD τ) ↦[(srcY c 1).view.set]{psh 1} xstg m c)
    ∗ dutyTok ER (dcell c ⟨3, by decide⟩) 0 0
    ∗ dutyTok ER (dcell (py c) ⟨11, by decide⟩) 0 0
    ∗ (∃ f : (chk yB 1).view.ty.Contents (Elt F), ((chk yB 1).view.loc (py c : Thread nD τ) ↦[(chk yB 1).view.set]{fullShare} f))
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N + tallyAt (dcell (pz c) ⟨49, by decide⟩) () N + tallyAt (dcell (px c) ⟨33, by decide⟩) () N + tallyAt (dcell (pz c) ⟨48, by decide⟩) () N + tallyAt (dcell (px c) ⟨32, by decide⟩) () N + tallyAt (dcell (pz c) ⟨47, by decide⟩) () N + tallyAt (dcell (px c) ⟨31, by decide⟩) () N + tallyAt (dcell (pz c) ⟨46, by decide⟩) () N + tallyAt (dcell (px c) ⟨30, by decide⟩) () N + tallyAt (dcell (pz c) ⟨45, by decide⟩) () N + tallyAt (dcell (px c) ⟨29, by decide⟩) () N + tallyAt (dcell (pz c) ⟨44, by decide⟩) () N + tallyAt (dcell (px c) ⟨28, by decide⟩) () N + tallyAt (dcell (pz c) ⟨43, by decide⟩) () N + tallyAt (dcell (px c) ⟨27, by decide⟩) () N + tallyAt (dcell (pz c) ⟨42, by decide⟩) () N + tallyAt (dcell (px c) ⟨26, by decide⟩) () N + tallyAt (dcell (py c) ⟨65, by decide⟩) () N + tallyAt (dcell (py c) ⟨64, by decide⟩) () N + tallyAt (dcell (py c) ⟨63, by decide⟩) () N + tallyAt (dcell (py c) ⟨17, by decide⟩) () N + tallyAt (dcell (py c) ⟨16, by decide⟩) () N + tallyAt (dcell (py c) ⟨15, by decide⟩) () N + tallyAt (dcell (py c) ⟨14, by decide⟩) () N + tallyAt (dcell (py c) ⟨13, by decide⟩) () N + tallyAt (dcell (py c) ⟨12, by decide⟩) () N + tallyAt (dcell (py c) ⟨11, by decide⟩) () N + tallyAt (dcell (py c) ⟨10, by decide⟩) () N) W)

def post_3 (c : Dev nD) (W : Waits sig Unit) (o : oM.view.ty.Contents (Elt F)) : sProp 𝕄 :=
  iprop(cred (tallyAt (dcell c ⟨2, by decide⟩) () N)
    ∗ cred (tallyAt (dcell c ⟨3, by decide⟩) () N)
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N + tallyAt (dcell (pz c) ⟨49, by decide⟩) () N + tallyAt (dcell (px c) ⟨33, by decide⟩) () N + tallyAt (dcell (pz c) ⟨48, by decide⟩) () N + tallyAt (dcell (px c) ⟨32, by decide⟩) () N + tallyAt (dcell (pz c) ⟨47, by decide⟩) () N + tallyAt (dcell (px c) ⟨31, by decide⟩) () N + tallyAt (dcell (pz c) ⟨46, by decide⟩) () N + tallyAt (dcell (px c) ⟨30, by decide⟩) () N + tallyAt (dcell (pz c) ⟨45, by decide⟩) () N + tallyAt (dcell (px c) ⟨29, by decide⟩) () N + tallyAt (dcell (pz c) ⟨44, by decide⟩) () N + tallyAt (dcell (px c) ⟨28, by decide⟩) () N + tallyAt (dcell (pz c) ⟨43, by decide⟩) () N + tallyAt (dcell (px c) ⟨27, by decide⟩) () N + tallyAt (dcell (pz c) ⟨42, by decide⟩) () N + tallyAt (dcell (px c) ⟨26, by decide⟩) () N + tallyAt (dcell (py c) ⟨65, by decide⟩) () N + tallyAt (dcell (py c) ⟨64, by decide⟩) () N + tallyAt (dcell (py c) ⟨63, by decide⟩) () N + tallyAt (dcell (py c) ⟨17, by decide⟩) () N + tallyAt (dcell (py c) ⟨16, by decide⟩) () N + tallyAt (dcell (py c) ⟨15, by decide⟩) () N + tallyAt (dcell (py c) ⟨14, by decide⟩) () N + tallyAt (dcell (py c) ⟨13, by decide⟩) () N + tallyAt (dcell (py c) ⟨12, by decide⟩) () N) W)

def ret_3 (c : Dev nD) (r : (PUnit)) : Prop := True

def Spec_3 : Prop := ∀ (K : Dev nD × Fin 65 → ℕ) (c : Dev nD) (W : Waits sig Unit) (o : oM.view.ty.Contents (Elt F)) (v2 : BitVec 32) (v8 : BitVec 32) (v19 : BitVec 32) (v25 : BitVec 32) (v61 : BitVec 32) (v62 : BitVec 32),
  iprop(□ (flatInv m K c ∗ flatReached (F := F) c) ∗ levAts L lv ∗ pre_3 m c W o)
    ⊢ wp frame (wpE (defs₀ (F := F)) 𝒱₀ (c : Thread nD τ) none) Set.univ
        (k0_part3 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v8 v19 v25 v61 v62)
        (fun r => iprop(post_3 (F := F) c W o ∗ ⌜ret_3 c r⌝))

def pre_4 (c : Dev nD) (W : Waits sig Unit) (o : oM.view.ty.Contents (Elt F)) : sProp 𝕄 :=
  iprop(((srcY c 2).view.loc (c : Thread nD τ) ↦[(srcY c 2).view.set]{psh 2} xstg m c)
    ∗ dutyTok ER (dcell c ⟨4, by decide⟩) 0 0
    ∗ dutyTok ER (dcell (py c) ⟨12, by decide⟩) 0 0
    ∗ (∃ f : (chk yB 2).view.ty.Contents (Elt F), ((chk yB 2).view.loc (py c : Thread nD τ) ↦[(chk yB 2).view.set]{fullShare} f))
    ∗ ((srcY c 3).view.loc (c : Thread nD τ) ↦[(srcY c 3).view.set]{psh 3} xstg m c)
    ∗ dutyTok ER (dcell c ⟨5, by decide⟩) 0 0
    ∗ dutyTok ER (dcell (py c) ⟨13, by decide⟩) 0 0
    ∗ (∃ f : (chk yB 3).view.ty.Contents (Elt F), ((chk yB 3).view.loc (py c : Thread nD τ) ↦[(chk yB 3).view.set]{fullShare} f))
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N + tallyAt (dcell (pz c) ⟨49, by decide⟩) () N + tallyAt (dcell (px c) ⟨33, by decide⟩) () N + tallyAt (dcell (pz c) ⟨48, by decide⟩) () N + tallyAt (dcell (px c) ⟨32, by decide⟩) () N + tallyAt (dcell (pz c) ⟨47, by decide⟩) () N + tallyAt (dcell (px c) ⟨31, by decide⟩) () N + tallyAt (dcell (pz c) ⟨46, by decide⟩) () N + tallyAt (dcell (px c) ⟨30, by decide⟩) () N + tallyAt (dcell (pz c) ⟨45, by decide⟩) () N + tallyAt (dcell (px c) ⟨29, by decide⟩) () N + tallyAt (dcell (pz c) ⟨44, by decide⟩) () N + tallyAt (dcell (px c) ⟨28, by decide⟩) () N + tallyAt (dcell (pz c) ⟨43, by decide⟩) () N + tallyAt (dcell (px c) ⟨27, by decide⟩) () N + tallyAt (dcell (pz c) ⟨42, by decide⟩) () N + tallyAt (dcell (px c) ⟨26, by decide⟩) () N + tallyAt (dcell (py c) ⟨65, by decide⟩) () N + tallyAt (dcell (py c) ⟨64, by decide⟩) () N + tallyAt (dcell (py c) ⟨63, by decide⟩) () N + tallyAt (dcell (py c) ⟨17, by decide⟩) () N + tallyAt (dcell (py c) ⟨16, by decide⟩) () N + tallyAt (dcell (py c) ⟨15, by decide⟩) () N + tallyAt (dcell (py c) ⟨14, by decide⟩) () N + tallyAt (dcell (py c) ⟨13, by decide⟩) () N + tallyAt (dcell (py c) ⟨12, by decide⟩) () N) W)

def post_4 (c : Dev nD) (W : Waits sig Unit) (o : oM.view.ty.Contents (Elt F)) : sProp 𝕄 :=
  iprop(cred (tallyAt (dcell c ⟨4, by decide⟩) () N)
    ∗ cred (tallyAt (dcell c ⟨5, by decide⟩) () N)
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N + tallyAt (dcell (pz c) ⟨49, by decide⟩) () N + tallyAt (dcell (px c) ⟨33, by decide⟩) () N + tallyAt (dcell (pz c) ⟨48, by decide⟩) () N + tallyAt (dcell (px c) ⟨32, by decide⟩) () N + tallyAt (dcell (pz c) ⟨47, by decide⟩) () N + tallyAt (dcell (px c) ⟨31, by decide⟩) () N + tallyAt (dcell (pz c) ⟨46, by decide⟩) () N + tallyAt (dcell (px c) ⟨30, by decide⟩) () N + tallyAt (dcell (pz c) ⟨45, by decide⟩) () N + tallyAt (dcell (px c) ⟨29, by decide⟩) () N + tallyAt (dcell (pz c) ⟨44, by decide⟩) () N + tallyAt (dcell (px c) ⟨28, by decide⟩) () N + tallyAt (dcell (pz c) ⟨43, by decide⟩) () N + tallyAt (dcell (px c) ⟨27, by decide⟩) () N + tallyAt (dcell (pz c) ⟨42, by decide⟩) () N + tallyAt (dcell (px c) ⟨26, by decide⟩) () N + tallyAt (dcell (py c) ⟨65, by decide⟩) () N + tallyAt (dcell (py c) ⟨64, by decide⟩) () N + tallyAt (dcell (py c) ⟨63, by decide⟩) () N + tallyAt (dcell (py c) ⟨17, by decide⟩) () N + tallyAt (dcell (py c) ⟨16, by decide⟩) () N + tallyAt (dcell (py c) ⟨15, by decide⟩) () N + tallyAt (dcell (py c) ⟨14, by decide⟩) () N) W)

def ret_4 (c : Dev nD) (r : (PUnit)) : Prop := True

def Spec_4 : Prop := ∀ (K : Dev nD × Fin 65 → ℕ) (c : Dev nD) (W : Waits sig Unit) (o : oM.view.ty.Contents (Elt F)) (v2 : BitVec 32) (v8 : BitVec 32) (v19 : BitVec 32) (v25 : BitVec 32),
  iprop(□ (flatInv m K c ∗ flatReached (F := F) c) ∗ levAts L lv ∗ pre_4 m c W o)
    ⊢ wp frame (wpE (defs₀ (F := F)) 𝒱₀ (c : Thread nD τ) none) Set.univ
        (k0_part4 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v8 v19 v25)
        (fun r => iprop(post_4 (F := F) c W o ∗ ⌜ret_4 c r⌝))

def pre_5 (c : Dev nD) (W : Waits sig Unit) (o : oM.view.ty.Contents (Elt F)) : sProp 𝕄 :=
  iprop(((srcY c 4).view.loc (c : Thread nD τ) ↦[(srcY c 4).view.set]{psh 4} xstg m c)
    ∗ dutyTok ER (dcell c ⟨6, by decide⟩) 0 0
    ∗ dutyTok ER (dcell (py c) ⟨14, by decide⟩) 0 0
    ∗ (∃ f : (chk yB 4).view.ty.Contents (Elt F), ((chk yB 4).view.loc (py c : Thread nD τ) ↦[(chk yB 4).view.set]{fullShare} f))
    ∗ ((srcY c 5).view.loc (c : Thread nD τ) ↦[(srcY c 5).view.set]{psh 5} xstg m c)
    ∗ dutyTok ER (dcell c ⟨7, by decide⟩) 0 0
    ∗ dutyTok ER (dcell (py c) ⟨15, by decide⟩) 0 0
    ∗ (∃ f : (chk yB 5).view.ty.Contents (Elt F), ((chk yB 5).view.loc (py c : Thread nD τ) ↦[(chk yB 5).view.set]{fullShare} f))
    ∗ ((srcY c 6).view.loc (c : Thread nD τ) ↦[(srcY c 6).view.set]{psh 6} xstg m c)
    ∗ dutyTok ER (dcell c ⟨8, by decide⟩) 0 0
    ∗ dutyTok ER (dcell (py c) ⟨16, by decide⟩) 0 0
    ∗ (∃ f : (chk yB 6).view.ty.Contents (Elt F), ((chk yB 6).view.loc (py c : Thread nD τ) ↦[(chk yB 6).view.set]{fullShare} f))
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N + tallyAt (dcell (pz c) ⟨49, by decide⟩) () N + tallyAt (dcell (px c) ⟨33, by decide⟩) () N + tallyAt (dcell (pz c) ⟨48, by decide⟩) () N + tallyAt (dcell (px c) ⟨32, by decide⟩) () N + tallyAt (dcell (pz c) ⟨47, by decide⟩) () N + tallyAt (dcell (px c) ⟨31, by decide⟩) () N + tallyAt (dcell (pz c) ⟨46, by decide⟩) () N + tallyAt (dcell (px c) ⟨30, by decide⟩) () N + tallyAt (dcell (pz c) ⟨45, by decide⟩) () N + tallyAt (dcell (px c) ⟨29, by decide⟩) () N + tallyAt (dcell (pz c) ⟨44, by decide⟩) () N + tallyAt (dcell (px c) ⟨28, by decide⟩) () N + tallyAt (dcell (pz c) ⟨43, by decide⟩) () N + tallyAt (dcell (px c) ⟨27, by decide⟩) () N + tallyAt (dcell (pz c) ⟨42, by decide⟩) () N + tallyAt (dcell (px c) ⟨26, by decide⟩) () N + tallyAt (dcell (py c) ⟨65, by decide⟩) () N + tallyAt (dcell (py c) ⟨64, by decide⟩) () N + tallyAt (dcell (py c) ⟨63, by decide⟩) () N + tallyAt (dcell (py c) ⟨17, by decide⟩) () N + tallyAt (dcell (py c) ⟨16, by decide⟩) () N + tallyAt (dcell (py c) ⟨15, by decide⟩) () N + tallyAt (dcell (py c) ⟨14, by decide⟩) () N) W)

def post_5 (c : Dev nD) (W : Waits sig Unit) (o : oM.view.ty.Contents (Elt F)) : sProp 𝕄 :=
  iprop(cred (tallyAt (dcell c ⟨6, by decide⟩) () N)
    ∗ cred (tallyAt (dcell c ⟨7, by decide⟩) () N)
    ∗ cred (tallyAt (dcell c ⟨8, by decide⟩) () N)
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N + tallyAt (dcell (pz c) ⟨49, by decide⟩) () N + tallyAt (dcell (px c) ⟨33, by decide⟩) () N + tallyAt (dcell (pz c) ⟨48, by decide⟩) () N + tallyAt (dcell (px c) ⟨32, by decide⟩) () N + tallyAt (dcell (pz c) ⟨47, by decide⟩) () N + tallyAt (dcell (px c) ⟨31, by decide⟩) () N + tallyAt (dcell (pz c) ⟨46, by decide⟩) () N + tallyAt (dcell (px c) ⟨30, by decide⟩) () N + tallyAt (dcell (pz c) ⟨45, by decide⟩) () N + tallyAt (dcell (px c) ⟨29, by decide⟩) () N + tallyAt (dcell (pz c) ⟨44, by decide⟩) () N + tallyAt (dcell (px c) ⟨28, by decide⟩) () N + tallyAt (dcell (pz c) ⟨43, by decide⟩) () N + tallyAt (dcell (px c) ⟨27, by decide⟩) () N + tallyAt (dcell (pz c) ⟨42, by decide⟩) () N + tallyAt (dcell (px c) ⟨26, by decide⟩) () N + tallyAt (dcell (py c) ⟨65, by decide⟩) () N + tallyAt (dcell (py c) ⟨64, by decide⟩) () N + tallyAt (dcell (py c) ⟨63, by decide⟩) () N + tallyAt (dcell (py c) ⟨17, by decide⟩) () N) W)

def ret_5 (c : Dev nD) (r : (PUnit)) : Prop := True

def Spec_5 : Prop := ∀ (K : Dev nD × Fin 65 → ℕ) (c : Dev nD) (W : Waits sig Unit) (o : oM.view.ty.Contents (Elt F)) (v2 : BitVec 32) (v8 : BitVec 32) (v19 : BitVec 32) (v25 : BitVec 32),
  iprop(□ (flatInv m K c ∗ flatReached (F := F) c) ∗ levAts L lv ∗ pre_5 m c W o)
    ⊢ wp frame (wpE (defs₀ (F := F)) 𝒱₀ (c : Thread nD τ) none) Set.univ
        (k0_part5 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v8 v19 v25)
        (fun r => iprop(post_5 (F := F) c W o ∗ ⌜ret_5 c r⌝))

def pre_6 (c : Dev nD) (W : Waits sig Unit) (o : oM.view.ty.Contents (Elt F)) : sProp 𝕄 :=
  iprop(((srcY c 7).view.loc (c : Thread nD τ) ↦[(srcY c 7).view.set]{psh 7} xstg m c)
    ∗ dutyTok ER (dcell c ⟨9, by decide⟩) 0 0
    ∗ dutyTok ER (dcell (py c) ⟨17, by decide⟩) 0 0
    ∗ (∃ f : (chk yB 7).view.ty.Contents (Elt F), ((chk yB 7).view.loc (py c : Thread nD τ) ↦[(chk yB 7).view.set]{fullShare} f))
    ∗ ((srcD c 0).view.loc (c : Thread nD τ) ↦[(srcD c 0).view.set]{psh 8} xstg m c)
    ∗ dutyTok ER (dcell c ⟨60, by decide⟩) 0 0
    ∗ dutyTok ER (dcell (py c) ⟨63, by decide⟩) 0 0
    ∗ (∃ f : (chk dB 0).view.ty.Contents (Elt F), ((chk dB 0).view.loc (py c : Thread nD τ) ↦[(chk dB 0).view.set]{fullShare} f))
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N + tallyAt (dcell (pz c) ⟨49, by decide⟩) () N + tallyAt (dcell (px c) ⟨33, by decide⟩) () N + tallyAt (dcell (pz c) ⟨48, by decide⟩) () N + tallyAt (dcell (px c) ⟨32, by decide⟩) () N + tallyAt (dcell (pz c) ⟨47, by decide⟩) () N + tallyAt (dcell (px c) ⟨31, by decide⟩) () N + tallyAt (dcell (pz c) ⟨46, by decide⟩) () N + tallyAt (dcell (px c) ⟨30, by decide⟩) () N + tallyAt (dcell (pz c) ⟨45, by decide⟩) () N + tallyAt (dcell (px c) ⟨29, by decide⟩) () N + tallyAt (dcell (pz c) ⟨44, by decide⟩) () N + tallyAt (dcell (px c) ⟨28, by decide⟩) () N + tallyAt (dcell (pz c) ⟨43, by decide⟩) () N + tallyAt (dcell (px c) ⟨27, by decide⟩) () N + tallyAt (dcell (pz c) ⟨42, by decide⟩) () N + tallyAt (dcell (px c) ⟨26, by decide⟩) () N + tallyAt (dcell (py c) ⟨65, by decide⟩) () N + tallyAt (dcell (py c) ⟨64, by decide⟩) () N + tallyAt (dcell (py c) ⟨63, by decide⟩) () N + tallyAt (dcell (py c) ⟨17, by decide⟩) () N) W)

def post_6 (c : Dev nD) (W : Waits sig Unit) (o : oM.view.ty.Contents (Elt F)) : sProp 𝕄 :=
  iprop(cred (tallyAt (dcell c ⟨9, by decide⟩) () N)
    ∗ cred (tallyAt (dcell c ⟨60, by decide⟩) () N)
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N + tallyAt (dcell (pz c) ⟨49, by decide⟩) () N + tallyAt (dcell (px c) ⟨33, by decide⟩) () N + tallyAt (dcell (pz c) ⟨48, by decide⟩) () N + tallyAt (dcell (px c) ⟨32, by decide⟩) () N + tallyAt (dcell (pz c) ⟨47, by decide⟩) () N + tallyAt (dcell (px c) ⟨31, by decide⟩) () N + tallyAt (dcell (pz c) ⟨46, by decide⟩) () N + tallyAt (dcell (px c) ⟨30, by decide⟩) () N + tallyAt (dcell (pz c) ⟨45, by decide⟩) () N + tallyAt (dcell (px c) ⟨29, by decide⟩) () N + tallyAt (dcell (pz c) ⟨44, by decide⟩) () N + tallyAt (dcell (px c) ⟨28, by decide⟩) () N + tallyAt (dcell (pz c) ⟨43, by decide⟩) () N + tallyAt (dcell (px c) ⟨27, by decide⟩) () N + tallyAt (dcell (pz c) ⟨42, by decide⟩) () N + tallyAt (dcell (px c) ⟨26, by decide⟩) () N + tallyAt (dcell (py c) ⟨65, by decide⟩) () N + tallyAt (dcell (py c) ⟨64, by decide⟩) () N) W)

def ret_6 (c : Dev nD) (r : (Σ' (v195 : BitVec 32), BitVec 32)) : Prop := True

def Spec_6 : Prop := ∀ (K : Dev nD × Fin 65 → ℕ) (c : Dev nD) (W : Waits sig Unit) (o : oM.view.ty.Contents (Elt F)) (v2 : BitVec 32) (v8 : BitVec 32) (v19 : BitVec 32) (v35 : BitVec 32),
  iprop(□ (flatInv m K c ∗ flatReached (F := F) c) ∗ levAts L lv ∗ pre_6 m c W o)
    ⊢ wp frame (wpE (defs₀ (F := F)) 𝒱₀ (c : Thread nD τ) none) Set.univ
        (k0_part6 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v8 v19 v35)
        (fun r => iprop(post_6 (F := F) c W o ∗ ⌜ret_6 c r⌝))

def pre_7 (c : Dev nD) (W : Waits sig Unit) (o : oM.view.ty.Contents (Elt F)) : sProp 𝕄 :=
  iprop(((srcD c 1).view.loc (c : Thread nD τ) ↦[(srcD c 1).view.set]{psh 9} xstg m c)
    ∗ dutyTok ER (dcell c ⟨61, by decide⟩) 0 0
    ∗ dutyTok ER (dcell (py c) ⟨64, by decide⟩) 0 0
    ∗ (∃ f : (chk dB 1).view.ty.Contents (Elt F), ((chk dB 1).view.loc (py c : Thread nD τ) ↦[(chk dB 1).view.set]{fullShare} f))
    ∗ ((srcD c 2).view.loc (c : Thread nD τ) ↦[(srcD c 2).view.set]{psh 10} xstg m c)
    ∗ dutyTok ER (dcell c ⟨62, by decide⟩) 0 0
    ∗ dutyTok ER (dcell (py c) ⟨65, by decide⟩) 0 0
    ∗ (∃ f : (chk dB 2).view.ty.Contents (Elt F), ((chk dB 2).view.loc (py c : Thread nD τ) ↦[(chk dB 2).view.set]{fullShare} f))
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N + tallyAt (dcell (pz c) ⟨49, by decide⟩) () N + tallyAt (dcell (px c) ⟨33, by decide⟩) () N + tallyAt (dcell (pz c) ⟨48, by decide⟩) () N + tallyAt (dcell (px c) ⟨32, by decide⟩) () N + tallyAt (dcell (pz c) ⟨47, by decide⟩) () N + tallyAt (dcell (px c) ⟨31, by decide⟩) () N + tallyAt (dcell (pz c) ⟨46, by decide⟩) () N + tallyAt (dcell (px c) ⟨30, by decide⟩) () N + tallyAt (dcell (pz c) ⟨45, by decide⟩) () N + tallyAt (dcell (px c) ⟨29, by decide⟩) () N + tallyAt (dcell (pz c) ⟨44, by decide⟩) () N + tallyAt (dcell (px c) ⟨28, by decide⟩) () N + tallyAt (dcell (pz c) ⟨43, by decide⟩) () N + tallyAt (dcell (px c) ⟨27, by decide⟩) () N + tallyAt (dcell (pz c) ⟨42, by decide⟩) () N + tallyAt (dcell (px c) ⟨26, by decide⟩) () N + tallyAt (dcell (py c) ⟨65, by decide⟩) () N + tallyAt (dcell (py c) ⟨64, by decide⟩) () N) W)

def post_7 (c : Dev nD) (W : Waits sig Unit) (o : oM.view.ty.Contents (Elt F)) : sProp 𝕄 :=
  iprop(cred (tallyAt (dcell c ⟨61, by decide⟩) () N)
    ∗ cred (tallyAt (dcell c ⟨62, by decide⟩) () N)
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N + tallyAt (dcell (pz c) ⟨49, by decide⟩) () N + tallyAt (dcell (px c) ⟨33, by decide⟩) () N + tallyAt (dcell (pz c) ⟨48, by decide⟩) () N + tallyAt (dcell (px c) ⟨32, by decide⟩) () N + tallyAt (dcell (pz c) ⟨47, by decide⟩) () N + tallyAt (dcell (px c) ⟨31, by decide⟩) () N + tallyAt (dcell (pz c) ⟨46, by decide⟩) () N + tallyAt (dcell (px c) ⟨30, by decide⟩) () N + tallyAt (dcell (pz c) ⟨45, by decide⟩) () N + tallyAt (dcell (px c) ⟨29, by decide⟩) () N + tallyAt (dcell (pz c) ⟨44, by decide⟩) () N + tallyAt (dcell (px c) ⟨28, by decide⟩) () N + tallyAt (dcell (pz c) ⟨43, by decide⟩) () N + tallyAt (dcell (px c) ⟨27, by decide⟩) () N + tallyAt (dcell (pz c) ⟨42, by decide⟩) () N + tallyAt (dcell (px c) ⟨26, by decide⟩) () N) W)

def ret_7 (c : Dev nD) (r : (PUnit)) : Prop := True

def Spec_7 : Prop := ∀ (K : Dev nD × Fin 65 → ℕ) (c : Dev nD) (W : Waits sig Unit) (o : oM.view.ty.Contents (Elt F)) (v2 : BitVec 32) (v8 : BitVec 32) (v19 : BitVec 32) (v35 : BitVec 32) (v195 : BitVec 32) (c0_i32_130 : BitVec 32),
  iprop(□ (flatInv m K c ∗ flatReached (F := F) c) ∗ levAts L lv ∗ pre_7 m c W o)
    ⊢ wp frame (wpE (defs₀ (F := F)) 𝒱₀ (c : Thread nD τ) none) Set.univ
        (k0_part7 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v8 v19 v35 v195 c0_i32_130)
        (fun r => iprop(post_7 (F := F) c W o ∗ ⌜ret_7 c r⌝))

def pre_8 (c : Dev nD) (W : Waits sig Unit) (o : oM.view.ty.Contents (Elt F)) : sProp 𝕄 :=
  iprop(atPos ER (dcell c ⟨10, by decide⟩) 0 ∅ 0
    ∗ cred (tallyAt (dcell c ⟨10, by decide⟩) () N)
    ∗ dutyTok ER (dcell c ⟨18, by decide⟩) 0 0
    ∗ dutyTok ER (dcell (px c) ⟨26, by decide⟩) 0 0
    ∗ (∃ f : (chk xB 0).view.ty.Contents (Elt F), ((chk xB 0).view.loc (px c : Thread nD τ) ↦[(chk xB 0).view.set]{fullShare} f))
    ∗ dutyTok ER (dcell c ⟨34, by decide⟩) 0 0
    ∗ dutyTok ER (dcell (pz c) ⟨42, by decide⟩) 0 0
    ∗ (∃ f : (chk zB 0).view.ty.Contents (Elt F), ((chk zB 0).view.loc (pz c : Thread nD τ) ↦[(chk zB 0).view.set]{fullShare} f))
    ∗ (xM.view.loc (c : Thread nD τ) ↦[xM.view.set]{xqL} xstg m c)
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N + tallyAt (dcell (pz c) ⟨49, by decide⟩) () N + tallyAt (dcell (px c) ⟨33, by decide⟩) () N + tallyAt (dcell (pz c) ⟨48, by decide⟩) () N + tallyAt (dcell (px c) ⟨32, by decide⟩) () N + tallyAt (dcell (pz c) ⟨47, by decide⟩) () N + tallyAt (dcell (px c) ⟨31, by decide⟩) () N + tallyAt (dcell (pz c) ⟨46, by decide⟩) () N + tallyAt (dcell (px c) ⟨30, by decide⟩) () N + tallyAt (dcell (pz c) ⟨45, by decide⟩) () N + tallyAt (dcell (px c) ⟨29, by decide⟩) () N + tallyAt (dcell (pz c) ⟨44, by decide⟩) () N + tallyAt (dcell (px c) ⟨28, by decide⟩) () N + tallyAt (dcell (pz c) ⟨43, by decide⟩) () N + tallyAt (dcell (px c) ⟨27, by decide⟩) () N + tallyAt (dcell (pz c) ⟨42, by decide⟩) () N + tallyAt (dcell (px c) ⟨26, by decide⟩) () N) W)

def post_8 (c : Dev nD) (W : Waits sig Unit) (o : oM.view.ty.Contents (Elt F)) : sProp 𝕄 :=
  iprop((xM.view.loc (c : Thread nD τ) ↦[xM.view.set]{xqL} xstg m c)
    ∗ semVal (dcell c ⟨10, by decide⟩) 0
    ∗ ((chk yB 0).view.loc (c : Thread nD τ) ↦[(chk yB 0).view.set]{qC} Ych m c 0)
    ∗ cred (tallyAt (dcell c ⟨18, by decide⟩) () N)
    ∗ cred (tallyAt (dcell c ⟨34, by decide⟩) () N)
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N + tallyAt (dcell (pz c) ⟨49, by decide⟩) () N + tallyAt (dcell (px c) ⟨33, by decide⟩) () N + tallyAt (dcell (pz c) ⟨48, by decide⟩) () N + tallyAt (dcell (px c) ⟨32, by decide⟩) () N + tallyAt (dcell (pz c) ⟨47, by decide⟩) () N + tallyAt (dcell (px c) ⟨31, by decide⟩) () N + tallyAt (dcell (pz c) ⟨46, by decide⟩) () N + tallyAt (dcell (px c) ⟨30, by decide⟩) () N + tallyAt (dcell (pz c) ⟨45, by decide⟩) () N + tallyAt (dcell (px c) ⟨29, by decide⟩) () N + tallyAt (dcell (pz c) ⟨44, by decide⟩) () N + tallyAt (dcell (px c) ⟨28, by decide⟩) () N + tallyAt (dcell (pz c) ⟨43, by decide⟩) () N + tallyAt (dcell (px c) ⟨27, by decide⟩) () N) (insert (SemLoc.dma ⟨10, by decide⟩, ()) W))

def ret_8 (c : Dev nD) (r : (FVec F S32x512 .f32)) : Prop := r = k0_pay1 (ldx m c (k0_off3 c (wk 0)) (Gen.k0_off3_inb c 0))

def Spec_8 : Prop := ∀ (K : Dev nD × Fin 65 → ℕ) (c : Dev nD) (W : Waits sig Unit) (o : oM.view.ty.Contents (Elt F)) (v2 : BitVec 32) (v5 : BitVec 32) (v8 : BitVec 32) (v20 : BitVec 32) (v23 : BitVec 32) (v25 : BitVec 32) (v36 : BitVec 32),
  iprop(□ (flatInv m K c ∗ flatReached (F := F) c) ∗ levAts L lv ∗ pre_8 m c W o)
    ⊢ wp frame (wpE (defs₀ (F := F)) 𝒱₀ (c : Thread nD τ) none) Set.univ
        (k0_part8 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v5 v8 v20 v23 v25 v36)
        (fun r => iprop(post_8 m c W o ∗ ⌜ret_8 m c r⌝))

def pre_9 (c : Dev nD) (W : Waits sig Unit) (o : oM.view.ty.Contents (Elt F)) : sProp 𝕄 :=
  iprop(((chk yB 0).view.loc (c : Thread nD τ) ↦[(chk yB 0).view.set]{qC} Ych m c 0)
    ∗ atPos ER (dcell c ⟨11, by decide⟩) 0 ∅ 0
    ∗ cred (tallyAt (dcell c ⟨11, by decide⟩) () N)
    ∗ dutyTok ER (dcell c ⟨19, by decide⟩) 0 0
    ∗ dutyTok ER (dcell (px c) ⟨27, by decide⟩) 0 0
    ∗ (∃ f : (chk xB 1).view.ty.Contents (Elt F), ((chk xB 1).view.loc (px c : Thread nD τ) ↦[(chk xB 1).view.set]{fullShare} f))
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N + tallyAt (dcell (pz c) ⟨49, by decide⟩) () N + tallyAt (dcell (px c) ⟨33, by decide⟩) () N + tallyAt (dcell (pz c) ⟨48, by decide⟩) () N + tallyAt (dcell (px c) ⟨32, by decide⟩) () N + tallyAt (dcell (pz c) ⟨47, by decide⟩) () N + tallyAt (dcell (px c) ⟨31, by decide⟩) () N + tallyAt (dcell (pz c) ⟨46, by decide⟩) () N + tallyAt (dcell (px c) ⟨30, by decide⟩) () N + tallyAt (dcell (pz c) ⟨45, by decide⟩) () N + tallyAt (dcell (px c) ⟨29, by decide⟩) () N + tallyAt (dcell (pz c) ⟨44, by decide⟩) () N + tallyAt (dcell (px c) ⟨28, by decide⟩) () N + tallyAt (dcell (pz c) ⟨43, by decide⟩) () N + tallyAt (dcell (px c) ⟨27, by decide⟩) () N) W
    ∗ (oM.view.loc (c : Thread nD τ) ↦[oM.view.set]{fullShare} o))

def post_9 (c : Dev nD) (W : Waits sig Unit) (o : oM.view.ty.Contents (Elt F)) : sProp 𝕄 :=
  iprop(((chk yB 0).view.loc (c : Thread nD τ) ↦[(chk yB 0).view.set]{qC} Ych m c 0)
    ∗ semVal (dcell c ⟨11, by decide⟩) 0
    ∗ ((chk yB 1).view.loc (c : Thread nD τ) ↦[(chk yB 1).view.set]{qB} Ych m c 1)
    ∗ ((chk yB 1).view.loc (c : Thread nD τ) ↦[(chk yB 1).view.set]{qC} Ych m c 1)
    ∗ cred (tallyAt (dcell c ⟨19, by decide⟩) () N)
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N + tallyAt (dcell (pz c) ⟨49, by decide⟩) () N + tallyAt (dcell (px c) ⟨33, by decide⟩) () N + tallyAt (dcell (pz c) ⟨48, by decide⟩) () N + tallyAt (dcell (px c) ⟨32, by decide⟩) () N + tallyAt (dcell (pz c) ⟨47, by decide⟩) () N + tallyAt (dcell (px c) ⟨31, by decide⟩) () N + tallyAt (dcell (pz c) ⟨46, by decide⟩) () N + tallyAt (dcell (px c) ⟨30, by decide⟩) () N + tallyAt (dcell (pz c) ⟨45, by decide⟩) () N + tallyAt (dcell (px c) ⟨29, by decide⟩) () N + tallyAt (dcell (pz c) ⟨44, by decide⟩) () N + tallyAt (dcell (px c) ⟨28, by decide⟩) () N + tallyAt (dcell (pz c) ⟨43, by decide⟩) () N) (insert (SemLoc.dma ⟨11, by decide⟩, ()) W)
    ∗ (oM.view.loc (c : Thread nD τ) ↦[oM.view.set]{fullShare} (stC m c 0 o)))

def ret_9 (c : Dev nD) (r : (BitVec 32)) : Prop := True

def Spec_9 : Prop := ∀ (K : Dev nD × Fin 65 → ℕ) (c : Dev nD) (W : Waits sig Unit) (o : oM.view.ty.Contents (Elt F)) (v2 : BitVec 32) (v5 : BitVec 32) (v8 : BitVec 32) (v19 : BitVec 32) (v20 : BitVec 32) (v25 : BitVec 32),
  iprop(□ (flatInv m K c ∗ flatReached (F := F) c) ∗ levAts L lv ∗ pre_9 m c W o)
    ⊢ wp frame (wpE (defs₀ (F := F)) 𝒱₀ (c : Thread nD τ) none) Set.univ
        (k0_part9 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v5 v8 v19 v20 v25 (k0_pay1 (ldx m c (k0_off3 c (wk 0)) (Gen.k0_off3_inb c 0))))
        (fun r => iprop(post_9 m c W o ∗ ⌜ret_9 c r⌝))

def pre_10 (c : Dev nD) (W : Waits sig Unit) (o : oM.view.ty.Contents (Elt F)) : sProp 𝕄 :=
  iprop(((chk yB 1).view.loc (c : Thread nD τ) ↦[(chk yB 1).view.set]{qB} Ych m c 1)
    ∗ dutyTok ER (dcell c ⟨35, by decide⟩) 0 0
    ∗ dutyTok ER (dcell (pz c) ⟨43, by decide⟩) 0 0
    ∗ (∃ f : (chk zB 1).view.ty.Contents (Elt F), ((chk zB 1).view.loc (pz c : Thread nD τ) ↦[(chk zB 1).view.set]{fullShare} f))
    ∗ (xM.view.loc (c : Thread nD τ) ↦[xM.view.set]{xqL} xstg m c)
    ∗ ((chk yB 1).view.loc (c : Thread nD τ) ↦[(chk yB 1).view.set]{qC} Ych m c 1)
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N + tallyAt (dcell (pz c) ⟨49, by decide⟩) () N + tallyAt (dcell (px c) ⟨33, by decide⟩) () N + tallyAt (dcell (pz c) ⟨48, by decide⟩) () N + tallyAt (dcell (px c) ⟨32, by decide⟩) () N + tallyAt (dcell (pz c) ⟨47, by decide⟩) () N + tallyAt (dcell (px c) ⟨31, by decide⟩) () N + tallyAt (dcell (pz c) ⟨46, by decide⟩) () N + tallyAt (dcell (px c) ⟨30, by decide⟩) () N + tallyAt (dcell (pz c) ⟨45, by decide⟩) () N + tallyAt (dcell (px c) ⟨29, by decide⟩) () N + tallyAt (dcell (pz c) ⟨44, by decide⟩) () N + tallyAt (dcell (px c) ⟨28, by decide⟩) () N + tallyAt (dcell (pz c) ⟨43, by decide⟩) () N) W
    ∗ (oM.view.loc (c : Thread nD τ) ↦[oM.view.set]{fullShare} o))

def post_10 (c : Dev nD) (W : Waits sig Unit) (o : oM.view.ty.Contents (Elt F)) : sProp 𝕄 :=
  iprop((xM.view.loc (c : Thread nD τ) ↦[xM.view.set]{xqL} xstg m c)
    ∗ ((chk yB 1).view.loc (c : Thread nD τ) ↦[(chk yB 1).view.set]{qC} Ych m c 1)
    ∗ cred (tallyAt (dcell c ⟨35, by decide⟩) () N)
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N + tallyAt (dcell (pz c) ⟨49, by decide⟩) () N + tallyAt (dcell (px c) ⟨33, by decide⟩) () N + tallyAt (dcell (pz c) ⟨48, by decide⟩) () N + tallyAt (dcell (px c) ⟨32, by decide⟩) () N + tallyAt (dcell (pz c) ⟨47, by decide⟩) () N + tallyAt (dcell (px c) ⟨31, by decide⟩) () N + tallyAt (dcell (pz c) ⟨46, by decide⟩) () N + tallyAt (dcell (px c) ⟨30, by decide⟩) () N + tallyAt (dcell (pz c) ⟨45, by decide⟩) () N + tallyAt (dcell (px c) ⟨29, by decide⟩) () N + tallyAt (dcell (pz c) ⟨44, by decide⟩) () N + tallyAt (dcell (px c) ⟨28, by decide⟩) () N) W
    ∗ (oM.view.loc (c : Thread nD τ) ↦[oM.view.set]{fullShare} (stC m c 1 o)))

def ret_10 (c : Dev nD) (r : (PUnit)) : Prop := True

def Spec_10 : Prop := ∀ (K : Dev nD × Fin 65 → ℕ) (c : Dev nD) (W : Waits sig Unit) (o : oM.view.ty.Contents (Elt F)) (v2 : BitVec 32) (v5 : BitVec 32) (v8 : BitVec 32) (v19 : BitVec 32) (v23 : BitVec 32) (v25 : BitVec 32) (v36 : BitVec 32) (v293 : BitVec 32),
  iprop(□ (flatInv m K c ∗ flatReached (F := F) c) ∗ levAts L lv ∗ pre_10 m c W o)
    ⊢ wp frame (wpE (defs₀ (F := F)) 𝒱₀ (c : Thread nD τ) none) Set.univ
        (k0_part10 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v5 v8 v19 v23 v25 v36 v293)
        (fun r => iprop(post_10 m c W o ∗ ⌜ret_10 c r⌝))

def pre_11 (c : Dev nD) (W : Waits sig Unit) (o : oM.view.ty.Contents (Elt F)) : sProp 𝕄 :=
  iprop(atPos ER (dcell c ⟨12, by decide⟩) 0 ∅ 0
    ∗ cred (tallyAt (dcell c ⟨12, by decide⟩) () N)
    ∗ dutyTok ER (dcell c ⟨20, by decide⟩) 0 0
    ∗ dutyTok ER (dcell (px c) ⟨28, by decide⟩) 0 0
    ∗ (∃ f : (chk xB 2).view.ty.Contents (Elt F), ((chk xB 2).view.loc (px c : Thread nD τ) ↦[(chk xB 2).view.set]{fullShare} f))
    ∗ dutyTok ER (dcell c ⟨36, by decide⟩) 0 0
    ∗ dutyTok ER (dcell (pz c) ⟨44, by decide⟩) 0 0
    ∗ (∃ f : (chk zB 2).view.ty.Contents (Elt F), ((chk zB 2).view.loc (pz c : Thread nD τ) ↦[(chk zB 2).view.set]{fullShare} f))
    ∗ (xM.view.loc (c : Thread nD τ) ↦[xM.view.set]{xqL} xstg m c)
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N + tallyAt (dcell (pz c) ⟨49, by decide⟩) () N + tallyAt (dcell (px c) ⟨33, by decide⟩) () N + tallyAt (dcell (pz c) ⟨48, by decide⟩) () N + tallyAt (dcell (px c) ⟨32, by decide⟩) () N + tallyAt (dcell (pz c) ⟨47, by decide⟩) () N + tallyAt (dcell (px c) ⟨31, by decide⟩) () N + tallyAt (dcell (pz c) ⟨46, by decide⟩) () N + tallyAt (dcell (px c) ⟨30, by decide⟩) () N + tallyAt (dcell (pz c) ⟨45, by decide⟩) () N + tallyAt (dcell (px c) ⟨29, by decide⟩) () N + tallyAt (dcell (pz c) ⟨44, by decide⟩) () N + tallyAt (dcell (px c) ⟨28, by decide⟩) () N) W)

def post_11 (c : Dev nD) (W : Waits sig Unit) (o : oM.view.ty.Contents (Elt F)) : sProp 𝕄 :=
  iprop((xM.view.loc (c : Thread nD τ) ↦[xM.view.set]{xqL} xstg m c)
    ∗ semVal (dcell c ⟨12, by decide⟩) 0
    ∗ ((chk yB 2).view.loc (c : Thread nD τ) ↦[(chk yB 2).view.set]{qC} Ych m c 2)
    ∗ cred (tallyAt (dcell c ⟨20, by decide⟩) () N)
    ∗ cred (tallyAt (dcell c ⟨36, by decide⟩) () N)
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N + tallyAt (dcell (pz c) ⟨49, by decide⟩) () N + tallyAt (dcell (px c) ⟨33, by decide⟩) () N + tallyAt (dcell (pz c) ⟨48, by decide⟩) () N + tallyAt (dcell (px c) ⟨32, by decide⟩) () N + tallyAt (dcell (pz c) ⟨47, by decide⟩) () N + tallyAt (dcell (px c) ⟨31, by decide⟩) () N + tallyAt (dcell (pz c) ⟨46, by decide⟩) () N + tallyAt (dcell (px c) ⟨30, by decide⟩) () N + tallyAt (dcell (pz c) ⟨45, by decide⟩) () N + tallyAt (dcell (px c) ⟨29, by decide⟩) () N) (insert (SemLoc.dma ⟨12, by decide⟩, ()) W))

def ret_11 (c : Dev nD) (r : (FVec F S32x512 .f32)) : Prop := r = k0_pay4 (ldx m c (k0_off3 c (wk 2)) (Gen.k0_off3_inb c 2)) (ldb yB 2 (Ych m c 2))

def Spec_11 : Prop := ∀ (K : Dev nD × Fin 65 → ℕ) (c : Dev nD) (W : Waits sig Unit) (o : oM.view.ty.Contents (Elt F)) (v2 : BitVec 32) (v5 : BitVec 32) (v8 : BitVec 32) (v20 : BitVec 32) (v23 : BitVec 32) (v25 : BitVec 32) (v36 : BitVec 32),
  iprop(□ (flatInv m K c ∗ flatReached (F := F) c) ∗ levAts L lv ∗ pre_11 m c W o)
    ⊢ wp frame (wpE (defs₀ (F := F)) 𝒱₀ (c : Thread nD τ) none) Set.univ
        (k0_part11 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v5 v8 v20 v23 v25 v36)
        (fun r => iprop(post_11 m c W o ∗ ⌜ret_11 m c r⌝))

def pre_12 (c : Dev nD) (W : Waits sig Unit) (o : oM.view.ty.Contents (Elt F)) : sProp 𝕄 :=
  iprop(atPos ER (dcell c ⟨13, by decide⟩) 0 ∅ 0
    ∗ cred (tallyAt (dcell c ⟨13, by decide⟩) () N)
    ∗ dutyTok ER (dcell c ⟨21, by decide⟩) 0 0
    ∗ dutyTok ER (dcell (px c) ⟨29, by decide⟩) 0 0
    ∗ (∃ f : (chk xB 3).view.ty.Contents (Elt F), ((chk xB 3).view.loc (px c : Thread nD τ) ↦[(chk xB 3).view.set]{fullShare} f))
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N + tallyAt (dcell (pz c) ⟨49, by decide⟩) () N + tallyAt (dcell (px c) ⟨33, by decide⟩) () N + tallyAt (dcell (pz c) ⟨48, by decide⟩) () N + tallyAt (dcell (px c) ⟨32, by decide⟩) () N + tallyAt (dcell (pz c) ⟨47, by decide⟩) () N + tallyAt (dcell (px c) ⟨31, by decide⟩) () N + tallyAt (dcell (pz c) ⟨46, by decide⟩) () N + tallyAt (dcell (px c) ⟨30, by decide⟩) () N + tallyAt (dcell (pz c) ⟨45, by decide⟩) () N + tallyAt (dcell (px c) ⟨29, by decide⟩) () N) W
    ∗ (oM.view.loc (c : Thread nD τ) ↦[oM.view.set]{fullShare} o))

def post_12 (c : Dev nD) (W : Waits sig Unit) (o : oM.view.ty.Contents (Elt F)) : sProp 𝕄 :=
  iprop(semVal (dcell c ⟨13, by decide⟩) 0
    ∗ ((chk yB 3).view.loc (c : Thread nD τ) ↦[(chk yB 3).view.set]{qB} Ych m c 3)
    ∗ ((chk yB 3).view.loc (c : Thread nD τ) ↦[(chk yB 3).view.set]{qC} Ych m c 3)
    ∗ cred (tallyAt (dcell c ⟨21, by decide⟩) () N)
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N + tallyAt (dcell (pz c) ⟨49, by decide⟩) () N + tallyAt (dcell (px c) ⟨33, by decide⟩) () N + tallyAt (dcell (pz c) ⟨48, by decide⟩) () N + tallyAt (dcell (px c) ⟨32, by decide⟩) () N + tallyAt (dcell (pz c) ⟨47, by decide⟩) () N + tallyAt (dcell (px c) ⟨31, by decide⟩) () N + tallyAt (dcell (pz c) ⟨46, by decide⟩) () N + tallyAt (dcell (px c) ⟨30, by decide⟩) () N + tallyAt (dcell (pz c) ⟨45, by decide⟩) () N) (insert (SemLoc.dma ⟨13, by decide⟩, ()) W)
    ∗ (oM.view.loc (c : Thread nD τ) ↦[oM.view.set]{fullShare} (stC m c 2 o)))

def ret_12 (c : Dev nD) (r : (Σ' (v388 : BitVec 32), BitVec 32)) : Prop := True

def Spec_12 : Prop := ∀ (K : Dev nD × Fin 65 → ℕ) (c : Dev nD) (W : Waits sig Unit) (o : oM.view.ty.Contents (Elt F)) (v2 : BitVec 32) (v5 : BitVec 32) (v8 : BitVec 32) (v19 : BitVec 32) (v20 : BitVec 32) (v25 : BitVec 32),
  iprop(□ (flatInv m K c ∗ flatReached (F := F) c) ∗ levAts L lv ∗ pre_12 (F := F) c W o)
    ⊢ wp frame (wpE (defs₀ (F := F)) 𝒱₀ (c : Thread nD τ) none) Set.univ
        (k0_part12 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v5 v8 v19 v20 v25 (k0_pay4 (ldx m c (k0_off3 c (wk 2)) (Gen.k0_off3_inb c 2)) (ldb yB 2 (Ych m c 2))))
        (fun r => iprop(post_12 m c W o ∗ ⌜ret_12 c r⌝))

def pre_13 (c : Dev nD) (W : Waits sig Unit) (o : oM.view.ty.Contents (Elt F)) : sProp 𝕄 :=
  iprop(((chk yB 3).view.loc (c : Thread nD τ) ↦[(chk yB 3).view.set]{qB} Ych m c 3)
    ∗ dutyTok ER (dcell c ⟨37, by decide⟩) 0 0
    ∗ dutyTok ER (dcell (pz c) ⟨45, by decide⟩) 0 0
    ∗ (∃ f : (chk zB 3).view.ty.Contents (Elt F), ((chk zB 3).view.loc (pz c : Thread nD τ) ↦[(chk zB 3).view.set]{fullShare} f))
    ∗ (xM.view.loc (c : Thread nD τ) ↦[xM.view.set]{xqL} xstg m c)
    ∗ ((chk yB 3).view.loc (c : Thread nD τ) ↦[(chk yB 3).view.set]{qC} Ych m c 3)
    ∗ atPos ER (dcell c ⟨14, by decide⟩) 0 ∅ 0
    ∗ cred (tallyAt (dcell c ⟨14, by decide⟩) () N)
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N + tallyAt (dcell (pz c) ⟨49, by decide⟩) () N + tallyAt (dcell (px c) ⟨33, by decide⟩) () N + tallyAt (dcell (pz c) ⟨48, by decide⟩) () N + tallyAt (dcell (px c) ⟨32, by decide⟩) () N + tallyAt (dcell (pz c) ⟨47, by decide⟩) () N + tallyAt (dcell (px c) ⟨31, by decide⟩) () N + tallyAt (dcell (pz c) ⟨46, by decide⟩) () N + tallyAt (dcell (px c) ⟨30, by decide⟩) () N + tallyAt (dcell (pz c) ⟨45, by decide⟩) () N) W
    ∗ (oM.view.loc (c : Thread nD τ) ↦[oM.view.set]{fullShare} o))

def post_13 (c : Dev nD) (W : Waits sig Unit) (o : oM.view.ty.Contents (Elt F)) : sProp 𝕄 :=
  iprop((xM.view.loc (c : Thread nD τ) ↦[xM.view.set]{xqL} xstg m c)
    ∗ ((chk yB 3).view.loc (c : Thread nD τ) ↦[(chk yB 3).view.set]{qC} Ych m c 3)
    ∗ cred (tallyAt (dcell c ⟨37, by decide⟩) () N)
    ∗ semVal (dcell c ⟨14, by decide⟩) 0
    ∗ ((chk yB 4).view.loc (c : Thread nD τ) ↦[(chk yB 4).view.set]{qA} Ych m c 4)
    ∗ ((chk yB 4).view.loc (c : Thread nD τ) ↦[(chk yB 4).view.set]{qB} Ych m c 4)
    ∗ ((chk yB 4).view.loc (c : Thread nD τ) ↦[(chk yB 4).view.set]{qC} Ych m c 4)
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N + tallyAt (dcell (pz c) ⟨49, by decide⟩) () N + tallyAt (dcell (px c) ⟨33, by decide⟩) () N + tallyAt (dcell (pz c) ⟨48, by decide⟩) () N + tallyAt (dcell (px c) ⟨32, by decide⟩) () N + tallyAt (dcell (pz c) ⟨47, by decide⟩) () N + tallyAt (dcell (px c) ⟨31, by decide⟩) () N + tallyAt (dcell (pz c) ⟨46, by decide⟩) () N + tallyAt (dcell (px c) ⟨30, by decide⟩) () N) (insert (SemLoc.dma ⟨14, by decide⟩, ()) W)
    ∗ (oM.view.loc (c : Thread nD τ) ↦[oM.view.set]{fullShare} (stC m c 3 o)))

def ret_13 (c : Dev nD) (r : (BitVec 32)) : Prop := True

def Spec_13 : Prop := ∀ (K : Dev nD × Fin 65 → ℕ) (c : Dev nD) (W : Waits sig Unit) (o : oM.view.ty.Contents (Elt F)) (v2 : BitVec 32) (v8 : BitVec 32) (v19 : BitVec 32) (v23 : BitVec 32) (v25 : BitVec 32) (v36 : BitVec 32) (v388 : BitVec 32) (v389 : BitVec 32),
  iprop(□ (flatInv m K c ∗ flatReached (F := F) c) ∗ levAts L lv ∗ pre_13 m c W o)
    ⊢ wp frame (wpE (defs₀ (F := F)) 𝒱₀ (c : Thread nD τ) none) Set.univ
        (k0_part13 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v8 v19 v23 v25 v36 v388 v389)
        (fun r => iprop(post_13 m c W o ∗ ⌜ret_13 c r⌝))

def pre_14 (c : Dev nD) (W : Waits sig Unit) (o : oM.view.ty.Contents (Elt F)) : sProp 𝕄 :=
  iprop(((chk yB 4).view.loc (c : Thread nD τ) ↦[(chk yB 4).view.set]{qA} Ych m c 4)
    ∗ dutyTok ER (dcell c ⟨22, by decide⟩) 0 0
    ∗ dutyTok ER (dcell (px c) ⟨30, by decide⟩) 0 0
    ∗ (∃ f : (chk xB 4).view.ty.Contents (Elt F), ((chk xB 4).view.loc (px c : Thread nD τ) ↦[(chk xB 4).view.set]{fullShare} f))
    ∗ ((chk yB 4).view.loc (c : Thread nD τ) ↦[(chk yB 4).view.set]{qB} Ych m c 4)
    ∗ dutyTok ER (dcell c ⟨38, by decide⟩) 0 0
    ∗ dutyTok ER (dcell (pz c) ⟨46, by decide⟩) 0 0
    ∗ (∃ f : (chk zB 4).view.ty.Contents (Elt F), ((chk zB 4).view.loc (pz c : Thread nD τ) ↦[(chk zB 4).view.set]{fullShare} f))
    ∗ (xM.view.loc (c : Thread nD τ) ↦[xM.view.set]{xqL} xstg m c)
    ∗ ((chk yB 4).view.loc (c : Thread nD τ) ↦[(chk yB 4).view.set]{qC} Ych m c 4)
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N + tallyAt (dcell (pz c) ⟨49, by decide⟩) () N + tallyAt (dcell (px c) ⟨33, by decide⟩) () N + tallyAt (dcell (pz c) ⟨48, by decide⟩) () N + tallyAt (dcell (px c) ⟨32, by decide⟩) () N + tallyAt (dcell (pz c) ⟨47, by decide⟩) () N + tallyAt (dcell (px c) ⟨31, by decide⟩) () N + tallyAt (dcell (pz c) ⟨46, by decide⟩) () N + tallyAt (dcell (px c) ⟨30, by decide⟩) () N) W)

def post_14 (c : Dev nD) (W : Waits sig Unit) (o : oM.view.ty.Contents (Elt F)) : sProp 𝕄 :=
  iprop((xM.view.loc (c : Thread nD τ) ↦[xM.view.set]{xqL} xstg m c)
    ∗ ((chk yB 4).view.loc (c : Thread nD τ) ↦[(chk yB 4).view.set]{qC} Ych m c 4)
    ∗ cred (tallyAt (dcell c ⟨22, by decide⟩) () N)
    ∗ cred (tallyAt (dcell c ⟨38, by decide⟩) () N)
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N + tallyAt (dcell (pz c) ⟨49, by decide⟩) () N + tallyAt (dcell (px c) ⟨33, by decide⟩) () N + tallyAt (dcell (pz c) ⟨48, by decide⟩) () N + tallyAt (dcell (px c) ⟨32, by decide⟩) () N + tallyAt (dcell (pz c) ⟨47, by decide⟩) () N + tallyAt (dcell (px c) ⟨31, by decide⟩) () N) W)

def ret_14 (c : Dev nD) (r : (Σ' (v453 : FVec F S32x512 .f32), BitVec 32)) : Prop := r.1 = k0_pay6 (ldx m c (k0_off3 c (wk 4)) (Gen.k0_off3_inb c 4)) (ldb yB 4 (Ych m c 4))

def Spec_14 : Prop := ∀ (K : Dev nD × Fin 65 → ℕ) (c : Dev nD) (W : Waits sig Unit) (o : oM.view.ty.Contents (Elt F)) (v2 : BitVec 32) (v5 : BitVec 32) (v8 : BitVec 32) (v20 : BitVec 32) (v23 : BitVec 32) (v25 : BitVec 32) (v36 : BitVec 32) (c8_i32_301 : BitVec 32),
  iprop(□ (flatInv m K c ∗ flatReached (F := F) c) ∗ levAts L lv ∗ pre_14 m c W o)
    ⊢ wp frame (wpE (defs₀ (F := F)) 𝒱₀ (c : Thread nD τ) none) Set.univ
        (k0_part14 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v5 v8 v20 v23 v25 v36 c8_i32_301)
        (fun r => iprop(post_14 m c W o ∗ ⌜ret_14 m c r⌝))

def pre_15 (c : Dev nD) (W : Waits sig Unit) (o : oM.view.ty.Contents (Elt F)) : sProp 𝕄 :=
  iprop(atPos ER (dcell c ⟨15, by decide⟩) 0 ∅ 0
    ∗ cred (tallyAt (dcell c ⟨15, by decide⟩) () N)
    ∗ dutyTok ER (dcell c ⟨23, by decide⟩) 0 0
    ∗ dutyTok ER (dcell (px c) ⟨31, by decide⟩) 0 0
    ∗ (∃ f : (chk xB 5).view.ty.Contents (Elt F), ((chk xB 5).view.loc (px c : Thread nD τ) ↦[(chk xB 5).view.set]{fullShare} f))
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N + tallyAt (dcell (pz c) ⟨49, by decide⟩) () N + tallyAt (dcell (px c) ⟨33, by decide⟩) () N + tallyAt (dcell (pz c) ⟨48, by decide⟩) () N + tallyAt (dcell (px c) ⟨32, by decide⟩) () N + tallyAt (dcell (pz c) ⟨47, by decide⟩) () N + tallyAt (dcell (px c) ⟨31, by decide⟩) () N) W
    ∗ (oM.view.loc (c : Thread nD τ) ↦[oM.view.set]{fullShare} o))

def post_15 (c : Dev nD) (W : Waits sig Unit) (o : oM.view.ty.Contents (Elt F)) : sProp 𝕄 :=
  iprop(semVal (dcell c ⟨15, by decide⟩) 0
    ∗ ((chk yB 5).view.loc (c : Thread nD τ) ↦[(chk yB 5).view.set]{qB} Ych m c 5)
    ∗ ((chk yB 5).view.loc (c : Thread nD τ) ↦[(chk yB 5).view.set]{qC} Ych m c 5)
    ∗ cred (tallyAt (dcell c ⟨23, by decide⟩) () N)
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N + tallyAt (dcell (pz c) ⟨49, by decide⟩) () N + tallyAt (dcell (px c) ⟨33, by decide⟩) () N + tallyAt (dcell (pz c) ⟨48, by decide⟩) () N + tallyAt (dcell (px c) ⟨32, by decide⟩) () N + tallyAt (dcell (pz c) ⟨47, by decide⟩) () N) (insert (SemLoc.dma ⟨15, by decide⟩, ()) W)
    ∗ (oM.view.loc (c : Thread nD τ) ↦[oM.view.set]{fullShare} (stC m c 4 o)))

def ret_15 (c : Dev nD) (r : (PUnit)) : Prop := True

def Spec_15 : Prop := ∀ (K : Dev nD × Fin 65 → ℕ) (c : Dev nD) (W : Waits sig Unit) (o : oM.view.ty.Contents (Elt F)) (v2 : BitVec 32) (v5 : BitVec 32) (v8 : BitVec 32) (v19 : BitVec 32) (v20 : BitVec 32) (v23 : BitVec 32) (v455 : BitVec 32),
  iprop(□ (flatInv m K c ∗ flatReached (F := F) c) ∗ levAts L lv ∗ pre_15 (F := F) c W o)
    ⊢ wp frame (wpE (defs₀ (F := F)) 𝒱₀ (c : Thread nD τ) none) Set.univ
        (k0_part15 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v5 v8 v19 v20 v23 (k0_pay6 (ldx m c (k0_off3 c (wk 4)) (Gen.k0_off3_inb c 4)) (ldb yB 4 (Ych m c 4))) v455)
        (fun r => iprop(post_15 m c W o ∗ ⌜ret_15 c r⌝))

def pre_16 (c : Dev nD) (W : Waits sig Unit) (o : oM.view.ty.Contents (Elt F)) : sProp 𝕄 :=
  iprop(((chk yB 5).view.loc (c : Thread nD τ) ↦[(chk yB 5).view.set]{qB} Ych m c 5)
    ∗ dutyTok ER (dcell c ⟨39, by decide⟩) 0 0
    ∗ dutyTok ER (dcell (pz c) ⟨47, by decide⟩) 0 0
    ∗ (∃ f : (chk zB 5).view.ty.Contents (Elt F), ((chk zB 5).view.loc (pz c : Thread nD τ) ↦[(chk zB 5).view.set]{fullShare} f))
    ∗ (xM.view.loc (c : Thread nD τ) ↦[xM.view.set]{xqL} xstg m c)
    ∗ ((chk yB 5).view.loc (c : Thread nD τ) ↦[(chk yB 5).view.set]{qC} Ych m c 5)
    ∗ atPos ER (dcell c ⟨16, by decide⟩) 0 ∅ 0
    ∗ cred (tallyAt (dcell c ⟨16, by decide⟩) () N)
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N + tallyAt (dcell (pz c) ⟨49, by decide⟩) () N + tallyAt (dcell (px c) ⟨33, by decide⟩) () N + tallyAt (dcell (pz c) ⟨48, by decide⟩) () N + tallyAt (dcell (px c) ⟨32, by decide⟩) () N + tallyAt (dcell (pz c) ⟨47, by decide⟩) () N) W
    ∗ (oM.view.loc (c : Thread nD τ) ↦[oM.view.set]{fullShare} o))

def post_16 (c : Dev nD) (W : Waits sig Unit) (o : oM.view.ty.Contents (Elt F)) : sProp 𝕄 :=
  iprop((xM.view.loc (c : Thread nD τ) ↦[xM.view.set]{xqL} xstg m c)
    ∗ ((chk yB 5).view.loc (c : Thread nD τ) ↦[(chk yB 5).view.set]{qC} Ych m c 5)
    ∗ cred (tallyAt (dcell c ⟨39, by decide⟩) () N)
    ∗ semVal (dcell c ⟨16, by decide⟩) 0
    ∗ ((chk yB 6).view.loc (c : Thread nD τ) ↦[(chk yB 6).view.set]{qA} Ych m c 6)
    ∗ ((chk yB 6).view.loc (c : Thread nD τ) ↦[(chk yB 6).view.set]{qB} Ych m c 6)
    ∗ ((chk yB 6).view.loc (c : Thread nD τ) ↦[(chk yB 6).view.set]{qC} Ych m c 6)
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N + tallyAt (dcell (pz c) ⟨49, by decide⟩) () N + tallyAt (dcell (px c) ⟨33, by decide⟩) () N + tallyAt (dcell (pz c) ⟨48, by decide⟩) () N + tallyAt (dcell (px c) ⟨32, by decide⟩) () N) (insert (SemLoc.dma ⟨16, by decide⟩, ()) W)
    ∗ (oM.view.loc (c : Thread nD τ) ↦[oM.view.set]{fullShare} (stC m c 5 o)))

def ret_16 (c : Dev nD) (r : (Σ' (v517 : BitVec 32), BitVec 32)) : Prop := True

def Spec_16 : Prop := ∀ (K : Dev nD × Fin 65 → ℕ) (c : Dev nD) (W : Waits sig Unit) (o : oM.view.ty.Contents (Elt F)) (v2 : BitVec 32) (v8 : BitVec 32) (v19 : BitVec 32) (v20 : BitVec 32) (v25 : BitVec 32) (v36 : BitVec 32),
  iprop(□ (flatInv m K c ∗ flatReached (F := F) c) ∗ levAts L lv ∗ pre_16 m c W o)
    ⊢ wp frame (wpE (defs₀ (F := F)) 𝒱₀ (c : Thread nD τ) none) Set.univ
        (k0_part16 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v8 v19 v20 v25 v36)
        (fun r => iprop(post_16 m c W o ∗ ⌜ret_16 c r⌝))

def pre_17 (c : Dev nD) (W : Waits sig Unit) (o : oM.view.ty.Contents (Elt F)) : sProp 𝕄 :=
  iprop(((chk yB 6).view.loc (c : Thread nD τ) ↦[(chk yB 6).view.set]{qA} Ych m c 6)
    ∗ dutyTok ER (dcell c ⟨24, by decide⟩) 0 0
    ∗ dutyTok ER (dcell (px c) ⟨32, by decide⟩) 0 0
    ∗ (∃ f : (chk xB 6).view.ty.Contents (Elt F), ((chk xB 6).view.loc (px c : Thread nD τ) ↦[(chk xB 6).view.set]{fullShare} f))
    ∗ ((chk yB 6).view.loc (c : Thread nD τ) ↦[(chk yB 6).view.set]{qB} Ych m c 6)
    ∗ dutyTok ER (dcell c ⟨40, by decide⟩) 0 0
    ∗ dutyTok ER (dcell (pz c) ⟨48, by decide⟩) 0 0
    ∗ (∃ f : (chk zB 6).view.ty.Contents (Elt F), ((chk zB 6).view.loc (pz c : Thread nD τ) ↦[(chk zB 6).view.set]{fullShare} f))
    ∗ (xM.view.loc (c : Thread nD τ) ↦[xM.view.set]{xqL} xstg m c)
    ∗ ((chk yB 6).view.loc (c : Thread nD τ) ↦[(chk yB 6).view.set]{qC} Ych m c 6)
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N + tallyAt (dcell (pz c) ⟨49, by decide⟩) () N + tallyAt (dcell (px c) ⟨33, by decide⟩) () N + tallyAt (dcell (pz c) ⟨48, by decide⟩) () N + tallyAt (dcell (px c) ⟨32, by decide⟩) () N) W
    ∗ (oM.view.loc (c : Thread nD τ) ↦[oM.view.set]{fullShare} o))

def post_17 (c : Dev nD) (W : Waits sig Unit) (o : oM.view.ty.Contents (Elt F)) : sProp 𝕄 :=
  iprop((xM.view.loc (c : Thread nD τ) ↦[xM.view.set]{xqL} xstg m c)
    ∗ ((chk yB 6).view.loc (c : Thread nD τ) ↦[(chk yB 6).view.set]{qC} Ych m c 6)
    ∗ cred (tallyAt (dcell c ⟨24, by decide⟩) () N)
    ∗ cred (tallyAt (dcell c ⟨40, by decide⟩) () N)
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N + tallyAt (dcell (pz c) ⟨49, by decide⟩) () N + tallyAt (dcell (px c) ⟨33, by decide⟩) () N) W
    ∗ (oM.view.loc (c : Thread nD τ) ↦[oM.view.set]{fullShare} (stC m c 6 o)))

def ret_17 (c : Dev nD) (r : (PUnit)) : Prop := True

def Spec_17 : Prop := ∀ (K : Dev nD × Fin 65 → ℕ) (c : Dev nD) (W : Waits sig Unit) (o : oM.view.ty.Contents (Elt F)) (v2 : BitVec 32) (v5 : BitVec 32) (v8 : BitVec 32) (v23 : BitVec 32) (v25 : BitVec 32) (v36 : BitVec 32) (v517 : BitVec 32) (c4_i32_375 : BitVec 32),
  iprop(□ (flatInv m K c ∗ flatReached (F := F) c) ∗ levAts L lv ∗ pre_17 m c W o)
    ⊢ wp frame (wpE (defs₀ (F := F)) 𝒱₀ (c : Thread nD τ) none) Set.univ
        (k0_part17 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v5 v8 v23 v25 v36 v517 c4_i32_375)
        (fun r => iprop(post_17 m c W o ∗ ⌜ret_17 c r⌝))

def pre_18 (c : Dev nD) (W : Waits sig Unit) (o : oM.view.ty.Contents (Elt F)) : sProp 𝕄 :=
  iprop(atPos ER (dcell c ⟨17, by decide⟩) 0 ∅ 0
    ∗ cred (tallyAt (dcell c ⟨17, by decide⟩) () N)
    ∗ dutyTok ER (dcell c ⟨25, by decide⟩) 0 0
    ∗ dutyTok ER (dcell (px c) ⟨33, by decide⟩) 0 0
    ∗ (∃ f : (chk xB 7).view.ty.Contents (Elt F), ((chk xB 7).view.loc (px c : Thread nD τ) ↦[(chk xB 7).view.set]{fullShare} f))
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N + tallyAt (dcell (pz c) ⟨49, by decide⟩) () N + tallyAt (dcell (px c) ⟨33, by decide⟩) () N) W)

def post_18 (c : Dev nD) (W : Waits sig Unit) (o : oM.view.ty.Contents (Elt F)) : sProp 𝕄 :=
  iprop(semVal (dcell c ⟨17, by decide⟩) 0
    ∗ ((chk yB 7).view.loc (c : Thread nD τ) ↦[(chk yB 7).view.set]{qB} Ych m c 7)
    ∗ ((chk yB 7).view.loc (c : Thread nD τ) ↦[(chk yB 7).view.set]{qC} Ych m c 7)
    ∗ cred (tallyAt (dcell c ⟨25, by decide⟩) () N)
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N + tallyAt (dcell (pz c) ⟨49, by decide⟩) () N) (insert (SemLoc.dma ⟨17, by decide⟩, ()) W))

def ret_18 (c : Dev nD) (r : (PUnit)) : Prop := True

def Spec_18 : Prop := ∀ (K : Dev nD × Fin 65 → ℕ) (c : Dev nD) (W : Waits sig Unit) (o : oM.view.ty.Contents (Elt F)) (v2 : BitVec 32) (v5 : BitVec 32) (v8 : BitVec 32) (v19 : BitVec 32) (v20 : BitVec 32) (v23 : BitVec 32),
  iprop(□ (flatInv m K c ∗ flatReached (F := F) c) ∗ levAts L lv ∗ pre_18 (F := F) c W o)
    ⊢ wp frame (wpE (defs₀ (F := F)) 𝒱₀ (c : Thread nD τ) none) Set.univ
        (k0_part18 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v5 v8 v19 v20 v23)
        (fun r => iprop(post_18 m c W o ∗ ⌜ret_18 c r⌝))

def pre_19 (c : Dev nD) (W : Waits sig Unit) (o : oM.view.ty.Contents (Elt F)) : sProp 𝕄 :=
  iprop(((chk yB 7).view.loc (c : Thread nD τ) ↦[(chk yB 7).view.set]{qB} Ych m c 7)
    ∗ dutyTok ER (dcell c ⟨41, by decide⟩) 0 0
    ∗ dutyTok ER (dcell (pz c) ⟨49, by decide⟩) 0 0
    ∗ (∃ f : (chk zB 7).view.ty.Contents (Elt F), ((chk zB 7).view.loc (pz c : Thread nD τ) ↦[(chk zB 7).view.set]{fullShare} f))
    ∗ (xM.view.loc (c : Thread nD τ) ↦[xM.view.set]{xqL} xstg m c)
    ∗ ((chk yB 7).view.loc (c : Thread nD τ) ↦[(chk yB 7).view.set]{qC} Ych m c 7)
    ∗ atPos ER (dcell c ⟨42, by decide⟩) 0 ∅ 0
    ∗ cred (tallyAt (dcell c ⟨42, by decide⟩) () N)
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N + tallyAt (dcell (pz c) ⟨49, by decide⟩) () N) W
    ∗ (oM.view.loc (c : Thread nD τ) ↦[oM.view.set]{fullShare} o))

def post_19 (c : Dev nD) (W : Waits sig Unit) (o : oM.view.ty.Contents (Elt F)) : sProp 𝕄 :=
  iprop((xM.view.loc (c : Thread nD τ) ↦[xM.view.set]{xqL} xstg m c)
    ∗ ((chk yB 7).view.loc (c : Thread nD τ) ↦[(chk yB 7).view.set]{qC} Ych m c 7)
    ∗ cred (tallyAt (dcell c ⟨41, by decide⟩) () N)
    ∗ semVal (dcell c ⟨42, by decide⟩) 0
    ∗ ((chk zB 0).view.loc (c : Thread nD τ) ↦[(chk zB 0).view.set]{fullShare} Zch m c 0)
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N) (insert (SemLoc.dma ⟨42, by decide⟩, ()) W)
    ∗ (oM.view.loc (c : Thread nD τ) ↦[oM.view.set]{fullShare} (stC m c 7 o)))

def ret_19 (c : Dev nD) (r : (FVec F S32x512 .f32)) : Prop := r = k0_pay10 (ldx m c (k0_off5 c (wk 0)) (Gen.k0_off5_inb c 0))

def Spec_19 : Prop := ∀ (K : Dev nD × Fin 65 → ℕ) (c : Dev nD) (W : Waits sig Unit) (o : oM.view.ty.Contents (Elt F)) (v2 : BitVec 32) (v5 : BitVec 32) (v23 : BitVec 32) (v25 : BitVec 32) (v31 : BitVec 32) (v36 : BitVec 32),
  iprop(□ (flatInv m K c ∗ flatReached (F := F) c) ∗ levAts L lv ∗ pre_19 m c W o)
    ⊢ wp frame (wpE (defs₀ (F := F)) 𝒱₀ (c : Thread nD τ) none) Set.univ
        (k0_part19 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v5 v23 v25 v31 v36)
        (fun r => iprop(post_19 m c W o ∗ ⌜ret_19 m c r⌝))

def pre_20 (c : Dev nD) (W : Waits sig Unit) (o : oM.view.ty.Contents (Elt F)) : sProp 𝕄 :=
  iprop(((chk zB 0).view.loc (c : Thread nD τ) ↦[(chk zB 0).view.set]{fullShare} Zch m c 0)
    ∗ atPos ER (dcell c ⟨26, by decide⟩) 0 ∅ 0
    ∗ cred (tallyAt (dcell c ⟨26, by decide⟩) () N)
    ∗ (xM.view.loc (c : Thread nD τ) ↦[xM.view.set]{xqL} xstg m c)
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N) W
    ∗ (oM.view.loc (c : Thread nD τ) ↦[oM.view.set]{fullShare} o))

def post_20 (c : Dev nD) (W : Waits sig Unit) (o : oM.view.ty.Contents (Elt F)) : sProp 𝕄 :=
  iprop(((chk zB 0).view.loc (c : Thread nD τ) ↦[(chk zB 0).view.set]{fullShare} Zch m c 0)
    ∗ (xM.view.loc (c : Thread nD τ) ↦[xM.view.set]{xqL} xstg m c)
    ∗ semVal (dcell c ⟨26, by decide⟩) 0
    ∗ ((chk xB 0).view.loc (c : Thread nD τ) ↦[(chk xB 0).view.set]{fullShare} Xch m c 0)
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N) (insert (SemLoc.dma ⟨26, by decide⟩, ()) W)
    ∗ (oM.view.loc (c : Thread nD τ) ↦[oM.view.set]{fullShare} (stX m c 0 (stZ m c 0 o))))

def ret_20 (c : Dev nD) (r : (Σ' (v644 : BitVec 32), BitVec 32)) : Prop := True

def Spec_20 : Prop := ∀ (K : Dev nD × Fin 65 → ℕ) (c : Dev nD) (W : Waits sig Unit) (o : oM.view.ty.Contents (Elt F)) (v2 : BitVec 32) (v5 : BitVec 32) (v8 : BitVec 32) (v20 : BitVec 32) (v28 : BitVec 32) (v31 : BitVec 32) (v36 : BitVec 32),
  iprop(□ (flatInv m K c ∗ flatReached (F := F) c) ∗ levAts L lv ∗ pre_20 m c W o)
    ⊢ wp frame (wpE (defs₀ (F := F)) 𝒱₀ (c : Thread nD τ) none) Set.univ
        (k0_part20 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v5 v8 v20 v28 v31 v36 (k0_pay10 (ldx m c (k0_off5 c (wk 0)) (Gen.k0_off5_inb c 0))))
        (fun r => iprop(post_20 m c W o ∗ ⌜ret_20 c r⌝))

def pre_21 (c : Dev nD) (W : Waits sig Unit) (o : oM.view.ty.Contents (Elt F)) : sProp 𝕄 :=
  iprop(atPos ER (dcell c ⟨43, by decide⟩) 0 ∅ 0
    ∗ cred (tallyAt (dcell c ⟨43, by decide⟩) () N)
    ∗ (xM.view.loc (c : Thread nD τ) ↦[xM.view.set]{xqL} xstg m c)
    ∗ atPos ER (dcell c ⟨27, by decide⟩) 0 ∅ 0
    ∗ cred (tallyAt (dcell c ⟨27, by decide⟩) () N)
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N) W
    ∗ (oM.view.loc (c : Thread nD τ) ↦[oM.view.set]{fullShare} o))

def post_21 (c : Dev nD) (W : Waits sig Unit) (o : oM.view.ty.Contents (Elt F)) : sProp 𝕄 :=
  iprop((xM.view.loc (c : Thread nD τ) ↦[xM.view.set]{xqL} xstg m c)
    ∗ semVal (dcell c ⟨43, by decide⟩) 0
    ∗ ((chk zB 1).view.loc (c : Thread nD τ) ↦[(chk zB 1).view.set]{fullShare} Zch m c 1)
    ∗ semVal (dcell c ⟨27, by decide⟩) 0
    ∗ ((chk xB 1).view.loc (c : Thread nD τ) ↦[(chk xB 1).view.set]{fullShare} Xch m c 1)
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N) (insert (SemLoc.dma ⟨27, by decide⟩, ()) (insert (SemLoc.dma ⟨43, by decide⟩, ()) W))
    ∗ (oM.view.loc (c : Thread nD τ) ↦[oM.view.set]{fullShare} (stZ m c 1 o)))

def ret_21 (c : Dev nD) (r : (BitVec 32)) : Prop := True

def Spec_21 : Prop := ∀ (K : Dev nD × Fin 65 → ℕ) (c : Dev nD) (W : Waits sig Unit) (o : oM.view.ty.Contents (Elt F)) (v5 : BitVec 32) (v8 : BitVec 32) (v20 : BitVec 32) (v23 : BitVec 32) (v28 : BitVec 32) (v31 : BitVec 32) (v36 : BitVec 32) (v644 : BitVec 32) (v645 : BitVec 32),
  iprop(□ (flatInv m K c ∗ flatReached (F := F) c) ∗ levAts L lv ∗ pre_21 m c W o)
    ⊢ wp frame (wpE (defs₀ (F := F)) 𝒱₀ (c : Thread nD τ) none) Set.univ
        (k0_part21 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 c v5 v8 v20 v23 v28 v31 v36 v644 v645)
        (fun r => iprop(post_21 m c W o ∗ ⌜ret_21 c r⌝))

def pre_22 (c : Dev nD) (W : Waits sig Unit) (o : oM.view.ty.Contents (Elt F)) : sProp 𝕄 :=
  iprop((xM.view.loc (c : Thread nD τ) ↦[xM.view.set]{xqL} xstg m c)
    ∗ ((chk xB 1).view.loc (c : Thread nD τ) ↦[(chk xB 1).view.set]{fullShare} Xch m c 1)
    ∗ atPos ER (dcell c ⟨44, by decide⟩) 0 ∅ 0
    ∗ cred (tallyAt (dcell c ⟨44, by decide⟩) () N)
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N) W
    ∗ (oM.view.loc (c : Thread nD τ) ↦[oM.view.set]{fullShare} o))

def post_22 (c : Dev nD) (W : Waits sig Unit) (o : oM.view.ty.Contents (Elt F)) : sProp 𝕄 :=
  iprop((xM.view.loc (c : Thread nD τ) ↦[xM.view.set]{xqL} xstg m c)
    ∗ ((chk xB 1).view.loc (c : Thread nD τ) ↦[(chk xB 1).view.set]{fullShare} Xch m c 1)
    ∗ semVal (dcell c ⟨44, by decide⟩) 0
    ∗ ((chk zB 2).view.loc (c : Thread nD τ) ↦[(chk zB 2).view.set]{fullShare} Zch m c 2)
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N) (insert (SemLoc.dma ⟨44, by decide⟩, ()) W)
    ∗ (oM.view.loc (c : Thread nD τ) ↦[oM.view.set]{fullShare} (stZ m c 2 (stX m c 1 o))))

def ret_22 (c : Dev nD) (r : (PUnit)) : Prop := True

def Spec_22 : Prop := ∀ (K : Dev nD × Fin 65 → ℕ) (c : Dev nD) (W : Waits sig Unit) (o : oM.view.ty.Contents (Elt F)) (v2 : BitVec 32) (v5 : BitVec 32) (v23 : BitVec 32) (v28 : BitVec 32) (v31 : BitVec 32) (v36 : BitVec 32) (v676 : BitVec 32),
  iprop(□ (flatInv m K c ∗ flatReached (F := F) c) ∗ levAts L lv ∗ pre_22 m c W o)
    ⊢ wp frame (wpE (defs₀ (F := F)) 𝒱₀ (c : Thread nD τ) none) Set.univ
        (k0_part22 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v5 v23 v28 v31 v36 v676)
        (fun r => iprop(post_22 m c W o ∗ ⌜ret_22 c r⌝))

def pre_23 (c : Dev nD) (W : Waits sig Unit) (o : oM.view.ty.Contents (Elt F)) : sProp 𝕄 :=
  iprop(atPos ER (dcell c ⟨28, by decide⟩) 0 ∅ 0
    ∗ cred (tallyAt (dcell c ⟨28, by decide⟩) () N)
    ∗ (xM.view.loc (c : Thread nD τ) ↦[xM.view.set]{xqL} xstg m c)
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N) W
    ∗ (oM.view.loc (c : Thread nD τ) ↦[oM.view.set]{fullShare} o))

def post_23 (c : Dev nD) (W : Waits sig Unit) (o : oM.view.ty.Contents (Elt F)) : sProp 𝕄 :=
  iprop((xM.view.loc (c : Thread nD τ) ↦[xM.view.set]{xqL} xstg m c)
    ∗ semVal (dcell c ⟨28, by decide⟩) 0
    ∗ ((chk xB 2).view.loc (c : Thread nD τ) ↦[(chk xB 2).view.set]{fullShare} Xch m c 2)
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N) (insert (SemLoc.dma ⟨28, by decide⟩, ()) W)
    ∗ (oM.view.loc (c : Thread nD τ) ↦[oM.view.set]{fullShare} (stX m c 2 o)))

def ret_23 (c : Dev nD) (r : (PUnit)) : Prop := True

def Spec_23 : Prop := ∀ (K : Dev nD × Fin 65 → ℕ) (c : Dev nD) (W : Waits sig Unit) (o : oM.view.ty.Contents (Elt F)) (v2 : BitVec 32) (v5 : BitVec 32) (v8 : BitVec 32) (v20 : BitVec 32) (v23 : BitVec 32) (v28 : BitVec 32) (v36 : BitVec 32),
  iprop(□ (flatInv m K c ∗ flatReached (F := F) c) ∗ levAts L lv ∗ pre_23 m c W o)
    ⊢ wp frame (wpE (defs₀ (F := F)) 𝒱₀ (c : Thread nD τ) none) Set.univ
        (k0_part23 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v5 v8 v20 v23 v28 v36)
        (fun r => iprop(post_23 m c W o ∗ ⌜ret_23 c r⌝))

def pre_24 (c : Dev nD) (W : Waits sig Unit) (o : oM.view.ty.Contents (Elt F)) : sProp 𝕄 :=
  iprop(atPos ER (dcell c ⟨45, by decide⟩) 0 ∅ 0
    ∗ cred (tallyAt (dcell c ⟨45, by decide⟩) () N)
    ∗ dutyTok ER (dcell c ⟨50, by decide⟩) 0 0
    ∗ dutyTok ER (dcell (px c) ⟨55, by decide⟩) 0 0
    ∗ (∃ f : (chk dB 3).view.ty.Contents (Elt F), ((chk dB 3).view.loc (px c : Thread nD τ) ↦[(chk dB 3).view.set]{fullShare} f))
    ∗ (xM.view.loc (c : Thread nD τ) ↦[xM.view.set]{xqL} xstg m c)
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N) W
    ∗ (oM.view.loc (c : Thread nD τ) ↦[oM.view.set]{fullShare} o))

def post_24 (c : Dev nD) (W : Waits sig Unit) (o : oM.view.ty.Contents (Elt F)) : sProp 𝕄 :=
  iprop((xM.view.loc (c : Thread nD τ) ↦[xM.view.set]{xqL} xstg m c)
    ∗ semVal (dcell c ⟨45, by decide⟩) 0
    ∗ ((chk zB 3).view.loc (c : Thread nD τ) ↦[(chk zB 3).view.set]{rsh 1} Zch m c 3)
    ∗ cred (tallyAt (dcell c ⟨50, by decide⟩) () N)
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N) (insert (SemLoc.dma ⟨45, by decide⟩, ()) W)
    ∗ (oM.view.loc (c : Thread nD τ) ↦[oM.view.set]{fullShare} (stZ m c 3 o)))

def ret_24 (c : Dev nD) (r : (PUnit)) : Prop := True

def Spec_24 : Prop := ∀ (K : Dev nD × Fin 65 → ℕ) (c : Dev nD) (W : Waits sig Unit) (o : oM.view.ty.Contents (Elt F)) (v5 : BitVec 32) (v8 : BitVec 32) (v20 : BitVec 32) (v31 : BitVec 32) (v36 : BitVec 32),
  iprop(□ (flatInv m K c ∗ flatReached (F := F) c) ∗ levAts L lv ∗ pre_24 m c W o)
    ⊢ wp frame (wpE (defs₀ (F := F)) 𝒱₀ (c : Thread nD τ) none) Set.univ
        (k0_part24 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 c v5 v8 v20 v31 v36)
        (fun r => iprop(post_24 m c W o ∗ ⌜ret_24 c r⌝))

def pre_25 (c : Dev nD) (W : Waits sig Unit) (o : oM.view.ty.Contents (Elt F)) : sProp 𝕄 :=
  iprop(atPos ER (dcell c ⟨29, by decide⟩) 0 ∅ 0
    ∗ cred (tallyAt (dcell c ⟨29, by decide⟩) () N)
    ∗ (xM.view.loc (c : Thread nD τ) ↦[xM.view.set]{xqL} xstg m c)
    ∗ atPos ER (dcell c ⟨46, by decide⟩) 0 ∅ 0
    ∗ cred (tallyAt (dcell c ⟨46, by decide⟩) () N)
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N) W
    ∗ (oM.view.loc (c : Thread nD τ) ↦[oM.view.set]{fullShare} o))

def post_25 (c : Dev nD) (W : Waits sig Unit) (o : oM.view.ty.Contents (Elt F)) : sProp 𝕄 :=
  iprop((xM.view.loc (c : Thread nD τ) ↦[xM.view.set]{xqL} xstg m c)
    ∗ semVal (dcell c ⟨29, by decide⟩) 0
    ∗ ((chk xB 3).view.loc (c : Thread nD τ) ↦[(chk xB 3).view.set]{fullShare} Xch m c 3)
    ∗ semVal (dcell c ⟨46, by decide⟩) 0
    ∗ ((chk zB 4).view.loc (c : Thread nD τ) ↦[(chk zB 4).view.set]{qA} Zch m c 4)
    ∗ ((chk zB 4).view.loc (c : Thread nD τ) ↦[(chk zB 4).view.set]{rsh 1} Zch m c 4)
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N) (insert (SemLoc.dma ⟨46, by decide⟩, ()) (insert (SemLoc.dma ⟨29, by decide⟩, ()) W))
    ∗ (oM.view.loc (c : Thread nD τ) ↦[oM.view.set]{fullShare} (stX m c 3 o)))

def ret_25 (c : Dev nD) (r : (PUnit)) : Prop := True

def Spec_25 : Prop := ∀ (K : Dev nD × Fin 65 → ℕ) (c : Dev nD) (W : Waits sig Unit) (o : oM.view.ty.Contents (Elt F)) (v2 : BitVec 32) (v5 : BitVec 32) (v8 : BitVec 32) (v20 : BitVec 32) (v23 : BitVec 32) (v28 : BitVec 32) (v36 : BitVec 32),
  iprop(□ (flatInv m K c ∗ flatReached (F := F) c) ∗ levAts L lv ∗ pre_25 m c W o)
    ⊢ wp frame (wpE (defs₀ (F := F)) 𝒱₀ (c : Thread nD τ) none) Set.univ
        (k0_part25 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v5 v8 v20 v23 v28 v36)
        (fun r => iprop(post_25 m c W o ∗ ⌜ret_25 c r⌝))

def pre_26 (c : Dev nD) (W : Waits sig Unit) (o : oM.view.ty.Contents (Elt F)) : sProp 𝕄 :=
  iprop(((chk zB 4).view.loc (c : Thread nD τ) ↦[(chk zB 4).view.set]{qA} Zch m c 4)
    ∗ dutyTok ER (dcell c ⟨51, by decide⟩) 0 0
    ∗ dutyTok ER (dcell (px c) ⟨56, by decide⟩) 0 0
    ∗ (∃ f : (chk dB 4).view.ty.Contents (Elt F), ((chk dB 4).view.loc (px c : Thread nD τ) ↦[(chk dB 4).view.set]{fullShare} f))
    ∗ (xM.view.loc (c : Thread nD τ) ↦[xM.view.set]{xqL} xstg m c)
    ∗ ((chk zB 4).view.loc (c : Thread nD τ) ↦[(chk zB 4).view.set]{rsh 1} Zch m c 4)
    ∗ atPos ER (dcell c ⟨30, by decide⟩) 0 ∅ 0
    ∗ cred (tallyAt (dcell c ⟨30, by decide⟩) () N)
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N) W
    ∗ (oM.view.loc (c : Thread nD τ) ↦[oM.view.set]{fullShare} o))

def post_26 (c : Dev nD) (W : Waits sig Unit) (o : oM.view.ty.Contents (Elt F)) : sProp 𝕄 :=
  iprop((xM.view.loc (c : Thread nD τ) ↦[xM.view.set]{xqL} xstg m c)
    ∗ ((chk zB 4).view.loc (c : Thread nD τ) ↦[(chk zB 4).view.set]{rsh 1} Zch m c 4)
    ∗ cred (tallyAt (dcell c ⟨51, by decide⟩) () N)
    ∗ semVal (dcell c ⟨30, by decide⟩) 0
    ∗ ((chk xB 4).view.loc (c : Thread nD τ) ↦[(chk xB 4).view.set]{fullShare} Xch m c 4)
    ∗ owes (c : Thread nD τ) (0 + tallyAt (dcell (pz c) ⟨59, by decide⟩) () N + tallyAt (dcell (pz c) ⟨58, by decide⟩) () N + tallyAt (dcell (px c) ⟨57, by decide⟩) () N) (insert (SemLoc.dma ⟨30, by decide⟩, ()) W)
    ∗ (oM.view.loc (c : Thread nD τ) ↦[oM.view.set]{fullShare} (stZ m c 4 o)))

def ret_26 (c : Dev nD) (r : (PUnit)) : Prop := True

def Spec_26 : Prop := ∀ (K : Dev nD × Fin 65 → ℕ) (c : Dev nD) (W : Waits sig Unit) (o : oM.view.ty.Contents (Elt F)) (v5 : BitVec 32) (v8 : BitVec 32) (v20 : BitVec 32) (v28 : BitVec 32) (v31 : BitVec 32) (v36 : BitVec 32),
  iprop(□ (flatInv m K c ∗ flatReached (F := F) c) ∗ levAts L lv ∗ pre_26 m c W o)
    ⊢ wp frame (wpE (defs₀ (F := F)) 𝒱₀ (c : Thread nD τ) none) Set.univ
        (k0_part26 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 c v5 v8 v20 v28 v31 v36)
        (fun r => iprop(post_26 m c W o ∗ ⌜ret_26 c r⌝))

def pre_27 (c : Dev nD) (W : Waits sig Unit) (o : oM.view.ty.Contents (Elt F)) : sProp 𝕄 :=
  iprop((xM.view.loc (c : Thread nD τ) ↦[xM.view.set]{xqL} xstg m c)
    ∗ ((chk xB 4).view.loc (c : Thread nD τ) ↦[(chk xB 4).view.set]{fullShare} Xch m c 4)
    ∗ atPos ER (dcell c ⟨47, by decide⟩) 0 ∅ 0
    ∗ cred (tallyAt (dcell c ⟨47, by decide⟩) () N)
    ∗ dutyTok ER (dcell c ⟨52, by decide⟩) 0 0
    ∗ dutyTok ER (dcell (px c) ⟨57, by decide⟩) 0 0
    ∗ (∃ f : (chk dB 5).view.ty.Contents (Elt F), ((chk dB 5).view.loc (px c : Thread nD τ) ↦[(chk dB 5).view.set]{fullShare} f))
    ∗ owes (c : Thread nD τ) (0 + tallyAt (dcell (pz c) ⟨59, by decide⟩) () N + tallyAt (dcell (pz c) ⟨58, by decide⟩) () N + tallyAt (dcell (px c) ⟨57, by decide⟩) () N) W
    ∗ (oM.view.loc (c : Thread nD τ) ↦[oM.view.set]{fullShare} o))

def post_27 (c : Dev nD) (W : Waits sig Unit) (o : oM.view.ty.Contents (Elt F)) : sProp 𝕄 :=
  iprop((xM.view.loc (c : Thread nD τ) ↦[xM.view.set]{xqL} xstg m c)
    ∗ ((chk xB 4).view.loc (c : Thread nD τ) ↦[(chk xB 4).view.set]{fullShare} Xch m c 4)
    ∗ semVal (dcell c ⟨47, by decide⟩) 0
    ∗ ((chk zB 5).view.loc (c : Thread nD τ) ↦[(chk zB 5).view.set]{rsh 1} Zch m c 5)
    ∗ cred (tallyAt (dcell c ⟨52, by decide⟩) () N)
    ∗ owes (c : Thread nD τ) (0 + tallyAt (dcell (pz c) ⟨59, by decide⟩) () N + tallyAt (dcell (pz c) ⟨58, by decide⟩) () N) (insert (SemLoc.dma ⟨47, by decide⟩, ()) W)
    ∗ (oM.view.loc (c : Thread nD τ) ↦[oM.view.set]{fullShare} (stX m c 4 o)))

def ret_27 (c : Dev nD) (r : (BitVec 32)) : Prop := True

def Spec_27 : Prop := ∀ (K : Dev nD × Fin 65 → ℕ) (c : Dev nD) (W : Waits sig Unit) (o : oM.view.ty.Contents (Elt F)) (v2 : BitVec 32) (v5 : BitVec 32) (v8 : BitVec 32) (v20 : BitVec 32) (v23 : BitVec 32) (v28 : BitVec 32) (v31 : BitVec 32),
  iprop(□ (flatInv m K c ∗ flatReached (F := F) c) ∗ levAts L lv ∗ pre_27 m c W o)
    ⊢ wp frame (wpE (defs₀ (F := F)) 𝒱₀ (c : Thread nD τ) none) Set.univ
        (k0_part27 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v5 v8 v20 v23 v28 v31)
        (fun r => iprop(post_27 m c W o ∗ ⌜ret_27 c r⌝))

def pre_28 (c : Dev nD) (W : Waits sig Unit) (o : oM.view.ty.Contents (Elt F)) : sProp 𝕄 :=
  iprop((xM.view.loc (c : Thread nD τ) ↦[xM.view.set]{xqL} xstg m c)
    ∗ ((chk zB 5).view.loc (c : Thread nD τ) ↦[(chk zB 5).view.set]{rsh 1} Zch m c 5)
    ∗ atPos ER (dcell c ⟨31, by decide⟩) 0 ∅ 0
    ∗ cred (tallyAt (dcell c ⟨31, by decide⟩) () N)
    ∗ owes (c : Thread nD τ) (0 + tallyAt (dcell (pz c) ⟨59, by decide⟩) () N + tallyAt (dcell (pz c) ⟨58, by decide⟩) () N) W
    ∗ (oM.view.loc (c : Thread nD τ) ↦[oM.view.set]{fullShare} o))

def post_28 (c : Dev nD) (W : Waits sig Unit) (o : oM.view.ty.Contents (Elt F)) : sProp 𝕄 :=
  iprop((xM.view.loc (c : Thread nD τ) ↦[xM.view.set]{xqL} xstg m c)
    ∗ ((chk zB 5).view.loc (c : Thread nD τ) ↦[(chk zB 5).view.set]{rsh 1} Zch m c 5)
    ∗ semVal (dcell c ⟨31, by decide⟩) 0
    ∗ ((chk xB 5).view.loc (c : Thread nD τ) ↦[(chk xB 5).view.set]{fullShare} Xch m c 5)
    ∗ owes (c : Thread nD τ) (0 + tallyAt (dcell (pz c) ⟨59, by decide⟩) () N + tallyAt (dcell (pz c) ⟨58, by decide⟩) () N) (insert (SemLoc.dma ⟨31, by decide⟩, ()) W)
    ∗ (oM.view.loc (c : Thread nD τ) ↦[oM.view.set]{fullShare} (stZ m c 5 o)))

def ret_28 (c : Dev nD) (r : (FVec F S32x512 .f32)) : Prop := r = k0_pay22 (ldx m c (k0_off7 c (wk 5)) (Gen.k0_off7_inb c 5)) (ldb xB 5 (Xch m c 5))

def Spec_28 : Prop := ∀ (K : Dev nD × Fin 65 → ℕ) (c : Dev nD) (W : Waits sig Unit) (o : oM.view.ty.Contents (Elt F)) (v5 : BitVec 32) (v8 : BitVec 32) (v20 : BitVec 32) (v28 : BitVec 32) (v31 : BitVec 32) (v36 : BitVec 32) (v865 : BitVec 32),
  iprop(□ (flatInv m K c ∗ flatReached (F := F) c) ∗ levAts L lv ∗ pre_28 m c W o)
    ⊢ wp frame (wpE (defs₀ (F := F)) 𝒱₀ (c : Thread nD τ) none) Set.univ
        (k0_part28 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 c v5 v8 v20 v28 v31 v36 v865)
        (fun r => iprop(post_28 m c W o ∗ ⌜ret_28 m c r⌝))

def pre_29 (c : Dev nD) (W : Waits sig Unit) (o : oM.view.ty.Contents (Elt F)) : sProp 𝕄 :=
  iprop(atPos ER (dcell c ⟨48, by decide⟩) 0 ∅ 0
    ∗ cred (tallyAt (dcell c ⟨48, by decide⟩) () N)
    ∗ (xM.view.loc (c : Thread nD τ) ↦[xM.view.set]{xqL} xstg m c)
    ∗ owes (c : Thread nD τ) (0 + tallyAt (dcell (pz c) ⟨59, by decide⟩) () N + tallyAt (dcell (pz c) ⟨58, by decide⟩) () N) W
    ∗ (oM.view.loc (c : Thread nD τ) ↦[oM.view.set]{fullShare} o))

def post_29 (c : Dev nD) (W : Waits sig Unit) (o : oM.view.ty.Contents (Elt F)) : sProp 𝕄 :=
  iprop((xM.view.loc (c : Thread nD τ) ↦[xM.view.set]{xqL} xstg m c)
    ∗ semVal (dcell c ⟨48, by decide⟩) 0
    ∗ ((chk zB 6).view.loc (c : Thread nD τ) ↦[(chk zB 6).view.set]{fullShare} Zch m c 6)
    ∗ owes (c : Thread nD τ) (0 + tallyAt (dcell (pz c) ⟨59, by decide⟩) () N + tallyAt (dcell (pz c) ⟨58, by decide⟩) () N) (insert (SemLoc.dma ⟨48, by decide⟩, ()) W)
    ∗ (oM.view.loc (c : Thread nD τ) ↦[oM.view.set]{fullShare} (stZ m c 6 (stX m c 5 o))))

def ret_29 (c : Dev nD) (r : (PUnit)) : Prop := True

def Spec_29 : Prop := ∀ (K : Dev nD × Fin 65 → ℕ) (c : Dev nD) (W : Waits sig Unit) (o : oM.view.ty.Contents (Elt F)) (v2 : BitVec 32) (v5 : BitVec 32) (v8 : BitVec 32) (v20 : BitVec 32) (v23 : BitVec 32) (v31 : BitVec 32) (v36 : BitVec 32),
  iprop(□ (flatInv m K c ∗ flatReached (F := F) c) ∗ levAts L lv ∗ pre_29 m c W o)
    ⊢ wp frame (wpE (defs₀ (F := F)) 𝒱₀ (c : Thread nD τ) none) Set.univ
        (k0_part29 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v5 v8 v20 v23 v31 v36 (k0_pay22 (ldx m c (k0_off7 c (wk 5)) (Gen.k0_off7_inb c 5)) (ldb xB 5 (Xch m c 5))))
        (fun r => iprop(post_29 m c W o ∗ ⌜ret_29 c r⌝))

def pre_30 (c : Dev nD) (W : Waits sig Unit) (o : oM.view.ty.Contents (Elt F)) : sProp 𝕄 :=
  iprop(atPos ER (dcell c ⟨32, by decide⟩) 0 ∅ 0
    ∗ cred (tallyAt (dcell c ⟨32, by decide⟩) () N)
    ∗ dutyTok ER (dcell c ⟨53, by decide⟩) 0 0
    ∗ dutyTok ER (dcell (pz c) ⟨58, by decide⟩) 0 0
    ∗ (∃ f : (chk dB 6).view.ty.Contents (Elt F), ((chk dB 6).view.loc (pz c : Thread nD τ) ↦[(chk dB 6).view.set]{fullShare} f))
    ∗ (xM.view.loc (c : Thread nD τ) ↦[xM.view.set]{xqL} xstg m c)
    ∗ owes (c : Thread nD τ) (0 + tallyAt (dcell (pz c) ⟨59, by decide⟩) () N + tallyAt (dcell (pz c) ⟨58, by decide⟩) () N) W
    ∗ (oM.view.loc (c : Thread nD τ) ↦[oM.view.set]{fullShare} o))

def post_30 (c : Dev nD) (W : Waits sig Unit) (o : oM.view.ty.Contents (Elt F)) : sProp 𝕄 :=
  iprop((xM.view.loc (c : Thread nD τ) ↦[xM.view.set]{xqL} xstg m c)
    ∗ semVal (dcell c ⟨32, by decide⟩) 0
    ∗ ((chk xB 6).view.loc (c : Thread nD τ) ↦[(chk xB 6).view.set]{rsh 1} Xch m c 6)
    ∗ cred (tallyAt (dcell c ⟨53, by decide⟩) () N)
    ∗ owes (c : Thread nD τ) (0 + tallyAt (dcell (pz c) ⟨59, by decide⟩) () N) (insert (SemLoc.dma ⟨32, by decide⟩, ()) W)
    ∗ (oM.view.loc (c : Thread nD τ) ↦[oM.view.set]{fullShare} (stX m c 6 o)))

def ret_30 (c : Dev nD) (r : (PUnit)) : Prop := True

def Spec_30 : Prop := ∀ (K : Dev nD × Fin 65 → ℕ) (c : Dev nD) (W : Waits sig Unit) (o : oM.view.ty.Contents (Elt F)) (v2 : BitVec 32) (v5 : BitVec 32) (v23 : BitVec 32) (v28 : BitVec 32) (v36 : BitVec 32),
  iprop(□ (flatInv m K c ∗ flatReached (F := F) c) ∗ levAts L lv ∗ pre_30 m c W o)
    ⊢ wp frame (wpE (defs₀ (F := F)) 𝒱₀ (c : Thread nD τ) none) Set.univ
        (k0_part30 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v5 v23 v28 v36)
        (fun r => iprop(post_30 m c W o ∗ ⌜ret_30 c r⌝))

def pre_31 (c : Dev nD) (W : Waits sig Unit) (o : oM.view.ty.Contents (Elt F)) : sProp 𝕄 :=
  iprop(atPos ER (dcell c ⟨49, by decide⟩) 0 ∅ 0
    ∗ cred (tallyAt (dcell c ⟨49, by decide⟩) () N)
    ∗ (xM.view.loc (c : Thread nD τ) ↦[xM.view.set]{xqL} xstg m c)
    ∗ atPos ER (dcell c ⟨33, by decide⟩) 0 ∅ 0
    ∗ cred (tallyAt (dcell c ⟨33, by decide⟩) () N)
    ∗ owes (c : Thread nD τ) (0 + tallyAt (dcell (pz c) ⟨59, by decide⟩) () N) W
    ∗ (oM.view.loc (c : Thread nD τ) ↦[oM.view.set]{fullShare} o))

def post_31 (c : Dev nD) (W : Waits sig Unit) (o : oM.view.ty.Contents (Elt F)) : sProp 𝕄 :=
  iprop((xM.view.loc (c : Thread nD τ) ↦[xM.view.set]{xqL} xstg m c)
    ∗ semVal (dcell c ⟨49, by decide⟩) 0
    ∗ ((chk zB 7).view.loc (c : Thread nD τ) ↦[(chk zB 7).view.set]{fullShare} Zch m c 7)
    ∗ semVal (dcell c ⟨33, by decide⟩) 0
    ∗ ((chk xB 7).view.loc (c : Thread nD τ) ↦[(chk xB 7).view.set]{qA} Xch m c 7)
    ∗ ((chk xB 7).view.loc (c : Thread nD τ) ↦[(chk xB 7).view.set]{rsh 1} Xch m c 7)
    ∗ owes (c : Thread nD τ) (0 + tallyAt (dcell (pz c) ⟨59, by decide⟩) () N) (insert (SemLoc.dma ⟨33, by decide⟩, ()) (insert (SemLoc.dma ⟨49, by decide⟩, ()) W))
    ∗ (oM.view.loc (c : Thread nD τ) ↦[oM.view.set]{fullShare} (stZ m c 7 o)))

def ret_31 (c : Dev nD) (r : (BitVec 32)) : Prop := True

def Spec_31 : Prop := ∀ (K : Dev nD × Fin 65 → ℕ) (c : Dev nD) (W : Waits sig Unit) (o : oM.view.ty.Contents (Elt F)) (v2 : BitVec 32) (v5 : BitVec 32) (v8 : BitVec 32) (v20 : BitVec 32) (v31 : BitVec 32) (v36 : BitVec 32),
  iprop(□ (flatInv m K c ∗ flatReached (F := F) c) ∗ levAts L lv ∗ pre_31 m c W o)
    ⊢ wp frame (wpE (defs₀ (F := F)) 𝒱₀ (c : Thread nD τ) none) Set.univ
        (k0_part31 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v5 v8 v20 v31 v36)
        (fun r => iprop(post_31 m c W o ∗ ⌜ret_31 c r⌝))

def pre_32 (c : Dev nD) (W : Waits sig Unit) (o : oM.view.ty.Contents (Elt F)) : sProp 𝕄 :=
  iprop(((chk xB 7).view.loc (c : Thread nD τ) ↦[(chk xB 7).view.set]{qA} Xch m c 7)
    ∗ dutyTok ER (dcell c ⟨54, by decide⟩) 0 0
    ∗ dutyTok ER (dcell (pz c) ⟨59, by decide⟩) 0 0
    ∗ (∃ f : (chk dB 7).view.ty.Contents (Elt F), ((chk dB 7).view.loc (pz c : Thread nD τ) ↦[(chk dB 7).view.set]{fullShare} f))
    ∗ (xM.view.loc (c : Thread nD τ) ↦[xM.view.set]{xqL} xstg m c)
    ∗ ((chk xB 7).view.loc (c : Thread nD τ) ↦[(chk xB 7).view.set]{rsh 1} Xch m c 7)
    ∗ atPos ER (dcell c ⟨63, by decide⟩) 0 ∅ 0
    ∗ cred (tallyAt (dcell c ⟨63, by decide⟩) () N)
    ∗ owes (c : Thread nD τ) (0 + tallyAt (dcell (pz c) ⟨59, by decide⟩) () N) W
    ∗ (oM.view.loc (c : Thread nD τ) ↦[oM.view.set]{fullShare} o))

def post_32 (c : Dev nD) (W : Waits sig Unit) (o : oM.view.ty.Contents (Elt F)) : sProp 𝕄 :=
  iprop((xM.view.loc (c : Thread nD τ) ↦[xM.view.set]{xqL} xstg m c)
    ∗ ((chk xB 7).view.loc (c : Thread nD τ) ↦[(chk xB 7).view.set]{rsh 1} Xch m c 7)
    ∗ cred (tallyAt (dcell c ⟨54, by decide⟩) () N)
    ∗ semVal (dcell c ⟨63, by decide⟩) 0
    ∗ ((chk dB 0).view.loc (c : Thread nD τ) ↦[(chk dB 0).view.set]{fullShare} Dch m c 0)
    ∗ owes (c : Thread nD τ) (0) (insert (SemLoc.dma ⟨63, by decide⟩, ()) W)
    ∗ (oM.view.loc (c : Thread nD τ) ↦[oM.view.set]{fullShare} (stX m c 7 o)))

def ret_32 (c : Dev nD) (r : (BitVec 32)) : Prop := True

def Spec_32 : Prop := ∀ (K : Dev nD × Fin 65 → ℕ) (c : Dev nD) (W : Waits sig Unit) (o : oM.view.ty.Contents (Elt F)) (v2 : BitVec 32) (v8 : BitVec 32) (v19 : BitVec 32) (v23 : BitVec 32) (v28 : BitVec 32) (v35 : BitVec 32) (v36 : BitVec 32) (v990 : BitVec 32),
  iprop(□ (flatInv m K c ∗ flatReached (F := F) c) ∗ levAts L lv ∗ pre_32 m c W o)
    ⊢ wp frame (wpE (defs₀ (F := F)) 𝒱₀ (c : Thread nD τ) none) Set.univ
        (k0_part32 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v8 v19 v23 v28 v35 v36 v990)
        (fun r => iprop(post_32 m c W o ∗ ⌜ret_32 c r⌝))

def pre_33 (c : Dev nD) (W : Waits sig Unit) (o : oM.view.ty.Contents (Elt F)) : sProp 𝕄 :=
  iprop((xM.view.loc (c : Thread nD τ) ↦[xM.view.set]{xqL} xstg m c)
    ∗ ((chk dB 0).view.loc (c : Thread nD τ) ↦[(chk dB 0).view.set]{fullShare} Dch m c 0)
    ∗ atPos ER (dcell c ⟨64, by decide⟩) 0 ∅ 0
    ∗ cred (tallyAt (dcell c ⟨64, by decide⟩) () N)
    ∗ owes (c : Thread nD τ) (0) W
    ∗ (oM.view.loc (c : Thread nD τ) ↦[oM.view.set]{fullShare} o))

def post_33 (c : Dev nD) (W : Waits sig Unit) (o : oM.view.ty.Contents (Elt F)) : sProp 𝕄 :=
  iprop((xM.view.loc (c : Thread nD τ) ↦[xM.view.set]{xqL} xstg m c)
    ∗ ((chk dB 0).view.loc (c : Thread nD τ) ↦[(chk dB 0).view.set]{fullShare} Dch m c 0)
    ∗ semVal (dcell c ⟨64, by decide⟩) 0
    ∗ ((chk dB 1).view.loc (c : Thread nD τ) ↦[(chk dB 1).view.set]{fullShare} Dch m c 1)
    ∗ owes (c : Thread nD τ) (0) (insert (SemLoc.dma ⟨64, by decide⟩, ()) W)
    ∗ (oM.view.loc (c : Thread nD τ) ↦[oM.view.set]{fullShare} (stD m c 1 (stD m c 0 o))))

def ret_33 (c : Dev nD) (r : (PUnit)) : Prop := True

def Spec_33 : Prop := ∀ (K : Dev nD × Fin 65 → ℕ) (c : Dev nD) (W : Waits sig Unit) (o : oM.view.ty.Contents (Elt F)) (v2 : BitVec 32) (v8 : BitVec 32) (v19 : BitVec 32) (v35 : BitVec 32) (v36 : BitVec 32) (v1023 : BitVec 32),
  iprop(□ (flatInv m K c ∗ flatReached (F := F) c) ∗ levAts L lv ∗ pre_33 m c W o)
    ⊢ wp frame (wpE (defs₀ (F := F)) 𝒱₀ (c : Thread nD τ) none) Set.univ
        (k0_part33 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v8 v19 v35 v36 v1023)
        (fun r => iprop(post_33 m c W o ∗ ⌜ret_33 c r⌝))

def pre_34 (c : Dev nD) (W : Waits sig Unit) (o : oM.view.ty.Contents (Elt F)) : sProp 𝕄 :=
  iprop(atPos ER (dcell c ⟨65, by decide⟩) 0 ∅ 0
    ∗ cred (tallyAt (dcell c ⟨65, by decide⟩) () N)
    ∗ (xM.view.loc (c : Thread nD τ) ↦[xM.view.set]{xqL} xstg m c)
    ∗ owes (c : Thread nD τ) (0) W
    ∗ (oM.view.loc (c : Thread nD τ) ↦[oM.view.set]{fullShare} o))

def post_34 (c : Dev nD) (W : Waits sig Unit) (o : oM.view.ty.Contents (Elt F)) : sProp 𝕄 :=
  iprop((xM.view.loc (c : Thread nD τ) ↦[xM.view.set]{xqL} xstg m c)
    ∗ semVal (dcell c ⟨65, by decide⟩) 0
    ∗ ((chk dB 2).view.loc (c : Thread nD τ) ↦[(chk dB 2).view.set]{fullShare} Dch m c 2)
    ∗ owes (c : Thread nD τ) (0) (insert (SemLoc.dma ⟨65, by decide⟩, ()) W)
    ∗ (oM.view.loc (c : Thread nD τ) ↦[oM.view.set]{fullShare} (stD m c 2 o)))

def ret_34 (c : Dev nD) (r : (PUnit)) : Prop := True

def Spec_34 : Prop := ∀ (K : Dev nD × Fin 65 → ℕ) (c : Dev nD) (W : Waits sig Unit) (o : oM.view.ty.Contents (Elt F)) (v2 : BitVec 32) (v5 : BitVec 32) (v8 : BitVec 32) (v19 : BitVec 32) (v20 : BitVec 32) (v35 : BitVec 32) (v36 : BitVec 32),
  iprop(□ (flatInv m K c ∗ flatReached (F := F) c) ∗ levAts L lv ∗ pre_34 m c W o)
    ⊢ wp frame (wpE (defs₀ (F := F)) 𝒱₀ (c : Thread nD τ) none) Set.univ
        (k0_part34 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 c v2 v5 v8 v19 v20 v35 v36)
        (fun r => iprop(post_34 m c W o ∗ ⌜ret_34 c r⌝))

def pre_35 (c : Dev nD) (W : Waits sig Unit) (o : oM.view.ty.Contents (Elt F)) : sProp 𝕄 :=
  iprop(atPos ER (dcell c ⟨55, by decide⟩) 0 ∅ 0
    ∗ cred (tallyAt (dcell c ⟨55, by decide⟩) () N)
    ∗ (xM.view.loc (c : Thread nD τ) ↦[xM.view.set]{xqL} xstg m c)
    ∗ atPos ER (dcell c ⟨56, by decide⟩) 0 ∅ 0
    ∗ cred (tallyAt (dcell c ⟨56, by decide⟩) () N)
    ∗ owes (c : Thread nD τ) (0) W
    ∗ (oM.view.loc (c : Thread nD τ) ↦[oM.view.set]{fullShare} o))

def post_35 (c : Dev nD) (W : Waits sig Unit) (o : oM.view.ty.Contents (Elt F)) : sProp 𝕄 :=
  iprop((xM.view.loc (c : Thread nD τ) ↦[xM.view.set]{xqL} xstg m c)
    ∗ semVal (dcell c ⟨55, by decide⟩) 0
    ∗ ((chk dB 3).view.loc (c : Thread nD τ) ↦[(chk dB 3).view.set]{fullShare} Dch m c 3)
    ∗ semVal (dcell c ⟨56, by decide⟩) 0
    ∗ ((chk dB 4).view.loc (c : Thread nD τ) ↦[(chk dB 4).view.set]{fullShare} Dch m c 4)
    ∗ owes (c : Thread nD τ) (0) (insert (SemLoc.dma ⟨56, by decide⟩, ()) (insert (SemLoc.dma ⟨55, by decide⟩, ()) W))
    ∗ (oM.view.loc (c : Thread nD τ) ↦[oM.view.set]{fullShare} (stD m c 3 o)))

def ret_35 (c : Dev nD) (r : (Σ' (v1119 : FVec F S32x512 .f32) (v1120 : BitVec 32), BitVec 32)) : Prop := r.1 = k0_pay31 (ldx m c (k0_off9 c (wk 4)) (Gen.k0_off9_inb c 4)) (ldb dB 4 (Dch m c 4))

def Spec_35 : Prop := ∀ (K : Dev nD × Fin 65 → ℕ) (c : Dev nD) (W : Waits sig Unit) (o : oM.view.ty.Contents (Elt F)) (v5 : BitVec 32) (v8 : BitVec 32) (v20 : BitVec 32) (v35 : BitVec 32) (v36 : BitVec 32),
  iprop(□ (flatInv m K c ∗ flatReached (F := F) c) ∗ levAts L lv ∗ pre_35 m c W o)
    ⊢ wp frame (wpE (defs₀ (F := F)) 𝒱₀ (c : Thread nD τ) none) Set.univ
        (k0_part35 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 c v5 v8 v20 v35 v36)
        (fun r => iprop(post_35 m c W o ∗ ⌜ret_35 m c r⌝))

def pre_36 (c : Dev nD) (W : Waits sig Unit) (o : oM.view.ty.Contents (Elt F)) : sProp 𝕄 :=
  iprop(atPos ER (dcell c ⟨57, by decide⟩) 0 ∅ 0
    ∗ cred (tallyAt (dcell c ⟨57, by decide⟩) () N)
    ∗ (xM.view.loc (c : Thread nD τ) ↦[xM.view.set]{xqL} xstg m c)
    ∗ owes (c : Thread nD τ) (0) W
    ∗ (oM.view.loc (c : Thread nD τ) ↦[oM.view.set]{fullShare} o))

def post_36 (c : Dev nD) (W : Waits sig Unit) (o : oM.view.ty.Contents (Elt F)) : sProp 𝕄 :=
  iprop((xM.view.loc (c : Thread nD τ) ↦[xM.view.set]{xqL} xstg m c)
    ∗ semVal (dcell c ⟨57, by decide⟩) 0
    ∗ ((chk dB 5).view.loc (c : Thread nD τ) ↦[(chk dB 5).view.set]{fullShare} Dch m c 5)
    ∗ owes (c : Thread nD τ) (0) (insert (SemLoc.dma ⟨57, by decide⟩, ()) W)
    ∗ (oM.view.loc (c : Thread nD τ) ↦[oM.view.set]{fullShare} (stD m c 5 (stD m c 4 o))))

def ret_36 (c : Dev nD) (r : (PUnit)) : Prop := True

def Spec_36 : Prop := ∀ (K : Dev nD × Fin 65 → ℕ) (c : Dev nD) (W : Waits sig Unit) (o : oM.view.ty.Contents (Elt F)) (v5 : BitVec 32) (v8 : BitVec 32) (v20 : BitVec 32) (v35 : BitVec 32) (v36 : BitVec 32) (v1120 : BitVec 32) (c128_i32_857 : BitVec 32),
  iprop(□ (flatInv m K c ∗ flatReached (F := F) c) ∗ levAts L lv ∗ pre_36 m c W o)
    ⊢ wp frame (wpE (defs₀ (F := F)) 𝒱₀ (c : Thread nD τ) none) Set.univ
        (k0_part36 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 c v5 v8 v20 v35 v36 (k0_pay31 (ldx m c (k0_off9 c (wk 4)) (Gen.k0_off9_inb c 4)) (ldb dB 4 (Dch m c 4))) v1120 c128_i32_857)
        (fun r => iprop(post_36 m c W o ∗ ⌜ret_36 c r⌝))

def pre_37 (c : Dev nD) (W : Waits sig Unit) (o : oM.view.ty.Contents (Elt F)) : sProp 𝕄 :=
  iprop(atPos ER (dcell c ⟨58, by decide⟩) 0 ∅ 0
    ∗ cred (tallyAt (dcell c ⟨58, by decide⟩) () N)
    ∗ (xM.view.loc (c : Thread nD τ) ↦[xM.view.set]{xqL} xstg m c)
    ∗ atPos ER (dcell c ⟨59, by decide⟩) 0 ∅ 0
    ∗ cred (tallyAt (dcell c ⟨59, by decide⟩) () N)
    ∗ owes (c : Thread nD τ) (0) W
    ∗ (oM.view.loc (c : Thread nD τ) ↦[oM.view.set]{fullShare} o))

def post_37 (c : Dev nD) (W : Waits sig Unit) (o : oM.view.ty.Contents (Elt F)) : sProp 𝕄 :=
  iprop((xM.view.loc (c : Thread nD τ) ↦[xM.view.set]{xqL} xstg m c)
    ∗ semVal (dcell c ⟨58, by decide⟩) 0
    ∗ ((chk dB 6).view.loc (c : Thread nD τ) ↦[(chk dB 6).view.set]{fullShare} Dch m c 6)
    ∗ semVal (dcell c ⟨59, by decide⟩) 0
    ∗ ((chk dB 7).view.loc (c : Thread nD τ) ↦[(chk dB 7).view.set]{fullShare} Dch m c 7)
    ∗ owes (c : Thread nD τ) (0) (insert (SemLoc.dma ⟨59, by decide⟩, ()) (insert (SemLoc.dma ⟨58, by decide⟩, ()) W))
    ∗ (oM.view.loc (c : Thread nD τ) ↦[oM.view.set]{fullShare} (stD m c 6 o)))

def ret_37 (c : Dev nD) (r : (FVec F S32x512 .f32)) : Prop := r = k0_pay34 (ldx m c (k0_off9 c (wk 7)) (Gen.k0_off9_inb c 7))

def Spec_37 : Prop := ∀ (K : Dev nD × Fin 65 → ℕ) (c : Dev nD) (W : Waits sig Unit) (o : oM.view.ty.Contents (Elt F)) (v5 : BitVec 32) (v8 : BitVec 32) (v20 : BitVec 32) (v35 : BitVec 32) (v36 : BitVec 32),
  iprop(□ (flatInv m K c ∗ flatReached (F := F) c) ∗ levAts L lv ∗ pre_37 m c W o)
    ⊢ wp frame (wpE (defs₀ (F := F)) 𝒱₀ (c : Thread nD τ) none) Set.univ
        (k0_part37 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 c v5 v8 v20 v35 v36)
        (fun r => iprop(post_37 m c W o ∗ ⌜ret_37 m c r⌝))

def pre_38 (c : Dev nD) (W : Waits sig Unit) (o : oM.view.ty.Contents (Elt F)) : sProp 𝕄 :=
  iprop(((chk dB 7).view.loc (c : Thread nD τ) ↦[(chk dB 7).view.set]{fullShare} Dch m c 7)
    ∗ atPos ER (dcell c ⟨2, by decide⟩) 0 ∅ 0
    ∗ cred (tallyAt (dcell c ⟨2, by decide⟩) () N)
    ∗ atPos ER (dcell c ⟨3, by decide⟩) 0 ∅ 0
    ∗ cred (tallyAt (dcell c ⟨3, by decide⟩) () N)
    ∗ atPos ER (dcell c ⟨4, by decide⟩) 0 ∅ 0
    ∗ cred (tallyAt (dcell c ⟨4, by decide⟩) () N)
    ∗ atPos ER (dcell c ⟨5, by decide⟩) 0 ∅ 0
    ∗ cred (tallyAt (dcell c ⟨5, by decide⟩) () N)
    ∗ owes (c : Thread nD τ) (0) W
    ∗ (oM.view.loc (c : Thread nD τ) ↦[oM.view.set]{fullShare} o))

def post_38 (c : Dev nD) (W : Waits sig Unit) (o : oM.view.ty.Contents (Elt F)) : sProp 𝕄 :=
  iprop(((chk dB 7).view.loc (c : Thread nD τ) ↦[(chk dB 7).view.set]{fullShare} Dch m c 7)
    ∗ semVal (dcell c ⟨2, by decide⟩) 0
    ∗ ((srcY c 0).view.loc (c : Thread nD τ) ↦[(srcY c 0).view.set]{psh 0} xstg m c)
    ∗ semVal (dcell c ⟨3, by decide⟩) 0
    ∗ ((srcY c 1).view.loc (c : Thread nD τ) ↦[(srcY c 1).view.set]{psh 1} xstg m c)
    ∗ semVal (dcell c ⟨4, by decide⟩) 0
    ∗ ((srcY c 2).view.loc (c : Thread nD τ) ↦[(srcY c 2).view.set]{psh 2} xstg m c)
    ∗ semVal (dcell c ⟨5, by decide⟩) 0
    ∗ ((srcY c 3).view.loc (c : Thread nD τ) ↦[(srcY c 3).view.set]{psh 3} xstg m c)
    ∗ owes (c : Thread nD τ) (0) (insert (SemLoc.dma ⟨5, by decide⟩, ()) (insert (SemLoc.dma ⟨4, by decide⟩, ()) (insert (SemLoc.dma ⟨3, by decide⟩, ()) (insert (SemLoc.dma ⟨2, by decide⟩, ()) W))))
    ∗ (oM.view.loc (c : Thread nD τ) ↦[oM.view.set]{fullShare} (stD m c 7 o)))

def ret_38 (c : Dev nD) (r : (PUnit)) : Prop := True

def Spec_38 : Prop := ∀ (K : Dev nD × Fin 65 → ℕ) (c : Dev nD) (W : Waits sig Unit) (o : oM.view.ty.Contents (Elt F)) (v35 : BitVec 32),
  iprop(□ (flatInv m K c ∗ flatReached (F := F) c) ∗ levAts L lv ∗ pre_38 m c W o)
    ⊢ wp frame (wpE (defs₀ (F := F)) 𝒱₀ (c : Thread nD τ) none) Set.univ
        (k0_part38 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 c v35 (k0_pay34 (ldx m c (k0_off9 c (wk 7)) (Gen.k0_off9_inb c 7))))
        (fun r => iprop(post_38 m c W o ∗ ⌜ret_38 c r⌝))

def pre_39 (c : Dev nD) (W : Waits sig Unit) (o : oM.view.ty.Contents (Elt F)) : sProp 𝕄 :=
  iprop(atPos ER (dcell c ⟨6, by decide⟩) 0 ∅ 0
    ∗ cred (tallyAt (dcell c ⟨6, by decide⟩) () N)
    ∗ atPos ER (dcell c ⟨7, by decide⟩) 0 ∅ 0
    ∗ cred (tallyAt (dcell c ⟨7, by decide⟩) () N)
    ∗ atPos ER (dcell c ⟨8, by decide⟩) 0 ∅ 0
    ∗ cred (tallyAt (dcell c ⟨8, by decide⟩) () N)
    ∗ atPos ER (dcell c ⟨9, by decide⟩) 0 ∅ 0
    ∗ cred (tallyAt (dcell c ⟨9, by decide⟩) () N)
    ∗ atPos ER (dcell c ⟨60, by decide⟩) 0 ∅ 0
    ∗ cred (tallyAt (dcell c ⟨60, by decide⟩) () N)
    ∗ owes (c : Thread nD τ) (0) W)

def post_39 (c : Dev nD) (W : Waits sig Unit) (o : oM.view.ty.Contents (Elt F)) : sProp 𝕄 :=
  iprop(semVal (dcell c ⟨6, by decide⟩) 0
    ∗ ((srcY c 4).view.loc (c : Thread nD τ) ↦[(srcY c 4).view.set]{psh 4} xstg m c)
    ∗ semVal (dcell c ⟨7, by decide⟩) 0
    ∗ ((srcY c 5).view.loc (c : Thread nD τ) ↦[(srcY c 5).view.set]{psh 5} xstg m c)
    ∗ semVal (dcell c ⟨8, by decide⟩) 0
    ∗ ((srcY c 6).view.loc (c : Thread nD τ) ↦[(srcY c 6).view.set]{psh 6} xstg m c)
    ∗ semVal (dcell c ⟨9, by decide⟩) 0
    ∗ ((srcY c 7).view.loc (c : Thread nD τ) ↦[(srcY c 7).view.set]{psh 7} xstg m c)
    ∗ semVal (dcell c ⟨60, by decide⟩) 0
    ∗ ((srcD c 0).view.loc (c : Thread nD τ) ↦[(srcD c 0).view.set]{psh 8} xstg m c)
    ∗ owes (c : Thread nD τ) (0) (insert (SemLoc.dma ⟨60, by decide⟩, ()) (insert (SemLoc.dma ⟨9, by decide⟩, ()) (insert (SemLoc.dma ⟨8, by decide⟩, ()) (insert (SemLoc.dma ⟨7, by decide⟩, ()) (insert (SemLoc.dma ⟨6, by decide⟩, ()) W))))))

def ret_39 (c : Dev nD) (r : (PUnit)) : Prop := True

def Spec_39 : Prop := ∀ (K : Dev nD × Fin 65 → ℕ) (c : Dev nD) (W : Waits sig Unit) (o : oM.view.ty.Contents (Elt F)),
  iprop(□ (flatInv m K c ∗ flatReached (F := F) c) ∗ levAts L lv ∗ pre_39 (F := F) c W o)
    ⊢ wp frame (wpE (defs₀ (F := F)) 𝒱₀ (c : Thread nD τ) none) Set.univ
        (k0_part39 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 c)
        (fun r => iprop(post_39 m c W o ∗ ⌜ret_39 c r⌝))

def pre_40 (c : Dev nD) (W : Waits sig Unit) (o : oM.view.ty.Contents (Elt F)) : sProp 𝕄 :=
  iprop(atPos ER (dcell c ⟨61, by decide⟩) 0 ∅ 0
    ∗ cred (tallyAt (dcell c ⟨61, by decide⟩) () N)
    ∗ atPos ER (dcell c ⟨62, by decide⟩) 0 ∅ 0
    ∗ cred (tallyAt (dcell c ⟨62, by decide⟩) () N)
    ∗ atPos ER (dcell c ⟨18, by decide⟩) 0 ∅ 0
    ∗ cred (tallyAt (dcell c ⟨18, by decide⟩) () N)
    ∗ atPos ER (dcell c ⟨19, by decide⟩) 0 ∅ 0
    ∗ cred (tallyAt (dcell c ⟨19, by decide⟩) () N)
    ∗ atPos ER (dcell c ⟨20, by decide⟩) 0 ∅ 0
    ∗ cred (tallyAt (dcell c ⟨20, by decide⟩) () N)
    ∗ owes (c : Thread nD τ) (0) W)

def post_40 (c : Dev nD) (W : Waits sig Unit) (o : oM.view.ty.Contents (Elt F)) : sProp 𝕄 :=
  iprop(semVal (dcell c ⟨61, by decide⟩) 0
    ∗ ((srcD c 1).view.loc (c : Thread nD τ) ↦[(srcD c 1).view.set]{psh 9} xstg m c)
    ∗ semVal (dcell c ⟨62, by decide⟩) 0
    ∗ ((srcD c 2).view.loc (c : Thread nD τ) ↦[(srcD c 2).view.set]{psh 10} xstg m c)
    ∗ semVal (dcell c ⟨18, by decide⟩) 0
    ∗ ((chk yB 0).view.loc (c : Thread nD τ) ↦[(chk yB 0).view.set]{qA} Ych m c 0)
    ∗ semVal (dcell c ⟨19, by decide⟩) 0
    ∗ ((chk yB 1).view.loc (c : Thread nD τ) ↦[(chk yB 1).view.set]{qA} Ych m c 1)
    ∗ semVal (dcell c ⟨20, by decide⟩) 0
    ∗ ((chk yB 2).view.loc (c : Thread nD τ) ↦[(chk yB 2).view.set]{qA} Ych m c 2)
    ∗ owes (c : Thread nD τ) (0) (insert (SemLoc.dma ⟨20, by decide⟩, ()) (insert (SemLoc.dma ⟨19, by decide⟩, ()) (insert (SemLoc.dma ⟨18, by decide⟩, ()) (insert (SemLoc.dma ⟨62, by decide⟩, ()) (insert (SemLoc.dma ⟨61, by decide⟩, ()) W))))))

def ret_40 (c : Dev nD) (r : (PUnit)) : Prop := True

def Spec_40 : Prop := ∀ (K : Dev nD × Fin 65 → ℕ) (c : Dev nD) (W : Waits sig Unit) (o : oM.view.ty.Contents (Elt F)),
  iprop(□ (flatInv m K c ∗ flatReached (F := F) c) ∗ levAts L lv ∗ pre_40 (F := F) c W o)
    ⊢ wp frame (wpE (defs₀ (F := F)) 𝒱₀ (c : Thread nD τ) none) Set.univ
        (k0_part40 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 c)
        (fun r => iprop(post_40 m c W o ∗ ⌜ret_40 c r⌝))

def pre_41 (c : Dev nD) (W : Waits sig Unit) (o : oM.view.ty.Contents (Elt F)) : sProp 𝕄 :=
  iprop(atPos ER (dcell c ⟨21, by decide⟩) 0 ∅ 0
    ∗ cred (tallyAt (dcell c ⟨21, by decide⟩) () N)
    ∗ atPos ER (dcell c ⟨22, by decide⟩) 0 ∅ 0
    ∗ cred (tallyAt (dcell c ⟨22, by decide⟩) () N)
    ∗ atPos ER (dcell c ⟨23, by decide⟩) 0 ∅ 0
    ∗ cred (tallyAt (dcell c ⟨23, by decide⟩) () N)
    ∗ atPos ER (dcell c ⟨24, by decide⟩) 0 ∅ 0
    ∗ cred (tallyAt (dcell c ⟨24, by decide⟩) () N)
    ∗ atPos ER (dcell c ⟨25, by decide⟩) 0 ∅ 0
    ∗ cred (tallyAt (dcell c ⟨25, by decide⟩) () N)
    ∗ owes (c : Thread nD τ) (0) W)

def post_41 (c : Dev nD) (W : Waits sig Unit) (o : oM.view.ty.Contents (Elt F)) : sProp 𝕄 :=
  iprop(semVal (dcell c ⟨21, by decide⟩) 0
    ∗ ((chk yB 3).view.loc (c : Thread nD τ) ↦[(chk yB 3).view.set]{qA} Ych m c 3)
    ∗ semVal (dcell c ⟨22, by decide⟩) 0
    ∗ ((chk yB 4).view.loc (c : Thread nD τ) ↦[(chk yB 4).view.set]{qA} Ych m c 4)
    ∗ semVal (dcell c ⟨23, by decide⟩) 0
    ∗ ((chk yB 5).view.loc (c : Thread nD τ) ↦[(chk yB 5).view.set]{qA} Ych m c 5)
    ∗ semVal (dcell c ⟨24, by decide⟩) 0
    ∗ ((chk yB 6).view.loc (c : Thread nD τ) ↦[(chk yB 6).view.set]{qA} Ych m c 6)
    ∗ semVal (dcell c ⟨25, by decide⟩) 0
    ∗ ((chk yB 7).view.loc (c : Thread nD τ) ↦[(chk yB 7).view.set]{qA} Ych m c 7)
    ∗ owes (c : Thread nD τ) (0) (insert (SemLoc.dma ⟨25, by decide⟩, ()) (insert (SemLoc.dma ⟨24, by decide⟩, ()) (insert (SemLoc.dma ⟨23, by decide⟩, ()) (insert (SemLoc.dma ⟨22, by decide⟩, ()) (insert (SemLoc.dma ⟨21, by decide⟩, ()) W))))))

def ret_41 (c : Dev nD) (r : (PUnit)) : Prop := True

def Spec_41 : Prop := ∀ (K : Dev nD × Fin 65 → ℕ) (c : Dev nD) (W : Waits sig Unit) (o : oM.view.ty.Contents (Elt F)),
  iprop(□ (flatInv m K c ∗ flatReached (F := F) c) ∗ levAts L lv ∗ pre_41 (F := F) c W o)
    ⊢ wp frame (wpE (defs₀ (F := F)) 𝒱₀ (c : Thread nD τ) none) Set.univ
        (k0_part41 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15)
        (fun r => iprop(post_41 m c W o ∗ ⌜ret_41 c r⌝))

def pre_42 (c : Dev nD) (W : Waits sig Unit) (o : oM.view.ty.Contents (Elt F)) : sProp 𝕄 :=
  iprop(atPos ER (dcell c ⟨34, by decide⟩) 0 ∅ 0
    ∗ cred (tallyAt (dcell c ⟨34, by decide⟩) () N)
    ∗ atPos ER (dcell c ⟨35, by decide⟩) 0 ∅ 0
    ∗ cred (tallyAt (dcell c ⟨35, by decide⟩) () N)
    ∗ atPos ER (dcell c ⟨36, by decide⟩) 0 ∅ 0
    ∗ cred (tallyAt (dcell c ⟨36, by decide⟩) () N)
    ∗ atPos ER (dcell c ⟨37, by decide⟩) 0 ∅ 0
    ∗ cred (tallyAt (dcell c ⟨37, by decide⟩) () N)
    ∗ atPos ER (dcell c ⟨38, by decide⟩) 0 ∅ 0
    ∗ cred (tallyAt (dcell c ⟨38, by decide⟩) () N)
    ∗ owes (c : Thread nD τ) (0) W)

def post_42 (c : Dev nD) (W : Waits sig Unit) (o : oM.view.ty.Contents (Elt F)) : sProp 𝕄 :=
  iprop(semVal (dcell c ⟨34, by decide⟩) 0
    ∗ ((chk yB 0).view.loc (c : Thread nD τ) ↦[(chk yB 0).view.set]{qB} Ych m c 0)
    ∗ semVal (dcell c ⟨35, by decide⟩) 0
    ∗ ((chk yB 1).view.loc (c : Thread nD τ) ↦[(chk yB 1).view.set]{qB} Ych m c 1)
    ∗ semVal (dcell c ⟨36, by decide⟩) 0
    ∗ ((chk yB 2).view.loc (c : Thread nD τ) ↦[(chk yB 2).view.set]{qB} Ych m c 2)
    ∗ semVal (dcell c ⟨37, by decide⟩) 0
    ∗ ((chk yB 3).view.loc (c : Thread nD τ) ↦[(chk yB 3).view.set]{qB} Ych m c 3)
    ∗ semVal (dcell c ⟨38, by decide⟩) 0
    ∗ ((chk yB 4).view.loc (c : Thread nD τ) ↦[(chk yB 4).view.set]{qB} Ych m c 4)
    ∗ owes (c : Thread nD τ) (0) (insert (SemLoc.dma ⟨38, by decide⟩, ()) (insert (SemLoc.dma ⟨37, by decide⟩, ()) (insert (SemLoc.dma ⟨36, by decide⟩, ()) (insert (SemLoc.dma ⟨35, by decide⟩, ()) (insert (SemLoc.dma ⟨34, by decide⟩, ()) W))))))

def ret_42 (c : Dev nD) (r : (PUnit)) : Prop := True

def Spec_42 : Prop := ∀ (K : Dev nD × Fin 65 → ℕ) (c : Dev nD) (W : Waits sig Unit) (o : oM.view.ty.Contents (Elt F)),
  iprop(□ (flatInv m K c ∗ flatReached (F := F) c) ∗ levAts L lv ∗ pre_42 (F := F) c W o)
    ⊢ wp frame (wpE (defs₀ (F := F)) 𝒱₀ (c : Thread nD τ) none) Set.univ
        (k0_part42 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15)
        (fun r => iprop(post_42 m c W o ∗ ⌜ret_42 c r⌝))

def pre_43 (c : Dev nD) (W : Waits sig Unit) (o : oM.view.ty.Contents (Elt F)) : sProp 𝕄 :=
  iprop(atPos ER (dcell c ⟨39, by decide⟩) 0 ∅ 0
    ∗ cred (tallyAt (dcell c ⟨39, by decide⟩) () N)
    ∗ atPos ER (dcell c ⟨40, by decide⟩) 0 ∅ 0
    ∗ cred (tallyAt (dcell c ⟨40, by decide⟩) () N)
    ∗ atPos ER (dcell c ⟨41, by decide⟩) 0 ∅ 0
    ∗ cred (tallyAt (dcell c ⟨41, by decide⟩) () N)
    ∗ atPos ER (dcell c ⟨50, by decide⟩) 0 ∅ 0
    ∗ cred (tallyAt (dcell c ⟨50, by decide⟩) () N)
    ∗ atPos ER (dcell c ⟨51, by decide⟩) 0 ∅ 0
    ∗ cred (tallyAt (dcell c ⟨51, by decide⟩) () N)
    ∗ owes (c : Thread nD τ) (0) W)

def post_43 (c : Dev nD) (W : Waits sig Unit) (o : oM.view.ty.Contents (Elt F)) : sProp 𝕄 :=
  iprop(semVal (dcell c ⟨39, by decide⟩) 0
    ∗ ((chk yB 5).view.loc (c : Thread nD τ) ↦[(chk yB 5).view.set]{qB} Ych m c 5)
    ∗ semVal (dcell c ⟨40, by decide⟩) 0
    ∗ ((chk yB 6).view.loc (c : Thread nD τ) ↦[(chk yB 6).view.set]{qB} Ych m c 6)
    ∗ semVal (dcell c ⟨41, by decide⟩) 0
    ∗ ((chk yB 7).view.loc (c : Thread nD τ) ↦[(chk yB 7).view.set]{qB} Ych m c 7)
    ∗ semVal (dcell c ⟨50, by decide⟩) 0
    ∗ ((chk zB 3).view.loc (c : Thread nD τ) ↦[(chk zB 3).view.set]{qA} Zch m c 3)
    ∗ semVal (dcell c ⟨51, by decide⟩) 0
    ∗ ((chk zB 4).view.loc (c : Thread nD τ) ↦[(chk zB 4).view.set]{qA} Zch m c 4)
    ∗ owes (c : Thread nD τ) (0) (insert (SemLoc.dma ⟨51, by decide⟩, ()) (insert (SemLoc.dma ⟨50, by decide⟩, ()) (insert (SemLoc.dma ⟨41, by decide⟩, ()) (insert (SemLoc.dma ⟨40, by decide⟩, ()) (insert (SemLoc.dma ⟨39, by decide⟩, ()) W))))))

def ret_43 (c : Dev nD) (r : (PUnit)) : Prop := True

def Spec_43 : Prop := ∀ (K : Dev nD × Fin 65 → ℕ) (c : Dev nD) (W : Waits sig Unit) (o : oM.view.ty.Contents (Elt F)),
  iprop(□ (flatInv m K c ∗ flatReached (F := F) c) ∗ levAts L lv ∗ pre_43 (F := F) c W o)
    ⊢ wp frame (wpE (defs₀ (F := F)) 𝒱₀ (c : Thread nD τ) none) Set.univ
        (k0_part43 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15)
        (fun r => iprop(post_43 m c W o ∗ ⌜ret_43 c r⌝))

end Cert.KernelIdeal.RS

end
-- ==== Proof.Pieces.lean ====
import proofs.«901037_g7700000000001038_dist_rs_v7x_xyz2x2x4_y_m1024_n512_f32_1_alg».proof.Proof.Contents
import Idealize.ShloMosaic.Rules.PointsTo
import Idealize.SL.BI.Region
import Idealize.SL.ProofMode.BigOp
import Idealize.ShloMosaic.Lib.Pipeline.Kit
import Idealize.ShloMosaic.Lib.Rounds

noncomputable section

namespace Cert.KernelIdeal.RS

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ × URounds (GSem nD τ sig) (Fin 3)) ℕ

theorem mem_rk (k : Fin 8) (i : S256x512.Idx) :
    i ∈ (rk k).set ↔ 32 * k.val ≤ (i 0).val ∧ (i 0).val < 32 * k.val + 32 := by
  rw [Rect.mem_set_unit, Fin.forall_fin_two]
  show (32 * k.val ≤ (i 0).val ∧ (i 0).val < 32 * k.val + 32) ∧ (0 ≤ (i 1).val ∧ (i 1).val < 0 + 512) ↔ _
  have h1 : (i 1).val < 512 := (i 1).isLt
  omega

theorem rk_disjoint {k k' : Fin 8} (h : k ≠ k') : Disjoint (rk k).set (rk k').set := by
  have hv : k.val ≠ k'.val := Fin.val_ne_of_ne h
  refine Rect.unit_disjoint 0 ?_
  show 32 * k.val + 32 ≤ 32 * k'.val ∨ 32 * k'.val + 32 ≤ 32 * k.val
  omega

theorem rk_cover : (Finset.univ : Finset S256x512.Idx) = Finset.univ.biUnion fun k : Fin 8 => (rk k).set := by
  ext i
  simp only [Finset.mem_univ, Finset.mem_biUnion, true_and, true_iff]
  have h0 : (i 0).val < 256 := (i 0).isLt
  refine ⟨⟨(i 0).val / 32, by omega⟩, ?_⟩
  rw [mem_rk]
  show 32 * ((i 0).val / 32) ≤ (i 0).val ∧ (i 0).val < 32 * ((i 0).val / 32) + 32
  omega

section Family

variable {ℓ : Loc nD τ sig} {q : PosShare TreeShare}

theorem cut_family {T : Type} [Fintype T] [DecidableEq T] (K : T → Finset (Idx ℓ))
    (hd : ∀ t t', t ≠ t' → Disjoint (K t) (K t')) (hc : (Finset.univ : Finset (Idx ℓ)) = Finset.univ.biUnion K)
    (f : Buf (Elt F) ℓ) :
    (ℓ ↦{q} f : sProp 𝕄) = bigSep Finset.univ fun t => ℓ ↦[K t]{q} f :=
  (congrArg (fun S => (ℓ ↦[S]{q} f : sProp 𝕄)) hc).trans
    (pointsTo_biUnion Finset.univ K fun t _ t' _ h => hd t t' h)

theorem join_family {T : Type} [Fintype T] [DecidableEq T] (K : T → Finset (Idx ℓ))
    (hd : ∀ t t', t ≠ t' → Disjoint (K t) (K t')) (hc : (Finset.univ : Finset (Idx ℓ)) = Finset.univ.biUnion K) :
    (bigSep Finset.univ fun t => iprop(∃ f : Buf (Elt F) ℓ, ℓ ↦[K t]{q} f) : sProp 𝕄)
      ⊢ iprop(∃ f : Buf (Elt F) ℓ, ℓ ↦{q} f) := by
  haveI : Nonempty (Buf (Elt F) ℓ) := ⟨fun _ => default⟩
  refine (bigSep_exists_pi Finset.univ fun (t : T) (f : Buf (Elt F) ℓ) => (ℓ ↦[K t]{q} f : sProp 𝕄)).trans ?_
  iintro ⟨%fs, H⟩
  ihave H' := (pointsTo_biUnion_join Finset.univ K fs (fun _ => default) fun t _ t' _ h => hd t t' h) $$ H
  icases H' with ⟨%g, %hg, H'⟩
  iexists g
  have e : (ℓ ↦{q} g : sProp 𝕄) = ℓ ↦[Finset.univ.biUnion K]{q} g :=
    congrArg (fun S => (ℓ ↦[S]{q} g : sProp 𝕄)) hc
  rw [e]
  iexact H'

end Family

theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

section Blocks

variable (B : Memref sig .tc .vmem S256x512 .f32)

theorem chk_set (k : Fin 8) : (chk B k).view.set = (rk k).set.map B.view.emb := View.set_slice _ _

theorem chk_disjoint {k k' : Fin 8} (h : k ≠ k') : Disjoint (chk B k).view.set (chk B k').view.set := by
  rw [chk_set, chk_set, Finset.disjoint_map]; exact rk_disjoint h

theorem chk_cover : B.view.set = Finset.univ.biUnion fun k : Fin 8 => (chk B k).view.set := by
  ext i
  rw [Finset.mem_biUnion]
  constructor
  · intro hi
    have hi' : i ∈ Finset.univ.map B.view.emb := hi
    obtain ⟨j, -, rfl⟩ := Finset.mem_map.mp hi'
    have hj : j ∈ Finset.univ.biUnion fun k : Fin 8 => (rk k).set := by rw [← rk_cover]; exact Finset.mem_univ j
    obtain ⟨k, hk, hjk⟩ := Finset.mem_biUnion.mp hj
    exact ⟨k, hk, by rw [chk_set]; exact Finset.mem_map_of_mem _ hjk⟩
  · rintro ⟨k, -, hi⟩
    exact View.set_slice_subset _ _ hi

-- A 256-row buffer is the disjoint union of its eight 32-row blocks, so owning it is owning the eight blocks.
theorem cut8 (hB : B.view.set = Finset.univ) (c : Dev nD) (q : PosShare TreeShare)
    (f : Buf (Elt F) (B.view.loc (c : Thread nD τ))) :
    ((B.view.loc (c : Thread nD τ)) ↦{q} f : sProp 𝕄)
      = bigSep Finset.univ fun k : Fin 8 => ((chk B k).view.loc (c : Thread nD τ) ↦[(chk B k).view.set]{q} f) :=
  cut_family (F := F) (ℓ := B.view.loc (c : Thread nD τ)) (q := q) (fun k : Fin 8 => (chk B k).view.set)
    (fun _ _ h => chk_disjoint B h) (hB.symm.trans (chk_cover B)) f

theorem cut8c (hB : B.view.set = Finset.univ) (c : Dev nD) (q : PosShare TreeShare)
    (f : Buf (Elt F) (B.view.loc (c : Thread nD τ))) :
    ((B.view.loc (c : Thread nD τ)) ↦{q} f : sProp 𝕄)
      = iprop(((chk B 0).view.loc (c : Thread nD τ) ↦[(chk B 0).view.set]{q} f)
        ∗ ((chk B 1).view.loc (c : Thread nD τ) ↦[(chk B 1).view.set]{q} f)
        ∗ ((chk B 2).view.loc (c : Thread nD τ) ↦[(chk B 2).view.set]{q} f)
        ∗ ((chk B 3).view.loc (c : Thread nD τ) ↦[(chk B 3).view.set]{q} f)
        ∗ ((chk B 4).view.loc (c : Thread nD τ) ↦[(chk B 4).view.set]{q} f)
        ∗ ((chk B 5).view.loc (c : Thread nD τ) ↦[(chk B 5).view.set]{q} f)
        ∗ ((chk B 6).view.loc (c : Thread nD τ) ↦[(chk B 6).view.set]{q} f)
        ∗ ((chk B 7).view.loc (c : Thread nD τ) ↦[(chk B 7).view.set]{q} f)) :=
  (cut8 B hB c q f).trans (bigSep_fin8 _)

theorem join8 (hB : B.view.set = Finset.univ) (c : Dev nD) :
    (bigSep Finset.univ fun k : Fin 8 =>
        iprop(∃ f : Buf (Elt F) (B.view.loc (c : Thread nD τ)),
          (chk B k).view.loc (c : Thread nD τ) ↦[(chk B k).view.set]{fullShare} f) : sProp 𝕄)
      ⊢ iprop(∃ f : Buf (Elt F) (B.view.loc (c : Thread nD τ)), (B.view.loc (c : Thread nD τ)) ↦{fullShare} f) :=
  join_family (F := F) (ℓ := B.view.loc (c : Thread nD τ)) (q := fullShare) (fun k : Fin 8 => (chk B k).view.set)
    (fun _ _ h => chk_disjoint B h) (hB.symm.trans (chk_cover B))

end Blocks

theorem yB_whole : yB.view.set = Finset.univ := View.set_whole _
theorem xB_whole : xB.view.set = Finset.univ := View.set_whole _
theorem zB_whole : zB.view.set = Finset.univ := View.set_whole _
theorem dB_whole : dB.view.set = Finset.univ := View.set_whole _

section Shares

variable {ℓ : Loc nD τ sig} {S : Finset (Idx ℓ)} {f : Buf (Elt F) ℓ}

theorem peel (n : Nat) :
    (ℓ ↦[S]{rsh n} f : sProp 𝕄) ⊣⊢ iprop((ℓ ↦[S]{psh n} f) ∗ ℓ ↦[S]{rsh (n + 1)} f) :=
  pointsTo_share (PosShare.mem_left_op_right (rsh n))

theorem three :
    (ℓ ↦[S]{fullShare} f : sProp 𝕄) ⊣⊢ iprop((ℓ ↦[S]{qA} f) ∗ (ℓ ↦[S]{qB} f) ∗ ℓ ↦[S]{qC} f) :=
  (peel (F := F) 0).trans (sep_congr_right (peel (F := F) 1))

theorem peels (n : Nat) :
    (ℓ ↦[S]{fullShare} f : sProp 𝕄)
      ⊣⊢ iprop((bigSep (Finset.range n) fun i => ℓ ↦[S]{psh i} f) ∗ ℓ ↦[S]{rsh n} f) := by
  induction n with
  | zero =>
    rw [Finset.range_zero, bigSep_empty]
    exact emp_sep.symm
  | succ n ih =>
    have e : (bigSep (Finset.range (n + 1)) fun i => (ℓ ↦[S]{psh i} f : sProp 𝕄))
        = iprop((ℓ ↦[S]{psh n} f) ∗ bigSep (Finset.range n) fun i => ℓ ↦[S]{psh i} f) := by
      rw [Finset.range_add_one, bigSep_insert Finset.notMem_range_self]; rfl
    rw [e]
    exact ih.trans ((sep_congr_right (peel (F := F) n)).trans (sep_assoc.symm.trans (sep_congr_left sep_comm)))

theorem twelve :
    (ℓ ↦[S]{fullShare} f : sProp 𝕄)
      ⊣⊢ iprop((bigSepL [0, 1, 2, 3, 4, 5, 6, 7, 8, 9, 10] fun i => ℓ ↦[S]{psh i} f) ∗ ℓ ↦[S]{xqL} f) := by
  have h := peels (F := F) (ℓ := ℓ) (S := S) (f := f) 11
  rwa [bigSep_eq_bigSepL_of_eq [0, 1, 2, 3, 4, 5, 6, 7, 8, 9, 10] (by decide) (by decide)] at h

theorem twelve' :
    (ℓ ↦[S]{fullShare} f : sProp 𝕄)
      ⊣⊢ iprop(((ℓ ↦[S]{psh 0} f) ∗ (ℓ ↦[S]{psh 1} f) ∗ (ℓ ↦[S]{psh 2} f) ∗ (ℓ ↦[S]{psh 3} f) ∗ (ℓ ↦[S]{psh 4} f)
        ∗ (ℓ ↦[S]{psh 5} f) ∗ (ℓ ↦[S]{psh 6} f) ∗ (ℓ ↦[S]{psh 7} f) ∗ (ℓ ↦[S]{psh 8} f) ∗ (ℓ ↦[S]{psh 9} f)
        ∗ (ℓ ↦[S]{psh 10} f)) ∗ ℓ ↦[S]{xqL} f) :=
  twelve (F := F)

end Shares

theorem carve {ℓ : Loc nD τ sig} (S : Finset (Idx ℓ)) (q : PosShare TreeShare) (f : Buf (Elt F) ℓ) :
    (ℓ ↦{q} f : sProp 𝕄) ⊣⊢ iprop((ℓ ↦[S]{q} f) ∗ ℓ ↦[Finset.univ \ S]{q} f) :=
  pointsTo_split_subset (Finset.subset_univ S)

theorem carveY (c d : Dev nD) (k : Fin 8) (q : PosShare TreeShare) (f : Buf (Elt F) ((c : Thread nD τ).loc cc0_stg0_0)) :
    (((c : Thread nD τ).loc cc0_stg0_0) ↦{q} f : sProp 𝕄)
      ⊣⊢ iprop(((srcY d k).view.loc (c : Thread nD τ) ↦[(srcY d k).view.set]{q} f)
        ∗ ((c : Thread nD τ).loc cc0_stg0_0) ↦[Finset.univ \ (srcY d k).view.set]{q} f) :=
  carve _ q f
theorem carveD (c d : Dev nD) (k : Fin 3) (q : PosShare TreeShare) (f : Buf (Elt F) ((c : Thread nD τ).loc cc0_stg0_0)) :
    (((c : Thread nD τ).loc cc0_stg0_0) ↦{q} f : sProp 𝕄)
      ⊣⊢ iprop(((srcD d k).view.loc (c : Thread nD τ) ↦[(srcD d k).view.set]{q} f)
        ∗ ((c : Thread nD τ).loc cc0_stg0_0) ↦[Finset.univ \ (srcD d k).view.set]{q} f) :=
  carve _ q f

end Cert.KernelIdeal.RS

end
-- ==== Proof.Land.lean ====
import proofs.«901037_g7700000000001038_dist_rs_v7x_xyz2x2x4_y_m1024_n512_f32_1_alg».proof.Proof.Sched
import proofs.«901037_g7700000000001038_dist_rs_v7x_xyz2x2x4_y_m1024_n512_f32_1_alg».proof.Proof.Pieces

noncomputable section

namespace Cert.KernelIdeal.RS

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev k0 (k : Fin 3) : Fin 8 := ⟨k.val, by omega⟩
abbrev k3 (k : Fin 3) : Fin 8 := ⟨k.val + 3, by omega⟩
abbrev k6 (k : Fin 2) : Fin 8 := ⟨k.val + 6, by omega⟩

section Tables
variable (c : Dev nD)

omit [FloatOps F] in

theorem pay_fxs (k : Fin 3) : pay m c (50 + k.val) = blk zB (k3 k) c qA (Zch m c (k3 k)) := by
  unfold pay
  rw [if_neg (by omega), if_neg (by omega), if_neg (by omega), if_neg (by omega), if_neg (by omega), if_neg (by omega),
    if_neg (by omega), if_pos (by omega),
    show kOf (50 + k.val + 3) 50 = k3 k from Fin.ext (by simp only [kOf]; omega)]
omit [FloatOps F] in

theorem pay_fzs (k : Fin 2) : pay m c (53 + k.val) = blk xB (k6 k) c qA (Xch m c (k6 k)) := by
  unfold pay
  rw [if_neg (by omega), if_neg (by omega), if_neg (by omega), if_neg (by omega), if_neg (by omega), if_neg (by omega),
    if_neg (by omega), if_neg (by omega), if_pos (by omega),
    show kOf (53 + k.val + 6) 53 = k6 k from Fin.ext (by simp only [kOf]; omega)]
omit [FloatOps F] in

theorem pay_dxr (k : Fin 3) : pay m c (55 + k.val) = blk dB (k3 k) c fullShare (Dch m c (k3 k)) := by
  unfold pay
  rw [if_neg (by omega), if_neg (by omega), if_neg (by omega), if_neg (by omega), if_neg (by omega), if_neg (by omega),
    if_neg (by omega), if_neg (by omega), if_neg (by omega), if_pos (by omega),
    show kOf (55 + k.val + 3) 55 = k3 k from Fin.ext (by simp only [kOf]; omega)]
omit [FloatOps F] in

theorem pay_dzr (k : Fin 2) : pay m c (58 + k.val) = blk dB (k6 k) c fullShare (Dch m c (k6 k)) := by
  unfold pay
  rw [if_neg (by omega), if_neg (by omega), if_neg (by omega), if_neg (by omega), if_neg (by omega), if_neg (by omega),
    if_neg (by omega), if_neg (by omega), if_neg (by omega), if_neg (by omega), if_pos (by omega),
    show kOf (58 + k.val + 6) 58 = k6 k from Fin.ext (by simp only [kOf]; omega)]
omit [FloatOps F] in

theorem pay_dys (k : Fin 3) : pay m c (60 + k.val) = lentD m c k (psh (k.val + 8)) := by
  unfold pay
  rw [if_neg (by omega), if_neg (by omega), if_neg (by omega), if_neg (by omega), if_neg (by omega), if_neg (by omega),
    if_neg (by omega), if_neg (by omega), if_neg (by omega), if_neg (by omega), if_neg (by omega), if_pos (by omega),
    show kOf3 (60 + k.val) 60 = k from Fin.ext (by simp only [kOf3]; omega),
    show 60 + k.val - 60 + 8 = k.val + 8 from by omega]
omit [FloatOps F] in

theorem pay_dyr (k : Fin 3) : pay m c (63 + k.val) = blk dB (k0 k) c fullShare (Dch m c (k0 k)) := by
  unfold pay
  rw [if_neg (by omega), if_neg (by omega), if_neg (by omega), if_neg (by omega), if_neg (by omega), if_neg (by omega),
    if_neg (by omega), if_neg (by omega), if_neg (by omega), if_neg (by omega), if_neg (by omega), if_neg (by omega),
    show kOf (63 + k.val) 63 = k0 k from Fin.ext (by simp only [kOf]; omega)]

end Tables

theorem land_congr {sp : Space} {s : Shape} {e : EltTy} (t : Thread nD τ) (v : View sig t.2.kind sp s e)
    (fd f0 : v.ty.Contents (Elt F)) (w : s.Idx → Elt F e) :
    (v.loc t ↦[v.set]{fullShare} v.write (Elt F) fd w Finset.univ : sProp 𝕄)
      ⊢ (v.loc t ↦[v.set]{fullShare} v.write (Elt F) f0 w Finset.univ) :=
  Entails.of_eq (pointsTo_congr (write_univ_congr v fd f0 w))

theorem amt_chk (B : Memref sig .tc .vmem S256x512 .f32) (k : Fin 8) (sem : DmaSem sig) :
    (chk B k).view.amount (.dma sem) = N := rfl

section Payloads
variable (c : Dev nD)

theorem payY_src (k : Fin 8) :
    ((srcY c k).view.loc (c : Thread nD τ) ↦[(srcY c k).view.set]{psh k.val} xstg m c : sProp 𝕄)
      ⊢ (Rd m).payload (dcell c (sIx 2 k.val)) 0 0 :=
  Entails.of_eq (pay_ys m c k).symm

theorem payY_dst (k : Fin 8) (fd : Buf (Elt F) ((chk yB k).view.loc (py c : Thread nD τ))) :
    ((chk yB k).view.loc (py c : Thread nD τ) ↦[(chk yB k).view.set]{fullShare}
        (chk yB k).view.write (Elt F) fd ((srcY c k).view.read (Elt F) (xstg m c)) Finset.univ : sProp 𝕄)
      ⊢ (Rd m).payload (dcell (py c) (sIx 10 k.val)) 0 0 := by
  rw [show (Rd m).payload (dcell (py c) (sIx 10 k.val)) 0 0 = pay m (py c) (10 + k.val) from rfl, pay_yr]
  unfold Ych
  rw [py_py]
  exact land_congr (py c : Thread nD τ) (chk yB k).view fd _ _

theorem payD_src (k : Fin 3) :
    ((srcD c k).view.loc (c : Thread nD τ) ↦[(srcD c k).view.set]{psh (k.val + 8)} xstg m c : sProp 𝕄)
      ⊢ (Rd m).payload (dcell c (sIx 60 k.val)) 0 0 :=
  Entails.of_eq (pay_dys m c k).symm

theorem payD_dst (k : Fin 3) (fd : Buf (Elt F) ((chk dB (k0 k)).view.loc (py c : Thread nD τ))) :
    ((chk dB (k0 k)).view.loc (py c : Thread nD τ) ↦[(chk dB (k0 k)).view.set]{fullShare}
        (chk dB (k0 k)).view.write (Elt F) fd ((srcD c k).view.read (Elt F) (xstg m c)) Finset.univ : sProp 𝕄)
      ⊢ (Rd m).payload (dcell (py c) (sIx 63 k.val)) 0 0 := by
  rw [show (Rd m).payload (dcell (py c) (sIx 63 k.val)) 0 0 = pay m (py c) (63 + k.val) from rfl, pay_dyr]
  unfold Dch
  rw [dif_pos (show (k0 k).val < 3 from k.isLt), py_py]
  exact land_congr (py c : Thread nD τ) (chk dB (k0 k)).view fd _ _

theorem payX_src (k : Fin 8) :
    ((chk yB k).view.loc (c : Thread nD τ) ↦[(chk yB k).view.set]{qA} Ych m c k : sProp 𝕄)
      ⊢ (Rd m).payload (dcell c (sIx 18 k.val)) 0 0 :=
  Entails.of_eq (pay_xs m c k).symm

theorem payX_dst (k : Fin 8) (fd : Buf (Elt F) ((chk xB k).view.loc (px c : Thread nD τ))) :
    ((chk xB k).view.loc (px c : Thread nD τ) ↦[(chk xB k).view.set]{fullShare}
        (chk xB k).view.write (Elt F) fd ((chk yB k).view.read (Elt F) (Ych m c k)) Finset.univ : sProp 𝕄)
      ⊢ (Rd m).payload (dcell (px c) (sIx 26 k.val)) 0 0 := by
  rw [show (Rd m).payload (dcell (px c) (sIx 26 k.val)) 0 0 = pay m (px c) (26 + k.val) from rfl, pay_xr]
  unfold Xch
  rw [px_px]
  exact land_congr (px c : Thread nD τ) (chk xB k).view fd _ _

theorem payZ_src (k : Fin 8) :
    ((chk yB k).view.loc (c : Thread nD τ) ↦[(chk yB k).view.set]{qB} Ych m c k : sProp 𝕄)
      ⊢ (Rd m).payload (dcell c (sIx 34 k.val)) 0 0 :=
  Entails.of_eq (pay_zs m c k).symm

theorem payZ_dst (k : Fin 8) (fd : Buf (Elt F) ((chk zB k).view.loc (pz c : Thread nD τ))) :
    ((chk zB k).view.loc (pz c : Thread nD τ) ↦[(chk zB k).view.set]{fullShare}
        (chk zB k).view.write (Elt F) fd ((chk yB k).view.read (Elt F) (Ych m c k)) Finset.univ : sProp 𝕄)
      ⊢ (Rd m).payload (dcell (pz c) (sIx 42 k.val)) 0 0 := by
  rw [show (Rd m).payload (dcell (pz c) (sIx 42 k.val)) 0 0 = pay m (pz c) (42 + k.val) from rfl, pay_zr]
  unfold Zch
  rw [pz_pz]
  exact land_congr (pz c : Thread nD τ) (chk zB k).view fd _ _

theorem payFX_src (k : Fin 3) :
    ((chk zB (k3 k)).view.loc (c : Thread nD τ) ↦[(chk zB (k3 k)).view.set]{qA} Zch m c (k3 k) : sProp 𝕄)
      ⊢ (Rd m).payload (dcell c (sIx 50 k.val)) 0 0 :=
  Entails.of_eq (pay_fxs m c k).symm

theorem payFX_dst (k : Fin 3) (fd : Buf (Elt F) ((chk dB (k3 k)).view.loc (px c : Thread nD τ))) :
    ((chk dB (k3 k)).view.loc (px c : Thread nD τ) ↦[(chk dB (k3 k)).view.set]{fullShare}
        (chk dB (k3 k)).view.write (Elt F) fd ((chk zB (k3 k)).view.read (Elt F) (Zch m c (k3 k))) Finset.univ : sProp 𝕄)
      ⊢ (Rd m).payload (dcell (px c) (sIx 55 k.val)) 0 0 := by
  rw [show (Rd m).payload (dcell (px c) (sIx 55 k.val)) 0 0 = pay m (px c) (55 + k.val) from rfl, pay_dxr]
  unfold Dch
  rw [dif_neg (show ¬ (k3 k).val < 3 from by show ¬ (k.val + 3 < 3); omega),
    if_pos (show (k3 k).val < 6 from by show k.val + 3 < 6; omega), px_px]
  exact land_congr (px c : Thread nD τ) (chk dB (k3 k)).view fd _ _

theorem payFZ_src (k : Fin 2) :
    ((chk xB (k6 k)).view.loc (c : Thread nD τ) ↦[(chk xB (k6 k)).view.set]{qA} Xch m c (k6 k) : sProp 𝕄)
      ⊢ (Rd m).payload (dcell c (sIx 53 k.val)) 0 0 :=
  Entails.of_eq (pay_fzs m c k).symm

theorem payFZ_dst (k : Fin 2) (fd : Buf (Elt F) ((chk dB (k6 k)).view.loc (pz c : Thread nD τ))) :
    ((chk dB (k6 k)).view.loc (pz c : Thread nD τ) ↦[(chk dB (k6 k)).view.set]{fullShare}
        (chk dB (k6 k)).view.write (Elt F) fd ((chk xB (k6 k)).view.read (Elt F) (Xch m c (k6 k))) Finset.univ : sProp 𝕄)
      ⊢ (Rd m).payload (dcell (pz c) (sIx 58 k.val)) 0 0 := by
  rw [show (Rd m).payload (dcell (pz c) (sIx 58 k.val)) 0 0 = pay m (pz c) (58 + k.val) from rfl, pay_dzr]
  unfold Dch
  rw [dif_neg (show ¬ (k6 k).val < 3 from by show ¬ (k.val + 6 < 3); omega),
    if_neg (show ¬ (k6 k).val < 6 from by show ¬ (k.val + 6 < 6); omega), pz_pz]
  exact land_congr (pz c : Thread nD τ) (chk dB (k6 k)).view fd _ _

end Payloads

end Cert.KernelIdeal.RS

end
-- ==== Proof.SchedTab.lean ====
import proofs.«901037_g7700000000001038_dist_rs_v7x_xyz2x2x4_y_m1024_n512_f32_1_alg».proof.Proof.Sched
import proofs.«901037_g7700000000001038_dist_rs_v7x_xyz2x2x4_y_m1024_n512_f32_1_alg».proof.Proof.Land

noncomputable section

namespace Cert.KernelIdeal.RS

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

omit [FloatOps F] in
theorem payload_at_2 (c : Dev nD) : (Rd (F := F) m).payload (dcell c ⟨2, by decide⟩) 0 0
    = ((srcY c 0).view.loc (c : Thread nD τ) ↦[(srcY c 0).view.set]{psh 0} xstg m c : sProp 𝕄) :=
  (payload_dma m c _ 0).trans (pay_ys m c 0)
omit [FloatOps F] in
theorem payload_at_3 (c : Dev nD) : (Rd (F := F) m).payload (dcell c ⟨3, by decide⟩) 0 0
    = ((srcY c 1).view.loc (c : Thread nD τ) ↦[(srcY c 1).view.set]{psh 1} xstg m c : sProp 𝕄) :=
  (payload_dma m c _ 0).trans (pay_ys m c 1)
omit [FloatOps F] in
theorem payload_at_4 (c : Dev nD) : (Rd (F := F) m).payload (dcell c ⟨4, by decide⟩) 0 0
    = ((srcY c 2).view.loc (c : Thread nD τ) ↦[(srcY c 2).view.set]{psh 2} xstg m c : sProp 𝕄) :=
  (payload_dma m c _ 0).trans (pay_ys m c 2)
omit [FloatOps F] in
theorem payload_at_5 (c : Dev nD) : (Rd (F := F) m).payload (dcell c ⟨5, by decide⟩) 0 0
    = ((srcY c 3).view.loc (c : Thread nD τ) ↦[(srcY c 3).view.set]{psh 3} xstg m c : sProp 𝕄) :=
  (payload_dma m c _ 0).trans (pay_ys m c 3)
omit [FloatOps F] in
theorem payload_at_6 (c : Dev nD) : (Rd (F := F) m).payload (dcell c ⟨6, by decide⟩) 0 0
    = ((srcY c 4).view.loc (c : Thread nD τ) ↦[(srcY c 4).view.set]{psh 4} xstg m c : sProp 𝕄) :=
  (payload_dma m c _ 0).trans (pay_ys m c 4)
omit [FloatOps F] in
theorem payload_at_7 (c : Dev nD) : (Rd (F := F) m).payload (dcell c ⟨7, by decide⟩) 0 0
    = ((srcY c 5).view.loc (c : Thread nD τ) ↦[(srcY c 5).view.set]{psh 5} xstg m c : sProp 𝕄) :=
  (payload_dma m c _ 0).trans (pay_ys m c 5)
omit [FloatOps F] in
theorem payload_at_8 (c : Dev nD) : (Rd (F := F) m).payload (dcell c ⟨8, by decide⟩) 0 0
    = ((srcY c 6).view.loc (c : Thread nD τ) ↦[(srcY c 6).view.set]{psh 6} xstg m c : sProp 𝕄) :=
  (payload_dma m c _ 0).trans (pay_ys m c 6)
omit [FloatOps F] in
theorem payload_at_9 (c : Dev nD) : (Rd (F := F) m).payload (dcell c ⟨9, by decide⟩) 0 0
    = ((srcY c 7).view.loc (c : Thread nD τ) ↦[(srcY c 7).view.set]{psh 7} xstg m c : sProp 𝕄) :=
  (payload_dma m c _ 0).trans (pay_ys m c 7)
omit [FloatOps F] in
theorem payload_at_10 (c : Dev nD) : (Rd (F := F) m).payload (dcell c ⟨10, by decide⟩) 0 0
    = ((chk yB 0).view.loc (c : Thread nD τ) ↦[(chk yB 0).view.set]{fullShare} Ych m c 0 : sProp 𝕄) :=
  (payload_dma m c _ 0).trans (pay_yr m c 0)
omit [FloatOps F] in
theorem payload_at_11 (c : Dev nD) : (Rd (F := F) m).payload (dcell c ⟨11, by decide⟩) 0 0
    = ((chk yB 1).view.loc (c : Thread nD τ) ↦[(chk yB 1).view.set]{fullShare} Ych m c 1 : sProp 𝕄) :=
  (payload_dma m c _ 0).trans (pay_yr m c 1)
omit [FloatOps F] in
theorem payload_at_12 (c : Dev nD) : (Rd (F := F) m).payload (dcell c ⟨12, by decide⟩) 0 0
    = ((chk yB 2).view.loc (c : Thread nD τ) ↦[(chk yB 2).view.set]{fullShare} Ych m c 2 : sProp 𝕄) :=
  (payload_dma m c _ 0).trans (pay_yr m c 2)
omit [FloatOps F] in
theorem payload_at_13 (c : Dev nD) : (Rd (F := F) m).payload (dcell c ⟨13, by decide⟩) 0 0
    = ((chk yB 3).view.loc (c : Thread nD τ) ↦[(chk yB 3).view.set]{fullShare} Ych m c 3 : sProp 𝕄) :=
  (payload_dma m c _ 0).trans (pay_yr m c 3)
omit [FloatOps F] in
theorem payload_at_14 (c : Dev nD) : (Rd (F := F) m).payload (dcell c ⟨14, by decide⟩) 0 0
    = ((chk yB 4).view.loc (c : Thread nD τ) ↦[(chk yB 4).view.set]{fullShare} Ych m c 4 : sProp 𝕄) :=
  (payload_dma m c _ 0).trans (pay_yr m c 4)
omit [FloatOps F] in
theorem payload_at_15 (c : Dev nD) : (Rd (F := F) m).payload (dcell c ⟨15, by decide⟩) 0 0
    = ((chk yB 5).view.loc (c : Thread nD τ) ↦[(chk yB 5).view.set]{fullShare} Ych m c 5 : sProp 𝕄) :=
  (payload_dma m c _ 0).trans (pay_yr m c 5)
omit [FloatOps F] in
theorem payload_at_16 (c : Dev nD) : (Rd (F := F) m).payload (dcell c ⟨16, by decide⟩) 0 0
    = ((chk yB 6).view.loc (c : Thread nD τ) ↦[(chk yB 6).view.set]{fullShare} Ych m c 6 : sProp 𝕄) :=
  (payload_dma m c _ 0).trans (pay_yr m c 6)
omit [FloatOps F] in
theorem payload_at_17 (c : Dev nD) : (Rd (F := F) m).payload (dcell c ⟨17, by decide⟩) 0 0
    = ((chk yB 7).view.loc (c : Thread nD τ) ↦[(chk yB 7).view.set]{fullShare} Ych m c 7 : sProp 𝕄) :=
  (payload_dma m c _ 0).trans (pay_yr m c 7)
omit [FloatOps F] in
theorem payload_at_18 (c : Dev nD) : (Rd (F := F) m).payload (dcell c ⟨18, by decide⟩) 0 0
    = ((chk yB 0).view.loc (c : Thread nD τ) ↦[(chk yB 0).view.set]{qA} Ych m c 0 : sProp 𝕄) :=
  (payload_dma m c _ 0).trans (pay_xs m c 0)
omit [FloatOps F] in
theorem payload_at_19 (c : Dev nD) : (Rd (F := F) m).payload (dcell c ⟨19, by decide⟩) 0 0
    = ((chk yB 1).view.loc (c : Thread nD τ) ↦[(chk yB 1).view.set]{qA} Ych m c 1 : sProp 𝕄) :=
  (payload_dma m c _ 0).trans (pay_xs m c 1)
omit [FloatOps F] in
theorem payload_at_20 (c : Dev nD) : (Rd (F := F) m).payload (dcell c ⟨20, by decide⟩) 0 0
    = ((chk yB 2).view.loc (c : Thread nD τ) ↦[(chk yB 2).view.set]{qA} Ych m c 2 : sProp 𝕄) :=
  (payload_dma m c _ 0).trans (pay_xs m c 2)
omit [FloatOps F] in
theorem payload_at_21 (c : Dev nD) : (Rd (F := F) m).payload (dcell c ⟨21, by decide⟩) 0 0
    = ((chk yB 3).view.loc (c : Thread nD τ) ↦[(chk yB 3).view.set]{qA} Ych m c 3 : sProp 𝕄) :=
  (payload_dma m c _ 0).trans (pay_xs m c 3)
omit [FloatOps F] in
theorem payload_at_22 (c : Dev nD) : (Rd (F := F) m).payload (dcell c ⟨22, by decide⟩) 0 0
    = ((chk yB 4).view.loc (c : Thread nD τ) ↦[(chk yB 4).view.set]{qA} Ych m c 4 : sProp 𝕄) :=
  (payload_dma m c _ 0).trans (pay_xs m c 4)
omit [FloatOps F] in
theorem payload_at_23 (c : Dev nD) : (Rd (F := F) m).payload (dcell c ⟨23, by decide⟩) 0 0
    = ((chk yB 5).view.loc (c : Thread nD τ) ↦[(chk yB 5).view.set]{qA} Ych m c 5 : sProp 𝕄) :=
  (payload_dma m c _ 0).trans (pay_xs m c 5)
omit [FloatOps F] in
theorem payload_at_24 (c : Dev nD) : (Rd (F := F) m).payload (dcell c ⟨24, by decide⟩) 0 0
    = ((chk yB 6).view.loc (c : Thread nD τ) ↦[(chk yB 6).view.set]{qA} Ych m c 6 : sProp 𝕄) :=
  (payload_dma m c _ 0).trans (pay_xs m c 6)
omit [FloatOps F] in
theorem payload_at_25 (c : Dev nD) : (Rd (F := F) m).payload (dcell c ⟨25, by decide⟩) 0 0
    = ((chk yB 7).view.loc (c : Thread nD τ) ↦[(chk yB 7).view.set]{qA} Ych m c 7 : sProp 𝕄) :=
  (payload_dma m c _ 0).trans (pay_xs m c 7)
omit [FloatOps F] in
theorem payload_at_26 (c : Dev nD) : (Rd (F := F) m).payload (dcell c ⟨26, by decide⟩) 0 0
    = ((chk xB 0).view.loc (c : Thread nD τ) ↦[(chk xB 0).view.set]{fullShare} Xch m c 0 : sProp 𝕄) :=
  (payload_dma m c _ 0).trans (pay_xr m c 0)
omit [FloatOps F] in
theorem payload_at_27 (c : Dev nD) : (Rd (F := F) m).payload (dcell c ⟨27, by decide⟩) 0 0
    = ((chk xB 1).view.loc (c : Thread nD τ) ↦[(chk xB 1).view.set]{fullShare} Xch m c 1 : sProp 𝕄) :=
  (payload_dma m c _ 0).trans (pay_xr m c 1)
omit [FloatOps F] in
theorem payload_at_28 (c : Dev nD) : (Rd (F := F) m).payload (dcell c ⟨28, by decide⟩) 0 0
    = ((chk xB 2).view.loc (c : Thread nD τ) ↦[(chk xB 2).view.set]{fullShare} Xch m c 2 : sProp 𝕄) :=
  (payload_dma m c _ 0).trans (pay_xr m c 2)
omit [FloatOps F] in
theorem payload_at_29 (c : Dev nD) : (Rd (F := F) m).payload (dcell c ⟨29, by decide⟩) 0 0
    = ((chk xB 3).view.loc (c : Thread nD τ) ↦[(chk xB 3).view.set]{fullShare} Xch m c 3 : sProp 𝕄) :=
  (payload_dma m c _ 0).trans (pay_xr m c 3)
omit [FloatOps F] in
theorem payload_at_30 (c : Dev nD) : (Rd (F := F) m).payload (dcell c ⟨30, by decide⟩) 0 0
    = ((chk xB 4).view.loc (c : Thread nD τ) ↦[(chk xB 4).view.set]{fullShare} Xch m c 4 : sProp 𝕄) :=
  (payload_dma m c _ 0).trans (pay_xr m c 4)
omit [FloatOps F] in
theorem payload_at_31 (c : Dev nD) : (Rd (F := F) m).payload (dcell c ⟨31, by decide⟩) 0 0
    = ((chk xB 5).view.loc (c : Thread nD τ) ↦[(chk xB 5).view.set]{fullShare} Xch m c 5 : sProp 𝕄) :=
  (payload_dma m c _ 0).trans (pay_xr m c 5)
omit [FloatOps F] in
theorem payload_at_32 (c : Dev nD) : (Rd (F := F) m).payload (dcell c ⟨32, by decide⟩) 0 0
    = ((chk xB 6).view.loc (c : Thread nD τ) ↦[(chk xB 6).view.set]{fullShare} Xch m c 6 : sProp 𝕄) :=
  (payload_dma m c _ 0).trans (pay_xr m c 6)
omit [FloatOps F] in
theorem payload_at_33 (c : Dev nD) : (Rd (F := F) m).payload (dcell c ⟨33, by decide⟩) 0 0
    = ((chk xB 7).view.loc (c : Thread nD τ) ↦[(chk xB 7).view.set]{fullShare} Xch m c 7 : sProp 𝕄) :=
  (payload_dma m c _ 0).trans (pay_xr m c 7)
omit [FloatOps F] in
theorem payload_at_34 (c : Dev nD) : (Rd (F := F) m).payload (dcell c ⟨34, by decide⟩) 0 0
    = ((chk yB 0).view.loc (c : Thread nD τ) ↦[(chk yB 0).view.set]{qB} Ych m c 0 : sProp 𝕄) :=
  (payload_dma m c _ 0).trans (pay_zs m c 0)
omit [FloatOps F] in
theorem payload_at_35 (c : Dev nD) : (Rd (F := F) m).payload (dcell c ⟨35, by decide⟩) 0 0
    = ((chk yB 1).view.loc (c : Thread nD τ) ↦[(chk yB 1).view.set]{qB} Ych m c 1 : sProp 𝕄) :=
  (payload_dma m c _ 0).trans (pay_zs m c 1)
omit [FloatOps F] in
theorem payload_at_36 (c : Dev nD) : (Rd (F := F) m).payload (dcell c ⟨36, by decide⟩) 0 0
    = ((chk yB 2).view.loc (c : Thread nD τ) ↦[(chk yB 2).view.set]{qB} Ych m c 2 : sProp 𝕄) :=
  (payload_dma m c _ 0).trans (pay_zs m c 2)
omit [FloatOps F] in
theorem payload_at_37 (c : Dev nD) : (Rd (F := F) m).payload (dcell c ⟨37, by decide⟩) 0 0
    = ((chk yB 3).view.loc (c : Thread nD τ) ↦[(chk yB 3).view.set]{qB} Ych m c 3 : sProp 𝕄) :=
  (payload_dma m c _ 0).trans (pay_zs m c 3)
omit [FloatOps F] in
theorem payload_at_38 (c : Dev nD) : (Rd (F := F) m).payload (dcell c ⟨38, by decide⟩) 0 0
    = ((chk yB 4).view.loc (c : Thread nD τ) ↦[(chk yB 4).view.set]{qB} Ych m c 4 : sProp 𝕄) :=
  (payload_dma m c _ 0).trans (pay_zs m c 4)
omit [FloatOps F] in
theorem payload_at_39 (c : Dev nD) : (Rd (F := F) m).payload (dcell c ⟨39, by decide⟩) 0 0
    = ((chk yB 5).view.loc (c : Thread nD τ) ↦[(chk yB 5).view.set]{qB} Ych m c 5 : sProp 𝕄) :=
  (payload_dma m c _ 0).trans (pay_zs m c 5)
omit [FloatOps F] in
theorem payload_at_40 (c : Dev nD) : (Rd (F := F) m).payload (dcell c ⟨40, by decide⟩) 0 0
    = ((chk yB 6).view.loc (c : Thread nD τ) ↦[(chk yB 6).view.set]{qB} Ych m c 6 : sProp 𝕄) :=
  (payload_dma m c _ 0).trans (pay_zs m c 6)
omit [FloatOps F] in
theorem payload_at_41 (c : Dev nD) : (Rd (F := F) m).payload (dcell c ⟨41, by decide⟩) 0 0
    = ((chk yB 7).view.loc (c : Thread nD τ) ↦[(chk yB 7).view.set]{qB} Ych m c 7 : sProp 𝕄) :=
  (payload_dma m c _ 0).trans (pay_zs m c 7)
omit [FloatOps F] in
theorem payload_at_42 (c : Dev nD) : (Rd (F := F) m).payload (dcell c ⟨42, by decide⟩) 0 0
    = ((chk zB 0).view.loc (c : Thread nD τ) ↦[(chk zB 0).view.set]{fullShare} Zch m c 0 : sProp 𝕄) :=
  (payload_dma m c _ 0).trans (pay_zr m c 0)
omit [FloatOps F] in
theorem payload_at_43 (c : Dev nD) : (Rd (F := F) m).payload (dcell c ⟨43, by decide⟩) 0 0
    = ((chk zB 1).view.loc (c : Thread nD τ) ↦[(chk zB 1).view.set]{fullShare} Zch m c 1 : sProp 𝕄) :=
  (payload_dma m c _ 0).trans (pay_zr m c 1)
omit [FloatOps F] in
theorem payload_at_44 (c : Dev nD) : (Rd (F := F) m).payload (dcell c ⟨44, by decide⟩) 0 0
    = ((chk zB 2).view.loc (c : Thread nD τ) ↦[(chk zB 2).view.set]{fullShare} Zch m c 2 : sProp 𝕄) :=
  (payload_dma m c _ 0).trans (pay_zr m c 2)
omit [FloatOps F] in
theorem payload_at_45 (c : Dev nD) : (Rd (F := F) m).payload (dcell c ⟨45, by decide⟩) 0 0
    = ((chk zB 3).view.loc (c : Thread nD τ) ↦[(chk zB 3).view.set]{fullShare} Zch m c 3 : sProp 𝕄) :=
  (payload_dma m c _ 0).trans (pay_zr m c 3)
omit [FloatOps F] in
theorem payload_at_46 (c : Dev nD) : (Rd (F := F) m).payload (dcell c ⟨46, by decide⟩) 0 0
    = ((chk zB 4).view.loc (c : Thread nD τ) ↦[(chk zB 4).view.set]{fullShare} Zch m c 4 : sProp 𝕄) :=
  (payload_dma m c _ 0).trans (pay_zr m c 4)
omit [FloatOps F] in
theorem payload_at_47 (c : Dev nD) : (Rd (F := F) m).payload (dcell c ⟨47, by decide⟩) 0 0
    = ((chk zB 5).view.loc (c : Thread nD τ) ↦[(chk zB 5).view.set]{fullShare} Zch m c 5 : sProp 𝕄) :=
  (payload_dma m c _ 0).trans (pay_zr m c 5)
omit [FloatOps F] in
theorem payload_at_48 (c : Dev nD) : (Rd (F := F) m).payload (dcell c ⟨48, by decide⟩) 0 0
    = ((chk zB 6).view.loc (c : Thread nD τ) ↦[(chk zB 6).view.set]{fullShare} Zch m c 6 : sProp 𝕄) :=
  (payload_dma m c _ 0).trans (pay_zr m c 6)
omit [FloatOps F] in
theorem payload_at_49 (c : Dev nD) : (Rd (F := F) m).payload (dcell c ⟨49, by decide⟩) 0 0
    = ((chk zB 7).view.loc (c : Thread nD τ) ↦[(chk zB 7).view.set]{fullShare} Zch m c 7 : sProp 𝕄) :=
  (payload_dma m c _ 0).trans (pay_zr m c 7)
omit [FloatOps F] in
theorem payload_at_50 (c : Dev nD) : (Rd (F := F) m).payload (dcell c ⟨50, by decide⟩) 0 0
    = ((chk zB 3).view.loc (c : Thread nD τ) ↦[(chk zB 3).view.set]{qA} Zch m c 3 : sProp 𝕄) :=
  (payload_dma m c _ 0).trans (pay_fxs m c 0)
omit [FloatOps F] in
theorem payload_at_51 (c : Dev nD) : (Rd (F := F) m).payload (dcell c ⟨51, by decide⟩) 0 0
    = ((chk zB 4).view.loc (c : Thread nD τ) ↦[(chk zB 4).view.set]{qA} Zch m c 4 : sProp 𝕄) :=
  (payload_dma m c _ 0).trans (pay_fxs m c 1)
omit [FloatOps F] in
theorem payload_at_52 (c : Dev nD) : (Rd (F := F) m).payload (dcell c ⟨52, by decide⟩) 0 0
    = ((chk zB 5).view.loc (c : Thread nD τ) ↦[(chk zB 5).view.set]{qA} Zch m c 5 : sProp 𝕄) :=
  (payload_dma m c _ 0).trans (pay_fxs m c 2)
omit [FloatOps F] in
theorem payload_at_53 (c : Dev nD) : (Rd (F := F) m).payload (dcell c ⟨53, by decide⟩) 0 0
    = ((chk xB 6).view.loc (c : Thread nD τ) ↦[(chk xB 6).view.set]{qA} Xch m c 6 : sProp 𝕄) :=
  (payload_dma m c _ 0).trans (pay_fzs m c 0)
omit [FloatOps F] in
theorem payload_at_54 (c : Dev nD) : (Rd (F := F) m).payload (dcell c ⟨54, by decide⟩) 0 0
    = ((chk xB 7).view.loc (c : Thread nD τ) ↦[(chk xB 7).view.set]{qA} Xch m c 7 : sProp 𝕄) :=
  (payload_dma m c _ 0).trans (pay_fzs m c 1)
omit [FloatOps F] in
theorem payload_at_55 (c : Dev nD) : (Rd (F := F) m).payload (dcell c ⟨55, by decide⟩) 0 0
    = ((chk dB 3).view.loc (c : Thread nD τ) ↦[(chk dB 3).view.set]{fullShare} Dch m c 3 : sProp 𝕄) :=
  (payload_dma m c _ 0).trans (pay_dxr m c 0)
omit [FloatOps F] in
theorem payload_at_56 (c : Dev nD) : (Rd (F := F) m).payload (dcell c ⟨56, by decide⟩) 0 0
    = ((chk dB 4).view.loc (c : Thread nD τ) ↦[(chk dB 4).view.set]{fullShare} Dch m c 4 : sProp 𝕄) :=
  (payload_dma m c _ 0).trans (pay_dxr m c 1)
omit [FloatOps F] in
theorem payload_at_57 (c : Dev nD) : (Rd (F := F) m).payload (dcell c ⟨57, by decide⟩) 0 0
    = ((chk dB 5).view.loc (c : Thread nD τ) ↦[(chk dB 5).view.set]{fullShare} Dch m c 5 : sProp 𝕄) :=
  (payload_dma m c _ 0).trans (pay_dxr m c 2)
omit [FloatOps F] in
theorem payload_at_58 (c : Dev nD) : (Rd (F := F) m).payload (dcell c ⟨58, by decide⟩) 0 0
    = ((chk dB 6).view.loc (c : Thread nD τ) ↦[(chk dB 6).view.set]{fullShare} Dch m c 6 : sProp 𝕄) :=
  (payload_dma m c _ 0).trans (pay_dzr m c 0)
omit [FloatOps F] in
theorem payload_at_59 (c : Dev nD) : (Rd (F := F) m).payload (dcell c ⟨59, by decide⟩) 0 0
    = ((chk dB 7).view.loc (c : Thread nD τ) ↦[(chk dB 7).view.set]{fullShare} Dch m c 7 : sProp 𝕄) :=
  (payload_dma m c _ 0).trans (pay_dzr m c 1)
omit [FloatOps F] in
theorem payload_at_60 (c : Dev nD) : (Rd (F := F) m).payload (dcell c ⟨60, by decide⟩) 0 0
    = ((srcD c 0).view.loc (c : Thread nD τ) ↦[(srcD c 0).view.set]{psh 8} xstg m c : sProp 𝕄) :=
  (payload_dma m c _ 0).trans (pay_dys m c 0)
omit [FloatOps F] in
theorem payload_at_61 (c : Dev nD) : (Rd (F := F) m).payload (dcell c ⟨61, by decide⟩) 0 0
    = ((srcD c 1).view.loc (c : Thread nD τ) ↦[(srcD c 1).view.set]{psh 9} xstg m c : sProp 𝕄) :=
  (payload_dma m c _ 0).trans (pay_dys m c 1)
omit [FloatOps F] in
theorem payload_at_62 (c : Dev nD) : (Rd (F := F) m).payload (dcell c ⟨62, by decide⟩) 0 0
    = ((srcD c 2).view.loc (c : Thread nD τ) ↦[(srcD c 2).view.set]{psh 10} xstg m c : sProp 𝕄) :=
  (payload_dma m c _ 0).trans (pay_dys m c 2)
omit [FloatOps F] in
theorem payload_at_63 (c : Dev nD) : (Rd (F := F) m).payload (dcell c ⟨63, by decide⟩) 0 0
    = ((chk dB 0).view.loc (c : Thread nD τ) ↦[(chk dB 0).view.set]{fullShare} Dch m c 0 : sProp 𝕄) :=
  (payload_dma m c _ 0).trans (pay_dyr m c 0)
omit [FloatOps F] in
theorem payload_at_64 (c : Dev nD) : (Rd (F := F) m).payload (dcell c ⟨64, by decide⟩) 0 0
    = ((chk dB 1).view.loc (c : Thread nD τ) ↦[(chk dB 1).view.set]{fullShare} Dch m c 1 : sProp 𝕄) :=
  (payload_dma m c _ 0).trans (pay_dyr m c 1)
omit [FloatOps F] in
theorem payload_at_65 (c : Dev nD) : (Rd (F := F) m).payload (dcell c ⟨65, by decide⟩) 0 0
    = ((chk dB 2).view.loc (c : Thread nD τ) ↦[(chk dB 2).view.set]{fullShare} Dch m c 2 : sProp 𝕄) :=
  (payload_dma m c _ 0).trans (pay_dyr m c 2)

end Cert.KernelIdeal.RS

end
-- ==== Proof.WaitTab.lean ====
import proofs.«901037_g7700000000001038_dist_rs_v7x_xyz2x2x4_y_m1024_n512_f32_1_alg».proof.Proof.Levels
import proofs.«901037_g7700000000001038_dist_rs_v7x_xyz2x2x4_y_m1024_n512_f32_1_alg».proof.Proof.FlatTab

set_option maxRecDepth 65536

noncomputable section

namespace Cert.KernelIdeal.RS

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

omit [FloatOps F] in
theorem mw_bar (c : Dev nD) :
    (levAts L lv : sProp 𝕄) ⊢ MayWait (c : Thread nD τ) (.reg barS) ()
      (0
      + tallyAt (dcell (pz c) ⟨59, by decide⟩) () N
      + tallyAt (dcell (pz c) ⟨58, by decide⟩) () N
      + tallyAt (dcell (px c) ⟨57, by decide⟩) () N
      + tallyAt (dcell (px c) ⟨56, by decide⟩) () N
      + tallyAt (dcell (px c) ⟨55, by decide⟩) () N
      + tallyAt (dcell (pz c) ⟨49, by decide⟩) () N
      + tallyAt (dcell (px c) ⟨33, by decide⟩) () N
      + tallyAt (dcell (pz c) ⟨48, by decide⟩) () N
      + tallyAt (dcell (px c) ⟨32, by decide⟩) () N
      + tallyAt (dcell (pz c) ⟨47, by decide⟩) () N
      + tallyAt (dcell (px c) ⟨31, by decide⟩) () N
      + tallyAt (dcell (pz c) ⟨46, by decide⟩) () N
      + tallyAt (dcell (px c) ⟨30, by decide⟩) () N
      + tallyAt (dcell (pz c) ⟨45, by decide⟩) () N
      + tallyAt (dcell (px c) ⟨29, by decide⟩) () N
      + tallyAt (dcell (pz c) ⟨44, by decide⟩) () N
      + tallyAt (dcell (px c) ⟨28, by decide⟩) () N
      + tallyAt (dcell (pz c) ⟨43, by decide⟩) () N
      + tallyAt (dcell (px c) ⟨27, by decide⟩) () N
      + tallyAt (dcell (pz c) ⟨42, by decide⟩) () N
      + tallyAt (dcell (px c) ⟨26, by decide⟩) () N
      + tallyAt (dcell (py c) ⟨65, by decide⟩) () N
      + tallyAt (dcell (py c) ⟨64, by decide⟩) () N
      + tallyAt (dcell (py c) ⟨63, by decide⟩) () N
      + tallyAt (dcell (py c) ⟨17, by decide⟩) () N
      + tallyAt (dcell (py c) ⟨16, by decide⟩) () N
      + tallyAt (dcell (py c) ⟨15, by decide⟩) () N
      + tallyAt (dcell (py c) ⟨14, by decide⟩) () N
      + tallyAt (dcell (py c) ⟨13, by decide⟩) () N
      + tallyAt (dcell (py c) ⟨12, by decide⟩) () N
      + tallyAt (dcell (py c) ⟨11, by decide⟩) () N
      + tallyAt (dcell (py c) ⟨10, by decide⟩) () N
      ) :=
  mayWait_drop c (.reg barS) 3 (by decide)

omit [FloatOps F] in
theorem mw_yr_0 (c : Dev nD) :
    (levAts L lv : sProp 𝕄) ⊢ MayWait (c : Thread nD τ) (.dma ⟨10, by decide⟩) ()
      (0
      + tallyAt (dcell (pz c) ⟨59, by decide⟩) () N
      + tallyAt (dcell (pz c) ⟨58, by decide⟩) () N
      + tallyAt (dcell (px c) ⟨57, by decide⟩) () N
      + tallyAt (dcell (px c) ⟨56, by decide⟩) () N
      + tallyAt (dcell (px c) ⟨55, by decide⟩) () N
      + tallyAt (dcell (pz c) ⟨49, by decide⟩) () N
      + tallyAt (dcell (px c) ⟨33, by decide⟩) () N
      + tallyAt (dcell (pz c) ⟨48, by decide⟩) () N
      + tallyAt (dcell (px c) ⟨32, by decide⟩) () N
      + tallyAt (dcell (pz c) ⟨47, by decide⟩) () N
      + tallyAt (dcell (px c) ⟨31, by decide⟩) () N
      + tallyAt (dcell (pz c) ⟨46, by decide⟩) () N
      + tallyAt (dcell (px c) ⟨30, by decide⟩) () N
      + tallyAt (dcell (pz c) ⟨45, by decide⟩) () N
      + tallyAt (dcell (px c) ⟨29, by decide⟩) () N
      + tallyAt (dcell (pz c) ⟨44, by decide⟩) () N
      + tallyAt (dcell (px c) ⟨28, by decide⟩) () N
      + tallyAt (dcell (pz c) ⟨43, by decide⟩) () N
      + tallyAt (dcell (px c) ⟨27, by decide⟩) () N
      + tallyAt (dcell (pz c) ⟨42, by decide⟩) () N
      + tallyAt (dcell (px c) ⟨26, by decide⟩) () N
      ) :=
  mayWait_drop c (.dma ⟨10, by decide⟩) 14 (by decide)

omit [FloatOps F] in
theorem mw_yr_1 (c : Dev nD) :
    (levAts L lv : sProp 𝕄) ⊢ MayWait (c : Thread nD τ) (.dma ⟨11, by decide⟩) ()
      (0
      + tallyAt (dcell (pz c) ⟨59, by decide⟩) () N
      + tallyAt (dcell (pz c) ⟨58, by decide⟩) () N
      + tallyAt (dcell (px c) ⟨57, by decide⟩) () N
      + tallyAt (dcell (px c) ⟨56, by decide⟩) () N
      + tallyAt (dcell (px c) ⟨55, by decide⟩) () N
      + tallyAt (dcell (pz c) ⟨49, by decide⟩) () N
      + tallyAt (dcell (px c) ⟨33, by decide⟩) () N
      + tallyAt (dcell (pz c) ⟨48, by decide⟩) () N
      + tallyAt (dcell (px c) ⟨32, by decide⟩) () N
      + tallyAt (dcell (pz c) ⟨47, by decide⟩) () N
      + tallyAt (dcell (px c) ⟨31, by decide⟩) () N
      + tallyAt (dcell (pz c) ⟨46, by decide⟩) () N
      + tallyAt (dcell (px c) ⟨30, by decide⟩) () N
      + tallyAt (dcell (pz c) ⟨45, by decide⟩) () N
      + tallyAt (dcell (px c) ⟨29, by decide⟩) () N
      + tallyAt (dcell (pz c) ⟨44, by decide⟩) () N
      + tallyAt (dcell (px c) ⟨28, by decide⟩) () N
      + tallyAt (dcell (pz c) ⟨43, by decide⟩) () N
      + tallyAt (dcell (px c) ⟨27, by decide⟩) () N
      ) :=
  mayWait_drop c (.dma ⟨11, by decide⟩) 16 (by decide)

omit [FloatOps F] in
theorem mw_yr_2 (c : Dev nD) :
    (levAts L lv : sProp 𝕄) ⊢ MayWait (c : Thread nD τ) (.dma ⟨12, by decide⟩) ()
      (0
      + tallyAt (dcell (pz c) ⟨59, by decide⟩) () N
      + tallyAt (dcell (pz c) ⟨58, by decide⟩) () N
      + tallyAt (dcell (px c) ⟨57, by decide⟩) () N
      + tallyAt (dcell (px c) ⟨56, by decide⟩) () N
      + tallyAt (dcell (px c) ⟨55, by decide⟩) () N
      + tallyAt (dcell (pz c) ⟨49, by decide⟩) () N
      + tallyAt (dcell (px c) ⟨33, by decide⟩) () N
      + tallyAt (dcell (pz c) ⟨48, by decide⟩) () N
      + tallyAt (dcell (px c) ⟨32, by decide⟩) () N
      + tallyAt (dcell (pz c) ⟨47, by decide⟩) () N
      + tallyAt (dcell (px c) ⟨31, by decide⟩) () N
      + tallyAt (dcell (pz c) ⟨46, by decide⟩) () N
      + tallyAt (dcell (px c) ⟨30, by decide⟩) () N
      + tallyAt (dcell (pz c) ⟨45, by decide⟩) () N
      + tallyAt (dcell (px c) ⟨29, by decide⟩) () N
      + tallyAt (dcell (pz c) ⟨44, by decide⟩) () N
      + tallyAt (dcell (px c) ⟨28, by decide⟩) () N
      ) :=
  mayWait_drop c (.dma ⟨12, by decide⟩) 18 (by decide)

omit [FloatOps F] in
theorem mw_yr_3 (c : Dev nD) :
    (levAts L lv : sProp 𝕄) ⊢ MayWait (c : Thread nD τ) (.dma ⟨13, by decide⟩) ()
      (0
      + tallyAt (dcell (pz c) ⟨59, by decide⟩) () N
      + tallyAt (dcell (pz c) ⟨58, by decide⟩) () N
      + tallyAt (dcell (px c) ⟨57, by decide⟩) () N
      + tallyAt (dcell (px c) ⟨56, by decide⟩) () N
      + tallyAt (dcell (px c) ⟨55, by decide⟩) () N
      + tallyAt (dcell (pz c) ⟨49, by decide⟩) () N
      + tallyAt (dcell (px c) ⟨33, by decide⟩) () N
      + tallyAt (dcell (pz c) ⟨48, by decide⟩) () N
      + tallyAt (dcell (px c) ⟨32, by decide⟩) () N
      + tallyAt (dcell (pz c) ⟨47, by decide⟩) () N
      + tallyAt (dcell (px c) ⟨31, by decide⟩) () N
      + tallyAt (dcell (pz c) ⟨46, by decide⟩) () N
      + tallyAt (dcell (px c) ⟨30, by decide⟩) () N
      + tallyAt (dcell (pz c) ⟨45, by decide⟩) () N
      + tallyAt (dcell (px c) ⟨29, by decide⟩) () N
      ) :=
  mayWait_drop c (.dma ⟨13, by decide⟩) 20 (by decide)

omit [FloatOps F] in
theorem mw_yr_4 (c : Dev nD) :
    (levAts L lv : sProp 𝕄) ⊢ MayWait (c : Thread nD τ) (.dma ⟨14, by decide⟩) ()
      (0
      + tallyAt (dcell (pz c) ⟨59, by decide⟩) () N
      + tallyAt (dcell (pz c) ⟨58, by decide⟩) () N
      + tallyAt (dcell (px c) ⟨57, by decide⟩) () N
      + tallyAt (dcell (px c) ⟨56, by decide⟩) () N
      + tallyAt (dcell (px c) ⟨55, by decide⟩) () N
      + tallyAt (dcell (pz c) ⟨49, by decide⟩) () N
      + tallyAt (dcell (px c) ⟨33, by decide⟩) () N
      + tallyAt (dcell (pz c) ⟨48, by decide⟩) () N
      + tallyAt (dcell (px c) ⟨32, by decide⟩) () N
      + tallyAt (dcell (pz c) ⟨47, by decide⟩) () N
      + tallyAt (dcell (px c) ⟨31, by decide⟩) () N
      + tallyAt (dcell (pz c) ⟨46, by decide⟩) () N
      + tallyAt (dcell (px c) ⟨30, by decide⟩) () N
      ) :=
  mayWait_drop c (.dma ⟨14, by decide⟩) 22 (by decide)

omit [FloatOps F] in
theorem mw_yr_5 (c : Dev nD) :
    (levAts L lv : sProp 𝕄) ⊢ MayWait (c : Thread nD τ) (.dma ⟨15, by decide⟩) ()
      (0
      + tallyAt (dcell (pz c) ⟨59, by decide⟩) () N
      + tallyAt (dcell (pz c) ⟨58, by decide⟩) () N
      + tallyAt (dcell (px c) ⟨57, by decide⟩) () N
      + tallyAt (dcell (px c) ⟨56, by decide⟩) () N
      + tallyAt (dcell (px c) ⟨55, by decide⟩) () N
      + tallyAt (dcell (pz c) ⟨49, by decide⟩) () N
      + tallyAt (dcell (px c) ⟨33, by decide⟩) () N
      + tallyAt (dcell (pz c) ⟨48, by decide⟩) () N
      + tallyAt (dcell (px c) ⟨32, by decide⟩) () N
      + tallyAt (dcell (pz c) ⟨47, by decide⟩) () N
      + tallyAt (dcell (px c) ⟨31, by decide⟩) () N
      ) :=
  mayWait_drop c (.dma ⟨15, by decide⟩) 24 (by decide)

omit [FloatOps F] in
theorem mw_yr_6 (c : Dev nD) :
    (levAts L lv : sProp 𝕄) ⊢ MayWait (c : Thread nD τ) (.dma ⟨16, by decide⟩) ()
      (0
      + tallyAt (dcell (pz c) ⟨59, by decide⟩) () N
      + tallyAt (dcell (pz c) ⟨58, by decide⟩) () N
      + tallyAt (dcell (px c) ⟨57, by decide⟩) () N
      + tallyAt (dcell (px c) ⟨56, by decide⟩) () N
      + tallyAt (dcell (px c) ⟨55, by decide⟩) () N
      + tallyAt (dcell (pz c) ⟨49, by decide⟩) () N
      + tallyAt (dcell (px c) ⟨33, by decide⟩) () N
      + tallyAt (dcell (pz c) ⟨48, by decide⟩) () N
      + tallyAt (dcell (px c) ⟨32, by decide⟩) () N
      ) :=
  mayWait_drop c (.dma ⟨16, by decide⟩) 26 (by decide)

omit [FloatOps F] in
theorem mw_yr_7 (c : Dev nD) :
    (levAts L lv : sProp 𝕄) ⊢ MayWait (c : Thread nD τ) (.dma ⟨17, by decide⟩) ()
      (0
      + tallyAt (dcell (pz c) ⟨59, by decide⟩) () N
      + tallyAt (dcell (pz c) ⟨58, by decide⟩) () N
      + tallyAt (dcell (px c) ⟨57, by decide⟩) () N
      + tallyAt (dcell (px c) ⟨56, by decide⟩) () N
      + tallyAt (dcell (px c) ⟨55, by decide⟩) () N
      + tallyAt (dcell (pz c) ⟨49, by decide⟩) () N
      + tallyAt (dcell (px c) ⟨33, by decide⟩) () N
      ) :=
  mayWait_drop c (.dma ⟨17, by decide⟩) 28 (by decide)

omit [FloatOps F] in
theorem mw_zr_0 (c : Dev nD) :
    (levAts L lv : sProp 𝕄) ⊢ MayWait (c : Thread nD τ) (.dma ⟨42, by decide⟩) ()
      (0
      + tallyAt (dcell (pz c) ⟨59, by decide⟩) () N
      + tallyAt (dcell (pz c) ⟨58, by decide⟩) () N
      + tallyAt (dcell (px c) ⟨57, by decide⟩) () N
      + tallyAt (dcell (px c) ⟨56, by decide⟩) () N
      + tallyAt (dcell (px c) ⟨55, by decide⟩) () N
      ) :=
  mayWait_drop c (.dma ⟨42, by decide⟩) 30 (by decide)

omit [FloatOps F] in
theorem mw_xr_0 (c : Dev nD) :
    (levAts L lv : sProp 𝕄) ⊢ MayWait (c : Thread nD τ) (.dma ⟨26, by decide⟩) ()
      (0
      + tallyAt (dcell (pz c) ⟨59, by decide⟩) () N
      + tallyAt (dcell (pz c) ⟨58, by decide⟩) () N
      + tallyAt (dcell (px c) ⟨57, by decide⟩) () N
      + tallyAt (dcell (px c) ⟨56, by decide⟩) () N
      + tallyAt (dcell (px c) ⟨55, by decide⟩) () N
      ) :=
  mayWait_drop c (.dma ⟨26, by decide⟩) 30 (by decide)

omit [FloatOps F] in
theorem mw_zr_1 (c : Dev nD) :
    (levAts L lv : sProp 𝕄) ⊢ MayWait (c : Thread nD τ) (.dma ⟨43, by decide⟩) ()
      (0
      + tallyAt (dcell (pz c) ⟨59, by decide⟩) () N
      + tallyAt (dcell (pz c) ⟨58, by decide⟩) () N
      + tallyAt (dcell (px c) ⟨57, by decide⟩) () N
      + tallyAt (dcell (px c) ⟨56, by decide⟩) () N
      + tallyAt (dcell (px c) ⟨55, by decide⟩) () N
      ) :=
  mayWait_drop c (.dma ⟨43, by decide⟩) 30 (by decide)

omit [FloatOps F] in
theorem mw_xr_1 (c : Dev nD) :
    (levAts L lv : sProp 𝕄) ⊢ MayWait (c : Thread nD τ) (.dma ⟨27, by decide⟩) ()
      (0
      + tallyAt (dcell (pz c) ⟨59, by decide⟩) () N
      + tallyAt (dcell (pz c) ⟨58, by decide⟩) () N
      + tallyAt (dcell (px c) ⟨57, by decide⟩) () N
      + tallyAt (dcell (px c) ⟨56, by decide⟩) () N
      + tallyAt (dcell (px c) ⟨55, by decide⟩) () N
      ) :=
  mayWait_drop c (.dma ⟨27, by decide⟩) 30 (by decide)

omit [FloatOps F] in
theorem mw_zr_2 (c : Dev nD) :
    (levAts L lv : sProp 𝕄) ⊢ MayWait (c : Thread nD τ) (.dma ⟨44, by decide⟩) ()
      (0
      + tallyAt (dcell (pz c) ⟨59, by decide⟩) () N
      + tallyAt (dcell (pz c) ⟨58, by decide⟩) () N
      + tallyAt (dcell (px c) ⟨57, by decide⟩) () N
      + tallyAt (dcell (px c) ⟨56, by decide⟩) () N
      + tallyAt (dcell (px c) ⟨55, by decide⟩) () N
      ) :=
  mayWait_drop c (.dma ⟨44, by decide⟩) 30 (by decide)

omit [FloatOps F] in
theorem mw_xr_2 (c : Dev nD) :
    (levAts L lv : sProp 𝕄) ⊢ MayWait (c : Thread nD τ) (.dma ⟨28, by decide⟩) ()
      (0
      + tallyAt (dcell (pz c) ⟨59, by decide⟩) () N
      + tallyAt (dcell (pz c) ⟨58, by decide⟩) () N
      + tallyAt (dcell (px c) ⟨57, by decide⟩) () N
      + tallyAt (dcell (px c) ⟨56, by decide⟩) () N
      + tallyAt (dcell (px c) ⟨55, by decide⟩) () N
      ) :=
  mayWait_drop c (.dma ⟨28, by decide⟩) 30 (by decide)

omit [FloatOps F] in
theorem mw_zr_3 (c : Dev nD) :
    (levAts L lv : sProp 𝕄) ⊢ MayWait (c : Thread nD τ) (.dma ⟨45, by decide⟩) ()
      (0
      + tallyAt (dcell (pz c) ⟨59, by decide⟩) () N
      + tallyAt (dcell (pz c) ⟨58, by decide⟩) () N
      + tallyAt (dcell (px c) ⟨57, by decide⟩) () N
      + tallyAt (dcell (px c) ⟨56, by decide⟩) () N
      + tallyAt (dcell (px c) ⟨55, by decide⟩) () N
      ) :=
  mayWait_drop c (.dma ⟨45, by decide⟩) 30 (by decide)

omit [FloatOps F] in
theorem mw_xr_3 (c : Dev nD) :
    (levAts L lv : sProp 𝕄) ⊢ MayWait (c : Thread nD τ) (.dma ⟨29, by decide⟩) ()
      (0
      + tallyAt (dcell (pz c) ⟨59, by decide⟩) () N
      + tallyAt (dcell (pz c) ⟨58, by decide⟩) () N
      + tallyAt (dcell (px c) ⟨57, by decide⟩) () N
      + tallyAt (dcell (px c) ⟨56, by decide⟩) () N
      ) :=
  mayWait_drop c (.dma ⟨29, by decide⟩) 31 (by decide)

omit [FloatOps F] in
theorem mw_zr_4 (c : Dev nD) :
    (levAts L lv : sProp 𝕄) ⊢ MayWait (c : Thread nD τ) (.dma ⟨46, by decide⟩) ()
      (0
      + tallyAt (dcell (pz c) ⟨59, by decide⟩) () N
      + tallyAt (dcell (pz c) ⟨58, by decide⟩) () N
      + tallyAt (dcell (px c) ⟨57, by decide⟩) () N
      + tallyAt (dcell (px c) ⟨56, by decide⟩) () N
      ) :=
  mayWait_drop c (.dma ⟨46, by decide⟩) 31 (by decide)

omit [FloatOps F] in
theorem mw_xr_4 (c : Dev nD) :
    (levAts L lv : sProp 𝕄) ⊢ MayWait (c : Thread nD τ) (.dma ⟨30, by decide⟩) ()
      (0
      + tallyAt (dcell (pz c) ⟨59, by decide⟩) () N
      + tallyAt (dcell (pz c) ⟨58, by decide⟩) () N
      + tallyAt (dcell (px c) ⟨57, by decide⟩) () N
      ) :=
  mayWait_drop c (.dma ⟨30, by decide⟩) 32 (by decide)

omit [FloatOps F] in
theorem mw_zr_5 (c : Dev nD) :
    (levAts L lv : sProp 𝕄) ⊢ MayWait (c : Thread nD τ) (.dma ⟨47, by decide⟩) ()
      (0
      + tallyAt (dcell (pz c) ⟨59, by decide⟩) () N
      + tallyAt (dcell (pz c) ⟨58, by decide⟩) () N
      + tallyAt (dcell (px c) ⟨57, by decide⟩) () N
      ) :=
  mayWait_drop c (.dma ⟨47, by decide⟩) 32 (by decide)

omit [FloatOps F] in
theorem mw_xr_5 (c : Dev nD) :
    (levAts L lv : sProp 𝕄) ⊢ MayWait (c : Thread nD τ) (.dma ⟨31, by decide⟩) ()
      (0
      + tallyAt (dcell (pz c) ⟨59, by decide⟩) () N
      + tallyAt (dcell (pz c) ⟨58, by decide⟩) () N
      ) :=
  mayWait_drop c (.dma ⟨31, by decide⟩) 33 (by decide)

omit [FloatOps F] in
theorem mw_zr_6 (c : Dev nD) :
    (levAts L lv : sProp 𝕄) ⊢ MayWait (c : Thread nD τ) (.dma ⟨48, by decide⟩) ()
      (0
      + tallyAt (dcell (pz c) ⟨59, by decide⟩) () N
      + tallyAt (dcell (pz c) ⟨58, by decide⟩) () N
      ) :=
  mayWait_drop c (.dma ⟨48, by decide⟩) 33 (by decide)

omit [FloatOps F] in
theorem mw_xr_6 (c : Dev nD) :
    (levAts L lv : sProp 𝕄) ⊢ MayWait (c : Thread nD τ) (.dma ⟨32, by decide⟩) ()
      (0
      + tallyAt (dcell (pz c) ⟨59, by decide⟩) () N
      + tallyAt (dcell (pz c) ⟨58, by decide⟩) () N
      ) :=
  mayWait_drop c (.dma ⟨32, by decide⟩) 33 (by decide)

omit [FloatOps F] in
theorem mw_zr_7 (c : Dev nD) :
    (levAts L lv : sProp 𝕄) ⊢ MayWait (c : Thread nD τ) (.dma ⟨49, by decide⟩) ()
      (0
      + tallyAt (dcell (pz c) ⟨59, by decide⟩) () N
      ) :=
  mayWait_drop c (.dma ⟨49, by decide⟩) 34 (by decide)

omit [FloatOps F] in
theorem mw_xr_7 (c : Dev nD) :
    (levAts L lv : sProp 𝕄) ⊢ MayWait (c : Thread nD τ) (.dma ⟨33, by decide⟩) ()
      (0
      + tallyAt (dcell (pz c) ⟨59, by decide⟩) () N
      ) :=
  mayWait_drop c (.dma ⟨33, by decide⟩) 34 (by decide)

end Cert.KernelIdeal.RS

end
-- ==== Proof.Chain.lean ====
import proofs.«901037_g7700000000001038_dist_rs_v7x_xyz2x2x4_y_m1024_n512_f32_1_alg».proof.Proof.Dats
import proofs.«901037_g7700000000001038_dist_rs_v7x_xyz2x2x4_y_m1024_n512_f32_1_alg».proof.Proof.PartsTab
import proofs.«901037_g7700000000001038_dist_rs_v7x_xyz2x2x4_y_m1024_n512_f32_1_alg».proof.Proof.SchedTab
import proofs.«901037_g7700000000001038_dist_rs_v7x_xyz2x2x4_y_m1024_n512_f32_1_alg».proof.Proof.MeshTab
import proofs.«901037_g7700000000001038_dist_rs_v7x_xyz2x2x4_y_m1024_n512_f32_1_alg».proof.Proof.WaitTab
import Idealize.ShloMosaic.Lib.Tactic

noncomputable section

namespace Cert.KernelIdeal.RS

open Cert.KernelIdeal Cert.KernelIdeal.Gen Cert.KernelIdeal.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

attribute [local irreducible] k0_off1 k0_off2 k0_off3 k0_off4 k0_off5 k0_off6 k0_off7 k0_off8 k0_off9 k0_off10 py px pz
attribute [local sl_rounds] duties_dma amount_dma expect_dma payload_at_52 payload_at_53 payload_at_54
attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq dev28_eq dev29_eq dev30_eq dev31_eq dev32_eq dev33_eq dev34_eq dev35_eq

theorem spec_cps {α : Type} {c : Dev nD} {p : Prog (TpuEff nD τ sig (Elt F) Λ₀ .tc) α} {Pre : sProp 𝕄} {Post Q : α → sProp 𝕄}
    (h : Pre ⊢ wp frame (wpE (defs₀ (F := F)) 𝒱₀ (c : Thread nD τ) none) Set.univ p Post) :
    iprop(Pre ∗ (∀ a, Post a -∗ Q a)) ⊢ wp frame (wpE (defs₀ (F := F)) 𝒱₀ (c : Thread nD τ) none) Set.univ p Q :=
  (sep_mono_left h).trans (wp_wand_r _ _ _)

theorem bind_cps {α β : Type} {c : Dev nD} (p : Prog (TpuEff nD τ sig (Elt F) Λ₀ .tc) α) (k : α → Prog (TpuEff nD τ sig (Elt F) Λ₀ .tc) β) (Q : β → sProp 𝕄) :
    wp frame (wpE (defs₀ (F := F)) 𝒱₀ (c : Thread nD τ) none) Set.univ p (fun a => wp frame (wpE (defs₀ (F := F)) 𝒱₀ (c : Thread nD τ) none) Set.univ (k a) Q)
      ⊢ wp frame (wpE (defs₀ (F := F)) 𝒱₀ (c : Thread nD τ) none) Set.univ (p >>= k) Q :=
  Entails.of_eq (wp_bind _ _ _ p k Q).symm

def st0 (c : Dev nD) (W : Waits sig Unit) (o : oM.view.ty.Contents (Elt F)) : sProp 𝕄 :=
  iprop(dutyTok ER (barCell (py c)) 0 0
    ∗ dutyTok ER (barCell (px c)) 0 1
    ∗ dutyTok ER (barCell (pz c)) 0 2
    ∗ atPos ER (barCell c) 0 ∅ 0
    ∗ cred (tallyAt (barCell c) () 3)
    ∗ atPos ER (dcell c ⟨2, by decide⟩) 0 ∅ 0
    ∗ atPos ER (dcell c ⟨3, by decide⟩) 0 ∅ 0
    ∗ atPos ER (dcell c ⟨4, by decide⟩) 0 ∅ 0
    ∗ atPos ER (dcell c ⟨5, by decide⟩) 0 ∅ 0
    ∗ atPos ER (dcell c ⟨6, by decide⟩) 0 ∅ 0
    ∗ atPos ER (dcell c ⟨7, by decide⟩) 0 ∅ 0
    ∗ atPos ER (dcell c ⟨8, by decide⟩) 0 ∅ 0
    ∗ atPos ER (dcell c ⟨9, by decide⟩) 0 ∅ 0
    ∗ atPos ER (dcell c ⟨10, by decide⟩) 0 ∅ 0
    ∗ atPos ER (dcell c ⟨11, by decide⟩) 0 ∅ 0
    ∗ atPos ER (dcell c ⟨12, by decide⟩) 0 ∅ 0
    ∗ atPos ER (dcell c ⟨13, by decide⟩) 0 ∅ 0
    ∗ atPos ER (dcell c ⟨14, by decide⟩) 0 ∅ 0
    ∗ atPos ER (dcell c ⟨15, by decide⟩) 0 ∅ 0
    ∗ atPos ER (dcell c ⟨16, by decide⟩) 0 ∅ 0
    ∗ atPos ER (dcell c ⟨17, by decide⟩) 0 ∅ 0
    ∗ atPos ER (dcell c ⟨18, by decide⟩) 0 ∅ 0
    ∗ atPos ER (dcell c ⟨19, by decide⟩) 0 ∅ 0
    ∗ atPos ER (dcell c ⟨20, by decide⟩) 0 ∅ 0
    ∗ atPos ER (dcell c ⟨21, by decide⟩) 0 ∅ 0
    ∗ atPos ER (dcell c ⟨22, by decide⟩) 0 ∅ 0
    ∗ atPos ER (dcell c ⟨23, by decide⟩) 0 ∅ 0
    ∗ atPos ER (dcell c ⟨24, by decide⟩) 0 ∅ 0
    ∗ atPos ER (dcell c ⟨25, by decide⟩) 0 ∅ 0
    ∗ atPos ER (dcell c ⟨26, by decide⟩) 0 ∅ 0
    ∗ atPos ER (dcell c ⟨27, by decide⟩) 0 ∅ 0
    ∗ atPos ER (dcell c ⟨28, by decide⟩) 0 ∅ 0
    ∗ atPos ER (dcell c ⟨29, by decide⟩) 0 ∅ 0
    ∗ atPos ER (dcell c ⟨30, by decide⟩) 0 ∅ 0
    ∗ atPos ER (dcell c ⟨31, by decide⟩) 0 ∅ 0
    ∗ atPos ER (dcell c ⟨32, by decide⟩) 0 ∅ 0
    ∗ atPos ER (dcell c ⟨33, by decide⟩) 0 ∅ 0
    ∗ atPos ER (dcell c ⟨34, by decide⟩) 0 ∅ 0
    ∗ atPos ER (dcell c ⟨35, by decide⟩) 0 ∅ 0
    ∗ atPos ER (dcell c ⟨36, by decide⟩) 0 ∅ 0
    ∗ atPos ER (dcell c ⟨37, by decide⟩) 0 ∅ 0
    ∗ atPos ER (dcell c ⟨38, by decide⟩) 0 ∅ 0
    ∗ atPos ER (dcell c ⟨39, by decide⟩) 0 ∅ 0
    ∗ atPos ER (dcell c ⟨40, by decide⟩) 0 ∅ 0
    ∗ atPos ER (dcell c ⟨41, by decide⟩) 0 ∅ 0
    ∗ atPos ER (dcell c ⟨42, by decide⟩) 0 ∅ 0
    ∗ atPos ER (dcell c ⟨43, by decide⟩) 0 ∅ 0
    ∗ atPos ER (dcell c ⟨44, by decide⟩) 0 ∅ 0
    ∗ atPos ER (dcell c ⟨45, by decide⟩) 0 ∅ 0
    ∗ atPos ER (dcell c ⟨46, by decide⟩) 0 ∅ 0
    ∗ atPos ER (dcell c ⟨47, by decide⟩) 0 ∅ 0
    ∗ atPos ER (dcell c ⟨48, by decide⟩) 0 ∅ 0
    ∗ atPos ER (dcell c ⟨49, by decide⟩) 0 ∅ 0
    ∗ atPos ER (dcell c ⟨50, by decide⟩) 0 ∅ 0
    ∗ atPos ER (dcell c ⟨51, by decide⟩) 0 ∅ 0
    ∗ atPos ER (dcell c ⟨52, by decide⟩) 0 ∅ 0
    ∗ atPos ER (dcell c ⟨53, by decide⟩) 0 ∅ 0
    ∗ atPos ER (dcell c ⟨54, by decide⟩) 0 ∅ 0
    ∗ atPos ER (dcell c ⟨55, by decide⟩) 0 ∅ 0
    ∗ atPos ER (dcell c ⟨56, by decide⟩) 0 ∅ 0
    ∗ atPos ER (dcell c ⟨57, by decide⟩) 0 ∅ 0
    ∗ atPos ER (dcell c ⟨58, by decide⟩) 0 ∅ 0
    ∗ atPos ER (dcell c ⟨59, by decide⟩) 0 ∅ 0
    ∗ atPos ER (dcell c ⟨60, by decide⟩) 0 ∅ 0
    ∗ atPos ER (dcell c ⟨61, by decide⟩) 0 ∅ 0
    ∗ atPos ER (dcell c ⟨62, by decide⟩) 0 ∅ 0
    ∗ atPos ER (dcell c ⟨63, by decide⟩) 0 ∅ 0
    ∗ atPos ER (dcell c ⟨64, by decide⟩) 0 ∅ 0
    ∗ atPos ER (dcell c ⟨65, by decide⟩) 0 ∅ 0
    ∗ dutyTok ER (dcell c ⟨2, by decide⟩) 0 0
    ∗ dutyTok ER (dcell c ⟨3, by decide⟩) 0 0
    ∗ dutyTok ER (dcell c ⟨4, by decide⟩) 0 0
    ∗ dutyTok ER (dcell c ⟨5, by decide⟩) 0 0
    ∗ dutyTok ER (dcell c ⟨6, by decide⟩) 0 0
    ∗ dutyTok ER (dcell c ⟨7, by decide⟩) 0 0
    ∗ dutyTok ER (dcell c ⟨8, by decide⟩) 0 0
    ∗ dutyTok ER (dcell c ⟨9, by decide⟩) 0 0
    ∗ dutyTok ER (dcell c ⟨18, by decide⟩) 0 0
    ∗ dutyTok ER (dcell c ⟨19, by decide⟩) 0 0
    ∗ dutyTok ER (dcell c ⟨20, by decide⟩) 0 0
    ∗ dutyTok ER (dcell c ⟨21, by decide⟩) 0 0
    ∗ dutyTok ER (dcell c ⟨22, by decide⟩) 0 0
    ∗ dutyTok ER (dcell c ⟨23, by decide⟩) 0 0
    ∗ dutyTok ER (dcell c ⟨24, by decide⟩) 0 0
    ∗ dutyTok ER (dcell c ⟨25, by decide⟩) 0 0
    ∗ dutyTok ER (dcell c ⟨34, by decide⟩) 0 0
    ∗ dutyTok ER (dcell c ⟨35, by decide⟩) 0 0
    ∗ dutyTok ER (dcell c ⟨36, by decide⟩) 0 0
    ∗ dutyTok ER (dcell c ⟨37, by decide⟩) 0 0
    ∗ dutyTok ER (dcell c ⟨38, by decide⟩) 0 0
    ∗ dutyTok ER (dcell c ⟨39, by decide⟩) 0 0
    ∗ dutyTok ER (dcell c ⟨40, by decide⟩) 0 0
    ∗ dutyTok ER (dcell c ⟨41, by decide⟩) 0 0
    ∗ dutyTok ER (dcell c ⟨50, by decide⟩) 0 0
    ∗ dutyTok ER (dcell c ⟨51, by decide⟩) 0 0
    ∗ dutyTok ER (dcell c ⟨52, by decide⟩) 0 0
    ∗ dutyTok ER (dcell c ⟨53, by decide⟩) 0 0
    ∗ dutyTok ER (dcell c ⟨54, by decide⟩) 0 0
    ∗ dutyTok ER (dcell c ⟨60, by decide⟩) 0 0
    ∗ dutyTok ER (dcell c ⟨61, by decide⟩) 0 0
    ∗ dutyTok ER (dcell c ⟨62, by decide⟩) 0 0
    ∗ cred (tallyAt (dcell c ⟨10, by decide⟩) () N)
    ∗ cred (tallyAt (dcell c ⟨11, by decide⟩) () N)
    ∗ cred (tallyAt (dcell c ⟨12, by decide⟩) () N)
    ∗ cred (tallyAt (dcell c ⟨13, by decide⟩) () N)
    ∗ cred (tallyAt (dcell c ⟨14, by decide⟩) () N)
    ∗ cred (tallyAt (dcell c ⟨15, by decide⟩) () N)
    ∗ cred (tallyAt (dcell c ⟨16, by decide⟩) () N)
    ∗ cred (tallyAt (dcell c ⟨17, by decide⟩) () N)
    ∗ cred (tallyAt (dcell c ⟨26, by decide⟩) () N)
    ∗ cred (tallyAt (dcell c ⟨27, by decide⟩) () N)
    ∗ cred (tallyAt (dcell c ⟨28, by decide⟩) () N)
    ∗ cred (tallyAt (dcell c ⟨29, by decide⟩) () N)
    ∗ cred (tallyAt (dcell c ⟨30, by decide⟩) () N)
    ∗ cred (tallyAt (dcell c ⟨31, by decide⟩) () N)
    ∗ cred (tallyAt (dcell c ⟨32, by decide⟩) () N)
    ∗ cred (tallyAt (dcell c ⟨33, by decide⟩) () N)
    ∗ cred (tallyAt (dcell c ⟨42, by decide⟩) () N)
    ∗ cred (tallyAt (dcell c ⟨43, by decide⟩) () N)
    ∗ cred (tallyAt (dcell c ⟨44, by decide⟩) () N)
    ∗ cred (tallyAt (dcell c ⟨45, by decide⟩) () N)
    ∗ cred (tallyAt (dcell c ⟨46, by decide⟩) () N)
    ∗ cred (tallyAt (dcell c ⟨47, by decide⟩) () N)
    ∗ cred (tallyAt (dcell c ⟨48, by decide⟩) () N)
    ∗ cred (tallyAt (dcell c ⟨49, by decide⟩) () N)
    ∗ cred (tallyAt (dcell c ⟨55, by decide⟩) () N)
    ∗ cred (tallyAt (dcell c ⟨56, by decide⟩) () N)
    ∗ cred (tallyAt (dcell c ⟨57, by decide⟩) () N)
    ∗ cred (tallyAt (dcell c ⟨58, by decide⟩) () N)
    ∗ cred (tallyAt (dcell c ⟨59, by decide⟩) () N)
    ∗ cred (tallyAt (dcell c ⟨63, by decide⟩) () N)
    ∗ cred (tallyAt (dcell c ⟨64, by decide⟩) () N)
    ∗ cred (tallyAt (dcell c ⟨65, by decide⟩) () N)
    ∗ dutyTok ER (dcell (py c) ⟨10, by decide⟩) 0 0
    ∗ dutyTok ER (dcell (py c) ⟨11, by decide⟩) 0 0
    ∗ dutyTok ER (dcell (py c) ⟨12, by decide⟩) 0 0
    ∗ dutyTok ER (dcell (py c) ⟨13, by decide⟩) 0 0
    ∗ dutyTok ER (dcell (py c) ⟨14, by decide⟩) 0 0
    ∗ dutyTok ER (dcell (py c) ⟨15, by decide⟩) 0 0
    ∗ dutyTok ER (dcell (py c) ⟨16, by decide⟩) 0 0
    ∗ dutyTok ER (dcell (py c) ⟨17, by decide⟩) 0 0
    ∗ dutyTok ER (dcell (py c) ⟨63, by decide⟩) 0 0
    ∗ dutyTok ER (dcell (py c) ⟨64, by decide⟩) 0 0
    ∗ dutyTok ER (dcell (py c) ⟨65, by decide⟩) 0 0
    ∗ dutyTok ER (dcell (px c) ⟨26, by decide⟩) 0 0
    ∗ dutyTok ER (dcell (px c) ⟨27, by decide⟩) 0 0
    ∗ dutyTok ER (dcell (px c) ⟨28, by decide⟩) 0 0
    ∗ dutyTok ER (dcell (px c) ⟨29, by decide⟩) 0 0
    ∗ dutyTok ER (dcell (px c) ⟨30, by decide⟩) 0 0
    ∗ dutyTok ER (dcell (px c) ⟨31, by decide⟩) 0 0
    ∗ dutyTok ER (dcell (px c) ⟨32, by decide⟩) 0 0
    ∗ dutyTok ER (dcell (px c) ⟨33, by decide⟩) 0 0
    ∗ dutyTok ER (dcell (px c) ⟨55, by decide⟩) 0 0
    ∗ dutyTok ER (dcell (px c) ⟨56, by decide⟩) 0 0
    ∗ dutyTok ER (dcell (px c) ⟨57, by decide⟩) 0 0
    ∗ dutyTok ER (dcell (pz c) ⟨42, by decide⟩) 0 0
    ∗ dutyTok ER (dcell (pz c) ⟨43, by decide⟩) 0 0
    ∗ dutyTok ER (dcell (pz c) ⟨44, by decide⟩) 0 0
    ∗ dutyTok ER (dcell (pz c) ⟨45, by decide⟩) 0 0
    ∗ dutyTok ER (dcell (pz c) ⟨46, by decide⟩) 0 0
    ∗ dutyTok ER (dcell (pz c) ⟨47, by decide⟩) 0 0
    ∗ dutyTok ER (dcell (pz c) ⟨48, by decide⟩) 0 0
    ∗ dutyTok ER (dcell (pz c) ⟨49, by decide⟩) 0 0
    ∗ dutyTok ER (dcell (pz c) ⟨58, by decide⟩) 0 0
    ∗ dutyTok ER (dcell (pz c) ⟨59, by decide⟩) 0 0
    ∗ (∃ f : (chk yB 0).view.ty.Contents (Elt F), ((chk yB 0).view.loc (c : Thread nD τ) ↦[(chk yB 0).view.set]{fullShare} f))
    ∗ (∃ f : (chk yB 1).view.ty.Contents (Elt F), ((chk yB 1).view.loc (c : Thread nD τ) ↦[(chk yB 1).view.set]{fullShare} f))
    ∗ (∃ f : (chk yB 2).view.ty.Contents (Elt F), ((chk yB 2).view.loc (c : Thread nD τ) ↦[(chk yB 2).view.set]{fullShare} f))
    ∗ (∃ f : (chk yB 3).view.ty.Contents (Elt F), ((chk yB 3).view.loc (c : Thread nD τ) ↦[(chk yB 3).view.set]{fullShare} f))
    ∗ (∃ f : (chk yB 4).view.ty.Contents (Elt F), ((chk yB 4).view.loc (c : Thread nD τ) ↦[(chk yB 4).view.set]{fullShare} f))
    ∗ (∃ f : (chk yB 5).view.ty.Contents (Elt F), ((chk yB 5).view.loc (c : Thread nD τ) ↦[(chk yB 5).view.set]{fullShare} f))
    ∗ (∃ f : (chk yB 6).view.ty.Contents (Elt F), ((chk yB 6).view.loc (c : Thread nD τ) ↦[(chk yB 6).view.set]{fullShare} f))
    ∗ (∃ f : (chk yB 7).view.ty.Contents (Elt F), ((chk yB 7).view.loc (c : Thread nD τ) ↦[(chk yB 7).view.set]{fullShare} f))
    ∗ (∃ f : (chk xB 0).view.ty.Contents (Elt F), ((chk xB 0).view.loc (c : Thread nD τ) ↦[(chk xB 0).view.set]{fullShare} f))
    ∗ (∃ f : (chk xB 1).view.ty.Contents (Elt F), ((chk xB 1).view.loc (c : Thread nD τ) ↦[(chk xB 1).view.set]{fullShare} f))
    ∗ (∃ f : (chk xB 2).view.ty.Contents (Elt F), ((chk xB 2).view.loc (c : Thread nD τ) ↦[(chk xB 2).view.set]{fullShare} f))
    ∗ (∃ f : (chk xB 3).view.ty.Contents (Elt F), ((chk xB 3).view.loc (c : Thread nD τ) ↦[(chk xB 3).view.set]{fullShare} f))
    ∗ (∃ f : (chk xB 4).view.ty.Contents (Elt F), ((chk xB 4).view.loc (c : Thread nD τ) ↦[(chk xB 4).view.set]{fullShare} f))
    ∗ (∃ f : (chk xB 5).view.ty.Contents (Elt F), ((chk xB 5).view.loc (c : Thread nD τ) ↦[(chk xB 5).view.set]{fullShare} f))
    ∗ (∃ f : (chk xB 6).view.ty.Contents (Elt F), ((chk xB 6).view.loc (c : Thread nD τ) ↦[(chk xB 6).view.set]{fullShare} f))
    ∗ (∃ f : (chk xB 7).view.ty.Contents (Elt F), ((chk xB 7).view.loc (c : Thread nD τ) ↦[(chk xB 7).view.set]{fullShare} f))
    ∗ (∃ f : (chk zB 0).view.ty.Contents (Elt F), ((chk zB 0).view.loc (c : Thread nD τ) ↦[(chk zB 0).view.set]{fullShare} f))
    ∗ (∃ f : (chk zB 1).view.ty.Contents (Elt F), ((chk zB 1).view.loc (c : Thread nD τ) ↦[(chk zB 1).view.set]{fullShare} f))
    ∗ (∃ f : (chk zB 2).view.ty.Contents (Elt F), ((chk zB 2).view.loc (c : Thread nD τ) ↦[(chk zB 2).view.set]{fullShare} f))
    ∗ (∃ f : (chk zB 3).view.ty.Contents (Elt F), ((chk zB 3).view.loc (c : Thread nD τ) ↦[(chk zB 3).view.set]{fullShare} f))
    ∗ (∃ f : (chk zB 4).view.ty.Contents (Elt F), ((chk zB 4).view.loc (c : Thread nD τ) ↦[(chk zB 4).view.set]{fullShare} f))
    ∗ (∃ f : (chk zB 5).view.ty.Contents (Elt F), ((chk zB 5).view.loc (c : Thread nD τ) ↦[(chk zB 5).view.set]{fullShare} f))
    ∗ (∃ f : (chk zB 6).view.ty.Contents (Elt F), ((chk zB 6).view.loc (c : Thread nD τ) ↦[(chk zB 6).view.set]{fullShare} f))
    ∗ (∃ f : (chk zB 7).view.ty.Contents (Elt F), ((chk zB 7).view.loc (c : Thread nD τ) ↦[(chk zB 7).view.set]{fullShare} f))
    ∗ (∃ f : (chk dB 0).view.ty.Contents (Elt F), ((chk dB 0).view.loc (c : Thread nD τ) ↦[(chk dB 0).view.set]{fullShare} f))
    ∗ (∃ f : (chk dB 1).view.ty.Contents (Elt F), ((chk dB 1).view.loc (c : Thread nD τ) ↦[(chk dB 1).view.set]{fullShare} f))
    ∗ (∃ f : (chk dB 2).view.ty.Contents (Elt F), ((chk dB 2).view.loc (c : Thread nD τ) ↦[(chk dB 2).view.set]{fullShare} f))
    ∗ (∃ f : (chk dB 3).view.ty.Contents (Elt F), ((chk dB 3).view.loc (c : Thread nD τ) ↦[(chk dB 3).view.set]{fullShare} f))
    ∗ (∃ f : (chk dB 4).view.ty.Contents (Elt F), ((chk dB 4).view.loc (c : Thread nD τ) ↦[(chk dB 4).view.set]{fullShare} f))
    ∗ (∃ f : (chk dB 5).view.ty.Contents (Elt F), ((chk dB 5).view.loc (c : Thread nD τ) ↦[(chk dB 5).view.set]{fullShare} f))
    ∗ (∃ f : (chk dB 6).view.ty.Contents (Elt F), ((chk dB 6).view.loc (c : Thread nD τ) ↦[(chk dB 6).view.set]{fullShare} f))
    ∗ (∃ f : (chk dB 7).view.ty.Contents (Elt F), ((chk dB 7).view.loc (c : Thread nD τ) ↦[(chk dB 7).view.set]{fullShare} f))
    ∗ ((srcY c 0).view.loc (c : Thread nD τ) ↦[(srcY c 0).view.set]{psh 0} xstg m c)
    ∗ ((srcY c 1).view.loc (c : Thread nD τ) ↦[(srcY c 1).view.set]{psh 1} xstg m c)
    ∗ ((srcY c 2).view.loc (c : Thread nD τ) ↦[(srcY c 2).view.set]{psh 2} xstg m c)
    ∗ ((srcY c 3).view.loc (c : Thread nD τ) ↦[(srcY c 3).view.set]{psh 3} xstg m c)
    ∗ ((srcY c 4).view.loc (c : Thread nD τ) ↦[(srcY c 4).view.set]{psh 4} xstg m c)
    ∗ ((srcY c 5).view.loc (c : Thread nD τ) ↦[(srcY c 5).view.set]{psh 5} xstg m c)
    ∗ ((srcY c 6).view.loc (c : Thread nD τ) ↦[(srcY c 6).view.set]{psh 6} xstg m c)
    ∗ ((srcY c 7).view.loc (c : Thread nD τ) ↦[(srcY c 7).view.set]{psh 7} xstg m c)
    ∗ ((srcD c 0).view.loc (c : Thread nD τ) ↦[(srcD c 0).view.set]{psh 8} xstg m c)
    ∗ ((srcD c 1).view.loc (c : Thread nD τ) ↦[(srcD c 1).view.set]{psh 9} xstg m c)
    ∗ ((srcD c 2).view.loc (c : Thread nD τ) ↦[(srcD c 2).view.set]{psh 10} xstg m c)
    ∗ (xM.view.loc (c : Thread nD τ) ↦[xM.view.set]{xqL} xstg m c)
    ∗ owes (c : Thread nD τ) (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N + tallyAt (dcell (pz c) ⟨49, by decide⟩) () N + tallyAt (dcell (px c) ⟨33, by decide⟩) () N + tallyAt (dcell (pz c) ⟨48, by decide⟩) () N + tallyAt (dcell (px c) ⟨32, by decide⟩) () N + tallyAt (dcell (pz c) ⟨47, by decide⟩) () N + tallyAt (dcell (px c) ⟨31, by decide⟩) () N + tallyAt (dcell (pz c) ⟨46, by decide⟩) () N + tallyAt (dcell (px c) ⟨30, by decide⟩) () N + tallyAt (dcell (pz c) ⟨45, by decide⟩) () N + tallyAt (dcell (px c) ⟨29, by decide⟩) () N + tallyAt (dcell (pz c) ⟨44, by decide⟩) () N + tallyAt (dcell (px c) ⟨28, by decide⟩) () N + tallyAt (dcell (pz c) ⟨43, by decide⟩) () N + tallyAt (dcell (px c) ⟨27, by decide⟩) () N + tallyAt (dcell (pz c) ⟨42, by decide⟩) () N + tallyAt (dcell (px c) ⟨26, by decide⟩) () N + tallyAt (dcell (py c) ⟨65, by decide⟩) () N + tallyAt (dcell (py c) ⟨64, by decide⟩) () N + tallyAt (dcell (py c) ⟨63, by decide⟩) () N + tallyAt (dcell (py c) ⟨17, by decide⟩) () N + tallyAt (dcell (py c) ⟨16, by decide⟩) () N + tallyAt (dcell (py c) ⟨15, by decide⟩) () N + tallyAt (dcell (py c) ⟨14, by decide⟩) () N + tallyAt (dcell (py c) ⟨13, by decide⟩) () N + tallyAt (dcell (py c) ⟨12, by decide⟩) () N + tallyAt (dcell (py c) ⟨11, by decide⟩) () N + tallyAt (dcell (py c) ⟨10, by decide⟩) () N + tallyAt (barCell (pz c)) () 1 + tallyAt (barCell (px c)) () 1 + tallyAt (barCell (py c)) () 1) W
    ∗ (oM.view.loc (c : Thread nD τ) ↦[oM.view.set]{fullShare} o))

def stEnd (c : Dev nD) (W : Waits sig Unit) (o : oM.view.ty.Contents (Elt F)) : sProp 𝕄 :=
  iprop((xM.view.loc (c : Thread nD τ) ↦[xM.view.set]{xqL} xstg m c)
    ∗ atPos ER (barCell c) 1 ∅ 0
    ∗ semVal (dcell c ⟨10, by decide⟩) 0
    ∗ ((chk yB 0).view.loc (c : Thread nD τ) ↦[(chk yB 0).view.set]{qC} Ych m c 0)
    ∗ semVal (dcell c ⟨11, by decide⟩) 0
    ∗ ((chk yB 1).view.loc (c : Thread nD τ) ↦[(chk yB 1).view.set]{qC} Ych m c 1)
    ∗ semVal (dcell c ⟨12, by decide⟩) 0
    ∗ ((chk yB 2).view.loc (c : Thread nD τ) ↦[(chk yB 2).view.set]{qC} Ych m c 2)
    ∗ semVal (dcell c ⟨13, by decide⟩) 0
    ∗ ((chk yB 3).view.loc (c : Thread nD τ) ↦[(chk yB 3).view.set]{qC} Ych m c 3)
    ∗ semVal (dcell c ⟨14, by decide⟩) 0
    ∗ ((chk yB 4).view.loc (c : Thread nD τ) ↦[(chk yB 4).view.set]{qC} Ych m c 4)
    ∗ semVal (dcell c ⟨15, by decide⟩) 0
    ∗ ((chk yB 5).view.loc (c : Thread nD τ) ↦[(chk yB 5).view.set]{qC} Ych m c 5)
    ∗ semVal (dcell c ⟨16, by decide⟩) 0
    ∗ ((chk yB 6).view.loc (c : Thread nD τ) ↦[(chk yB 6).view.set]{qC} Ych m c 6)
    ∗ semVal (dcell c ⟨17, by decide⟩) 0
    ∗ ((chk yB 7).view.loc (c : Thread nD τ) ↦[(chk yB 7).view.set]{qC} Ych m c 7)
    ∗ semVal (dcell c ⟨42, by decide⟩) 0
    ∗ ((chk zB 0).view.loc (c : Thread nD τ) ↦[(chk zB 0).view.set]{fullShare} Zch m c 0)
    ∗ semVal (dcell c ⟨26, by decide⟩) 0
    ∗ ((chk xB 0).view.loc (c : Thread nD τ) ↦[(chk xB 0).view.set]{fullShare} Xch m c 0)
    ∗ semVal (dcell c ⟨43, by decide⟩) 0
    ∗ ((chk zB 1).view.loc (c : Thread nD τ) ↦[(chk zB 1).view.set]{fullShare} Zch m c 1)
    ∗ semVal (dcell c ⟨27, by decide⟩) 0
    ∗ ((chk xB 1).view.loc (c : Thread nD τ) ↦[(chk xB 1).view.set]{fullShare} Xch m c 1)
    ∗ semVal (dcell c ⟨44, by decide⟩) 0
    ∗ ((chk zB 2).view.loc (c : Thread nD τ) ↦[(chk zB 2).view.set]{fullShare} Zch m c 2)
    ∗ semVal (dcell c ⟨28, by decide⟩) 0
    ∗ ((chk xB 2).view.loc (c : Thread nD τ) ↦[(chk xB 2).view.set]{fullShare} Xch m c 2)
    ∗ semVal (dcell c ⟨45, by decide⟩) 0
    ∗ ((chk zB 3).view.loc (c : Thread nD τ) ↦[(chk zB 3).view.set]{rsh 1} Zch m c 3)
    ∗ semVal (dcell c ⟨29, by decide⟩) 0
    ∗ ((chk xB 3).view.loc (c : Thread nD τ) ↦[(chk xB 3).view.set]{fullShare} Xch m c 3)
    ∗ semVal (dcell c ⟨46, by decide⟩) 0
    ∗ ((chk zB 4).view.loc (c : Thread nD τ) ↦[(chk zB 4).view.set]{rsh 1} Zch m c 4)
    ∗ semVal (dcell c ⟨30, by decide⟩) 0
    ∗ ((chk xB 4).view.loc (c : Thread nD τ) ↦[(chk xB 4).view.set]{fullShare} Xch m c 4)
    ∗ semVal (dcell c ⟨47, by decide⟩) 0
    ∗ ((chk zB 5).view.loc (c : Thread nD τ) ↦[(chk zB 5).view.set]{rsh 1} Zch m c 5)
    ∗ semVal (dcell c ⟨31, by decide⟩) 0
    ∗ ((chk xB 5).view.loc (c : Thread nD τ) ↦[(chk xB 5).view.set]{fullShare} Xch m c 5)
    ∗ semVal (dcell c ⟨48, by decide⟩) 0
    ∗ ((chk zB 6).view.loc (c : Thread nD τ) ↦[(chk zB 6).view.set]{fullShare} Zch m c 6)
    ∗ semVal (dcell c ⟨32, by decide⟩) 0
    ∗ ((chk xB 6).view.loc (c : Thread nD τ) ↦[(chk xB 6).view.set]{rsh 1} Xch m c 6)
    ∗ semVal (dcell c ⟨49, by decide⟩) 0
    ∗ ((chk zB 7).view.loc (c : Thread nD τ) ↦[(chk zB 7).view.set]{fullShare} Zch m c 7)
    ∗ semVal (dcell c ⟨33, by decide⟩) 0
    ∗ ((chk xB 7).view.loc (c : Thread nD τ) ↦[(chk xB 7).view.set]{rsh 1} Xch m c 7)
    ∗ semVal (dcell c ⟨63, by decide⟩) 0
    ∗ ((chk dB 0).view.loc (c : Thread nD τ) ↦[(chk dB 0).view.set]{fullShare} Dch m c 0)
    ∗ semVal (dcell c ⟨64, by decide⟩) 0
    ∗ ((chk dB 1).view.loc (c : Thread nD τ) ↦[(chk dB 1).view.set]{fullShare} Dch m c 1)
    ∗ semVal (dcell c ⟨65, by decide⟩) 0
    ∗ ((chk dB 2).view.loc (c : Thread nD τ) ↦[(chk dB 2).view.set]{fullShare} Dch m c 2)
    ∗ semVal (dcell c ⟨55, by decide⟩) 0
    ∗ ((chk dB 3).view.loc (c : Thread nD τ) ↦[(chk dB 3).view.set]{fullShare} Dch m c 3)
    ∗ semVal (dcell c ⟨56, by decide⟩) 0
    ∗ ((chk dB 4).view.loc (c : Thread nD τ) ↦[(chk dB 4).view.set]{fullShare} Dch m c 4)
    ∗ semVal (dcell c ⟨57, by decide⟩) 0
    ∗ ((chk dB 5).view.loc (c : Thread nD τ) ↦[(chk dB 5).view.set]{fullShare} Dch m c 5)
    ∗ semVal (dcell c ⟨58, by decide⟩) 0
    ∗ ((chk dB 6).view.loc (c : Thread nD τ) ↦[(chk dB 6).view.set]{fullShare} Dch m c 6)
    ∗ semVal (dcell c ⟨59, by decide⟩) 0
    ∗ ((chk dB 7).view.loc (c : Thread nD τ) ↦[(chk dB 7).view.set]{fullShare} Dch m c 7)
    ∗ semVal (dcell c ⟨2, by decide⟩) 0
    ∗ ((srcY c 0).view.loc (c : Thread nD τ) ↦[(srcY c 0).view.set]{psh 0} xstg m c)
    ∗ semVal (dcell c ⟨3, by decide⟩) 0
    ∗ ((srcY c 1).view.loc (c : Thread nD τ) ↦[(srcY c 1).view.set]{psh 1} xstg m c)
    ∗ semVal (dcell c ⟨4, by decide⟩) 0
    ∗ ((srcY c 2).view.loc (c : Thread nD τ) ↦[(srcY c 2).view.set]{psh 2} xstg m c)
    ∗ semVal (dcell c ⟨5, by decide⟩) 0
    ∗ ((srcY c 3).view.loc (c : Thread nD τ) ↦[(srcY c 3).view.set]{psh 3} xstg m c)
    ∗ semVal (dcell c ⟨6, by decide⟩) 0
    ∗ ((srcY c 4).view.loc (c : Thread nD τ) ↦[(srcY c 4).view.set]{psh 4} xstg m c)
    ∗ semVal (dcell c ⟨7, by decide⟩) 0
    ∗ ((srcY c 5).view.loc (c : Thread nD τ) ↦[(srcY c 5).view.set]{psh 5} xstg m c)
    ∗ semVal (dcell c ⟨8, by decide⟩) 0
    ∗ ((srcY c 6).view.loc (c : Thread nD τ) ↦[(srcY c 6).view.set]{psh 6} xstg m c)
    ∗ semVal (dcell c ⟨9, by decide⟩) 0
    ∗ ((srcY c 7).view.loc (c : Thread nD τ) ↦[(srcY c 7).view.set]{psh 7} xstg m c)
    ∗ semVal (dcell c ⟨60, by decide⟩) 0
    ∗ ((srcD c 0).view.loc (c : Thread nD τ) ↦[(srcD c 0).view.set]{psh 8} xstg m c)
    ∗ semVal (dcell c ⟨61, by decide⟩) 0
    ∗ ((srcD c 1).view.loc (c : Thread nD τ) ↦[(srcD c 1).view.set]{psh 9} xstg m c)
    ∗ semVal (dcell c ⟨62, by decide⟩) 0
    ∗ ((srcD c 2).view.loc (c : Thread nD τ) ↦[(srcD c 2).view.set]{psh 10} xstg m c)
    ∗ semVal (dcell c ⟨18, by decide⟩) 0
    ∗ ((chk yB 0).view.loc (c : Thread nD τ) ↦[(chk yB 0).view.set]{qA} Ych m c 0)
    ∗ semVal (dcell c ⟨19, by decide⟩) 0
    ∗ ((chk yB 1).view.loc (c : Thread nD τ) ↦[(chk yB 1).view.set]{qA} Ych m c 1)
    ∗ semVal (dcell c ⟨20, by decide⟩) 0
    ∗ ((chk yB 2).view.loc (c : Thread nD τ) ↦[(chk yB 2).view.set]{qA} Ych m c 2)
    ∗ semVal (dcell c ⟨21, by decide⟩) 0
    ∗ ((chk yB 3).view.loc (c : Thread nD τ) ↦[(chk yB 3).view.set]{qA} Ych m c 3)
    ∗ semVal (dcell c ⟨22, by decide⟩) 0
    ∗ ((chk yB 4).view.loc (c : Thread nD τ) ↦[(chk yB 4).view.set]{qA} Ych m c 4)
    ∗ semVal (dcell c ⟨23, by decide⟩) 0
    ∗ ((chk yB 5).view.loc (c : Thread nD τ) ↦[(chk yB 5).view.set]{qA} Ych m c 5)
    ∗ semVal (dcell c ⟨24, by decide⟩) 0
    ∗ ((chk yB 6).view.loc (c : Thread nD τ) ↦[(chk yB 6).view.set]{qA} Ych m c 6)
    ∗ semVal (dcell c ⟨25, by decide⟩) 0
    ∗ ((chk yB 7).view.loc (c : Thread nD τ) ↦[(chk yB 7).view.set]{qA} Ych m c 7)
    ∗ semVal (dcell c ⟨34, by decide⟩) 0
    ∗ ((chk yB 0).view.loc (c : Thread nD τ) ↦[(chk yB 0).view.set]{qB} Ych m c 0)
    ∗ semVal (dcell c ⟨35, by decide⟩) 0
    ∗ ((chk yB 1).view.loc (c : Thread nD τ) ↦[(chk yB 1).view.set]{qB} Ych m c 1)
    ∗ semVal (dcell c ⟨36, by decide⟩) 0
    ∗ ((chk yB 2).view.loc (c : Thread nD τ) ↦[(chk yB 2).view.set]{qB} Ych m c 2)
    ∗ semVal (dcell c ⟨37, by decide⟩) 0
    ∗ ((chk yB 3).view.loc (c : Thread nD τ) ↦[(chk yB 3).view.set]{qB} Ych m c 3)
    ∗ semVal (dcell c ⟨38, by decide⟩) 0
    ∗ ((chk yB 4).view.loc (c : Thread nD τ) ↦[(chk yB 4).view.set]{qB} Ych m c 4)
    ∗ semVal (dcell c ⟨39, by decide⟩) 0
    ∗ ((chk yB 5).view.loc (c : Thread nD τ) ↦[(chk yB 5).view.set]{qB} Ych m c 5)
    ∗ semVal (dcell c ⟨40, by decide⟩) 0
    ∗ ((chk yB 6).view.loc (c : Thread nD τ) ↦[(chk yB 6).view.set]{qB} Ych m c 6)
    ∗ semVal (dcell c ⟨41, by decide⟩) 0
    ∗ ((chk yB 7).view.loc (c : Thread nD τ) ↦[(chk yB 7).view.set]{qB} Ych m c 7)
    ∗ semVal (dcell c ⟨50, by decide⟩) 0
    ∗ ((chk zB 3).view.loc (c : Thread nD τ) ↦[(chk zB 3).view.set]{qA} Zch m c 3)
    ∗ semVal (dcell c ⟨51, by decide⟩) 0
    ∗ ((chk zB 4).view.loc (c : Thread nD τ) ↦[(chk zB 4).view.set]{qA} Zch m c 4)
    ∗ semVal (dcell c ⟨52, by decide⟩) 0
    ∗ ((chk zB 5).view.loc (c : Thread nD τ) ↦[(chk zB 5).view.set]{qA} Zch m c 5)
    ∗ semVal (dcell c ⟨53, by decide⟩) 0
    ∗ ((chk xB 6).view.loc (c : Thread nD τ) ↦[(chk xB 6).view.set]{qA} Xch m c 6)
    ∗ semVal (dcell c ⟨54, by decide⟩) 0
    ∗ ((chk xB 7).view.loc (c : Thread nD τ) ↦[(chk xB 7).view.set]{qA} Xch m c 7)
    ∗ owes (c : Thread nD τ) (0) (insert (SemLoc.dma ⟨54, by decide⟩, ()) (insert (SemLoc.dma ⟨53, by decide⟩, ()) (insert (SemLoc.dma ⟨52, by decide⟩, ()) (insert (SemLoc.dma ⟨51, by decide⟩, ()) (insert (SemLoc.dma ⟨50, by decide⟩, ()) (insert (SemLoc.dma ⟨41, by decide⟩, ()) (insert (SemLoc.dma ⟨40, by decide⟩, ()) (insert (SemLoc.dma ⟨39, by decide⟩, ()) (insert (SemLoc.dma ⟨38, by decide⟩, ()) (insert (SemLoc.dma ⟨37, by decide⟩, ()) (insert (SemLoc.dma ⟨36, by decide⟩, ()) (insert (SemLoc.dma ⟨35, by decide⟩, ()) (insert (SemLoc.dma ⟨34, by decide⟩, ()) (insert (SemLoc.dma ⟨25, by decide⟩, ()) (insert (SemLoc.dma ⟨24, by decide⟩, ()) (insert (SemLoc.dma ⟨23, by decide⟩, ()) (insert (SemLoc.dma ⟨22, by decide⟩, ()) (insert (SemLoc.dma ⟨21, by decide⟩, ()) (insert (SemLoc.dma ⟨20, by decide⟩, ()) (insert (SemLoc.dma ⟨19, by decide⟩, ()) (insert (SemLoc.dma ⟨18, by decide⟩, ()) (insert (SemLoc.dma ⟨62, by decide⟩, ()) (insert (SemLoc.dma ⟨61, by decide⟩, ()) (insert (SemLoc.dma ⟨60, by decide⟩, ()) (insert (SemLoc.dma ⟨9, by decide⟩, ()) (insert (SemLoc.dma ⟨8, by decide⟩, ()) (insert (SemLoc.dma ⟨7, by decide⟩, ()) (insert (SemLoc.dma ⟨6, by decide⟩, ()) (insert (SemLoc.dma ⟨5, by decide⟩, ()) (insert (SemLoc.dma ⟨4, by decide⟩, ()) (insert (SemLoc.dma ⟨3, by decide⟩, ()) (insert (SemLoc.dma ⟨2, by decide⟩, ()) (insert (SemLoc.dma ⟨59, by decide⟩, ()) (insert (SemLoc.dma ⟨58, by decide⟩, ()) (insert (SemLoc.dma ⟨57, by decide⟩, ()) (insert (SemLoc.dma ⟨56, by decide⟩, ()) (insert (SemLoc.dma ⟨55, by decide⟩, ()) (insert (SemLoc.dma ⟨65, by decide⟩, ()) (insert (SemLoc.dma ⟨64, by decide⟩, ()) (insert (SemLoc.dma ⟨63, by decide⟩, ()) (insert (SemLoc.dma ⟨33, by decide⟩, ()) (insert (SemLoc.dma ⟨49, by decide⟩, ()) (insert (SemLoc.dma ⟨32, by decide⟩, ()) (insert (SemLoc.dma ⟨48, by decide⟩, ()) (insert (SemLoc.dma ⟨31, by decide⟩, ()) (insert (SemLoc.dma ⟨47, by decide⟩, ()) (insert (SemLoc.dma ⟨30, by decide⟩, ()) (insert (SemLoc.dma ⟨46, by decide⟩, ()) (insert (SemLoc.dma ⟨29, by decide⟩, ()) (insert (SemLoc.dma ⟨45, by decide⟩, ()) (insert (SemLoc.dma ⟨28, by decide⟩, ()) (insert (SemLoc.dma ⟨44, by decide⟩, ()) (insert (SemLoc.dma ⟨27, by decide⟩, ()) (insert (SemLoc.dma ⟨43, by decide⟩, ()) (insert (SemLoc.dma ⟨26, by decide⟩, ()) (insert (SemLoc.dma ⟨42, by decide⟩, ()) (insert (SemLoc.dma ⟨17, by decide⟩, ()) (insert (SemLoc.dma ⟨16, by decide⟩, ()) (insert (SemLoc.dma ⟨15, by decide⟩, ()) (insert (SemLoc.dma ⟨14, by decide⟩, ()) (insert (SemLoc.dma ⟨13, by decide⟩, ()) (insert (SemLoc.dma ⟨12, by decide⟩, ()) (insert (SemLoc.dma ⟨11, by decide⟩, ()) (insert (SemLoc.dma ⟨10, by decide⟩, ()) (insert (SemLoc.reg barS, ()) W)))))))))))))))))))))))))))))))))))))))))))))))))))))))))))))))))
    ∗ (oM.view.loc (c : Thread nD τ) ↦[oM.view.set]{fullShare} (stD m c 7 (stD m c 6 (stD m c 5 (stD m c 4 (stD m c 3 (stD m c 2 (stD m c 1 (stD m c 0 (stX m c 7 (stZ m c 7 (stX m c 6 (stZ m c 6 (stX m c 5 (stZ m c 5 (stX m c 4 (stZ m c 4 (stX m c 3 (stZ m c 3 (stX m c 2 (stZ m c 2 (stX m c 1 (stZ m c 1 (stX m c 0 (stZ m c 0 (stC m c 7 (stC m c 6 (stC m c 5 (stC m c 4 (stC m c 3 (stC m c 2 (stC m c 1 (stC m c 0 o))))))))))))))))))))))))))))))))))

-- Each part's statement is applied to the atoms it takes; everything else is framed past it.
set_option maxHeartbeats 16000000 in
theorem body_chain (h1 : Spec_1 m) (h2 : Spec_2 m) (h3 : Spec_3 m) (h4 : Spec_4 m) (h5 : Spec_5 m) (h6 : Spec_6 m) (h7 : Spec_7 m) (h8 : Spec_8 m) (h9 : Spec_9 m) (h10 : Spec_10 m) (h11 : Spec_11 m) (h12 : Spec_12 m) (h13 : Spec_13 m) (h14 : Spec_14 m) (h15 : Spec_15 m) (h16 : Spec_16 m) (h17 : Spec_17 m) (h18 : Spec_18 m) (h19 : Spec_19 m) (h20 : Spec_20 m) (h21 : Spec_21 m) (h22 : Spec_22 m) (h23 : Spec_23 m) (h24 : Spec_24 m) (h25 : Spec_25 m) (h26 : Spec_26 m) (h27 : Spec_27 m) (h28 : Spec_28 m) (h29 : Spec_29 m) (h30 : Spec_30 m) (h31 : Spec_31 m) (h32 : Spec_32 m) (h33 : Spec_33 m) (h34 : Spec_34 m) (h35 : Spec_35 m) (h36 : Spec_36 m) (h37 : Spec_37 m) (h38 : Spec_38 m) (h39 : Spec_39 m) (h40 : Spec_40 m) (h41 : Spec_41 m) (h42 : Spec_42 m) (h43 : Spec_43 m)
    (K : Dev nD × Fin 65 → ℕ) (c : Dev nD) (W : Waits sig Unit) (o : oM.view.ty.Contents (Elt F)) :
    iprop(□ (flatInv m K c ∗ flatReached (F := F) c) ∗ levAts L lv ∗ st0 m c W o)
      ⊢ wp frame (wpE (defs₀ (F := F)) 𝒱₀ (c : Thread nD τ) none) Set.univ
          (cc0_body (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15) (fun _ => stEnd m c W o) := by
  rw [cc0_body_eq_skeleton]; unfold cc0_body_skel
  rw [k0_part44_eq_skeleton]; unfold k0_part44_skel
  unfold st0
  iintro ⟨#HIR, #Hlev, Htb_py, Htb_px, Htb_pz, Hatb, Hcb, Hat_2, Hat_3, Hat_4, Hat_5, Hat_6, Hat_7, Hat_8, Hat_9, Hat_10, Hat_11, Hat_12, Hat_13, Hat_14, Hat_15, Hat_16, Hat_17, Hat_18, Hat_19, Hat_20, Hat_21, Hat_22, Hat_23, Hat_24, Hat_25, Hat_26, Hat_27, Hat_28, Hat_29, Hat_30, Hat_31, Hat_32, Hat_33, Hat_34, Hat_35, Hat_36, Hat_37, Hat_38, Hat_39, Hat_40, Hat_41, Hat_42, Hat_43, Hat_44, Hat_45, Hat_46, Hat_47, Hat_48, Hat_49, Hat_50, Hat_51, Hat_52, Hat_53, Hat_54, Hat_55, Hat_56, Hat_57, Hat_58, Hat_59, Hat_60, Hat_61, Hat_62, Hat_63, Hat_64, Hat_65, Ht_2, Ht_3, Ht_4, Ht_5, Ht_6, Ht_7, Ht_8, Ht_9, Ht_18, Ht_19, Ht_20, Ht_21, Ht_22, Ht_23, Ht_24, Ht_25, Ht_34, Ht_35, Ht_36, Ht_37, Ht_38, Ht_39, Ht_40, Ht_41, Ht_50, Ht_51, Ht_52, Ht_53, Ht_54, Ht_60, Ht_61, Ht_62, Hc_10, Hc_11, Hc_12, Hc_13, Hc_14, Hc_15, Hc_16, Hc_17, Hc_26, Hc_27, Hc_28, Hc_29, Hc_30, Hc_31, Hc_32, Hc_33, Hc_42, Hc_43, Hc_44, Hc_45, Hc_46, Hc_47, Hc_48, Hc_49, Hc_55, Hc_56, Hc_57, Hc_58, Hc_59, Hc_63, Hc_64, Hc_65, Htp_10, Htp_11, Htp_12, Htp_13, Htp_14, Htp_15, Htp_16, Htp_17, Htp_63, Htp_64, Htp_65, Htp_26, Htp_27, Htp_28, Htp_29, Htp_30, Htp_31, Htp_32, Htp_33, Htp_55, Htp_56, Htp_57, Htp_42, Htp_43, Htp_44, Htp_45, Htp_46, Htp_47, Htp_48, Htp_49, Htp_58, Htp_59, Hown_yB_0, Hown_yB_1, Hown_yB_2, Hown_yB_3, Hown_yB_4, Hown_yB_5, Hown_yB_6, Hown_yB_7, Hown_xB_0, Hown_xB_1, Hown_xB_2, Hown_xB_3, Hown_xB_4, Hown_xB_5, Hown_xB_6, Hown_xB_7, Hown_zB_0, Hown_zB_1, Hown_zB_2, Hown_zB_3, Hown_zB_4, Hown_zB_5, Hown_zB_6, Hown_zB_7, Hown_dB_0, Hown_dB_1, Hown_dB_2, Hown_dB_3, Hown_dB_4, Hown_dB_5, Hown_dB_6, Hown_dB_7, Hxs_0, Hxs_1, Hxs_2, Hxs_3, Hxs_4, Hxs_5, Hxs_6, Hxs_7, Hxd_0, Hxd_1, Hxd_2, Hxl, HO, Hout⟩
  iapply bind_cps

  iapply bind_cps
  iapply (spec_cps (h1 K c W o))
  isplitl []
  · isplitl []
    · imodintro; iexact HIR
    isplitl []
    · iexact Hlev
    unfold pre_1
    iempintro
  iintro %r ⟨Hpost, %hr⟩
  unfold post_1
  iclear Hpost
  obtain ⟨d0, v2, v5, v8, v19, v20, v23, v25, v28, v31, v33, v34⟩ := r
  have hd : c = d0 := hr.symm
  subst hd

  iapply bind_cps
  iapply (spec_cps (h2 K c W o v2 v5 v8 v19 v20 v23 v25 v33 v34))
  isplitl [Htb_py Hown_yB_0 Hown_yB_1 Hown_yB_2 Hown_yB_3 Hown_yB_4 Hown_yB_5 Hown_yB_6 Hown_yB_7 Hown_dB_0 Hown_dB_1 Hown_dB_2 Htb_px Hown_xB_0 Hown_xB_1 Hown_xB_2 Hown_xB_3 Hown_xB_4 Hown_xB_5 Hown_xB_6 Hown_xB_7 Hown_dB_3 Hown_dB_4 Hown_dB_5 Htb_pz Hown_zB_0 Hown_zB_1 Hown_zB_2 Hown_zB_3 Hown_zB_4 Hown_zB_5 Hown_zB_6 Hown_zB_7 Hown_dB_6 Hown_dB_7 Hatb Hcb HO]
  · isplitl []
    · imodintro; iexact HIR
    isplitl []
    · iexact Hlev
    unfold pre_2
    isplitl [Htb_py]; · iexact Htb_py
    isplitl [Hown_yB_0]; · iexact Hown_yB_0
    isplitl [Hown_yB_1]; · iexact Hown_yB_1
    isplitl [Hown_yB_2]; · iexact Hown_yB_2
    isplitl [Hown_yB_3]; · iexact Hown_yB_3
    isplitl [Hown_yB_4]; · iexact Hown_yB_4
    isplitl [Hown_yB_5]; · iexact Hown_yB_5
    isplitl [Hown_yB_6]; · iexact Hown_yB_6
    isplitl [Hown_yB_7]; · iexact Hown_yB_7
    isplitl [Hown_dB_0]; · iexact Hown_dB_0
    isplitl [Hown_dB_1]; · iexact Hown_dB_1
    isplitl [Hown_dB_2]; · iexact Hown_dB_2
    isplitl [Htb_px]; · iexact Htb_px
    isplitl [Hown_xB_0]; · iexact Hown_xB_0
    isplitl [Hown_xB_1]; · iexact Hown_xB_1
    isplitl [Hown_xB_2]; · iexact Hown_xB_2
    isplitl [Hown_xB_3]; · iexact Hown_xB_3
    isplitl [Hown_xB_4]; · iexact Hown_xB_4
    isplitl [Hown_xB_5]; · iexact Hown_xB_5
    isplitl [Hown_xB_6]; · iexact Hown_xB_6
    isplitl [Hown_xB_7]; · iexact Hown_xB_7
    isplitl [Hown_dB_3]; · iexact Hown_dB_3
    isplitl [Hown_dB_4]; · iexact Hown_dB_4
    isplitl [Hown_dB_5]; · iexact Hown_dB_5
    isplitl [Htb_pz]; · iexact Htb_pz
    isplitl [Hown_zB_0]; · iexact Hown_zB_0
    isplitl [Hown_zB_1]; · iexact Hown_zB_1
    isplitl [Hown_zB_2]; · iexact Hown_zB_2
    isplitl [Hown_zB_3]; · iexact Hown_zB_3
    isplitl [Hown_zB_4]; · iexact Hown_zB_4
    isplitl [Hown_zB_5]; · iexact Hown_zB_5
    isplitl [Hown_zB_6]; · iexact Hown_zB_6
    isplitl [Hown_zB_7]; · iexact Hown_zB_7
    isplitl [Hown_dB_6]; · iexact Hown_dB_6
    isplitl [Hown_dB_7]; · iexact Hown_dB_7
    isplitl [Hatb]; · iexact Hatb
    isplitl [Hcb]; · iexact Hcb
    iexact HO
  iintro %r ⟨Hpost, %hr⟩
  unfold post_2
  icases Hpost with ⟨Hatb1, Hp_yB_0, Hp_yB_1, Hp_yB_2, Hp_yB_3, Hp_yB_4, Hp_yB_5, Hp_yB_6, Hp_yB_7, Hp_dB_0, Hp_dB_1, Hp_dB_2, Hp_xB_0, Hp_xB_1, Hp_xB_2, Hp_xB_3, Hp_xB_4, Hp_xB_5, Hp_xB_6, Hp_xB_7, Hp_dB_3, Hp_dB_4, Hp_dB_5, Hp_zB_0, Hp_zB_1, Hp_zB_2, Hp_zB_3, Hp_zB_4, Hp_zB_5, Hp_zB_6, Hp_zB_7, Hp_dB_6, Hp_dB_7, HO⟩
  obtain ⟨v35, v36, v61, v62⟩ := r

  iapply bind_cps
  iapply (spec_cps (h3 K c _ o v2 v8 v19 v25 v61 v62))
  isplitl [Hxs_0 Ht_2 Htp_10 Hp_yB_0 Hxs_1 Ht_3 Htp_11 Hp_yB_1 HO]
  · isplitl []
    · imodintro; iexact HIR
    isplitl []
    · iexact Hlev
    unfold pre_3
    isplitl [Hxs_0]; · iexact Hxs_0
    isplitl [Ht_2]; · iexact Ht_2
    isplitl [Htp_10]; · iexact Htp_10
    isplitl [Hp_yB_0]; · iexact Hp_yB_0
    isplitl [Hxs_1]; · iexact Hxs_1
    isplitl [Ht_3]; · iexact Ht_3
    isplitl [Htp_11]; · iexact Htp_11
    isplitl [Hp_yB_1]; · iexact Hp_yB_1
    iexact HO
  iintro %r ⟨Hpost, %hr⟩
  unfold post_3
  icases Hpost with ⟨Hcs_2, Hcs_3, HO⟩

  iapply bind_cps
  iapply (spec_cps (h4 K c _ o v2 v8 v19 v25))
  isplitl [Hxs_2 Ht_4 Htp_12 Hp_yB_2 Hxs_3 Ht_5 Htp_13 Hp_yB_3 HO]
  · isplitl []
    · imodintro; iexact HIR
    isplitl []
    · iexact Hlev
    unfold pre_4
    isplitl [Hxs_2]; · iexact Hxs_2
    isplitl [Ht_4]; · iexact Ht_4
    isplitl [Htp_12]; · iexact Htp_12
    isplitl [Hp_yB_2]; · iexact Hp_yB_2
    isplitl [Hxs_3]; · iexact Hxs_3
    isplitl [Ht_5]; · iexact Ht_5
    isplitl [Htp_13]; · iexact Htp_13
    isplitl [Hp_yB_3]; · iexact Hp_yB_3
    iexact HO
  iintro %r ⟨Hpost, %hr⟩
  unfold post_4
  icases Hpost with ⟨Hcs_4, Hcs_5, HO⟩

  iapply bind_cps
  iapply (spec_cps (h5 K c _ o v2 v8 v19 v25))
  isplitl [Hxs_4 Ht_6 Htp_14 Hp_yB_4 Hxs_5 Ht_7 Htp_15 Hp_yB_5 Hxs_6 Ht_8 Htp_16 Hp_yB_6 HO]
  · isplitl []
    · imodintro; iexact HIR
    isplitl []
    · iexact Hlev
    unfold pre_5
    isplitl [Hxs_4]; · iexact Hxs_4
    isplitl [Ht_6]; · iexact Ht_6
    isplitl [Htp_14]; · iexact Htp_14
    isplitl [Hp_yB_4]; · iexact Hp_yB_4
    isplitl [Hxs_5]; · iexact Hxs_5
    isplitl [Ht_7]; · iexact Ht_7
    isplitl [Htp_15]; · iexact Htp_15
    isplitl [Hp_yB_5]; · iexact Hp_yB_5
    isplitl [Hxs_6]; · iexact Hxs_6
    isplitl [Ht_8]; · iexact Ht_8
    isplitl [Htp_16]; · iexact Htp_16
    isplitl [Hp_yB_6]; · iexact Hp_yB_6
    iexact HO
  iintro %r ⟨Hpost, %hr⟩
  unfold post_5
  icases Hpost with ⟨Hcs_6, Hcs_7, Hcs_8, HO⟩

  iapply bind_cps
  iapply (spec_cps (h6 K c _ o v2 v8 v19 v35))
  isplitl [Hxs_7 Ht_9 Htp_17 Hp_yB_7 Hxd_0 Ht_60 Htp_63 Hp_dB_0 HO]
  · isplitl []
    · imodintro; iexact HIR
    isplitl []
    · iexact Hlev
    unfold pre_6
    isplitl [Hxs_7]; · iexact Hxs_7
    isplitl [Ht_9]; · iexact Ht_9
    isplitl [Htp_17]; · iexact Htp_17
    isplitl [Hp_yB_7]; · iexact Hp_yB_7
    isplitl [Hxd_0]; · iexact Hxd_0
    isplitl [Ht_60]; · iexact Ht_60
    isplitl [Htp_63]; · iexact Htp_63
    isplitl [Hp_dB_0]; · iexact Hp_dB_0
    iexact HO
  iintro %r ⟨Hpost, %hr⟩
  unfold post_6
  icases Hpost with ⟨Hcs_9, Hcs_60, HO⟩
  obtain ⟨v195, c0_i32_130⟩ := r

  iapply bind_cps
  iapply (spec_cps (h7 K c _ o v2 v8 v19 v35 v195 c0_i32_130))
  isplitl [Hxd_1 Ht_61 Htp_64 Hp_dB_1 Hxd_2 Ht_62 Htp_65 Hp_dB_2 HO]
  · isplitl []
    · imodintro; iexact HIR
    isplitl []
    · iexact Hlev
    unfold pre_7
    isplitl [Hxd_1]; · iexact Hxd_1
    isplitl [Ht_61]; · iexact Ht_61
    isplitl [Htp_64]; · iexact Htp_64
    isplitl [Hp_dB_1]; · iexact Hp_dB_1
    isplitl [Hxd_2]; · iexact Hxd_2
    isplitl [Ht_62]; · iexact Ht_62
    isplitl [Htp_65]; · iexact Htp_65
    isplitl [Hp_dB_2]; · iexact Hp_dB_2
    iexact HO
  iintro %r ⟨Hpost, %hr⟩
  unfold post_7
  icases Hpost with ⟨Hcs_61, Hcs_62, HO⟩

  iapply bind_cps
  iapply (spec_cps (h8 K c _ o v2 v5 v8 v20 v23 v25 v36))
  isplitl [Hat_10 Hc_10 Ht_18 Htp_26 Hp_xB_0 Ht_34 Htp_42 Hp_zB_0 Hxl HO]
  · isplitl []
    · imodintro; iexact HIR
    isplitl []
    · iexact Hlev
    unfold pre_8
    isplitl [Hat_10]; · iexact Hat_10
    isplitl [Hc_10]; · iexact Hc_10
    isplitl [Ht_18]; · iexact Ht_18
    isplitl [Htp_26]; · iexact Htp_26
    isplitl [Hp_xB_0]; · iexact Hp_xB_0
    isplitl [Ht_34]; · iexact Ht_34
    isplitl [Htp_42]; · iexact Htp_42
    isplitl [Hp_zB_0]; · iexact Hp_zB_0
    isplitl [Hxl]; · iexact Hxl
    iexact HO
  iintro %r ⟨Hpost, %hr⟩
  unfold post_8
  icases Hpost with ⟨Hxl, Hz_10, HyC_0, Hcs_18, Hcs_34, HO⟩
  have hv : r = _ := hr
  subst hv

  iapply bind_cps
  iapply (spec_cps (h9 K c _ o v2 v5 v8 v19 v20 v25))
  isplitl [HyC_0 Hat_11 Hc_11 Ht_19 Htp_27 Hp_xB_1 HO Hout]
  · isplitl []
    · imodintro; iexact HIR
    isplitl []
    · iexact Hlev
    unfold pre_9
    isplitl [HyC_0]; · iexact HyC_0
    isplitl [Hat_11]; · iexact Hat_11
    isplitl [Hc_11]; · iexact Hc_11
    isplitl [Ht_19]; · iexact Ht_19
    isplitl [Htp_27]; · iexact Htp_27
    isplitl [Hp_xB_1]; · iexact Hp_xB_1
    isplitl [HO]; · iexact HO
    iexact Hout
  iintro %v293 ⟨Hpost, %hr⟩
  unfold post_9
  icases Hpost with ⟨HyC_0, Hz_11, HyQ_1, HyC_1, Hcs_19, HO, Hout⟩

  iapply bind_cps
  iapply (spec_cps (h10 K c _ _ v2 v5 v8 v19 v23 v25 v36 v293))
  isplitl [HyQ_1 Ht_35 Htp_43 Hp_zB_1 Hxl HyC_1 HO Hout]
  · isplitl []
    · imodintro; iexact HIR
    isplitl []
    · iexact Hlev
    unfold pre_10
    isplitl [HyQ_1]; · iexact HyQ_1
    isplitl [Ht_35]; · iexact Ht_35
    isplitl [Htp_43]; · iexact Htp_43
    isplitl [Hp_zB_1]; · iexact Hp_zB_1
    isplitl [Hxl]; · iexact Hxl
    isplitl [HyC_1]; · iexact HyC_1
    isplitl [HO]; · iexact HO
    iexact Hout
  iintro %r ⟨Hpost, %hr⟩
  unfold post_10
  icases Hpost with ⟨Hxl, HyC_1, Hcs_35, HO, Hout⟩

  iapply bind_cps
  iapply (spec_cps (h11 K c _ o v2 v5 v8 v20 v23 v25 v36))
  isplitl [Hat_12 Hc_12 Ht_20 Htp_28 Hp_xB_2 Ht_36 Htp_44 Hp_zB_2 Hxl HO]
  · isplitl []
    · imodintro; iexact HIR
    isplitl []
    · iexact Hlev
    unfold pre_11
    isplitl [Hat_12]; · iexact Hat_12
    isplitl [Hc_12]; · iexact Hc_12
    isplitl [Ht_20]; · iexact Ht_20
    isplitl [Htp_28]; · iexact Htp_28
    isplitl [Hp_xB_2]; · iexact Hp_xB_2
    isplitl [Ht_36]; · iexact Ht_36
    isplitl [Htp_44]; · iexact Htp_44
    isplitl [Hp_zB_2]; · iexact Hp_zB_2
    isplitl [Hxl]; · iexact Hxl
    iexact HO
  iintro %r ⟨Hpost, %hr⟩
  unfold post_11
  icases Hpost with ⟨Hxl, Hz_12, HyC_2, Hcs_20, Hcs_36, HO⟩
  have hv : r = _ := hr
  subst hv

  iapply bind_cps
  iapply (spec_cps (h12 K c _ _ v2 v5 v8 v19 v20 v25))
  isplitl [Hat_13 Hc_13 Ht_21 Htp_29 Hp_xB_3 HO Hout]
  · isplitl []
    · imodintro; iexact HIR
    isplitl []
    · iexact Hlev
    unfold pre_12
    isplitl [Hat_13]; · iexact Hat_13
    isplitl [Hc_13]; · iexact Hc_13
    isplitl [Ht_21]; · iexact Ht_21
    isplitl [Htp_29]; · iexact Htp_29
    isplitl [Hp_xB_3]; · iexact Hp_xB_3
    isplitl [HO]; · iexact HO
    iexact Hout
  iintro %r ⟨Hpost, %hr⟩
  unfold post_12
  icases Hpost with ⟨Hz_13, HyQ_3, HyC_3, Hcs_21, HO, Hout⟩
  obtain ⟨v388, v389⟩ := r

  iapply bind_cps
  iapply (spec_cps (h13 K c _ _ v2 v8 v19 v23 v25 v36 v388 v389))
  isplitl [HyQ_3 Ht_37 Htp_45 Hp_zB_3 Hxl HyC_3 Hat_14 Hc_14 HO Hout]
  · isplitl []
    · imodintro; iexact HIR
    isplitl []
    · iexact Hlev
    unfold pre_13
    isplitl [HyQ_3]; · iexact HyQ_3
    isplitl [Ht_37]; · iexact Ht_37
    isplitl [Htp_45]; · iexact Htp_45
    isplitl [Hp_zB_3]; · iexact Hp_zB_3
    isplitl [Hxl]; · iexact Hxl
    isplitl [HyC_3]; · iexact HyC_3
    isplitl [Hat_14]; · iexact Hat_14
    isplitl [Hc_14]; · iexact Hc_14
    isplitl [HO]; · iexact HO
    iexact Hout
  iintro %c8_i32_301 ⟨Hpost, %hr⟩
  unfold post_13
  icases Hpost with ⟨Hxl, HyC_3, Hcs_37, Hz_14, HyA_4, HyQ_4, HyC_4, HO, Hout⟩

  iapply bind_cps
  iapply (spec_cps (h14 K c _ o v2 v5 v8 v20 v23 v25 v36 c8_i32_301))
  isplitl [HyA_4 Ht_22 Htp_30 Hp_xB_4 HyQ_4 Ht_38 Htp_46 Hp_zB_4 Hxl HyC_4 HO]
  · isplitl []
    · imodintro; iexact HIR
    isplitl []
    · iexact Hlev
    unfold pre_14
    isplitl [HyA_4]; · iexact HyA_4
    isplitl [Ht_22]; · iexact Ht_22
    isplitl [Htp_30]; · iexact Htp_30
    isplitl [Hp_xB_4]; · iexact Hp_xB_4
    isplitl [HyQ_4]; · iexact HyQ_4
    isplitl [Ht_38]; · iexact Ht_38
    isplitl [Htp_46]; · iexact Htp_46
    isplitl [Hp_zB_4]; · iexact Hp_zB_4
    isplitl [Hxl]; · iexact Hxl
    isplitl [HyC_4]; · iexact HyC_4
    iexact HO
  iintro %r ⟨Hpost, %hr⟩
  unfold post_14
  icases Hpost with ⟨Hxl, HyC_4, Hcs_22, Hcs_38, HO⟩
  obtain ⟨v453, v455⟩ := r
  have hv : v453 = _ := hr
  subst hv

  iapply bind_cps
  iapply (spec_cps (h15 K c _ _ v2 v5 v8 v19 v20 v23 v455))
  isplitl [Hat_15 Hc_15 Ht_23 Htp_31 Hp_xB_5 HO Hout]
  · isplitl []
    · imodintro; iexact HIR
    isplitl []
    · iexact Hlev
    unfold pre_15
    isplitl [Hat_15]; · iexact Hat_15
    isplitl [Hc_15]; · iexact Hc_15
    isplitl [Ht_23]; · iexact Ht_23
    isplitl [Htp_31]; · iexact Htp_31
    isplitl [Hp_xB_5]; · iexact Hp_xB_5
    isplitl [HO]; · iexact HO
    iexact Hout
  iintro %r ⟨Hpost, %hr⟩
  unfold post_15
  icases Hpost with ⟨Hz_15, HyQ_5, HyC_5, Hcs_23, HO, Hout⟩

  iapply bind_cps
  iapply (spec_cps (h16 K c _ _ v2 v8 v19 v20 v25 v36))
  isplitl [HyQ_5 Ht_39 Htp_47 Hp_zB_5 Hxl HyC_5 Hat_16 Hc_16 HO Hout]
  · isplitl []
    · imodintro; iexact HIR
    isplitl []
    · iexact Hlev
    unfold pre_16
    isplitl [HyQ_5]; · iexact HyQ_5
    isplitl [Ht_39]; · iexact Ht_39
    isplitl [Htp_47]; · iexact Htp_47
    isplitl [Hp_zB_5]; · iexact Hp_zB_5
    isplitl [Hxl]; · iexact Hxl
    isplitl [HyC_5]; · iexact HyC_5
    isplitl [Hat_16]; · iexact Hat_16
    isplitl [Hc_16]; · iexact Hc_16
    isplitl [HO]; · iexact HO
    iexact Hout
  iintro %r ⟨Hpost, %hr⟩
  unfold post_16
  icases Hpost with ⟨Hxl, HyC_5, Hcs_39, Hz_16, HyA_6, HyQ_6, HyC_6, HO, Hout⟩
  obtain ⟨v517, c4_i32_375⟩ := r

  iapply bind_cps
  iapply (spec_cps (h17 K c _ _ v2 v5 v8 v23 v25 v36 v517 c4_i32_375))
  isplitl [HyA_6 Ht_24 Htp_32 Hp_xB_6 HyQ_6 Ht_40 Htp_48 Hp_zB_6 Hxl HyC_6 HO Hout]
  · isplitl []
    · imodintro; iexact HIR
    isplitl []
    · iexact Hlev
    unfold pre_17
    isplitl [HyA_6]; · iexact HyA_6
    isplitl [Ht_24]; · iexact Ht_24
    isplitl [Htp_32]; · iexact Htp_32
    isplitl [Hp_xB_6]; · iexact Hp_xB_6
    isplitl [HyQ_6]; · iexact HyQ_6
    isplitl [Ht_40]; · iexact Ht_40
    isplitl [Htp_48]; · iexact Htp_48
    isplitl [Hp_zB_6]; · iexact Hp_zB_6
    isplitl [Hxl]; · iexact Hxl
    isplitl [HyC_6]; · iexact HyC_6
    isplitl [HO]; · iexact HO
    iexact Hout
  iintro %r ⟨Hpost, %hr⟩
  unfold post_17
  icases Hpost with ⟨Hxl, HyC_6, Hcs_24, Hcs_40, HO, Hout⟩

  iapply bind_cps
  iapply (spec_cps (h18 K c _ o v2 v5 v8 v19 v20 v23))
  isplitl [Hat_17 Hc_17 Ht_25 Htp_33 Hp_xB_7 HO]
  · isplitl []
    · imodintro; iexact HIR
    isplitl []
    · iexact Hlev
    unfold pre_18
    isplitl [Hat_17]; · iexact Hat_17
    isplitl [Hc_17]; · iexact Hc_17
    isplitl [Ht_25]; · iexact Ht_25
    isplitl [Htp_33]; · iexact Htp_33
    isplitl [Hp_xB_7]; · iexact Hp_xB_7
    iexact HO
  iintro %r ⟨Hpost, %hr⟩
  unfold post_18
  icases Hpost with ⟨Hz_17, HyQ_7, HyC_7, Hcs_25, HO⟩

  iapply bind_cps
  iapply (spec_cps (h19 K c _ _ v2 v5 v23 v25 v31 v36))
  isplitl [HyQ_7 Ht_41 Htp_49 Hp_zB_7 Hxl HyC_7 Hat_42 Hc_42 HO Hout]
  · isplitl []
    · imodintro; iexact HIR
    isplitl []
    · iexact Hlev
    unfold pre_19
    isplitl [HyQ_7]; · iexact HyQ_7
    isplitl [Ht_41]; · iexact Ht_41
    isplitl [Htp_49]; · iexact Htp_49
    isplitl [Hp_zB_7]; · iexact Hp_zB_7
    isplitl [Hxl]; · iexact Hxl
    isplitl [HyC_7]; · iexact HyC_7
    isplitl [Hat_42]; · iexact Hat_42
    isplitl [Hc_42]; · iexact Hc_42
    isplitl [HO]; · iexact HO
    iexact Hout
  iintro %r ⟨Hpost, %hr⟩
  unfold post_19
  icases Hpost with ⟨Hxl, HyC_7, Hcs_41, Hz_42, HzL_0, HO, Hout⟩
  have hv : r = _ := hr
  subst hv

  iapply bind_cps
  iapply (spec_cps (h20 K c _ _ v2 v5 v8 v20 v28 v31 v36))
  isplitl [HzL_0 Hat_26 Hc_26 Hxl HO Hout]
  · isplitl []
    · imodintro; iexact HIR
    isplitl []
    · iexact Hlev
    unfold pre_20
    isplitl [HzL_0]; · iexact HzL_0
    isplitl [Hat_26]; · iexact Hat_26
    isplitl [Hc_26]; · iexact Hc_26
    isplitl [Hxl]; · iexact Hxl
    isplitl [HO]; · iexact HO
    iexact Hout
  iintro %r ⟨Hpost, %hr⟩
  unfold post_20
  icases Hpost with ⟨HzL_0, Hxl, Hz_26, HxL_0, HO, Hout⟩
  obtain ⟨v644, v645⟩ := r

  iapply bind_cps
  iapply (spec_cps (h21 K c _ _ v5 v8 v20 v23 v28 v31 v36 v644 v645))
  isplitl [Hat_43 Hc_43 Hxl Hat_27 Hc_27 HO Hout]
  · isplitl []
    · imodintro; iexact HIR
    isplitl []
    · iexact Hlev
    unfold pre_21
    isplitl [Hat_43]; · iexact Hat_43
    isplitl [Hc_43]; · iexact Hc_43
    isplitl [Hxl]; · iexact Hxl
    isplitl [Hat_27]; · iexact Hat_27
    isplitl [Hc_27]; · iexact Hc_27
    isplitl [HO]; · iexact HO
    iexact Hout
  iintro %v676 ⟨Hpost, %hr⟩
  unfold post_21
  icases Hpost with ⟨Hxl, Hz_43, HzL_1, Hz_27, HxL_1, HO, Hout⟩

  iapply bind_cps
  iapply (spec_cps (h22 K c _ _ v2 v5 v23 v28 v31 v36 v676))
  isplitl [Hxl HxL_1 Hat_44 Hc_44 HO Hout]
  · isplitl []
    · imodintro; iexact HIR
    isplitl []
    · iexact Hlev
    unfold pre_22
    isplitl [Hxl]; · iexact Hxl
    isplitl [HxL_1]; · iexact HxL_1
    isplitl [Hat_44]; · iexact Hat_44
    isplitl [Hc_44]; · iexact Hc_44
    isplitl [HO]; · iexact HO
    iexact Hout
  iintro %r ⟨Hpost, %hr⟩
  unfold post_22
  icases Hpost with ⟨Hxl, HxL_1, Hz_44, HzL_2, HO, Hout⟩

  iapply bind_cps
  iapply (spec_cps (h23 K c _ _ v2 v5 v8 v20 v23 v28 v36))
  isplitl [Hat_28 Hc_28 Hxl HO Hout]
  · isplitl []
    · imodintro; iexact HIR
    isplitl []
    · iexact Hlev
    unfold pre_23
    isplitl [Hat_28]; · iexact Hat_28
    isplitl [Hc_28]; · iexact Hc_28
    isplitl [Hxl]; · iexact Hxl
    isplitl [HO]; · iexact HO
    iexact Hout
  iintro %r ⟨Hpost, %hr⟩
  unfold post_23
  icases Hpost with ⟨Hxl, Hz_28, HxL_2, HO, Hout⟩

  iapply bind_cps
  iapply (spec_cps (h24 K c _ _ v5 v8 v20 v31 v36))
  isplitl [Hat_45 Hc_45 Ht_50 Htp_55 Hp_dB_3 Hxl HO Hout]
  · isplitl []
    · imodintro; iexact HIR
    isplitl []
    · iexact Hlev
    unfold pre_24
    isplitl [Hat_45]; · iexact Hat_45
    isplitl [Hc_45]; · iexact Hc_45
    isplitl [Ht_50]; · iexact Ht_50
    isplitl [Htp_55]; · iexact Htp_55
    isplitl [Hp_dB_3]; · iexact Hp_dB_3
    isplitl [Hxl]; · iexact Hxl
    isplitl [HO]; · iexact HO
    iexact Hout
  iintro %r ⟨Hpost, %hr⟩
  unfold post_24
  icases Hpost with ⟨Hxl, Hz_45, HzL_3, Hcs_50, HO, Hout⟩

  iapply bind_cps
  iapply (spec_cps (h25 K c _ _ v2 v5 v8 v20 v23 v28 v36))
  isplitl [Hat_29 Hc_29 Hxl Hat_46 Hc_46 HO Hout]
  · isplitl []
    · imodintro; iexact HIR
    isplitl []
    · iexact Hlev
    unfold pre_25
    isplitl [Hat_29]; · iexact Hat_29
    isplitl [Hc_29]; · iexact Hc_29
    isplitl [Hxl]; · iexact Hxl
    isplitl [Hat_46]; · iexact Hat_46
    isplitl [Hc_46]; · iexact Hc_46
    isplitl [HO]; · iexact HO
    iexact Hout
  iintro %r ⟨Hpost, %hr⟩
  unfold post_25
  icases Hpost with ⟨Hxl, Hz_29, HxL_3, Hz_46, HzA_4, HzL_4, HO, Hout⟩

  iapply bind_cps
  iapply (spec_cps (h26 K c _ _ v5 v8 v20 v28 v31 v36))
  isplitl [HzA_4 Ht_51 Htp_56 Hp_dB_4 Hxl HzL_4 Hat_30 Hc_30 HO Hout]
  · isplitl []
    · imodintro; iexact HIR
    isplitl []
    · iexact Hlev
    unfold pre_26
    isplitl [HzA_4]; · iexact HzA_4
    isplitl [Ht_51]; · iexact Ht_51
    isplitl [Htp_56]; · iexact Htp_56
    isplitl [Hp_dB_4]; · iexact Hp_dB_4
    isplitl [Hxl]; · iexact Hxl
    isplitl [HzL_4]; · iexact HzL_4
    isplitl [Hat_30]; · iexact Hat_30
    isplitl [Hc_30]; · iexact Hc_30
    isplitl [HO]; · iexact HO
    iexact Hout
  iintro %r ⟨Hpost, %hr⟩
  unfold post_26
  icases Hpost with ⟨Hxl, HzL_4, Hcs_51, Hz_30, HxL_4, HO, Hout⟩

  iapply bind_cps
  iapply (spec_cps (h27 K c _ _ v2 v5 v8 v20 v23 v28 v31))
  isplitl [Hxl HxL_4 Hat_47 Hc_47 Ht_52 Htp_57 Hp_dB_5 HO Hout]
  · isplitl []
    · imodintro; iexact HIR
    isplitl []
    · iexact Hlev
    unfold pre_27
    isplitl [Hxl]; · iexact Hxl
    isplitl [HxL_4]; · iexact HxL_4
    isplitl [Hat_47]; · iexact Hat_47
    isplitl [Hc_47]; · iexact Hc_47
    isplitl [Ht_52]; · iexact Ht_52
    isplitl [Htp_57]; · iexact Htp_57
    isplitl [Hp_dB_5]; · iexact Hp_dB_5
    isplitl [HO]; · iexact HO
    iexact Hout
  iintro %v865 ⟨Hpost, %hr⟩
  unfold post_27
  icases Hpost with ⟨Hxl, HxL_4, Hz_47, HzL_5, Hcs_52, HO, Hout⟩

  iapply bind_cps
  iapply (spec_cps (h28 K c _ _ v5 v8 v20 v28 v31 v36 v865))
  isplitl [Hxl HzL_5 Hat_31 Hc_31 HO Hout]
  · isplitl []
    · imodintro; iexact HIR
    isplitl []
    · iexact Hlev
    unfold pre_28
    isplitl [Hxl]; · iexact Hxl
    isplitl [HzL_5]; · iexact HzL_5
    isplitl [Hat_31]; · iexact Hat_31
    isplitl [Hc_31]; · iexact Hc_31
    isplitl [HO]; · iexact HO
    iexact Hout
  iintro %r ⟨Hpost, %hr⟩
  unfold post_28
  icases Hpost with ⟨Hxl, HzL_5, Hz_31, HxL_5, HO, Hout⟩
  have hv : r = _ := hr
  subst hv

  iapply bind_cps
  iapply (spec_cps (h29 K c _ _ v2 v5 v8 v20 v23 v31 v36))
  isplitl [Hat_48 Hc_48 Hxl HO Hout]
  · isplitl []
    · imodintro; iexact HIR
    isplitl []
    · iexact Hlev
    unfold pre_29
    isplitl [Hat_48]; · iexact Hat_48
    isplitl [Hc_48]; · iexact Hc_48
    isplitl [Hxl]; · iexact Hxl
    isplitl [HO]; · iexact HO
    iexact Hout
  iintro %r ⟨Hpost, %hr⟩
  unfold post_29
  icases Hpost with ⟨Hxl, Hz_48, HzL_6, HO, Hout⟩

  iapply bind_cps
  iapply (spec_cps (h30 K c _ _ v2 v5 v23 v28 v36))
  isplitl [Hat_32 Hc_32 Ht_53 Htp_58 Hp_dB_6 Hxl HO Hout]
  · isplitl []
    · imodintro; iexact HIR
    isplitl []
    · iexact Hlev
    unfold pre_30
    isplitl [Hat_32]; · iexact Hat_32
    isplitl [Hc_32]; · iexact Hc_32
    isplitl [Ht_53]; · iexact Ht_53
    isplitl [Htp_58]; · iexact Htp_58
    isplitl [Hp_dB_6]; · iexact Hp_dB_6
    isplitl [Hxl]; · iexact Hxl
    isplitl [HO]; · iexact HO
    iexact Hout
  iintro %r ⟨Hpost, %hr⟩
  unfold post_30
  icases Hpost with ⟨Hxl, Hz_32, HxL_6, Hcs_53, HO, Hout⟩

  iapply bind_cps
  iapply (spec_cps (h31 K c _ _ v2 v5 v8 v20 v31 v36))
  isplitl [Hat_49 Hc_49 Hxl Hat_33 Hc_33 HO Hout]
  · isplitl []
    · imodintro; iexact HIR
    isplitl []
    · iexact Hlev
    unfold pre_31
    isplitl [Hat_49]; · iexact Hat_49
    isplitl [Hc_49]; · iexact Hc_49
    isplitl [Hxl]; · iexact Hxl
    isplitl [Hat_33]; · iexact Hat_33
    isplitl [Hc_33]; · iexact Hc_33
    isplitl [HO]; · iexact HO
    iexact Hout
  iintro %v990 ⟨Hpost, %hr⟩
  unfold post_31
  icases Hpost with ⟨Hxl, Hz_49, HzL_7, Hz_33, HxA_7, HxL_7, HO, Hout⟩

  iapply bind_cps
  iapply (spec_cps (h32 K c _ _ v2 v8 v19 v23 v28 v35 v36 v990))
  isplitl [HxA_7 Ht_54 Htp_59 Hp_dB_7 Hxl HxL_7 Hat_63 Hc_63 HO Hout]
  · isplitl []
    · imodintro; iexact HIR
    isplitl []
    · iexact Hlev
    unfold pre_32
    isplitl [HxA_7]; · iexact HxA_7
    isplitl [Ht_54]; · iexact Ht_54
    isplitl [Htp_59]; · iexact Htp_59
    isplitl [Hp_dB_7]; · iexact Hp_dB_7
    isplitl [Hxl]; · iexact Hxl
    isplitl [HxL_7]; · iexact HxL_7
    isplitl [Hat_63]; · iexact Hat_63
    isplitl [Hc_63]; · iexact Hc_63
    isplitl [HO]; · iexact HO
    iexact Hout
  iintro %v1023 ⟨Hpost, %hr⟩
  unfold post_32
  icases Hpost with ⟨Hxl, HxL_7, Hcs_54, Hz_63, HdL_0, HO, Hout⟩

  iapply bind_cps
  iapply (spec_cps (h33 K c _ _ v2 v8 v19 v35 v36 v1023))
  isplitl [Hxl HdL_0 Hat_64 Hc_64 HO Hout]
  · isplitl []
    · imodintro; iexact HIR
    isplitl []
    · iexact Hlev
    unfold pre_33
    isplitl [Hxl]; · iexact Hxl
    isplitl [HdL_0]; · iexact HdL_0
    isplitl [Hat_64]; · iexact Hat_64
    isplitl [Hc_64]; · iexact Hc_64
    isplitl [HO]; · iexact HO
    iexact Hout
  iintro %r ⟨Hpost, %hr⟩
  unfold post_33
  icases Hpost with ⟨Hxl, HdL_0, Hz_64, HdL_1, HO, Hout⟩

  iapply bind_cps
  iapply (spec_cps (h34 K c _ _ v2 v5 v8 v19 v20 v35 v36))
  isplitl [Hat_65 Hc_65 Hxl HO Hout]
  · isplitl []
    · imodintro; iexact HIR
    isplitl []
    · iexact Hlev
    unfold pre_34
    isplitl [Hat_65]; · iexact Hat_65
    isplitl [Hc_65]; · iexact Hc_65
    isplitl [Hxl]; · iexact Hxl
    isplitl [HO]; · iexact HO
    iexact Hout
  iintro %r ⟨Hpost, %hr⟩
  unfold post_34
  icases Hpost with ⟨Hxl, Hz_65, HdL_2, HO, Hout⟩

  iapply bind_cps
  iapply (spec_cps (h35 K c _ _ v5 v8 v20 v35 v36))
  isplitl [Hat_55 Hc_55 Hxl Hat_56 Hc_56 HO Hout]
  · isplitl []
    · imodintro; iexact HIR
    isplitl []
    · iexact Hlev
    unfold pre_35
    isplitl [Hat_55]; · iexact Hat_55
    isplitl [Hc_55]; · iexact Hc_55
    isplitl [Hxl]; · iexact Hxl
    isplitl [Hat_56]; · iexact Hat_56
    isplitl [Hc_56]; · iexact Hc_56
    isplitl [HO]; · iexact HO
    iexact Hout
  iintro %r ⟨Hpost, %hr⟩
  unfold post_35
  icases Hpost with ⟨Hxl, Hz_55, HdL_3, Hz_56, HdL_4, HO, Hout⟩
  obtain ⟨v1119, v1120, c128_i32_857⟩ := r
  have hv : v1119 = _ := hr
  subst hv

  iapply bind_cps
  iapply (spec_cps (h36 K c _ _ v5 v8 v20 v35 v36 v1120 c128_i32_857))
  isplitl [Hat_57 Hc_57 Hxl HO Hout]
  · isplitl []
    · imodintro; iexact HIR
    isplitl []
    · iexact Hlev
    unfold pre_36
    isplitl [Hat_57]; · iexact Hat_57
    isplitl [Hc_57]; · iexact Hc_57
    isplitl [Hxl]; · iexact Hxl
    isplitl [HO]; · iexact HO
    iexact Hout
  iintro %r ⟨Hpost, %hr⟩
  unfold post_36
  icases Hpost with ⟨Hxl, Hz_57, HdL_5, HO, Hout⟩

  iapply bind_cps
  iapply (spec_cps (h37 K c _ _ v5 v8 v20 v35 v36))
  isplitl [Hat_58 Hc_58 Hxl Hat_59 Hc_59 HO Hout]
  · isplitl []
    · imodintro; iexact HIR
    isplitl []
    · iexact Hlev
    unfold pre_37
    isplitl [Hat_58]; · iexact Hat_58
    isplitl [Hc_58]; · iexact Hc_58
    isplitl [Hxl]; · iexact Hxl
    isplitl [Hat_59]; · iexact Hat_59
    isplitl [Hc_59]; · iexact Hc_59
    isplitl [HO]; · iexact HO
    iexact Hout
  iintro %r ⟨Hpost, %hr⟩
  unfold post_37
  icases Hpost with ⟨Hxl, Hz_58, HdL_6, Hz_59, HdL_7, HO, Hout⟩
  have hv : r = _ := hr
  subst hv

  iapply bind_cps
  iapply (spec_cps (h38 K c _ _ v35))
  isplitl [HdL_7 Hat_2 Hcs_2 Hat_3 Hcs_3 Hat_4 Hcs_4 Hat_5 Hcs_5 HO Hout]
  · isplitl []
    · imodintro; iexact HIR
    isplitl []
    · iexact Hlev
    unfold pre_38
    isplitl [HdL_7]; · iexact HdL_7
    isplitl [Hat_2]; · iexact Hat_2
    isplitl [Hcs_2]; · iexact Hcs_2
    isplitl [Hat_3]; · iexact Hat_3
    isplitl [Hcs_3]; · iexact Hcs_3
    isplitl [Hat_4]; · iexact Hat_4
    isplitl [Hcs_4]; · iexact Hcs_4
    isplitl [Hat_5]; · iexact Hat_5
    isplitl [Hcs_5]; · iexact Hcs_5
    isplitl [HO]; · iexact HO
    iexact Hout
  iintro %r ⟨Hpost, %hr⟩
  unfold post_38
  icases Hpost with ⟨HdL_7, Hz_2, Hback_2, Hz_3, Hback_3, Hz_4, Hback_4, Hz_5, Hback_5, HO, Hout⟩

  iapply bind_cps
  iapply (spec_cps (h39 K c _ o))
  isplitl [Hat_6 Hcs_6 Hat_7 Hcs_7 Hat_8 Hcs_8 Hat_9 Hcs_9 Hat_60 Hcs_60 HO]
  · isplitl []
    · imodintro; iexact HIR
    isplitl []
    · iexact Hlev
    unfold pre_39
    isplitl [Hat_6]; · iexact Hat_6
    isplitl [Hcs_6]; · iexact Hcs_6
    isplitl [Hat_7]; · iexact Hat_7
    isplitl [Hcs_7]; · iexact Hcs_7
    isplitl [Hat_8]; · iexact Hat_8
    isplitl [Hcs_8]; · iexact Hcs_8
    isplitl [Hat_9]; · iexact Hat_9
    isplitl [Hcs_9]; · iexact Hcs_9
    isplitl [Hat_60]; · iexact Hat_60
    isplitl [Hcs_60]; · iexact Hcs_60
    iexact HO
  iintro %r ⟨Hpost, %hr⟩
  unfold post_39
  icases Hpost with ⟨Hz_6, Hback_6, Hz_7, Hback_7, Hz_8, Hback_8, Hz_9, Hback_9, Hz_60, Hback_60, HO⟩

  iapply bind_cps
  iapply (spec_cps (h40 K c _ o))
  isplitl [Hat_61 Hcs_61 Hat_62 Hcs_62 Hat_18 Hcs_18 Hat_19 Hcs_19 Hat_20 Hcs_20 HO]
  · isplitl []
    · imodintro; iexact HIR
    isplitl []
    · iexact Hlev
    unfold pre_40
    isplitl [Hat_61]; · iexact Hat_61
    isplitl [Hcs_61]; · iexact Hcs_61
    isplitl [Hat_62]; · iexact Hat_62
    isplitl [Hcs_62]; · iexact Hcs_62
    isplitl [Hat_18]; · iexact Hat_18
    isplitl [Hcs_18]; · iexact Hcs_18
    isplitl [Hat_19]; · iexact Hat_19
    isplitl [Hcs_19]; · iexact Hcs_19
    isplitl [Hat_20]; · iexact Hat_20
    isplitl [Hcs_20]; · iexact Hcs_20
    iexact HO
  iintro %r ⟨Hpost, %hr⟩
  unfold post_40
  icases Hpost with ⟨Hz_61, Hback_61, Hz_62, Hback_62, Hz_18, Hback_18, Hz_19, Hback_19, Hz_20, Hback_20, HO⟩

  iapply bind_cps
  iapply (spec_cps (h41 K c _ o))
  isplitl [Hat_21 Hcs_21 Hat_22 Hcs_22 Hat_23 Hcs_23 Hat_24 Hcs_24 Hat_25 Hcs_25 HO]
  · isplitl []
    · imodintro; iexact HIR
    isplitl []
    · iexact Hlev
    unfold pre_41
    isplitl [Hat_21]; · iexact Hat_21
    isplitl [Hcs_21]; · iexact Hcs_21
    isplitl [Hat_22]; · iexact Hat_22
    isplitl [Hcs_22]; · iexact Hcs_22
    isplitl [Hat_23]; · iexact Hat_23
    isplitl [Hcs_23]; · iexact Hcs_23
    isplitl [Hat_24]; · iexact Hat_24
    isplitl [Hcs_24]; · iexact Hcs_24
    isplitl [Hat_25]; · iexact Hat_25
    isplitl [Hcs_25]; · iexact Hcs_25
    iexact HO
  iintro %r ⟨Hpost, %hr⟩
  unfold post_41
  icases Hpost with ⟨Hz_21, Hback_21, Hz_22, Hback_22, Hz_23, Hback_23, Hz_24, Hback_24, Hz_25, Hback_25, HO⟩

  iapply bind_cps
  iapply (spec_cps (h42 K c _ o))
  isplitl [Hat_34 Hcs_34 Hat_35 Hcs_35 Hat_36 Hcs_36 Hat_37 Hcs_37 Hat_38 Hcs_38 HO]
  · isplitl []
    · imodintro; iexact HIR
    isplitl []
    · iexact Hlev
    unfold pre_42
    isplitl [Hat_34]; · iexact Hat_34
    isplitl [Hcs_34]; · iexact Hcs_34
    isplitl [Hat_35]; · iexact Hat_35
    isplitl [Hcs_35]; · iexact Hcs_35
    isplitl [Hat_36]; · iexact Hat_36
    isplitl [Hcs_36]; · iexact Hcs_36
    isplitl [Hat_37]; · iexact Hat_37
    isplitl [Hcs_37]; · iexact Hcs_37
    isplitl [Hat_38]; · iexact Hat_38
    isplitl [Hcs_38]; · iexact Hcs_38
    iexact HO
  iintro %r ⟨Hpost, %hr⟩
  unfold post_42
  icases Hpost with ⟨Hz_34, Hback_34, Hz_35, Hback_35, Hz_36, Hback_36, Hz_37, Hback_37, Hz_38, Hback_38, HO⟩

  iapply bind_cps
  iapply (spec_cps (h43 K c _ o))
  isplitl [Hat_39 Hcs_39 Hat_40 Hcs_40 Hat_41 Hcs_41 Hat_50 Hcs_50 Hat_51 Hcs_51 HO]
  · isplitl []
    · imodintro; iexact HIR
    isplitl []
    · iexact Hlev
    unfold pre_43
    isplitl [Hat_39]; · iexact Hat_39
    isplitl [Hcs_39]; · iexact Hcs_39
    isplitl [Hat_40]; · iexact Hat_40
    isplitl [Hcs_40]; · iexact Hcs_40
    isplitl [Hat_41]; · iexact Hat_41
    isplitl [Hcs_41]; · iexact Hcs_41
    isplitl [Hat_50]; · iexact Hat_50
    isplitl [Hcs_50]; · iexact Hcs_50
    isplitl [Hat_51]; · iexact Hat_51
    isplitl [Hcs_51]; · iexact Hcs_51
    iexact HO
  iintro %r ⟨Hpost, %hr⟩
  unfold post_43
  icases Hpost with ⟨Hz_39, Hback_39, Hz_40, Hback_40, Hz_41, Hback_41, Hz_50, Hback_50, Hz_51, Hback_51, HO⟩

  icases HIR with ⟨HI, HR⟩
  unfold flatInv flatReached
  icases HI with ⟨HIb, HIby, HIbx, HIbz, HI2, HI3, HI4, HI5, HI6, HI7, HI8, HI9, HI10, HI11, HI12, HI13, HI14, HI15, HI16, HI17, HI18, HI19, HI20, HI21, HI22, HI23, HI24, HI25, HI26, HI27, HI28, HI29, HI30, HI31, HI32, HI33, HI34, HI35, HI36, HI37, HI38, HI39, HI40, HI41, HI42, HI43, HI44, HI45, HI46, HI47, HI48, HI49, HI50, HI51, HI52, HI53, HI54, HI55, HI56, HI57, HI58, HI59, HI60, HI61, HI62, HI63, HI64, HI65, HIy10, HIy11, HIy12, HIy13, HIy14, HIy15, HIy16, HIy17, HIy63, HIy64, HIy65, HIx26, HIx27, HIx28, HIx29, HIx30, HIx31, HIx32, HIx33, HIx55, HIx56, HIx57, HIz42, HIz43, HIz44, HIz45, HIz46, HIz47, HIz48, HIz49, HIz58, HIz59⟩
  icases HR with ⟨HRby, HRbx, HRbz, HR2, HR3, HR4, HR5, HR6, HR7, HR8, HR9, HR10, HR11, HR12, HR13, HR14, HR15, HR16, HR17, HR18, HR19, HR20, HR21, HR22, HR23, HR24, HR25, HR26, HR27, HR28, HR29, HR30, HR31, HR32, HR33, HR34, HR35, HR36, HR37, HR38, HR39, HR40, HR41, HR42, HR43, HR44, HR45, HR46, HR47, HR48, HR49, HR50, HR51, HR52, HR53, HR54, HR55, HR56, HR57, HR58, HR59, HR60, HR61, HR62, HR63, HR64, HR65, HRy10, HRy11, HRy12, HRy13, HRy14, HRy15, HRy16, HRy17, HRy63, HRy64, HRy65, HRx26, HRx27, HRx28, HRx29, HRx30, HRx31, HRx32, HRx33, HRx55, HRx56, HRx57, HRz42, HRz43, HRz44, HRz45, HRz46, HRz47, HRz48, HRz49, HRz58, HRz59⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq, dev35_eq])
  imod (Rounds.cell_close ER (Rd m) (Set.mem_univ (K (c, ⟨50, by decide⟩))) (fun h => h) (R := 0 + 1) (duties_later m (dcell c ⟨52, by decide⟩))) $$ [Hat_52] with Hz_52
  · isplitr; · iexact HI52
    iexact Hat_52
  imod (Rounds.cell_close ER (Rd m) (Set.mem_univ (K (c, ⟨51, by decide⟩))) (fun h => h) (R := 0 + 1) (duties_later m (dcell c ⟨53, by decide⟩))) $$ [Hat_53] with Hz_53
  · isplitr; · iexact HI53
    iexact Hat_53
  imod (Rounds.cell_close ER (Rd m) (Set.mem_univ (K (c, ⟨52, by decide⟩))) (fun h => h) (R := 0 + 1) (duties_later m (dcell c ⟨54, by decide⟩))) $$ [Hat_54] with Hz_54
  · isplitr; · iexact HI54
    iexact Hat_54
  sl_step
  unfold stEnd
  isplitl [Hxl]; · iexact Hxl
  isplitl [Hatb1]; · iexact Hatb1
  isplitl [Hz_10]; · iexact Hz_10
  isplitl [HyC_0]; · iexact HyC_0
  isplitl [Hz_11]; · iexact Hz_11
  isplitl [HyC_1]; · iexact HyC_1
  isplitl [Hz_12]; · iexact Hz_12
  isplitl [HyC_2]; · iexact HyC_2
  isplitl [Hz_13]; · iexact Hz_13
  isplitl [HyC_3]; · iexact HyC_3
  isplitl [Hz_14]; · iexact Hz_14
  isplitl [HyC_4]; · iexact HyC_4
  isplitl [Hz_15]; · iexact Hz_15
  isplitl [HyC_5]; · iexact HyC_5
  isplitl [Hz_16]; · iexact Hz_16
  isplitl [HyC_6]; · iexact HyC_6
  isplitl [Hz_17]; · iexact Hz_17
  isplitl [HyC_7]; · iexact HyC_7
  isplitl [Hz_42]; · iexact Hz_42
  isplitl [HzL_0]; · iexact HzL_0
  isplitl [Hz_26]; · iexact Hz_26
  isplitl [HxL_0]; · iexact HxL_0
  isplitl [Hz_43]; · iexact Hz_43
  isplitl [HzL_1]; · iexact HzL_1
  isplitl [Hz_27]; · iexact Hz_27
  isplitl [HxL_1]; · iexact HxL_1
  isplitl [Hz_44]; · iexact Hz_44
  isplitl [HzL_2]; · iexact HzL_2
  isplitl [Hz_28]; · iexact Hz_28
  isplitl [HxL_2]; · iexact HxL_2
  isplitl [Hz_45]; · iexact Hz_45
  isplitl [HzL_3]; · iexact HzL_3
  isplitl [Hz_29]; · iexact Hz_29
  isplitl [HxL_3]; · iexact HxL_3
  isplitl [Hz_46]; · iexact Hz_46
  isplitl [HzL_4]; · iexact HzL_4
  isplitl [Hz_30]; · iexact Hz_30
  isplitl [HxL_4]; · iexact HxL_4
  isplitl [Hz_47]; · iexact Hz_47
  isplitl [HzL_5]; · iexact HzL_5
  isplitl [Hz_31]; · iexact Hz_31
  isplitl [HxL_5]; · iexact HxL_5
  isplitl [Hz_48]; · iexact Hz_48
  isplitl [HzL_6]; · iexact HzL_6
  isplitl [Hz_32]; · iexact Hz_32
  isplitl [HxL_6]; · iexact HxL_6
  isplitl [Hz_49]; · iexact Hz_49
  isplitl [HzL_7]; · iexact HzL_7
  isplitl [Hz_33]; · iexact Hz_33
  isplitl [HxL_7]; · iexact HxL_7
  isplitl [Hz_63]; · iexact Hz_63
  isplitl [HdL_0]; · iexact HdL_0
  isplitl [Hz_64]; · iexact Hz_64
  isplitl [HdL_1]; · iexact HdL_1
  isplitl [Hz_65]; · iexact Hz_65
  isplitl [HdL_2]; · iexact HdL_2
  isplitl [Hz_55]; · iexact Hz_55
  isplitl [HdL_3]; · iexact HdL_3
  isplitl [Hz_56]; · iexact Hz_56
  isplitl [HdL_4]; · iexact HdL_4
  isplitl [Hz_57]; · iexact Hz_57
  isplitl [HdL_5]; · iexact HdL_5
  isplitl [Hz_58]; · iexact Hz_58
  isplitl [HdL_6]; · iexact HdL_6
  isplitl [Hz_59]; · iexact Hz_59
  isplitl [HdL_7]; · iexact HdL_7
  isplitl [Hz_2]; · iexact Hz_2
  isplitl [Hback_2]; · iexact Hback_2
  isplitl [Hz_3]; · iexact Hz_3
  isplitl [Hback_3]; · iexact Hback_3
  isplitl [Hz_4]; · iexact Hz_4
  isplitl [Hback_4]; · iexact Hback_4
  isplitl [Hz_5]; · iexact Hz_5
  isplitl [Hback_5]; · iexact Hback_5
  isplitl [Hz_6]; · iexact Hz_6
  isplitl [Hback_6]; · iexact Hback_6
  isplitl [Hz_7]; · iexact Hz_7
  isplitl [Hback_7]; · iexact Hback_7
  isplitl [Hz_8]; · iexact Hz_8
  isplitl [Hback_8]; · iexact Hback_8
  isplitl [Hz_9]; · iexact Hz_9
  isplitl [Hback_9]; · iexact Hback_9
  isplitl [Hz_60]; · iexact Hz_60
  isplitl [Hback_60]; · iexact Hback_60
  isplitl [Hz_61]; · iexact Hz_61
  isplitl [Hback_61]; · iexact Hback_61
  isplitl [Hz_62]; · iexact Hz_62
  isplitl [Hback_62]; · iexact Hback_62
  isplitl [Hz_18]; · iexact Hz_18
  isplitl [Hback_18]; · iexact Hback_18
  isplitl [Hz_19]; · iexact Hz_19
  isplitl [Hback_19]; · iexact Hback_19
  isplitl [Hz_20]; · iexact Hz_20
  isplitl [Hback_20]; · iexact Hback_20
  isplitl [Hz_21]; · iexact Hz_21
  isplitl [Hback_21]; · iexact Hback_21
  isplitl [Hz_22]; · iexact Hz_22
  isplitl [Hback_22]; · iexact Hback_22
  isplitl [Hz_23]; · iexact Hz_23
  isplitl [Hback_23]; · iexact Hback_23
  isplitl [Hz_24]; · iexact Hz_24
  isplitl [Hback_24]; · iexact Hback_24
  isplitl [Hz_25]; · iexact Hz_25
  isplitl [Hback_25]; · iexact Hback_25
  isplitl [Hz_34]; · iexact Hz_34
  isplitl [Hback_34]; · iexact Hback_34
  isplitl [Hz_35]; · iexact Hz_35
  isplitl [Hback_35]; · iexact Hback_35
  isplitl [Hz_36]; · iexact Hz_36
  isplitl [Hback_36]; · iexact Hback_36
  isplitl [Hz_37]; · iexact Hz_37
  isplitl [Hback_37]; · iexact Hback_37
  isplitl [Hz_38]; · iexact Hz_38
  isplitl [Hback_38]; · iexact Hback_38
  isplitl [Hz_39]; · iexact Hz_39
  isplitl [Hback_39]; · iexact Hback_39
  isplitl [Hz_40]; · iexact Hz_40
  isplitl [Hback_40]; · iexact Hback_40
  isplitl [Hz_41]; · iexact Hz_41
  isplitl [Hback_41]; · iexact Hback_41
  isplitl [Hz_50]; · iexact Hz_50
  isplitl [Hback_50]; · iexact Hback_50
  isplitl [Hz_51]; · iexact Hz_51
  isplitl [Hback_51]; · iexact Hback_51
  isplitl [Hz_52]; · iexact Hz_52
  isplitl [Hat_52_pay1]; · iexact Hat_52_pay1
  isplitl [Hz_53]; · iexact Hz_53
  isplitl [Hat_53_pay1]; · iexact Hat_53_pay1
  isplitl [Hz_54]; · iexact Hz_54
  isplitl [Hat_54_pay1]; · iexact Hat_54_pay1
  isplitl [HO]; · iexact HO
  iexact Hout

end Cert.KernelIdeal.RS

end
-- ==== Proof.Assemble.lean ====
import proofs.«901037_g7700000000001038_dist_rs_v7x_xyz2x2x4_y_m1024_n512_f32_1_alg».proof.Proof.Pieces
import proofs.«901037_g7700000000001038_dist_rs_v7x_xyz2x2x4_y_m1024_n512_f32_1_alg».proof.Proof.Dats

noncomputable section

namespace Cert.KernelIdeal.RS

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem ent_trans {P Q R : sProp 𝕄} (h1 : P ⊢ Q) (h2 : Q ⊢ R) : P ⊢ R := h1.trans h2

def own32 (c : Dev nD) : sProp 𝕄 :=
  iprop((∃ f, (chk yB 0).view.loc (c : Thread nD τ) ↦[(chk yB 0).view.set]{fullShare} f)
    ∗ (∃ f, (chk yB 1).view.loc (c : Thread nD τ) ↦[(chk yB 1).view.set]{fullShare} f)
    ∗ (∃ f, (chk yB 2).view.loc (c : Thread nD τ) ↦[(chk yB 2).view.set]{fullShare} f)
    ∗ (∃ f, (chk yB 3).view.loc (c : Thread nD τ) ↦[(chk yB 3).view.set]{fullShare} f)
    ∗ (∃ f, (chk yB 4).view.loc (c : Thread nD τ) ↦[(chk yB 4).view.set]{fullShare} f)
    ∗ (∃ f, (chk yB 5).view.loc (c : Thread nD τ) ↦[(chk yB 5).view.set]{fullShare} f)
    ∗ (∃ f, (chk yB 6).view.loc (c : Thread nD τ) ↦[(chk yB 6).view.set]{fullShare} f)
    ∗ (∃ f, (chk yB 7).view.loc (c : Thread nD τ) ↦[(chk yB 7).view.set]{fullShare} f)
    ∗ (∃ f, (chk xB 0).view.loc (c : Thread nD τ) ↦[(chk xB 0).view.set]{fullShare} f)
    ∗ (∃ f, (chk xB 1).view.loc (c : Thread nD τ) ↦[(chk xB 1).view.set]{fullShare} f)
    ∗ (∃ f, (chk xB 2).view.loc (c : Thread nD τ) ↦[(chk xB 2).view.set]{fullShare} f)
    ∗ (∃ f, (chk xB 3).view.loc (c : Thread nD τ) ↦[(chk xB 3).view.set]{fullShare} f)
    ∗ (∃ f, (chk xB 4).view.loc (c : Thread nD τ) ↦[(chk xB 4).view.set]{fullShare} f)
    ∗ (∃ f, (chk xB 5).view.loc (c : Thread nD τ) ↦[(chk xB 5).view.set]{fullShare} f)
    ∗ (∃ f, (chk xB 6).view.loc (c : Thread nD τ) ↦[(chk xB 6).view.set]{fullShare} f)
    ∗ (∃ f, (chk xB 7).view.loc (c : Thread nD τ) ↦[(chk xB 7).view.set]{fullShare} f)
    ∗ (∃ f, (chk zB 0).view.loc (c : Thread nD τ) ↦[(chk zB 0).view.set]{fullShare} f)
    ∗ (∃ f, (chk zB 1).view.loc (c : Thread nD τ) ↦[(chk zB 1).view.set]{fullShare} f)
    ∗ (∃ f, (chk zB 2).view.loc (c : Thread nD τ) ↦[(chk zB 2).view.set]{fullShare} f)
    ∗ (∃ f, (chk zB 3).view.loc (c : Thread nD τ) ↦[(chk zB 3).view.set]{fullShare} f)
    ∗ (∃ f, (chk zB 4).view.loc (c : Thread nD τ) ↦[(chk zB 4).view.set]{fullShare} f)
    ∗ (∃ f, (chk zB 5).view.loc (c : Thread nD τ) ↦[(chk zB 5).view.set]{fullShare} f)
    ∗ (∃ f, (chk zB 6).view.loc (c : Thread nD τ) ↦[(chk zB 6).view.set]{fullShare} f)
    ∗ (∃ f, (chk zB 7).view.loc (c : Thread nD τ) ↦[(chk zB 7).view.set]{fullShare} f)
    ∗ (∃ f, (chk dB 0).view.loc (c : Thread nD τ) ↦[(chk dB 0).view.set]{fullShare} f)
    ∗ (∃ f, (chk dB 1).view.loc (c : Thread nD τ) ↦[(chk dB 1).view.set]{fullShare} f)
    ∗ (∃ f, (chk dB 2).view.loc (c : Thread nD τ) ↦[(chk dB 2).view.set]{fullShare} f)
    ∗ (∃ f, (chk dB 3).view.loc (c : Thread nD τ) ↦[(chk dB 3).view.set]{fullShare} f)
    ∗ (∃ f, (chk dB 4).view.loc (c : Thread nD τ) ↦[(chk dB 4).view.set]{fullShare} f)
    ∗ (∃ f, (chk dB 5).view.loc (c : Thread nD τ) ↦[(chk dB 5).view.set]{fullShare} f)
    ∗ (∃ f, (chk dB 6).view.loc (c : Thread nD τ) ↦[(chk dB 6).view.set]{fullShare} f)
    ∗ (∃ f, (chk dB 7).view.loc (c : Thread nD τ) ↦[(chk dB 7).view.set]{fullShare} f))

def xPieces (c : Dev nD) : sProp 𝕄 :=
  iprop(((srcY c 0).view.loc (c : Thread nD τ) ↦[(srcY c 0).view.set]{psh 0} xstg m c)
    ∗ ((srcY c 1).view.loc (c : Thread nD τ) ↦[(srcY c 1).view.set]{psh 1} xstg m c)
    ∗ ((srcY c 2).view.loc (c : Thread nD τ) ↦[(srcY c 2).view.set]{psh 2} xstg m c)
    ∗ ((srcY c 3).view.loc (c : Thread nD τ) ↦[(srcY c 3).view.set]{psh 3} xstg m c)
    ∗ ((srcY c 4).view.loc (c : Thread nD τ) ↦[(srcY c 4).view.set]{psh 4} xstg m c)
    ∗ ((srcY c 5).view.loc (c : Thread nD τ) ↦[(srcY c 5).view.set]{psh 5} xstg m c)
    ∗ ((srcY c 6).view.loc (c : Thread nD τ) ↦[(srcY c 6).view.set]{psh 6} xstg m c)
    ∗ ((srcY c 7).view.loc (c : Thread nD τ) ↦[(srcY c 7).view.set]{psh 7} xstg m c)
    ∗ ((srcD c 0).view.loc (c : Thread nD τ) ↦[(srcD c 0).view.set]{psh 8} xstg m c)
    ∗ ((srcD c 1).view.loc (c : Thread nD τ) ↦[(srcD c 1).view.set]{psh 9} xstg m c)
    ∗ ((srcD c 2).view.loc (c : Thread nD τ) ↦[(srcD c 2).view.set]{psh 10} xstg m c)
    ∗ (xM.view.loc (c : Thread nD τ) ↦[xM.view.set]{xqL} xstg m c))

def xRest (c : Dev nD) : sProp 𝕄 :=
  iprop((((c : Thread nD τ).loc cc0_stg0_0) ↦[Finset.univ \ (srcY c 0).view.set]{psh 0} xstg m c)
    ∗ (((c : Thread nD τ).loc cc0_stg0_0) ↦[Finset.univ \ (srcY c 1).view.set]{psh 1} xstg m c)
    ∗ (((c : Thread nD τ).loc cc0_stg0_0) ↦[Finset.univ \ (srcY c 2).view.set]{psh 2} xstg m c)
    ∗ (((c : Thread nD τ).loc cc0_stg0_0) ↦[Finset.univ \ (srcY c 3).view.set]{psh 3} xstg m c)
    ∗ (((c : Thread nD τ).loc cc0_stg0_0) ↦[Finset.univ \ (srcY c 4).view.set]{psh 4} xstg m c)
    ∗ (((c : Thread nD τ).loc cc0_stg0_0) ↦[Finset.univ \ (srcY c 5).view.set]{psh 5} xstg m c)
    ∗ (((c : Thread nD τ).loc cc0_stg0_0) ↦[Finset.univ \ (srcY c 6).view.set]{psh 6} xstg m c)
    ∗ (((c : Thread nD τ).loc cc0_stg0_0) ↦[Finset.univ \ (srcY c 7).view.set]{psh 7} xstg m c)
    ∗ (((c : Thread nD τ).loc cc0_stg0_0) ↦[Finset.univ \ (srcD c 0).view.set]{psh 8} xstg m c)
    ∗ (((c : Thread nD τ).loc cc0_stg0_0) ↦[Finset.univ \ (srcD c 1).view.set]{psh 9} xstg m c)
    ∗ (((c : Thread nD τ).loc cc0_stg0_0) ↦[Finset.univ \ (srcD c 2).view.set]{psh 10} xstg m c))

section Blocks
variable (B : Memref sig .tc .vmem S256x512 .f32) (hB : B.view.set = Finset.univ) (c : Dev nD)
include hB

theorem cut8e :
    (iprop(∃ f : Buf (Elt F) (B.view.loc (c : Thread nD τ)), (B.view.loc (c : Thread nD τ)) ↦{fullShare} f) : sProp 𝕄)
      ⊢ iprop((∃ f, (chk B 0).view.loc (c : Thread nD τ) ↦[(chk B 0).view.set]{fullShare} f)
        ∗ (∃ f, (chk B 1).view.loc (c : Thread nD τ) ↦[(chk B 1).view.set]{fullShare} f)
        ∗ (∃ f, (chk B 2).view.loc (c : Thread nD τ) ↦[(chk B 2).view.set]{fullShare} f)
        ∗ (∃ f, (chk B 3).view.loc (c : Thread nD τ) ↦[(chk B 3).view.set]{fullShare} f)
        ∗ (∃ f, (chk B 4).view.loc (c : Thread nD τ) ↦[(chk B 4).view.set]{fullShare} f)
        ∗ (∃ f, (chk B 5).view.loc (c : Thread nD τ) ↦[(chk B 5).view.set]{fullShare} f)
        ∗ (∃ f, (chk B 6).view.loc (c : Thread nD τ) ↦[(chk B 6).view.set]{fullShare} f)
        ∗ (∃ f, (chk B 7).view.loc (c : Thread nD τ) ↦[(chk B 7).view.set]{fullShare} f)) := by
  iintro ⟨%f, H⟩
  ihave H := (Entails.of_eq (cut8c (F := F) B hB c fullShare f)) $$ H
  icases H with ⟨H0, H1, H2, H3, H4, H5, H6, H7⟩
  sl_close

theorem join8c :
    (iprop((∃ f, (chk B 0).view.loc (c : Thread nD τ) ↦[(chk B 0).view.set]{fullShare} f)
        ∗ (∃ f, (chk B 1).view.loc (c : Thread nD τ) ↦[(chk B 1).view.set]{fullShare} f)
        ∗ (∃ f, (chk B 2).view.loc (c : Thread nD τ) ↦[(chk B 2).view.set]{fullShare} f)
        ∗ (∃ f, (chk B 3).view.loc (c : Thread nD τ) ↦[(chk B 3).view.set]{fullShare} f)
        ∗ (∃ f, (chk B 4).view.loc (c : Thread nD τ) ↦[(chk B 4).view.set]{fullShare} f)
        ∗ (∃ f, (chk B 5).view.loc (c : Thread nD τ) ↦[(chk B 5).view.set]{fullShare} f)
        ∗ (∃ f, (chk B 6).view.loc (c : Thread nD τ) ↦[(chk B 6).view.set]{fullShare} f)
        ∗ (∃ f, (chk B 7).view.loc (c : Thread nD τ) ↦[(chk B 7).view.set]{fullShare} f)) : sProp 𝕄)
      ⊢ iprop(∃ f : Buf (Elt F) (B.view.loc (c : Thread nD τ)), (B.view.loc (c : Thread nD τ)) ↦{fullShare} f) :=
  (Entails.of_eq (bigSep_fin8 (F := F) fun k : Fin 8 =>
    iprop(∃ f : Buf (Elt F) (B.view.loc (c : Thread nD τ)), (chk B k).view.loc (c : Thread nD τ) ↦[(chk B k).view.set]{fullShare} f)).symm).trans
    (join8 (F := F) B hB c)

end Blocks

theorem cut_scr (c : Dev nD) : scr4 (F := F) c ⊢ own32 (F := F) c := by
  unfold scr4 own32
  refine ent_trans (F := F) (BIClass.sep_mono (cut8e (F := F) yB yB_whole c) (BIClass.sep_mono (cut8e (F := F) xB xB_whole c)
    (BIClass.sep_mono (cut8e (F := F) zB zB_whole c) (cut8e (F := F) dB dB_whole c)))) ?_
  iintro ⟨⟨⟨%fY0, Y0⟩, ⟨%fY1, Y1⟩, ⟨%fY2, Y2⟩, ⟨%fY3, Y3⟩, ⟨%fY4, Y4⟩, ⟨%fY5, Y5⟩, ⟨%fY6, Y6⟩, ⟨%fY7, Y7⟩⟩, ⟨⟨%fX0, X0⟩, ⟨%fX1, X1⟩, ⟨%fX2, X2⟩, ⟨%fX3, X3⟩, ⟨%fX4, X4⟩, ⟨%fX5, X5⟩, ⟨%fX6, X6⟩, ⟨%fX7, X7⟩⟩,
    ⟨⟨%fZ0, Z0⟩, ⟨%fZ1, Z1⟩, ⟨%fZ2, Z2⟩, ⟨%fZ3, Z3⟩, ⟨%fZ4, Z4⟩, ⟨%fZ5, Z5⟩, ⟨%fZ6, Z6⟩, ⟨%fZ7, Z7⟩⟩, ⟨⟨%fD0, D0⟩, ⟨%fD1, D1⟩, ⟨%fD2, D2⟩, ⟨%fD3, D3⟩, ⟨%fD4, D4⟩, ⟨%fD5, D5⟩, ⟨%fD6, D6⟩, ⟨%fD7, D7⟩⟩⟩
  sl_close

theorem join_scr (c : Dev nD) : own32 (F := F) c ⊢ scr4 (F := F) c := by
  unfold scr4 own32
  refine ent_trans (F := F) ?_ (BIClass.sep_mono (join8c (F := F) yB yB_whole c) (BIClass.sep_mono (join8c (F := F) xB xB_whole c)
    (BIClass.sep_mono (join8c (F := F) zB zB_whole c) (join8c (F := F) dB dB_whole c))))
  iintro ⟨⟨%fY0, Y0⟩, ⟨%fY1, Y1⟩, ⟨%fY2, Y2⟩, ⟨%fY3, Y3⟩, ⟨%fY4, Y4⟩, ⟨%fY5, Y5⟩, ⟨%fY6, Y6⟩, ⟨%fY7, Y7⟩, ⟨%fX0, X0⟩, ⟨%fX1, X1⟩, ⟨%fX2, X2⟩, ⟨%fX3, X3⟩, ⟨%fX4, X4⟩, ⟨%fX5, X5⟩, ⟨%fX6, X6⟩, ⟨%fX7, X7⟩,
    ⟨%fZ0, Z0⟩, ⟨%fZ1, Z1⟩, ⟨%fZ2, Z2⟩, ⟨%fZ3, Z3⟩, ⟨%fZ4, Z4⟩, ⟨%fZ5, Z5⟩, ⟨%fZ6, Z6⟩, ⟨%fZ7, Z7⟩, ⟨%fD0, D0⟩, ⟨%fD1, D1⟩, ⟨%fD2, D2⟩, ⟨%fD3, D3⟩, ⟨%fD4, D4⟩, ⟨%fD5, D5⟩, ⟨%fD6, D6⟩, ⟨%fD7, D7⟩⟩
  sl_close

theorem x_paired (c : Dev nD) :
    ((((c : Thread nD τ).loc cc0_stg0_0) ↦{fullShare} xstg m c : sProp 𝕄))
      ⊣⊢ iprop(((((srcY c 0).view.loc (c : Thread nD τ) ↦[(srcY c 0).view.set]{psh 0} xstg m c) ∗ (((c : Thread nD τ).loc cc0_stg0_0) ↦[Finset.univ \ (srcY c 0).view.set]{psh 0} xstg m c))
        ∗ (((srcY c 1).view.loc (c : Thread nD τ) ↦[(srcY c 1).view.set]{psh 1} xstg m c) ∗ (((c : Thread nD τ).loc cc0_stg0_0) ↦[Finset.univ \ (srcY c 1).view.set]{psh 1} xstg m c))
        ∗ (((srcY c 2).view.loc (c : Thread nD τ) ↦[(srcY c 2).view.set]{psh 2} xstg m c) ∗ (((c : Thread nD τ).loc cc0_stg0_0) ↦[Finset.univ \ (srcY c 2).view.set]{psh 2} xstg m c))
        ∗ (((srcY c 3).view.loc (c : Thread nD τ) ↦[(srcY c 3).view.set]{psh 3} xstg m c) ∗ (((c : Thread nD τ).loc cc0_stg0_0) ↦[Finset.univ \ (srcY c 3).view.set]{psh 3} xstg m c))
        ∗ (((srcY c 4).view.loc (c : Thread nD τ) ↦[(srcY c 4).view.set]{psh 4} xstg m c) ∗ (((c : Thread nD τ).loc cc0_stg0_0) ↦[Finset.univ \ (srcY c 4).view.set]{psh 4} xstg m c))
        ∗ (((srcY c 5).view.loc (c : Thread nD τ) ↦[(srcY c 5).view.set]{psh 5} xstg m c) ∗ (((c : Thread nD τ).loc cc0_stg0_0) ↦[Finset.univ \ (srcY c 5).view.set]{psh 5} xstg m c))
        ∗ (((srcY c 6).view.loc (c : Thread nD τ) ↦[(srcY c 6).view.set]{psh 6} xstg m c) ∗ (((c : Thread nD τ).loc cc0_stg0_0) ↦[Finset.univ \ (srcY c 6).view.set]{psh 6} xstg m c))
        ∗ (((srcY c 7).view.loc (c : Thread nD τ) ↦[(srcY c 7).view.set]{psh 7} xstg m c) ∗ (((c : Thread nD τ).loc cc0_stg0_0) ↦[Finset.univ \ (srcY c 7).view.set]{psh 7} xstg m c))
        ∗ (((srcD c 0).view.loc (c : Thread nD τ) ↦[(srcD c 0).view.set]{psh 8} xstg m c) ∗ (((c : Thread nD τ).loc cc0_stg0_0) ↦[Finset.univ \ (srcD c 0).view.set]{psh 8} xstg m c))
        ∗ (((srcD c 1).view.loc (c : Thread nD τ) ↦[(srcD c 1).view.set]{psh 9} xstg m c) ∗ (((c : Thread nD τ).loc cc0_stg0_0) ↦[Finset.univ \ (srcD c 1).view.set]{psh 9} xstg m c))
        ∗ (((srcD c 2).view.loc (c : Thread nD τ) ↦[(srcD c 2).view.set]{psh 10} xstg m c) ∗ (((c : Thread nD τ).loc cc0_stg0_0) ↦[Finset.univ \ (srcD c 2).view.set]{psh 10} xstg m c)))
        ∗ (xM.view.loc (c : Thread nD τ) ↦[xM.view.set]{xqL} xstg m c)) :=
  (twelve' (F := F)).trans (sep_congr
    (sep_congr (carveY (F := F) c c 0 (psh 0) (xstg m c))
      (sep_congr (carveY (F := F) c c 1 (psh 1) (xstg m c))
      (sep_congr (carveY (F := F) c c 2 (psh 2) (xstg m c))
      (sep_congr (carveY (F := F) c c 3 (psh 3) (xstg m c))
      (sep_congr (carveY (F := F) c c 4 (psh 4) (xstg m c))
      (sep_congr (carveY (F := F) c c 5 (psh 5) (xstg m c))
      (sep_congr (carveY (F := F) c c 6 (psh 6) (xstg m c))
      (sep_congr (carveY (F := F) c c 7 (psh 7) (xstg m c))
      (sep_congr (carveD (F := F) c c 0 (psh 8) (xstg m c))
      (sep_congr (carveD (F := F) c c 1 (psh 9) (xstg m c))
      (carveD (F := F) c c 2 (psh 10) (xstg m c))))))))))))
    (BiEntails.of_eq (congrArg (fun S => (((c : Thread nD τ).loc cc0_stg0_0) ↦[S]{xqL} xstg m c : sProp 𝕄))
      (View.set_whole (cc0_stg0_0 : Ref sig .tc)).symm)))

theorem cut_x (c : Dev nD) :
    ((((c : Thread nD τ).loc cc0_stg0_0) ↦{fullShare} xstg m c : sProp 𝕄)) ⊢ iprop(xPieces m c ∗ xRest m c) := by
  unfold xPieces xRest
  refine ent_trans (F := F) (x_paired m c).1 ?_
  iintro ⟨⟨⟨A0, R0⟩, ⟨A1, R1⟩, ⟨A2, R2⟩, ⟨A3, R3⟩, ⟨A4, R4⟩, ⟨A5, R5⟩, ⟨A6, R6⟩, ⟨A7, R7⟩, ⟨A8, R8⟩, ⟨A9, R9⟩, ⟨A10, R10⟩⟩, AL⟩
  sl_close

theorem join_x (c : Dev nD) :
    iprop(xPieces m c ∗ xRest m c) ⊢ ((((c : Thread nD τ).loc cc0_stg0_0) ↦{fullShare} xstg m c : sProp 𝕄)) := by
  unfold xPieces xRest
  refine ent_trans (F := F) ?_ (x_paired m c).2
  iintro ⟨⟨A0, A1, A2, A3, A4, A5, A6, A7, A8, A9, A10, AL⟩, ⟨R0, R1, R2, R3, R4, R5, R6, R7, R8, R9, R10⟩⟩
  sl_close

section Shares
variable (B : Memref sig .tc .vmem S256x512 .f32) (k : Fin 8) (c : Dev nD) (f : Buf (Elt F) ((chk B k).view.loc (c : Thread nD τ)))

theorem split3 : (((chk B k).view.loc (c : Thread nD τ) ↦[(chk B k).view.set]{fullShare} f) : sProp 𝕄)
    ⊢ iprop(((chk B k).view.loc (c : Thread nD τ) ↦[(chk B k).view.set]{qA} f) ∗ ((chk B k).view.loc (c : Thread nD τ) ↦[(chk B k).view.set]{qB} f) ∗ ((chk B k).view.loc (c : Thread nD τ) ↦[(chk B k).view.set]{qC} f)) :=
  (three (F := F)).1

theorem join3 : (iprop(((chk B k).view.loc (c : Thread nD τ) ↦[(chk B k).view.set]{qA} f) ∗ ((chk B k).view.loc (c : Thread nD τ) ↦[(chk B k).view.set]{qB} f) ∗ ((chk B k).view.loc (c : Thread nD τ) ↦[(chk B k).view.set]{qC} f)) : sProp 𝕄)
    ⊢ ((chk B k).view.loc (c : Thread nD τ) ↦[(chk B k).view.set]{fullShare} f) :=
  (three (F := F)).2

theorem split2 : (((chk B k).view.loc (c : Thread nD τ) ↦[(chk B k).view.set]{fullShare} f) : sProp 𝕄)
    ⊢ iprop(((chk B k).view.loc (c : Thread nD τ) ↦[(chk B k).view.set]{qA} f) ∗ ((chk B k).view.loc (c : Thread nD τ) ↦[(chk B k).view.set]{rsh 1} f)) :=
  (peel (F := F) 0).1

theorem join2 : (iprop(((chk B k).view.loc (c : Thread nD τ) ↦[(chk B k).view.set]{qA} f) ∗ ((chk B k).view.loc (c : Thread nD τ) ↦[(chk B k).view.set]{rsh 1} f)) : sProp 𝕄)
    ⊢ ((chk B k).view.loc (c : Thread nD τ) ↦[(chk B k).view.set]{fullShare} f) :=
  (peel (F := F) 0).2

end Shares

end Cert.KernelIdeal.RS

end
-- ==== Proof.Bridge.lean ====
import proofs.«901037_g7700000000001038_dist_rs_v7x_xyz2x2x4_y_m1024_n512_f32_1_alg».proof.Proof.FlatTab
import Idealize.SL.ProofMode.BigOp

set_option maxRecDepth 65536

noncomputable section

namespace Cert.KernelIdeal.RS

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

omit [FloatOps F] in

theorem bigSepL_of_univ {I : Type} [Fintype I] [DecidableEq I] (Φ : I → sProp 𝕄) [∀ i, BI.Persistent (Φ i)]
    (l : List I) : bigSep Finset.univ Φ ⊢ bigSepL l Φ := by
  induction l with
  | nil =>
    show bigSep Finset.univ Φ ⊢ iprop(emp)
    iintro #H
    iempintro
  | cons i l ih =>
    rw [bigSepL_cons]
    show bigSep Finset.univ Φ ⊢ iprop(Φ i ∗ bigSepL l Φ)
    iintro #H
    isplitl []
    · iapply (show bigSep Finset.univ Φ ⊢ Φ i from bigSep_elim (Finset.mem_univ i))
      iexact H
    · iapply ih
      iexact H

omit [FloatOps F] in

theorem bigSepL_persistent {I : Type} (Φ : I → sProp 𝕄) [∀ i, BI.Persistent (Φ i)] (l : List I) :
    BI.Persistent (bigSepL l Φ) := by
  induction l with
  | nil => show BI.Persistent (iprop(emp) : sProp 𝕄); infer_instance
  | cons i l ih =>
    rw [bigSepL_cons]
    show BI.Persistent (iprop(Φ i ∗ bigSepL l Φ) : sProp 𝕄)
    infer_instance

omit [FloatOps F] in
instance flatInv_persistent (K : Dev nD × Fin 65 → ℕ) (c : Dev nD) : BI.Persistent (flatInv m K c) := by
  rw [flatInv_eq]; exact bigSepL_persistent _ _
omit [FloatOps F] in
instance flatReached_persistent (c : Dev nD) : BI.Persistent (flatReached (F := F) c) := by
  rw [flatReached_eq]; exact bigSepL_persistent _ _

omit [FloatOps F] in

theorem records_flat (K : Dev nD × Fin 65 → ℕ) (c : Dev nD) :
    records m K ⊢ iprop(flatInv m K c ∗ flatReached (F := F) c) := by
  unfold records
  rw [flatInv_eq, flatReached_eq]
  exact BIClass.sep_mono (bigSepL_of_univ _ (idxInv c)) (bigSepL_of_univ _ (idxReached c))

omit [FloatOps F] in

theorem pos_flat (c : Dev nD) :
    (bigSep Finset.univ fun j : Fin 65 => atPos ER (kcell (c, j)) 0 ∅ 0 : sProp 𝕄)
      = iprop(atPos ER (barCell c) 0 ∅ 0 ∗ flatPos (F := F) c) := by
  rw [bigSep_univ_eq_bigSepL [64, 0, 1, 2, 3, 4, 5, 6, 7, 8, 9, 10, 11, 12, 13, 14, 15, 16, 17, 18, 19, 20, 21, 22, 23, 24,
    25, 26, 27, 28, 29, 30, 31, 32, 33, 34, 35, 36, 37, 38, 39, 40, 41, 42, 43, 44, 45, 46, 47, 48, 49, 50, 51, 52, 53, 54,
    55, 56, 57, 58, 59, 60, 61, 62, 63] (by decide) (by decide)]
  rfl

omit [FloatOps F] in

theorem tok_flat (c : Dev nD) :
    (bigSep Finset.univ fun j : Fin 64 => dutyTok ER (kcell (payer c j, j.castSucc)) 0 0 : sProp 𝕄)
      = iprop(flatTokS (F := F) c ∗ flatTokY (F := F) c ∗ flatTokX (F := F) c ∗ flatTokZ (F := F) c) := by
  rw [bigSep_univ_eq_bigSepL [0, 1, 2, 3, 4, 5, 6, 7, 16, 17, 18, 19, 20, 21, 22, 23, 32, 33, 34, 35, 36, 37, 38, 39,
    48, 49, 50, 51, 52, 58, 59, 60,
    8, 9, 10, 11, 12, 13, 14, 15, 61, 62, 63,
    24, 25, 26, 27, 28, 29, 30, 31, 53, 54, 55,
    40, 41, 42, 43, 44, 45, 46, 47, 56, 57] (by decide) (by decide)]
  unfold flatTokS flatTokY flatTokX flatTokZ
  simp only [sep_assoc_eq]
  rfl

omit [FloatOps F] in

theorem cred_flat (c : Dev nD) :
    (bigSep recvSet fun j => cred (tallyAt (kcell (c, j.castSucc)) () N) : sProp 𝕄) = flatCredR (F := F) c := by
  rw [bigSep_eq_bigSepL_of_eq [8, 9, 10, 11, 12, 13, 14, 15, 24, 25, 26, 27, 28, 29, 30, 31, 40, 41, 42, 43, 44, 45, 46, 47,
    53, 54, 55, 56, 57, 61, 62, 63] (by decide) (by decide)]
  rfl

-- The launch's indexed bundles, flattened to the chains the body's parts take.
omit [FloatOps F] in
theorem start_flat (c : Dev nD) :
    start m c ⊢ iprop(∃ K, □ (flatInv m K c ∗ flatReached (F := F) c) ∗ flatLin (F := F) c ∗ levAts L lv) := by
  unfold start ghost linear payToks
  rw [pos_flat, tok_flat, cred_flat, flatLin_eq]
  iintro ⟨⟨%K, #HR, ⟨HpB, Hpos⟩, ⟨HtS, HtY, HtX, HtZ⟩, HbY, HbX, HbZ⟩, HcB, HcR, Hlev⟩
  iexists K
  isplitr
  · imodintro
    iapply (records_flat m K c)
    iexact HR
  isplitr [Hlev]
  · isplitl [HbY]; · iexact HbY
    isplitl [HbX]; · iexact HbX
    isplitl [HbZ]; · iexact HbZ
    isplitl [HpB]; · iexact HpB
    isplitl [HcB]; · iexact HcB
    isplitl [Hpos]; · iexact Hpos
    isplitl [HtS]; · iexact HtS
    isplitl [HcR]; · iexact HcR
    isplitl [HtY]; · iexact HtY
    isplitl [HtX]; · iexact HtX
    iexact HtZ
  · iexact Hlev

omit [FloatOps F] in
theorem own_sems_flat (c : Dev nD) :
    flatZero (F := F) c
      ⊢ Pipeline.ownSems0 (Ix := Unit) (Name := ℕ) (U := UU) (Lvl := ℕ) (Val := Elt F) (τ := τ) osem c := by
  rw [Pipeline.ownSems0_eq_of_list c osem [0, 1, 2, 3, 4, 5, 6, 7, 8, 9, 10, 11, 12, 13, 14, 15, 16, 17, 18, 19, 20, 21, 22,
    23, 24, 25, 26, 27, 28, 29, 30, 31, 32, 33, 34, 35, 36, 37, 38, 39, 40, 41, 42, 43, 44, 45, 46, 47, 48, 49, 50, 51, 52,
    53, 54, 55, 56, 57, 58, 59, 60, 61, 62, 63] (by decide) (by decide)]
  exact Entails.of_eq rfl

end Cert.KernelIdeal.RS

end
-- ==== Proof.WrapDefs.lean ====
import proofs.«901037_g7700000000001038_dist_rs_v7x_xyz2x2x4_y_m1024_n512_f32_1_alg».proof.Proof.Bridge
import proofs.«901037_g7700000000001038_dist_rs_v7x_xyz2x2x4_y_m1024_n512_f32_1_alg».proof.Proof.Dats
import proofs.«901037_g7700000000001038_dist_rs_v7x_xyz2x2x4_y_m1024_n512_f32_1_alg».proof.Proof.Assemble

noncomputable section

namespace Cert.KernelIdeal.RS

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

def bodyPost (c : Dev nD) (g1 : oM.view.ty.Contents (Elt F)) : sProp 𝕄 :=
  iprop(flatZero (F := F) c ∗ own32 (F := F) c ∗ xPieces m c ∗ xRest m c
    ∗ (oM.view.loc (c : Thread nD τ) ↦[oM.view.set]{fullShare} outOf m c g1) ∗ ∃ W', owes (c : Thread nD τ) 0 W')

end Cert.KernelIdeal.RS

end
-- ==== Proof.Regroup.lean ====
/- Two regroupings around the body. Before it: the launch's flat chains, what the device owes, its 32 own blocks,
   the carved staged input and the staged result are exactly the atoms st0 lists. After it: the atoms of stEnd and the
   kept complements of the staged input make what is handed back: the 64 transfer counters at zero; each received
   block whole again (the shares lent to the forwarding copies joined to the share kept for the loads); the staged
   input's pieces; the staged result holding the 32 stored blocks; nothing owed. -/
import proofs.«901037_g7700000000001038_dist_rs_v7x_xyz2x2x4_y_m1024_n512_f32_1_alg».proof.Proof.Chain
import proofs.«901037_g7700000000001038_dist_rs_v7x_xyz2x2x4_y_m1024_n512_f32_1_alg».proof.Proof.Assemble
import proofs.«901037_g7700000000001038_dist_rs_v7x_xyz2x2x4_y_m1024_n512_f32_1_alg».proof.Proof.WrapDefs

noncomputable section

namespace Cert.KernelIdeal.RS

open Cert.KernelIdeal Cert.KernelIdeal.Gen Cert.KernelIdeal.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The 32 stores in program order are the three phases of Out.lean folded. -/
theorem outOf_nested (c : Dev nD) (o : oM.view.ty.Contents (Elt F)) : outOf m c o = (stD m c 7 (stD m c 6 (stD m c 5 (stD m c 4 (stD m c 3 (stD m c 2 (stD m c 1 (stD m c 0 (stX m c 7 (stZ m c 7 (stX m c 6 (stZ m c 6 (stX m c 5 (stZ m c 5 (stX m c 4 (stZ m c 4 (stX m c 3 (stZ m c 3 (stX m c 2 (stZ m c 2 (stX m c 1 (stZ m c 1 (stX m c 0 (stZ m c 0 (stC m c 7 (stC m c 6 (stC m c 5 (stC m c 4 (stC m c 3 (stC m c 2 (stC m c 1 (stC m c 0 o)))))))))))))))))))))))))))))))) := by
  have h8 : List.finRange 8 = [(0 : Fin 8), 1, 2, 3, 4, 5, 6, 7] := by decide
  unfold outOf phE phD phC
  rw [h8]
  simp only [List.foldl_cons, List.foldl_nil]

set_option maxHeartbeats 4000000 in
theorem st0_of_flat (c : Dev nD) (W : Waits sig Unit) (o : oM.view.ty.Contents (Elt F)) :
    iprop(flatLin (F := F) c ∗ flatOwes (F := F) c W ∗ own32 (F := F) c ∗ xPieces m c ∗ (oM.view.loc (c : Thread nD τ) ↦[oM.view.set]{fullShare} o)) ⊢ st0 m c W o := by
  unfold flatLin flatOwes own32 xPieces st0
  iintro ⟨⟨Htb_py, Htb_px, Htb_pz, Hatb, Hcb, Hat_2, Hat_3, Hat_4, Hat_5, Hat_6, Hat_7, Hat_8, Hat_9, Hat_10, Hat_11, Hat_12, Hat_13, Hat_14, Hat_15, Hat_16, Hat_17, Hat_18, Hat_19, Hat_20, Hat_21, Hat_22, Hat_23, Hat_24, Hat_25, Hat_26, Hat_27, Hat_28, Hat_29, Hat_30, Hat_31, Hat_32, Hat_33, Hat_34, Hat_35, Hat_36, Hat_37, Hat_38, Hat_39, Hat_40, Hat_41, Hat_42, Hat_43, Hat_44, Hat_45, Hat_46, Hat_47, Hat_48, Hat_49, Hat_50, Hat_51, Hat_52, Hat_53, Hat_54, Hat_55, Hat_56, Hat_57, Hat_58, Hat_59, Hat_60, Hat_61, Hat_62, Hat_63, Hat_64, Hat_65, Ht_2, Ht_3, Ht_4, Ht_5, Ht_6, Ht_7, Ht_8, Ht_9, Ht_18, Ht_19, Ht_20, Ht_21, Ht_22, Ht_23, Ht_24, Ht_25, Ht_34, Ht_35, Ht_36, Ht_37, Ht_38, Ht_39, Ht_40, Ht_41, Ht_50, Ht_51, Ht_52, Ht_53, Ht_54, Ht_60, Ht_61, Ht_62, Hc_10, Hc_11, Hc_12, Hc_13, Hc_14, Hc_15, Hc_16, Hc_17, Hc_26, Hc_27, Hc_28, Hc_29, Hc_30, Hc_31, Hc_32, Hc_33, Hc_42, Hc_43, Hc_44, Hc_45, Hc_46, Hc_47, Hc_48, Hc_49, Hc_55, Hc_56, Hc_57, Hc_58, Hc_59, Hc_63, Hc_64, Hc_65, Htp_10, Htp_11, Htp_12, Htp_13, Htp_14, Htp_15, Htp_16, Htp_17, Htp_63, Htp_64, Htp_65, Htp_26, Htp_27, Htp_28, Htp_29, Htp_30, Htp_31, Htp_32, Htp_33, Htp_55, Htp_56, Htp_57, Htp_42, Htp_43, Htp_44, Htp_45, Htp_46, Htp_47, Htp_48, Htp_49, Htp_58, Htp_59⟩, HO, ⟨Hown_yB_0, Hown_yB_1, Hown_yB_2, Hown_yB_3, Hown_yB_4, Hown_yB_5, Hown_yB_6, Hown_yB_7, Hown_xB_0, Hown_xB_1, Hown_xB_2, Hown_xB_3, Hown_xB_4, Hown_xB_5, Hown_xB_6, Hown_xB_7, Hown_zB_0, Hown_zB_1, Hown_zB_2, Hown_zB_3, Hown_zB_4, Hown_zB_5, Hown_zB_6, Hown_zB_7, Hown_dB_0, Hown_dB_1, Hown_dB_2, Hown_dB_3, Hown_dB_4, Hown_dB_5, Hown_dB_6, Hown_dB_7⟩, ⟨Hxs_0, Hxs_1, Hxs_2, Hxs_3, Hxs_4, Hxs_5, Hxs_6, Hxs_7, Hxd_0, Hxd_1, Hxd_2, Hxl⟩, Hout⟩
  isplitl [Htb_py]; · iexact Htb_py
  isplitl [Htb_px]; · iexact Htb_px
  isplitl [Htb_pz]; · iexact Htb_pz
  isplitl [Hatb]; · iexact Hatb
  isplitl [Hcb]; · iexact Hcb
  isplitl [Hat_2]; · iexact Hat_2
  isplitl [Hat_3]; · iexact Hat_3
  isplitl [Hat_4]; · iexact Hat_4
  isplitl [Hat_5]; · iexact Hat_5
  isplitl [Hat_6]; · iexact Hat_6
  isplitl [Hat_7]; · iexact Hat_7
  isplitl [Hat_8]; · iexact Hat_8
  isplitl [Hat_9]; · iexact Hat_9
  isplitl [Hat_10]; · iexact Hat_10
  isplitl [Hat_11]; · iexact Hat_11
  isplitl [Hat_12]; · iexact Hat_12
  isplitl [Hat_13]; · iexact Hat_13
  isplitl [Hat_14]; · iexact Hat_14
  isplitl [Hat_15]; · iexact Hat_15
  isplitl [Hat_16]; · iexact Hat_16
  isplitl [Hat_17]; · iexact Hat_17
  isplitl [Hat_18]; · iexact Hat_18
  isplitl [Hat_19]; · iexact Hat_19
  isplitl [Hat_20]; · iexact Hat_20
  isplitl [Hat_21]; · iexact Hat_21
  isplitl [Hat_22]; · iexact Hat_22
  isplitl [Hat_23]; · iexact Hat_23
  isplitl [Hat_24]; · iexact Hat_24
  isplitl [Hat_25]; · iexact Hat_25
  isplitl [Hat_26]; · iexact Hat_26
  isplitl [Hat_27]; · iexact Hat_27
  isplitl [Hat_28]; · iexact Hat_28
  isplitl [Hat_29]; · iexact Hat_29
  isplitl [Hat_30]; · iexact Hat_30
  isplitl [Hat_31]; · iexact Hat_31
  isplitl [Hat_32]; · iexact Hat_32
  isplitl [Hat_33]; · iexact Hat_33
  isplitl [Hat_34]; · iexact Hat_34
  isplitl [Hat_35]; · iexact Hat_35
  isplitl [Hat_36]; · iexact Hat_36
  isplitl [Hat_37]; · iexact Hat_37
  isplitl [Hat_38]; · iexact Hat_38
  isplitl [Hat_39]; · iexact Hat_39
  isplitl [Hat_40]; · iexact Hat_40
  isplitl [Hat_41]; · iexact Hat_41
  isplitl [Hat_42]; · iexact Hat_42
  isplitl [Hat_43]; · iexact Hat_43
  isplitl [Hat_44]; · iexact Hat_44
  isplitl [Hat_45]; · iexact Hat_45
  isplitl [Hat_46]; · iexact Hat_46
  isplitl [Hat_47]; · iexact Hat_47
  isplitl [Hat_48]; · iexact Hat_48
  isplitl [Hat_49]; · iexact Hat_49
  isplitl [Hat_50]; · iexact Hat_50
  isplitl [Hat_51]; · iexact Hat_51
  isplitl [Hat_52]; · iexact Hat_52
  isplitl [Hat_53]; · iexact Hat_53
  isplitl [Hat_54]; · iexact Hat_54
  isplitl [Hat_55]; · iexact Hat_55
  isplitl [Hat_56]; · iexact Hat_56
  isplitl [Hat_57]; · iexact Hat_57
  isplitl [Hat_58]; · iexact Hat_58
  isplitl [Hat_59]; · iexact Hat_59
  isplitl [Hat_60]; · iexact Hat_60
  isplitl [Hat_61]; · iexact Hat_61
  isplitl [Hat_62]; · iexact Hat_62
  isplitl [Hat_63]; · iexact Hat_63
  isplitl [Hat_64]; · iexact Hat_64
  isplitl [Hat_65]; · iexact Hat_65
  isplitl [Ht_2]; · iexact Ht_2
  isplitl [Ht_3]; · iexact Ht_3
  isplitl [Ht_4]; · iexact Ht_4
  isplitl [Ht_5]; · iexact Ht_5
  isplitl [Ht_6]; · iexact Ht_6
  isplitl [Ht_7]; · iexact Ht_7
  isplitl [Ht_8]; · iexact Ht_8
  isplitl [Ht_9]; · iexact Ht_9
  isplitl [Ht_18]; · iexact Ht_18
  isplitl [Ht_19]; · iexact Ht_19
  isplitl [Ht_20]; · iexact Ht_20
  isplitl [Ht_21]; · iexact Ht_21
  isplitl [Ht_22]; · iexact Ht_22
  isplitl [Ht_23]; · iexact Ht_23
  isplitl [Ht_24]; · iexact Ht_24
  isplitl [Ht_25]; · iexact Ht_25
  isplitl [Ht_34]; · iexact Ht_34
  isplitl [Ht_35]; · iexact Ht_35
  isplitl [Ht_36]; · iexact Ht_36
  isplitl [Ht_37]; · iexact Ht_37
  isplitl [Ht_38]; · iexact Ht_38
  isplitl [Ht_39]; · iexact Ht_39
  isplitl [Ht_40]; · iexact Ht_40
  isplitl [Ht_41]; · iexact Ht_41
  isplitl [Ht_50]; · iexact Ht_50
  isplitl [Ht_51]; · iexact Ht_51
  isplitl [Ht_52]; · iexact Ht_52
  isplitl [Ht_53]; · iexact Ht_53
  isplitl [Ht_54]; · iexact Ht_54
  isplitl [Ht_60]; · iexact Ht_60
  isplitl [Ht_61]; · iexact Ht_61
  isplitl [Ht_62]; · iexact Ht_62
  isplitl [Hc_10]; · iexact Hc_10
  isplitl [Hc_11]; · iexact Hc_11
  isplitl [Hc_12]; · iexact Hc_12
  isplitl [Hc_13]; · iexact Hc_13
  isplitl [Hc_14]; · iexact Hc_14
  isplitl [Hc_15]; · iexact Hc_15
  isplitl [Hc_16]; · iexact Hc_16
  isplitl [Hc_17]; · iexact Hc_17
  isplitl [Hc_26]; · iexact Hc_26
  isplitl [Hc_27]; · iexact Hc_27
  isplitl [Hc_28]; · iexact Hc_28
  isplitl [Hc_29]; · iexact Hc_29
  isplitl [Hc_30]; · iexact Hc_30
  isplitl [Hc_31]; · iexact Hc_31
  isplitl [Hc_32]; · iexact Hc_32
  isplitl [Hc_33]; · iexact Hc_33
  isplitl [Hc_42]; · iexact Hc_42
  isplitl [Hc_43]; · iexact Hc_43
  isplitl [Hc_44]; · iexact Hc_44
  isplitl [Hc_45]; · iexact Hc_45
  isplitl [Hc_46]; · iexact Hc_46
  isplitl [Hc_47]; · iexact Hc_47
  isplitl [Hc_48]; · iexact Hc_48
  isplitl [Hc_49]; · iexact Hc_49
  isplitl [Hc_55]; · iexact Hc_55
  isplitl [Hc_56]; · iexact Hc_56
  isplitl [Hc_57]; · iexact Hc_57
  isplitl [Hc_58]; · iexact Hc_58
  isplitl [Hc_59]; · iexact Hc_59
  isplitl [Hc_63]; · iexact Hc_63
  isplitl [Hc_64]; · iexact Hc_64
  isplitl [Hc_65]; · iexact Hc_65
  isplitl [Htp_10]; · iexact Htp_10
  isplitl [Htp_11]; · iexact Htp_11
  isplitl [Htp_12]; · iexact Htp_12
  isplitl [Htp_13]; · iexact Htp_13
  isplitl [Htp_14]; · iexact Htp_14
  isplitl [Htp_15]; · iexact Htp_15
  isplitl [Htp_16]; · iexact Htp_16
  isplitl [Htp_17]; · iexact Htp_17
  isplitl [Htp_63]; · iexact Htp_63
  isplitl [Htp_64]; · iexact Htp_64
  isplitl [Htp_65]; · iexact Htp_65
  isplitl [Htp_26]; · iexact Htp_26
  isplitl [Htp_27]; · iexact Htp_27
  isplitl [Htp_28]; · iexact Htp_28
  isplitl [Htp_29]; · iexact Htp_29
  isplitl [Htp_30]; · iexact Htp_30
  isplitl [Htp_31]; · iexact Htp_31
  isplitl [Htp_32]; · iexact Htp_32
  isplitl [Htp_33]; · iexact Htp_33
  isplitl [Htp_55]; · iexact Htp_55
  isplitl [Htp_56]; · iexact Htp_56
  isplitl [Htp_57]; · iexact Htp_57
  isplitl [Htp_42]; · iexact Htp_42
  isplitl [Htp_43]; · iexact Htp_43
  isplitl [Htp_44]; · iexact Htp_44
  isplitl [Htp_45]; · iexact Htp_45
  isplitl [Htp_46]; · iexact Htp_46
  isplitl [Htp_47]; · iexact Htp_47
  isplitl [Htp_48]; · iexact Htp_48
  isplitl [Htp_49]; · iexact Htp_49
  isplitl [Htp_58]; · iexact Htp_58
  isplitl [Htp_59]; · iexact Htp_59
  isplitl [Hown_yB_0]; · iexact Hown_yB_0
  isplitl [Hown_yB_1]; · iexact Hown_yB_1
  isplitl [Hown_yB_2]; · iexact Hown_yB_2
  isplitl [Hown_yB_3]; · iexact Hown_yB_3
  isplitl [Hown_yB_4]; · iexact Hown_yB_4
  isplitl [Hown_yB_5]; · iexact Hown_yB_5
  isplitl [Hown_yB_6]; · iexact Hown_yB_6
  isplitl [Hown_yB_7]; · iexact Hown_yB_7
  isplitl [Hown_xB_0]; · iexact Hown_xB_0
  isplitl [Hown_xB_1]; · iexact Hown_xB_1
  isplitl [Hown_xB_2]; · iexact Hown_xB_2
  isplitl [Hown_xB_3]; · iexact Hown_xB_3
  isplitl [Hown_xB_4]; · iexact Hown_xB_4
  isplitl [Hown_xB_5]; · iexact Hown_xB_5
  isplitl [Hown_xB_6]; · iexact Hown_xB_6
  isplitl [Hown_xB_7]; · iexact Hown_xB_7
  isplitl [Hown_zB_0]; · iexact Hown_zB_0
  isplitl [Hown_zB_1]; · iexact Hown_zB_1
  isplitl [Hown_zB_2]; · iexact Hown_zB_2
  isplitl [Hown_zB_3]; · iexact Hown_zB_3
  isplitl [Hown_zB_4]; · iexact Hown_zB_4
  isplitl [Hown_zB_5]; · iexact Hown_zB_5
  isplitl [Hown_zB_6]; · iexact Hown_zB_6
  isplitl [Hown_zB_7]; · iexact Hown_zB_7
  isplitl [Hown_dB_0]; · iexact Hown_dB_0
  isplitl [Hown_dB_1]; · iexact Hown_dB_1
  isplitl [Hown_dB_2]; · iexact Hown_dB_2
  isplitl [Hown_dB_3]; · iexact Hown_dB_3
  isplitl [Hown_dB_4]; · iexact Hown_dB_4
  isplitl [Hown_dB_5]; · iexact Hown_dB_5
  isplitl [Hown_dB_6]; · iexact Hown_dB_6
  isplitl [Hown_dB_7]; · iexact Hown_dB_7
  isplitl [Hxs_0]; · iexact Hxs_0
  isplitl [Hxs_1]; · iexact Hxs_1
  isplitl [Hxs_2]; · iexact Hxs_2
  isplitl [Hxs_3]; · iexact Hxs_3
  isplitl [Hxs_4]; · iexact Hxs_4
  isplitl [Hxs_5]; · iexact Hxs_5
  isplitl [Hxs_6]; · iexact Hxs_6
  isplitl [Hxs_7]; · iexact Hxs_7
  isplitl [Hxd_0]; · iexact Hxd_0
  isplitl [Hxd_1]; · iexact Hxd_1
  isplitl [Hxd_2]; · iexact Hxd_2
  isplitl [Hxl]; · iexact Hxl
  isplitl [HO]; · iexact HO
  iexact Hout

set_option maxHeartbeats 4000000 in
theorem post_of_end (c : Dev nD) (W : Waits sig Unit) (o : oM.view.ty.Contents (Elt F)) :
    iprop(stEnd m c W o ∗ xRest m c) ⊢ bodyPost m c o := by
  unfold stEnd bodyPost
  iintro ⟨⟨Hxl, Hatb1, Hz_10, HyC_0, Hz_11, HyC_1, Hz_12, HyC_2, Hz_13, HyC_3, Hz_14, HyC_4, Hz_15, HyC_5, Hz_16, HyC_6, Hz_17, HyC_7, Hz_42, HzL_0, Hz_26, HxL_0, Hz_43, HzL_1, Hz_27, HxL_1, Hz_44, HzL_2, Hz_28, HxL_2, Hz_45, HzL_3, Hz_29, HxL_3, Hz_46, HzL_4, Hz_30, HxL_4, Hz_47, HzL_5, Hz_31, HxL_5, Hz_48, HzL_6, Hz_32, HxL_6, Hz_49, HzL_7, Hz_33, HxL_7, Hz_63, HdL_0, Hz_64, HdL_1, Hz_65, HdL_2, Hz_55, HdL_3, Hz_56, HdL_4, Hz_57, HdL_5, Hz_58, HdL_6, Hz_59, HdL_7, Hz_2, Hback_2, Hz_3, Hback_3, Hz_4, Hback_4, Hz_5, Hback_5, Hz_6, Hback_6, Hz_7, Hback_7, Hz_8, Hback_8, Hz_9, Hback_9, Hz_60, Hback_60, Hz_61, Hback_61, Hz_62, Hback_62, Hz_18, Hback_18, Hz_19, Hback_19, Hz_20, Hback_20, Hz_21, Hback_21, Hz_22, Hback_22, Hz_23, Hback_23, Hz_24, Hback_24, Hz_25, Hback_25, Hz_34, Hback_34, Hz_35, Hback_35, Hz_36, Hback_36, Hz_37, Hback_37, Hz_38, Hback_38, Hz_39, Hback_39, Hz_40, Hback_40, Hz_41, Hback_41, Hz_50, Hback_50, Hz_51, Hback_51, Hz_52, Hback_52, Hz_53, Hback_53, Hz_54, Hback_54, HO, Hout⟩, Hxr⟩
  ihave Hy0 := (join3 yB 0 c (Ych m c 0)) $$ [Hback_18 Hback_34 HyC_0]
  · isplitl [Hback_18]; · iexact Hback_18
    isplitl [Hback_34]; · iexact Hback_34
    iexact HyC_0
  ihave Hy1 := (join3 yB 1 c (Ych m c 1)) $$ [Hback_19 Hback_35 HyC_1]
  · isplitl [Hback_19]; · iexact Hback_19
    isplitl [Hback_35]; · iexact Hback_35
    iexact HyC_1
  ihave Hy2 := (join3 yB 2 c (Ych m c 2)) $$ [Hback_20 Hback_36 HyC_2]
  · isplitl [Hback_20]; · iexact Hback_20
    isplitl [Hback_36]; · iexact Hback_36
    iexact HyC_2
  ihave Hy3 := (join3 yB 3 c (Ych m c 3)) $$ [Hback_21 Hback_37 HyC_3]
  · isplitl [Hback_21]; · iexact Hback_21
    isplitl [Hback_37]; · iexact Hback_37
    iexact HyC_3
  ihave Hy4 := (join3 yB 4 c (Ych m c 4)) $$ [Hback_22 Hback_38 HyC_4]
  · isplitl [Hback_22]; · iexact Hback_22
    isplitl [Hback_38]; · iexact Hback_38
    iexact HyC_4
  ihave Hy5 := (join3 yB 5 c (Ych m c 5)) $$ [Hback_23 Hback_39 HyC_5]
  · isplitl [Hback_23]; · iexact Hback_23
    isplitl [Hback_39]; · iexact Hback_39
    iexact HyC_5
  ihave Hy6 := (join3 yB 6 c (Ych m c 6)) $$ [Hback_24 Hback_40 HyC_6]
  · isplitl [Hback_24]; · iexact Hback_24
    isplitl [Hback_40]; · iexact Hback_40
    iexact HyC_6
  ihave Hy7 := (join3 yB 7 c (Ych m c 7)) $$ [Hback_25 Hback_41 HyC_7]
  · isplitl [Hback_25]; · iexact Hback_25
    isplitl [Hback_41]; · iexact Hback_41
    iexact HyC_7
  ihave Hz3 := (join2 zB 3 c (Zch m c 3)) $$ [Hback_50 HzL_3]
  · isplitl [Hback_50]; · iexact Hback_50
    iexact HzL_3
  ihave Hz4 := (join2 zB 4 c (Zch m c 4)) $$ [Hback_51 HzL_4]
  · isplitl [Hback_51]; · iexact Hback_51
    iexact HzL_4
  ihave Hz5 := (join2 zB 5 c (Zch m c 5)) $$ [Hback_52 HzL_5]
  · isplitl [Hback_52]; · iexact Hback_52
    iexact HzL_5
  ihave Hx6 := (join2 xB 6 c (Xch m c 6)) $$ [Hback_53 HxL_6]
  · isplitl [Hback_53]; · iexact Hback_53
    iexact HxL_6
  ihave Hx7 := (join2 xB 7 c (Xch m c 7)) $$ [Hback_54 HxL_7]
  · isplitl [Hback_54]; · iexact Hback_54
    iexact HxL_7
  unfold flatZero own32 xPieces
  isplitl [Hz_2 Hz_3 Hz_4 Hz_5 Hz_6 Hz_7 Hz_8 Hz_9 Hz_10 Hz_11 Hz_12 Hz_13 Hz_14 Hz_15 Hz_16 Hz_17 Hz_18 Hz_19 Hz_20 Hz_21 Hz_22 Hz_23 Hz_24 Hz_25 Hz_26 Hz_27 Hz_28 Hz_29 Hz_30 Hz_31 Hz_32 Hz_33 Hz_34 Hz_35 Hz_36 Hz_37 Hz_38 Hz_39 Hz_40 Hz_41 Hz_42 Hz_43 Hz_44 Hz_45 Hz_46 Hz_47 Hz_48 Hz_49 Hz_50 Hz_51 Hz_52 Hz_53 Hz_54 Hz_55 Hz_56 Hz_57 Hz_58 Hz_59 Hz_60 Hz_61 Hz_62 Hz_63 Hz_64 Hz_65]
  · isplitl [Hz_2]; · iexact Hz_2
    isplitl [Hz_3]; · iexact Hz_3
    isplitl [Hz_4]; · iexact Hz_4
    isplitl [Hz_5]; · iexact Hz_5
    isplitl [Hz_6]; · iexact Hz_6
    isplitl [Hz_7]; · iexact Hz_7
    isplitl [Hz_8]; · iexact Hz_8
    isplitl [Hz_9]; · iexact Hz_9
    isplitl [Hz_10]; · iexact Hz_10
    isplitl [Hz_11]; · iexact Hz_11
    isplitl [Hz_12]; · iexact Hz_12
    isplitl [Hz_13]; · iexact Hz_13
    isplitl [Hz_14]; · iexact Hz_14
    isplitl [Hz_15]; · iexact Hz_15
    isplitl [Hz_16]; · iexact Hz_16
    isplitl [Hz_17]; · iexact Hz_17
    isplitl [Hz_18]; · iexact Hz_18
    isplitl [Hz_19]; · iexact Hz_19
    isplitl [Hz_20]; · iexact Hz_20
    isplitl [Hz_21]; · iexact Hz_21
    isplitl [Hz_22]; · iexact Hz_22
    isplitl [Hz_23]; · iexact Hz_23
    isplitl [Hz_24]; · iexact Hz_24
    isplitl [Hz_25]; · iexact Hz_25
    isplitl [Hz_26]; · iexact Hz_26
    isplitl [Hz_27]; · iexact Hz_27
    isplitl [Hz_28]; · iexact Hz_28
    isplitl [Hz_29]; · iexact Hz_29
    isplitl [Hz_30]; · iexact Hz_30
    isplitl [Hz_31]; · iexact Hz_31
    isplitl [Hz_32]; · iexact Hz_32
    isplitl [Hz_33]; · iexact Hz_33
    isplitl [Hz_34]; · iexact Hz_34
    isplitl [Hz_35]; · iexact Hz_35
    isplitl [Hz_36]; · iexact Hz_36
    isplitl [Hz_37]; · iexact Hz_37
    isplitl [Hz_38]; · iexact Hz_38
    isplitl [Hz_39]; · iexact Hz_39
    isplitl [Hz_40]; · iexact Hz_40
    isplitl [Hz_41]; · iexact Hz_41
    isplitl [Hz_42]; · iexact Hz_42
    isplitl [Hz_43]; · iexact Hz_43
    isplitl [Hz_44]; · iexact Hz_44
    isplitl [Hz_45]; · iexact Hz_45
    isplitl [Hz_46]; · iexact Hz_46
    isplitl [Hz_47]; · iexact Hz_47
    isplitl [Hz_48]; · iexact Hz_48
    isplitl [Hz_49]; · iexact Hz_49
    isplitl [Hz_50]; · iexact Hz_50
    isplitl [Hz_51]; · iexact Hz_51
    isplitl [Hz_52]; · iexact Hz_52
    isplitl [Hz_53]; · iexact Hz_53
    isplitl [Hz_54]; · iexact Hz_54
    isplitl [Hz_55]; · iexact Hz_55
    isplitl [Hz_56]; · iexact Hz_56
    isplitl [Hz_57]; · iexact Hz_57
    isplitl [Hz_58]; · iexact Hz_58
    isplitl [Hz_59]; · iexact Hz_59
    isplitl [Hz_60]; · iexact Hz_60
    isplitl [Hz_61]; · iexact Hz_61
    isplitl [Hz_62]; · iexact Hz_62
    isplitl [Hz_63]; · iexact Hz_63
    isplitl [Hz_64]; · iexact Hz_64
    iexact Hz_65
  isplitl [Hy0 Hy1 Hy2 Hy3 Hy4 Hy5 Hy6 Hy7 HxL_0 HxL_1 HxL_2 HxL_3 HxL_4 HxL_5 Hx6 Hx7 HzL_0 HzL_1 HzL_2 Hz3 Hz4 Hz5 HzL_6 HzL_7 HdL_0 HdL_1 HdL_2 HdL_3 HdL_4 HdL_5 HdL_6 HdL_7]
  · isplitl [Hy0]; · (iexists _; iexact Hy0)
    isplitl [Hy1]; · (iexists _; iexact Hy1)
    isplitl [Hy2]; · (iexists _; iexact Hy2)
    isplitl [Hy3]; · (iexists _; iexact Hy3)
    isplitl [Hy4]; · (iexists _; iexact Hy4)
    isplitl [Hy5]; · (iexists _; iexact Hy5)
    isplitl [Hy6]; · (iexists _; iexact Hy6)
    isplitl [Hy7]; · (iexists _; iexact Hy7)
    isplitl [HxL_0]; · (iexists _; iexact HxL_0)
    isplitl [HxL_1]; · (iexists _; iexact HxL_1)
    isplitl [HxL_2]; · (iexists _; iexact HxL_2)
    isplitl [HxL_3]; · (iexists _; iexact HxL_3)
    isplitl [HxL_4]; · (iexists _; iexact HxL_4)
    isplitl [HxL_5]; · (iexists _; iexact HxL_5)
    isplitl [Hx6]; · (iexists _; iexact Hx6)
    isplitl [Hx7]; · (iexists _; iexact Hx7)
    isplitl [HzL_0]; · (iexists _; iexact HzL_0)
    isplitl [HzL_1]; · (iexists _; iexact HzL_1)
    isplitl [HzL_2]; · (iexists _; iexact HzL_2)
    isplitl [Hz3]; · (iexists _; iexact Hz3)
    isplitl [Hz4]; · (iexists _; iexact Hz4)
    isplitl [Hz5]; · (iexists _; iexact Hz5)
    isplitl [HzL_6]; · (iexists _; iexact HzL_6)
    isplitl [HzL_7]; · (iexists _; iexact HzL_7)
    isplitl [HdL_0]; · (iexists _; iexact HdL_0)
    isplitl [HdL_1]; · (iexists _; iexact HdL_1)
    isplitl [HdL_2]; · (iexists _; iexact HdL_2)
    isplitl [HdL_3]; · (iexists _; iexact HdL_3)
    isplitl [HdL_4]; · (iexists _; iexact HdL_4)
    isplitl [HdL_5]; · (iexists _; iexact HdL_5)
    isplitl [HdL_6]; · (iexists _; iexact HdL_6)
    iexists _; iexact HdL_7
  isplitl [Hback_2 Hback_3 Hback_4 Hback_5 Hback_6 Hback_7 Hback_8 Hback_9 Hback_60 Hback_61 Hback_62 Hxl]
  · isplitl [Hback_2]; · iexact Hback_2
    isplitl [Hback_3]; · iexact Hback_3
    isplitl [Hback_4]; · iexact Hback_4
    isplitl [Hback_5]; · iexact Hback_5
    isplitl [Hback_6]; · iexact Hback_6
    isplitl [Hback_7]; · iexact Hback_7
    isplitl [Hback_8]; · iexact Hback_8
    isplitl [Hback_9]; · iexact Hback_9
    isplitl [Hback_60]; · iexact Hback_60
    isplitl [Hback_61]; · iexact Hback_61
    isplitl [Hback_62]; · iexact Hback_62
    iexact Hxl
  isplitl [Hxr]; · iexact Hxr
  isplitl [Hout]
  · rw [outOf_nested]; iexact Hout
  iexists _; iexact HO

end Cert.KernelIdeal.RS

end
-- ==== Proof.Wrap.lean ====
import proofs.«901037_g7700000000001038_dist_rs_v7x_xyz2x2x4_y_m1024_n512_f32_1_alg».proof.Proof.WrapDefs
import proofs.«901037_g7700000000001038_dist_rs_v7x_xyz2x2x4_y_m1024_n512_f32_1_alg».proof.Proof.Gen.KernelIdeal.Points

set_option maxRecDepth 65536

noncomputable section

namespace Cert.KernelIdeal.RS

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def wrapPre (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def wrapPost (c : Dev nD) : sProp 𝕄 :=
  iprop(Φ₁ (F := F) c ∗ (dats m 0 c).owesAt () t₀.succ ∗ stg c cc0_stg0_0 (xstg m c) ∗ stg c cc0_stg1_0 (outAt m c))

omit [FloatOps F] in

theorem oM_pts (c : Dev nD) (g : oM.view.ty.Contents (Elt F)) :
    (oM.view.loc (c : Thread nD τ) ↦[oM.view.set]{fullShare} g : sProp 𝕄)
      = (((c : Thread nD τ).loc cc0_stg1_0) ↦{fullShare} g) :=
  congrArg (fun S => (((c : Thread nD τ).loc cc0_stg1_0) ↦[S]{fullShare} g : sProp 𝕄)) (View.set_whole (cc0_stg1_0 : Ref sig .tc))

theorem wrap_core
    (hsound : ∀ (K : Dev nD × Fin 65 → ℕ) (c : Dev nD) (W : Waits sig Unit) (g1 : oM.view.ty.Contents (Elt F)) (Kt : PUnit → sProp 𝕄),
      iprop(□ (flatInv m K c ∗ flatReached (F := F) c) ∗ flatLin (F := F) c ∗ levAts L lv ∗ flatOwes (F := F) c W
          ∗ own32 (F := F) c ∗ xPieces m c ∗ xRest m c ∗ (oM.view.loc (c : Thread nD τ) ↦[oM.view.set]{fullShare} g1)
          ∗ (bodyPost m c g1 -∗ Kt ⟨⟩))
        ⊢ wp frame (wpE (defs₀ (F := F)) 𝒱₀ (c : Thread nD τ) none) Set.univ
            (cc0_body (Memref.whole cc0_stg0_0) (Memref.isWhole_whole _) (Memref.whole cc0_stg1_0) (Memref.isWhole_whole _)
              (Memref.whole cc0_scratch0) (Memref.isWhole_whole _) (Memref.whole cc0_scratch1) (Memref.isWhole_whole _)
              (Memref.whole cc0_scratch2) (Memref.isWhole_whole _) (Memref.whole cc0_scratch3) (Memref.isWhole_whole _)
              cc0_scratch4 cc0_scratch5 cc0_scratch6 cc0_scratch7 cc0_scratch8 cc0_scratch9 cc0_scratch10 cc0_scratch11
              cc0_scratch12 cc0_scratch13 cc0_scratch14 cc0_scratch15) Kt)
    (c : Dev nD) :
    wrapPre m c ⊢ wp frame (wpE (defs₀ (F := F)) 𝒱₀ (c : Thread nD τ) none) Set.univ
            (cc0_body (Memref.whole cc0_stg0_0) (Memref.isWhole_whole _) (Memref.whole cc0_stg1_0) (Memref.isWhole_whole _)
              (Memref.whole cc0_scratch0) (Memref.isWhole_whole _) (Memref.whole cc0_scratch1) (Memref.isWhole_whole _)
              (Memref.whole cc0_scratch2) (Memref.isWhole_whole _) (Memref.whole cc0_scratch3) (Memref.isWhole_whole _)
              cc0_scratch4 cc0_scratch5 cc0_scratch6 cc0_scratch7 cc0_scratch8 cc0_scratch9 cc0_scratch10 cc0_scratch11
              cc0_scratch12 cc0_scratch13 cc0_scratch14 cc0_scratch15) (fun _ => wrapPost m c) := by
  unfold wrapPre Φ₀
  iintro ⟨⟨Hstart, Hscr⟩, Ho, ⟨%d0, %g0, %hg0, Hx⟩, ⟨%d1, %g1, %hg1, Hout⟩⟩
  have hx : g0 = xstg m c := by rw [hg0]; unfold Dat.before; rw [if_pos (Gen.fetch0_0 t₀)]; rfl
  subst hx
  unfold Dat.owesAt Pipeline.owesWithin
  icases Ho with ⟨%W, %hW, HO⟩
  rw [show (dats m 0 c).owed t₀.castSucc = O₀ c from rfl]
  ihave Hs := (start_flat m c) $$ Hstart
  icases Hs with ⟨%K, #HIR, HL, Hlev⟩
  ihave H32 := (cut_scr (F := F) c) $$ Hscr
  ihave Hxp := (cut_x m c) $$ Hx
  icases Hxp with ⟨HxP, HxR⟩
  ihave Hout' := (Entails.of_eq (oM_pts (F := F) c g1).symm) $$ Hout
  iapply (hsound K c W g1 fun _ => wrapPost m c)
  isplitr
  · imodintro; iexact HIR
  isplitl [HL]; · iexact HL
  isplitl [Hlev]; · iexact Hlev
  isplitl [HO]; · unfold flatOwes O₀; iexact HO
  isplitl [H32]; · iexact H32
  isplitl [HxP]; · iexact HxP
  isplitl [HxR]; · iexact HxR
  isplitl [Hout']; · iexact Hout'
  iintro Hp
  unfold bodyPost
  icases Hp with ⟨Hz, H32, HxP, HxR, Hout, ⟨%W', HO⟩⟩
  unfold wrapPost Φ₁ Dat.owesAt Pipeline.owesWithin
  rw [show (dats m 0 c).owed t₀.succ = 0 from rfl]
  isplitl [Hz H32]
  · isplitl [H32]
    · iapply (join_scr (F := F) c); iexact H32
    · iapply (own_sems_flat (F := F) c); iexact Hz
  isplitl [HO]
  · iexists W'
    isplitr; · ipureintro; exact fun _ _ => Or.inl trivial
    iexact HO
  isplitl [HxP HxR]
  · iexists _; isplitr; · (ipureintro; rfl)
    iapply (join_x m c)
    isplitl [HxP]; · iexact HxP
    iexact HxR
  iexists (outOf m c g1)
  isplitr
  · ipureintro; unfold outAt; exact outOf_indep m c g1 _
  ihave Hout' := (Entails.of_eq (oM_pts (F := F) c (outOf m c g1))) $$ Hout
  iexact Hout'

-- The body's own statement gives the obligation the launch asks of each device.
set_option maxHeartbeats 4000000 in

theorem body_obligation_of
    (hsound : ∀ (K : Dev nD × Fin 65 → ℕ) (c : Dev nD) (W : Waits sig Unit) (g1 : oM.view.ty.Contents (Elt F)) (Kt : PUnit → sProp 𝕄),
      iprop(□ (flatInv m K c ∗ flatReached (F := F) c) ∗ flatLin (F := F) c ∗ levAts L lv ∗ flatOwes (F := F) c W
          ∗ own32 (F := F) c ∗ xPieces m c ∗ xRest m c ∗ (oM.view.loc (c : Thread nD τ) ↦[oM.view.set]{fullShare} g1)
          ∗ (bodyPost m c g1 -∗ Kt ⟨⟩))
        ⊢ wp frame (wpE (defs₀ (F := F)) 𝒱₀ (c : Thread nD τ) none) Set.univ
            (cc0_body (Memref.whole cc0_stg0_0) (Memref.isWhole_whole _) (Memref.whole cc0_stg1_0) (Memref.isWhole_whole _)
              (Memref.whole cc0_scratch0) (Memref.isWhole_whole _) (Memref.whole cc0_scratch1) (Memref.isWhole_whole _)
              (Memref.whole cc0_scratch2) (Memref.isWhole_whole _) (Memref.whole cc0_scratch3) (Memref.isWhole_whole _)
              cc0_scratch4 cc0_scratch5 cc0_scratch6 cc0_scratch7 cc0_scratch8 cc0_scratch9 cc0_scratch10 cc0_scratch11
              cc0_scratch12 cc0_scratch13 cc0_scratch14 cc0_scratch15) Kt)
    (c : Dev nD) : BodyObligation (dats (F := F) m 0 c) (defs₀ (F := F)) 𝒱₀ () Set.univ := fun t => by
  rw [fin_N t]
  rw [Gen.bigSep_W0, Gen.bigSep_W0]
  simp only [owns_whole_eq]
  exact wrap_core m hsound c

end Cert.KernelIdeal.RS

end
-- ==== Proof.PartsM.lean ====
import proofs.«901037_g7700000000001038_dist_rs_v7x_xyz2x2x4_y_m1024_n512_f32_1_alg».proof.Proof.PartsTab
import proofs.«901037_g7700000000001038_dist_rs_v7x_xyz2x2x4_y_m1024_n512_f32_1_alg».proof.Proof.SchedTab
import proofs.«901037_g7700000000001038_dist_rs_v7x_xyz2x2x4_y_m1024_n512_f32_1_alg».proof.Proof.MeshTab
import proofs.«901037_g7700000000001038_dist_rs_v7x_xyz2x2x4_y_m1024_n512_f32_1_alg».proof.Proof.WaitTab
import Idealize.ShloMosaic.Lib.Tactic

noncomputable section

namespace Cert.KernelIdeal.RS

open Cert.KernelIdeal Cert.KernelIdeal.Gen Cert.KernelIdeal.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

attribute [local irreducible] k0_off1 k0_off2 k0_off3 k0_off4 k0_off5 k0_off6 k0_off7 k0_off8 k0_off9 k0_off10 py px pz

theorem bar_payloads (c : Dev nD) : (bigSep Finset.univ (fun d : Fin 3 => (Rd (F := F) m).payload (barCell c) 0 d) : sProp 𝕄)
    = iprop(((∃ f : (chk yB 0).view.ty.Contents (Elt F), ((chk yB 0).view.loc (py c : Thread nD τ) ↦[(chk yB 0).view.set]{fullShare} f)) ∗ (∃ f : (chk yB 1).view.ty.Contents (Elt F), ((chk yB 1).view.loc (py c : Thread nD τ) ↦[(chk yB 1).view.set]{fullShare} f)) ∗ (∃ f : (chk yB 2).view.ty.Contents (Elt F), ((chk yB 2).view.loc (py c : Thread nD τ) ↦[(chk yB 2).view.set]{fullShare} f)) ∗ (∃ f : (chk yB 3).view.ty.Contents (Elt F), ((chk yB 3).view.loc (py c : Thread nD τ) ↦[(chk yB 3).view.set]{fullShare} f)) ∗ (∃ f : (chk yB 4).view.ty.Contents (Elt F), ((chk yB 4).view.loc (py c : Thread nD τ) ↦[(chk yB 4).view.set]{fullShare} f)) ∗ (∃ f : (chk yB 5).view.ty.Contents (Elt F), ((chk yB 5).view.loc (py c : Thread nD τ) ↦[(chk yB 5).view.set]{fullShare} f)) ∗ (∃ f : (chk yB 6).view.ty.Contents (Elt F), ((chk yB 6).view.loc (py c : Thread nD τ) ↦[(chk yB 6).view.set]{fullShare} f)) ∗ (∃ f : (chk yB 7).view.ty.Contents (Elt F), ((chk yB 7).view.loc (py c : Thread nD τ) ↦[(chk yB 7).view.set]{fullShare} f)) ∗ (∃ f : (chk dB 0).view.ty.Contents (Elt F), ((chk dB 0).view.loc (py c : Thread nD τ) ↦[(chk dB 0).view.set]{fullShare} f)) ∗ (∃ f : (chk dB 1).view.ty.Contents (Elt F), ((chk dB 1).view.loc (py c : Thread nD τ) ↦[(chk dB 1).view.set]{fullShare} f)) ∗ (∃ f : (chk dB 2).view.ty.Contents (Elt F), ((chk dB 2).view.loc (py c : Thread nD τ) ↦[(chk dB 2).view.set]{fullShare} f)))
        ∗ ((∃ f : (chk xB 0).view.ty.Contents (Elt F), ((chk xB 0).view.loc (px c : Thread nD τ) ↦[(chk xB 0).view.set]{fullShare} f)) ∗ (∃ f : (chk xB 1).view.ty.Contents (Elt F), ((chk xB 1).view.loc (px c : Thread nD τ) ↦[(chk xB 1).view.set]{fullShare} f)) ∗ (∃ f : (chk xB 2).view.ty.Contents (Elt F), ((chk xB 2).view.loc (px c : Thread nD τ) ↦[(chk xB 2).view.set]{fullShare} f)) ∗ (∃ f : (chk xB 3).view.ty.Contents (Elt F), ((chk xB 3).view.loc (px c : Thread nD τ) ↦[(chk xB 3).view.set]{fullShare} f)) ∗ (∃ f : (chk xB 4).view.ty.Contents (Elt F), ((chk xB 4).view.loc (px c : Thread nD τ) ↦[(chk xB 4).view.set]{fullShare} f)) ∗ (∃ f : (chk xB 5).view.ty.Contents (Elt F), ((chk xB 5).view.loc (px c : Thread nD τ) ↦[(chk xB 5).view.set]{fullShare} f)) ∗ (∃ f : (chk xB 6).view.ty.Contents (Elt F), ((chk xB 6).view.loc (px c : Thread nD τ) ↦[(chk xB 6).view.set]{fullShare} f)) ∗ (∃ f : (chk xB 7).view.ty.Contents (Elt F), ((chk xB 7).view.loc (px c : Thread nD τ) ↦[(chk xB 7).view.set]{fullShare} f)) ∗ (∃ f : (chk dB 3).view.ty.Contents (Elt F), ((chk dB 3).view.loc (px c : Thread nD τ) ↦[(chk dB 3).view.set]{fullShare} f)) ∗ (∃ f : (chk dB 4).view.ty.Contents (Elt F), ((chk dB 4).view.loc (px c : Thread nD τ) ↦[(chk dB 4).view.set]{fullShare} f)) ∗ (∃ f : (chk dB 5).view.ty.Contents (Elt F), ((chk dB 5).view.loc (px c : Thread nD τ) ↦[(chk dB 5).view.set]{fullShare} f)))
        ∗ ((∃ f : (chk zB 0).view.ty.Contents (Elt F), ((chk zB 0).view.loc (pz c : Thread nD τ) ↦[(chk zB 0).view.set]{fullShare} f)) ∗ (∃ f : (chk zB 1).view.ty.Contents (Elt F), ((chk zB 1).view.loc (pz c : Thread nD τ) ↦[(chk zB 1).view.set]{fullShare} f)) ∗ (∃ f : (chk zB 2).view.ty.Contents (Elt F), ((chk zB 2).view.loc (pz c : Thread nD τ) ↦[(chk zB 2).view.set]{fullShare} f)) ∗ (∃ f : (chk zB 3).view.ty.Contents (Elt F), ((chk zB 3).view.loc (pz c : Thread nD τ) ↦[(chk zB 3).view.set]{fullShare} f)) ∗ (∃ f : (chk zB 4).view.ty.Contents (Elt F), ((chk zB 4).view.loc (pz c : Thread nD τ) ↦[(chk zB 4).view.set]{fullShare} f)) ∗ (∃ f : (chk zB 5).view.ty.Contents (Elt F), ((chk zB 5).view.loc (pz c : Thread nD τ) ↦[(chk zB 5).view.set]{fullShare} f)) ∗ (∃ f : (chk zB 6).view.ty.Contents (Elt F), ((chk zB 6).view.loc (pz c : Thread nD τ) ↦[(chk zB 6).view.set]{fullShare} f)) ∗ (∃ f : (chk zB 7).view.ty.Contents (Elt F), ((chk zB 7).view.loc (pz c : Thread nD τ) ↦[(chk zB 7).view.set]{fullShare} f)) ∗ (∃ f : (chk dB 6).view.ty.Contents (Elt F), ((chk dB 6).view.loc (pz c : Thread nD τ) ↦[(chk dB 6).view.set]{fullShare} f)) ∗ (∃ f : (chk dB 7).view.ty.Contents (Elt F), ((chk dB 7).view.loc (pz c : Thread nD τ) ↦[(chk dB 7).view.set]{fullShare} f)))) := by
  rw [bigSep_univ_eq_bigSepL [(0 : Fin 3), 1, 2] (by decide) (by decide)]
  rfl

theorem pby (c : Dev nD) : (Rd (F := F) m).payload (barCell (py c)) 0 0 = iprop((∃ f : (chk yB 0).view.ty.Contents (Elt F), ((chk yB 0).view.loc (c : Thread nD τ) ↦[(chk yB 0).view.set]{fullShare} f)) ∗ (∃ f : (chk yB 1).view.ty.Contents (Elt F), ((chk yB 1).view.loc (c : Thread nD τ) ↦[(chk yB 1).view.set]{fullShare} f)) ∗ (∃ f : (chk yB 2).view.ty.Contents (Elt F), ((chk yB 2).view.loc (c : Thread nD τ) ↦[(chk yB 2).view.set]{fullShare} f)) ∗ (∃ f : (chk yB 3).view.ty.Contents (Elt F), ((chk yB 3).view.loc (c : Thread nD τ) ↦[(chk yB 3).view.set]{fullShare} f)) ∗ (∃ f : (chk yB 4).view.ty.Contents (Elt F), ((chk yB 4).view.loc (c : Thread nD τ) ↦[(chk yB 4).view.set]{fullShare} f)) ∗ (∃ f : (chk yB 5).view.ty.Contents (Elt F), ((chk yB 5).view.loc (c : Thread nD τ) ↦[(chk yB 5).view.set]{fullShare} f)) ∗ (∃ f : (chk yB 6).view.ty.Contents (Elt F), ((chk yB 6).view.loc (c : Thread nD τ) ↦[(chk yB 6).view.set]{fullShare} f)) ∗ (∃ f : (chk yB 7).view.ty.Contents (Elt F), ((chk yB 7).view.loc (c : Thread nD τ) ↦[(chk yB 7).view.set]{fullShare} f)) ∗ (∃ f : (chk dB 0).view.ty.Contents (Elt F), ((chk dB 0).view.loc (c : Thread nD τ) ↦[(chk dB 0).view.set]{fullShare} f)) ∗ (∃ f : (chk dB 1).view.ty.Contents (Elt F), ((chk dB 1).view.loc (c : Thread nD τ) ↦[(chk dB 1).view.set]{fullShare} f)) ∗ (∃ f : (chk dB 2).view.ty.Contents (Elt F), ((chk dB 2).view.loc (c : Thread nD τ) ↦[(chk dB 2).view.set]{fullShare} f))) := payload_bar_y m c
theorem pbx (c : Dev nD) : (Rd (F := F) m).payload (barCell (px c)) 0 1 = iprop((∃ f : (chk xB 0).view.ty.Contents (Elt F), ((chk xB 0).view.loc (c : Thread nD τ) ↦[(chk xB 0).view.set]{fullShare} f)) ∗ (∃ f : (chk xB 1).view.ty.Contents (Elt F), ((chk xB 1).view.loc (c : Thread nD τ) ↦[(chk xB 1).view.set]{fullShare} f)) ∗ (∃ f : (chk xB 2).view.ty.Contents (Elt F), ((chk xB 2).view.loc (c : Thread nD τ) ↦[(chk xB 2).view.set]{fullShare} f)) ∗ (∃ f : (chk xB 3).view.ty.Contents (Elt F), ((chk xB 3).view.loc (c : Thread nD τ) ↦[(chk xB 3).view.set]{fullShare} f)) ∗ (∃ f : (chk xB 4).view.ty.Contents (Elt F), ((chk xB 4).view.loc (c : Thread nD τ) ↦[(chk xB 4).view.set]{fullShare} f)) ∗ (∃ f : (chk xB 5).view.ty.Contents (Elt F), ((chk xB 5).view.loc (c : Thread nD τ) ↦[(chk xB 5).view.set]{fullShare} f)) ∗ (∃ f : (chk xB 6).view.ty.Contents (Elt F), ((chk xB 6).view.loc (c : Thread nD τ) ↦[(chk xB 6).view.set]{fullShare} f)) ∗ (∃ f : (chk xB 7).view.ty.Contents (Elt F), ((chk xB 7).view.loc (c : Thread nD τ) ↦[(chk xB 7).view.set]{fullShare} f)) ∗ (∃ f : (chk dB 3).view.ty.Contents (Elt F), ((chk dB 3).view.loc (c : Thread nD τ) ↦[(chk dB 3).view.set]{fullShare} f)) ∗ (∃ f : (chk dB 4).view.ty.Contents (Elt F), ((chk dB 4).view.loc (c : Thread nD τ) ↦[(chk dB 4).view.set]{fullShare} f)) ∗ (∃ f : (chk dB 5).view.ty.Contents (Elt F), ((chk dB 5).view.loc (c : Thread nD τ) ↦[(chk dB 5).view.set]{fullShare} f))) := payload_bar_x m c
theorem pbz (c : Dev nD) : (Rd (F := F) m).payload (barCell (pz c)) 0 2 = iprop((∃ f : (chk zB 0).view.ty.Contents (Elt F), ((chk zB 0).view.loc (c : Thread nD τ) ↦[(chk zB 0).view.set]{fullShare} f)) ∗ (∃ f : (chk zB 1).view.ty.Contents (Elt F), ((chk zB 1).view.loc (c : Thread nD τ) ↦[(chk zB 1).view.set]{fullShare} f)) ∗ (∃ f : (chk zB 2).view.ty.Contents (Elt F), ((chk zB 2).view.loc (c : Thread nD τ) ↦[(chk zB 2).view.set]{fullShare} f)) ∗ (∃ f : (chk zB 3).view.ty.Contents (Elt F), ((chk zB 3).view.loc (c : Thread nD τ) ↦[(chk zB 3).view.set]{fullShare} f)) ∗ (∃ f : (chk zB 4).view.ty.Contents (Elt F), ((chk zB 4).view.loc (c : Thread nD τ) ↦[(chk zB 4).view.set]{fullShare} f)) ∗ (∃ f : (chk zB 5).view.ty.Contents (Elt F), ((chk zB 5).view.loc (c : Thread nD τ) ↦[(chk zB 5).view.set]{fullShare} f)) ∗ (∃ f : (chk zB 6).view.ty.Contents (Elt F), ((chk zB 6).view.loc (c : Thread nD τ) ↦[(chk zB 6).view.set]{fullShare} f)) ∗ (∃ f : (chk zB 7).view.ty.Contents (Elt F), ((chk zB 7).view.loc (c : Thread nD τ) ↦[(chk zB 7).view.set]{fullShare} f)) ∗ (∃ f : (chk dB 6).view.ty.Contents (Elt F), ((chk dB 6).view.loc (c : Thread nD τ) ↦[(chk dB 6).view.set]{fullShare} f)) ∗ (∃ f : (chk dB 7).view.ty.Contents (Elt F), ((chk dB 7).view.loc (c : Thread nD τ) ↦[(chk dB 7).view.set]{fullShare} f))) := payload_bar_z m c

attribute [local sl_rounds] duties_bar amount_bar expect_bar pby pbx pbz
attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq dev28_eq dev29_eq dev30_eq dev31_eq dev32_eq dev33_eq dev34_eq dev35_eq

set_option maxHeartbeats 4000000 in
theorem exec_part1 : Spec_1 m := by
  intro K c W o
  unfold pre_1
  iintro ⟨#HIR, #Hlev, -⟩
  rw [k0_part1_eq_skeleton]; unfold k0_part1_skel
  sl_exec
  sl_step
  unfold post_1 ret_1
  isplitr
  · iempintro
  · ipureintro; rfl

-- Entry: signal the three partners' barrier cells, handing each the receive blocks it will write, and wait on the own barrier cell.
set_option maxHeartbeats 4000000 in
theorem exec_part2 : Spec_2 m := by
  intro K c W o v2 v5 v8 v19 v20 v23 v25 v33 v34
  unfold pre_2
  iintro ⟨#⟨HI, HR⟩, #Hlev, Htby, ⟨%fy0, Hy0⟩, ⟨%fy1, Hy1⟩, ⟨%fy2, Hy2⟩, ⟨%fy3, Hy3⟩, ⟨%fy4, Hy4⟩, ⟨%fy5, Hy5⟩, ⟨%fy6, Hy6⟩, ⟨%fy7, Hy7⟩, ⟨%fdy0, Hdy0⟩, ⟨%fdy1, Hdy1⟩, ⟨%fdy2, Hdy2⟩, Htbx, ⟨%fx0, Hx0⟩, ⟨%fx1, Hx1⟩, ⟨%fx2, Hx2⟩, ⟨%fx3, Hx3⟩, ⟨%fx4, Hx4⟩, ⟨%fx5, Hx5⟩, ⟨%fx6, Hx6⟩, ⟨%fx7, Hx7⟩, ⟨%fdx3, Hdx3⟩, ⟨%fdx4, Hdx4⟩, ⟨%fdx5, Hdx5⟩, Htbz, ⟨%fz0, Hz0⟩, ⟨%fz1, Hz1⟩, ⟨%fz2, Hz2⟩, ⟨%fz3, Hz3⟩, ⟨%fz4, Hz4⟩, ⟨%fz5, Hz5⟩, ⟨%fz6, Hz6⟩, ⟨%fz7, Hz7⟩, ⟨%fdz6, Hdz6⟩, ⟨%fdz7, Hdz7⟩, Hatb, Hcb, HO⟩
  have hmw := mw_bar (F := F) c
  unfold flatInv flatReached
  icases HI with ⟨HIb, HIby, HIbx, HIbz, HI2, HI3, HI4, HI5, HI6, HI7, HI8, HI9, HI10, HI11, HI12, HI13, HI14, HI15, HI16, HI17, HI18, HI19, HI20, HI21, HI22, HI23, HI24, HI25, HI26, HI27, HI28, HI29, HI30, HI31, HI32, HI33, HI34, HI35, HI36, HI37, HI38, HI39, HI40, HI41, HI42, HI43, HI44, HI45, HI46, HI47, HI48, HI49, HI50, HI51, HI52, HI53, HI54, HI55, HI56, HI57, HI58, HI59, HI60, HI61, HI62, HI63, HI64, HI65, HIy10, HIy11, HIy12, HIy13, HIy14, HIy15, HIy16, HIy17, HIy63, HIy64, HIy65, HIx26, HIx27, HIx28, HIx29, HIx30, HIx31, HIx32, HIx33, HIx55, HIx56, HIx57, HIz42, HIz43, HIz44, HIz45, HIz46, HIz47, HIz48, HIz49, HIz58, HIz59⟩
  icases HR with ⟨HRby, HRbx, HRbz, HR2, HR3, HR4, HR5, HR6, HR7, HR8, HR9, HR10, HR11, HR12, HR13, HR14, HR15, HR16, HR17, HR18, HR19, HR20, HR21, HR22, HR23, HR24, HR25, HR26, HR27, HR28, HR29, HR30, HR31, HR32, HR33, HR34, HR35, HR36, HR37, HR38, HR39, HR40, HR41, HR42, HR43, HR44, HR45, HR46, HR47, HR48, HR49, HR50, HR51, HR52, HR53, HR54, HR55, HR56, HR57, HR58, HR59, HR60, HR61, HR62, HR63, HR64, HR65, HRy10, HRy11, HRy12, HRy13, HRy14, HRy15, HRy16, HRy17, HRy63, HRy64, HRy65, HRx26, HRx27, HRx28, HRx29, HRx30, HRx31, HRx32, HRx33, HRx55, HRx56, HRx57, HRz42, HRz43, HRz44, HRz45, HRz46, HRz47, HRz48, HRz49, HRz58, HRz59⟩
  rw [k0_part2_eq_skeleton]; unfold k0_part2_skel
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq, dev32_eq, dev33_eq, dev34_eq, dev35_eq])
  sl_step
  unfold post_2 ret_2
  ihave Hp := (Entails.of_eq (bar_payloads m c)) $$ Hatb_pay1
  icases Hp with ⟨⟨⟨%gy0, Py0⟩, ⟨%gy1, Py1⟩, ⟨%gy2, Py2⟩, ⟨%gy3, Py3⟩, ⟨%gy4, Py4⟩, ⟨%gy5, Py5⟩, ⟨%gy6, Py6⟩, ⟨%gy7, Py7⟩, ⟨%gd0, Pd0⟩, ⟨%gd1, Pd1⟩, ⟨%gd2, Pd2⟩⟩, ⟨⟨%gx0, Px0⟩, ⟨%gx1, Px1⟩, ⟨%gx2, Px2⟩, ⟨%gx3, Px3⟩, ⟨%gx4, Px4⟩, ⟨%gx5, Px5⟩, ⟨%gx6, Px6⟩, ⟨%gx7, Px7⟩, ⟨%gd3, Pd3⟩, ⟨%gd4, Pd4⟩, ⟨%gd5, Pd5⟩⟩, ⟨⟨%gz0, Pz0⟩, ⟨%gz1, Pz1⟩, ⟨%gz2, Pz2⟩, ⟨%gz3, Pz3⟩, ⟨%gz4, Pz4⟩, ⟨%gz5, Pz5⟩, ⟨%gz6, Pz6⟩, ⟨%gz7, Pz7⟩, ⟨%gd6, Pd6⟩, ⟨%gd7, Pd7⟩⟩⟩
  isplitr []
  · sl_close
  · ipureintro; trivial

end Cert.KernelIdeal.RS

end
-- ==== Proof.SendRules.lean ====
import proofs.«901037_g7700000000001038_dist_rs_v7x_xyz2x2x4_y_m1024_n512_f32_1_alg».proof.Proof.Land
import proofs.«901037_g7700000000001038_dist_rs_v7x_xyz2x2x4_y_m1024_n512_f32_1_alg».proof.Proof.Dats

noncomputable section

namespace Cert.KernelIdeal.RS

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

-- One copy to a partner: lend a share of the source block, pay the partner's receive cell with the landed block.
theorem wp_sendG (c p n : Dev nD) (hn : n = p)
    (src dst : Memref sig .tc .vmem S32x512 .f32) (q : PosShare TreeShare)
    (fs : Buf (Elt F) (src.view.loc (c : Thread nD τ))) (g : Buf (Elt F) (dst.view.loc (p : Thread nD τ)))
    (js jr : DmaSem sig) (hjs : 2 ≤ js.val) (hjr : 2 ≤ jr.val) (κ₁ κ₂ : ℕ)
    (hN : dst.view.amount (.dma jr) = N)
    (hpay₁ : (src.view.loc (c : Thread nD τ) ↦[src.view.set]{q} fs : sProp 𝕄) ⊢ (Rd m).payload (dcell c js) 0 0)
    (hpay₂ : (dst.view.loc (p : Thread nD τ) ↦[dst.view.set]{fullShare} dst.view.write (Elt F) g (src.view.read (Elt F) fs) Finset.univ : sProp 𝕄)
      ⊢ (Rd m).payload (dcell p jr) 0 0)
    (W : Waits sig Unit) (O : CellTallies nD τ sig Unit)
    {hsc : (dst : Memref sig (Dev.tc n : Thread nD τ).2.kind .vmem S32x512 .f32).view.ref.isScScratch = false}
    {hsrc : src.view.WordExact} {hdst : dst.view.WordExact}
    {hsem : DmaTarget.Typed .vmem (.dma jr) (.remote (Dev.tc n : Thread nD τ) dst (.dma js) hsc)}
    {α : Type} {Q : α → sProp 𝕄} {kont : PUnit → Prog (TpuEff nD τ sig (Elt F) Λ₀ .tc) α} :
    iprop(cellInv ER (Rd m) κ₁ (dcell c js) ∗ cellInv ER (Rd m) κ₂ (dcell p jr)
        ∗ (src.view.loc (c : Thread nD τ) ↦[src.view.set]{q} fs)
        ∗ (dst.view.loc (p : Thread nD τ) ↦[dst.view.set]{fullShare} g)
        ∗ owes (c : Thread nD τ) (O + tallyAt (dcell p jr) () N) W
        ∗ dutyTok ER (dcell c js) 0 0 ∗ reached ER (dcell c js) 0
        ∗ dutyTok ER (dcell p jr) 0 0 ∗ reached ER (dcell p jr) 0)
      ⊢ iprop(((cred (tallyAt (dcell c js) () N) ∗ owes (c : Thread nD τ) O W)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma src (.remote (Dev.tc n : Thread nD τ) dst (.dma js) hsc) (.dma jr) hsrc hdst hsem) kont) Q) := by
  subst hn
  exact Rounds.wp_send_pointsTo 𝒱₀ ER (Rd m) (c : Thread nD τ) none (κ₁ := κ₁) (κ₂ := κ₂)
    (r₁ := 0) (r₂ := 0) (d₁ := 0) (d₂ := 0) (fd := g)
    (by rw [duties_dma m c js hjs]; exact Finset.mem_singleton_self _)
    (by rw [duties_dma m n jr hjr]; exact Finset.mem_singleton_self _)
    () () N hN (amount_dma m c js 0) (amount_dma m n jr 0) O rfl (W := W) hpay₁ hpay₂

theorem wp_sendY (K : Dev nD × Fin 65 → ℕ) (c : Dev nD) (k : Fin 8) (n : Dev nD) (hn : n = py c)
    (g : Buf (Elt F) ((chk yB k).view.loc (py c : Thread nD τ))) (W : Waits sig Unit) (O : CellTallies nD τ sig Unit)
    {hsc : ((chk yB k) : Memref sig (Dev.tc n : Thread nD τ).2.kind .vmem S32x512 .f32).view.ref.isScScratch = false}
    {hsrc : (srcY c k).view.WordExact} {hdst : (chk yB k).view.WordExact}
    {hsem : DmaTarget.Typed .vmem (.dma (sIx 10 k.val)) (.remote (Dev.tc n : Thread nD τ) (chk yB k) (.dma (sIx 2 k.val)) hsc)}
    {α : Type} {Q : α → sProp 𝕄} {kont : PUnit → Prog (TpuEff nD τ sig (Elt F) Λ₀ .tc) α} :
    iprop(cellInv ER (Rd m) (K (c, ⟨0 + k.val, by omega⟩)) (dcell c (sIx 2 k.val))
        ∗ cellInv ER (Rd m) (K (py c, ⟨8 + k.val, by omega⟩)) (dcell (py c) (sIx 10 k.val))
        ∗ ((srcY c k).view.loc (c : Thread nD τ) ↦[(srcY c k).view.set]{psh k.val} xstg m c)
        ∗ ((chk yB k).view.loc (py c : Thread nD τ) ↦[(chk yB k).view.set]{fullShare} g)
        ∗ owes (c : Thread nD τ) (O + tallyAt (dcell (py c) (sIx 10 k.val)) () N) W
        ∗ dutyTok ER (dcell c (sIx 2 k.val)) 0 0 ∗ reached ER (dcell c (sIx 2 k.val)) 0
        ∗ dutyTok ER (dcell (py c) (sIx 10 k.val)) 0 0 ∗ reached ER (dcell (py c) (sIx 10 k.val)) 0)
      ⊢ iprop(((cred (tallyAt (dcell c (sIx 2 k.val)) () N) ∗ owes (c : Thread nD τ) O W)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (srcY c k) (.remote (Dev.tc n : Thread nD τ) (chk yB k) (.dma (sIx 2 k.val)) hsc) (.dma (sIx 10 k.val)) hsrc hdst hsem) kont) Q) :=
  wp_sendG m c (py c) n hn (srcY c k) (chk yB k) (psh k.val) (xstg m c) g (sIx 2 k.val) (sIx 10 k.val)
    (by show 2 ≤ 2 + k.val; omega) (by show 2 ≤ 10 + k.val; omega) _ _ (amt_chk _ _ _) (payY_src m c k) (payY_dst m c k g) W O

theorem wp_sendD (K : Dev nD × Fin 65 → ℕ) (c : Dev nD) (k : Fin 3) (n : Dev nD) (hn : n = py c)
    (g : Buf (Elt F) ((chk dB (k0 k)).view.loc (py c : Thread nD τ))) (W : Waits sig Unit) (O : CellTallies nD τ sig Unit)
    {hsc : ((chk dB (k0 k)) : Memref sig (Dev.tc n : Thread nD τ).2.kind .vmem S32x512 .f32).view.ref.isScScratch = false}
    {hsrc : (srcD c k).view.WordExact} {hdst : (chk dB (k0 k)).view.WordExact}
    {hsem : DmaTarget.Typed .vmem (.dma (sIx 63 k.val)) (.remote (Dev.tc n : Thread nD τ) (chk dB (k0 k)) (.dma (sIx 60 k.val)) hsc)}
    {α : Type} {Q : α → sProp 𝕄} {kont : PUnit → Prog (TpuEff nD τ sig (Elt F) Λ₀ .tc) α} :
    iprop(cellInv ER (Rd m) (K (c, ⟨58 + k.val, by omega⟩)) (dcell c (sIx 60 k.val))
        ∗ cellInv ER (Rd m) (K (py c, ⟨61 + k.val, by omega⟩)) (dcell (py c) (sIx 63 k.val))
        ∗ ((srcD c k).view.loc (c : Thread nD τ) ↦[(srcD c k).view.set]{psh (k.val + 8)} xstg m c)
        ∗ ((chk dB (k0 k)).view.loc (py c : Thread nD τ) ↦[(chk dB (k0 k)).view.set]{fullShare} g)
        ∗ owes (c : Thread nD τ) (O + tallyAt (dcell (py c) (sIx 63 k.val)) () N) W
        ∗ dutyTok ER (dcell c (sIx 60 k.val)) 0 0 ∗ reached ER (dcell c (sIx 60 k.val)) 0
        ∗ dutyTok ER (dcell (py c) (sIx 63 k.val)) 0 0 ∗ reached ER (dcell (py c) (sIx 63 k.val)) 0)
      ⊢ iprop(((cred (tallyAt (dcell c (sIx 60 k.val)) () N) ∗ owes (c : Thread nD τ) O W)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (srcD c k) (.remote (Dev.tc n : Thread nD τ) (chk dB (k0 k)) (.dma (sIx 60 k.val)) hsc) (.dma (sIx 63 k.val)) hsrc hdst hsem) kont) Q) :=
  wp_sendG m c (py c) n hn (srcD c k) (chk dB (k0 k)) (psh (k.val + 8)) (xstg m c) g (sIx 60 k.val) (sIx 63 k.val)
    (by show 2 ≤ 60 + k.val; omega) (by show 2 ≤ 63 + k.val; omega) _ _ (amt_chk _ _ _) (payD_src m c k) (payD_dst m c k g) W O

theorem wp_sendX (K : Dev nD × Fin 65 → ℕ) (c : Dev nD) (k : Fin 8) (n : Dev nD) (hn : n = px c)
    (g : Buf (Elt F) ((chk xB k).view.loc (px c : Thread nD τ))) (W : Waits sig Unit) (O : CellTallies nD τ sig Unit)
    {hsc : ((chk xB k) : Memref sig (Dev.tc n : Thread nD τ).2.kind .vmem S32x512 .f32).view.ref.isScScratch = false}
    {hsrc : (chk yB k).view.WordExact} {hdst : (chk xB k).view.WordExact}
    {hsem : DmaTarget.Typed .vmem (.dma (sIx 26 k.val)) (.remote (Dev.tc n : Thread nD τ) (chk xB k) (.dma (sIx 18 k.val)) hsc)}
    {α : Type} {Q : α → sProp 𝕄} {kont : PUnit → Prog (TpuEff nD τ sig (Elt F) Λ₀ .tc) α} :
    iprop(cellInv ER (Rd m) (K (c, ⟨16 + k.val, by omega⟩)) (dcell c (sIx 18 k.val))
        ∗ cellInv ER (Rd m) (K (px c, ⟨24 + k.val, by omega⟩)) (dcell (px c) (sIx 26 k.val))
        ∗ ((chk yB k).view.loc (c : Thread nD τ) ↦[(chk yB k).view.set]{qA} Ych m c k)
        ∗ ((chk xB k).view.loc (px c : Thread nD τ) ↦[(chk xB k).view.set]{fullShare} g)
        ∗ owes (c : Thread nD τ) (O + tallyAt (dcell (px c) (sIx 26 k.val)) () N) W
        ∗ dutyTok ER (dcell c (sIx 18 k.val)) 0 0 ∗ reached ER (dcell c (sIx 18 k.val)) 0
        ∗ dutyTok ER (dcell (px c) (sIx 26 k.val)) 0 0 ∗ reached ER (dcell (px c) (sIx 26 k.val)) 0)
      ⊢ iprop(((cred (tallyAt (dcell c (sIx 18 k.val)) () N) ∗ owes (c : Thread nD τ) O W)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (chk yB k) (.remote (Dev.tc n : Thread nD τ) (chk xB k) (.dma (sIx 18 k.val)) hsc) (.dma (sIx 26 k.val)) hsrc hdst hsem) kont) Q) :=
  wp_sendG m c (px c) n hn (chk yB k) (chk xB k) (qA) (Ych m c k) g (sIx 18 k.val) (sIx 26 k.val)
    (by show 2 ≤ 18 + k.val; omega) (by show 2 ≤ 26 + k.val; omega) _ _ (amt_chk _ _ _) (payX_src m c k) (payX_dst m c k g) W O

theorem wp_sendZ (K : Dev nD × Fin 65 → ℕ) (c : Dev nD) (k : Fin 8) (n : Dev nD) (hn : n = pz c)
    (g : Buf (Elt F) ((chk zB k).view.loc (pz c : Thread nD τ))) (W : Waits sig Unit) (O : CellTallies nD τ sig Unit)
    {hsc : ((chk zB k) : Memref sig (Dev.tc n : Thread nD τ).2.kind .vmem S32x512 .f32).view.ref.isScScratch = false}
    {hsrc : (chk yB k).view.WordExact} {hdst : (chk zB k).view.WordExact}
    {hsem : DmaTarget.Typed .vmem (.dma (sIx 42 k.val)) (.remote (Dev.tc n : Thread nD τ) (chk zB k) (.dma (sIx 34 k.val)) hsc)}
    {α : Type} {Q : α → sProp 𝕄} {kont : PUnit → Prog (TpuEff nD τ sig (Elt F) Λ₀ .tc) α} :
    iprop(cellInv ER (Rd m) (K (c, ⟨32 + k.val, by omega⟩)) (dcell c (sIx 34 k.val))
        ∗ cellInv ER (Rd m) (K (pz c, ⟨40 + k.val, by omega⟩)) (dcell (pz c) (sIx 42 k.val))
        ∗ ((chk yB k).view.loc (c : Thread nD τ) ↦[(chk yB k).view.set]{qB} Ych m c k)
        ∗ ((chk zB k).view.loc (pz c : Thread nD τ) ↦[(chk zB k).view.set]{fullShare} g)
        ∗ owes (c : Thread nD τ) (O + tallyAt (dcell (pz c) (sIx 42 k.val)) () N) W
        ∗ dutyTok ER (dcell c (sIx 34 k.val)) 0 0 ∗ reached ER (dcell c (sIx 34 k.val)) 0
        ∗ dutyTok ER (dcell (pz c) (sIx 42 k.val)) 0 0 ∗ reached ER (dcell (pz c) (sIx 42 k.val)) 0)
      ⊢ iprop(((cred (tallyAt (dcell c (sIx 34 k.val)) () N) ∗ owes (c : Thread nD τ) O W)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (chk yB k) (.remote (Dev.tc n : Thread nD τ) (chk zB k) (.dma (sIx 34 k.val)) hsc) (.dma (sIx 42 k.val)) hsrc hdst hsem) kont) Q) :=
  wp_sendG m c (pz c) n hn (chk yB k) (chk zB k) (qB) (Ych m c k) g (sIx 34 k.val) (sIx 42 k.val)
    (by show 2 ≤ 34 + k.val; omega) (by show 2 ≤ 42 + k.val; omega) _ _ (amt_chk _ _ _) (payZ_src m c k) (payZ_dst m c k g) W O

theorem wp_sendFX (K : Dev nD × Fin 65 → ℕ) (c : Dev nD) (k : Fin 3) (n : Dev nD) (hn : n = px c)
    (g : Buf (Elt F) ((chk dB (k3 k)).view.loc (px c : Thread nD τ))) (W : Waits sig Unit) (O : CellTallies nD τ sig Unit)
    {hsc : ((chk dB (k3 k)) : Memref sig (Dev.tc n : Thread nD τ).2.kind .vmem S32x512 .f32).view.ref.isScScratch = false}
    {hsrc : (chk zB (k3 k)).view.WordExact} {hdst : (chk dB (k3 k)).view.WordExact}
    {hsem : DmaTarget.Typed .vmem (.dma (sIx 55 k.val)) (.remote (Dev.tc n : Thread nD τ) (chk dB (k3 k)) (.dma (sIx 50 k.val)) hsc)}
    {α : Type} {Q : α → sProp 𝕄} {kont : PUnit → Prog (TpuEff nD τ sig (Elt F) Λ₀ .tc) α} :
    iprop(cellInv ER (Rd m) (K (c, ⟨48 + k.val, by omega⟩)) (dcell c (sIx 50 k.val))
        ∗ cellInv ER (Rd m) (K (px c, ⟨53 + k.val, by omega⟩)) (dcell (px c) (sIx 55 k.val))
        ∗ ((chk zB (k3 k)).view.loc (c : Thread nD τ) ↦[(chk zB (k3 k)).view.set]{qA} Zch m c (k3 k))
        ∗ ((chk dB (k3 k)).view.loc (px c : Thread nD τ) ↦[(chk dB (k3 k)).view.set]{fullShare} g)
        ∗ owes (c : Thread nD τ) (O + tallyAt (dcell (px c) (sIx 55 k.val)) () N) W
        ∗ dutyTok ER (dcell c (sIx 50 k.val)) 0 0 ∗ reached ER (dcell c (sIx 50 k.val)) 0
        ∗ dutyTok ER (dcell (px c) (sIx 55 k.val)) 0 0 ∗ reached ER (dcell (px c) (sIx 55 k.val)) 0)
      ⊢ iprop(((cred (tallyAt (dcell c (sIx 50 k.val)) () N) ∗ owes (c : Thread nD τ) O W)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (chk zB (k3 k)) (.remote (Dev.tc n : Thread nD τ) (chk dB (k3 k)) (.dma (sIx 50 k.val)) hsc) (.dma (sIx 55 k.val)) hsrc hdst hsem) kont) Q) :=
  wp_sendG m c (px c) n hn (chk zB (k3 k)) (chk dB (k3 k)) (qA) (Zch m c (k3 k)) g (sIx 50 k.val) (sIx 55 k.val)
    (by show 2 ≤ 50 + k.val; omega) (by show 2 ≤ 55 + k.val; omega) _ _ (amt_chk _ _ _) (payFX_src m c k) (payFX_dst m c k g) W O

theorem wp_sendFZ (K : Dev nD × Fin 65 → ℕ) (c : Dev nD) (k : Fin 2) (n : Dev nD) (hn : n = pz c)
    (g : Buf (Elt F) ((chk dB (k6 k)).view.loc (pz c : Thread nD τ))) (W : Waits sig Unit) (O : CellTallies nD τ sig Unit)
    {hsc : ((chk dB (k6 k)) : Memref sig (Dev.tc n : Thread nD τ).2.kind .vmem S32x512 .f32).view.ref.isScScratch = false}
    {hsrc : (chk xB (k6 k)).view.WordExact} {hdst : (chk dB (k6 k)).view.WordExact}
    {hsem : DmaTarget.Typed .vmem (.dma (sIx 58 k.val)) (.remote (Dev.tc n : Thread nD τ) (chk dB (k6 k)) (.dma (sIx 53 k.val)) hsc)}
    {α : Type} {Q : α → sProp 𝕄} {kont : PUnit → Prog (TpuEff nD τ sig (Elt F) Λ₀ .tc) α} :
    iprop(cellInv ER (Rd m) (K (c, ⟨51 + k.val, by omega⟩)) (dcell c (sIx 53 k.val))
        ∗ cellInv ER (Rd m) (K (pz c, ⟨56 + k.val, by omega⟩)) (dcell (pz c) (sIx 58 k.val))
        ∗ ((chk xB (k6 k)).view.loc (c : Thread nD τ) ↦[(chk xB (k6 k)).view.set]{qA} Xch m c (k6 k))
        ∗ ((chk dB (k6 k)).view.loc (pz c : Thread nD τ) ↦[(chk dB (k6 k)).view.set]{fullShare} g)
        ∗ owes (c : Thread nD τ) (O + tallyAt (dcell (pz c) (sIx 58 k.val)) () N) W
        ∗ dutyTok ER (dcell c (sIx 53 k.val)) 0 0 ∗ reached ER (dcell c (sIx 53 k.val)) 0
        ∗ dutyTok ER (dcell (pz c) (sIx 58 k.val)) 0 0 ∗ reached ER (dcell (pz c) (sIx 58 k.val)) 0)
      ⊢ iprop(((cred (tallyAt (dcell c (sIx 53 k.val)) () N) ∗ owes (c : Thread nD τ) O W)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (chk xB (k6 k)) (.remote (Dev.tc n : Thread nD τ) (chk dB (k6 k)) (.dma (sIx 53 k.val)) hsc) (.dma (sIx 58 k.val)) hsrc hdst hsem) kont) Q) :=
  wp_sendG m c (pz c) n hn (chk xB (k6 k)) (chk dB (k6 k)) (qA) (Xch m c (k6 k)) g (sIx 53 k.val) (sIx 58 k.val)
    (by show 2 ≤ 53 + k.val; omega) (by show 2 ≤ 58 + k.val; omega) _ _ (amt_chk _ _ _) (payFZ_src m c k) (payFZ_dst m c k g) W O

end Cert.KernelIdeal.RS

end
-- ==== Proof.PartsA.lean ====
import proofs.«901037_g7700000000001038_dist_rs_v7x_xyz2x2x4_y_m1024_n512_f32_1_alg».proof.Proof.PartsTab
import proofs.«901037_g7700000000001038_dist_rs_v7x_xyz2x2x4_y_m1024_n512_f32_1_alg».proof.Proof.SchedTab
import proofs.«901037_g7700000000001038_dist_rs_v7x_xyz2x2x4_y_m1024_n512_f32_1_alg».proof.Proof.MeshTab
import proofs.«901037_g7700000000001038_dist_rs_v7x_xyz2x2x4_y_m1024_n512_f32_1_alg».proof.Proof.WaitTab
import proofs.«901037_g7700000000001038_dist_rs_v7x_xyz2x2x4_y_m1024_n512_f32_1_alg».proof.Proof.Assemble
import proofs.«901037_g7700000000001038_dist_rs_v7x_xyz2x2x4_y_m1024_n512_f32_1_alg».proof.Proof.SendRules
import Idealize.ShloMosaic.Lib.Tactic

set_option maxRecDepth 65536

noncomputable section

namespace Cert.KernelIdeal.RS

open Cert.KernelIdeal Cert.KernelIdeal.Gen Cert.KernelIdeal.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

attribute [local irreducible] k0_off1 k0_off2 k0_off3 k0_off4 k0_off5 k0_off6 k0_off7 k0_off8 k0_off9 k0_off10 py px pz

attribute [local sl_rounds] duties_dma amount_dma expect_dma payload_at_2 payload_at_3 payload_at_4 payload_at_5 payload_at_6
  payload_at_7 payload_at_8 payload_at_9 payload_at_10 payload_at_11 payload_at_12 payload_at_13 payload_at_14 payload_at_15
  payload_at_16 payload_at_17 payload_at_18 payload_at_19 payload_at_20 payload_at_21 payload_at_22 payload_at_23 payload_at_24
  payload_at_25 payload_at_26 payload_at_27 payload_at_28 payload_at_29 payload_at_30 payload_at_31 payload_at_32 payload_at_33
  payload_at_34 payload_at_35 payload_at_36 payload_at_37 payload_at_38 payload_at_39 payload_at_40 payload_at_41 payload_at_42
  payload_at_43 payload_at_44 payload_at_45 payload_at_46 payload_at_47 payload_at_48 payload_at_49 payload_at_50 payload_at_51
  payload_at_52 payload_at_53 payload_at_54 payload_at_55 payload_at_56 payload_at_57 payload_at_58 payload_at_59 payload_at_60
  payload_at_61 payload_at_62 payload_at_63 payload_at_64 payload_at_65
attribute [local sl_canon] dev1_eq dev2_eq dev3_eq dev4_eq dev5_eq dev6_eq dev7_eq dev8_eq dev9_eq dev10_eq dev11_eq dev12_eq
  dev13_eq dev14_eq dev15_eq dev16_eq dev17_eq dev18_eq dev19_eq dev20_eq dev21_eq dev22_eq dev23_eq dev24_eq dev25_eq dev26_eq
  dev27_eq dev28_eq dev29_eq dev30_eq dev31_eq dev32_eq dev33_eq dev34_eq dev35_eq

set_option hygiene false in

macro "open_cells" : tactic => `(tactic| (
  unfold flatInv flatReached
  icases HI with ⟨HIb, HIby, HIbx, HIbz, HI2, HI3, HI4, HI5, HI6, HI7, HI8, HI9, HI10, HI11, HI12, HI13, HI14, HI15, HI16, HI17, HI18, HI19, HI20, HI21, HI22, HI23, HI24, HI25, HI26, HI27, HI28, HI29, HI30, HI31, HI32, HI33, HI34, HI35, HI36, HI37, HI38, HI39, HI40, HI41, HI42, HI43, HI44, HI45, HI46, HI47, HI48, HI49, HI50, HI51, HI52, HI53, HI54, HI55, HI56, HI57, HI58, HI59, HI60, HI61, HI62, HI63, HI64, HI65, HIy10, HIy11, HIy12, HIy13, HIy14, HIy15, HIy16, HIy17, HIy63, HIy64, HIy65, HIx26, HIx27, HIx28, HIx29, HIx30, HIx31, HIx32, HIx33, HIx55, HIx56, HIx57, HIz42, HIz43, HIz44, HIz45, HIz46, HIz47, HIz48, HIz49, HIz58, HIz59⟩
  icases HR with ⟨HRby, HRbx, HRbz, HR2, HR3, HR4, HR5, HR6, HR7, HR8, HR9, HR10, HR11, HR12, HR13, HR14, HR15, HR16, HR17, HR18, HR19, HR20, HR21, HR22, HR23, HR24, HR25, HR26, HR27, HR28, HR29, HR30, HR31, HR32, HR33, HR34, HR35, HR36, HR37, HR38, HR39, HR40, HR41, HR42, HR43, HR44, HR45, HR46, HR47, HR48, HR49, HR50, HR51, HR52, HR53, HR54, HR55, HR56, HR57, HR58, HR59, HR60, HR61, HR62, HR63, HR64, HR65, HRy10, HRy11, HRy12, HRy13, HRy14, HRy15, HRy16, HRy17, HRy63, HRy64, HRy65, HRx26, HRx27, HRx28, HRx29, HRx30, HRx31, HRx32, HRx33, HRx55, HRx56, HRx57, HRz42, HRz43, HRz44, HRz45, HRz46, HRz47, HRz48, HRz49, HRz58, HRz59⟩))

macro "run_part" : tactic => `(tactic|
  sl_exec (disch := simp only [dev1_eq, dev2_eq, dev3_eq, dev4_eq, dev5_eq, dev6_eq, dev7_eq, dev8_eq, dev9_eq, dev10_eq,
    dev11_eq, dev12_eq, dev13_eq, dev14_eq, dev15_eq, dev16_eq, dev17_eq, dev18_eq, dev19_eq, dev20_eq, dev21_eq, dev22_eq,
    dev23_eq, dev24_eq, dev25_eq, dev26_eq, dev27_eq, dev28_eq, dev29_eq, dev30_eq, dev31_eq, dev32_eq, dev33_eq, dev34_eq,
    dev35_eq]))

set_option maxHeartbeats 4000000 in

theorem exec_part20 : Spec_20 m := by
  intro K c W o v2 v5 v8 v20 v28 v31 v36
  unfold pre_20
  iintro ⟨#⟨HI, HR⟩, #Hlev, Hz0, Hat26, Hc26, Hxl, Hown, Hout⟩
  have hmw := mw_xr_0 (F := F) c
  open_cells
  rw [k0_part20_eq_skeleton]; unfold k0_part20_skel
  run_part
  imod (Rounds.cell_close ER (Rd m) (Set.mem_univ (K (c, ⟨24, by decide⟩))) (fun h => h) (R := 0 + 1)
    (duties_later m (dcell c ⟨26, by decide⟩))) $$ [Hat26] with Hz26
  · isplitr; · iexact HI26
    iexact Hat26
  sl_step
  unfold post_20 ret_20
  isplitr []
  · sl_close
  · ipureintro; trivial

set_option maxHeartbeats 4000000 in

theorem exec_part21 : Spec_21 m := by
  intro K c W o v5 v8 v20 v23 v28 v31 v36 v644 v645
  unfold pre_21
  iintro ⟨#⟨HI, HR⟩, #Hlev, Hat43, Hc43, Hxl, Hat27, Hc27, Hown, Hout⟩
  have hmw1 := mw_zr_1 (F := F) c
  have hmw2 := mw_xr_1 (F := F) c
  open_cells
  rw [k0_part21_eq_skeleton]; unfold k0_part21_skel
  run_part
  imod (Rounds.cell_close ER (Rd m) (Set.mem_univ (K (c, ⟨41, by decide⟩))) (fun h => h) (R := 0 + 1)
    (duties_later m (dcell c ⟨43, by decide⟩))) $$ [Hat43] with Hz43
  · isplitr; · iexact HI43
    iexact Hat43
  imod (Rounds.cell_close ER (Rd m) (Set.mem_univ (K (c, ⟨25, by decide⟩))) (fun h => h) (R := 0 + 1)
    (duties_later m (dcell c ⟨27, by decide⟩))) $$ [Hat27] with Hz27
  · isplitr; · iexact HI27
    iexact Hat27
  sl_step
  unfold post_21 ret_21
  isplitr []
  · sl_close
  · ipureintro; trivial

set_option maxHeartbeats 4000000 in

theorem exec_part22 : Spec_22 m := by
  intro K c W o v2 v5 v23 v28 v31 v36 v676
  unfold pre_22
  iintro ⟨#⟨HI, HR⟩, #Hlev, Hxl, Hx1, Hat44, Hc44, Hown, Hout⟩
  have hmw := mw_zr_2 (F := F) c
  open_cells
  rw [k0_part22_eq_skeleton]; unfold k0_part22_skel
  run_part
  imod (Rounds.cell_close ER (Rd m) (Set.mem_univ (K (c, ⟨42, by decide⟩))) (fun h => h) (R := 0 + 1)
    (duties_later m (dcell c ⟨44, by decide⟩))) $$ [Hat44] with Hz44
  · isplitr; · iexact HI44
    iexact Hat44
  sl_step
  unfold post_22 ret_22
  isplitr []
  · sl_close
  · ipureintro; trivial

set_option maxHeartbeats 4000000 in

theorem exec_part23 : Spec_23 m := by
  intro K c W o v2 v5 v8 v20 v23 v28 v36
  unfold pre_23
  iintro ⟨#⟨HI, HR⟩, #Hlev, Hat28, Hc28, Hxl, Hown, Hout⟩
  have hmw := mw_xr_2 (F := F) c
  open_cells
  rw [k0_part23_eq_skeleton]; unfold k0_part23_skel
  run_part
  imod (Rounds.cell_close ER (Rd m) (Set.mem_univ (K (c, ⟨26, by decide⟩))) (fun h => h) (R := 0 + 1)
    (duties_later m (dcell c ⟨28, by decide⟩))) $$ [Hat28] with Hz28
  · isplitr; · iexact HI28
    iexact Hat28
  sl_step
  unfold post_23 ret_23
  isplitr []
  · sl_close
  · ipureintro; trivial

set_option maxHeartbeats 4000000 in

theorem exec_part25 : Spec_25 m := by
  intro K c W o v2 v5 v8 v20 v23 v28 v36
  unfold pre_25
  iintro ⟨#⟨HI, HR⟩, #Hlev, Hat29, Hc29, Hxl, Hat46, Hc46, Hown, Hout⟩
  have hmw1 := mw_xr_3 (F := F) c
  have hmw2 := mw_zr_4 (F := F) c
  open_cells
  rw [k0_part25_eq_skeleton]; unfold k0_part25_skel
  run_part
  imod (Rounds.cell_close ER (Rd m) (Set.mem_univ (K (c, ⟨27, by decide⟩))) (fun h => h) (R := 0 + 1)
    (duties_later m (dcell c ⟨29, by decide⟩))) $$ [Hat29] with Hz29
  · isplitr; · iexact HI29
    iexact Hat29
  imod (Rounds.cell_close ER (Rd m) (Set.mem_univ (K (c, ⟨44, by decide⟩))) (fun h => h) (R := 0 + 1)
    (duties_later m (dcell c ⟨46, by decide⟩))) $$ [Hat46] with Hz46
  · isplitr; · iexact HI46
    iexact Hat46
  ihave Hs := (split2 (F := F) zB 4 c (Zch m c 4)) $$ Hat46_pay1
  icases Hs with ⟨HzA4, HzL4⟩
  sl_step
  unfold post_25 ret_25
  isplitr []
  · sl_close
  · ipureintro; trivial

theorem ret_bind_fn {E : Type → Type} {α β : Type} (a : α) (k : α → Prog E β) : (Prog.ret a).bind k = k a := rfl

set_option maxHeartbeats 4000000 in

theorem exec_part14 : Spec_14 m := by
  intro K c W o v2 v5 v8 v20 v23 v25 v36 c8_i32_301
  unfold pre_14
  iintro ⟨#⟨HI, HR⟩, #Hlev, HyA, Ht22, Htx30, ⟨%gx, Hpx⟩, HyB, Ht38, Htz46, ⟨%gz, Hpz⟩, Hxl, HyC, Hown⟩
  open_cells
  rw [k0_part14_eq_skeleton]; unfold k0_part14_skel
  iapply (wp_sendX m K c 4 _ (dev23_eq c) gx W _) $$ [HyA Hpx Hown Ht22 Htx30]
  · isplitr; · iexact HI22
    isplitr; · iexact HIx30
    isplitl [HyA]; · iexact HyA
    isplitl [Hpx]; · iexact Hpx
    isplitl [Hown]; · iexact Hown
    isplitl [Ht22]; · iexact Ht22
    isplitr; · iexact HR22
    isplitl [Htx30]; · iexact Htx30
    iexact HRx30
  iintro ⟨Hc22, Hown⟩
  iapply (wp_sendZ m K c 4 _ (dev24_eq c) gz W _) $$ [HyB Hpz Hown Ht38 Htz46]
  · isplitr; · iexact HI38
    isplitr; · iexact HIz46
    isplitl [HyB]; · iexact HyB
    isplitl [Hpz]; · iexact Hpz
    isplitl [Hown]; · iexact Hown
    isplitl [Ht38]; · iexact Ht38
    isplitr; · iexact HR38
    isplitl [Htz46]; · iexact Htz46
    iexact HRz46
  iintro ⟨Hc38, Hown⟩
  rw [ret_bind_fn]
  run_part
  sl_step
  unfold post_14 ret_14
  isplitr []
  · sl_close
  · ipureintro; rfl

set_option maxHeartbeats 4000000 in

theorem exec_part15 : Spec_15 m := by
  intro K c W o v2 v5 v8 v19 v20 v23 v455
  unfold pre_15
  iintro ⟨#⟨HI, HR⟩, #Hlev, Hat15, Hc15, Ht23, Htx31, ⟨%gx, Hpx⟩, Hown, Hout⟩
  have hmw := mw_yr_5 (F := F) c
  open_cells
  rw [k0_part15_eq_skeleton]; unfold k0_part15_skel
  run_part
  imod (Rounds.cell_close ER (Rd m) (Set.mem_univ (K (c, ⟨13, by decide⟩))) (fun h => h) (R := 0 + 1)
    (duties_later m (dcell c ⟨15, by decide⟩))) $$ [Hat15] with Hz15
  · isplitr; · iexact HI15
    iexact Hat15
  ihave Hs := (split3 (F := F) yB 5 c (Ych m c 5)) $$ Hat15_pay1
  icases Hs with ⟨HyA, HyB, HyC⟩
  iapply (wp_sendX m K c 5 (px c) rfl gx _ _) $$ [HyA Hpx Hown Ht23 Htx31]
  · isplitr; · iexact HI23
    isplitr; · iexact HIx31
    isplitl [HyA]; · iexact HyA
    isplitl [Hpx]; · iexact Hpx
    isplitl [Hown]; · iexact Hown
    isplitl [Ht23]; · iexact Ht23
    isplitr; · iexact HR23
    isplitl [Htx31]; · iexact Htx31
    iexact HRx31
  iintro ⟨Hc23, Hown⟩
  sl_step
  unfold post_15 ret_15
  isplitr []
  · sl_close
  · ipureintro; trivial

set_option maxHeartbeats 4000000 in

theorem exec_part16 : Spec_16 m := by
  intro K c W o v2 v8 v19 v20 v25 v36
  unfold pre_16
  iintro ⟨#⟨HI, HR⟩, #Hlev, HyB, Ht39, Htz47, ⟨%gz, Hpz⟩, Hxl, HyC, Hat16, Hc16, Hown, Hout⟩
  have hmw := mw_yr_6 (F := F) c
  open_cells
  rw [k0_part16_eq_skeleton]; unfold k0_part16_skel
  iapply (wp_sendZ m K c 5 _ (dev26_eq c) gz W _) $$ [HyB Hpz Hown Ht39 Htz47]
  · isplitr; · iexact HI39
    isplitr; · iexact HIz47
    isplitl [HyB]; · iexact HyB
    isplitl [Hpz]; · iexact Hpz
    isplitl [Hown]; · iexact Hown
    isplitl [Ht39]; · iexact Ht39
    isplitr; · iexact HR39
    isplitl [Htz47]; · iexact Htz47
    iexact HRz47
  iintro ⟨Hc39, Hown⟩
  rw [ret_bind_fn]
  run_part
  imod (Rounds.cell_close ER (Rd m) (Set.mem_univ (K (c, ⟨14, by decide⟩))) (fun h => h) (R := 0 + 1)
    (duties_later m (dcell c ⟨16, by decide⟩))) $$ [Hat16] with Hz16
  · isplitr; · iexact HI16
    iexact Hat16
  ihave Hs := (split3 (F := F) yB 6 c (Ych m c 6)) $$ Hat16_pay1
  icases Hs with ⟨HyA6, HyB6, HyC6⟩
  sl_step
  unfold post_16 ret_16
  isplitr []
  · sl_close
  · ipureintro; trivial

set_option maxHeartbeats 4000000 in

theorem exec_part17 : Spec_17 m := by
  intro K c W o v2 v5 v8 v23 v25 v36 v517 c4_i32_375
  unfold pre_17
  iintro ⟨#⟨HI, HR⟩, #Hlev, HyA, Ht24, Htx32, ⟨%gx, Hpx⟩, HyB, Ht40, Htz48, ⟨%gz, Hpz⟩, Hxl, HyC, Hown, Hout⟩
  open_cells
  rw [k0_part17_eq_skeleton]; unfold k0_part17_skel
  iapply (wp_sendX m K c 6 _ (dev27_eq c) gx W _) $$ [HyA Hpx Hown Ht24 Htx32]
  · isplitr; · iexact HI24
    isplitr; · iexact HIx32
    isplitl [HyA]; · iexact HyA
    isplitl [Hpx]; · iexact Hpx
    isplitl [Hown]; · iexact Hown
    isplitl [Ht24]; · iexact Ht24
    isplitr; · iexact HR24
    isplitl [Htx32]; · iexact Htx32
    iexact HRx32
  iintro ⟨Hc24, Hown⟩
  iapply (wp_sendZ m K c 6 _ (dev28_eq c) gz W _) $$ [HyB Hpz Hown Ht40 Htz48]
  · isplitr; · iexact HI40
    isplitr; · iexact HIz48
    isplitl [HyB]; · iexact HyB
    isplitl [Hpz]; · iexact Hpz
    isplitl [Hown]; · iexact Hown
    isplitl [Ht40]; · iexact Ht40
    isplitr; · iexact HR40
    isplitl [Htz48]; · iexact Htz48
    iexact HRz48
  iintro ⟨Hc40, Hown⟩
  rw [ret_bind_fn]
  run_part
  sl_step
  unfold post_17 ret_17
  isplitr []
  · sl_close
  · ipureintro; trivial

set_option maxHeartbeats 4000000 in

theorem exec_part18 : Spec_18 m := by
  intro K c W o v2 v5 v8 v19 v20 v23
  unfold pre_18
  iintro ⟨#⟨HI, HR⟩, #Hlev, Hat17, Hc17, Ht25, Htx33, ⟨%gx, Hpx⟩, Hown⟩
  have hmw := mw_yr_7 (F := F) c
  open_cells
  rw [k0_part18_eq_skeleton]; unfold k0_part18_skel
  run_part
  imod (Rounds.cell_close ER (Rd m) (Set.mem_univ (K (c, ⟨15, by decide⟩))) (fun h => h) (R := 0 + 1)
    (duties_later m (dcell c ⟨17, by decide⟩))) $$ [Hat17] with Hz17
  · isplitr; · iexact HI17
    iexact Hat17
  ihave Hs := (split3 (F := F) yB 7 c (Ych m c 7)) $$ Hat17_pay1
  icases Hs with ⟨HyA, HyB, HyC⟩
  iapply (wp_sendX m K c 7 (px c) rfl gx _ _) $$ [HyA Hpx Hown Ht25 Htx33]
  · isplitr; · iexact HI25
    isplitr; · iexact HIx33
    isplitl [HyA]; · iexact HyA
    isplitl [Hpx]; · iexact Hpx
    isplitl [Hown]; · iexact Hown
    isplitl [Ht25]; · iexact Ht25
    isplitr; · iexact HR25
    isplitl [Htx33]; · iexact Htx33
    iexact HRx33
  iintro ⟨Hc25, Hown⟩
  sl_step
  unfold post_18 ret_18
  isplitr []
  · sl_close
  · ipureintro; trivial

set_option maxHeartbeats 4000000 in

theorem exec_part19 : Spec_19 m := by
  intro K c W o v2 v5 v23 v25 v31 v36
  unfold pre_19
  iintro ⟨#⟨HI, HR⟩, #Hlev, HyB, Ht41, Htz49, ⟨%gz, Hpz⟩, Hxl, HyC, Hat42, Hc42, Hown, Hout⟩
  have hmw := mw_zr_0 (F := F) c
  open_cells
  rw [k0_part19_eq_skeleton]; unfold k0_part19_skel
  iapply (wp_sendZ m K c 7 _ (dev30_eq c) gz W _) $$ [HyB Hpz Hown Ht41 Htz49]
  · isplitr; · iexact HI41
    isplitr; · iexact HIz49
    isplitl [HyB]; · iexact HyB
    isplitl [Hpz]; · iexact Hpz
    isplitl [Hown]; · iexact Hown
    isplitl [Ht41]; · iexact Ht41
    isplitr; · iexact HR41
    isplitl [Htz49]; · iexact Htz49
    iexact HRz49
  iintro ⟨Hc41, Hown⟩
  rw [ret_bind_fn]
  run_part
  imod (Rounds.cell_close ER (Rd m) (Set.mem_univ (K (c, ⟨40, by decide⟩))) (fun h => h) (R := 0 + 1)
    (duties_later m (dcell c ⟨42, by decide⟩))) $$ [Hat42] with Hz42
  · isplitr; · iexact HI42
    iexact Hat42
  sl_step
  unfold post_19 ret_19
  isplitr []
  · sl_close
  · ipureintro; rfl

set_option maxHeartbeats 4000000 in

theorem exec_part24 : Spec_24 m := by
  intro K c W o v5 v8 v20 v31 v36
  unfold pre_24
  iintro ⟨#⟨HI, HR⟩, #Hlev, Hat45, Hc45, Ht50, Htx55, ⟨%gd, Hpd⟩, Hxl, Hown, Hout⟩
  have hmw := mw_zr_3 (F := F) c
  open_cells
  rw [k0_part24_eq_skeleton]; unfold k0_part24_skel
  run_part
  imod (Rounds.cell_close ER (Rd m) (Set.mem_univ (K (c, ⟨43, by decide⟩))) (fun h => h) (R := 0 + 1)
    (duties_later m (dcell c ⟨45, by decide⟩))) $$ [Hat45] with Hz45
  · isplitr; · iexact HI45
    iexact Hat45
  ihave Hs := (split2 (F := F) zB 3 c (Zch m c 3)) $$ Hat45_pay1
  icases Hs with ⟨HzA, HzL⟩
  iapply (wp_sendFX m K c 0 (px c) rfl gd _ _) $$ [HzA Hpd Hown Ht50 Htx55]
  · isplitr; · iexact HI50
    isplitr; · iexact HIx55
    isplitl [HzA]; · iexact HzA
    isplitl [Hpd]; · iexact Hpd
    isplitl [Hown]; · iexact Hown
    isplitl [Ht50]; · iexact Ht50
    isplitr; · iexact HR50
    isplitl [Htx55]; · iexact Htx55
    iexact HRx55
  iintro ⟨Hc50, Hown⟩
  run_part
  sl_step
  unfold post_24 ret_24
  isplitr []
  · sl_close
  · ipureintro; trivial

end Cert.KernelIdeal.RS

end
-- ==== Proof.PartsB.lean ====
import proofs.«901037_g7700000000001038_dist_rs_v7x_xyz2x2x4_y_m1024_n512_f32_1_alg».proof.Proof.PartsTab
import proofs.«901037_g7700000000001038_dist_rs_v7x_xyz2x2x4_y_m1024_n512_f32_1_alg».proof.Proof.SendRules
import proofs.«901037_g7700000000001038_dist_rs_v7x_xyz2x2x4_y_m1024_n512_f32_1_alg».proof.Proof.WaitTab
import proofs.«901037_g7700000000001038_dist_rs_v7x_xyz2x2x4_y_m1024_n512_f32_1_alg».proof.Proof.SchedTab
import proofs.«901037_g7700000000001038_dist_rs_v7x_xyz2x2x4_y_m1024_n512_f32_1_alg».proof.Proof.MeshTab
import proofs.«901037_g7700000000001038_dist_rs_v7x_xyz2x2x4_y_m1024_n512_f32_1_alg».proof.Proof.Assemble
import proofs.«901037_g7700000000001038_dist_rs_v7x_xyz2x2x4_y_m1024_n512_f32_1_alg».proof.Proof.Gen.KernelIdeal.Skeleton

import Idealize.ShloMosaic.Lib.Tactic

noncomputable section

namespace Cert.KernelIdeal.RS

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

attribute [local irreducible] k0_off1 k0_off2 k0_off3 k0_off4 k0_off5 k0_off6 k0_off7 k0_off8 k0_off9 k0_off10 py px pz

set_option maxHeartbeats 4000000 in
theorem exec_part3 : Spec_3 m := by
  intro K c W o v2 v8 v19 v25 v61 v62
  unfold pre_3
  iintro ⟨#HIR, #Hlev, Hs0, Ht0, Htp0, Hd0, Hs1, Ht1, Htp1, Hd1, Howes⟩
  unfold flatInv flatReached
  icases HIR with ⟨⟨-, -, -, -, HI2, HI3, -, -, -, -, -, -, -, -, -, -, -, -, -, -, -, -, -, -, -, -, -, -, -, -, -, -, -, -, -, -, -, -, -, -, -, -, -, -, -, -, -, -, -, -, -, -, -, -, -, -, -, -, -, -, -, -, -, -, -, -, -, -, HIy10, HIy11, -, -, -, -, -, -, -, -, -, -, -, -, -, -, -, -, -, -, -, -, -, -, -, -, -, -, -, -, -, -⟩, ⟨-, -, -, HR2, HR3, -, -, -, -, -, -, -, -, -, -, -, -, -, -, -, -, -, -, -, -, -, -, -, -, -, -, -, -, -, -, -, -, -, -, -, -, -, -, -, -, -, -, -, -, -, -, -, -, -, -, -, -, -, -, -, -, -, -, -, -, -, -, HRy10, HRy11, -, -, -, -, -, -, -, -, -, -, -, -, -, -, -, -, -, -, -, -, -, -, -, -, -, -, -, -, -, -⟩⟩
  icases Hd0 with ⟨%g0, Hd0⟩
  icases Hd1 with ⟨%g1, Hd1⟩
  rw [k0_part3_eq_skeleton]; unfold k0_part3_skel
  sl_exec
  iapply (wp_sendY m K c 0 _ (dev4_eq c) g0 W _) $$ [Hs0 Hd0 Howes Ht0 Htp0]
  · isplitr; · iexact HI2
    isplitr; · iexact HIy10
    isplitl [Hs0]; · iexact Hs0
    isplitl [Hd0]; · iexact Hd0
    isplitl [Howes]; · iexact Howes
    isplitl [Ht0]; · iexact Ht0
    isplitr; · iexact HR2
    isplitl [Htp0]; · iexact Htp0
    iexact HRy10
  iintro ⟨Hc0, Howes⟩
  sl_exec
  iapply (wp_sendY m K c 1 _ (dev5_eq c) g1 W _) $$ [Hs1 Hd1 Howes Ht1 Htp1]
  · isplitr; · iexact HI3
    isplitr; · iexact HIy11
    isplitl [Hs1]; · iexact Hs1
    isplitl [Hd1]; · iexact Hd1
    isplitl [Howes]; · iexact Howes
    isplitl [Ht1]; · iexact Ht1
    isplitr; · iexact HR3
    isplitl [Htp1]; · iexact Htp1
    iexact HRy11
  iintro ⟨Hc1, Howes⟩
  sl_step
  unfold post_3 ret_3
  isplitl
  · isplitl [Hc0]; · iexact Hc0
    isplitl [Hc1]; · iexact Hc1
    iexact Howes
  · ipureintro; trivial

set_option maxHeartbeats 4000000 in
theorem exec_part4 : Spec_4 m := by
  intro K c W o v2 v8 v19 v25
  unfold pre_4
  iintro ⟨#HIR, #Hlev, Hs0, Ht0, Htp0, Hd0, Hs1, Ht1, Htp1, Hd1, Howes⟩
  unfold flatInv flatReached
  icases HIR with ⟨⟨-, -, -, -, -, -, HI4, HI5, -, -, -, -, -, -, -, -, -, -, -, -, -, -, -, -, -, -, -, -, -, -, -, -, -, -, -, -, -, -, -, -, -, -, -, -, -, -, -, -, -, -, -, -, -, -, -, -, -, -, -, -, -, -, -, -, -, -, -, -, -, -, HIy12, HIy13, -, -, -, -, -, -, -, -, -, -, -, -, -, -, -, -, -, -, -, -, -, -, -, -, -, -, -, -⟩, ⟨-, -, -, -, -, HR4, HR5, -, -, -, -, -, -, -, -, -, -, -, -, -, -, -, -, -, -, -, -, -, -, -, -, -, -, -, -, -, -, -, -, -, -, -, -, -, -, -, -, -, -, -, -, -, -, -, -, -, -, -, -, -, -, -, -, -, -, -, -, -, -, HRy12, HRy13, -, -, -, -, -, -, -, -, -, -, -, -, -, -, -, -, -, -, -, -, -, -, -, -, -, -, -, -⟩⟩
  icases Hd0 with ⟨%g0, Hd0⟩
  icases Hd1 with ⟨%g1, Hd1⟩
  rw [k0_part4_eq_skeleton]; unfold k0_part4_skel
  sl_exec
  iapply (wp_sendY m K c 2 _ (dev6_eq c) g0 W _) $$ [Hs0 Hd0 Howes Ht0 Htp0]
  · isplitr; · iexact HI4
    isplitr; · iexact HIy12
    isplitl [Hs0]; · iexact Hs0
    isplitl [Hd0]; · iexact Hd0
    isplitl [Howes]; · iexact Howes
    isplitl [Ht0]; · iexact Ht0
    isplitr; · iexact HR4
    isplitl [Htp0]; · iexact Htp0
    iexact HRy12
  iintro ⟨Hc0, Howes⟩
  sl_exec
  iapply (wp_sendY m K c 3 _ (dev7_eq c) g1 W _) $$ [Hs1 Hd1 Howes Ht1 Htp1]
  · isplitr; · iexact HI5
    isplitr; · iexact HIy13
    isplitl [Hs1]; · iexact Hs1
    isplitl [Hd1]; · iexact Hd1
    isplitl [Howes]; · iexact Howes
    isplitl [Ht1]; · iexact Ht1
    isplitr; · iexact HR5
    isplitl [Htp1]; · iexact Htp1
    iexact HRy13
  iintro ⟨Hc1, Howes⟩
  sl_step
  unfold post_4 ret_4
  isplitl
  · isplitl [Hc0]; · iexact Hc0
    isplitl [Hc1]; · iexact Hc1
    iexact Howes
  · ipureintro; trivial

set_option maxHeartbeats 4000000 in
theorem exec_part5 : Spec_5 m := by
  intro K c W o v2 v8 v19 v25
  unfold pre_5
  iintro ⟨#HIR, #Hlev, Hs0, Ht0, Htp0, Hd0, Hs1, Ht1, Htp1, Hd1, Hs2, Ht2, Htp2, Hd2, Howes⟩
  unfold flatInv flatReached
  icases HIR with ⟨⟨-, -, -, -, -, -, -, -, HI6, HI7, HI8, -, -, -, -, -, -, -, -, -, -, -, -, -, -, -, -, -, -, -, -, -, -, -, -, -, -, -, -, -, -, -, -, -, -, -, -, -, -, -, -, -, -, -, -, -, -, -, -, -, -, -, -, -, -, -, -, -, -, -, -, -, HIy14, HIy15, HIy16, -, -, -, -, -, -, -, -, -, -, -, -, -, -, -, -, -, -, -, -, -, -, -, -, -⟩, ⟨-, -, -, -, -, -, -, HR6, HR7, HR8, -, -, -, -, -, -, -, -, -, -, -, -, -, -, -, -, -, -, -, -, -, -, -, -, -, -, -, -, -, -, -, -, -, -, -, -, -, -, -, -, -, -, -, -, -, -, -, -, -, -, -, -, -, -, -, -, -, -, -, -, -, HRy14, HRy15, HRy16, -, -, -, -, -, -, -, -, -, -, -, -, -, -, -, -, -, -, -, -, -, -, -, -, -⟩⟩
  icases Hd0 with ⟨%g0, Hd0⟩
  icases Hd1 with ⟨%g1, Hd1⟩
  icases Hd2 with ⟨%g2, Hd2⟩
  rw [k0_part5_eq_skeleton]; unfold k0_part5_skel
  sl_exec
  iapply (wp_sendY m K c 4 _ (dev8_eq c) g0 W _) $$ [Hs0 Hd0 Howes Ht0 Htp0]
  · isplitr; · iexact HI6
    isplitr; · iexact HIy14
    isplitl [Hs0]; · iexact Hs0
    isplitl [Hd0]; · iexact Hd0
    isplitl [Howes]; · iexact Howes
    isplitl [Ht0]; · iexact Ht0
    isplitr; · iexact HR6
    isplitl [Htp0]; · iexact Htp0
    iexact HRy14
  iintro ⟨Hc0, Howes⟩
  sl_exec
  iapply (wp_sendY m K c 5 _ (dev9_eq c) g1 W _) $$ [Hs1 Hd1 Howes Ht1 Htp1]
  · isplitr; · iexact HI7
    isplitr; · iexact HIy15
    isplitl [Hs1]; · iexact Hs1
    isplitl [Hd1]; · iexact Hd1
    isplitl [Howes]; · iexact Howes
    isplitl [Ht1]; · iexact Ht1
    isplitr; · iexact HR7
    isplitl [Htp1]; · iexact Htp1
    iexact HRy15
  iintro ⟨Hc1, Howes⟩
  sl_exec
  iapply (wp_sendY m K c 6 _ (dev10_eq c) g2 W _) $$ [Hs2 Hd2 Howes Ht2 Htp2]
  · isplitr; · iexact HI8
    isplitr; · iexact HIy16
    isplitl [Hs2]; · iexact Hs2
    isplitl [Hd2]; · iexact Hd2
    isplitl [Howes]; · iexact Howes
    isplitl [Ht2]; · iexact Ht2
    isplitr; · iexact HR8
    isplitl [Htp2]; · iexact Htp2
    iexact HRy16
  iintro ⟨Hc2, Howes⟩
  sl_step
  unfold post_5 ret_5
  isplitl
  · isplitl [Hc0]; · iexact Hc0
    isplitl [Hc1]; · iexact Hc1
    isplitl [Hc2]; · iexact Hc2
    iexact Howes
  · ipureintro; trivial

set_option maxHeartbeats 4000000 in
theorem exec_part6 : Spec_6 m := by
  intro K c W o v2 v8 v19 v35
  unfold pre_6
  iintro ⟨#HIR, #Hlev, Hs0, Ht0, Htp0, Hd0, Hs1, Ht1, Htp1, Hd1, Howes⟩
  unfold flatInv flatReached
  icases HIR with ⟨⟨-, -, -, -, -, -, -, -, -, -, -, HI9, -, -, -, -, -, -, -, -, -, -, -, -, -, -, -, -, -, -, -, -, -, -, -, -, -, -, -, -, -, -, -, -, -, -, -, -, -, -, -, -, -, -, -, -, -, -, -, -, -, -, HI60, -, -, -, -, -, -, -, -, -, -, -, -, HIy17, HIy63, -, -, -, -, -, -, -, -, -, -, -, -, -, -, -, -, -, -, -, -, -, -, -⟩, ⟨-, -, -, -, -, -, -, -, -, -, HR9, -, -, -, -, -, -, -, -, -, -, -, -, -, -, -, -, -, -, -, -, -, -, -, -, -, -, -, -, -, -, -, -, -, -, -, -, -, -, -, -, -, -, -, -, -, -, -, -, -, -, HR60, -, -, -, -, -, -, -, -, -, -, -, -, HRy17, HRy63, -, -, -, -, -, -, -, -, -, -, -, -, -, -, -, -, -, -, -, -, -, -, -⟩⟩
  icases Hd0 with ⟨%g0, Hd0⟩
  icases Hd1 with ⟨%g1, Hd1⟩
  rw [k0_part6_eq_skeleton]; unfold k0_part6_skel
  sl_exec
  iapply (wp_sendY m K c 7 _ (dev11_eq c) g0 W _) $$ [Hs0 Hd0 Howes Ht0 Htp0]
  · isplitr; · iexact HI9
    isplitr; · iexact HIy17
    isplitl [Hs0]; · iexact Hs0
    isplitl [Hd0]; · iexact Hd0
    isplitl [Howes]; · iexact Howes
    isplitl [Ht0]; · iexact Ht0
    isplitr; · iexact HR9
    isplitl [Htp0]; · iexact Htp0
    iexact HRy17
  iintro ⟨Hc0, Howes⟩
  sl_exec
  iapply (wp_sendD m K c 0 _ (dev12_eq c) g1 W _) $$ [Hs1 Hd1 Howes Ht1 Htp1]
  · isplitr; · iexact HI60
    isplitr; · iexact HIy63
    isplitl [Hs1]; · iexact Hs1
    isplitl [Hd1]; · iexact Hd1
    isplitl [Howes]; · iexact Howes
    isplitl [Ht1]; · iexact Ht1
    isplitr; · iexact HR60
    isplitl [Htp1]; · iexact Htp1
    iexact HRy63
  iintro ⟨Hc1, Howes⟩
  sl_exec
  sl_step
  unfold post_6 ret_6
  isplitl
  · isplitl [Hc0]; · iexact Hc0
    isplitl [Hc1]; · iexact Hc1
    iexact Howes
  · ipureintro; trivial

set_option maxHeartbeats 4000000 in
theorem exec_part7 : Spec_7 m := by
  intro K c W o v2 v8 v19 v35 v195 c0_i32_130
  unfold pre_7
  iintro ⟨#HIR, #Hlev, Hs0, Ht0, Htp0, Hd0, Hs1, Ht1, Htp1, Hd1, Howes⟩
  unfold flatInv flatReached
  icases HIR with ⟨⟨-, -, -, -, -, -, -, -, -, -, -, -, -, -, -, -, -, -, -, -, -, -, -, -, -, -, -, -, -, -, -, -, -, -, -, -, -, -, -, -, -, -, -, -, -, -, -, -, -, -, -, -, -, -, -, -, -, -, -, -, -, -, -, HI61, HI62, -, -, -, -, -, -, -, -, -, -, -, -, HIy64, HIy65, -, -, -, -, -, -, -, -, -, -, -, -, -, -, -, -, -, -, -, -, -⟩, ⟨-, -, -, -, -, -, -, -, -, -, -, -, -, -, -, -, -, -, -, -, -, -, -, -, -, -, -, -, -, -, -, -, -, -, -, -, -, -, -, -, -, -, -, -, -, -, -, -, -, -, -, -, -, -, -, -, -, -, -, -, -, -, HR61, HR62, -, -, -, -, -, -, -, -, -, -, -, -, HRy64, HRy65, -, -, -, -, -, -, -, -, -, -, -, -, -, -, -, -, -, -, -, -, -⟩⟩
  icases Hd0 with ⟨%g0, Hd0⟩
  icases Hd1 with ⟨%g1, Hd1⟩
  rw [k0_part7_eq_skeleton]; unfold k0_part7_skel
  sl_exec
  iapply (wp_sendD m K c 1 _ (dev13_eq c) g0 W _) $$ [Hs0 Hd0 Howes Ht0 Htp0]
  · isplitr; · iexact HI61
    isplitr; · iexact HIy64
    isplitl [Hs0]; · iexact Hs0
    isplitl [Hd0]; · iexact Hd0
    isplitl [Howes]; · iexact Howes
    isplitl [Ht0]; · iexact Ht0
    isplitr; · iexact HR61
    isplitl [Htp0]; · iexact Htp0
    iexact HRy64
  iintro ⟨Hc0, Howes⟩
  sl_exec
  iapply (wp_sendD m K c 2 _ (dev14_eq c) g1 W _) $$ [Hs1 Hd1 Howes Ht1 Htp1]
  · isplitr; · iexact HI62
    isplitr; · iexact HIy65
    isplitl [Hs1]; · iexact Hs1
    isplitl [Hd1]; · iexact Hd1
    isplitl [Howes]; · iexact Howes
    isplitl [Ht1]; · iexact Ht1
    isplitr; · iexact HR62
    isplitl [Htp1]; · iexact Htp1
    iexact HRy65
  iintro ⟨Hc1, Howes⟩
  sl_step
  unfold post_7 ret_7
  isplitl
  · isplitl [Hc0]; · iexact Hc0
    isplitl [Hc1]; · iexact Hc1
    iexact Howes
  · ipureintro; trivial

attribute [local sl_rounds] duties_dma amount_dma expect_dma payload_at_2 payload_at_3 payload_at_4 payload_at_5 payload_at_6 payload_at_7 payload_at_8 payload_at_9 payload_at_10 payload_at_11 payload_at_12 payload_at_13 payload_at_14 payload_at_15 payload_at_16 payload_at_17 payload_at_18 payload_at_19 payload_at_20 payload_at_21 payload_at_22 payload_at_23 payload_at_24 payload_at_25 payload_at_26 payload_at_27 payload_at_28 payload_at_29 payload_at_30 payload_at_31 payload_at_32 payload_at_33 payload_at_34 payload_at_35 payload_at_36 payload_at_37 payload_at_38 payload_at_39 payload_at_40 payload_at_41 payload_at_42 payload_at_43 payload_at_44 payload_at_45 payload_at_46 payload_at_47 payload_at_48 payload_at_49 payload_at_50 payload_at_51 payload_at_52 payload_at_53 payload_at_54 payload_at_55 payload_at_56 payload_at_57 payload_at_58 payload_at_59 payload_at_60 payload_at_61 payload_at_62 payload_at_63 payload_at_64 payload_at_65
attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq dev28_eq dev29_eq dev30_eq dev31_eq dev32_eq dev33_eq dev34_eq dev35_eq

set_option maxHeartbeats 4000000 in
theorem exec_part8 : Spec_8 m := by
  intro K c W o v2 v5 v8 v20 v23 v25 v36
  unfold pre_8
  iintro ⟨#HIR, #Hlev, Hat10, Hc10, Ht18, Htx26, Hdx, Ht34, Htz42, Hdz, Hx, Howes⟩
  unfold flatInv flatReached
  icases HIR with ⟨⟨-, -, -, -, -, -, -, -, -, -, -, -, HI10, -, -, -, -, -, -, -, HI18, -, -, -, -, -, -, -, -, -, -, -, -, -, -, -, HI34, -, -, -, -, -, -, -, -, -, -, -, -, -, -, -, -, -, -, -, -, -, -, -, -, -, -, -, -, -, -, -, -, -, -, -, -, -, -, -, -, -, -, HIx26, -, -, -, -, -, -, -, -, -, -, HIz42, -, -, -, -, -, -, -, -, -⟩, ⟨-, -, -, -, -, -, -, -, -, -, -, -, -, -, -, -, -, -, -, HR18, -, -, -, -, -, -, -, -, -, -, -, -, -, -, -, HR34, -, -, -, -, -, -, -, -, -, -, -, -, -, -, -, -, -, -, -, -, -, -, -, -, -, -, -, -, -, -, -, -, -, -, -, -, -, -, -, -, -, -, HRx26, -, -, -, -, -, -, -, -, -, -, HRz42, -, -, -, -, -, -, -, -, -⟩⟩
  icases Hdx with ⟨%gx, Hdx⟩
  icases Hdz with ⟨%gz, Hdz⟩
  have hw := mw_yr_0 (F := F) c
  rw [k0_part8_eq_skeleton]; unfold k0_part8_skel
  sl_exec (disch := simp only [sl_canon])
  ihave Hsp := (split3 (F := F) yB 0 c (Ych m c 0)) $$ Hat10_pay1
  icases Hsp with ⟨HqA, HqB, HqC⟩
  imod (Rounds.cell_close ER (Rd m) (Set.mem_univ _) (fun h => h) (R := 0 + 1) (duties_later m _)) $$ [Hat10] with Hz10
  · isplitr; · iexact HI10
    iexact Hat10
  iapply (wp_sendX m K c 0 _ rfl gx _ (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N + tallyAt (dcell (pz c) ⟨49, by decide⟩) () N + tallyAt (dcell (px c) ⟨33, by decide⟩) () N + tallyAt (dcell (pz c) ⟨48, by decide⟩) () N + tallyAt (dcell (px c) ⟨32, by decide⟩) () N + tallyAt (dcell (pz c) ⟨47, by decide⟩) () N + tallyAt (dcell (px c) ⟨31, by decide⟩) () N + tallyAt (dcell (pz c) ⟨46, by decide⟩) () N + tallyAt (dcell (px c) ⟨30, by decide⟩) () N + tallyAt (dcell (pz c) ⟨45, by decide⟩) () N + tallyAt (dcell (px c) ⟨29, by decide⟩) () N + tallyAt (dcell (pz c) ⟨44, by decide⟩) () N + tallyAt (dcell (px c) ⟨28, by decide⟩) () N + tallyAt (dcell (pz c) ⟨43, by decide⟩) () N + tallyAt (dcell (px c) ⟨27, by decide⟩) () N + tallyAt (dcell (pz c) ⟨42, by decide⟩) () N)) $$ [HqA Hdx Howes Ht18 Htx26]
  · isplitr; · iexact HI18
    isplitr; · iexact HIx26
    isplitl [HqA]; · iexact HqA
    isplitl [Hdx]; · iexact Hdx
    isplitl [Howes]; · iexact Howes
    isplitl [Ht18]; · iexact Ht18
    isplitr; · iexact HR18
    isplitl [Htx26]; · iexact Htx26
    iexact HRx26
  iintro ⟨Hc18, Howes⟩
  iapply (wp_sendZ m K c 0 _ (dev16_eq c) gz _ (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N + tallyAt (dcell (pz c) ⟨49, by decide⟩) () N + tallyAt (dcell (px c) ⟨33, by decide⟩) () N + tallyAt (dcell (pz c) ⟨48, by decide⟩) () N + tallyAt (dcell (px c) ⟨32, by decide⟩) () N + tallyAt (dcell (pz c) ⟨47, by decide⟩) () N + tallyAt (dcell (px c) ⟨31, by decide⟩) () N + tallyAt (dcell (pz c) ⟨46, by decide⟩) () N + tallyAt (dcell (px c) ⟨30, by decide⟩) () N + tallyAt (dcell (pz c) ⟨45, by decide⟩) () N + tallyAt (dcell (px c) ⟨29, by decide⟩) () N + tallyAt (dcell (pz c) ⟨44, by decide⟩) () N + tallyAt (dcell (px c) ⟨28, by decide⟩) () N + tallyAt (dcell (pz c) ⟨43, by decide⟩) () N + tallyAt (dcell (px c) ⟨27, by decide⟩) () N)) $$ [HqB Hdz Howes Ht34 Htz42]
  · isplitr; · iexact HI34
    isplitr; · iexact HIz42
    isplitl [HqB]; · iexact HqB
    isplitl [Hdz]; · iexact Hdz
    isplitl [Howes]; · iexact Howes
    isplitl [Ht34]; · iexact Ht34
    isplitr; · iexact HR34
    isplitl [Htz42]; · iexact Htz42
    iexact HRz42
  iintro ⟨Hc34, Howes⟩
  rw [Prog.bind]
  sl_exec (disch := simp only [sl_canon])
  sl_step
  unfold post_8 ret_8
  isplitl
  · isplitl [Hx]; · iexact Hx
    isplitl [Hz10]; · iexact Hz10
    isplitl [HqC]; · iexact HqC
    isplitl [Hc18]; · iexact Hc18
    isplitl [Hc34]; · iexact Hc34
    iexact Howes
  · ipureintro; rfl

set_option maxHeartbeats 4000000 in
theorem exec_part9 : Spec_9 m := by
  intro K c W o v2 v5 v8 v19 v20 v25
  unfold pre_9
  iintro ⟨#HIR, #Hlev, HqC0, Hat11, Hc11, Ht19, Htx27, Hdx, Howes, Ho⟩
  unfold flatInv flatReached
  icases HIR with ⟨⟨-, -, -, -, -, -, -, -, -, -, -, -, -, HI11, -, -, -, -, -, -, -, HI19, -, -, -, -, -, -, -, -, -, -, -, -, -, -, -, -, -, -, -, -, -, -, -, -, -, -, -, -, -, -, -, -, -, -, -, -, -, -, -, -, -, -, -, -, -, -, -, -, -, -, -, -, -, -, -, -, -, -, HIx27, -, -, -, -, -, -, -, -, -, -, -, -, -, -, -, -, -, -, -⟩, ⟨-, -, -, -, -, -, -, -, -, -, -, -, -, -, -, -, -, -, -, -, HR19, -, -, -, -, -, -, -, -, -, -, -, -, -, -, -, -, -, -, -, -, -, -, -, -, -, -, -, -, -, -, -, -, -, -, -, -, -, -, -, -, -, -, -, -, -, -, -, -, -, -, -, -, -, -, -, -, -, -, HRx27, -, -, -, -, -, -, -, -, -, -, -, -, -, -, -, -, -, -, -⟩⟩
  icases Hdx with ⟨%gx, Hdx⟩
  have hw := mw_yr_1 (F := F) c
  rw [k0_part9_eq_skeleton]; unfold k0_part9_skel
  sl_exec (disch := simp only [sl_canon])
  ihave Hsp := (split3 (F := F) yB 1 c (Ych m c 1)) $$ Hat11_pay1
  icases Hsp with ⟨HqA, HqB, HqC⟩
  imod (Rounds.cell_close ER (Rd m) (Set.mem_univ _) (fun h => h) (R := 0 + 1) (duties_later m _)) $$ [Hat11] with Hz11
  · isplitr; · iexact HI11
    iexact Hat11
  iapply (wp_sendX m K c 1 _ rfl gx _ (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N + tallyAt (dcell (pz c) ⟨49, by decide⟩) () N + tallyAt (dcell (px c) ⟨33, by decide⟩) () N + tallyAt (dcell (pz c) ⟨48, by decide⟩) () N + tallyAt (dcell (px c) ⟨32, by decide⟩) () N + tallyAt (dcell (pz c) ⟨47, by decide⟩) () N + tallyAt (dcell (px c) ⟨31, by decide⟩) () N + tallyAt (dcell (pz c) ⟨46, by decide⟩) () N + tallyAt (dcell (px c) ⟨30, by decide⟩) () N + tallyAt (dcell (pz c) ⟨45, by decide⟩) () N + tallyAt (dcell (px c) ⟨29, by decide⟩) () N + tallyAt (dcell (pz c) ⟨44, by decide⟩) () N + tallyAt (dcell (px c) ⟨28, by decide⟩) () N + tallyAt (dcell (pz c) ⟨43, by decide⟩) () N)) $$ [HqA Hdx Howes Ht19 Htx27]
  · isplitr; · iexact HI19
    isplitr; · iexact HIx27
    isplitl [HqA]; · iexact HqA
    isplitl [Hdx]; · iexact Hdx
    isplitl [Howes]; · iexact Howes
    isplitl [Ht19]; · iexact Ht19
    isplitr; · iexact HR19
    isplitl [Htx27]; · iexact Htx27
    iexact HRx27
  iintro ⟨Hc19, Howes⟩
  sl_exec (disch := simp only [sl_canon])
  sl_step
  unfold post_9 ret_9
  isplitl
  · isplitl [HqC0]; · iexact HqC0
    isplitl [Hz11]; · iexact Hz11
    isplitl [HqB]; · iexact HqB
    isplitl [HqC]; · iexact HqC
    isplitl [Hc19]; · iexact Hc19
    isplitl [Howes]; · iexact Howes
    iexact Ho
  · ipureintro; trivial

set_option maxHeartbeats 4000000 in
theorem exec_part10 : Spec_10 m := by
  intro K c W o v2 v5 v8 v19 v23 v25 v36 v293
  unfold pre_10
  iintro ⟨#HIR, #Hlev, H_yQ_1, H_t_35, H_tp_43, H_p_zB_1, H_xl, H_yC_1, Howes, H_out⟩
  unfold flatInv flatReached
  icases HIR with ⟨⟨-, -, -, -, -, -, -, -, -, -, -, -, -, -, -, -, -, -, -, -, -, -, -, -, -, -, -, -, -, -, -, -, -, -, -, -, -, HI35, -, -, -, -, -, -, -, -, -, -, -, -, -, -, -, -, -, -, -, -, -, -, -, -, -, -, -, -, -, -, -, -, -, -, -, -, -, -, -, -, -, -, -, -, -, -, -, -, -, -, -, -, -, HIz43, -, -, -, -, -, -, -, -⟩, ⟨-, -, -, -, -, -, -, -, -, -, -, -, -, -, -, -, -, -, -, -, -, -, -, -, -, -, -, -, -, -, -, -, -, -, -, -, HR35, -, -, -, -, -, -, -, -, -, -, -, -, -, -, -, -, -, -, -, -, -, -, -, -, -, -, -, -, -, -, -, -, -, -, -, -, -, -, -, -, -, -, -, -, -, -, -, -, -, -, -, -, -, HRz43, -, -, -, -, -, -, -, -⟩⟩
  icases H_p_zB_1 with ⟨%g_zB_1, H_p_zB_1⟩

  rw [k0_part10_eq_skeleton]; unfold k0_part10_skel
  iapply (wp_sendZ m K c 1 _ (dev18_eq c) g_zB_1 _ (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N + tallyAt (dcell (pz c) ⟨49, by decide⟩) () N + tallyAt (dcell (px c) ⟨33, by decide⟩) () N + tallyAt (dcell (pz c) ⟨48, by decide⟩) () N + tallyAt (dcell (px c) ⟨32, by decide⟩) () N + tallyAt (dcell (pz c) ⟨47, by decide⟩) () N + tallyAt (dcell (px c) ⟨31, by decide⟩) () N + tallyAt (dcell (pz c) ⟨46, by decide⟩) () N + tallyAt (dcell (px c) ⟨30, by decide⟩) () N + tallyAt (dcell (pz c) ⟨45, by decide⟩) () N + tallyAt (dcell (px c) ⟨29, by decide⟩) () N + tallyAt (dcell (pz c) ⟨44, by decide⟩) () N + tallyAt (dcell (px c) ⟨28, by decide⟩) () N)) $$ [H_yQ_1 H_p_zB_1 Howes H_t_35 H_tp_43]
  · isplitr; · iexact HI35
    isplitr; · iexact HIz43
    isplitl [H_yQ_1]; · iexact H_yQ_1
    isplitl [H_p_zB_1]; · iexact H_p_zB_1
    isplitl [Howes]; · iexact Howes
    isplitl [H_t_35]; · iexact H_t_35
    isplitr; · iexact HR35
    isplitl [H_tp_43]; · iexact H_tp_43
    iexact HRz43
  iintro ⟨H_cs_35, Howes⟩
  rw [Prog.bind]
  sl_exec (disch := simp only [sl_canon])
  sl_step
  unfold post_10 ret_10
  isplitl
  · isplitl [H_xl]; · iexact H_xl
    isplitl [H_yC_1]; · iexact H_yC_1
    isplitl [H_cs_35]; · iexact H_cs_35
    isplitl [Howes]; · iexact Howes
    iexact H_out
  · ipureintro; trivial

set_option maxHeartbeats 4000000 in
theorem exec_part11 : Spec_11 m := by
  intro K c W o v2 v5 v8 v20 v23 v25 v36
  unfold pre_11
  iintro ⟨#HIR, #Hlev, H_at_12, H_c_12, H_t_20, H_tp_28, H_p_xB_2, H_t_36, H_tp_44, H_p_zB_2, H_xl, Howes⟩
  unfold flatInv flatReached
  icases HIR with ⟨⟨-, -, -, -, -, -, -, -, -, -, -, -, -, -, HI12, -, -, -, -, -, -, -, HI20, -, -, -, -, -, -, -, -, -, -, -, -, -, -, -, HI36, -, -, -, -, -, -, -, -, -, -, -, -, -, -, -, -, -, -, -, -, -, -, -, -, -, -, -, -, -, -, -, -, -, -, -, -, -, -, -, -, -, -, HIx28, -, -, -, -, -, -, -, -, -, -, HIz44, -, -, -, -, -, -, -⟩, ⟨-, -, -, -, -, -, -, -, -, -, -, -, -, -, -, -, -, -, -, -, -, HR20, -, -, -, -, -, -, -, -, -, -, -, -, -, -, -, HR36, -, -, -, -, -, -, -, -, -, -, -, -, -, -, -, -, -, -, -, -, -, -, -, -, -, -, -, -, -, -, -, -, -, -, -, -, -, -, -, -, -, -, HRx28, -, -, -, -, -, -, -, -, -, -, HRz44, -, -, -, -, -, -, -⟩⟩
  icases H_p_xB_2 with ⟨%g_xB_2, H_p_xB_2⟩
  icases H_p_zB_2 with ⟨%g_zB_2, H_p_zB_2⟩
  have hw12 := mw_yr_2 (F := F) c
  rw [k0_part11_eq_skeleton]; unfold k0_part11_skel
  sl_exec (disch := simp only [sl_canon])
  ihave Hsp := (split3 (F := F) yB 2 c (Ych m c 2)) $$ H_at_12_pay1
  icases Hsp with ⟨H_yA_2, H_yQ_2, H_yC_2⟩
  imod (Rounds.cell_close ER (Rd m) (Set.mem_univ _) (fun h => h) (R := 0 + 1) (duties_later m _)) $$ [H_at_12] with H_z_12
  · isplitr; · iexact HI12
    iexact H_at_12
  iapply (wp_sendX m K c 2 _ rfl g_xB_2 _ (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N + tallyAt (dcell (pz c) ⟨49, by decide⟩) () N + tallyAt (dcell (px c) ⟨33, by decide⟩) () N + tallyAt (dcell (pz c) ⟨48, by decide⟩) () N + tallyAt (dcell (px c) ⟨32, by decide⟩) () N + tallyAt (dcell (pz c) ⟨47, by decide⟩) () N + tallyAt (dcell (px c) ⟨31, by decide⟩) () N + tallyAt (dcell (pz c) ⟨46, by decide⟩) () N + tallyAt (dcell (px c) ⟨30, by decide⟩) () N + tallyAt (dcell (pz c) ⟨45, by decide⟩) () N + tallyAt (dcell (px c) ⟨29, by decide⟩) () N + tallyAt (dcell (pz c) ⟨44, by decide⟩) () N)) $$ [H_yA_2 H_p_xB_2 Howes H_t_20 H_tp_28]
  · isplitr; · iexact HI20
    isplitr; · iexact HIx28
    isplitl [H_yA_2]; · iexact H_yA_2
    isplitl [H_p_xB_2]; · iexact H_p_xB_2
    isplitl [Howes]; · iexact Howes
    isplitl [H_t_20]; · iexact H_t_20
    isplitr; · iexact HR20
    isplitl [H_tp_28]; · iexact H_tp_28
    iexact HRx28
  iintro ⟨H_cs_20, Howes⟩
  iapply (wp_sendZ m K c 2 _ (dev20_eq c) g_zB_2 _ (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N + tallyAt (dcell (pz c) ⟨49, by decide⟩) () N + tallyAt (dcell (px c) ⟨33, by decide⟩) () N + tallyAt (dcell (pz c) ⟨48, by decide⟩) () N + tallyAt (dcell (px c) ⟨32, by decide⟩) () N + tallyAt (dcell (pz c) ⟨47, by decide⟩) () N + tallyAt (dcell (px c) ⟨31, by decide⟩) () N + tallyAt (dcell (pz c) ⟨46, by decide⟩) () N + tallyAt (dcell (px c) ⟨30, by decide⟩) () N + tallyAt (dcell (pz c) ⟨45, by decide⟩) () N + tallyAt (dcell (px c) ⟨29, by decide⟩) () N)) $$ [H_yQ_2 H_p_zB_2 Howes H_t_36 H_tp_44]
  · isplitr; · iexact HI36
    isplitr; · iexact HIz44
    isplitl [H_yQ_2]; · iexact H_yQ_2
    isplitl [H_p_zB_2]; · iexact H_p_zB_2
    isplitl [Howes]; · iexact Howes
    isplitl [H_t_36]; · iexact H_t_36
    isplitr; · iexact HR36
    isplitl [H_tp_44]; · iexact H_tp_44
    iexact HRz44
  iintro ⟨H_cs_36, Howes⟩
  rw [Prog.bind]
  sl_exec (disch := simp only [sl_canon])
  sl_step
  unfold post_11 ret_11
  isplitl
  · isplitl [H_xl]; · iexact H_xl
    isplitl [H_z_12]; · iexact H_z_12
    isplitl [H_yC_2]; · iexact H_yC_2
    isplitl [H_cs_20]; · iexact H_cs_20
    isplitl [H_cs_36]; · iexact H_cs_36
    iexact Howes
  · ipureintro; rfl

set_option maxHeartbeats 4000000 in
theorem exec_part12 : Spec_12 m := by
  intro K c W o v2 v5 v8 v19 v20 v25
  unfold pre_12
  iintro ⟨#HIR, #Hlev, H_at_13, H_c_13, H_t_21, H_tp_29, H_p_xB_3, Howes, H_out⟩
  unfold flatInv flatReached
  icases HIR with ⟨⟨-, -, -, -, -, -, -, -, -, -, -, -, -, -, -, HI13, -, -, -, -, -, -, -, HI21, -, -, -, -, -, -, -, -, -, -, -, -, -, -, -, -, -, -, -, -, -, -, -, -, -, -, -, -, -, -, -, -, -, -, -, -, -, -, -, -, -, -, -, -, -, -, -, -, -, -, -, -, -, -, -, -, -, -, HIx29, -, -, -, -, -, -, -, -, -, -, -, -, -, -, -, -, -⟩, ⟨-, -, -, -, -, -, -, -, -, -, -, -, -, -, -, -, -, -, -, -, -, -, HR21, -, -, -, -, -, -, -, -, -, -, -, -, -, -, -, -, -, -, -, -, -, -, -, -, -, -, -, -, -, -, -, -, -, -, -, -, -, -, -, -, -, -, -, -, -, -, -, -, -, -, -, -, -, -, -, -, -, -, HRx29, -, -, -, -, -, -, -, -, -, -, -, -, -, -, -, -, -⟩⟩
  icases H_p_xB_3 with ⟨%g_xB_3, H_p_xB_3⟩
  have hw13 := mw_yr_3 (F := F) c
  rw [k0_part12_eq_skeleton]; unfold k0_part12_skel
  sl_exec (disch := simp only [sl_canon])
  ihave Hsp := (split3 (F := F) yB 3 c (Ych m c 3)) $$ H_at_13_pay1
  icases Hsp with ⟨H_yA_3, H_yQ_3, H_yC_3⟩
  imod (Rounds.cell_close ER (Rd m) (Set.mem_univ _) (fun h => h) (R := 0 + 1) (duties_later m _)) $$ [H_at_13] with H_z_13
  · isplitr; · iexact HI13
    iexact H_at_13
  iapply (wp_sendX m K c 3 _ rfl g_xB_3 _ (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N + tallyAt (dcell (pz c) ⟨49, by decide⟩) () N + tallyAt (dcell (px c) ⟨33, by decide⟩) () N + tallyAt (dcell (pz c) ⟨48, by decide⟩) () N + tallyAt (dcell (px c) ⟨32, by decide⟩) () N + tallyAt (dcell (pz c) ⟨47, by decide⟩) () N + tallyAt (dcell (px c) ⟨31, by decide⟩) () N + tallyAt (dcell (pz c) ⟨46, by decide⟩) () N + tallyAt (dcell (px c) ⟨30, by decide⟩) () N + tallyAt (dcell (pz c) ⟨45, by decide⟩) () N)) $$ [H_yA_3 H_p_xB_3 Howes H_t_21 H_tp_29]
  · isplitr; · iexact HI21
    isplitr; · iexact HIx29
    isplitl [H_yA_3]; · iexact H_yA_3
    isplitl [H_p_xB_3]; · iexact H_p_xB_3
    isplitl [Howes]; · iexact Howes
    isplitl [H_t_21]; · iexact H_t_21
    isplitr; · iexact HR21
    isplitl [H_tp_29]; · iexact H_tp_29
    iexact HRx29
  iintro ⟨H_cs_21, Howes⟩
  sl_exec (disch := simp only [sl_canon])
  sl_step
  unfold post_12 ret_12
  isplitl
  · isplitl [H_z_13]; · iexact H_z_13
    isplitl [H_yQ_3]; · iexact H_yQ_3
    isplitl [H_yC_3]; · iexact H_yC_3
    isplitl [H_cs_21]; · iexact H_cs_21
    isplitl [Howes]; · iexact Howes
    iexact H_out
  · ipureintro; trivial

set_option maxHeartbeats 4000000 in
theorem exec_part13 : Spec_13 m := by
  intro K c W o v2 v8 v19 v23 v25 v36 v388 v389
  unfold pre_13
  iintro ⟨#HIR, #Hlev, H_yQ_3, H_t_37, H_tp_45, H_p_zB_3, H_xl, H_yC_3, H_at_14, H_c_14, Howes, H_out⟩
  unfold flatInv flatReached
  icases HIR with ⟨⟨-, -, -, -, -, -, -, -, -, -, -, -, -, -, -, -, HI14, -, -, -, -, -, -, -, -, -, -, -, -, -, -, -, -, -, -, -, -, -, -, HI37, -, -, -, -, -, -, -, -, -, -, -, -, -, -, -, -, -, -, -, -, -, -, -, -, -, -, -, -, -, -, -, -, -, -, -, -, -, -, -, -, -, -, -, -, -, -, -, -, -, -, -, -, -, HIz45, -, -, -, -, -, -⟩, ⟨-, -, -, -, -, -, -, -, -, -, -, -, -, -, -, -, -, -, -, -, -, -, -, -, -, -, -, -, -, -, -, -, -, -, -, -, -, -, HR37, -, -, -, -, -, -, -, -, -, -, -, -, -, -, -, -, -, -, -, -, -, -, -, -, -, -, -, -, -, -, -, -, -, -, -, -, -, -, -, -, -, -, -, -, -, -, -, -, -, -, -, -, -, HRz45, -, -, -, -, -, -⟩⟩
  icases H_p_zB_3 with ⟨%g_zB_3, H_p_zB_3⟩
  have hw14 := mw_yr_4 (F := F) c
  rw [k0_part13_eq_skeleton]; unfold k0_part13_skel
  iapply (wp_sendZ m K c 3 _ (dev22_eq c) g_zB_3 _ (0 + tallyAt (dcell (pz c) ⟨59, by decide⟩) () N + tallyAt (dcell (pz c) ⟨58, by decide⟩) () N + tallyAt (dcell (px c) ⟨57, by decide⟩) () N + tallyAt (dcell (px c) ⟨56, by decide⟩) () N + tallyAt (dcell (px c) ⟨55, by decide⟩) () N + tallyAt (dcell (pz c) ⟨49, by decide⟩) () N + tallyAt (dcell (px c) ⟨33, by decide⟩) () N + tallyAt (dcell (pz c) ⟨48, by decide⟩) () N + tallyAt (dcell (px c) ⟨32, by decide⟩) () N + tallyAt (dcell (pz c) ⟨47, by decide⟩) () N + tallyAt (dcell (px c) ⟨31, by decide⟩) () N + tallyAt (dcell (pz c) ⟨46, by decide⟩) () N + tallyAt (dcell (px c) ⟨30, by decide⟩) () N)) $$ [H_yQ_3 H_p_zB_3 Howes H_t_37 H_tp_45]
  · isplitr; · iexact HI37
    isplitr; · iexact HIz45
    isplitl [H_yQ_3]; · iexact H_yQ_3
    isplitl [H_p_zB_3]; · iexact H_p_zB_3
    isplitl [Howes]; · iexact Howes
    isplitl [H_t_37]; · iexact H_t_37
    isplitr; · iexact HR37
    isplitl [H_tp_45]; · iexact H_tp_45
    iexact HRz45
  iintro ⟨H_cs_37, Howes⟩
  rw [Prog.bind]
  sl_exec (disch := simp only [sl_canon])
  ihave Hsp := (split3 (F := F) yB 4 c (Ych m c 4)) $$ H_at_14_pay1
  icases Hsp with ⟨H_yA_4, H_yQ_4, H_yC_4⟩
  imod (Rounds.cell_close ER (Rd m) (Set.mem_univ _) (fun h => h) (R := 0 + 1) (duties_later m _)) $$ [H_at_14] with H_z_14
  · isplitr; · iexact HI14
    iexact H_at_14
  sl_step
  unfold post_13 ret_13
  isplitl
  · isplitl [H_xl]; · iexact H_xl
    isplitl [H_yC_3]; · iexact H_yC_3
    isplitl [H_cs_37]; · iexact H_cs_37
    isplitl [H_z_14]; · iexact H_z_14
    isplitl [H_yA_4]; · iexact H_yA_4
    isplitl [H_yQ_4]; · iexact H_yQ_4
    isplitl [H_yC_4]; · iexact H_yC_4
    isplitl [Howes]; · iexact Howes
    iexact H_out
  · ipureintro; trivial

end Cert.KernelIdeal.RS

end
-- ==== Proof.PartsC.lean ====
import proofs.«901037_g7700000000001038_dist_rs_v7x_xyz2x2x4_y_m1024_n512_f32_1_alg».proof.Proof.PartsTab
import proofs.«901037_g7700000000001038_dist_rs_v7x_xyz2x2x4_y_m1024_n512_f32_1_alg».proof.Proof.SchedTab
import proofs.«901037_g7700000000001038_dist_rs_v7x_xyz2x2x4_y_m1024_n512_f32_1_alg».proof.Proof.MeshTab
import proofs.«901037_g7700000000001038_dist_rs_v7x_xyz2x2x4_y_m1024_n512_f32_1_alg».proof.Proof.WaitTab
import proofs.«901037_g7700000000001038_dist_rs_v7x_xyz2x2x4_y_m1024_n512_f32_1_alg».proof.Proof.Assemble
import Idealize.ShloMosaic.Lib.Tactic
import proofs.«901037_g7700000000001038_dist_rs_v7x_xyz2x2x4_y_m1024_n512_f32_1_alg».proof.Proof.SendRules

noncomputable section

namespace Cert.KernelIdeal.RS

open Cert.KernelIdeal Cert.KernelIdeal.Gen Cert.KernelIdeal.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

attribute [local sl_rounds] duties_dma amount_dma expect_dma payload_at_2 payload_at_3 payload_at_4 payload_at_5 payload_at_6 payload_at_7 payload_at_8 payload_at_9 payload_at_10 payload_at_11 payload_at_12 payload_at_13 payload_at_14 payload_at_15 payload_at_16 payload_at_17 payload_at_18 payload_at_19 payload_at_20 payload_at_21 payload_at_22 payload_at_23 payload_at_24 payload_at_25 payload_at_26 payload_at_27 payload_at_28 payload_at_29 payload_at_30 payload_at_31 payload_at_32 payload_at_33 payload_at_34 payload_at_35 payload_at_36 payload_at_37 payload_at_38 payload_at_39 payload_at_40 payload_at_41 payload_at_42 payload_at_43 payload_at_44 payload_at_45 payload_at_46 payload_at_47 payload_at_48 payload_at_49 payload_at_50 payload_at_51 payload_at_52 payload_at_53 payload_at_54 payload_at_55 payload_at_56 payload_at_57 payload_at_58 payload_at_59 payload_at_60 payload_at_61 payload_at_62 payload_at_63 payload_at_64 payload_at_65
attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq dev28_eq dev29_eq dev30_eq dev31_eq dev32_eq dev33_eq dev34_eq dev35_eq
attribute [local irreducible] k0_off1 k0_off2 k0_off3 k0_off4 k0_off5 k0_off6 k0_off7 k0_off8 k0_off9 k0_off10 py px pz

set_option maxHeartbeats 4000000 in
theorem exec_part26 : Spec_26 m := by
  intro K c W o v5 v8 v20 v28 v31 v36
  unfold pre_26
  iintro ⟨#HIR, #Hlev, HzA4, Ht51, Htp56, HpdB4, Hxl, HzL4, Hat30, Hc30, HO, Hout⟩
  icases HIR with ⟨HInv, HRch⟩
  unfold flatInv flatReached
  icases HInv with ⟨HIb, HIby, HIbx, HIbz, HI2, HI3, HI4, HI5, HI6, HI7, HI8, HI9, HI10, HI11, HI12, HI13, HI14, HI15, HI16, HI17, HI18, HI19, HI20, HI21, HI22, HI23, HI24, HI25, HI26, HI27, HI28, HI29, HI30, HI31, HI32, HI33, HI34, HI35, HI36, HI37, HI38, HI39, HI40, HI41, HI42, HI43, HI44, HI45, HI46, HI47, HI48, HI49, HI50, HI51, HI52, HI53, HI54, HI55, HI56, HI57, HI58, HI59, HI60, HI61, HI62, HI63, HI64, HI65, HIy10, HIy11, HIy12, HIy13, HIy14, HIy15, HIy16, HIy17, HIy63, HIy64, HIy65, HIx26, HIx27, HIx28, HIx29, HIx30, HIx31, HIx32, HIx33, HIx55, HIx56, HIx57, HIz42, HIz43, HIz44, HIz45, HIz46, HIz47, HIz48, HIz49, HIz58, HIz59⟩
  icases HRch with ⟨HRby, HRbx, HRbz, HR2, HR3, HR4, HR5, HR6, HR7, HR8, HR9, HR10, HR11, HR12, HR13, HR14, HR15, HR16, HR17, HR18, HR19, HR20, HR21, HR22, HR23, HR24, HR25, HR26, HR27, HR28, HR29, HR30, HR31, HR32, HR33, HR34, HR35, HR36, HR37, HR38, HR39, HR40, HR41, HR42, HR43, HR44, HR45, HR46, HR47, HR48, HR49, HR50, HR51, HR52, HR53, HR54, HR55, HR56, HR57, HR58, HR59, HR60, HR61, HR62, HR63, HR64, HR65, HRy10, HRy11, HRy12, HRy13, HRy14, HRy15, HRy16, HRy17, HRy63, HRy64, HRy65, HRx26, HRx27, HRx28, HRx29, HRx30, HRx31, HRx32, HRx33, HRx55, HRx56, HRx57, HRz42, HRz43, HRz44, HRz45, HRz46, HRz47, HRz48, HRz49, HRz58, HRz59⟩
  rw [k0_part26_eq_skeleton]; unfold k0_part26_skel
  have hmw30 := mw_xr_4 (F := F) c
  sl_exec (disch := simp only [sl_canon])
  icases HpdB4 with ⟨%g, Hp⟩
  iapply (wp_sendFX m K c 1 (px c) rfl g W (0 + tallyAt (dcell (pz c) ⟨59, by decide⟩) () N + tallyAt (dcell (pz c) ⟨58, by decide⟩) () N + tallyAt (dcell (px c) ⟨57, by decide⟩) () N)) $$ [HzA4 Hp HO Ht51 Htp56]
  · isplitr; · iexact HI51
    isplitr; · iexact HIx56
    isplitl [HzA4]; · iexact HzA4
    isplitl [Hp]; · iexact Hp
    isplitl [HO]; · iexact HO
    isplitl [Ht51]; · iexact Ht51
    isplitr; · iexact HR51
    isplitl [Htp56]; · iexact Htp56
    iexact HRx56
  iintro ⟨Hcred, HO⟩
  sl_exec (disch := simp only [sl_canon])
  imod (Rounds.cell_close ER (Rd m) (Set.mem_univ (K (c, ⟨28, by decide⟩))) (fun h => h) (R := 0 + 1) (duties_later m (dcell c ⟨30, by decide⟩))) $$ [Hat30] with Hz30
  · isplitr; · iexact HI30
    iexact Hat30
  sl_step
  unfold post_26 ret_26
  sl_close

set_option maxHeartbeats 4000000 in
theorem exec_part27 : Spec_27 m := by
  intro K c W o v2 v5 v8 v20 v23 v28 v31
  unfold pre_27
  iintro ⟨#HIR, #Hlev, Hxl, HxL4, Hat47, Hc47, Ht52, Htp57, HpdB5, HO, Hout⟩
  icases HIR with ⟨HInv, HRch⟩
  unfold flatInv flatReached
  icases HInv with ⟨HIb, HIby, HIbx, HIbz, HI2, HI3, HI4, HI5, HI6, HI7, HI8, HI9, HI10, HI11, HI12, HI13, HI14, HI15, HI16, HI17, HI18, HI19, HI20, HI21, HI22, HI23, HI24, HI25, HI26, HI27, HI28, HI29, HI30, HI31, HI32, HI33, HI34, HI35, HI36, HI37, HI38, HI39, HI40, HI41, HI42, HI43, HI44, HI45, HI46, HI47, HI48, HI49, HI50, HI51, HI52, HI53, HI54, HI55, HI56, HI57, HI58, HI59, HI60, HI61, HI62, HI63, HI64, HI65, HIy10, HIy11, HIy12, HIy13, HIy14, HIy15, HIy16, HIy17, HIy63, HIy64, HIy65, HIx26, HIx27, HIx28, HIx29, HIx30, HIx31, HIx32, HIx33, HIx55, HIx56, HIx57, HIz42, HIz43, HIz44, HIz45, HIz46, HIz47, HIz48, HIz49, HIz58, HIz59⟩
  icases HRch with ⟨HRby, HRbx, HRbz, HR2, HR3, HR4, HR5, HR6, HR7, HR8, HR9, HR10, HR11, HR12, HR13, HR14, HR15, HR16, HR17, HR18, HR19, HR20, HR21, HR22, HR23, HR24, HR25, HR26, HR27, HR28, HR29, HR30, HR31, HR32, HR33, HR34, HR35, HR36, HR37, HR38, HR39, HR40, HR41, HR42, HR43, HR44, HR45, HR46, HR47, HR48, HR49, HR50, HR51, HR52, HR53, HR54, HR55, HR56, HR57, HR58, HR59, HR60, HR61, HR62, HR63, HR64, HR65, HRy10, HRy11, HRy12, HRy13, HRy14, HRy15, HRy16, HRy17, HRy63, HRy64, HRy65, HRx26, HRx27, HRx28, HRx29, HRx30, HRx31, HRx32, HRx33, HRx55, HRx56, HRx57, HRz42, HRz43, HRz44, HRz45, HRz46, HRz47, HRz48, HRz49, HRz58, HRz59⟩
  rw [k0_part27_eq_skeleton]; unfold k0_part27_skel
  have hmw47 := mw_zr_5 (F := F) c
  sl_exec (disch := simp only [sl_canon])
  ihave Hs := (split2 zB 5 c (Zch m c 5)) $$ Hat47_pay1
  icases Hs with ⟨HqA, HL⟩
  icases HpdB5 with ⟨%g, Hp⟩
  iapply (wp_sendFX m K c 2 (px c) rfl g (insert (SemLoc.dma ⟨47, by decide⟩, ()) W) (0 + tallyAt (dcell (pz c) ⟨59, by decide⟩) () N + tallyAt (dcell (pz c) ⟨58, by decide⟩) () N)) $$ [HqA Hp HO Ht52 Htp57]
  · isplitr; · iexact HI52
    isplitr; · iexact HIx57
    isplitl [HqA]; · iexact HqA
    isplitl [Hp]; · iexact Hp
    isplitl [HO]; · iexact HO
    isplitl [Ht52]; · iexact Ht52
    isplitr; · iexact HR52
    isplitl [Htp57]; · iexact Htp57
    iexact HRx57
  iintro ⟨Hcred, HO⟩
  sl_exec (disch := simp only [sl_canon])
  imod (Rounds.cell_close ER (Rd m) (Set.mem_univ (K (c, ⟨45, by decide⟩))) (fun h => h) (R := 0 + 1) (duties_later m (dcell c ⟨47, by decide⟩))) $$ [Hat47] with Hz47
  · isplitr; · iexact HI47
    iexact Hat47
  sl_step
  unfold post_27 ret_27
  sl_close

set_option maxHeartbeats 4000000 in
theorem exec_part28 : Spec_28 m := by
  intro K c W o v5 v8 v20 v28 v31 v36 v865
  unfold pre_28
  iintro ⟨#HIR, #Hlev, Hxl, HzL5, Hat31, Hc31, HO, Hout⟩
  icases HIR with ⟨HInv, HRch⟩
  unfold flatInv flatReached
  icases HInv with ⟨HIb, HIby, HIbx, HIbz, HI2, HI3, HI4, HI5, HI6, HI7, HI8, HI9, HI10, HI11, HI12, HI13, HI14, HI15, HI16, HI17, HI18, HI19, HI20, HI21, HI22, HI23, HI24, HI25, HI26, HI27, HI28, HI29, HI30, HI31, HI32, HI33, HI34, HI35, HI36, HI37, HI38, HI39, HI40, HI41, HI42, HI43, HI44, HI45, HI46, HI47, HI48, HI49, HI50, HI51, HI52, HI53, HI54, HI55, HI56, HI57, HI58, HI59, HI60, HI61, HI62, HI63, HI64, HI65, HIy10, HIy11, HIy12, HIy13, HIy14, HIy15, HIy16, HIy17, HIy63, HIy64, HIy65, HIx26, HIx27, HIx28, HIx29, HIx30, HIx31, HIx32, HIx33, HIx55, HIx56, HIx57, HIz42, HIz43, HIz44, HIz45, HIz46, HIz47, HIz48, HIz49, HIz58, HIz59⟩
  icases HRch with ⟨HRby, HRbx, HRbz, HR2, HR3, HR4, HR5, HR6, HR7, HR8, HR9, HR10, HR11, HR12, HR13, HR14, HR15, HR16, HR17, HR18, HR19, HR20, HR21, HR22, HR23, HR24, HR25, HR26, HR27, HR28, HR29, HR30, HR31, HR32, HR33, HR34, HR35, HR36, HR37, HR38, HR39, HR40, HR41, HR42, HR43, HR44, HR45, HR46, HR47, HR48, HR49, HR50, HR51, HR52, HR53, HR54, HR55, HR56, HR57, HR58, HR59, HR60, HR61, HR62, HR63, HR64, HR65, HRy10, HRy11, HRy12, HRy13, HRy14, HRy15, HRy16, HRy17, HRy63, HRy64, HRy65, HRx26, HRx27, HRx28, HRx29, HRx30, HRx31, HRx32, HRx33, HRx55, HRx56, HRx57, HRz42, HRz43, HRz44, HRz45, HRz46, HRz47, HRz48, HRz49, HRz58, HRz59⟩
  rw [k0_part28_eq_skeleton]; unfold k0_part28_skel
  have hmw31 := mw_xr_5 (F := F) c
  sl_exec (disch := simp only [sl_canon])
  imod (Rounds.cell_close ER (Rd m) (Set.mem_univ (K (c, ⟨29, by decide⟩))) (fun h => h) (R := 0 + 1) (duties_later m (dcell c ⟨31, by decide⟩))) $$ [Hat31] with Hz31
  · isplitr; · iexact HI31
    iexact Hat31
  sl_step
  unfold post_28 ret_28
  sl_close

set_option maxHeartbeats 4000000 in
theorem exec_part29 : Spec_29 m := by
  intro K c W o v2 v5 v8 v20 v23 v31 v36
  unfold pre_29
  iintro ⟨#HIR, #Hlev, Hat48, Hc48, Hxl, HO, Hout⟩
  icases HIR with ⟨HInv, HRch⟩
  unfold flatInv flatReached
  icases HInv with ⟨HIb, HIby, HIbx, HIbz, HI2, HI3, HI4, HI5, HI6, HI7, HI8, HI9, HI10, HI11, HI12, HI13, HI14, HI15, HI16, HI17, HI18, HI19, HI20, HI21, HI22, HI23, HI24, HI25, HI26, HI27, HI28, HI29, HI30, HI31, HI32, HI33, HI34, HI35, HI36, HI37, HI38, HI39, HI40, HI41, HI42, HI43, HI44, HI45, HI46, HI47, HI48, HI49, HI50, HI51, HI52, HI53, HI54, HI55, HI56, HI57, HI58, HI59, HI60, HI61, HI62, HI63, HI64, HI65, HIy10, HIy11, HIy12, HIy13, HIy14, HIy15, HIy16, HIy17, HIy63, HIy64, HIy65, HIx26, HIx27, HIx28, HIx29, HIx30, HIx31, HIx32, HIx33, HIx55, HIx56, HIx57, HIz42, HIz43, HIz44, HIz45, HIz46, HIz47, HIz48, HIz49, HIz58, HIz59⟩
  icases HRch with ⟨HRby, HRbx, HRbz, HR2, HR3, HR4, HR5, HR6, HR7, HR8, HR9, HR10, HR11, HR12, HR13, HR14, HR15, HR16, HR17, HR18, HR19, HR20, HR21, HR22, HR23, HR24, HR25, HR26, HR27, HR28, HR29, HR30, HR31, HR32, HR33, HR34, HR35, HR36, HR37, HR38, HR39, HR40, HR41, HR42, HR43, HR44, HR45, HR46, HR47, HR48, HR49, HR50, HR51, HR52, HR53, HR54, HR55, HR56, HR57, HR58, HR59, HR60, HR61, HR62, HR63, HR64, HR65, HRy10, HRy11, HRy12, HRy13, HRy14, HRy15, HRy16, HRy17, HRy63, HRy64, HRy65, HRx26, HRx27, HRx28, HRx29, HRx30, HRx31, HRx32, HRx33, HRx55, HRx56, HRx57, HRz42, HRz43, HRz44, HRz45, HRz46, HRz47, HRz48, HRz49, HRz58, HRz59⟩
  rw [k0_part29_eq_skeleton]; unfold k0_part29_skel
  have hmw48 := mw_zr_6 (F := F) c
  sl_exec (disch := simp only [sl_canon])
  imod (Rounds.cell_close ER (Rd m) (Set.mem_univ (K (c, ⟨46, by decide⟩))) (fun h => h) (R := 0 + 1) (duties_later m (dcell c ⟨48, by decide⟩))) $$ [Hat48] with Hz48
  · isplitr; · iexact HI48
    iexact Hat48
  sl_step
  unfold post_29 ret_29
  sl_close

set_option maxHeartbeats 4000000 in
theorem exec_part30 : Spec_30 m := by
  intro K c W o v2 v5 v23 v28 v36
  unfold pre_30
  iintro ⟨#HIR, #Hlev, Hat32, Hc32, Ht53, Htp58, HpdB6, Hxl, HO, Hout⟩
  icases HIR with ⟨HInv, HRch⟩
  unfold flatInv flatReached
  icases HInv with ⟨HIb, HIby, HIbx, HIbz, HI2, HI3, HI4, HI5, HI6, HI7, HI8, HI9, HI10, HI11, HI12, HI13, HI14, HI15, HI16, HI17, HI18, HI19, HI20, HI21, HI22, HI23, HI24, HI25, HI26, HI27, HI28, HI29, HI30, HI31, HI32, HI33, HI34, HI35, HI36, HI37, HI38, HI39, HI40, HI41, HI42, HI43, HI44, HI45, HI46, HI47, HI48, HI49, HI50, HI51, HI52, HI53, HI54, HI55, HI56, HI57, HI58, HI59, HI60, HI61, HI62, HI63, HI64, HI65, HIy10, HIy11, HIy12, HIy13, HIy14, HIy15, HIy16, HIy17, HIy63, HIy64, HIy65, HIx26, HIx27, HIx28, HIx29, HIx30, HIx31, HIx32, HIx33, HIx55, HIx56, HIx57, HIz42, HIz43, HIz44, HIz45, HIz46, HIz47, HIz48, HIz49, HIz58, HIz59⟩
  icases HRch with ⟨HRby, HRbx, HRbz, HR2, HR3, HR4, HR5, HR6, HR7, HR8, HR9, HR10, HR11, HR12, HR13, HR14, HR15, HR16, HR17, HR18, HR19, HR20, HR21, HR22, HR23, HR24, HR25, HR26, HR27, HR28, HR29, HR30, HR31, HR32, HR33, HR34, HR35, HR36, HR37, HR38, HR39, HR40, HR41, HR42, HR43, HR44, HR45, HR46, HR47, HR48, HR49, HR50, HR51, HR52, HR53, HR54, HR55, HR56, HR57, HR58, HR59, HR60, HR61, HR62, HR63, HR64, HR65, HRy10, HRy11, HRy12, HRy13, HRy14, HRy15, HRy16, HRy17, HRy63, HRy64, HRy65, HRx26, HRx27, HRx28, HRx29, HRx30, HRx31, HRx32, HRx33, HRx55, HRx56, HRx57, HRz42, HRz43, HRz44, HRz45, HRz46, HRz47, HRz48, HRz49, HRz58, HRz59⟩
  rw [k0_part30_eq_skeleton]; unfold k0_part30_skel
  have hmw32 := mw_xr_6 (F := F) c
  sl_exec (disch := simp only [sl_canon])
  ihave Hs := (split2 xB 6 c (Xch m c 6)) $$ Hat32_pay1
  icases Hs with ⟨HqA, HL⟩
  icases HpdB6 with ⟨%g, Hp⟩
  iapply (wp_sendFZ m K c 0 (pz c) rfl g (insert (SemLoc.dma ⟨32, by decide⟩, ()) W) (0 + tallyAt (dcell (pz c) ⟨59, by decide⟩) () N)) $$ [HqA Hp HO Ht53 Htp58]
  · isplitr; · iexact HI53
    isplitr; · iexact HIz58
    isplitl [HqA]; · iexact HqA
    isplitl [Hp]; · iexact Hp
    isplitl [HO]; · iexact HO
    isplitl [Ht53]; · iexact Ht53
    isplitr; · iexact HR53
    isplitl [Htp58]; · iexact Htp58
    iexact HRz58
  iintro ⟨Hcred, HO⟩
  sl_exec (disch := simp only [sl_canon])
  imod (Rounds.cell_close ER (Rd m) (Set.mem_univ (K (c, ⟨30, by decide⟩))) (fun h => h) (R := 0 + 1) (duties_later m (dcell c ⟨32, by decide⟩))) $$ [Hat32] with Hz32
  · isplitr; · iexact HI32
    iexact Hat32
  sl_step
  unfold post_30 ret_30
  sl_close

set_option maxHeartbeats 4000000 in
theorem exec_part31 : Spec_31 m := by
  intro K c W o v2 v5 v8 v20 v31 v36
  unfold pre_31
  iintro ⟨#HIR, #Hlev, Hat49, Hc49, Hxl, Hat33, Hc33, HO, Hout⟩
  icases HIR with ⟨HInv, HRch⟩
  unfold flatInv flatReached
  icases HInv with ⟨HIb, HIby, HIbx, HIbz, HI2, HI3, HI4, HI5, HI6, HI7, HI8, HI9, HI10, HI11, HI12, HI13, HI14, HI15, HI16, HI17, HI18, HI19, HI20, HI21, HI22, HI23, HI24, HI25, HI26, HI27, HI28, HI29, HI30, HI31, HI32, HI33, HI34, HI35, HI36, HI37, HI38, HI39, HI40, HI41, HI42, HI43, HI44, HI45, HI46, HI47, HI48, HI49, HI50, HI51, HI52, HI53, HI54, HI55, HI56, HI57, HI58, HI59, HI60, HI61, HI62, HI63, HI64, HI65, HIy10, HIy11, HIy12, HIy13, HIy14, HIy15, HIy16, HIy17, HIy63, HIy64, HIy65, HIx26, HIx27, HIx28, HIx29, HIx30, HIx31, HIx32, HIx33, HIx55, HIx56, HIx57, HIz42, HIz43, HIz44, HIz45, HIz46, HIz47, HIz48, HIz49, HIz58, HIz59⟩
  icases HRch with ⟨HRby, HRbx, HRbz, HR2, HR3, HR4, HR5, HR6, HR7, HR8, HR9, HR10, HR11, HR12, HR13, HR14, HR15, HR16, HR17, HR18, HR19, HR20, HR21, HR22, HR23, HR24, HR25, HR26, HR27, HR28, HR29, HR30, HR31, HR32, HR33, HR34, HR35, HR36, HR37, HR38, HR39, HR40, HR41, HR42, HR43, HR44, HR45, HR46, HR47, HR48, HR49, HR50, HR51, HR52, HR53, HR54, HR55, HR56, HR57, HR58, HR59, HR60, HR61, HR62, HR63, HR64, HR65, HRy10, HRy11, HRy12, HRy13, HRy14, HRy15, HRy16, HRy17, HRy63, HRy64, HRy65, HRx26, HRx27, HRx28, HRx29, HRx30, HRx31, HRx32, HRx33, HRx55, HRx56, HRx57, HRz42, HRz43, HRz44, HRz45, HRz46, HRz47, HRz48, HRz49, HRz58, HRz59⟩
  rw [k0_part31_eq_skeleton]; unfold k0_part31_skel
  have hmw49 := mw_zr_7 (F := F) c
  have hmw33 := mw_xr_7 (F := F) c
  sl_exec (disch := simp only [sl_canon])
  ihave Hs := (split2 xB 7 c (Xch m c 7)) $$ Hat33_pay1
  icases Hs with ⟨HqA, HL⟩
  imod (Rounds.cell_close ER (Rd m) (Set.mem_univ (K (c, ⟨47, by decide⟩))) (fun h => h) (R := 0 + 1) (duties_later m (dcell c ⟨49, by decide⟩))) $$ [Hat49] with Hz49
  · isplitr; · iexact HI49
    iexact Hat49
  imod (Rounds.cell_close ER (Rd m) (Set.mem_univ (K (c, ⟨31, by decide⟩))) (fun h => h) (R := 0 + 1) (duties_later m (dcell c ⟨33, by decide⟩))) $$ [Hat33] with Hz33
  · isplitr; · iexact HI33
    iexact Hat33
  sl_step
  unfold post_31 ret_31
  sl_close

set_option maxHeartbeats 4000000 in
theorem exec_part32 : Spec_32 m := by
  intro K c W o v2 v8 v19 v23 v28 v35 v36 v990
  unfold pre_32
  iintro ⟨#HIR, #Hlev, HxA7, Ht54, Htp59, HpdB7, Hxl, HxL7, Hat63, Hc63, HO, Hout⟩
  icases HIR with ⟨HInv, HRch⟩
  unfold flatInv flatReached
  icases HInv with ⟨HIb, HIby, HIbx, HIbz, HI2, HI3, HI4, HI5, HI6, HI7, HI8, HI9, HI10, HI11, HI12, HI13, HI14, HI15, HI16, HI17, HI18, HI19, HI20, HI21, HI22, HI23, HI24, HI25, HI26, HI27, HI28, HI29, HI30, HI31, HI32, HI33, HI34, HI35, HI36, HI37, HI38, HI39, HI40, HI41, HI42, HI43, HI44, HI45, HI46, HI47, HI48, HI49, HI50, HI51, HI52, HI53, HI54, HI55, HI56, HI57, HI58, HI59, HI60, HI61, HI62, HI63, HI64, HI65, HIy10, HIy11, HIy12, HIy13, HIy14, HIy15, HIy16, HIy17, HIy63, HIy64, HIy65, HIx26, HIx27, HIx28, HIx29, HIx30, HIx31, HIx32, HIx33, HIx55, HIx56, HIx57, HIz42, HIz43, HIz44, HIz45, HIz46, HIz47, HIz48, HIz49, HIz58, HIz59⟩
  icases HRch with ⟨HRby, HRbx, HRbz, HR2, HR3, HR4, HR5, HR6, HR7, HR8, HR9, HR10, HR11, HR12, HR13, HR14, HR15, HR16, HR17, HR18, HR19, HR20, HR21, HR22, HR23, HR24, HR25, HR26, HR27, HR28, HR29, HR30, HR31, HR32, HR33, HR34, HR35, HR36, HR37, HR38, HR39, HR40, HR41, HR42, HR43, HR44, HR45, HR46, HR47, HR48, HR49, HR50, HR51, HR52, HR53, HR54, HR55, HR56, HR57, HR58, HR59, HR60, HR61, HR62, HR63, HR64, HR65, HRy10, HRy11, HRy12, HRy13, HRy14, HRy15, HRy16, HRy17, HRy63, HRy64, HRy65, HRx26, HRx27, HRx28, HRx29, HRx30, HRx31, HRx32, HRx33, HRx55, HRx56, HRx57, HRz42, HRz43, HRz44, HRz45, HRz46, HRz47, HRz48, HRz49, HRz58, HRz59⟩
  rw [k0_part32_eq_skeleton]; unfold k0_part32_skel
  sl_exec (disch := simp only [sl_canon])
  icases HpdB7 with ⟨%g, Hp⟩
  iapply (wp_sendFZ m K c 1 (pz c) rfl g W 0) $$ [HxA7 Hp HO Ht54 Htp59]
  · isplitr; · iexact HI54
    isplitr; · iexact HIz59
    isplitl [HxA7]; · iexact HxA7
    isplitl [Hp]; · iexact Hp
    isplitl [HO]; · iexact HO
    isplitl [Ht54]; · iexact Ht54
    isplitr; · iexact HR54
    isplitl [Htp59]; · iexact Htp59
    iexact HRz59
  iintro ⟨Hcred, HO⟩
  sl_exec (disch := simp only [sl_canon])
  imod (Rounds.cell_close ER (Rd m) (Set.mem_univ (K (c, ⟨61, by decide⟩))) (fun h => h) (R := 0 + 1) (duties_later m (dcell c ⟨63, by decide⟩))) $$ [Hat63] with Hz63
  · isplitr; · iexact HI63
    iexact Hat63
  sl_step
  unfold post_32 ret_32
  sl_close

set_option maxHeartbeats 4000000 in
theorem exec_part33 : Spec_33 m := by
  intro K c W o v2 v8 v19 v35 v36 v1023
  unfold pre_33
  iintro ⟨#HIR, #Hlev, Hxl, HdL0, Hat64, Hc64, HO, Hout⟩
  icases HIR with ⟨HInv, HRch⟩
  unfold flatInv flatReached
  icases HInv with ⟨HIb, HIby, HIbx, HIbz, HI2, HI3, HI4, HI5, HI6, HI7, HI8, HI9, HI10, HI11, HI12, HI13, HI14, HI15, HI16, HI17, HI18, HI19, HI20, HI21, HI22, HI23, HI24, HI25, HI26, HI27, HI28, HI29, HI30, HI31, HI32, HI33, HI34, HI35, HI36, HI37, HI38, HI39, HI40, HI41, HI42, HI43, HI44, HI45, HI46, HI47, HI48, HI49, HI50, HI51, HI52, HI53, HI54, HI55, HI56, HI57, HI58, HI59, HI60, HI61, HI62, HI63, HI64, HI65, HIy10, HIy11, HIy12, HIy13, HIy14, HIy15, HIy16, HIy17, HIy63, HIy64, HIy65, HIx26, HIx27, HIx28, HIx29, HIx30, HIx31, HIx32, HIx33, HIx55, HIx56, HIx57, HIz42, HIz43, HIz44, HIz45, HIz46, HIz47, HIz48, HIz49, HIz58, HIz59⟩
  icases HRch with ⟨HRby, HRbx, HRbz, HR2, HR3, HR4, HR5, HR6, HR7, HR8, HR9, HR10, HR11, HR12, HR13, HR14, HR15, HR16, HR17, HR18, HR19, HR20, HR21, HR22, HR23, HR24, HR25, HR26, HR27, HR28, HR29, HR30, HR31, HR32, HR33, HR34, HR35, HR36, HR37, HR38, HR39, HR40, HR41, HR42, HR43, HR44, HR45, HR46, HR47, HR48, HR49, HR50, HR51, HR52, HR53, HR54, HR55, HR56, HR57, HR58, HR59, HR60, HR61, HR62, HR63, HR64, HR65, HRy10, HRy11, HRy12, HRy13, HRy14, HRy15, HRy16, HRy17, HRy63, HRy64, HRy65, HRx26, HRx27, HRx28, HRx29, HRx30, HRx31, HRx32, HRx33, HRx55, HRx56, HRx57, HRz42, HRz43, HRz44, HRz45, HRz46, HRz47, HRz48, HRz49, HRz58, HRz59⟩
  rw [k0_part33_eq_skeleton]; unfold k0_part33_skel
  sl_exec (disch := simp only [sl_canon])
  imod (Rounds.cell_close ER (Rd m) (Set.mem_univ (K (c, ⟨62, by decide⟩))) (fun h => h) (R := 0 + 1) (duties_later m (dcell c ⟨64, by decide⟩))) $$ [Hat64] with Hz64
  · isplitr; · iexact HI64
    iexact Hat64
  sl_step
  unfold post_33 ret_33
  sl_close

set_option maxHeartbeats 4000000 in
theorem exec_part34 : Spec_34 m := by
  intro K c W o v2 v5 v8 v19 v20 v35 v36
  unfold pre_34
  iintro ⟨#HIR, #Hlev, Hat65, Hc65, Hxl, HO, Hout⟩
  icases HIR with ⟨HInv, HRch⟩
  unfold flatInv flatReached
  icases HInv with ⟨HIb, HIby, HIbx, HIbz, HI2, HI3, HI4, HI5, HI6, HI7, HI8, HI9, HI10, HI11, HI12, HI13, HI14, HI15, HI16, HI17, HI18, HI19, HI20, HI21, HI22, HI23, HI24, HI25, HI26, HI27, HI28, HI29, HI30, HI31, HI32, HI33, HI34, HI35, HI36, HI37, HI38, HI39, HI40, HI41, HI42, HI43, HI44, HI45, HI46, HI47, HI48, HI49, HI50, HI51, HI52, HI53, HI54, HI55, HI56, HI57, HI58, HI59, HI60, HI61, HI62, HI63, HI64, HI65, HIy10, HIy11, HIy12, HIy13, HIy14, HIy15, HIy16, HIy17, HIy63, HIy64, HIy65, HIx26, HIx27, HIx28, HIx29, HIx30, HIx31, HIx32, HIx33, HIx55, HIx56, HIx57, HIz42, HIz43, HIz44, HIz45, HIz46, HIz47, HIz48, HIz49, HIz58, HIz59⟩
  icases HRch with ⟨HRby, HRbx, HRbz, HR2, HR3, HR4, HR5, HR6, HR7, HR8, HR9, HR10, HR11, HR12, HR13, HR14, HR15, HR16, HR17, HR18, HR19, HR20, HR21, HR22, HR23, HR24, HR25, HR26, HR27, HR28, HR29, HR30, HR31, HR32, HR33, HR34, HR35, HR36, HR37, HR38, HR39, HR40, HR41, HR42, HR43, HR44, HR45, HR46, HR47, HR48, HR49, HR50, HR51, HR52, HR53, HR54, HR55, HR56, HR57, HR58, HR59, HR60, HR61, HR62, HR63, HR64, HR65, HRy10, HRy11, HRy12, HRy13, HRy14, HRy15, HRy16, HRy17, HRy63, HRy64, HRy65, HRx26, HRx27, HRx28, HRx29, HRx30, HRx31, HRx32, HRx33, HRx55, HRx56, HRx57, HRz42, HRz43, HRz44, HRz45, HRz46, HRz47, HRz48, HRz49, HRz58, HRz59⟩
  rw [k0_part34_eq_skeleton]; unfold k0_part34_skel
  sl_exec (disch := simp only [sl_canon])
  imod (Rounds.cell_close ER (Rd m) (Set.mem_univ (K (c, ⟨63, by decide⟩))) (fun h => h) (R := 0 + 1) (duties_later m (dcell c ⟨65, by decide⟩))) $$ [Hat65] with Hz65
  · isplitr; · iexact HI65
    iexact Hat65
  sl_step
  unfold post_34 ret_34
  sl_close

set_option maxHeartbeats 4000000 in
theorem exec_part35 : Spec_35 m := by
  intro K c W o v5 v8 v20 v35 v36
  unfold pre_35
  iintro ⟨#HIR, #Hlev, Hat55, Hc55, Hxl, Hat56, Hc56, HO, Hout⟩
  icases HIR with ⟨HInv, HRch⟩
  unfold flatInv flatReached
  icases HInv with ⟨HIb, HIby, HIbx, HIbz, HI2, HI3, HI4, HI5, HI6, HI7, HI8, HI9, HI10, HI11, HI12, HI13, HI14, HI15, HI16, HI17, HI18, HI19, HI20, HI21, HI22, HI23, HI24, HI25, HI26, HI27, HI28, HI29, HI30, HI31, HI32, HI33, HI34, HI35, HI36, HI37, HI38, HI39, HI40, HI41, HI42, HI43, HI44, HI45, HI46, HI47, HI48, HI49, HI50, HI51, HI52, HI53, HI54, HI55, HI56, HI57, HI58, HI59, HI60, HI61, HI62, HI63, HI64, HI65, HIy10, HIy11, HIy12, HIy13, HIy14, HIy15, HIy16, HIy17, HIy63, HIy64, HIy65, HIx26, HIx27, HIx28, HIx29, HIx30, HIx31, HIx32, HIx33, HIx55, HIx56, HIx57, HIz42, HIz43, HIz44, HIz45, HIz46, HIz47, HIz48, HIz49, HIz58, HIz59⟩
  icases HRch with ⟨HRby, HRbx, HRbz, HR2, HR3, HR4, HR5, HR6, HR7, HR8, HR9, HR10, HR11, HR12, HR13, HR14, HR15, HR16, HR17, HR18, HR19, HR20, HR21, HR22, HR23, HR24, HR25, HR26, HR27, HR28, HR29, HR30, HR31, HR32, HR33, HR34, HR35, HR36, HR37, HR38, HR39, HR40, HR41, HR42, HR43, HR44, HR45, HR46, HR47, HR48, HR49, HR50, HR51, HR52, HR53, HR54, HR55, HR56, HR57, HR58, HR59, HR60, HR61, HR62, HR63, HR64, HR65, HRy10, HRy11, HRy12, HRy13, HRy14, HRy15, HRy16, HRy17, HRy63, HRy64, HRy65, HRx26, HRx27, HRx28, HRx29, HRx30, HRx31, HRx32, HRx33, HRx55, HRx56, HRx57, HRz42, HRz43, HRz44, HRz45, HRz46, HRz47, HRz48, HRz49, HRz58, HRz59⟩
  rw [k0_part35_eq_skeleton]; unfold k0_part35_skel
  sl_exec (disch := simp only [sl_canon])
  imod (Rounds.cell_close ER (Rd m) (Set.mem_univ (K (c, ⟨53, by decide⟩))) (fun h => h) (R := 0 + 1) (duties_later m (dcell c ⟨55, by decide⟩))) $$ [Hat55] with Hz55
  · isplitr; · iexact HI55
    iexact Hat55
  imod (Rounds.cell_close ER (Rd m) (Set.mem_univ (K (c, ⟨54, by decide⟩))) (fun h => h) (R := 0 + 1) (duties_later m (dcell c ⟨56, by decide⟩))) $$ [Hat56] with Hz56
  · isplitr; · iexact HI56
    iexact Hat56
  sl_step
  unfold post_35 ret_35
  sl_close

set_option maxHeartbeats 4000000 in
theorem exec_part36 : Spec_36 m := by
  intro K c W o v5 v8 v20 v35 v36 v1120 c128_i32_857
  unfold pre_36
  iintro ⟨#HIR, #Hlev, Hat57, Hc57, Hxl, HO, Hout⟩
  icases HIR with ⟨HInv, HRch⟩
  unfold flatInv flatReached
  icases HInv with ⟨HIb, HIby, HIbx, HIbz, HI2, HI3, HI4, HI5, HI6, HI7, HI8, HI9, HI10, HI11, HI12, HI13, HI14, HI15, HI16, HI17, HI18, HI19, HI20, HI21, HI22, HI23, HI24, HI25, HI26, HI27, HI28, HI29, HI30, HI31, HI32, HI33, HI34, HI35, HI36, HI37, HI38, HI39, HI40, HI41, HI42, HI43, HI44, HI45, HI46, HI47, HI48, HI49, HI50, HI51, HI52, HI53, HI54, HI55, HI56, HI57, HI58, HI59, HI60, HI61, HI62, HI63, HI64, HI65, HIy10, HIy11, HIy12, HIy13, HIy14, HIy15, HIy16, HIy17, HIy63, HIy64, HIy65, HIx26, HIx27, HIx28, HIx29, HIx30, HIx31, HIx32, HIx33, HIx55, HIx56, HIx57, HIz42, HIz43, HIz44, HIz45, HIz46, HIz47, HIz48, HIz49, HIz58, HIz59⟩
  icases HRch with ⟨HRby, HRbx, HRbz, HR2, HR3, HR4, HR5, HR6, HR7, HR8, HR9, HR10, HR11, HR12, HR13, HR14, HR15, HR16, HR17, HR18, HR19, HR20, HR21, HR22, HR23, HR24, HR25, HR26, HR27, HR28, HR29, HR30, HR31, HR32, HR33, HR34, HR35, HR36, HR37, HR38, HR39, HR40, HR41, HR42, HR43, HR44, HR45, HR46, HR47, HR48, HR49, HR50, HR51, HR52, HR53, HR54, HR55, HR56, HR57, HR58, HR59, HR60, HR61, HR62, HR63, HR64, HR65, HRy10, HRy11, HRy12, HRy13, HRy14, HRy15, HRy16, HRy17, HRy63, HRy64, HRy65, HRx26, HRx27, HRx28, HRx29, HRx30, HRx31, HRx32, HRx33, HRx55, HRx56, HRx57, HRz42, HRz43, HRz44, HRz45, HRz46, HRz47, HRz48, HRz49, HRz58, HRz59⟩
  rw [k0_part36_eq_skeleton]; unfold k0_part36_skel
  sl_exec (disch := simp only [sl_canon])
  imod (Rounds.cell_close ER (Rd m) (Set.mem_univ (K (c, ⟨55, by decide⟩))) (fun h => h) (R := 0 + 1) (duties_later m (dcell c ⟨57, by decide⟩))) $$ [Hat57] with Hz57
  · isplitr; · iexact HI57
    iexact Hat57
  sl_step
  unfold post_36 ret_36
  sl_close

set_option maxHeartbeats 4000000 in
theorem exec_part37 : Spec_37 m := by
  intro K c W o v5 v8 v20 v35 v36
  unfold pre_37
  iintro ⟨#HIR, #Hlev, Hat58, Hc58, Hxl, Hat59, Hc59, HO, Hout⟩
  icases HIR with ⟨HInv, HRch⟩
  unfold flatInv flatReached
  icases HInv with ⟨HIb, HIby, HIbx, HIbz, HI2, HI3, HI4, HI5, HI6, HI7, HI8, HI9, HI10, HI11, HI12, HI13, HI14, HI15, HI16, HI17, HI18, HI19, HI20, HI21, HI22, HI23, HI24, HI25, HI26, HI27, HI28, HI29, HI30, HI31, HI32, HI33, HI34, HI35, HI36, HI37, HI38, HI39, HI40, HI41, HI42, HI43, HI44, HI45, HI46, HI47, HI48, HI49, HI50, HI51, HI52, HI53, HI54, HI55, HI56, HI57, HI58, HI59, HI60, HI61, HI62, HI63, HI64, HI65, HIy10, HIy11, HIy12, HIy13, HIy14, HIy15, HIy16, HIy17, HIy63, HIy64, HIy65, HIx26, HIx27, HIx28, HIx29, HIx30, HIx31, HIx32, HIx33, HIx55, HIx56, HIx57, HIz42, HIz43, HIz44, HIz45, HIz46, HIz47, HIz48, HIz49, HIz58, HIz59⟩
  icases HRch with ⟨HRby, HRbx, HRbz, HR2, HR3, HR4, HR5, HR6, HR7, HR8, HR9, HR10, HR11, HR12, HR13, HR14, HR15, HR16, HR17, HR18, HR19, HR20, HR21, HR22, HR23, HR24, HR25, HR26, HR27, HR28, HR29, HR30, HR31, HR32, HR33, HR34, HR35, HR36, HR37, HR38, HR39, HR40, HR41, HR42, HR43, HR44, HR45, HR46, HR47, HR48, HR49, HR50, HR51, HR52, HR53, HR54, HR55, HR56, HR57, HR58, HR59, HR60, HR61, HR62, HR63, HR64, HR65, HRy10, HRy11, HRy12, HRy13, HRy14, HRy15, HRy16, HRy17, HRy63, HRy64, HRy65, HRx26, HRx27, HRx28, HRx29, HRx30, HRx31, HRx32, HRx33, HRx55, HRx56, HRx57, HRz42, HRz43, HRz44, HRz45, HRz46, HRz47, HRz48, HRz49, HRz58, HRz59⟩
  rw [k0_part37_eq_skeleton]; unfold k0_part37_skel
  sl_exec (disch := simp only [sl_canon])
  imod (Rounds.cell_close ER (Rd m) (Set.mem_univ (K (c, ⟨56, by decide⟩))) (fun h => h) (R := 0 + 1) (duties_later m (dcell c ⟨58, by decide⟩))) $$ [Hat58] with Hz58
  · isplitr; · iexact HI58
    iexact Hat58
  imod (Rounds.cell_close ER (Rd m) (Set.mem_univ (K (c, ⟨57, by decide⟩))) (fun h => h) (R := 0 + 1) (duties_later m (dcell c ⟨59, by decide⟩))) $$ [Hat59] with Hz59
  · isplitr; · iexact HI59
    iexact Hat59
  sl_step
  unfold post_37 ret_37
  sl_close

set_option maxHeartbeats 4000000 in
theorem exec_part38 : Spec_38 m := by
  intro K c W o v35
  unfold pre_38
  iintro ⟨#HIR, #Hlev, HdL7, Hat2, Hc2, Hat3, Hc3, Hat4, Hc4, Hat5, Hc5, HO, Hout⟩
  icases HIR with ⟨HInv, HRch⟩
  unfold flatInv flatReached
  icases HInv with ⟨HIb, HIby, HIbx, HIbz, HI2, HI3, HI4, HI5, HI6, HI7, HI8, HI9, HI10, HI11, HI12, HI13, HI14, HI15, HI16, HI17, HI18, HI19, HI20, HI21, HI22, HI23, HI24, HI25, HI26, HI27, HI28, HI29, HI30, HI31, HI32, HI33, HI34, HI35, HI36, HI37, HI38, HI39, HI40, HI41, HI42, HI43, HI44, HI45, HI46, HI47, HI48, HI49, HI50, HI51, HI52, HI53, HI54, HI55, HI56, HI57, HI58, HI59, HI60, HI61, HI62, HI63, HI64, HI65, HIy10, HIy11, HIy12, HIy13, HIy14, HIy15, HIy16, HIy17, HIy63, HIy64, HIy65, HIx26, HIx27, HIx28, HIx29, HIx30, HIx31, HIx32, HIx33, HIx55, HIx56, HIx57, HIz42, HIz43, HIz44, HIz45, HIz46, HIz47, HIz48, HIz49, HIz58, HIz59⟩
  icases HRch with ⟨HRby, HRbx, HRbz, HR2, HR3, HR4, HR5, HR6, HR7, HR8, HR9, HR10, HR11, HR12, HR13, HR14, HR15, HR16, HR17, HR18, HR19, HR20, HR21, HR22, HR23, HR24, HR25, HR26, HR27, HR28, HR29, HR30, HR31, HR32, HR33, HR34, HR35, HR36, HR37, HR38, HR39, HR40, HR41, HR42, HR43, HR44, HR45, HR46, HR47, HR48, HR49, HR50, HR51, HR52, HR53, HR54, HR55, HR56, HR57, HR58, HR59, HR60, HR61, HR62, HR63, HR64, HR65, HRy10, HRy11, HRy12, HRy13, HRy14, HRy15, HRy16, HRy17, HRy63, HRy64, HRy65, HRx26, HRx27, HRx28, HRx29, HRx30, HRx31, HRx32, HRx33, HRx55, HRx56, HRx57, HRz42, HRz43, HRz44, HRz45, HRz46, HRz47, HRz48, HRz49, HRz58, HRz59⟩
  rw [k0_part38_eq_skeleton]; unfold k0_part38_skel
  sl_exec (disch := simp only [sl_canon])
  imod (Rounds.cell_close ER (Rd m) (Set.mem_univ (K (c, ⟨0, by decide⟩))) (fun h => h) (R := 0 + 1) (duties_later m (dcell c ⟨2, by decide⟩))) $$ [Hat2] with Hz2
  · isplitr; · iexact HI2
    iexact Hat2
  imod (Rounds.cell_close ER (Rd m) (Set.mem_univ (K (c, ⟨1, by decide⟩))) (fun h => h) (R := 0 + 1) (duties_later m (dcell c ⟨3, by decide⟩))) $$ [Hat3] with Hz3
  · isplitr; · iexact HI3
    iexact Hat3
  imod (Rounds.cell_close ER (Rd m) (Set.mem_univ (K (c, ⟨2, by decide⟩))) (fun h => h) (R := 0 + 1) (duties_later m (dcell c ⟨4, by decide⟩))) $$ [Hat4] with Hz4
  · isplitr; · iexact HI4
    iexact Hat4
  imod (Rounds.cell_close ER (Rd m) (Set.mem_univ (K (c, ⟨3, by decide⟩))) (fun h => h) (R := 0 + 1) (duties_later m (dcell c ⟨5, by decide⟩))) $$ [Hat5] with Hz5
  · isplitr; · iexact HI5
    iexact Hat5
  sl_step
  unfold post_38 ret_38
  sl_close

set_option maxHeartbeats 4000000 in
theorem exec_part39 : Spec_39 m := by
  intro K c W o
  unfold pre_39
  iintro ⟨#HIR, #Hlev, Hat6, Hc6, Hat7, Hc7, Hat8, Hc8, Hat9, Hc9, Hat60, Hc60, HO⟩
  icases HIR with ⟨HInv, HRch⟩
  unfold flatInv flatReached
  icases HInv with ⟨HIb, HIby, HIbx, HIbz, HI2, HI3, HI4, HI5, HI6, HI7, HI8, HI9, HI10, HI11, HI12, HI13, HI14, HI15, HI16, HI17, HI18, HI19, HI20, HI21, HI22, HI23, HI24, HI25, HI26, HI27, HI28, HI29, HI30, HI31, HI32, HI33, HI34, HI35, HI36, HI37, HI38, HI39, HI40, HI41, HI42, HI43, HI44, HI45, HI46, HI47, HI48, HI49, HI50, HI51, HI52, HI53, HI54, HI55, HI56, HI57, HI58, HI59, HI60, HI61, HI62, HI63, HI64, HI65, HIy10, HIy11, HIy12, HIy13, HIy14, HIy15, HIy16, HIy17, HIy63, HIy64, HIy65, HIx26, HIx27, HIx28, HIx29, HIx30, HIx31, HIx32, HIx33, HIx55, HIx56, HIx57, HIz42, HIz43, HIz44, HIz45, HIz46, HIz47, HIz48, HIz49, HIz58, HIz59⟩
  icases HRch with ⟨HRby, HRbx, HRbz, HR2, HR3, HR4, HR5, HR6, HR7, HR8, HR9, HR10, HR11, HR12, HR13, HR14, HR15, HR16, HR17, HR18, HR19, HR20, HR21, HR22, HR23, HR24, HR25, HR26, HR27, HR28, HR29, HR30, HR31, HR32, HR33, HR34, HR35, HR36, HR37, HR38, HR39, HR40, HR41, HR42, HR43, HR44, HR45, HR46, HR47, HR48, HR49, HR50, HR51, HR52, HR53, HR54, HR55, HR56, HR57, HR58, HR59, HR60, HR61, HR62, HR63, HR64, HR65, HRy10, HRy11, HRy12, HRy13, HRy14, HRy15, HRy16, HRy17, HRy63, HRy64, HRy65, HRx26, HRx27, HRx28, HRx29, HRx30, HRx31, HRx32, HRx33, HRx55, HRx56, HRx57, HRz42, HRz43, HRz44, HRz45, HRz46, HRz47, HRz48, HRz49, HRz58, HRz59⟩
  rw [k0_part39_eq_skeleton]; unfold k0_part39_skel
  sl_exec (disch := simp only [sl_canon])
  imod (Rounds.cell_close ER (Rd m) (Set.mem_univ (K (c, ⟨4, by decide⟩))) (fun h => h) (R := 0 + 1) (duties_later m (dcell c ⟨6, by decide⟩))) $$ [Hat6] with Hz6
  · isplitr; · iexact HI6
    iexact Hat6
  imod (Rounds.cell_close ER (Rd m) (Set.mem_univ (K (c, ⟨5, by decide⟩))) (fun h => h) (R := 0 + 1) (duties_later m (dcell c ⟨7, by decide⟩))) $$ [Hat7] with Hz7
  · isplitr; · iexact HI7
    iexact Hat7
  imod (Rounds.cell_close ER (Rd m) (Set.mem_univ (K (c, ⟨6, by decide⟩))) (fun h => h) (R := 0 + 1) (duties_later m (dcell c ⟨8, by decide⟩))) $$ [Hat8] with Hz8
  · isplitr; · iexact HI8
    iexact Hat8
  imod (Rounds.cell_close ER (Rd m) (Set.mem_univ (K (c, ⟨7, by decide⟩))) (fun h => h) (R := 0 + 1) (duties_later m (dcell c ⟨9, by decide⟩))) $$ [Hat9] with Hz9
  · isplitr; · iexact HI9
    iexact Hat9
  imod (Rounds.cell_close ER (Rd m) (Set.mem_univ (K (c, ⟨58, by decide⟩))) (fun h => h) (R := 0 + 1) (duties_later m (dcell c ⟨60, by decide⟩))) $$ [Hat60] with Hz60
  · isplitr; · iexact HI60
    iexact Hat60
  sl_step
  unfold post_39 ret_39
  sl_close

set_option maxHeartbeats 4000000 in
theorem exec_part40 : Spec_40 m := by
  intro K c W o
  unfold pre_40
  iintro ⟨#HIR, #Hlev, Hat61, Hc61, Hat62, Hc62, Hat18, Hc18, Hat19, Hc19, Hat20, Hc20, HO⟩
  icases HIR with ⟨HInv, HRch⟩
  unfold flatInv flatReached
  icases HInv with ⟨HIb, HIby, HIbx, HIbz, HI2, HI3, HI4, HI5, HI6, HI7, HI8, HI9, HI10, HI11, HI12, HI13, HI14, HI15, HI16, HI17, HI18, HI19, HI20, HI21, HI22, HI23, HI24, HI25, HI26, HI27, HI28, HI29, HI30, HI31, HI32, HI33, HI34, HI35, HI36, HI37, HI38, HI39, HI40, HI41, HI42, HI43, HI44, HI45, HI46, HI47, HI48, HI49, HI50, HI51, HI52, HI53, HI54, HI55, HI56, HI57, HI58, HI59, HI60, HI61, HI62, HI63, HI64, HI65, HIy10, HIy11, HIy12, HIy13, HIy14, HIy15, HIy16, HIy17, HIy63, HIy64, HIy65, HIx26, HIx27, HIx28, HIx29, HIx30, HIx31, HIx32, HIx33, HIx55, HIx56, HIx57, HIz42, HIz43, HIz44, HIz45, HIz46, HIz47, HIz48, HIz49, HIz58, HIz59⟩
  icases HRch with ⟨HRby, HRbx, HRbz, HR2, HR3, HR4, HR5, HR6, HR7, HR8, HR9, HR10, HR11, HR12, HR13, HR14, HR15, HR16, HR17, HR18, HR19, HR20, HR21, HR22, HR23, HR24, HR25, HR26, HR27, HR28, HR29, HR30, HR31, HR32, HR33, HR34, HR35, HR36, HR37, HR38, HR39, HR40, HR41, HR42, HR43, HR44, HR45, HR46, HR47, HR48, HR49, HR50, HR51, HR52, HR53, HR54, HR55, HR56, HR57, HR58, HR59, HR60, HR61, HR62, HR63, HR64, HR65, HRy10, HRy11, HRy12, HRy13, HRy14, HRy15, HRy16, HRy17, HRy63, HRy64, HRy65, HRx26, HRx27, HRx28, HRx29, HRx30, HRx31, HRx32, HRx33, HRx55, HRx56, HRx57, HRz42, HRz43, HRz44, HRz45, HRz46, HRz47, HRz48, HRz49, HRz58, HRz59⟩
  rw [k0_part40_eq_skeleton]; unfold k0_part40_skel
  sl_exec (disch := simp only [sl_canon])
  imod (Rounds.cell_close ER (Rd m) (Set.mem_univ (K (c, ⟨59, by decide⟩))) (fun h => h) (R := 0 + 1) (duties_later m (dcell c ⟨61, by decide⟩))) $$ [Hat61] with Hz61
  · isplitr; · iexact HI61
    iexact Hat61
  imod (Rounds.cell_close ER (Rd m) (Set.mem_univ (K (c, ⟨60, by decide⟩))) (fun h => h) (R := 0 + 1) (duties_later m (dcell c ⟨62, by decide⟩))) $$ [Hat62] with Hz62
  · isplitr; · iexact HI62
    iexact Hat62
  imod (Rounds.cell_close ER (Rd m) (Set.mem_univ (K (c, ⟨16, by decide⟩))) (fun h => h) (R := 0 + 1) (duties_later m (dcell c ⟨18, by decide⟩))) $$ [Hat18] with Hz18
  · isplitr; · iexact HI18
    iexact Hat18
  imod (Rounds.cell_close ER (Rd m) (Set.mem_univ (K (c, ⟨17, by decide⟩))) (fun h => h) (R := 0 + 1) (duties_later m (dcell c ⟨19, by decide⟩))) $$ [Hat19] with Hz19
  · isplitr; · iexact HI19
    iexact Hat19
  imod (Rounds.cell_close ER (Rd m) (Set.mem_univ (K (c, ⟨18, by decide⟩))) (fun h => h) (R := 0 + 1) (duties_later m (dcell c ⟨20, by decide⟩))) $$ [Hat20] with Hz20
  · isplitr; · iexact HI20
    iexact Hat20
  sl_step
  unfold post_40 ret_40
  sl_close

set_option maxHeartbeats 4000000 in
theorem exec_part41 : Spec_41 m := by
  intro K c W o
  unfold pre_41
  iintro ⟨#HIR, #Hlev, Hat21, Hc21, Hat22, Hc22, Hat23, Hc23, Hat24, Hc24, Hat25, Hc25, HO⟩
  icases HIR with ⟨HInv, HRch⟩
  unfold flatInv flatReached
  icases HInv with ⟨HIb, HIby, HIbx, HIbz, HI2, HI3, HI4, HI5, HI6, HI7, HI8, HI9, HI10, HI11, HI12, HI13, HI14, HI15, HI16, HI17, HI18, HI19, HI20, HI21, HI22, HI23, HI24, HI25, HI26, HI27, HI28, HI29, HI30, HI31, HI32, HI33, HI34, HI35, HI36, HI37, HI38, HI39, HI40, HI41, HI42, HI43, HI44, HI45, HI46, HI47, HI48, HI49, HI50, HI51, HI52, HI53, HI54, HI55, HI56, HI57, HI58, HI59, HI60, HI61, HI62, HI63, HI64, HI65, HIy10, HIy11, HIy12, HIy13, HIy14, HIy15, HIy16, HIy17, HIy63, HIy64, HIy65, HIx26, HIx27, HIx28, HIx29, HIx30, HIx31, HIx32, HIx33, HIx55, HIx56, HIx57, HIz42, HIz43, HIz44, HIz45, HIz46, HIz47, HIz48, HIz49, HIz58, HIz59⟩
  icases HRch with ⟨HRby, HRbx, HRbz, HR2, HR3, HR4, HR5, HR6, HR7, HR8, HR9, HR10, HR11, HR12, HR13, HR14, HR15, HR16, HR17, HR18, HR19, HR20, HR21, HR22, HR23, HR24, HR25, HR26, HR27, HR28, HR29, HR30, HR31, HR32, HR33, HR34, HR35, HR36, HR37, HR38, HR39, HR40, HR41, HR42, HR43, HR44, HR45, HR46, HR47, HR48, HR49, HR50, HR51, HR52, HR53, HR54, HR55, HR56, HR57, HR58, HR59, HR60, HR61, HR62, HR63, HR64, HR65, HRy10, HRy11, HRy12, HRy13, HRy14, HRy15, HRy16, HRy17, HRy63, HRy64, HRy65, HRx26, HRx27, HRx28, HRx29, HRx30, HRx31, HRx32, HRx33, HRx55, HRx56, HRx57, HRz42, HRz43, HRz44, HRz45, HRz46, HRz47, HRz48, HRz49, HRz58, HRz59⟩
  rw [k0_part41_eq_skeleton]; unfold k0_part41_skel
  sl_exec (disch := simp only [sl_canon])
  imod (Rounds.cell_close ER (Rd m) (Set.mem_univ (K (c, ⟨19, by decide⟩))) (fun h => h) (R := 0 + 1) (duties_later m (dcell c ⟨21, by decide⟩))) $$ [Hat21] with Hz21
  · isplitr; · iexact HI21
    iexact Hat21
  imod (Rounds.cell_close ER (Rd m) (Set.mem_univ (K (c, ⟨20, by decide⟩))) (fun h => h) (R := 0 + 1) (duties_later m (dcell c ⟨22, by decide⟩))) $$ [Hat22] with Hz22
  · isplitr; · iexact HI22
    iexact Hat22
  imod (Rounds.cell_close ER (Rd m) (Set.mem_univ (K (c, ⟨21, by decide⟩))) (fun h => h) (R := 0 + 1) (duties_later m (dcell c ⟨23, by decide⟩))) $$ [Hat23] with Hz23
  · isplitr; · iexact HI23
    iexact Hat23
  imod (Rounds.cell_close ER (Rd m) (Set.mem_univ (K (c, ⟨22, by decide⟩))) (fun h => h) (R := 0 + 1) (duties_later m (dcell c ⟨24, by decide⟩))) $$ [Hat24] with Hz24
  · isplitr; · iexact HI24
    iexact Hat24
  imod (Rounds.cell_close ER (Rd m) (Set.mem_univ (K (c, ⟨23, by decide⟩))) (fun h => h) (R := 0 + 1) (duties_later m (dcell c ⟨25, by decide⟩))) $$ [Hat25] with Hz25
  · isplitr; · iexact HI25
    iexact Hat25
  sl_step
  unfold post_41 ret_41
  sl_close

set_option maxHeartbeats 4000000 in
theorem exec_part42 : Spec_42 m := by
  intro K c W o
  unfold pre_42
  iintro ⟨#HIR, #Hlev, Hat34, Hc34, Hat35, Hc35, Hat36, Hc36, Hat37, Hc37, Hat38, Hc38, HO⟩
  icases HIR with ⟨HInv, HRch⟩
  unfold flatInv flatReached
  icases HInv with ⟨HIb, HIby, HIbx, HIbz, HI2, HI3, HI4, HI5, HI6, HI7, HI8, HI9, HI10, HI11, HI12, HI13, HI14, HI15, HI16, HI17, HI18, HI19, HI20, HI21, HI22, HI23, HI24, HI25, HI26, HI27, HI28, HI29, HI30, HI31, HI32, HI33, HI34, HI35, HI36, HI37, HI38, HI39, HI40, HI41, HI42, HI43, HI44, HI45, HI46, HI47, HI48, HI49, HI50, HI51, HI52, HI53, HI54, HI55, HI56, HI57, HI58, HI59, HI60, HI61, HI62, HI63, HI64, HI65, HIy10, HIy11, HIy12, HIy13, HIy14, HIy15, HIy16, HIy17, HIy63, HIy64, HIy65, HIx26, HIx27, HIx28, HIx29, HIx30, HIx31, HIx32, HIx33, HIx55, HIx56, HIx57, HIz42, HIz43, HIz44, HIz45, HIz46, HIz47, HIz48, HIz49, HIz58, HIz59⟩
  icases HRch with ⟨HRby, HRbx, HRbz, HR2, HR3, HR4, HR5, HR6, HR7, HR8, HR9, HR10, HR11, HR12, HR13, HR14, HR15, HR16, HR17, HR18, HR19, HR20, HR21, HR22, HR23, HR24, HR25, HR26, HR27, HR28, HR29, HR30, HR31, HR32, HR33, HR34, HR35, HR36, HR37, HR38, HR39, HR40, HR41, HR42, HR43, HR44, HR45, HR46, HR47, HR48, HR49, HR50, HR51, HR52, HR53, HR54, HR55, HR56, HR57, HR58, HR59, HR60, HR61, HR62, HR63, HR64, HR65, HRy10, HRy11, HRy12, HRy13, HRy14, HRy15, HRy16, HRy17, HRy63, HRy64, HRy65, HRx26, HRx27, HRx28, HRx29, HRx30, HRx31, HRx32, HRx33, HRx55, HRx56, HRx57, HRz42, HRz43, HRz44, HRz45, HRz46, HRz47, HRz48, HRz49, HRz58, HRz59⟩
  rw [k0_part42_eq_skeleton]; unfold k0_part42_skel
  sl_exec (disch := simp only [sl_canon])
  imod (Rounds.cell_close ER (Rd m) (Set.mem_univ (K (c, ⟨32, by decide⟩))) (fun h => h) (R := 0 + 1) (duties_later m (dcell c ⟨34, by decide⟩))) $$ [Hat34] with Hz34
  · isplitr; · iexact HI34
    iexact Hat34
  imod (Rounds.cell_close ER (Rd m) (Set.mem_univ (K (c, ⟨33, by decide⟩))) (fun h => h) (R := 0 + 1) (duties_later m (dcell c ⟨35, by decide⟩))) $$ [Hat35] with Hz35
  · isplitr; · iexact HI35
    iexact Hat35
  imod (Rounds.cell_close ER (Rd m) (Set.mem_univ (K (c, ⟨34, by decide⟩))) (fun h => h) (R := 0 + 1) (duties_later m (dcell c ⟨36, by decide⟩))) $$ [Hat36] with Hz36
  · isplitr; · iexact HI36
    iexact Hat36
  imod (Rounds.cell_close ER (Rd m) (Set.mem_univ (K (c, ⟨35, by decide⟩))) (fun h => h) (R := 0 + 1) (duties_later m (dcell c ⟨37, by decide⟩))) $$ [Hat37] with Hz37
  · isplitr; · iexact HI37
    iexact Hat37
  imod (Rounds.cell_close ER (Rd m) (Set.mem_univ (K (c, ⟨36, by decide⟩))) (fun h => h) (R := 0 + 1) (duties_later m (dcell c ⟨38, by decide⟩))) $$ [Hat38] with Hz38
  · isplitr; · iexact HI38
    iexact Hat38
  sl_step
  unfold post_42 ret_42
  sl_close

set_option maxHeartbeats 4000000 in
theorem exec_part43 : Spec_43 m := by
  intro K c W o
  unfold pre_43
  iintro ⟨#HIR, #Hlev, Hat39, Hc39, Hat40, Hc40, Hat41, Hc41, Hat50, Hc50, Hat51, Hc51, HO⟩
  icases HIR with ⟨HInv, HRch⟩
  unfold flatInv flatReached
  icases HInv with ⟨HIb, HIby, HIbx, HIbz, HI2, HI3, HI4, HI5, HI6, HI7, HI8, HI9, HI10, HI11, HI12, HI13, HI14, HI15, HI16, HI17, HI18, HI19, HI20, HI21, HI22, HI23, HI24, HI25, HI26, HI27, HI28, HI29, HI30, HI31, HI32, HI33, HI34, HI35, HI36, HI37, HI38, HI39, HI40, HI41, HI42, HI43, HI44, HI45, HI46, HI47, HI48, HI49, HI50, HI51, HI52, HI53, HI54, HI55, HI56, HI57, HI58, HI59, HI60, HI61, HI62, HI63, HI64, HI65, HIy10, HIy11, HIy12, HIy13, HIy14, HIy15, HIy16, HIy17, HIy63, HIy64, HIy65, HIx26, HIx27, HIx28, HIx29, HIx30, HIx31, HIx32, HIx33, HIx55, HIx56, HIx57, HIz42, HIz43, HIz44, HIz45, HIz46, HIz47, HIz48, HIz49, HIz58, HIz59⟩
  icases HRch with ⟨HRby, HRbx, HRbz, HR2, HR3, HR4, HR5, HR6, HR7, HR8, HR9, HR10, HR11, HR12, HR13, HR14, HR15, HR16, HR17, HR18, HR19, HR20, HR21, HR22, HR23, HR24, HR25, HR26, HR27, HR28, HR29, HR30, HR31, HR32, HR33, HR34, HR35, HR36, HR37, HR38, HR39, HR40, HR41, HR42, HR43, HR44, HR45, HR46, HR47, HR48, HR49, HR50, HR51, HR52, HR53, HR54, HR55, HR56, HR57, HR58, HR59, HR60, HR61, HR62, HR63, HR64, HR65, HRy10, HRy11, HRy12, HRy13, HRy14, HRy15, HRy16, HRy17, HRy63, HRy64, HRy65, HRx26, HRx27, HRx28, HRx29, HRx30, HRx31, HRx32, HRx33, HRx55, HRx56, HRx57, HRz42, HRz43, HRz44, HRz45, HRz46, HRz47, HRz48, HRz49, HRz58, HRz59⟩
  rw [k0_part43_eq_skeleton]; unfold k0_part43_skel
  sl_exec (disch := simp only [sl_canon])
  imod (Rounds.cell_close ER (Rd m) (Set.mem_univ (K (c, ⟨37, by decide⟩))) (fun h => h) (R := 0 + 1) (duties_later m (dcell c ⟨39, by decide⟩))) $$ [Hat39] with Hz39
  · isplitr; · iexact HI39
    iexact Hat39
  imod (Rounds.cell_close ER (Rd m) (Set.mem_univ (K (c, ⟨38, by decide⟩))) (fun h => h) (R := 0 + 1) (duties_later m (dcell c ⟨40, by decide⟩))) $$ [Hat40] with Hz40
  · isplitr; · iexact HI40
    iexact Hat40
  imod (Rounds.cell_close ER (Rd m) (Set.mem_univ (K (c, ⟨39, by decide⟩))) (fun h => h) (R := 0 + 1) (duties_later m (dcell c ⟨41, by decide⟩))) $$ [Hat41] with Hz41
  · isplitr; · iexact HI41
    iexact Hat41
  imod (Rounds.cell_close ER (Rd m) (Set.mem_univ (K (c, ⟨48, by decide⟩))) (fun h => h) (R := 0 + 1) (duties_later m (dcell c ⟨50, by decide⟩))) $$ [Hat50] with Hz50
  · isplitr; · iexact HI50
    iexact Hat50
  imod (Rounds.cell_close ER (Rd m) (Set.mem_univ (K (c, ⟨49, by decide⟩))) (fun h => h) (R := 0 + 1) (duties_later m (dcell c ⟨51, by decide⟩))) $$ [Hat51] with Hz51
  · isplitr; · iexact HI51
    iexact Hat51
  sl_step
  unfold post_43 ret_43
  sl_close

end Cert.KernelIdeal.RS

end
-- ==== Proof.Body.lean ====
import proofs.«901037_g7700000000001038_dist_rs_v7x_xyz2x2x4_y_m1024_n512_f32_1_alg».proof.Proof.Regroup
import proofs.«901037_g7700000000001038_dist_rs_v7x_xyz2x2x4_y_m1024_n512_f32_1_alg».proof.Proof.Wrap
import proofs.«901037_g7700000000001038_dist_rs_v7x_xyz2x2x4_y_m1024_n512_f32_1_alg».proof.Proof.PartsM
import proofs.«901037_g7700000000001038_dist_rs_v7x_xyz2x2x4_y_m1024_n512_f32_1_alg».proof.Proof.PartsA
import proofs.«901037_g7700000000001038_dist_rs_v7x_xyz2x2x4_y_m1024_n512_f32_1_alg».proof.Proof.PartsB
import proofs.«901037_g7700000000001038_dist_rs_v7x_xyz2x2x4_y_m1024_n512_f32_1_alg».proof.Proof.PartsC
import Idealize.ShloMosaic.Lib.Tactic

noncomputable section

namespace Cert.KernelIdeal.RS

open Cert.KernelIdeal Cert.KernelIdeal.Gen Cert.KernelIdeal.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

-- The 43 parts in sequence take what the launch hands a device to what the launch takes back.
theorem sound_body (K : Dev nD × Fin 65 → ℕ) (c : Dev nD) (W : Waits sig Unit) (g1 : oM.view.ty.Contents (Elt F)) (Kt : PUnit → sProp 𝕄) :
    iprop(□ (flatInv m K c ∗ flatReached (F := F) c) ∗ flatLin (F := F) c ∗ levAts L lv ∗ flatOwes (F := F) c W ∗ own32 (F := F) c ∗ xPieces m c ∗ xRest m c ∗ (oM.view.loc (c : Thread nD τ) ↦[oM.view.set]{fullShare} g1) ∗ (bodyPost m c g1 -∗ Kt ⟨⟩))
      ⊢ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15) Kt := by
  iintro ⟨#HIR, HL, #Hlev, HO, H32, Hxp, Hxr, Hout, Hk⟩
  iapply (spec_cps (body_chain m (exec_part1 m) (exec_part2 m) (exec_part3 m) (exec_part4 m) (exec_part5 m) (exec_part6 m) (exec_part7 m) (exec_part8 m) (exec_part9 m) (exec_part10 m) (exec_part11 m) (exec_part12 m) (exec_part13 m) (exec_part14 m) (exec_part15 m) (exec_part16 m) (exec_part17 m) (exec_part18 m) (exec_part19 m) (exec_part20 m) (exec_part21 m) (exec_part22 m) (exec_part23 m) (exec_part24 m) (exec_part25 m) (exec_part26 m) (exec_part27 m) (exec_part28 m) (exec_part29 m) (exec_part30 m) (exec_part31 m) (exec_part32 m) (exec_part33 m) (exec_part34 m) (exec_part35 m) (exec_part36 m) (exec_part37 m) (exec_part38 m) (exec_part39 m) (exec_part40 m) (exec_part41 m) (exec_part42 m) (exec_part43 m) K c W g1))
  isplitl [HL HO H32 Hxp Hout]
  · isplitl []
    · imodintro; iexact HIR
    isplitl []
    · iexact Hlev
    iapply (st0_of_flat m c W g1)
    isplitl [HL]; · iexact HL
    isplitl [HO]; · iexact HO
    isplitl [H32]; · iexact H32
    isplitl [Hxp]; · iexact Hxp
    iexact Hout
  · iintro %r Hend
    iapply Hk
    iapply (post_of_end m c W g1)
    isplitl [Hend]; · iexact Hend
    iexact Hxr

theorem body_obligation (c : Dev nD) : BodyObligation (dats (F := F) m 0 c) (defs₀ (F := F)) 𝒱₀ () Set.univ :=
  body_obligation_of m (sound_body m) c

end Cert.KernelIdeal.RS

end
-- ==== Proof.FinalBits.lean ====
import proofs.«901037_g7700000000001038_dist_rs_v7x_xyz2x2x4_y_m1024_n512_f32_1_alg».proof.Proof.Body
import proofs.«901037_g7700000000001038_dist_rs_v7x_xyz2x2x4_y_m1024_n512_f32_1_alg».proof.Proof.Final
import proofs.«901037_g7700000000001038_dist_rs_v7x_xyz2x2x4_y_m1024_n512_f32_1_alg».proof.Defs
import proofs.«901037_g7700000000001038_dist_rs_v7x_xyz2x2x4_y_m1024_n512_f32_1_alg».proof.Proof.Gen.Kernel
import proofs.«901037_g7700000000001038_dist_rs_v7x_xyz2x2x4_y_m1024_n512_f32_1_alg».proof.Proof.Gen.Pre_finite_inputs_Kernel

noncomputable section

namespace Cert.KernelIdeal.RS

open Idealize.ShloMosaic Idealize.SL.Sem

-- The printed kernel and its idealization are one text under two names: the run proved for every float instance is, at the bit-exact one, the printed kernel's.
set_option smartUnfolding false in
theorem frame_bits : Cert.frame_Kernel :=
  fun m ρ _ => frame_of_body (F := Bits) m ρ (fun c => body_obligation m c)

end Cert.KernelIdeal.RS

end
-- ==== Proof.lean ====
/- The reduce-scatter of two slabs over a 2 x 2 x 4 mesh, against the sum of the slabs: device (x, y, z) holds slab y and
   ends with the columns of its half of slab 0 + slab 1. Every block of the other slab reaches it from a device with the
   other y, directly or forwarded by its x- or z-partner, and each of its 32 stores adds a received block to its own;
   addition on the extended reals is commutative, so the order of the slabs does not matter. Waits are ordered by
   levels, so no cycle of waiting devices exists. The ideal pass rewrote nothing: the printed kernel's frame is the
   same run at the bit-exact instance. -/
import proofs.«901037_g7700000000001038_dist_rs_v7x_xyz2x2x4_y_m1024_n512_f32_1_alg».proof.Defs
import proofs.«901037_g7700000000001038_dist_rs_v7x_xyz2x2x4_y_m1024_n512_f32_1_alg».proof.Proof.Gen.Kernel
import proofs.«901037_g7700000000001038_dist_rs_v7x_xyz2x2x4_y_m1024_n512_f32_1_alg».proof.Proof.Gen.KernelIdeal
import proofs.«901037_g7700000000001038_dist_rs_v7x_xyz2x2x4_y_m1024_n512_f32_1_alg».proof.Proof.Gen.ReferenceIdeal
import proofs.«901037_g7700000000001038_dist_rs_v7x_xyz2x2x4_y_m1024_n512_f32_1_alg».proof.Proof.Gen.Pre_finite_inputs_Kernel
import proofs.«901037_g7700000000001038_dist_rs_v7x_xyz2x2x4_y_m1024_n512_f32_1_alg».proof.Proof.Gen.Pre_finite_inputs_ReferenceIdeal
import proofs.«901037_g7700000000001038_dist_rs_v7x_xyz2x2x4_y_m1024_n512_f32_1_alg».proof.Proof.RefSide
import proofs.«901037_g7700000000001038_dist_rs_v7x_xyz2x2x4_y_m1024_n512_f32_1_alg».proof.Proof.FinalIdeal
import proofs.«901037_g7700000000001038_dist_rs_v7x_xyz2x2x4_y_m1024_n512_f32_1_alg».proof.Proof.FinalBits
import proofs.«901037_g7700000000001038_dist_rs_v7x_xyz2x2x4_y_m1024_n512_f32_1_alg».proof.Proof.Body

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Pre_finite_inputs_Kernel.Gen.facts, Cert.Pre_finite_inputs_ReferenceIdeal.Gen.facts,
    Cert.KernelIdeal.RS.frame_bits,
    Cert.KernelIdeal.RS.frameI_of_body (fun m c => Cert.KernelIdeal.RS.body_obligation m c),
    Cert.RefSide.frame_ref,
    trivial,
    Cert.KernelIdeal.RS.algebraic_of_body (fun m c => Cert.KernelIdeal.RS.body_obligation m c)⟩

end Cert.Proof

end
